-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v25)) (v1 : (c : Dev Cert.KernelIdeal.nD) → Buf (Elt Ideal) ((c.tc : Thread Cert.KernelIdeal.nD Cert.KernelIdeal.τ).loc Cert.KernelIdeal.main_v28)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v25) = v0 c
          ∧ r.2.mem ((c.tc : Thread Cert.KernelIdeal.nD Cert.KernelIdeal.τ).loc Cert.KernelIdeal.main_v28) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v164) = v0 c
          ∧ r.2.mem ((c.tc : Thread Cert.ReferenceIdeal.nD Cert.ReferenceIdeal.τ).loc Cert.ReferenceIdeal.main_v167) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x512 : Shape := ⟨2, ![64, 512]⟩
abbrev S2x64x32768 : Shape := ⟨3, ![2, 64, 32768]⟩
abbrev S512x512 : Shape := ⟨2, ![512, 512]⟩
abbrev S195x128 : Shape := ⟨2, ![195, 128]⟩
abbrev S128 : Shape := ⟨1, ![128]⟩
abbrev S195x64 : Shape := ⟨2, ![195, 64]⟩
abbrev S64 : Shape := ⟨1, ![64]⟩
abbrev S384x128 : Shape := ⟨2, ![384, 128]⟩
abbrev S384x64 : Shape := ⟨2, ![384, 64]⟩
abbrev S64x1 : Shape := ⟨2, ![64, 1]⟩
abbrev S1 : Shape := ⟨1, ![1]⟩
abbrev S_ : Shape := ⟨0, ![]⟩

class Facts : Prop where
  bcast_S_S64x512 : S_.BroadcastsInDim S64x512 (![] : Fin 0 → Fin S64x512.rank)
  reducesTo_S64x512_S_d0_1 : S64x512.ReducesTo [0, 1] S_
  h_S_ : 0 < S_.numel
  bcast_S_S2x64x32768 : S_.BroadcastsInDim S2x64x32768 (![] : Fin 0 → Fin S2x64x32768.rank)
  reducesTo_S2x64x32768_S_d0_1_2 : S2x64x32768.ReducesTo [0, 1, 2] S_
  bcast_S_S512x512 : S_.BroadcastsInDim S512x512 (![] : Fin 0 → Fin S512x512.rank)
  reducesTo_S512x512_S_d0_1 : S512x512.ReducesTo [0, 1] S_
  bcast_S_S195x128 : S_.BroadcastsInDim S195x128 (![] : Fin 0 → Fin S195x128.rank)
  reducesTo_S195x128_S_d0_1 : S195x128.ReducesTo [0, 1] S_
  bcast_S_S128 : S_.BroadcastsInDim S128 (![] : Fin 0 → Fin S128.rank)
  reducesTo_S128_S_d0 : S128.ReducesTo [0] S_
  bcast_S_S195x64 : S_.BroadcastsInDim S195x64 (![] : Fin 0 → Fin S195x64.rank)
  reducesTo_S195x64_S_d0_1 : S195x64.ReducesTo [0, 1] S_
  bcast_S_S64 : S_.BroadcastsInDim S64 (![] : Fin 0 → Fin S64.rank)
  reducesTo_S64_S_d0 : S64.ReducesTo [0] S_
  bcast_S_S384x128 : S_.BroadcastsInDim S384x128 (![] : Fin 0 → Fin S384x128.rank)
  reducesTo_S384x128_S_d0_1 : S384x128.ReducesTo [0, 1] S_
  bcast_S_S384x64 : S_.BroadcastsInDim S384x64 (![] : Fin 0 → Fin S384x64.rank)
  reducesTo_S384x64_S_d0_1 : S384x64.ReducesTo [0, 1] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_

variable [Facts]

def fn_part3 {F : FTy → Type} [FloatOps F] (main_arg11 : FVec F S64x1 .f32) (main_arg12 : FVec F S1 .f32) (main_v48 : IVec S_ 1) (main_v49 : FVec F S64 .f32) (main_v50 : FVec F S64 .f32) : IVec S_ 1 :=
  let main_v51 : IVec S64 1 := cmpf .olt main_v49 main_v50
  let main_c_19 : IVec S_ 1 := constantI S_ 1 1#1
  let main_v52 : IVec S_ 1 := (fun x v => Host.reduce IntOp.andi x v reducesTo_S64_S_d0 h_S_) main_v51 main_c_19
  let main_v53 : IVec S_ 1 := andi main_v48 main_v52
  let main_v54 : FVec F S64x1 .f32 := Host.absf main_arg11
  let main_cst_20 : FVec F S_ .f32 := constant S_ .f32 0x7F800000#32
  let main_v55 : FVec F S64x1 .f32 := broadcastInDim S64x1 ![] bcast_S_S64x1 main_cst_20
  let main_v56 : IVec S64x1 1 := cmpf .olt main_v54 main_v55
  let main_c_21 : IVec S_ 1 := constantI S_ 1 1#1
  let main_v57 : IVec S_ 1 := (fun x v => Host.reduce IntOp.andi x v reducesTo_S64x1_S_d0_1 h_S_) main_v56 main_c_21
  let main_v58 : IVec S_ 1 := andi main_v53 main_v57
  let main_v59 : FVec F S1 .f32 := Host.absf main_arg12
  let main_cst_22 : FVec F S_ .f32 := constant S_ .f32 0x7F800000#32
  let main_v60 : FVec F S1 .f32 := broadcastInDim S1 ![] bcast_S_S1 main_cst_22
  let main_v61 : IVec S1 1 := cmpf .olt main_v59 main_v60
  let main_c_23 : IVec S_ 1 := constantI S_ 1 1#1
  let main_v62 : IVec S_ 1 := (fun x v => Host.reduce IntOp.andi x v reducesTo_S1_S_d0 h_S_) main_v61 main_c_23
  let main_v63 : IVec S_ 1 := andi main_v58 main_v62
  main_v63

def fn_part2 {F : FTy → Type} [FloatOps F] (main_arg7 : FVec F S384x128 .f32) (main_arg8 : FVec F S128 .f32) (main_arg9 : FVec F S384x64 .f32) (main_arg10 : FVec F S64 .f32) (main_arg11 : FVec F S64x1 .f32) (main_arg12 : FVec F S1 .f32) (main_v33 : IVec S_ 1) : IVec S_ 1 :=
  let main_v34 : FVec F S384x128 .f32 := Host.absf main_arg7
  let main_cst_12 : FVec F S_ .f32 := constant S_ .f32 0x7F800000#32
  let main_v35 : FVec F S384x128 .f32 := broadcastInDim S384x128 ![] bcast_S_S384x128 main_cst_12
  let main_v36 : IVec S384x128 1 := cmpf .olt main_v34 main_v35
  let main_c_13 : IVec S_ 1 := constantI S_ 1 1#1
  let main_v37 : IVec S_ 1 := (fun x v => Host.reduce IntOp.andi x v reducesTo_S384x128_S_d0_1 h_S_) main_v36 main_c_13
  let main_v38 : IVec S_ 1 := andi main_v33 main_v37
  let main_v39 : FVec F S128 .f32 := Host.absf main_arg8
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S384x64 .f32 := Host.absf main_arg9
  let main_cst_16 : FVec F S_ .f32 := constant S_ .f32 0x7F800000#32
  let main_v45 : FVec F S384x64 .f32 := broadcastInDim S384x64 ![] bcast_S_S384x64 main_cst_16
  let main_v46 : IVec S384x64 1 := cmpf .olt main_v44 main_v45
  let main_c_17 : IVec S_ 1 := constantI S_ 1 1#1
  let main_v47 : IVec S_ 1 := (fun x v => Host.reduce IntOp.andi x v reducesTo_S384x64_S_d0_1 h_S_) main_v46 main_c_17
  let main_v48 : IVec S_ 1 := andi main_v43 main_v47
  let main_v49 : FVec F S64 .f32 := Host.absf main_arg10
  let main_cst_18 : FVec F S_ .f32 := constant S_ .f32 0x7F800000#32
  let main_v50 : FVec F S64 .f32 := broadcastInDim S64 ![] bcast_S_S64 main_cst_18
  fn_part3 (F := F) main_arg11 main_arg12 main_v48 main_v49 main_v50

def fn_part1 {F : FTy → Type} [FloatOps F] (main_arg4 : FVec F S128 .f32) (main_arg5 : FVec F S195x64 .f32) (main_arg6 : FVec F S64 .f32) (main_arg7 : FVec F S384x128 .f32) (main_arg8 : FVec F S128 .f32) (main_arg9 : FVec F S384x64 .f32) (main_arg10 : FVec F S64 .f32) (main_arg11 : FVec F S64x1 .f32) (main_arg12 : FVec F S1 .f32) (main_v13 : IVec S_ 1) (main_v16 : IVec S195x128 1) : IVec S_ 1 :=
  let main_c_5 : IVec S_ 1 := constantI S_ 1 1#1
  let main_v17 : IVec S_ 1 := (fun x v => Host.reduce IntOp.andi x v reducesTo_S195x128_S_d0_1 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S195x64 .f32 := Host.absf main_arg5
  let main_cst_8 : FVec F S_ .f32 := constant S_ .f32 0x7F800000#32
  let main_v25 : FVec F S195x64 .f32 := broadcastInDim S195x64 ![] bcast_S_S195x64 main_cst_8
  let main_v26 : IVec S195x64 1 := cmpf .olt main_v24 main_v25
  let main_c_9 : IVec S_ 1 := constantI S_ 1 1#1
  let main_v27 : IVec S_ 1 := (fun x v => Host.reduce IntOp.andi x v reducesTo_S195x64_S_d0_1 h_S_) main_v26 main_c_9
  let main_v28 : IVec S_ 1 := andi main_v23 main_v27
  let main_v29 : FVec F S64 .f32 := Host.absf main_arg6
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg7 main_arg8 main_arg9 main_arg10 main_arg11 main_arg12 main_v33

def fn {F : FTy → Type} [FloatOps F] (main_arg0 : FVec F S64x512 .f32) (main_arg1 : FVec F S2x64x32768 .f32) (main_arg2 : FVec F S512x512 .f32) (main_arg3 : FVec F S195x128 .f32) (main_arg4 : FVec F S128 .f32) (main_arg5 : FVec F S195x64 .f32) (main_arg6 : FVec F S64 .f32) (main_arg7 : FVec F S384x128 .f32) (main_arg8 : FVec F S128 .f32) (main_arg9 : FVec F S384x64 .f32) (main_arg10 : FVec F S64 .f32) (main_arg11 : FVec F S64x1 .f32) (main_arg12 : FVec F S1 .f32) : IVec S_ 1 :=
  let main_v0 : FVec F S64x512 .f32 := Host.absf main_arg0
  let main_cst : FVec F S_ .f32 := constant S_ .f32 0x7F800000#32
  let main_v1 : FVec F S64x512 .f32 := broadcastInDim S64x512 ![] bcast_S_S64x512 main_cst
  let main_v2 : IVec S64x512 1 := cmpf .olt main_v0 main_v1
  let main_c : IVec S_ 1 := constantI S_ 1 1#1
  let main_v3 : IVec S_ 1 := (fun x v => Host.reduce IntOp.andi x v reducesTo_S64x512_S_d0_1 h_S_) main_v2 main_c
  let main_v4 : FVec F S2x64x32768 .f32 := Host.absf main_arg1
  let main_cst_0 : FVec F S_ .f32 := constant S_ .f32 0x7F800000#32
  let main_v5 : FVec F S2x64x32768 .f32 := broadcastInDim S2x64x32768 ![] bcast_S_S2x64x32768 main_cst_0
  let main_v6 : IVec S2x64x32768 1 := cmpf .olt main_v4 main_v5
  let main_c_1 : IVec S_ 1 := constantI S_ 1 1#1
  let main_v7 : IVec S_ 1 := (fun x v => Host.reduce IntOp.andi x v reducesTo_S2x64x32768_S_d0_1_2 h_S_) main_v6 main_c_1
  let main_v8 : IVec S_ 1 := andi main_v3 main_v7
  let main_v9 : FVec F S512x512 .f32 := Host.absf main_arg2
  let main_cst_2 : FVec F S_ .f32 := constant S_ .f32 0x7F800000#32
  let main_v10 : FVec F S512x512 .f32 := broadcastInDim S512x512 ![] bcast_S_S512x512 main_cst_2
  let main_v11 : IVec S512x512 1 := cmpf .olt main_v9 main_v10
  let main_c_3 : IVec S_ 1 := constantI S_ 1 1#1
  let main_v12 : IVec S_ 1 := (fun x v => Host.reduce IntOp.andi x v reducesTo_S512x512_S_d0_1 h_S_) main_v11 main_c_3
  let main_v13 : IVec S_ 1 := andi main_v8 main_v12
  let main_v14 : FVec F S195x128 .f32 := Host.absf main_arg3
  let main_cst_4 : FVec F S_ .f32 := constant S_ .f32 0x7F800000#32
  let main_v15 : FVec F S195x128 .f32 := broadcastInDim S195x128 ![] bcast_S_S195x128 main_cst_4
  let main_v16 : IVec S195x128 1 := cmpf .olt main_v14 main_v15
  fn_part1 (F := F) main_arg4 main_arg5 main_arg6 main_arg7 main_arg8 main_arg9 main_arg10 main_arg11 main_arg12 main_v13 main_v16
-- ==== Kernel.lean ====
abbrev S64x512 : Shape := ⟨2, ![64, 512]⟩
abbrev S2x64x32768 : Shape := ⟨3, ![2, 64, 32768]⟩
abbrev S512x512 : Shape := ⟨2, ![512, 512]⟩
abbrev S195x128 : Shape := ⟨2, ![195, 128]⟩
abbrev S128 : Shape := ⟨1, ![128]⟩
abbrev S195x64 : Shape := ⟨2, ![195, 64]⟩
abbrev S64 : Shape := ⟨1, ![64]⟩
abbrev S384x128 : Shape := ⟨2, ![384, 128]⟩
abbrev S384x64 : Shape := ⟨2, ![384, 64]⟩
abbrev S64x1 : Shape := ⟨2, ![64, 1]⟩
abbrev S1 : Shape := ⟨1, ![1]⟩
abbrev S512x64 : Shape := ⟨2, ![512, 64]⟩
abbrev S2x32x2x512x64 : Shape := ⟨5, ![2, 32, 2, 512, 64]⟩
abbrev S2x32x512x2x64 : Shape := ⟨5, ![2, 32, 512, 2, 64]⟩
abbrev S2x32x512x128 : Shape := ⟨4, ![2, 32, 512, 128]⟩
abbrev S65x3x128 : Shape := ⟨3, ![65, 3, 128]⟩
abbrev S3x65x128 : Shape := ⟨3, ![3, 65, 128]⟩
abbrev S65x3x64 : Shape := ⟨3, ![65, 3, 64]⟩
abbrev S3x65x64 : Shape := ⟨3, ![3, 65, 64]⟩
abbrev S128x3x128 : Shape := ⟨3, ![128, 3, 128]⟩
abbrev S3x128x128 : Shape := ⟨3, ![3, 128, 128]⟩
abbrev S128x3x64 : Shape := ⟨3, ![128, 3, 64]⟩
abbrev S3x128x64 : Shape := ⟨3, ![3, 128, 64]⟩
abbrev S1x128 : Shape := ⟨2, ![1, 128]⟩
abbrev S1x64 : Shape := ⟨2, ![1, 64]⟩
abbrev S6x256 : Shape := ⟨2, ![6, 256]⟩
abbrev S3x128x256 : Shape := ⟨3, ![3, 128, 256]⟩
abbrev S1x256 : Shape := ⟨2, ![1, 256]⟩
abbrev S6x128 : Shape := ⟨2, ![6, 128]⟩
abbrev S128x2 : Shape := ⟨2, ![128, 2]⟩
abbrev S512 : Shape := ⟨1, ![512]⟩
abbrev S512x1 : Shape := ⟨2, ![512, 1]⟩
abbrev S1x512 : Shape := ⟨2, ![1, 512]⟩
abbrev S1x1x64 : Shape := ⟨3, ![1, 1, 64]⟩
abbrev S1x64x64 : Shape := ⟨3, ![1, 64, 64]⟩
abbrev S64x64 : Shape := ⟨2, ![64, 64]⟩
abbrev S1x512x64 : Shape := ⟨3, ![1, 512, 64]⟩
abbrev S3x512x64 : Shape := ⟨3, ![3, 512, 64]⟩
abbrev S64x3x512 : Shape := ⟨3, ![64, 3, 512]⟩
abbrev S32x6x512 : Shape := ⟨3, ![32, 6, 512]⟩
abbrev S1x1 : Shape := ⟨2, ![1, 1]⟩
abbrev S32x2x512 : Shape := ⟨3, ![32, 2, 512]⟩
abbrev S1x6x512 : Shape := ⟨3, ![1, 6, 512]⟩
abbrev S2x1x512x128 : Shape := ⟨4, ![2, 1, 512, 128]⟩
abbrev S1x2x512 : Shape := ⟨3, ![1, 2, 512]⟩
abbrev S6x512 : Shape := ⟨2, ![6, 512]⟩
abbrev S512x6 : Shape := ⟨2, ![512, 6]⟩
abbrev S1x1x512x128 : Shape := ⟨4, ![1, 1, 512, 128]⟩
abbrev S512x128 : Shape := ⟨2, ![512, 128]⟩
abbrev S512x256 : Shape := ⟨2, ![512, 256]⟩
abbrev S1x128x256 : Shape := ⟨3, ![1, 128, 256]⟩
abbrev S128x256 : Shape := ⟨2, ![128, 256]⟩
abbrev S1x128x128 : Shape := ⟨3, ![1, 128, 128]⟩
abbrev S128x128 : Shape := ⟨2, ![128, 128]⟩
abbrev S512x2 : Shape := ⟨2, ![512, 2]⟩
abbrev S2x512 : Shape := ⟨2, ![2, 512]⟩

abbrev nBuf : Space → Nat
  | .hbm => 58
  | .vmem => 50
  | .smem => 0
  | _ => 0

abbrev bufTy : (tb : Table) → Fin (tcTables nBuf tb) → BufTy
  | .hbm, ⟨0, _⟩ => ⟨S64x512, .f32⟩
  | .hbm, ⟨1, _⟩ => ⟨S2x64x32768, .f32⟩
  | .hbm, ⟨2, _⟩ => ⟨S512x512, .f32⟩
  | .hbm, ⟨3, _⟩ => ⟨S195x128, .f32⟩
  | .hbm, ⟨4, _⟩ => ⟨S128, .f32⟩
  | .hbm, ⟨5, _⟩ => ⟨S195x64, .f32⟩
  | .hbm, ⟨6, _⟩ => ⟨S64, .f32⟩
  | .hbm, ⟨7, _⟩ => ⟨S384x128, .f32⟩
  | .hbm, ⟨8, _⟩ => ⟨S128, .f32⟩
  | .hbm, ⟨9, _⟩ => ⟨S384x64, .f32⟩
  | .hbm, ⟨10, _⟩ => ⟨S64, .f32⟩
  | .hbm, ⟨11, _⟩ => ⟨S64x1, .f32⟩
  | .hbm, ⟨12, _⟩ => ⟨S1, .f32⟩
  | .hbm, ⟨13, _⟩ => ⟨S512x64, .f32⟩
  | .hbm, ⟨14, _⟩ => ⟨S2x32x2x512x64, .f32⟩
  | .hbm, ⟨15, _⟩ => ⟨S2x32x512x2x64, .f32⟩
  | .hbm, ⟨16, _⟩ => ⟨S2x32x512x128, .f32⟩
  | .hbm, ⟨17, _⟩ => ⟨S65x3x128, .f32⟩
  | .hbm, ⟨18, _⟩ => ⟨S3x65x128, .f32⟩
  | .hbm, ⟨19, _⟩ => ⟨S65x3x64, .f32⟩
  | .hbm, ⟨20, _⟩ => ⟨S3x65x64, .f32⟩
  | .hbm, ⟨21, _⟩ => ⟨S128x3x128, .f32⟩
  | .hbm, ⟨22, _⟩ => ⟨S3x128x128, .f32⟩
  | .hbm, ⟨23, _⟩ => ⟨S128x3x64, .f32⟩
  | .hbm, ⟨24, _⟩ => ⟨S3x128x64, .f32⟩
  | .hbm, ⟨25, _⟩ => ⟨S1x128, .f32⟩
  | .hbm, ⟨26, _⟩ => ⟨S1x64, .f32⟩
  | .hbm, ⟨27, _⟩ => ⟨S1x128, .f32⟩
  | .hbm, ⟨28, _⟩ => ⟨S1x64, .f32⟩
  | .hbm, ⟨29, _⟩ => ⟨S512x512, .f32⟩
  | .hbm, ⟨30, _⟩ => ⟨S512x64, .f32⟩
  | .hbm, ⟨31, _⟩ => ⟨S512x64, .f32⟩
  | .hbm, ⟨32, _⟩ => ⟨S6x256, .f32⟩
  | .hbm, ⟨33, _⟩ => ⟨S3x128x256, .f32⟩
  | .hbm, ⟨34, _⟩ => ⟨S1x256, .f32⟩
  | .hbm, ⟨35, _⟩ => ⟨S6x128, .f32⟩
  | .hbm, ⟨36, _⟩ => ⟨S3x128x128, .f32⟩
  | .hbm, ⟨37, _⟩ => ⟨S1x128, .f32⟩
  | .hbm, ⟨38, _⟩ => ⟨S3x128x256, .f32⟩
  | .hbm, ⟨39, _⟩ => ⟨S3x128x256, .f32⟩
  | .hbm, ⟨40, _⟩ => ⟨S1x256, .f32⟩
  | .hbm, ⟨41, _⟩ => ⟨S3x128x128, .f32⟩
  | .hbm, ⟨42, _⟩ => ⟨S3x128x128, .f32⟩
  | .hbm, ⟨43, _⟩ => ⟨S1x128, .f32⟩
  | .hbm, ⟨44, _⟩ => ⟨S128x2, .f32⟩
  | .hbm, ⟨45, _⟩ => ⟨S1x512x64, .f32⟩
  | .hbm, ⟨46, _⟩ => ⟨S1x512x64, .f32⟩
  | .hbm, ⟨47, _⟩ => ⟨S1x512x64, .f32⟩
  | .hbm, ⟨48, _⟩ => ⟨S3x512x64, .f32⟩
  | .hbm, ⟨49, _⟩ => ⟨S64x3x512, .f32⟩
  | .hbm, ⟨50, _⟩ => ⟨S32x6x512, .f32⟩
  | .hbm, ⟨51, _⟩ => ⟨S1x1, .f32⟩
  | .hbm, ⟨52, _⟩ => ⟨S32x2x512, .f32⟩
  | .hbm, ⟨53, _⟩ => ⟨S2x32x512x128, .f32⟩
  | .hbm, ⟨54, _⟩ => ⟨S64x512, .f32⟩
  | .hbm, ⟨55, _⟩ => ⟨S2x32x512x2x64, .f32⟩
  | .hbm, ⟨56, _⟩ => ⟨S2x32x2x512x64, .f32⟩
  | .hbm, ⟨57, _⟩ => ⟨S2x64x32768, .f32⟩
  | .local _ .vmem, ⟨0, _⟩ => ⟨S512x512, .f32⟩
  | .local _ .vmem, ⟨1, _⟩ => ⟨S512x64, .f32⟩
  | .local _ .vmem, ⟨2, _⟩ => ⟨S3x65x128, .f32⟩
  | .local _ .vmem, ⟨3, _⟩ => ⟨S3x65x64, .f32⟩
  | .local _ .vmem, ⟨4, _⟩ => ⟨S3x128x128, .f32⟩
  | .local _ .vmem, ⟨5, _⟩ => ⟨S3x128x64, .f32⟩
  | .local _ .vmem, ⟨6, _⟩ => ⟨S1x128, .f32⟩
  | .local _ .vmem, ⟨7, _⟩ => ⟨S1x64, .f32⟩
  | .local _ .vmem, ⟨8, _⟩ => ⟨S1x128, .f32⟩
  | .local _ .vmem, ⟨9, _⟩ => ⟨S1x64, .f32⟩
  | .local _ .vmem, ⟨10, _⟩ => ⟨S64x1, .f32⟩
  | .local _ .vmem, ⟨11, _⟩ => ⟨S512x512, .f32⟩
  | .local _ .vmem, ⟨12, _⟩ => ⟨S512x64, .f32⟩
  | .local _ .vmem, ⟨13, _⟩ => ⟨S512x64, .f32⟩
  | .local _ .vmem, ⟨14, _⟩ => ⟨S6x256, .f32⟩
  | .local _ .vmem, ⟨15, _⟩ => ⟨S3x128x256, .f32⟩
  | .local _ .vmem, ⟨16, _⟩ => ⟨S1x256, .f32⟩
  | .local _ .vmem, ⟨17, _⟩ => ⟨S6x128, .f32⟩
  | .local _ .vmem, ⟨18, _⟩ => ⟨S3x128x128, .f32⟩
  | .local _ .vmem, ⟨19, _⟩ => ⟨S1x128, .f32⟩
  | .local _ .vmem, ⟨20, _⟩ => ⟨S3x128x256, .f32⟩
  | .local _ .vmem, ⟨21, _⟩ => ⟨S3x128x256, .f32⟩
  | .local _ .vmem, ⟨22, _⟩ => ⟨S1x256, .f32⟩
  | .local _ .vmem, ⟨23, _⟩ => ⟨S3x128x128, .f32⟩
  | .local _ .vmem, ⟨24, _⟩ => ⟨S3x128x128, .f32⟩
  | .local _ .vmem, ⟨25, _⟩ => ⟨S1x128, .f32⟩
  | .local _ .vmem, ⟨26, _⟩ => ⟨S128x2, .f32⟩
  | .local _ .vmem, ⟨27, _⟩ => ⟨S512x512, .f32⟩
  | .local _ .vmem, ⟨28, _⟩ => ⟨S1x6x512, .f32⟩
  | .local _ .vmem, ⟨29, _⟩ => ⟨S1x6x512, .f32⟩
  | .local _ .vmem, ⟨30, _⟩ => ⟨S2x1x512x128, .f32⟩
  | .local _ .vmem, ⟨31, _⟩ => ⟨S2x1x512x128, .f32⟩
  | .local _ .vmem, ⟨32, _⟩ => ⟨S6x256, .f32⟩
  | .local _ .vmem, ⟨33, _⟩ => ⟨S3x128x256, .f32⟩
  | .local _ .vmem, ⟨34, _⟩ => ⟨S1x256, .f32⟩
  | .local _ .vmem, ⟨35, _⟩ => ⟨S6x128, .f32⟩
  | .local _ .vmem, ⟨36, _⟩ => ⟨S3x128x128, .f32⟩
  | .local _ .vmem, ⟨37, _⟩ => ⟨S1x128, .f32⟩
  | .local _ .vmem, ⟨38, _⟩ => ⟨S3x128x256, .f32⟩
  | .local _ .vmem, ⟨39, _⟩ => ⟨S3x128x256, .f32⟩
  | .local _ .vmem, ⟨40, _⟩ => ⟨S1x256, .f32⟩
  | .local _ .vmem, ⟨41, _⟩ => ⟨S3x128x128, .f32⟩
  | .local _ .vmem, ⟨42, _⟩ => ⟨S3x128x128, .f32⟩
  | .local _ .vmem, ⟨43, _⟩ => ⟨S1x128, .f32⟩
  | .local _ .vmem, ⟨44, _⟩ => ⟨S128x2, .f32⟩
  | .local _ .vmem, ⟨45, _⟩ => ⟨S1x1, .f32⟩
  | .local _ .vmem, ⟨46, _⟩ => ⟨S1x2x512, .f32⟩
  | .local _ .vmem, ⟨47, _⟩ => ⟨S1x2x512, .f32⟩
  | .local _ .vmem, ⟨48, _⟩ => ⟨S2x1x512x128, .f32⟩
  | .local _ .vmem, ⟨49, _⟩ => ⟨S2x1x512x128, .f32⟩
  | _, _ => ⟨S64x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | _, _ => false

abbrev semScoped : Fin 0 → Bool
  | ⟨_, h⟩ => absurd h (Nat.not_lt_zero _)

abbrev dmaSemScoped : Fin 50 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | _ => false

abbrev sig : RefSig :=
  ofTc nBuf bufTy 0 50 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16_0 : Ref sig .tc := ⟨.hbm, 29, rfl⟩
abbrev main_v16_1 : Ref sig .tc := ⟨.hbm, 30, rfl⟩
abbrev main_v16_2 : Ref sig .tc := ⟨.hbm, 31, rfl⟩
abbrev main_v16_3 : Ref sig .tc := ⟨.hbm, 32, rfl⟩
abbrev main_v16_4 : Ref sig .tc := ⟨.hbm, 33, rfl⟩
abbrev main_v16_5 : Ref sig .tc := ⟨.hbm, 34, rfl⟩
abbrev main_v16_6 : Ref sig .tc := ⟨.hbm, 35, rfl⟩
abbrev main_v16_7 : Ref sig .tc := ⟨.hbm, 36, rfl⟩
abbrev main_v16_8 : Ref sig .tc := ⟨.hbm, 37, rfl⟩
abbrev main_v16_9 : Ref sig .tc := ⟨.hbm, 38, rfl⟩
abbrev main_v16_10 : Ref sig .tc := ⟨.hbm, 39, rfl⟩
abbrev main_v16_11 : Ref sig .tc := ⟨.hbm, 40, rfl⟩
abbrev main_v16_12 : Ref sig .tc := ⟨.hbm, 41, rfl⟩
abbrev main_v16_13 : Ref sig .tc := ⟨.hbm, 42, rfl⟩
abbrev main_v16_14 : Ref sig .tc := ⟨.hbm, 43, rfl⟩
abbrev main_v16_15 : Ref sig .tc := ⟨.hbm, 44, rfl⟩
abbrev main_v17 : Ref sig .tc := ⟨.hbm, 45, rfl⟩
abbrev main_v18 : Ref sig .tc := ⟨.hbm, 46, rfl⟩
abbrev main_v19 : Ref sig .tc := ⟨.hbm, 47, rfl⟩
abbrev main_v20 : Ref sig .tc := ⟨.hbm, 48, rfl⟩
abbrev main_v21 : Ref sig .tc := ⟨.hbm, 49, rfl⟩
abbrev main_v22 : Ref sig .tc := ⟨.hbm, 50, rfl⟩
abbrev main_v23 : Ref sig .tc := ⟨.hbm, 51, rfl⟩
abbrev main_v24_0 : Ref sig .tc := ⟨.hbm, 52, rfl⟩
abbrev main_v24_1 : Ref sig .tc := ⟨.hbm, 53, rfl⟩
abbrev main_v25 : Ref sig .tc := ⟨.hbm, 54, rfl⟩
abbrev main_v26 : Ref sig .tc := ⟨.hbm, 55, rfl⟩
abbrev main_v27 : Ref sig .tc := ⟨.hbm, 56, rfl⟩
abbrev main_v28 : Ref sig .tc := ⟨.hbm, 57, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_stg19_0 : Ref sig .tc := ⟨.vmem, 19, rfl⟩
abbrev cc0_stg20_0 : Ref sig .tc := ⟨.vmem, 20, rfl⟩
abbrev cc0_stg21_0 : Ref sig .tc := ⟨.vmem, 21, rfl⟩
abbrev cc0_stg22_0 : Ref sig .tc := ⟨.vmem, 22, rfl⟩
abbrev cc0_stg23_0 : Ref sig .tc := ⟨.vmem, 23, rfl⟩
abbrev cc0_stg24_0 : Ref sig .tc := ⟨.vmem, 24, rfl⟩
abbrev cc0_stg25_0 : Ref sig .tc := ⟨.vmem, 25, rfl⟩
abbrev cc0_stg26_0 : Ref sig .tc := ⟨.vmem, 26, rfl⟩
abbrev cc1_stg0_0 : Ref sig .tc := ⟨.vmem, 27, rfl⟩
abbrev cc1_stg1_0 : Ref sig .tc := ⟨.vmem, 28, rfl⟩
abbrev cc1_stg1_1 : Ref sig .tc := ⟨.vmem, 29, rfl⟩
abbrev cc1_stg2_0 : Ref sig .tc := ⟨.vmem, 30, rfl⟩
abbrev cc1_stg2_1 : Ref sig .tc := ⟨.vmem, 31, rfl⟩
abbrev cc1_stg3_0 : Ref sig .tc := ⟨.vmem, 32, rfl⟩
abbrev cc1_stg4_0 : Ref sig .tc := ⟨.vmem, 33, rfl⟩
abbrev cc1_stg5_0 : Ref sig .tc := ⟨.vmem, 34, rfl⟩
abbrev cc1_stg6_0 : Ref sig .tc := ⟨.vmem, 35, rfl⟩
abbrev cc1_stg7_0 : Ref sig .tc := ⟨.vmem, 36, rfl⟩
abbrev cc1_stg8_0 : Ref sig .tc := ⟨.vmem, 37, rfl⟩
abbrev cc1_stg9_0 : Ref sig .tc := ⟨.vmem, 38, rfl⟩
abbrev cc1_stg10_0 : Ref sig .tc := ⟨.vmem, 39, rfl⟩
abbrev cc1_stg11_0 : Ref sig .tc := ⟨.vmem, 40, rfl⟩
abbrev cc1_stg12_0 : Ref sig .tc := ⟨.vmem, 41, rfl⟩
abbrev cc1_stg13_0 : Ref sig .tc := ⟨.vmem, 42, rfl⟩
abbrev cc1_stg14_0 : Ref sig .tc := ⟨.vmem, 43, rfl⟩
abbrev cc1_stg15_0 : Ref sig .tc := ⟨.vmem, 44, rfl⟩
abbrev cc1_stg16_0 : Ref sig .tc := ⟨.vmem, 45, rfl⟩
abbrev cc1_stg17_0 : Ref sig .tc := ⟨.vmem, 46, rfl⟩
abbrev cc1_stg17_1 : Ref sig .tc := ⟨.vmem, 47, rfl⟩
abbrev cc1_stg18_0 : Ref sig .tc := ⟨.vmem, 48, rfl⟩
abbrev cc1_stg18_1 : Ref sig .tc := ⟨.vmem, 49, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18
abbrev cc0_sem19_0 : DmaSem sig := 19
abbrev cc0_sem20_0 : DmaSem sig := 20
abbrev cc0_sem21_0 : DmaSem sig := 21
abbrev cc0_sem22_0 : DmaSem sig := 22
abbrev cc0_sem23_0 : DmaSem sig := 23
abbrev cc0_sem24_0 : DmaSem sig := 24
abbrev cc0_sem25_0 : DmaSem sig := 25
abbrev cc0_sem26_0 : DmaSem sig := 26
abbrev cc1_sem0_0 : DmaSem sig := 27
abbrev cc1_sem1_0 : DmaSem sig := 28
abbrev cc1_sem1_1 : DmaSem sig := 29
abbrev cc1_sem2_0 : DmaSem sig := 30
abbrev cc1_sem2_1 : DmaSem sig := 31
abbrev cc1_sem3_0 : DmaSem sig := 32
abbrev cc1_sem4_0 : DmaSem sig := 33
abbrev cc1_sem5_0 : DmaSem sig := 34
abbrev cc1_sem6_0 : DmaSem sig := 35
abbrev cc1_sem7_0 : DmaSem sig := 36
abbrev cc1_sem8_0 : DmaSem sig := 37
abbrev cc1_sem9_0 : DmaSem sig := 38
abbrev cc1_sem10_0 : DmaSem sig := 39
abbrev cc1_sem11_0 : DmaSem sig := 40
abbrev cc1_sem12_0 : DmaSem sig := 41
abbrev cc1_sem13_0 : DmaSem sig := 42
abbrev cc1_sem14_0 : DmaSem sig := 43
abbrev cc1_sem15_0 : DmaSem sig := 44
abbrev cc1_sem16_0 : DmaSem sig := 45
abbrev cc1_sem17_0 : DmaSem sig := 46
abbrev cc1_sem17_1 : DmaSem sig := 47
abbrev cc1_sem18_0 : DmaSem sig := 48
abbrev cc1_sem18_1 : DmaSem sig := 49

abbrev nD : Nat := 1
abbrev τ : Topo := Topo.v7x

variable {F : FTy → Type} [FloatOps F]

abbrev grid0 : Pipeline.Grid := .none

abbrev stage0_0 : Fin 1 → Memref sig .tc .vmem S512x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S3x65x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S3x65x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S3x128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S3x128x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S1x64 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S64x1 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S512x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S512x64 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S512x64 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S6x256 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S3x128x256 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))

abbrev stage0_16 : Fin 1 → Memref sig .tc .vmem S1x256 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))

abbrev stage0_17 : Fin 1 → Memref sig .tc .vmem S6x128 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))

abbrev stage0_18 : Fin 1 → Memref sig .tc .vmem S3x128x128 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))

abbrev stage0_19 : Fin 1 → Memref sig .tc .vmem S1x128 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))

abbrev stage0_20 : Fin 1 → Memref sig .tc .vmem S3x128x256 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))

abbrev stage0_21 : Fin 1 → Memref sig .tc .vmem S3x128x256 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))

abbrev stage0_22 : Fin 1 → Memref sig .tc .vmem S1x256 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))

abbrev stage0_23 : Fin 1 → Memref sig .tc .vmem S3x128x128 .f32 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))

abbrev stage0_24 : Fin 1 → Memref sig .tc .vmem S3x128x128 .f32 := fun | 0 => Memref.whole cc0_stg24_0 | ⟨_ + 1, h⟩ => absurd h (Nat.not_lt.2 (Nat.le_add_left _ _))
abbrev sem0_24 : Fin 1 → DmaSem sig := fun | 0 => cc0_sem24_0 | ⟨_ + 1, h⟩ => absurd h (Nat.not_lt.2 (Nat.le_add_left _ _))

abbrev stage0_25 : Fin 1 → Memref sig .tc .vmem S1x128 .f32 := fun | 0 => Memref.whole cc0_stg25_0 | ⟨_ + 1, h⟩ => absurd h (Nat.not_lt.2 (Nat.le_add_left _ _))
abbrev sem0_25 : Fin 1 → DmaSem sig := fun | 0 => cc0_sem25_0 | ⟨_ + 1, h⟩ => absurd h (Nat.not_lt.2 (Nat.le_add_left _ _))

abbrev stage0_26 : Fin 1 → Memref sig .tc .vmem S128x2 .f32 := fun | 0 => Memref.whole cc0_stg26_0 | ⟨_ + 1, h⟩ => absurd h (Nat.not_lt.2 (Nat.le_add_left _ _))
abbrev sem0_26 : Fin 1 → DmaSem sig := fun | 0 => cc0_sem26_0 | ⟨_ + 1, h⟩ => absurd h (Nat.not_lt.2 (Nat.le_add_left _ _))

abbrev grid1 : Pipeline.Grid := ⟨1, ![32], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_10 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_11 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_12 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_13 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_14 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_15 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_16 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_17 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_18 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

abbrev stage1_0 : Fin 1 → Memref sig .tc .vmem S512x512 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 2 → Memref sig .tc .vmem S1x6x512 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2x1x512x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S6x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S3x128x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x256 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S6x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S3x128x128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x128 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S3x128x256 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 1 → Memref sig .tc .vmem S3x128x256 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev stage1_11 : Fin 1 → Memref sig .tc .vmem S1x256 .f32 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))
abbrev reads1_11 : Fin grid1.rank → Bool := ![false]

abbrev stage1_12 : Fin 1 → Memref sig .tc .vmem S3x128x128 .f32 := fun | 0 => Memref.whole cc1_stg12_0 | ⟨_ + 1, h⟩ => absurd h (Nat.not_lt.2 (Nat.le_add_left _ _))
abbrev sem1_12 : Fin 1 → DmaSem sig := fun | 0 => cc1_sem12_0 | ⟨_ + 1, h⟩ => absurd h (Nat.not_lt.2 (Nat.le_add_left _ _))
abbrev reads1_12 : Fin grid1.rank → Bool := ![false]

abbrev stage1_13 : Fin 1 → Memref sig .tc .vmem S3x128x128 .f32 := fun | 0 => Memref.whole cc1_stg13_0 | ⟨_ + 1, h⟩ => absurd h (Nat.not_lt.2 (Nat.le_add_left _ _))
abbrev sem1_13 : Fin 1 → DmaSem sig := fun | 0 => cc1_sem13_0 | ⟨_ + 1, h⟩ => absurd h (Nat.not_lt.2 (Nat.le_add_left _ _))
abbrev reads1_13 : Fin grid1.rank → Bool := ![false]

abbrev stage1_14 : Fin 1 → Memref sig .tc .vmem S1x128 .f32 := fun | 0 => Memref.whole cc1_stg14_0 | ⟨_ + 1, h⟩ => absurd h (Nat.not_lt.2 (Nat.le_add_left _ _))
abbrev sem1_14 : Fin 1 → DmaSem sig := fun | 0 => cc1_sem14_0 | ⟨_ + 1, h⟩ => absurd h (Nat.not_lt.2 (Nat.le_add_left _ _))
abbrev reads1_14 : Fin grid1.rank → Bool := ![false]

abbrev stage1_15 : Fin 1 → Memref sig .tc .vmem S128x2 .f32 := fun | 0 => Memref.whole cc1_stg15_0 | ⟨_ + 1, h⟩ => absurd h (Nat.not_lt.2 (Nat.le_add_left _ _))
abbrev sem1_15 : Fin 1 → DmaSem sig := fun | 0 => cc1_sem15_0 | ⟨_ + 1, h⟩ => absurd h (Nat.not_lt.2 (Nat.le_add_left _ _))
abbrev reads1_15 : Fin grid1.rank → Bool := ![false]

abbrev stage1_16 : Fin 1 → Memref sig .tc .vmem S1x1 .f32 := fun | 0 => Memref.whole cc1_stg16_0 | ⟨_ + 1, h⟩ => absurd h (Nat.not_lt.2 (Nat.le_add_left _ _))
abbrev sem1_16 : Fin 1 → DmaSem sig := fun | 0 => cc1_sem16_0 | ⟨_ + 1, h⟩ => absurd h (Nat.not_lt.2 (Nat.le_add_left _ _))
abbrev reads1_16 : Fin grid1.rank → Bool := ![false]

abbrev stage1_17 : Fin 2 → Memref sig .tc .vmem S1x2x512 .f32 := fun | 0 => Memref.whole cc1_stg17_0 | 1 => Memref.whole cc1_stg17_1 | ⟨_ + 2, h⟩ => absurd h (Nat.not_lt.2 (Nat.le_add_left _ _))
abbrev sem1_17 : Fin 2 → DmaSem sig := fun | 0 => cc1_sem17_0 | 1 => cc1_sem17_1 | ⟨_ + 2, h⟩ => absurd h (Nat.not_lt.2 (Nat.le_add_left _ _))
abbrev reads1_17 : Fin grid1.rank → Bool := ![true]

abbrev stage1_18 : Fin 2 → Memref sig .tc .vmem S2x1x512x128 .f32 := fun | 0 => Memref.whole cc1_stg18_0 | 1 => Memref.whole cc1_stg18_1 | ⟨_ + 2, h⟩ => absurd h (Nat.not_lt.2 (Nat.le_add_left _ _))
abbrev sem1_18 : Fin 2 → DmaSem sig := fun | 0 => cc1_sem18_0 | 1 => cc1_sem18_1 | ⟨_ + 2, h⟩ => absurd h (Nat.not_lt.2 (Nat.le_add_left _ _))
abbrev reads1_18 : Fin grid1.rank → Bool := ![true]

class Facts₀ : Prop where
  transposes_S64x512_S512x64_1_0 : S64x512.Transposes [1, 0] S512x64
  shapeCasts_S2x64x32768_S2x32x2x512x64 : S2x64x32768.ShapeCasts S2x32x2x512x64
  transposes_S2x32x2x512x64_S2x32x512x2x64_0_1_3_2_4 : S2x32x2x512x64.Transposes [0, 1, 3, 2, 4] S2x32x512x2x64
  shapeCasts_S2x32x512x2x64_S2x32x512x128 : S2x32x512x2x64.ShapeCasts S2x32x512x128
  shapeCasts_S195x128_S65x3x128 : S195x128.ShapeCasts S65x3x128
  transposes_S65x3x128_S3x65x128_1_0_2 : S65x3x128.Transposes [1, 0, 2] S3x65x128
  shapeCasts_S195x64_S65x3x64 : S195x64.ShapeCasts S65x3x64
  transposes_S65x3x64_S3x65x64_1_0_2 : S65x3x64.Transposes [1, 0, 2] S3x65x64
  shapeCasts_S384x128_S128x3x128 : S384x128.ShapeCasts S128x3x128
  transposes_S128x3x128_S3x128x128_1_0_2 : S128x3x128.Transposes [1, 0, 2] S3x128x128
  shapeCasts_S384x64_S128x3x64 : S384x64.ShapeCasts S128x3x64
  transposes_S128x3x64_S3x128x64_1_0_2 : S128x3x64.Transposes [1, 0, 2] S3x128x64
  shapeCasts_S128_S1x128 : S128.ShapeCasts S1x128
  shapeCasts_S64_S1x64 : S64.ShapeCasts S1x64
  inb_S512x512_S512x512_0_0 : ∀ a, (![0, 0] : Fin 2 → Nat) a + S512x512.size a ≤ S512x512.size a
  h_S512x512 : 0 < S512x512.numel
  transposes_S512x512_p1_0_S512x512 : S512x512.Transposes [1, 0] S512x512
  reduces_S512x512_S512 : S512x512.Reduces [1] S512
  shapeCasts_S512_S512x1 : S512.ShapeCasts S512x1
  reduces_S512x512_S512_2 : S512x512.Reduces [0] S512
  shapeCasts_S512_S1x512 : S512.ShapeCasts S1x512
  broadcasts_S512x1_S512x512 : S512x1.Broadcasts S512x512
  broadcasts_S1x512_S512x512 : S1x512.Broadcasts S512x512
  inb_S512x64_S512x64_0_0 : ∀ a, (![0, 0] : Fin 2 → Nat) a + S512x64.size a ≤ S512x64.size a
  h_S512x64 : 0 < S512x64.numel
  shapeCasts_S512x64_S512x64 : S512x64.ShapeCasts S512x64
  inb_S6x256_S6x256_0_0 : ∀ a, (![0, 0] : Fin 2 → Nat) a + S6x256.size a ≤ S6x256.size a
  h_S6x256 : 0 < S6x256.numel
  inb_S6x128_S6x128_0_0 : ∀ a, (![0, 0] : Fin 2 → Nat) a + S6x128.size a ≤ S6x128.size a
  h_S6x128 : 0 < S6x128.numel
  inb_S3x128x256_S3x128x256_0_0_0 : ∀ a, (![0, 0, 0] : Fin 3 → Nat) a + S3x128x256.size a ≤ S3x128x256.size a
  h_S3x128x256 : 0 < S3x128x256.numel
  inb_S3x128x128_S3x128x128_0_0_0 : ∀ a, (![0, 0, 0] : Fin 3 → Nat) a + S3x128x128.size a ≤ S3x128x128.size a
  h_S3x128x128 : 0 < S3x128x128.numel
  inb_S3x65x128_S1x1x64_0_0_0 : ∀ a, (![0, 0, 0] : Fin 3 → Nat) a + S1x1x64.size a ≤ S3x65x128.size a
  h_S1x1x64 : 0 < S1x1x64.numel
  shapeCasts_S1x1x64_S64 : S1x1x64.ShapeCasts S64
  inb_S6x256_S1x64_0_0 : ∀ a, (![0, 0] : Fin 2 → Nat) a + S1x64.size a ≤ S6x256.size a
  h_S1x64 : 0 < S1x64.numel
  shapeCasts_S1x64_S64 : S1x64.ShapeCasts S64
  inb_S3x65x128_S1x1x64_0_0_64 : ∀ a, (![0, 0, 64] : Fin 3 → Nat) a + S1x1x64.size a ≤ S3x65x128.size a
  inb_S6x256_S1x64_0_128 : ∀ a, (![0, 128] : Fin 2 → Nat) a + S1x64.size a ≤ S6x256.size a
  inb_S6x256_S1x64_3_64 : ∀ a, (![3, 64] : Fin 2 → Nat) a + S1x64.size a ≤ S6x256.size a
  inb_S6x256_S1x64_3_192 : ∀ a, (![3, 192] : Fin 2 → Nat) a + S1x64.size a ≤ S6x256.size a
  inb_S3x65x64_S1x1x64_0_0_0 : ∀ a, (![0, 0, 0] : Fin 3 → Nat) a + S1x1x64.size a ≤ S3x65x64.size a
  inb_S6x128_S1x64_0_0 : ∀ a, (![0, 0] : Fin 2 → Nat) a + S1x64.size a ≤ S6x128.size a
  inb_S6x128_S1x64_3_64 : ∀ a, (![3, 64] : Fin 2 → Nat) a + S1x64.size a ≤ S6x128.size a
  inb_S3x65x128_S1x64x64_0_1_0 : ∀ a, (![0, 1, 0] : Fin 3 → Nat) a + S1x64x64.size a ≤ S3x65x128.size a
  h_S1x64x64 : 0 < S1x64x64.numel
  shapeCasts_S1x64x64_S64x64 : S1x64x64.ShapeCasts S64x64
  inb_S3x65x128_S1x64x64_0_1_64 : ∀ a, (![0, 1, 64] : Fin 3 → Nat) a + S1x64x64.size a ≤ S3x65x128.size a
  inb_S3x128x256_S1x64x64_0_0_0 : ∀ a, (![0, 0, 0] : Fin 3 → Nat) a + S1x64x64.size a ≤ S3x128x256.size a
  shapeCasts_S64x64_S1x64x64 : S64x64.ShapeCasts S1x64x64
  inb_S3x128x256_S1x64x64_0_0_128 : ∀ a, (![0, 0, 128] : Fin 3 → Nat) a + S1x64x64.size a ≤ S3x128x256.size a
  inb_S3x128x256_S1x64x64_0_64_64 : ∀ a, (![0, 64, 64] : Fin 3 → Nat) a + S1x64x64.size a ≤ S3x128x256.size a
  inb_S3x128x256_S1x64x64_0_64_192 : ∀ a, (![0, 64, 192] : Fin 3 → Nat) a + S1x64x64.size a ≤ S3x128x256.size a
  inb_S3x65x64_S1x64x64_0_1_0 : ∀ a, (![0, 1, 0] : Fin 3 → Nat) a + S1x64x64.size a ≤ S3x65x64.size a
  inb_S3x128x128_S1x64x64_0_0_0 : ∀ a, (![0, 0, 0] : Fin 3 → Nat) a + S1x64x64.size a ≤ S3x128x128.size a
  inb_S3x128x128_S1x64x64_0_64_64 : ∀ a, (![0, 64, 64] : Fin 3 → Nat) a + S1x64x64.size a ≤ S3x128x128.size a
  inb_S3x128x128_S1x64x64_0_0_64 : ∀ a, (![0, 0, 64] : Fin 3 → Nat) a + S1x64x64.size a ≤ S3x128x128.size a
  inb_S3x128x128_S1x64x64_0_64_0 : ∀ a, (![0, 64, 0] : Fin 3 → Nat) a + S1x64x64.size a ≤ S3x128x128.size a
  inb_S3x128x64_S1x64x64_0_0_0 : ∀ a, (![0, 0, 0] : Fin 3 → Nat) a + S1x64x64.size a ≤ S3x128x64.size a
  inb_S3x128x64_S1x64x64_0_64_0 : ∀ a, (![0, 64, 0] : Fin 3 → Nat) a + S1x64x64.size a ≤ S3x128x64.size a
  inb_S3x65x128_S1x1x64_1_0_0 : ∀ a, (![1, 0, 0] : Fin 3 → Nat) a + S1x1x64.size a ≤ S3x65x128.size a
  inb_S6x256_S1x64_1_0 : ∀ a, (![1, 0] : Fin 2 → Nat) a + S1x64.size a ≤ S6x256.size a
  inb_S3x65x128_S1x1x64_1_0_64 : ∀ a, (![1, 0, 64] : Fin 3 → Nat) a + S1x1x64.size a ≤ S3x65x128.size a
  inb_S6x256_S1x64_1_128 : ∀ a, (![1, 128] : Fin 2 → Nat) a + S1x64.size a ≤ S6x256.size a
  inb_S6x256_S1x64_4_64 : ∀ a, (![4, 64] : Fin 2 → Nat) a + S1x64.size a ≤ S6x256.size a
  inb_S6x256_S1x64_4_192 : ∀ a, (![4, 192] : Fin 2 → Nat) a + S1x64.size a ≤ S6x256.size a
  inb_S3x65x64_S1x1x64_1_0_0 : ∀ a, (![1, 0, 0] : Fin 3 → Nat) a + S1x1x64.size a ≤ S3x65x64.size a
  inb_S6x128_S1x64_1_0 : ∀ a, (![1, 0] : Fin 2 → Nat) a + S1x64.size a ≤ S6x128.size a
  inb_S6x128_S1x64_4_64 : ∀ a, (![4, 64] : Fin 2 → Nat) a + S1x64.size a ≤ S6x128.size a
  inb_S3x65x128_S1x64x64_1_1_0 : ∀ a, (![1, 1, 0] : Fin 3 → Nat) a + S1x64x64.size a ≤ S3x65x128.size a
  inb_S3x65x128_S1x64x64_1_1_64 : ∀ a, (![1, 1, 64] : Fin 3 → Nat) a + S1x64x64.size a ≤ S3x65x128.size a
  inb_S3x128x256_S1x64x64_1_0_0 : ∀ a, (![1, 0, 0] : Fin 3 → Nat) a + S1x64x64.size a ≤ S3x128x256.size a
  inb_S3x128x256_S1x64x64_1_0_128 : ∀ a, (![1, 0, 128] : Fin 3 → Nat) a + S1x64x64.size a ≤ S3x128x256.size a
  inb_S3x128x256_S1x64x64_1_64_64 : ∀ a, (![1, 64, 64] : Fin 3 → Nat) a + S1x64x64.size a ≤ S3x128x256.size a
  inb_S3x128x256_S1x64x64_1_64_192 : ∀ a, (![1, 64, 192] : Fin 3 → Nat) a + S1x64x64.size a ≤ S3x128x256.size a
  inb_S3x65x64_S1x64x64_1_1_0 : ∀ a, (![1, 1, 0] : Fin 3 → Nat) a + S1x64x64.size a ≤ S3x65x64.size a
  inb_S3x128x128_S1x64x64_1_0_0 : ∀ a, (![1, 0, 0] : Fin 3 → Nat) a + S1x64x64.size a ≤ S3x128x128.size a
  inb_S3x128x128_S1x64x64_1_64_64 : ∀ a, (![1, 64, 64] : Fin 3 → Nat) a + S1x64x64.size a ≤ S3x128x128.size a
  inb_S3x128x128_S1x64x64_1_0_64 : ∀ a, (![1, 0, 64] : Fin 3 → Nat) a + S1x64x64.size a ≤ S3x128x128.size a
  inb_S3x128x128_S1x64x64_1_64_0 : ∀ a, (![1, 64, 0] : Fin 3 → Nat) a + S1x64x64.size a ≤ S3x128x128.size a
  inb_S3x128x64_S1x64x64_1_0_0 : ∀ a, (![1, 0, 0] : Fin 3 → Nat) a + S1x64x64.size a ≤ S3x128x64.size a
  inb_S3x128x64_S1x64x64_1_64_0 : ∀ a, (![1, 64, 0] : Fin 3 → Nat) a + S1x64x64.size a ≤ S3x128x64.size a
  inb_S3x65x128_S1x1x64_2_0_0 : ∀ a, (![2, 0, 0] : Fin 3 → Nat) a + S1x1x64.size a ≤ S3x65x128.size a
  inb_S6x256_S1x64_2_0 : ∀ a, (![2, 0] : Fin 2 → Nat) a + S1x64.size a ≤ S6x256.size a
  inb_S3x65x128_S1x1x64_2_0_64 : ∀ a, (![2, 0, 64] : Fin 3 → Nat) a + S1x1x64.size a ≤ S3x65x128.size a
  inb_S6x256_S1x64_2_128 : ∀ a, (![2, 128] : Fin 2 → Nat) a + S1x64.size a ≤ S6x256.size a
  inb_S6x256_S1x64_5_64 : ∀ a, (![5, 64] : Fin 2 → Nat) a + S1x64.size a ≤ S6x256.size a
  inb_S6x256_S1x64_5_192 : ∀ a, (![5, 192] : Fin 2 → Nat) a + S1x64.size a ≤ S6x256.size a
  inb_S3x65x64_S1x1x64_2_0_0 : ∀ a, (![2, 0, 0] : Fin 3 → Nat) a + S1x1x64.size a ≤ S3x65x64.size a
  inb_S6x128_S1x64_2_0 : ∀ a, (![2, 0] : Fin 2 → Nat) a + S1x64.size a ≤ S6x128.size a
  inb_S6x128_S1x64_5_64 : ∀ a, (![5, 64] : Fin 2 → Nat) a + S1x64.size a ≤ S6x128.size a
  inb_S3x65x128_S1x64x64_2_1_0 : ∀ a, (![2, 1, 0] : Fin 3 → Nat) a + S1x64x64.size a ≤ S3x65x128.size a
  inb_S3x65x128_S1x64x64_2_1_64 : ∀ a, (![2, 1, 64] : Fin 3 → Nat) a + S1x64x64.size a ≤ S3x65x128.size a
  inb_S3x128x256_S1x64x64_2_0_0 : ∀ a, (![2, 0, 0] : Fin 3 → Nat) a + S1x64x64.size a ≤ S3x128x256.size a
  inb_S3x128x256_S1x64x64_2_0_128 : ∀ a, (![2, 0, 128] : Fin 3 → Nat) a + S1x64x64.size a ≤ S3x128x256.size a
  inb_S3x128x256_S1x64x64_2_64_64 : ∀ a, (![2, 64, 64] : Fin 3 → Nat) a + S1x64x64.size a ≤ S3x128x256.size a
  inb_S3x128x256_S1x64x64_2_64_192 : ∀ a, (![2, 64, 192] : Fin 3 → Nat) a + S1x64x64.size a ≤ S3x128x256.size a
  inb_S3x65x64_S1x64x64_2_1_0 : ∀ a, (![2, 1, 0] : Fin 3 → Nat) a + S1x64x64.size a ≤ S3x65x64.size a
  inb_S3x128x128_S1x64x64_2_0_0 : ∀ a, (![2, 0, 0] : Fin 3 → Nat) a + S1x64x64.size a ≤ S3x128x128.size a
  inb_S3x128x128_S1x64x64_2_64_64 : ∀ a, (![2, 64, 64] : Fin 3 → Nat) a + S1x64x64.size a ≤ S3x128x128.size a
  inb_S3x128x128_S1x64x64_2_0_64 : ∀ a, (![2, 0, 64] : Fin 3 → Nat) a + S1x64x64.size a ≤ S3x128x128.size a
  inb_S3x128x128_S1x64x64_2_64_0 : ∀ a, (![2, 64, 0] : Fin 3 → Nat) a + S1x64x64.size a ≤ S3x128x128.size a
  inb_S3x128x64_S1x64x64_2_0_0 : ∀ a, (![2, 0, 0] : Fin 3 → Nat) a + S1x64x64.size a ≤ S3x128x64.size a
  inb_S3x128x64_S1x64x64_2_64_0 : ∀ a, (![2, 64, 0] : Fin 3 → Nat) a + S1x64x64.size a ≤ S3x128x64.size a
  inb_S1x128_S1x64_0_0 : ∀ a, (![0, 0] : Fin 2 → Nat) a + S1x64.size a ≤ S1x128.size a
  inb_S1x256_S1x64_0_0 : ∀ a, (![0, 0] : Fin 2 → Nat) a + S1x64.size a ≤ S1x256.size a
  inb_S1x256_S1x64_0_64 : ∀ a, (![0, 64] : Fin 2 → Nat) a + S1x64.size a ≤ S1x256.size a
  inb_S1x128_S1x64_0_64 : ∀ a, (![0, 64] : Fin 2 → Nat) a + S1x64.size a ≤ S1x128.size a
  inb_S1x256_S1x64_0_128 : ∀ a, (![0, 128] : Fin 2 → Nat) a + S1x64.size a ≤ S1x256.size a
  inb_S1x256_S1x64_0_192 : ∀ a, (![0, 192] : Fin 2 → Nat) a + S1x64.size a ≤ S1x256.size a
  inb_S1x64_S1x64_0_0 : ∀ a, (![0, 0] : Fin 2 → Nat) a + S1x64.size a ≤ S1x64.size a
  inb_S128x2_S128x2_0_0 : ∀ a, (![0, 0] : Fin 2 → Nat) a + S128x2.size a ≤ S128x2.size a
  h_S128x2 : 0 < S128x2.numel
  inb_S64x1_S64x1_0_0 : ∀ a, (![0, 0] : Fin 2 → Nat) a + S64x1.size a ≤ S64x1.size a
  h_S64x1 : 0 < S64x1.numel
  inb_S128x2_S64x1_0_0 : ∀ a, (![0, 0] : Fin 2 → Nat) a + S64x1.size a ≤ S128x2.size a
  inb_S128x2_S64x1_64_1 : ∀ a, (![64, 1] : Fin 2 → Nat) a + S64x1.size a ≤ S128x2.size a
  bcast_S512x64_S1x512x64_1_2 : S512x64.BroadcastsInDim S1x512x64 (![1, 2] : Fin 2 → Fin S1x512x64.rank)
  concatenates_S1x512x64_S1x512x64_S1x512x64_S3x512x64_d0 : Shape.Concatenates [S1x512x64, S1x512x64, S1x512x64] S3x512x64 0
  transposes_S3x512x64_S64x3x512_2_0_1 : S3x512x64.Transposes [2, 0, 1] S64x3x512
  shapeCasts_S64x3x512_S32x6x512 : S64x3x512.ShapeCasts S32x6x512
  shapeCasts_S1_S1x1 : S1.ShapeCasts S1x1
  shapeCasts_S512x512_S512x512 : S512x512.ShapeCasts S512x512
  inb_S1x6x512_S1x6x512_0_0_0 : ∀ a, (![0, 0, 0] : Fin 3 → Nat) a + S1x6x512.size a ≤ S1x6x512.size a
  h_S1x6x512 : 0 < S1x6x512.numel
  shapeCasts_S1x6x512_S6x512 : S1x6x512.ShapeCasts S6x512
  transposes_S6x512_p1_0_S512x6 : S6x512.Transposes [1, 0] S512x6
  inb_S2x1x512x128_S1x1x512x128_0_0_0_0 : ∀ a, (![0, 0, 0, 0] : Fin 4 → Nat) a + S1x1x512x128.size a ≤ S2x1x512x128.size a
  h_S1x1x512x128 : 0 < S1x1x512x128.numel
  shapeCasts_S1x1x512x128_S512x128 : S1x1x512x128.ShapeCasts S512x128
  inb_S1x256_S1x256_0_0 : ∀ a, (![0, 0] : Fin 2 → Nat) a + S1x256.size a ≤ S1x256.size a
  h_S1x256 : 0 < S1x256.numel
  shapeCasts_S1x256_S1x256 : S1x256.ShapeCasts S1x256
  shapeCasts_S6x256_S6x256 : S6x256.ShapeCasts S6x256
  broadcasts_S1x256_S512x256 : S1x256.Broadcasts S512x256
  inb_S3x128x256_S1x128x256_0_0_0 : ∀ a, (![0, 0, 0] : Fin 3 → Nat) a + S1x128x256.size a ≤ S3x128x256.size a
  h_S1x128x256 : 0 < S1x128x256.numel
  shapeCasts_S1x128x256_S128x256 : S1x128x256.ShapeCasts S128x256
  inb_S3x128x256_S1x128x256_1_0_0 : ∀ a, (![1, 0, 0] : Fin 3 → Nat) a + S1x128x256.size a ≤ S3x128x256.size a
  inb_S3x128x256_S1x128x256_2_0_0 : ∀ a, (![2, 0, 0] : Fin 3 → Nat) a + S1x128x256.size a ≤ S3x128x256.size a
  slices_S512x256_o0_0_S512x128 : S512x256.Slices ![0, 0] S512x128
  slices_S512x256_o0_128_S512x128 : S512x256.Slices ![0, 128] S512x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  shapeCasts_S6x128_S6x128 : S6x128.ShapeCasts S6x128
  broadcasts_S1x128_S512x128 : S1x128.Broadcasts S512x128
  inb_S3x128x128_S1x128x128_0_0_0 : ∀ a, (![0, 0, 0] : Fin 3 → Nat) a + S1x128x128.size a ≤ S3x128x128.size a
  h_S1x128x128 : 0 < S1x128x128.numel
  shapeCasts_S1x128x128_S128x128 : S1x128x128.ShapeCasts S128x128
  inb_S3x128x128_S1x128x128_1_0_0 : ∀ a, (![1, 0, 0] : Fin 3 → Nat) a + S1x128x128.size a ≤ S3x128x128.size a
  inb_S3x128x128_S1x128x128_2_0_0 : ∀ a, (![2, 0, 0] : Fin 3 → Nat) a + S1x128x128.size a ≤ S3x128x128.size a
  shapeCasts_S512x128_S1x1x512x128 : S512x128.ShapeCasts S1x1x512x128
  inb_S2x1x512x128_S1x1x512x128_1_0_0_0 : ∀ a, (![1, 0, 0, 0] : Fin 4 → Nat) a + S1x1x512x128.size a ≤ S2x1x512x128.size a
  shapeCasts_S128x2_S128x2 : S128x2.ShapeCasts S128x2
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S512x2 : S1x1.Broadcasts S512x2
  transposes_S512x2_p1_0_S2x512 : S512x2.Transposes [1, 0] S2x512
  inb_S1x2x512_S1x2x512_0_0_0 : ∀ a, (![0, 0, 0] : Fin 3 → Nat) a + S1x2x512.size a ≤ S1x2x512.size a
  h_S1x2x512 : 0 < S1x2x512.numel
  shapeCasts_S1x2x512_S2x512 : S1x2x512.ShapeCasts S2x512
  shapeCasts_S2x512_S1x2x512 : S2x512.ShapeCasts S1x2x512
  shapeCasts_S32x2x512_S64x512 : S32x2x512.ShapeCasts S64x512
  shapeCasts_S2x32x512x128_S2x32x512x2x64 : S2x32x512x128.ShapeCasts S2x32x512x2x64
  transposes_S2x32x512x2x64_S2x32x2x512x64_0_1_3_2_4 : S2x32x512x2x64.Transposes [0, 1, 3, 2, 4] S2x32x2x512x64
  shapeCasts_S2x32x2x512x64_S2x64x32768 : S2x32x2x512x64.ShapeCasts S2x64x32768
  dot_S512x512_S512x64_S512x64_1_0_0_1_n_n_wf : DotDims.WF S512x512 S512x64 S512x64 [1] [0] [0] [1] [] []
  dot_S512x6_S6x256_S512x256_1_0_0_1_n_n_wf : DotDims.WF S512x6 S6x256 S512x256 [1] [0] [0] [1] [] []
  dot_S512x128_S128x256_S512x256_1_0_0_1_n_n_wf : DotDims.WF S512x128 S128x256 S512x256 [1] [0] [0] [1] [] []
  dot_S512x512_S512x128_S512x128_1_0_0_1_n_n_wf : DotDims.WF S512x512 S512x128 S512x128 [1] [0] [0] [1] [] []
  dot_S512x6_S6x128_S512x128_1_0_0_1_n_n_wf : DotDims.WF S512x6 S6x128 S512x128 [1] [0] [0] [1] [] []
  dot_S512x128_S128x128_S512x128_1_0_0_1_n_n_wf : DotDims.WF S512x128 S128x128 S512x128 [1] [0] [0] [1] [] []
  dot_S512x128_S128x2_S512x2_1_0_0_1_n_n_wf : DotDims.WF S512x128 S128x2 S512x2 [1] [0] [0] [1] [] []
  hstage0_0 : ∀ j, (stage0_0 j).IsWhole
  hstage0_1 : ∀ j, (stage0_1 j).IsWhole
  hstage0_2 : ∀ j, (stage0_2 j).IsWhole
  hstage0_3 : ∀ j, (stage0_3 j).IsWhole
  hstage0_4 : ∀ j, (stage0_4 j).IsWhole
  hstage0_5 : ∀ j, (stage0_5 j).IsWhole
  hstage0_6 : ∀ j, (stage0_6 j).IsWhole
  hstage0_7 : ∀ j, (stage0_7 j).IsWhole
  hstage0_8 : ∀ j, (stage0_8 j).IsWhole
  hstage0_9 : ∀ j, (stage0_9 j).IsWhole
  hstage0_10 : ∀ j, (stage0_10 j).IsWhole
  hstage0_11 : ∀ j, (stage0_11 j).IsWhole
  hstage0_12 : ∀ j, (stage0_12 j).IsWhole
  hstage0_13 : ∀ j, (stage0_13 j).IsWhole
  hstage0_14 : ∀ j, (stage0_14 j).IsWhole
  hstage0_15 : ∀ j, (stage0_15 j).IsWhole
  hstage0_16 : ∀ j, (stage0_16 j).IsWhole
  hstage0_17 : ∀ j, (stage0_17 j).IsWhole
  hstage0_18 : ∀ j, (stage0_18 j).IsWhole
  hstage0_19 : ∀ j, (stage0_19 j).IsWhole
  hstage0_20 : ∀ j, (stage0_20 j).IsWhole
  hstage0_21 : ∀ j, (stage0_21 j).IsWhole
  hstage0_22 : ∀ j, (stage0_22 j).IsWhole
  hstage0_23 : ∀ j, (stage0_23 j).IsWhole
  hstage0_24 : ∀ j, (stage0_24 j).IsWhole
  hstage0_25 : ∀ j, (stage0_25 j).IsWhole
  hstage0_26 : ∀ j, (stage0_26 j).IsWhole
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S512x512.size a ≤ S512x512.size a
  hwx1_0 : ∀ i : grid1.Coords, EltTy.bits .f32 = 32 ∨ (Rect.block (s := S512x512) S512x512.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x6x512.size a ≤ S32x6x512.size a
  hwx1_1 : ∀ i : grid1.Coords, EltTy.bits .f32 = 32 ∨ (Rect.block (s := S32x6x512) S1x6x512.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2x1x512x128.size a ≤ S2x32x512x128.size a
  hwx1_2 : ∀ i : grid1.Coords, EltTy.bits .f32 = 32 ∨ (Rect.block (s := S2x32x512x128) S2x1x512x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S6x256.size a ≤ S6x256.size a
  hwx1_3 : ∀ i : grid1.Coords, EltTy.bits .f32 = 32 ∨ (Rect.block (s := S6x256) S6x256.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S3x128x256.size a ≤ S3x128x256.size a
  hwx1_4 : ∀ i : grid1.Coords, EltTy.bits .f32 = 32 ∨ (Rect.block (s := S3x128x256) S3x128x256.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x256.size a ≤ S1x256.size a
  hwx1_5 : ∀ i : grid1.Coords, EltTy.bits .f32 = 32 ∨ (Rect.block (s := S1x256) S1x256.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S6x128.size a ≤ S6x128.size a
  hwx1_6 : ∀ i : grid1.Coords, EltTy.bits .f32 = 32 ∨ (Rect.block (s := S6x128) S6x128.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S3x128x128.size a ≤ S3x128x128.size a
  hwx1_7 : ∀ i : grid1.Coords, EltTy.bits .f32 = 32 ∨ (Rect.block (s := S3x128x128) S3x128x128.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S1x128.size a ≤ S1x128.size a
  hwx1_8 : ∀ i : grid1.Coords, EltTy.bits .f32 = 32 ∨ (Rect.block (s := S1x128) S1x128.size (cc1_transform_8 i) (hinb1_8 i)).WholeWords (EltTy.packing .f32)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S3x128x256.size a ≤ S3x128x256.size a
  hwx1_9 : ∀ i : grid1.Coords, EltTy.bits .f32 = 32 ∨ (Rect.block (s := S3x128x256) S3x128x256.size (cc1_transform_9 i) (hinb1_9 i)).WholeWords (EltTy.packing .f32)
  hstage1_10 : ∀ j, (stage1_10 j).IsWhole
  nbuf1_10 : grid1.bufCount reads1_10 true = 1
  hreads1_10 : ∀ i i' : grid1.Coords, (∀ a, reads1_10 a = true → i a = i' a) → cc1_transform_10 i = cc1_transform_10 i'
  hinb1_10 : ∀ (i : grid1.Coords) a, (cc1_transform_10 i a + 1) * S3x128x256.size a ≤ S3x128x256.size a
  hwx1_10 : ∀ i : grid1.Coords, EltTy.bits .f32 = 32 ∨ (Rect.block (s := S3x128x256) S3x128x256.size (cc1_transform_10 i) (hinb1_10 i)).WholeWords (EltTy.packing .f32)
  hstage1_11 : ∀ j, (stage1_11 j).IsWhole
  nbuf1_11 : grid1.bufCount reads1_11 true = 1
  hreads1_11 : ∀ i i' : grid1.Coords, (∀ a, reads1_11 a = true → i a = i' a) → cc1_transform_11 i = cc1_transform_11 i'
  hinb1_11 : ∀ (i : grid1.Coords) a, (cc1_transform_11 i a + 1) * S1x256.size a ≤ S1x256.size a
  hwx1_11 : ∀ i : grid1.Coords, EltTy.bits .f32 = 32 ∨ (Rect.block (s := S1x256) S1x256.size (cc1_transform_11 i) (hinb1_11 i)).WholeWords (EltTy.packing .f32)
  hstage1_12 : ∀ j, (stage1_12 j).IsWhole
  nbuf1_12 : grid1.bufCount reads1_12 true = 1
  hreads1_12 : ∀ i i' : grid1.Coords, (∀ a, reads1_12 a = true → i a = i' a) → cc1_transform_12 i = cc1_transform_12 i'
  hinb1_12 : ∀ (i : grid1.Coords) a, (cc1_transform_12 i a + 1) * S3x128x128.size a ≤ S3x128x128.size a
  hwx1_12 : ∀ i : grid1.Coords, EltTy.bits .f32 = 32 ∨ (Rect.block (s := S3x128x128) S3x128x128.size (cc1_transform_12 i) (hinb1_12 i)).WholeWords (EltTy.packing .f32)
  hstage1_13 : ∀ j, (stage1_13 j).IsWhole
  nbuf1_13 : grid1.bufCount reads1_13 true = 1
  hreads1_13 : ∀ i i' : grid1.Coords, (∀ a, reads1_13 a = true → i a = i' a) → cc1_transform_13 i = cc1_transform_13 i'
  hinb1_13 : ∀ (i : grid1.Coords) a, (cc1_transform_13 i a + 1) * S3x128x128.size a ≤ S3x128x128.size a
  hwx1_13 : ∀ i : grid1.Coords, EltTy.bits .f32 = 32 ∨ (Rect.block (s := S3x128x128) S3x128x128.size (cc1_transform_13 i) (hinb1_13 i)).WholeWords (EltTy.packing .f32)
  hstage1_14 : ∀ j, (stage1_14 j).IsWhole
  nbuf1_14 : grid1.bufCount reads1_14 true = 1
  hreads1_14 : ∀ i i' : grid1.Coords, (∀ a, reads1_14 a = true → i a = i' a) → cc1_transform_14 i = cc1_transform_14 i'
  hinb1_14 : ∀ (i : grid1.Coords) a, (cc1_transform_14 i a + 1) * S1x128.size a ≤ S1x128.size a
  hwx1_14 : ∀ i : grid1.Coords, EltTy.bits .f32 = 32 ∨ (Rect.block (s := S1x128) S1x128.size (cc1_transform_14 i) (hinb1_14 i)).WholeWords (EltTy.packing .f32)
  hstage1_15 : ∀ j, (stage1_15 j).IsWhole
  nbuf1_15 : grid1.bufCount reads1_15 true = 1
  hreads1_15 : ∀ i i' : grid1.Coords, (∀ a, reads1_15 a = true → i a = i' a) → cc1_transform_15 i = cc1_transform_15 i'
  hinb1_15 : ∀ (i : grid1.Coords) a, (cc1_transform_15 i a + 1) * S128x2.size a ≤ S128x2.size a
  hwx1_15 : ∀ i : grid1.Coords, EltTy.bits .f32 = 32 ∨ (Rect.block (s := S128x2) S128x2.size (cc1_transform_15 i) (hinb1_15 i)).WholeWords (EltTy.packing .f32)
  hstage1_16 : ∀ j, (stage1_16 j).IsWhole
  nbuf1_16 : grid1.bufCount reads1_16 true = 1
  hreads1_16 : ∀ i i' : grid1.Coords, (∀ a, reads1_16 a = true → i a = i' a) → cc1_transform_16 i = cc1_transform_16 i'
  hinb1_16 : ∀ (i : grid1.Coords) a, (cc1_transform_16 i a + 1) * S1x1.size a ≤ S1x1.size a
  hwx1_16 : ∀ i : grid1.Coords, EltTy.bits .f32 = 32 ∨ (Rect.block (s := S1x1) S1x1.size (cc1_transform_16 i) (hinb1_16 i)).WholeWords (EltTy.packing .f32)
  hstage1_17 : ∀ j, (stage1_17 j).IsWhole
  nbuf1_17 : grid1.bufCount reads1_17 false = 2
  hreads1_17 : ∀ i i' : grid1.Coords, (∀ a, reads1_17 a = true → i a = i' a) → cc1_transform_17 i = cc1_transform_17 i'
  hinb1_17 : ∀ (i : grid1.Coords) a, (cc1_transform_17 i a + 1) * S1x2x512.size a ≤ S32x2x512.size a
  hwx1_17 : ∀ i : grid1.Coords, EltTy.bits .f32 = 32 ∨ (Rect.block (s := S32x2x512) S1x2x512.size (cc1_transform_17 i) (hinb1_17 i)).WholeWords (EltTy.packing .f32)
  hstage1_18 : ∀ j, (stage1_18 j).IsWhole
  nbuf1_18 : grid1.bufCount reads1_18 false = 2
  hreads1_18 : ∀ i i' : grid1.Coords, (∀ a, reads1_18 a = true → i a = i' a) → cc1_transform_18 i = cc1_transform_18 i'
  hinb1_18 : ∀ (i : grid1.Coords) a, (cc1_transform_18 i a + 1) * S2x1x512x128.size a ≤ S2x32x512x128.size a
  hwx1_18 : ∀ i : grid1.Coords, EltTy.bits .f32 = 32 ∨ (Rect.block (s := S2x32x512x128) S2x1x512x128.size (cc1_transform_18 i) (hinb1_18 i)).WholeWords (EltTy.packing .f32)

variable [Facts₀]

def dot_S512x512_S512x64_S512x64_1_0_0_1_n_n : DotDims S512x512 S512x64 S512x64 where
  lhsContracting := [1]
  rhsContracting := [0]
  lhsNonContracting := [0]
  rhsNonContracting := [1]
  lhsBatch := []
  rhsBatch := []
  wf := dot_S512x512_S512x64_S512x64_1_0_0_1_n_n_wf
def dot_S512x6_S6x256_S512x256_1_0_0_1_n_n : DotDims S512x6 S6x256 S512x256 where
  lhsContracting := [1]
  rhsContracting := [0]
  lhsNonContracting := [0]
  rhsNonContracting := [1]
  lhsBatch := []
  rhsBatch := []
  wf := dot_S512x6_S6x256_S512x256_1_0_0_1_n_n_wf
def dot_S512x128_S128x256_S512x256_1_0_0_1_n_n : DotDims S512x128 S128x256 S512x256 where
  lhsContracting := [1]
  rhsContracting := [0]
  lhsNonContracting := [0]
  rhsNonContracting := [1]
  lhsBatch := []
  rhsBatch := []
  wf := dot_S512x128_S128x256_S512x256_1_0_0_1_n_n_wf
def dot_S512x512_S512x128_S512x128_1_0_0_1_n_n : DotDims S512x512 S512x128 S512x128 where
  lhsContracting := [1]
  rhsContracting := [0]
  lhsNonContracting := [0]
  rhsNonContracting := [1]
  lhsBatch := []
  rhsBatch := []
  wf := dot_S512x512_S512x128_S512x128_1_0_0_1_n_n_wf
def dot_S512x6_S6x128_S512x128_1_0_0_1_n_n : DotDims S512x6 S6x128 S512x128 where
  lhsContracting := [1]
  rhsContracting := [0]
  lhsNonContracting := [0]
  rhsNonContracting := [1]
  lhsBatch := []
  rhsBatch := []
  wf := dot_S512x6_S6x128_S512x128_1_0_0_1_n_n_wf
def dot_S512x128_S128x128_S512x128_1_0_0_1_n_n : DotDims S512x128 S128x128 S512x128 where
  lhsContracting := [1]
  rhsContracting := [0]
  lhsNonContracting := [0]
  rhsNonContracting := [1]
  lhsBatch := []
  rhsBatch := []
  wf := dot_S512x128_S128x128_S512x128_1_0_0_1_n_n_wf
def dot_S512x128_S128x2_S512x2_1_0_0_1_n_n : DotDims S512x128 S128x2 S512x2 where
  lhsContracting := [1]
  rhsContracting := [0]
  lhsNonContracting := [0]
  rhsNonContracting := [1]
  lhsBatch := []
  rhsBatch := []
  wf := dot_S512x128_S128x2_S512x2_1_0_0_1_n_n_wf

abbrev win0_0 : Pipeline.Window sig grid0 :=
  Pipeline.Window.whole (Memref.whole main_arg2) false false (stage0_0 0) (sem0_0 0) (Memref.isWhole_whole _) (hstage0_0 0)

abbrev win0_1 : Pipeline.Window sig grid0 :=
  Pipeline.Window.whole (Memref.whole main_v0) false false (stage0_1 0) (sem0_1 0) (Memref.isWhole_whole _) (hstage0_1 0)

abbrev win0_2 : Pipeline.Window sig grid0 :=
  Pipeline.Window.whole (Memref.whole main_v5) false false (stage0_2 0) (sem0_2 0) (Memref.isWhole_whole _) (hstage0_2 0)

abbrev win0_3 : Pipeline.Window sig grid0 :=
  Pipeline.Window.whole (Memref.whole main_v7) false false (stage0_3 0) (sem0_3 0) (Memref.isWhole_whole _) (hstage0_3 0)

abbrev win0_4 : Pipeline.Window sig grid0 :=
  Pipeline.Window.whole (Memref.whole main_v9) false false (stage0_4 0) (sem0_4 0) (Memref.isWhole_whole _) (hstage0_4 0)

abbrev win0_5 : Pipeline.Window sig grid0 :=
  Pipeline.Window.whole (Memref.whole main_v11) false false (stage0_5 0) (sem0_5 0) (Memref.isWhole_whole _) (hstage0_5 0)

abbrev win0_6 : Pipeline.Window sig grid0 :=
  Pipeline.Window.whole (Memref.whole main_v12) false false (stage0_6 0) (sem0_6 0) (Memref.isWhole_whole _) (hstage0_6 0)

abbrev win0_7 : Pipeline.Window sig grid0 :=
  Pipeline.Window.whole (Memref.whole main_v13) false false (stage0_7 0) (sem0_7 0) (Memref.isWhole_whole _) (hstage0_7 0)

abbrev win0_8 : Pipeline.Window sig grid0 :=
  Pipeline.Window.whole (Memref.whole main_v14) false false (stage0_8 0) (sem0_8 0) (Memref.isWhole_whole _) (hstage0_8 0)

abbrev win0_9 : Pipeline.Window sig grid0 :=
  Pipeline.Window.whole (Memref.whole main_v15) false false (stage0_9 0) (sem0_9 0) (Memref.isWhole_whole _) (hstage0_9 0)

abbrev win0_10 : Pipeline.Window sig grid0 :=
  Pipeline.Window.whole (Memref.whole main_arg11) false false (stage0_10 0) (sem0_10 0) (Memref.isWhole_whole _) (hstage0_10 0)

abbrev win0_11 : Pipeline.Window sig grid0 :=
  Pipeline.Window.whole (Memref.whole main_v16_0) true false (stage0_11 0) (sem0_11 0) (Memref.isWhole_whole _) (hstage0_11 0)

abbrev win0_12 : Pipeline.Window sig grid0 :=
  Pipeline.Window.whole (Memref.whole main_v16_1) true false (stage0_12 0) (sem0_12 0) (Memref.isWhole_whole _) (hstage0_12 0)

abbrev win0_13 : Pipeline.Window sig grid0 :=
  Pipeline.Window.whole (Memref.whole main_v16_2) true false (stage0_13 0) (sem0_13 0) (Memref.isWhole_whole _) (hstage0_13 0)

abbrev win0_14 : Pipeline.Window sig grid0 :=
  Pipeline.Window.whole (Memref.whole main_v16_3) true false (stage0_14 0) (sem0_14 0) (Memref.isWhole_whole _) (hstage0_14 0)

abbrev win0_15 : Pipeline.Window sig grid0 :=
  Pipeline.Window.whole (Memref.whole main_v16_4) true false (stage0_15 0) (sem0_15 0) (Memref.isWhole_whole _) (hstage0_15 0)

abbrev win0_16 : Pipeline.Window sig grid0 :=
  Pipeline.Window.whole (Memref.whole main_v16_5) true false (stage0_16 0) (sem0_16 0) (Memref.isWhole_whole _) (hstage0_16 0)

abbrev win0_17 : Pipeline.Window sig grid0 :=
  Pipeline.Window.whole (Memref.whole main_v16_6) true false (stage0_17 0) (sem0_17 0) (Memref.isWhole_whole _) (hstage0_17 0)

abbrev win0_18 : Pipeline.Window sig grid0 :=
  Pipeline.Window.whole (Memref.whole main_v16_7) true false (stage0_18 0) (sem0_18 0) (Memref.isWhole_whole _) (hstage0_18 0)

abbrev win0_19 : Pipeline.Window sig grid0 :=
  Pipeline.Window.whole (Memref.whole main_v16_8) true false (stage0_19 0) (sem0_19 0) (Memref.isWhole_whole _) (hstage0_19 0)

abbrev win0_20 : Pipeline.Window sig grid0 :=
  Pipeline.Window.whole (Memref.whole main_v16_9) true false (stage0_20 0) (sem0_20 0) (Memref.isWhole_whole _) (hstage0_20 0)

abbrev win0_21 : Pipeline.Window sig grid0 :=
  Pipeline.Window.whole (Memref.whole main_v16_10) true false (stage0_21 0) (sem0_21 0) (Memref.isWhole_whole _) (hstage0_21 0)

abbrev win0_22 : Pipeline.Window sig grid0 :=
  Pipeline.Window.whole (Memref.whole main_v16_11) true false (stage0_22 0) (sem0_22 0) (Memref.isWhole_whole _) (hstage0_22 0)

abbrev win0_23 : Pipeline.Window sig grid0 :=
  Pipeline.Window.whole (Memref.whole main_v16_12) true false (stage0_23 0) (sem0_23 0) (Memref.isWhole_whole _) (hstage0_23 0)

abbrev win0_24 : Pipeline.Window sig grid0 :=
  Pipeline.Window.whole (Memref.whole main_v16_13) true false (stage0_24 0) (sem0_24 0) (Memref.isWhole_whole _) (hstage0_24 0)

abbrev win0_25 : Pipeline.Window sig grid0 :=
  Pipeline.Window.whole (Memref.whole main_v16_14) true false (stage0_25 0) (sem0_25 0) (Memref.isWhole_whole _) (hstage0_25 0)

abbrev win0_26 : Pipeline.Window sig grid0 :=
  Pipeline.Window.whole (Memref.whole main_v16_15) true false (stage0_26 0) (sem0_26 0) (Memref.isWhole_whole _) (hstage0_26 0)

abbrev win0 : Fin 27 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | 17 => win0_17 | 18 => win0_18 | 19 => win0_19 | 20 => win0_20 | 21 => win0_21 | 22 => win0_22 | 23 => win0_23 | 24 => win0_24 | 25 => win0_25 | 26 => win0_26 | ⟨_ + 27, h⟩ => absurd h (Nat.not_lt.2 (Nat.le_add_left _ _))
abbrev spec0 : Fin 27 → Pipeline.WinSpec sig grid0.rank := fun w => (win0 w).toWinSpec

abbrev win1_0 : Pipeline.Window sig grid1 :=
  Pipeline.Window.ofSpec (Memref.whole main_v16_0) S512x512.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_v22) S1x6x512.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v3) S2x1x512x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v16_3) S6x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v16_4) S3x128x256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v16_5) S1x256.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v16_6) S6x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v16_7) S3x128x128.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v16_8) S1x128.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v16_9) S3x128x256.size cc1_transform_9 reads1_9 false true 1 stage1_9 sem1_9
    hrank1 hreads1_9 hinb1_9 nbuf1_9 (Memref.isWhole_whole _) hwx1_9 hstage1_9

abbrev win1_10 : Pipeline.Window sig grid1 :=
  Pipeline.Window.ofSpec (Memref.whole main_v16_10) S3x128x256.size cc1_transform_10 reads1_10 false true 1 stage1_10 sem1_10
    hrank1 hreads1_10 hinb1_10 nbuf1_10 (Memref.isWhole_whole _) hwx1_10 hstage1_10

abbrev win1_11 : Pipeline.Window sig grid1 :=
  Pipeline.Window.ofSpec (Memref.whole main_v16_11) S1x256.size cc1_transform_11 reads1_11 false true 1 stage1_11 sem1_11
    hrank1 hreads1_11 hinb1_11 nbuf1_11 (Memref.isWhole_whole _) hwx1_11 hstage1_11

abbrev win1_12 : Pipeline.Window sig grid1 :=
  Pipeline.Window.ofSpec (Memref.whole main_v16_12) S3x128x128.size cc1_transform_12 reads1_12 false true 1 stage1_12 sem1_12
    hrank1 hreads1_12 hinb1_12 nbuf1_12 (Memref.isWhole_whole _) hwx1_12 hstage1_12

abbrev win1_13 : Pipeline.Window sig grid1 :=
  Pipeline.Window.ofSpec (Memref.whole main_v16_13) S3x128x128.size cc1_transform_13 reads1_13 false true 1 stage1_13 sem1_13
    hrank1 hreads1_13 hinb1_13 nbuf1_13 (Memref.isWhole_whole _) hwx1_13 hstage1_13

abbrev win1_14 : Pipeline.Window sig grid1 :=
  Pipeline.Window.ofSpec (Memref.whole main_v16_14) S1x128.size cc1_transform_14 reads1_14 false true 1 stage1_14 sem1_14
    hrank1 hreads1_14 hinb1_14 nbuf1_14 (Memref.isWhole_whole _) hwx1_14 hstage1_14

abbrev win1_15 : Pipeline.Window sig grid1 :=
  Pipeline.Window.ofSpec (Memref.whole main_v16_15) S128x2.size cc1_transform_15 reads1_15 false true 1 stage1_15 sem1_15
    hrank1 hreads1_15 hinb1_15 nbuf1_15 (Memref.isWhole_whole _) hwx1_15 hstage1_15

abbrev win1_16 : Pipeline.Window sig grid1 :=
  Pipeline.Window.ofSpec (Memref.whole main_v23) S1x1.size cc1_transform_16 reads1_16 false true 1 stage1_16 sem1_16
    hrank1 hreads1_16 hinb1_16 nbuf1_16 (Memref.isWhole_whole _) hwx1_16 hstage1_16

abbrev win1_17 : Pipeline.Window sig grid1 :=
  Pipeline.Window.ofSpec (Memref.whole main_v24_0) S1x2x512.size cc1_transform_17 reads1_17 true false 2 stage1_17 sem1_17
    hrank1 hreads1_17 hinb1_17 nbuf1_17 (Memref.isWhole_whole _) hwx1_17 hstage1_17

abbrev win1_18 : Pipeline.Window sig grid1 :=
  Pipeline.Window.ofSpec (Memref.whole main_v24_1) S2x1x512x128.size cc1_transform_18 reads1_18 true false 2 stage1_18 sem1_18
    hrank1 hreads1_18 hinb1_18 nbuf1_18 (Memref.isWhole_whole _) hwx1_18 hstage1_18

abbrev win1 : Fin 19 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | 11 => win1_11 | 12 => win1_12 | 13 => win1_13 | 14 => win1_14 | 15 => win1_15 | 16 => win1_16 | 17 => win1_17 | 18 => win1_18 | ⟨_ + 19, h⟩ => absurd h (Nat.not_lt.2 (Nat.le_add_left _ _))
abbrev spec1 : Fin 19 → Pipeline.WinSpec sig grid1.rank := fun w => (win1 w).toWinSpec

class Facts : Prop extends Facts₀ where

variable [Facts]
-- ==== ReferenceIdeal.lean ====
abbrev S64x512 : Shape := ⟨2, ![64, 512]⟩
abbrev S2x64x32768 : Shape := ⟨3, ![2, 64, 32768]⟩
abbrev S512x512 : Shape := ⟨2, ![512, 512]⟩
abbrev S195x128 : Shape := ⟨2, ![195, 128]⟩
abbrev S128 : Shape := ⟨1, ![128]⟩
abbrev S195x64 : Shape := ⟨2, ![195, 64]⟩
abbrev S64 : Shape := ⟨1, ![64]⟩
abbrev S384x128 : Shape := ⟨2, ![384, 128]⟩
abbrev S384x64 : Shape := ⟨2, ![384, 64]⟩
abbrev S64x1 : Shape := ⟨2, ![64, 1]⟩
abbrev S1 : Shape := ⟨1, ![1]⟩
abbrev S_ : Shape := ⟨0, ![]⟩
abbrev S512 : Shape := ⟨1, ![512]⟩
abbrev S512x1 : Shape := ⟨2, ![512, 1]⟩
abbrev S1x512 : Shape := ⟨2, ![1, 512]⟩
abbrev S1x64x32768 : Shape := ⟨3, ![1, 64, 32768]⟩
abbrev S64x32768 : Shape := ⟨2, ![64, 32768]⟩
abbrev S64x512x1 : Shape := ⟨3, ![64, 512, 1]⟩
abbrev S64x512x64 : Shape := ⟨3, ![64, 512, 64]⟩
abbrev S64x512x65 : Shape := ⟨3, ![64, 512, 65]⟩
abbrev S512x65x64 : Shape := ⟨3, ![512, 65, 64]⟩
abbrev S512x4160 : Shape := ⟨2, ![512, 4160]⟩
abbrev S1x512x4160 : Shape := ⟨3, ![1, 512, 4160]⟩
abbrev S3x512x4160 : Shape := ⟨3, ![3, 512, 4160]⟩
abbrev S3x512x65x64 : Shape := ⟨4, ![3, 512, 65, 64]⟩
abbrev S64x512x65x3 : Shape := ⟨4, ![64, 512, 65, 3]⟩
abbrev S32768x195 : Shape := ⟨2, ![32768, 195]⟩
abbrev S32768x128 : Shape := ⟨2, ![32768, 128]⟩
abbrev S1x128 : Shape := ⟨2, ![1, 128]⟩
abbrev S64x65536 : Shape := ⟨2, ![64, 65536]⟩
abbrev S64x512x128 : Shape := ⟨3, ![64, 512, 128]⟩
abbrev S32768x64 : Shape := ⟨2, ![32768, 64]⟩
abbrev S1x64 : Shape := ⟨2, ![1, 64]⟩
abbrev S512x128x64 : Shape := ⟨3, ![512, 128, 64]⟩
abbrev S512x8192 : Shape := ⟨2, ![512, 8192]⟩
abbrev S1x512x8192 : Shape := ⟨3, ![1, 512, 8192]⟩
abbrev S3x512x8192 : Shape := ⟨3, ![3, 512, 8192]⟩
abbrev S3x512x128x64 : Shape := ⟨4, ![3, 512, 128, 64]⟩
abbrev S64x512x128x3 : Shape := ⟨4, ![64, 512, 128, 3]⟩
abbrev S32768x384 : Shape := ⟨2, ![32768, 384]⟩
abbrev S32768x1 : Shape := ⟨2, ![32768, 1]⟩
abbrev S1x1 : Shape := ⟨2, ![1, 1]⟩

abbrev nBuf : Space → Nat
  | .hbm => 200
  | .vmem => 0
  | .smem => 0
  | _ => 0

abbrev hbmTy0_0 (i : Nat) : BufTy := match i % 128 with
  | 0 => ⟨S64x512, .f32⟩
  | 1 => ⟨S2x64x32768, .f32⟩
  | 2 => ⟨S512x512, .f32⟩
  | 3 => ⟨S195x128, .f32⟩
  | 4 => ⟨S128, .f32⟩
  | 5 => ⟨S195x64, .f32⟩
  | 6 => ⟨S64, .f32⟩
  | 7 => ⟨S384x128, .f32⟩
  | 8 => ⟨S128, .f32⟩
  | 9 => ⟨S384x64, .f32⟩
  | 10 => ⟨S64, .f32⟩
  | 11 => ⟨S64x1, .f32⟩
  | 12 => ⟨S1, .f32⟩
  | 13 => ⟨S512x512, .f32⟩
  | 14 => ⟨S512x512, .f32⟩
  | 15 => ⟨S_, .f32⟩
  | 16 => ⟨S512, .f32⟩
  | 17 => ⟨S_, .f32⟩
  | 18 => ⟨S512, .f32⟩
  | 19 => ⟨S512, .i1⟩
  | 20 => ⟨S512, .f32⟩
  | 21 => ⟨S_, .f32⟩
  | 22 => ⟨S512, .f32⟩
  | 23 => ⟨S512, .f32⟩
  | 24 => ⟨S_, .f32⟩
  | 25 => ⟨S_, .f32⟩
  | 26 => ⟨S512, .f32⟩
  | 27 => ⟨S512, .f32⟩
  | 28 => ⟨S512x512, .i32⟩
  | 29 => ⟨S512x512, .i32⟩
  | 30 => ⟨S_, .i32⟩
  | 31 => ⟨S512x512, .i32⟩
  | 32 => ⟨S512x512, .i32⟩
  | 33 => ⟨S512x512, .i1⟩
  | 34 => ⟨S512x512, .f32⟩
  | 35 => ⟨S512x1, .f32⟩
  | 36 => ⟨S512x512, .f32⟩
  | 37 => ⟨S512x512, .f32⟩
  | 38 => ⟨S1x512, .f32⟩
  | 39 => ⟨S512x512, .f32⟩
  | 40 => ⟨S512x512, .f32⟩
  | 41 => ⟨S512x512, .f32⟩
  | 42 => ⟨S_, .f32⟩
  | 43 => ⟨S512x512, .f32⟩
  | 44 => ⟨S512x512, .f32⟩
  | 45 => ⟨S512x512, .i32⟩
  | 46 => ⟨S512x512, .i32⟩
  | 47 => ⟨S_, .i32⟩
  | 48 => ⟨S512x512, .i32⟩
  | 49 => ⟨S512x512, .i32⟩
  | 50 => ⟨S512x512, .i1⟩
  | 51 => ⟨S512x512, .f32⟩
  | 52 => ⟨S512x512, .f32⟩
  | 53 => ⟨S1x64x32768, .f32⟩
  | 54 => ⟨S64x32768, .f32⟩
  | 55 => ⟨S64x512x1, .f32⟩
  | 56 => ⟨S64x512x64, .f32⟩
  | 57 => ⟨S64x512x65, .f32⟩
  | 58 => ⟨S512x65x64, .f32⟩
  | 59 => ⟨S512x4160, .f32⟩
  | 60 => ⟨S512x4160, .f32⟩
  | 61 => ⟨S512x4160, .f32⟩
  | 62 => ⟨S_, .f32⟩
  | 63 => ⟨S512x4160, .f32⟩
  | 64 => ⟨S512x4160, .f32⟩
  | 65 => ⟨S512x4160, .f32⟩
  | 66 => ⟨S1x512x4160, .f32⟩
  | 67 => ⟨S1x512x4160, .f32⟩
  | 68 => ⟨S1x512x4160, .f32⟩
  | 69 => ⟨S3x512x4160, .f32⟩
  | 70 => ⟨S3x512x65x64, .f32⟩
  | 71 => ⟨S64x512x65x3, .f32⟩
  | 72 => ⟨S32768x195, .f32⟩
  | 73 => ⟨S32768x128, .f32⟩
  | 74 => ⟨S1x128, .f32⟩
  | 75 => ⟨S32768x128, .f32⟩
  | 76 => ⟨S32768x128, .f32⟩
  | 77 => ⟨S64x65536, .f32⟩
  | 78 => ⟨S64x65536, .f32⟩
  | 79 => ⟨S64x65536, .f32⟩
  | 80 => ⟨S_, .f32⟩
  | 81 => ⟨S64x65536, .f32⟩
  | 82 => ⟨S64x65536, .f32⟩
  | 83 => ⟨S_, .f32⟩
  | 84 => ⟨S64x65536, .f32⟩
  | 85 => ⟨S64x65536, .f32⟩
  | 86 => ⟨S64x512x128, .f32⟩
  | 87 => ⟨S64x512x64, .f32⟩
  | 88 => ⟨S64x32768, .f32⟩
  | 89 => ⟨S64x512x64, .f32⟩
  | 90 => ⟨S64x32768, .f32⟩
  | 91 => ⟨S64x32768, .f32⟩
  | 92 => ⟨S64x512x1, .f32⟩
  | 93 => ⟨S64x512x64, .f32⟩
  | 94 => ⟨S64x512x65, .f32⟩
  | 95 => ⟨S512x65x64, .f32⟩
  | 96 => ⟨S512x4160, .f32⟩
  | 97 => ⟨S512x4160, .f32⟩
  | 98 => ⟨S512x4160, .f32⟩
  | 99 => ⟨S_, .f32⟩
  | 100 => ⟨S512x4160, .f32⟩
  | 101 => ⟨S512x4160, .f32⟩
  | 102 => ⟨S512x4160, .f32⟩
  | 103 => ⟨S1x512x4160, .f32⟩
  | 104 => ⟨S1x512x4160, .f32⟩
  | 105 => ⟨S1x512x4160, .f32⟩
  | 106 => ⟨S3x512x4160, .f32⟩
  | 107 => ⟨S3x512x65x64, .f32⟩
  | 108 => ⟨S64x512x65x3, .f32⟩
  | 109 => ⟨S32768x195, .f32⟩
  | 110 => ⟨S32768x64, .f32⟩
  | 111 => ⟨S1x64, .f32⟩
  | 112 => ⟨S32768x64, .f32⟩
  | 113 => ⟨S32768x64, .f32⟩
  | 114 => ⟨S64x32768, .f32⟩
  | 115 => ⟨S64x32768, .f32⟩
  | 116 => ⟨S64x32768, .f32⟩
  | 117 => ⟨S_, .f32⟩
  | 118 => ⟨S64x32768, .f32⟩
  | 119 => ⟨S64x32768, .f32⟩
  | 120 => ⟨S64x32768, .f32⟩
  | 121 => ⟨S64x32768, .f32⟩
  | 122 => ⟨S1x64x32768, .f32⟩
  | 123 => ⟨S64x32768, .f32⟩
  | 124 => ⟨S64x512x64, .f32⟩
  | 125 => ⟨S64x512x64, .f32⟩
  | 126 => ⟨S64x512x128, .f32⟩
  | 127 => ⟨S512x128x64, .f32⟩
  | _ => ⟨S64x512, .f32⟩

abbrev hbmTy0_1 (i : Nat) : BufTy := match i % 128 with
  | 0 => ⟨S512x8192, .f32⟩
  | 1 => ⟨S512x8192, .f32⟩
  | 2 => ⟨S512x8192, .f32⟩
  | 3 => ⟨S_, .f32⟩
  | 4 => ⟨S512x8192, .f32⟩
  | 5 => ⟨S512x8192, .f32⟩
  | 6 => ⟨S512x8192, .f32⟩
  | 7 => ⟨S1x512x8192, .f32⟩
  | 8 => ⟨S1x512x8192, .f32⟩
  | 9 => ⟨S1x512x8192, .f32⟩
  | 10 => ⟨S3x512x8192, .f32⟩
  | 11 => ⟨S3x512x128x64, .f32⟩
  | 12 => ⟨S64x512x128x3, .f32⟩
  | 13 => ⟨S32768x384, .f32⟩
  | 14 => ⟨S32768x128, .f32⟩
  | 15 => ⟨S1x128, .f32⟩
  | 16 => ⟨S32768x128, .f32⟩
  | 17 => ⟨S32768x128, .f32⟩
  | 18 => ⟨S64x65536, .f32⟩
  | 19 => ⟨S64x65536, .f32⟩
  | 20 => ⟨S64x65536, .f32⟩
  | 21 => ⟨S_, .f32⟩
  | 22 => ⟨S64x65536, .f32⟩
  | 23 => ⟨S64x65536, .f32⟩
  | 24 => ⟨S_, .f32⟩
  | 25 => ⟨S64x65536, .f32⟩
  | 26 => ⟨S64x65536, .f32⟩
  | 27 => ⟨S64x512x128, .f32⟩
  | 28 => ⟨S64x512x64, .f32⟩
  | 29 => ⟨S64x32768, .f32⟩
  | 30 => ⟨S64x512x64, .f32⟩
  | 31 => ⟨S64x32768, .f32⟩
  | 32 => ⟨S64x32768, .f32⟩
  | 33 => ⟨S64x512x64, .f32⟩
  | 34 => ⟨S64x512x64, .f32⟩
  | 35 => ⟨S64x512x128, .f32⟩
  | 36 => ⟨S512x128x64, .f32⟩
  | 37 => ⟨S512x8192, .f32⟩
  | 38 => ⟨S512x8192, .f32⟩
  | 39 => ⟨S512x8192, .f32⟩
  | 40 => ⟨S_, .f32⟩
  | 41 => ⟨S512x8192, .f32⟩
  | 42 => ⟨S512x8192, .f32⟩
  | 43 => ⟨S512x8192, .f32⟩
  | 44 => ⟨S1x512x8192, .f32⟩
  | 45 => ⟨S1x512x8192, .f32⟩
  | 46 => ⟨S1x512x8192, .f32⟩
  | 47 => ⟨S3x512x8192, .f32⟩
  | 48 => ⟨S3x512x128x64, .f32⟩
  | 49 => ⟨S64x512x128x3, .f32⟩
  | 50 => ⟨S32768x384, .f32⟩
  | 51 => ⟨S32768x64, .f32⟩
  | 52 => ⟨S1x64, .f32⟩
  | 53 => ⟨S32768x64, .f32⟩
  | 54 => ⟨S32768x64, .f32⟩
  | 55 => ⟨S64x32768, .f32⟩
  | 56 => ⟨S64x32768, .f32⟩
  | 57 => ⟨S64x32768, .f32⟩
  | 58 => ⟨S_, .f32⟩
  | 59 => ⟨S64x32768, .f32⟩
  | 60 => ⟨S64x32768, .f32⟩
  | 61 => ⟨S64x32768, .f32⟩
  | 62 => ⟨S64x32768, .f32⟩
  | 63 => ⟨S32768x64, .f32⟩
  | 64 => ⟨S32768x1, .f32⟩
  | 65 => ⟨S1x1, .f32⟩
  | 66 => ⟨S32768x1, .f32⟩
  | 67 => ⟨S32768x1, .f32⟩
  | 68 => ⟨S64x512, .f32⟩
  | 69 => ⟨S1x64x32768, .f32⟩
  | 70 => ⟨S1x64x32768, .f32⟩
  | 71 => ⟨S2x64x32768, .f32⟩
  | _ => ⟨S64x512, .f32⟩

abbrev hbmTy (i : Nat) : BufTy := match i / 128 with
  | 0 => hbmTy0_0 i
  | 1 => hbmTy0_1 i
  | _ => ⟨S64x512, .f32⟩

abbrev bufTy : (tb : Table) → Fin (tcTables nBuf tb) → BufTy
  | .hbm, ⟨i, _⟩ => hbmTy i
  | _, _ => ⟨S64x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_cst : Ref sig .tc := ⟨.hbm, 15, rfl⟩
abbrev main_v2 : Ref sig .tc := ⟨.hbm, 16, rfl⟩
abbrev main_cst_0 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_cst_1 : Ref sig .tc := ⟨.hbm, 21, rfl⟩
abbrev main_v6 : Ref sig .tc := ⟨.hbm, 22, rfl⟩
abbrev main_v7 : Ref sig .tc := ⟨.hbm, 23, rfl⟩
abbrev main_cst_2 : Ref sig .tc := ⟨.hbm, 24, rfl⟩
abbrev main_call0_v0 : Ref sig .tc := ⟨.hbm, 25, rfl⟩
abbrev main_call0_v1 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_c : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_cst_3 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_c_4 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_cst_5 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_cst_6 : Ref sig .tc := ⟨.hbm, 80, rfl⟩
abbrev main_v57 : Ref sig .tc := ⟨.hbm, 81, rfl⟩
abbrev main_v58 : Ref sig .tc := ⟨.hbm, 82, rfl⟩
abbrev main_cst_7 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_cst_8 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩
abbrev main_v84 : Ref sig .tc := ⟨.hbm, 110, rfl⟩
abbrev main_v85 : Ref sig .tc := ⟨.hbm, 111, rfl⟩
abbrev main_v86 : Ref sig .tc := ⟨.hbm, 112, rfl⟩
abbrev main_v87 : Ref sig .tc := ⟨.hbm, 113, rfl⟩
abbrev main_v88 : Ref sig .tc := ⟨.hbm, 114, rfl⟩
abbrev main_v89 : Ref sig .tc := ⟨.hbm, 115, rfl⟩
abbrev main_v90 : Ref sig .tc := ⟨.hbm, 116, rfl⟩
abbrev main_cst_9 : Ref sig .tc := ⟨.hbm, 117, rfl⟩
abbrev main_v91 : Ref sig .tc := ⟨.hbm, 118, rfl⟩
abbrev main_v92 : Ref sig .tc := ⟨.hbm, 119, rfl⟩
abbrev main_v93 : Ref sig .tc := ⟨.hbm, 120, rfl⟩
abbrev main_v94 : Ref sig .tc := ⟨.hbm, 121, rfl⟩
abbrev main_v95 : Ref sig .tc := ⟨.hbm, 122, rfl⟩
abbrev main_v96 : Ref sig .tc := ⟨.hbm, 123, rfl⟩
abbrev main_v97 : Ref sig .tc := ⟨.hbm, 124, rfl⟩
abbrev main_v98 : Ref sig .tc := ⟨.hbm, 125, rfl⟩
abbrev main_v99 : Ref sig .tc := ⟨.hbm, 126, rfl⟩
abbrev main_v100 : Ref sig .tc := ⟨.hbm, 127, rfl⟩
abbrev main_v101 : Ref sig .tc := ⟨.hbm, 128, rfl⟩
abbrev main_v102 : Ref sig .tc := ⟨.hbm, 129, rfl⟩
abbrev main_v103 : Ref sig .tc := ⟨.hbm, 130, rfl⟩
abbrev main_cst_10 : Ref sig .tc := ⟨.hbm, 131, rfl⟩
abbrev main_v104 : Ref sig .tc := ⟨.hbm, 132, rfl⟩
abbrev main_v105 : Ref sig .tc := ⟨.hbm, 133, rfl⟩
abbrev main_v106 : Ref sig .tc := ⟨.hbm, 134, rfl⟩
abbrev main_v107 : Ref sig .tc := ⟨.hbm, 135, rfl⟩
abbrev main_v108 : Ref sig .tc := ⟨.hbm, 136, rfl⟩
abbrev main_v109 : Ref sig .tc := ⟨.hbm, 137, rfl⟩
abbrev main_v110 : Ref sig .tc := ⟨.hbm, 138, rfl⟩
abbrev main_v111 : Ref sig .tc := ⟨.hbm, 139, rfl⟩
abbrev main_v112 : Ref sig .tc := ⟨.hbm, 140, rfl⟩
abbrev main_v113 : Ref sig .tc := ⟨.hbm, 141, rfl⟩
abbrev main_v114 : Ref sig .tc := ⟨.hbm, 142, rfl⟩
abbrev main_v115 : Ref sig .tc := ⟨.hbm, 143, rfl⟩
abbrev main_v116 : Ref sig .tc := ⟨.hbm, 144, rfl⟩
abbrev main_v117 : Ref sig .tc := ⟨.hbm, 145, rfl⟩
abbrev main_v118 : Ref sig .tc := ⟨.hbm, 146, rfl⟩
abbrev main_v119 : Ref sig .tc := ⟨.hbm, 147, rfl⟩
abbrev main_v120 : Ref sig .tc := ⟨.hbm, 148, rfl⟩
abbrev main_cst_11 : Ref sig .tc := ⟨.hbm, 149, rfl⟩
abbrev main_v121 : Ref sig .tc := ⟨.hbm, 150, rfl⟩
abbrev main_v122 : Ref sig .tc := ⟨.hbm, 151, rfl⟩
abbrev main_cst_12 : Ref sig .tc := ⟨.hbm, 152, rfl⟩
abbrev main_v123 : Ref sig .tc := ⟨.hbm, 153, rfl⟩
abbrev main_v124 : Ref sig .tc := ⟨.hbm, 154, rfl⟩
abbrev main_v125 : Ref sig .tc := ⟨.hbm, 155, rfl⟩
abbrev main_v126 : Ref sig .tc := ⟨.hbm, 156, rfl⟩
abbrev main_v127 : Ref sig .tc := ⟨.hbm, 157, rfl⟩
abbrev main_v128 : Ref sig .tc := ⟨.hbm, 158, rfl⟩
abbrev main_v129 : Ref sig .tc := ⟨.hbm, 159, rfl⟩
abbrev main_v130 : Ref sig .tc := ⟨.hbm, 160, rfl⟩
abbrev main_v131 : Ref sig .tc := ⟨.hbm, 161, rfl⟩
abbrev main_v132 : Ref sig .tc := ⟨.hbm, 162, rfl⟩
abbrev main_v133 : Ref sig .tc := ⟨.hbm, 163, rfl⟩
abbrev main_v134 : Ref sig .tc := ⟨.hbm, 164, rfl⟩
abbrev main_v135 : Ref sig .tc := ⟨.hbm, 165, rfl⟩
abbrev main_v136 : Ref sig .tc := ⟨.hbm, 166, rfl⟩
abbrev main_v137 : Ref sig .tc := ⟨.hbm, 167, rfl⟩
abbrev main_cst_13 : Ref sig .tc := ⟨.hbm, 168, rfl⟩
abbrev main_v138 : Ref sig .tc := ⟨.hbm, 169, rfl⟩
abbrev main_v139 : Ref sig .tc := ⟨.hbm, 170, rfl⟩
abbrev main_v140 : Ref sig .tc := ⟨.hbm, 171, rfl⟩
abbrev main_v141 : Ref sig .tc := ⟨.hbm, 172, rfl⟩
abbrev main_v142 : Ref sig .tc := ⟨.hbm, 173, rfl⟩
abbrev main_v143 : Ref sig .tc := ⟨.hbm, 174, rfl⟩
abbrev main_v144 : Ref sig .tc := ⟨.hbm, 175, rfl⟩
abbrev main_v145 : Ref sig .tc := ⟨.hbm, 176, rfl⟩
abbrev main_v146 : Ref sig .tc := ⟨.hbm, 177, rfl⟩
abbrev main_v147 : Ref sig .tc := ⟨.hbm, 178, rfl⟩
abbrev main_v148 : Ref sig .tc := ⟨.hbm, 179, rfl⟩
abbrev main_v149 : Ref sig .tc := ⟨.hbm, 180, rfl⟩
abbrev main_v150 : Ref sig .tc := ⟨.hbm, 181, rfl⟩
abbrev main_v151 : Ref sig .tc := ⟨.hbm, 182, rfl⟩
abbrev main_v152 : Ref sig .tc := ⟨.hbm, 183, rfl⟩
abbrev main_v153 : Ref sig .tc := ⟨.hbm, 184, rfl⟩
abbrev main_v154 : Ref sig .tc := ⟨.hbm, 185, rfl⟩
abbrev main_cst_14 : Ref sig .tc := ⟨.hbm, 186, rfl⟩
abbrev main_v155 : Ref sig .tc := ⟨.hbm, 187, rfl⟩
abbrev main_v156 : Ref sig .tc := ⟨.hbm, 188, rfl⟩
abbrev main_v157 : Ref sig .tc := ⟨.hbm, 189, rfl⟩
abbrev main_v158 : Ref sig .tc := ⟨.hbm, 190, rfl⟩
abbrev main_v159 : Ref sig .tc := ⟨.hbm, 191, rfl⟩
abbrev main_v160 : Ref sig .tc := ⟨.hbm, 192, rfl⟩
abbrev main_v161 : Ref sig .tc := ⟨.hbm, 193, rfl⟩
abbrev main_v162 : Ref sig .tc := ⟨.hbm, 194, rfl⟩
abbrev main_v163 : Ref sig .tc := ⟨.hbm, 195, rfl⟩
abbrev main_v164 : Ref sig .tc := ⟨.hbm, 196, rfl⟩
abbrev main_v165 : Ref sig .tc := ⟨.hbm, 197, rfl⟩
abbrev main_v166 : Ref sig .tc := ⟨.hbm, 198, rfl⟩
abbrev main_v167 : Ref sig .tc := ⟨.hbm, 199, rfl⟩

abbrev nD : Nat := 1
abbrev τ : Topo := Topo.v7x

variable {F : FTy → Type} [FloatOps F]

class Facts₀ : Prop where
  transposes_S512x512_S512x512_1_0 : S512x512.Transposes [1, 0] S512x512
  reducesTo_S512x512_S512_d1 : S512x512.ReducesTo [1] S512
  h_S_ : 0 < S_.numel
  bcast_S_S512 : S_.BroadcastsInDim S512 (![] : Fin 0 → Fin S512.rank)
  bcast_S_S512x512 : S_.BroadcastsInDim S512x512 (![] : Fin 0 → Fin S512x512.rank)
  bcast_S512_S512x1_0 : S512.BroadcastsInDim S512x1 (![0] : Fin 1 → Fin S512x1.rank)
  bcast_S512x1_S512x512_0_1 : S512x1.BroadcastsInDim S512x512 (![0, 1] : Fin 2 → Fin S512x512.rank)
  bcast_S512_S1x512_1 : S512.BroadcastsInDim S1x512 (![1] : Fin 1 → Fin S1x512.rank)
  bcast_S1x512_S512x512_0_1 : S1x512.BroadcastsInDim S512x512 (![0, 1] : Fin 2 → Fin S512x512.rank)
  slices_S2x64x32768_S1x64x32768_0_0_0 : S2x64x32768.Slices ![0, 0, 0] S1x64x32768
  shapeCasts_S1x64x32768_S64x32768 : S1x64x32768.ShapeCasts S64x32768
  shapeCasts_S64x512_S64x512x1 : S64x512.ShapeCasts S64x512x1
  shapeCasts_S64x32768_S64x512x64 : S64x32768.ShapeCasts S64x512x64
  concatenates_S64x512x1_S64x512x64_S64x512x65_d2 : Shape.Concatenates [S64x512x1, S64x512x64] S64x512x65 2
  transposes_S64x512x65_S512x65x64_1_2_0 : S64x512x65.Transposes [1, 2, 0] S512x65x64
  shapeCasts_S512x65x64_S512x4160 : S512x65x64.ShapeCasts S512x4160
  bcast_S_S512x4160 : S_.BroadcastsInDim S512x4160 (![] : Fin 0 → Fin S512x4160.rank)
  bcast_S512x4160_S1x512x4160_1_2 : S512x4160.BroadcastsInDim S1x512x4160 (![1, 2] : Fin 2 → Fin S1x512x4160.rank)
  concatenates_S1x512x4160_S1x512x4160_S1x512x4160_S3x512x4160_d0 : Shape.Concatenates [S1x512x4160, S1x512x4160, S1x512x4160] S3x512x4160 0
  shapeCasts_S3x512x4160_S3x512x65x64 : S3x512x4160.ShapeCasts S3x512x65x64
  transposes_S3x512x65x64_S64x512x65x3_3_1_2_0 : S3x512x65x64.Transposes [3, 1, 2, 0] S64x512x65x3
  shapeCasts_S64x512x65x3_S32768x195 : S64x512x65x3.ShapeCasts S32768x195
  bcast_S128_S1x128_1 : S128.BroadcastsInDim S1x128 (![1] : Fin 1 → Fin S1x128.rank)
  bcast_S1x128_S32768x128_0_1 : S1x128.BroadcastsInDim S32768x128 (![0, 1] : Fin 2 → Fin S32768x128.rank)
  shapeCasts_S32768x128_S64x65536 : S32768x128.ShapeCasts S64x65536
  bcast_S_S64x65536 : S_.BroadcastsInDim S64x65536 (![] : Fin 0 → Fin S64x65536.rank)
  shapeCasts_S64x65536_S64x512x128 : S64x65536.ShapeCasts S64x512x128
  slices_S64x512x128_S64x512x64_0_0_0 : S64x512x128.Slices ![0, 0, 0] S64x512x64
  shapeCasts_S64x512x64_S64x32768 : S64x512x64.ShapeCasts S64x32768
  slices_S64x512x128_S64x512x64_0_0_64 : S64x512x128.Slices ![0, 0, 64] S64x512x64
  bcast_S64_S1x64_1 : S64.BroadcastsInDim S1x64 (![1] : Fin 1 → Fin S1x64.rank)
  bcast_S1x64_S32768x64_0_1 : S1x64.BroadcastsInDim S32768x64 (![0, 1] : Fin 2 → Fin S32768x64.rank)
  shapeCasts_S32768x64_S64x32768 : S32768x64.ShapeCasts S64x32768
  bcast_S_S64x32768 : S_.BroadcastsInDim S64x32768 (![] : Fin 0 → Fin S64x32768.rank)
  slices_S2x64x32768_S1x64x32768_1_0_0 : S2x64x32768.Slices ![1, 0, 0] S1x64x32768
  concatenates_S64x512x64_S64x512x64_S64x512x128_d2 : Shape.Concatenates [S64x512x64, S64x512x64] S64x512x128 2
  transposes_S64x512x128_S512x128x64_1_2_0 : S64x512x128.Transposes [1, 2, 0] S512x128x64
  shapeCasts_S512x128x64_S512x8192 : S512x128x64.ShapeCasts S512x8192
  bcast_S_S512x8192 : S_.BroadcastsInDim S512x8192 (![] : Fin 0 → Fin S512x8192.rank)
  bcast_S512x8192_S1x512x8192_1_2 : S512x8192.BroadcastsInDim S1x512x8192 (![1, 2] : Fin 2 → Fin S1x512x8192.rank)
  concatenates_S1x512x8192_S1x512x8192_S1x512x8192_S3x512x8192_d0 : Shape.Concatenates [S1x512x8192, S1x512x8192, S1x512x8192] S3x512x8192 0
  shapeCasts_S3x512x8192_S3x512x128x64 : S3x512x8192.ShapeCasts S3x512x128x64
  transposes_S3x512x128x64_S64x512x128x3_3_1_2_0 : S3x512x128x64.Transposes [3, 1, 2, 0] S64x512x128x3
  shapeCasts_S64x512x128x3_S32768x384 : S64x512x128x3.ShapeCasts S32768x384
  shapeCasts_S64x32768_S32768x64 : S64x32768.ShapeCasts S32768x64
  bcast_S1_S1x1_1 : S1.BroadcastsInDim S1x1 (![1] : Fin 1 → Fin S1x1.rank)
  bcast_S1x1_S32768x1_0_1 : S1x1.BroadcastsInDim S32768x1 (![0, 1] : Fin 2 → Fin S32768x1.rank)
  shapeCasts_S32768x1_S64x512 : S32768x1.ShapeCasts S64x512
  bcast_S64x32768_S1x64x32768_1_2 : S64x32768.BroadcastsInDim S1x64x32768 (![1, 2] : Fin 2 → Fin S1x64x32768.rank)
  concatenates_S1x64x32768_S1x64x32768_S2x64x32768_d0 : Shape.Concatenates [S1x64x32768, S1x64x32768] S2x64x32768 0
  dot_S512x512_S512x4160_S512x4160_1_0_0_1_n_n_wf : DotDims.WF S512x512 S512x4160 S512x4160 [1] [0] [0] [1] [] []
  dot_S32768x195_S195x128_S32768x128_1_0_0_1_n_n_wf : DotDims.WF S32768x195 S195x128 S32768x128 [1] [0] [0] [1] [] []
  dot_S32768x195_S195x64_S32768x64_1_0_0_1_n_n_wf : DotDims.WF S32768x195 S195x64 S32768x64 [1] [0] [0] [1] [] []
  dot_S512x512_S512x8192_S512x8192_1_0_0_1_n_n_wf : DotDims.WF S512x512 S512x8192 S512x8192 [1] [0] [0] [1] [] []
  dot_S32768x384_S384x128_S32768x128_1_0_0_1_n_n_wf : DotDims.WF S32768x384 S384x128 S32768x128 [1] [0] [0] [1] [] []
  dot_S32768x384_S384x64_S32768x64_1_0_0_1_n_n_wf : DotDims.WF S32768x384 S384x64 S32768x64 [1] [0] [0] [1] [] []
  dot_S32768x64_S64x1_S32768x1_1_0_0_1_n_n_wf : DotDims.WF S32768x64 S64x1 S32768x1 [1] [0] [0] [1] [] []

variable [Facts₀]

def dot_S512x512_S512x4160_S512x4160_1_0_0_1_n_n : DotDims S512x512 S512x4160 S512x4160 where
  lhsContracting := [1]
  rhsContracting := [0]
  lhsNonContracting := [0]
  rhsNonContracting := [1]
  lhsBatch := []
  rhsBatch := []
  wf := dot_S512x512_S512x4160_S512x4160_1_0_0_1_n_n_wf
def dot_S32768x195_S195x128_S32768x128_1_0_0_1_n_n : DotDims S32768x195 S195x128 S32768x128 where
  lhsContracting := [1]
  rhsContracting := [0]
  lhsNonContracting := [0]
  rhsNonContracting := [1]
  lhsBatch := []
  rhsBatch := []
  wf := dot_S32768x195_S195x128_S32768x128_1_0_0_1_n_n_wf
def dot_S32768x195_S195x64_S32768x64_1_0_0_1_n_n : DotDims S32768x195 S195x64 S32768x64 where
  lhsContracting := [1]
  rhsContracting := [0]
  lhsNonContracting := [0]
  rhsNonContracting := [1]
  lhsBatch := []
  rhsBatch := []
  wf := dot_S32768x195_S195x64_S32768x64_1_0_0_1_n_n_wf
def dot_S512x512_S512x8192_S512x8192_1_0_0_1_n_n : DotDims S512x512 S512x8192 S512x8192 where
  lhsContracting := [1]
  rhsContracting := [0]
  lhsNonContracting := [0]
  rhsNonContracting := [1]
  lhsBatch := []
  rhsBatch := []
  wf := dot_S512x512_S512x8192_S512x8192_1_0_0_1_n_n_wf
def dot_S32768x384_S384x128_S32768x128_1_0_0_1_n_n : DotDims S32768x384 S384x128 S32768x128 where
  lhsContracting := [1]
  rhsContracting := [0]
  lhsNonContracting := [0]
  rhsNonContracting := [1]
  lhsBatch := []
  rhsBatch := []
  wf := dot_S32768x384_S384x128_S32768x128_1_0_0_1_n_n_wf
def dot_S32768x384_S384x64_S32768x64_1_0_0_1_n_n : DotDims S32768x384 S384x64 S32768x64 where
  lhsContracting := [1]
  rhsContracting := [0]
  lhsNonContracting := [0]
  rhsNonContracting := [1]
  lhsBatch := []
  rhsBatch := []
  wf := dot_S32768x384_S384x64_S32768x64_1_0_0_1_n_n_wf
def dot_S32768x64_S64x1_S32768x1_1_0_0_1_n_n : DotDims S32768x64 S64x1 S32768x1 where
  lhsContracting := [1]
  rhsContracting := [0]
  lhsNonContracting := [0]
  rhsNonContracting := [1]
  lhsBatch := []
  rhsBatch := []
  wf := dot_S32768x64_S64x1_S32768x1_1_0_0_1_n_n_wf

class Facts : Prop extends Facts₀ where

variable [Facts]
-- ==== Proof.K.R0.lean ====
import proofs.«107218_g19069654794669_cont_sun_m_30_13_alg».proof.Proof.Gen.Kernel.Launch
import proofs.«107218_g19069654794669_cont_sun_m_30_13_alg».proof.Proof.Gen.Kernel.Skeleton
import proofs.«107218_g19069654794669_cont_sun_m_30_13_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)

theorem before0_7_of {c : Dev nD} (dat : Dat τ (Elt F) Unit ℕ (UR sig nD τ) ℕ cfg0 c) (hA : dat.A 7 = V c (Pipeline.arrRef spec0 7))
    (hafter : ∀ t, dat.after 7 t = iblk0 V c 7 t) (t : Fin cfg0.N) (d) : dat.before 7 t d = iblk0 V c 7 t :=
  (dat.before_in_eq_fetched 7 rfl (fun _ => rfl) (fun _ _ _ => rfl) (fun t => by rw [hafter]; unfold Dat.blockOf iblk0; rw [hA]; try rfl) t d).trans
    (by unfold Dat.fetched Dat.blockOf iblk0; rw [hA]; try rfl)

theorem before0_8_of {c : Dev nD} (dat : Dat τ (Elt F) Unit ℕ (UR sig nD τ) ℕ cfg0 c) (hA : dat.A 8 = V c (Pipeline.arrRef spec0 8))
    (hafter : ∀ t, dat.after 8 t = iblk0 V c 8 t) (t : Fin cfg0.N) (d) : dat.before 8 t d = iblk0 V c 8 t :=
  (dat.before_in_eq_fetched 8 rfl (fun _ => rfl) (fun _ _ _ => rfl) (fun t => by rw [hafter]; unfold Dat.blockOf iblk0; rw [hA]; try rfl) t d).trans
    (by unfold Dat.fetched Dat.blockOf iblk0; rw [hA]; try rfl)

theorem before0_9_of {c : Dev nD} (dat : Dat τ (Elt F) Unit ℕ (UR sig nD τ) ℕ cfg0 c) (hA : dat.A 9 = V c (Pipeline.arrRef spec0 9))
    (hafter : ∀ t, dat.after 9 t = iblk0 V c 9 t) (t : Fin cfg0.N) (d) : dat.before 9 t d = iblk0 V c 9 t :=
  (dat.before_in_eq_fetched 9 rfl (fun _ => rfl) (fun _ _ _ => rfl) (fun t => by rw [hafter]; unfold Dat.blockOf iblk0; rw [hA]; try rfl) t d).trans
    (by unfold Dat.fetched Dat.blockOf iblk0; rw [hA]; try rfl)

theorem before0_10_of {c : Dev nD} (dat : Dat τ (Elt F) Unit ℕ (UR sig nD τ) ℕ cfg0 c) (hA : dat.A 10 = V c (Pipeline.arrRef spec0 10))
    (hafter : ∀ t, dat.after 10 t = iblk0 V c 10 t) (t : Fin cfg0.N) (d) : dat.before 10 t d = iblk0 V c 10 t :=
  (dat.before_in_eq_fetched 10 rfl (fun _ => rfl) (fun _ _ _ => rfl) (fun t => by rw [hafter]; unfold Dat.blockOf iblk0; rw [hA]; try rfl) t d).trans
    (by unfold Dat.fetched Dat.blockOf iblk0; rw [hA]; try rfl)

abbrev VO0_11 : View sig .tc .vmem S512x512 .f32 := (Memref.whole cc0_stg11_0 : Memref sig .tc .vmem S512x512 .f32).view
abbrev VO0_12 : View sig .tc .vmem S512x64 .f32 := (Memref.whole cc0_stg12_0 : Memref sig .tc .vmem S512x64 .f32).view
abbrev VO0_13 : View sig .tc .vmem S512x64 .f32 := (Memref.whole cc0_stg13_0 : Memref sig .tc .vmem S512x64 .f32).view
abbrev VO0_14 : View sig .tc .vmem S6x256 .f32 := (Memref.whole cc0_stg14_0 : Memref sig .tc .vmem S6x256 .f32).view
abbrev VO0_15 : View sig .tc .vmem S3x128x256 .f32 := (Memref.whole cc0_stg15_0 : Memref sig .tc .vmem S3x128x256 .f32).view
abbrev VO0_16 : View sig .tc .vmem S1x256 .f32 := (Memref.whole cc0_stg16_0 : Memref sig .tc .vmem S1x256 .f32).view
abbrev VO0_17 : View sig .tc .vmem S6x128 .f32 := (Memref.whole cc0_stg17_0 : Memref sig .tc .vmem S6x128 .f32).view
abbrev VO0_18 : View sig .tc .vmem S3x128x128 .f32 := (Memref.whole cc0_stg18_0 : Memref sig .tc .vmem S3x128x128 .f32).view
abbrev VO0_19 : View sig .tc .vmem S1x128 .f32 := (Memref.whole cc0_stg19_0 : Memref sig .tc .vmem S1x128 .f32).view
abbrev VO0_20 : View sig .tc .vmem S3x128x256 .f32 := (Memref.whole cc0_stg20_0 : Memref sig .tc .vmem S3x128x256 .f32).view
abbrev VO0_21 : View sig .tc .vmem S3x128x256 .f32 := (Memref.whole cc0_stg21_0 : Memref sig .tc .vmem S3x128x256 .f32).view
abbrev VO0_22 : View sig .tc .vmem S1x256 .f32 := (Memref.whole cc0_stg22_0 : Memref sig .tc .vmem S1x256 .f32).view
abbrev VO0_23 : View sig .tc .vmem S3x128x128 .f32 := (Memref.whole cc0_stg23_0 : Memref sig .tc .vmem S3x128x128 .f32).view
abbrev VO0_24 : View sig .tc .vmem S3x128x128 .f32 := (Memref.whole cc0_stg24_0 : Memref sig .tc .vmem S3x128x128 .f32).view
abbrev VO0_25 : View sig .tc .vmem S1x128 .f32 := (Memref.whole cc0_stg25_0 : Memref sig .tc .vmem S1x128 .f32).view
abbrev VO0_26 : View sig .tc .vmem S128x2 .f32 := (Memref.whole cc0_stg26_0 : Memref sig .tc .vmem S128x2 .f32).view

section
variable (c : Dev nD) (arg0 : Memref sig .tc .vmem S512x512 .f32) (harg0 : arg0.IsWhole) (arg1 : Memref sig .tc .vmem S512x64 .f32) (harg1 : arg1.IsWhole) (arg2 : Memref sig .tc .vmem S3x65x128 .f32) (harg2 : arg2.IsWhole) (arg3 : Memref sig .tc .vmem S3x65x64 .f32) (harg3 : arg3.IsWhole) (arg4 : Memref sig .tc .vmem S3x128x128 .f32) (harg4 : arg4.IsWhole) (arg5 : Memref sig .tc .vmem S3x128x64 .f32) (harg5 : arg5.IsWhole) (arg6 : Memref sig .tc .vmem S1x128 .f32) (harg6 : arg6.IsWhole) (arg7 : Memref sig .tc .vmem S1x64 .f32) (harg7 : arg7.IsWhole) (arg8 : Memref sig .tc .vmem S1x128 .f32) (harg8 : arg8.IsWhole) (arg9 : Memref sig .tc .vmem S1x64 .f32) (harg9 : arg9.IsWhole) (arg10 : Memref sig .tc .vmem S64x1 .f32) (harg10 : arg10.IsWhole) (arg11 : Memref sig .tc .vmem S512x512 .f32) (harg11 : arg11.IsWhole) (arg12 : Memref sig .tc .vmem S512x64 .f32) (harg12 : arg12.IsWhole) (arg13 : Memref sig .tc .vmem S512x64 .f32) (harg13 : arg13.IsWhole) (arg14 : Memref sig .tc .vmem S6x256 .f32) (harg14 : arg14.IsWhole) (arg15 : Memref sig .tc .vmem S3x128x256 .f32) (harg15 : arg15.IsWhole) (arg16 : Memref sig .tc .vmem S1x256 .f32) (harg16 : arg16.IsWhole) (arg17 : Memref sig .tc .vmem S6x128 .f32) (harg17 : arg17.IsWhole) (arg18 : Memref sig .tc .vmem S3x128x128 .f32) (harg18 : arg18.IsWhole) (arg19 : Memref sig .tc .vmem S1x128 .f32) (harg19 : arg19.IsWhole) (arg20 : Memref sig .tc .vmem S3x128x256 .f32) (harg20 : arg20.IsWhole) (arg21 : Memref sig .tc .vmem S3x128x256 .f32) (harg21 : arg21.IsWhole) (arg22 : Memref sig .tc .vmem S1x256 .f32) (harg22 : arg22.IsWhole) (arg23 : Memref sig .tc .vmem S3x128x128 .f32) (harg23 : arg23.IsWhole) (arg24 : Memref sig .tc .vmem S3x128x128 .f32) (harg24 : arg24.IsWhole) (arg25 : Memref sig .tc .vmem S1x128 .f32) (harg25 : arg25.IsWhole) (arg26 : Memref sig .tc .vmem S128x2 .f32) (harg26 : arg26.IsWhole)
    (x0 : Vec F S512x512 .f32) (x1 : Vec F S512x64 .f32) (x2 : Vec F S3x65x128 .f32) (x3 : Vec F S3x65x64 .f32) (x4 : Vec F S3x128x128 .f32) (x5 : Vec F S3x128x64 .f32) (x6 : Vec F S1x128 .f32) (x7 : Vec F S1x64 .f32) (x8 : Vec F S1x128 .f32) (x9 : Vec F S1x64 .f32) (x10 : Vec F S64x1 .f32)

set_option maxHeartbeats 4000000 in
noncomputable def kernelRun0 :
    Σ' (L11 : List (View.Piece (Elt F) S512x512 .f32)) (L12 : List (View.Piece (Elt F) S512x64 .f32)) (L13 : List (View.Piece (Elt F) S512x64 .f32)) (L14 : List (View.Piece (Elt F) S6x256 .f32)) (L15 : List (View.Piece (Elt F) S3x128x256 .f32)) (L16 : List (View.Piece (Elt F) S1x256 .f32)) (L17 : List (View.Piece (Elt F) S6x128 .f32)) (L18 : List (View.Piece (Elt F) S3x128x128 .f32)) (L19 : List (View.Piece (Elt F) S1x128 .f32)) (L20 : List (View.Piece (Elt F) S3x128x256 .f32)) (L21 : List (View.Piece (Elt F) S3x128x256 .f32)) (L22 : List (View.Piece (Elt F) S1x256 .f32)) (L23 : List (View.Piece (Elt F) S3x128x128 .f32)) (L24 : List (View.Piece (Elt F) S3x128x128 .f32)) (L25 : List (View.Piece (Elt F) S1x128 .f32)), { L26 : List (View.Piece (Elt F) S128x2 .f32) //
      ∀ (E : Set ℕ) (K : PUnit → sProp 𝕄),
        iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10
            ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d)
            ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10
                ∗ (∃ f, arg11.view.loc (c : Thread nD τ) ↦[arg11.view.set]{fullShare} arg11.view.writes (Elt F) f L11) ∗ (∃ f, arg12.view.loc (c : Thread nD τ) ↦[arg12.view.set]{fullShare} arg12.view.writes (Elt F) f L12) ∗ (∃ f, arg13.view.loc (c : Thread nD τ) ↦[arg13.view.set]{fullShare} arg13.view.writes (Elt F) f L13) ∗ (∃ f, arg14.view.loc (c : Thread nD τ) ↦[arg14.view.set]{fullShare} arg14.view.writes (Elt F) f L14) ∗ (∃ f, arg15.view.loc (c : Thread nD τ) ↦[arg15.view.set]{fullShare} arg15.view.writes (Elt F) f L15) ∗ (∃ f, arg16.view.loc (c : Thread nD τ) ↦[arg16.view.set]{fullShare} arg16.view.writes (Elt F) f L16) ∗ (∃ f, arg17.view.loc (c : Thread nD τ) ↦[arg17.view.set]{fullShare} arg17.view.writes (Elt F) f L17) ∗ (∃ f, arg18.view.loc (c : Thread nD τ) ↦[arg18.view.set]{fullShare} arg18.view.writes (Elt F) f L18) ∗ (∃ f, arg19.view.loc (c : Thread nD τ) ↦[arg19.view.set]{fullShare} arg19.view.writes (Elt F) f L19) ∗ (∃ f, arg20.view.loc (c : Thread nD τ) ↦[arg20.view.set]{fullShare} arg20.view.writes (Elt F) f L20) ∗ (∃ f, arg21.view.loc (c : Thread nD τ) ↦[arg21.view.set]{fullShare} arg21.view.writes (Elt F) f L21) ∗ (∃ f, arg22.view.loc (c : Thread nD τ) ↦[arg22.view.set]{fullShare} arg22.view.writes (Elt F) f L22) ∗ (∃ f, arg23.view.loc (c : Thread nD τ) ↦[arg23.view.set]{fullShare} arg23.view.writes (Elt F) f L23) ∗ (∃ f, arg24.view.loc (c : Thread nD τ) ↦[arg24.view.set]{fullShare} arg24.view.writes (Elt F) f L24) ∗ (∃ f, arg25.view.loc (c : Thread nD τ) ↦[arg25.view.set]{fullShare} arg25.view.writes (Elt F) f L25) ∗ (∃ f, arg26.view.loc (c : Thread nD τ) ↦[arg26.view.set]{fullShare} arg26.view.writes (Elt F) f L26)) -∗ K ⟨⟩))
          ⊢ wp frame (wpE (defs₀ (F := F)) Variants.none c none) E (cc0__prep_kernel arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26) K } := by
  refine ⟨?_, ?_, ?_, ?_, ?_, ?_, ?_, ?_, ?_, ?_, ?_, ?_, ?_, ?_, ?_, ?_, fun E K => ?run⟩
  case run =>
    simp only [cc0__prep_kernel_eq_skeleton]; unfold cc0__prep_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩, ⟨%d20, %f20, -, H20⟩, ⟨%d21, %f21, -, H21⟩, ⟨%d22, %f22, -, H22⟩, ⟨%d23, %f23, -, H23⟩, ⟨%d24, %f24, -, H24⟩, ⟨%d25, %f25, -, H25⟩, ⟨%d26, %f26, -, H26⟩, Hk⟩
    obtain rfl := harg0.eq_unread hf0; obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10
    sl_exec
    sl_step
    iapply Hk
    isplitl [H0]
    · iexists _; isplitr; · ipureintro; exact harg0.read_unread _
      iexact H0
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]; · iexists _; iexact H11
    isplitl [H12]; · iexists _; iexact H12
    isplitl [H13]; · iexists _; iexact H13
    isplitl [H14]; · iexists _; iexact H14
    isplitl [H15]; · iexists _; iexact H15
    isplitl [H16]; · iexists _; iexact H16
    isplitl [H17]; · iexists _; iexact H17
    isplitl [H18]; · iexists _; iexact H18
    isplitl [H19]; · iexists _; iexact H19
    isplitl [H20]; · iexists _; iexact H20
    isplitl [H21]; · iexists _; iexact H21
    isplitl [H22]; · iexists _; iexact H22
    isplitl [H23]; · iexists _; iexact H23
    isplitl [H24]; · iexists _; iexact H24
    isplitl [H25]; · iexists _; iexact H25
    iexists _; iexact H26

theorem cover0_11 (y : S512x512.Idx) :
    ∃ pc ∈ (kernelRun0 c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 x0 x1 x2 x3 x4 x5 x6 x7 x8 x9 x10).1, y ∈ pc.1.set :=
  View.cover_of_tiledL _ S512x512.size (by sl_kernel_rfl) y

theorem cover0_12 (y : S512x64.Idx) :
    ∃ pc ∈ (kernelRun0 c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 x0 x1 x2 x3 x4 x5 x6 x7 x8 x9 x10).2.1, y ∈ pc.1.set :=
  View.cover_of_tiledL _ S512x64.size (by sl_kernel_rfl) y

theorem cover0_13 (y : S512x64.Idx) :
    ∃ pc ∈ (kernelRun0 c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 x0 x1 x2 x3 x4 x5 x6 x7 x8 x9 x10).2.2.1, y ∈ pc.1.set :=
  View.cover_of_tiledL _ S512x64.size (by sl_kernel_rfl) y

theorem cover0_14 (y : S6x256.Idx) :
    ∃ pc ∈ (kernelRun0 c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 x0 x1 x2 x3 x4 x5 x6 x7 x8 x9 x10).2.2.2.1, y ∈ pc.1.set :=
  View.cover_of_wholeMem _ (by sl_whole_mem) y

theorem cover0_15 (y : S3x128x256.Idx) :
    ∃ pc ∈ (kernelRun0 c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 x0 x1 x2 x3 x4 x5 x6 x7 x8 x9 x10).2.2.2.2.1, y ∈ pc.1.set :=
  View.cover_of_wholeMem _ (by sl_whole_mem) y

theorem cover0_16 (y : S1x256.Idx) :
    ∃ pc ∈ (kernelRun0 c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 x0 x1 x2 x3 x4 x5 x6 x7 x8 x9 x10).2.2.2.2.2.1, y ∈ pc.1.set :=
  View.cover_of_tiledL (kernelRun0 c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 x0 x1 x2 x3 x4 x5 x6 x7 x8 x9 x10).2.2.2.2.2.1 S1x64.size (by sl_kernel_rfl) y

theorem cover0_17 (y : S6x128.Idx) :
    ∃ pc ∈ (kernelRun0 c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 x0 x1 x2 x3 x4 x5 x6 x7 x8 x9 x10).2.2.2.2.2.2.1, y ∈ pc.1.set :=
  View.cover_of_wholeMem _ (by sl_whole_mem) y

theorem cover0_18 (y : S3x128x128.Idx) :
    ∃ pc ∈ (kernelRun0 c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 x0 x1 x2 x3 x4 x5 x6 x7 x8 x9 x10).2.2.2.2.2.2.2.1, y ∈ pc.1.set :=
  View.cover_of_wholeMem _ (by sl_whole_mem) y

theorem cover0_19 (y : S1x128.Idx) :
    ∃ pc ∈ (kernelRun0 c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 x0 x1 x2 x3 x4 x5 x6 x7 x8 x9 x10).2.2.2.2.2.2.2.2.1, y ∈ pc.1.set :=
  View.cover_of_tiledL (kernelRun0 c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 x0 x1 x2 x3 x4 x5 x6 x7 x8 x9 x10).2.2.2.2.2.2.2.2.1 S1x64.size (by sl_kernel_rfl) y

theorem cover0_20 (y : S3x128x256.Idx) :
    ∃ pc ∈ (kernelRun0 c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 x0 x1 x2 x3 x4 x5 x6 x7 x8 x9 x10).2.2.2.2.2.2.2.2.2.1, y ∈ pc.1.set :=
  View.cover_of_wholeMem _ (by sl_whole_mem) y

theorem cover0_21 (y : S3x128x256.Idx) :
    ∃ pc ∈ (kernelRun0 c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 x0 x1 x2 x3 x4 x5 x6 x7 x8 x9 x10).2.2.2.2.2.2.2.2.2.2.1, y ∈ pc.1.set :=
  View.cover_of_wholeMem _ (by sl_whole_mem) y

theorem cover0_22 (y : S1x256.Idx) :
    ∃ pc ∈ (kernelRun0 c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 x0 x1 x2 x3 x4 x5 x6 x7 x8 x9 x10).2.2.2.2.2.2.2.2.2.2.2.1, y ∈ pc.1.set :=
  View.cover_of_tiledL (kernelRun0 c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 x0 x1 x2 x3 x4 x5 x6 x7 x8 x9 x10).2.2.2.2.2.2.2.2.2.2.2.1 S1x64.size (by sl_kernel_rfl) y

theorem cover0_23 (y : S3x128x128.Idx) :
    ∃ pc ∈ (kernelRun0 c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 x0 x1 x2 x3 x4 x5 x6 x7 x8 x9 x10).2.2.2.2.2.2.2.2.2.2.2.2.1, y ∈ pc.1.set :=
  View.cover_of_wholeMem _ (by sl_whole_mem) y

theorem cover0_24 (y : S3x128x128.Idx) :
    ∃ pc ∈ (kernelRun0 c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 x0 x1 x2 x3 x4 x5 x6 x7 x8 x9 x10).2.2.2.2.2.2.2.2.2.2.2.2.2.1, y ∈ pc.1.set :=
  View.cover_of_wholeMem _ (by sl_whole_mem) y

theorem cover0_25 (y : S1x128.Idx) :
    ∃ pc ∈ (kernelRun0 c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 x0 x1 x2 x3 x4 x5 x6 x7 x8 x9 x10).2.2.2.2.2.2.2.2.2.2.2.2.2.2.1, y ∈ pc.1.set :=
  View.cover_of_tiledL (kernelRun0 c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 x0 x1 x2 x3 x4 x5 x6 x7 x8 x9 x10).2.2.2.2.2.2.2.2.2.2.2.2.2.2.1 S1x64.size (by sl_kernel_rfl) y

theorem cover0_26 (y : S128x2.Idx) :
    ∃ pc ∈ (kernelRun0 c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 x0 x1 x2 x3 x4 x5 x6 x7 x8 x9 x10).2.2.2.2.2.2.2.2.2.2.2.2.2.2.2.1, y ∈ pc.1.set :=
  View.cover_of_wholeMem _ (by sl_whole_mem) y

end

section
variable (c : Dev nD) (t : Fin cfg0.N) (x0 : Vec F S512x512 .f32) (x1 : Vec F S512x64 .f32) (x2 : Vec F S3x65x128 .f32) (x3 : Vec F S3x65x64 .f32) (x4 : Vec F S3x128x128 .f32) (x5 : Vec F S3x128x64 .f32) (x6 : Vec F S1x128 .f32) (x7 : Vec F S1x64 .f32) (x8 : Vec F S1x128 .f32) (x9 : Vec F S1x64 .f32) (x10 : Vec F S64x1 .f32)

abbrev runAt0 :=
  kernelRun0 (F := F) c (win0_0.stage (cfg0.slots t 0)) (hstage0_0 0) (win0_1.stage (cfg0.slots t 1)) (hstage0_1 0) (win0_2.stage (cfg0.slots t 2)) (hstage0_2 0) (win0_3.stage (cfg0.slots t 3)) (hstage0_3 0) (win0_4.stage (cfg0.slots t 4)) (hstage0_4 0) (win0_5.stage (cfg0.slots t 5)) (hstage0_5 0) (win0_6.stage (cfg0.slots t 6)) (hstage0_6 0) (win0_7.stage (cfg0.slots t 7)) (hstage0_7 0) (win0_8.stage (cfg0.slots t 8)) (hstage0_8 0) (win0_9.stage (cfg0.slots t 9)) (hstage0_9 0) (win0_10.stage (cfg0.slots t 10)) (hstage0_10 0) (win0_11.stage (cfg0.slots t 11)) (hstage0_11 0) (win0_12.stage (cfg0.slots t 12)) (hstage0_12 0) (win0_13.stage (cfg0.slots t 13)) (hstage0_13 0) (win0_14.stage (cfg0.slots t 14)) (hstage0_14 0) (win0_15.stage (cfg0.slots t 15)) (hstage0_15 0) (win0_16.stage (cfg0.slots t 16)) (hstage0_16 0) (win0_17.stage (cfg0.slots t 17)) (hstage0_17 0) (win0_18.stage (cfg0.slots t 18)) (hstage0_18 0) (win0_19.stage (cfg0.slots t 19)) (hstage0_19 0) (win0_20.stage (cfg0.slots t 20)) (hstage0_20 0) (win0_21.stage (cfg0.slots t 21)) (hstage0_21 0) (win0_22.stage (cfg0.slots t 22)) (hstage0_22 0) (win0_23.stage (cfg0.slots t 23)) (hstage0_23 0) (win0_24.stage (cfg0.slots t 24)) (hstage0_24 0) (win0_25.stage (cfg0.slots t 25)) (hstage0_25 0) (win0_26.stage (cfg0.slots t 26)) (hstage0_26 0) x0 x1 x2 x3 x4 x5 x6 x7 x8 x9 x10

def out0_11 : Vec F S512x512 .f32 :=
  VO0_11.read (Elt F) (VO0_11.writes (Elt F) VO0_11.junk (runAt0 c t x0 x1 x2 x3 x4 x5 x6 x7 x8 x9 x10).1)

def out0_12 : Vec F S512x64 .f32 :=
  VO0_12.read (Elt F) (VO0_12.writes (Elt F) VO0_12.junk (runAt0 c t x0 x1 x2 x3 x4 x5 x6 x7 x8 x9 x10).2.1)

def out0_13 : Vec F S512x64 .f32 :=
  VO0_13.read (Elt F) (VO0_13.writes (Elt F) VO0_13.junk (runAt0 c t x0 x1 x2 x3 x4 x5 x6 x7 x8 x9 x10).2.2.1)

def out0_14 : Vec F S6x256 .f32 :=
  VO0_14.read (Elt F) (VO0_14.writes (Elt F) VO0_14.junk (runAt0 c t x0 x1 x2 x3 x4 x5 x6 x7 x8 x9 x10).2.2.2.1)

def out0_15 : Vec F S3x128x256 .f32 :=
  VO0_15.read (Elt F) (VO0_15.writes (Elt F) VO0_15.junk (runAt0 c t x0 x1 x2 x3 x4 x5 x6 x7 x8 x9 x10).2.2.2.2.1)

def out0_16 : Vec F S1x256 .f32 :=
  VO0_16.read (Elt F) (VO0_16.writes (Elt F) VO0_16.junk (runAt0 c t x0 x1 x2 x3 x4 x5 x6 x7 x8 x9 x10).2.2.2.2.2.1)

def out0_17 : Vec F S6x128 .f32 :=
  VO0_17.read (Elt F) (VO0_17.writes (Elt F) VO0_17.junk (runAt0 c t x0 x1 x2 x3 x4 x5 x6 x7 x8 x9 x10).2.2.2.2.2.2.1)

def out0_18 : Vec F S3x128x128 .f32 :=
  VO0_18.read (Elt F) (VO0_18.writes (Elt F) VO0_18.junk (runAt0 c t x0 x1 x2 x3 x4 x5 x6 x7 x8 x9 x10).2.2.2.2.2.2.2.1)

def out0_19 : Vec F S1x128 .f32 :=
  VO0_19.read (Elt F) (VO0_19.writes (Elt F) VO0_19.junk (runAt0 c t x0 x1 x2 x3 x4 x5 x6 x7 x8 x9 x10).2.2.2.2.2.2.2.2.1)

def out0_20 : Vec F S3x128x256 .f32 :=
  VO0_20.read (Elt F) (VO0_20.writes (Elt F) VO0_20.junk (runAt0 c t x0 x1 x2 x3 x4 x5 x6 x7 x8 x9 x10).2.2.2.2.2.2.2.2.2.1)

def out0_21 : Vec F S3x128x256 .f32 :=
  VO0_21.read (Elt F) (VO0_21.writes (Elt F) VO0_21.junk (runAt0 c t x0 x1 x2 x3 x4 x5 x6 x7 x8 x9 x10).2.2.2.2.2.2.2.2.2.2.1)

def out0_22 : Vec F S1x256 .f32 :=
  VO0_22.read (Elt F) (VO0_22.writes (Elt F) VO0_22.junk (runAt0 c t x0 x1 x2 x3 x4 x5 x6 x7 x8 x9 x10).2.2.2.2.2.2.2.2.2.2.2.1)

def out0_23 : Vec F S3x128x128 .f32 :=
  VO0_23.read (Elt F) (VO0_23.writes (Elt F) VO0_23.junk (runAt0 c t x0 x1 x2 x3 x4 x5 x6 x7 x8 x9 x10).2.2.2.2.2.2.2.2.2.2.2.2.1)

def out0_24 : Vec F S3x128x128 .f32 :=
  VO0_24.read (Elt F) (VO0_24.writes (Elt F) VO0_24.junk (runAt0 c t x0 x1 x2 x3 x4 x5 x6 x7 x8 x9 x10).2.2.2.2.2.2.2.2.2.2.2.2.2.1)

def out0_25 : Vec F S1x128 .f32 :=
  VO0_25.read (Elt F) (VO0_25.writes (Elt F) VO0_25.junk (runAt0 c t x0 x1 x2 x3 x4 x5 x6 x7 x8 x9 x10).2.2.2.2.2.2.2.2.2.2.2.2.2.2.1)

def out0_26 : Vec F S128x2 .f32 :=
  VO0_26.read (Elt F) (VO0_26.writes (Elt F) VO0_26.junk (runAt0 c t x0 x1 x2 x3 x4 x5 x6 x7 x8 x9 x10).2.2.2.2.2.2.2.2.2.2.2.2.2.2.2.1)

end

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => iblk0 V c 8 t
    | ⟨9, _⟩ => iblk0 V c 9 t
    | ⟨10, _⟩ => iblk0 V c 10 t
    | ⟨11, _⟩ => out0_11 c t (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t)
    | ⟨12, _⟩ => out0_12 c t (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t)
    | ⟨13, _⟩ => out0_13 c t (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t)
    | ⟨14, _⟩ => out0_14 c t (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t)
    | ⟨15, _⟩ => out0_15 c t (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t)
    | ⟨16, _⟩ => out0_16 c t (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t)
    | ⟨17, _⟩ => out0_17 c t (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t)
    | ⟨18, _⟩ => out0_18 c t (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t)
    | ⟨19, _⟩ => out0_19 c t (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t)
    | ⟨20, _⟩ => out0_20 c t (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t)
    | ⟨21, _⟩ => out0_21 c t (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t)
    | ⟨22, _⟩ => out0_22 c t (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t)
    | ⟨23, _⟩ => out0_23 c t (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t)
    | ⟨24, _⟩ => out0_24 c t (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t)
    | ⟨25, _⟩ => out0_25 c t (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t)
    | ⟨26, _⟩ => out0_26 c t (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t)
    | ⟨_ + 27, h⟩ => absurd h (Nat.not_lt.2 (Nat.le_add_left _ _))
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = iblk0 V c 7 t := by dsimp only [dat0]
theorem after0_8 (c : Dev nD) (t : Fin cfg0.N) : (dat0 V c).after 8 t = iblk0 V c 8 t := by dsimp only [dat0]
theorem after0_9 (c : Dev nD) (t : Fin cfg0.N) : (dat0 V c).after 9 t = iblk0 V c 9 t := by dsimp only [dat0]
theorem after0_10 (c : Dev nD) (t : Fin cfg0.N) : (dat0 V c).after 10 t = iblk0 V c 10 t := by dsimp only [dat0]
theorem after0_11 (c : Dev nD) (t : Fin cfg0.N) : (dat0 V c).after 11 t = out0_11 c t (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) := by dsimp only [dat0]
theorem after0_12 (c : Dev nD) (t : Fin cfg0.N) : (dat0 V c).after 12 t = out0_12 c t (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) := by dsimp only [dat0]
theorem after0_13 (c : Dev nD) (t : Fin cfg0.N) : (dat0 V c).after 13 t = out0_13 c t (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) := by dsimp only [dat0]
theorem after0_14 (c : Dev nD) (t : Fin cfg0.N) : (dat0 V c).after 14 t = out0_14 c t (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) := by dsimp only [dat0]
theorem after0_15 (c : Dev nD) (t : Fin cfg0.N) : (dat0 V c).after 15 t = out0_15 c t (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) := by dsimp only [dat0]
theorem after0_16 (c : Dev nD) (t : Fin cfg0.N) : (dat0 V c).after 16 t = out0_16 c t (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) := by dsimp only [dat0]
theorem after0_17 (c : Dev nD) (t : Fin cfg0.N) : (dat0 V c).after 17 t = out0_17 c t (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) := by dsimp only [dat0]
theorem after0_18 (c : Dev nD) (t : Fin cfg0.N) : (dat0 V c).after 18 t = out0_18 c t (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) := by dsimp only [dat0]
theorem after0_19 (c : Dev nD) (t : Fin cfg0.N) : (dat0 V c).after 19 t = out0_19 c t (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) := by dsimp only [dat0]
theorem after0_20 (c : Dev nD) (t : Fin cfg0.N) : (dat0 V c).after 20 t = out0_20 c t (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) := by dsimp only [dat0]
theorem after0_21 (c : Dev nD) (t : Fin cfg0.N) : (dat0 V c).after 21 t = out0_21 c t (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) := by dsimp only [dat0]
theorem after0_22 (c : Dev nD) (t : Fin cfg0.N) : (dat0 V c).after 22 t = out0_22 c t (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) := by dsimp only [dat0]
theorem after0_23 (c : Dev nD) (t : Fin cfg0.N) : (dat0 V c).after 23 t = out0_23 c t (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) := by dsimp only [dat0]
theorem after0_24 (c : Dev nD) (t : Fin cfg0.N) : (dat0 V c).after 24 t = out0_24 c t (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) := by dsimp only [dat0]
theorem after0_25 (c : Dev nD) (t : Fin cfg0.N) : (dat0 V c).after 25 t = out0_25 c t (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) := by dsimp only [dat0]
theorem after0_26 (c : Dev nD) (t : Fin cfg0.N) : (dat0 V c).after 26 t = out0_26 c t (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d
theorem before0_7 (c : Dev nD) (t : Fin cfg0.N) (d) : (dat0 V c).before 7 t d = iblk0 V c 7 t :=
  before0_7_of V (dat0 V c) (A_eq0 V c 7) (after0_7 V c) t d
theorem before0_8 (c : Dev nD) (t : Fin cfg0.N) (d) : (dat0 V c).before 8 t d = iblk0 V c 8 t :=
  before0_8_of V (dat0 V c) (A_eq0 V c 8) (after0_8 V c) t d
theorem before0_9 (c : Dev nD) (t : Fin cfg0.N) (d) : (dat0 V c).before 9 t d = iblk0 V c 9 t :=
  before0_9_of V (dat0 V c) (A_eq0 V c 9) (after0_9 V c) t d
theorem before0_10 (c : Dev nD) (t : Fin cfg0.N) (d) : (dat0 V c).before 10 t d = iblk0 V c 10 t :=
  before0_10_of V (dat0 V c) (A_eq0 V c 10) (after0_10 V c) t d

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d))
    ∗ (∃ d, owns (c : Thread nD τ) (st0_9 t) fullShare ((dat0 V c).before 9 t d))
    ∗ (∃ d, owns (c : Thread nD τ) (st0_10 t) fullShare ((dat0 V c).before 10 t d))
    ∗ (∃ d, owns (c : Thread nD τ) (st0_11 t) fullShare ((dat0 V c).before 11 t d))
    ∗ (∃ d, owns (c : Thread nD τ) (st0_12 t) fullShare ((dat0 V c).before 12 t d))
    ∗ (∃ d, owns (c : Thread nD τ) (st0_13 t) fullShare ((dat0 V c).before 13 t d))
    ∗ (∃ d, owns (c : Thread nD τ) (st0_14 t) fullShare ((dat0 V c).before 14 t d))
    ∗ (∃ d, owns (c : Thread nD τ) (st0_15 t) fullShare ((dat0 V c).before 15 t d))
    ∗ (∃ d, owns (c : Thread nD τ) (st0_16 t) fullShare ((dat0 V c).before 16 t d))
    ∗ (∃ d, owns (c : Thread nD τ) (st0_17 t) fullShare ((dat0 V c).before 17 t d))
    ∗ (∃ d, owns (c : Thread nD τ) (st0_18 t) fullShare ((dat0 V c).before 18 t d))
    ∗ (∃ d, owns (c : Thread nD τ) (st0_19 t) fullShare ((dat0 V c).before 19 t d))
    ∗ (∃ d, owns (c : Thread nD τ) (st0_20 t) fullShare ((dat0 V c).before 20 t d))
    ∗ (∃ d, owns (c : Thread nD τ) (st0_21 t) fullShare ((dat0 V c).before 21 t d))
    ∗ (∃ d, owns (c : Thread nD τ) (st0_22 t) fullShare ((dat0 V c).before 22 t d))
    ∗ (∃ d, owns (c : Thread nD τ) (st0_23 t) fullShare ((dat0 V c).before 23 t d))
    ∗ (∃ d, owns (c : Thread nD τ) (st0_24 t) fullShare ((dat0 V c).before 24 t d))
    ∗ (∃ d, owns (c : Thread nD τ) (st0_25 t) fullShare ((dat0 V c).before 25 t d))
    ∗ (∃ d, owns (c : Thread nD τ) (st0_26 t) fullShare ((dat0 V c).before 26 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t)
    ∗ owns (c : Thread nD τ) (st0_9 t) fullShare ((dat0 V c).after 9 t)
    ∗ owns (c : Thread nD τ) (st0_10 t) fullShare ((dat0 V c).after 10 t)
    ∗ owns (c : Thread nD τ) (st0_11 t) fullShare ((dat0 V c).after 11 t)
    ∗ owns (c : Thread nD τ) (st0_12 t) fullShare ((dat0 V c).after 12 t)
    ∗ owns (c : Thread nD τ) (st0_13 t) fullShare ((dat0 V c).after 13 t)
    ∗ owns (c : Thread nD τ) (st0_14 t) fullShare ((dat0 V c).after 14 t)
    ∗ owns (c : Thread nD τ) (st0_15 t) fullShare ((dat0 V c).after 15 t)
    ∗ owns (c : Thread nD τ) (st0_16 t) fullShare ((dat0 V c).after 16 t)
    ∗ owns (c : Thread nD τ) (st0_17 t) fullShare ((dat0 V c).after 17 t)
    ∗ owns (c : Thread nD τ) (st0_18 t) fullShare ((dat0 V c).after 18 t)
    ∗ owns (c : Thread nD τ) (st0_19 t) fullShare ((dat0 V c).after 19 t)
    ∗ owns (c : Thread nD τ) (st0_20 t) fullShare ((dat0 V c).after 20 t)
    ∗ owns (c : Thread nD τ) (st0_21 t) fullShare ((dat0 V c).after 21 t)
    ∗ owns (c : Thread nD τ) (st0_22 t) fullShare ((dat0 V c).after 22 t)
    ∗ owns (c : Thread nD τ) (st0_23 t) fullShare ((dat0 V c).after 23 t)
    ∗ owns (c : Thread nD τ) (st0_24 t) fullShare ((dat0 V c).after 24 t)
    ∗ owns (c : Thread nD τ) (st0_25 t) fullShare ((dat0 V c).after 25 t)
    ∗ owns (c : Thread nD τ) (st0_26 t) fullShare ((dat0 V c).after 26 t))

set_option maxHeartbeats 1600000 in

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6, before0_7, before0_8, before0_9, before0_10]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8, after0_9, after0_10, after0_11, after0_12, after0_13, after0_14, after0_15, after0_16, after0_17, after0_18, after0_19, after0_20, after0_21, after0_22, after0_23, after0_24, after0_25, after0_26]
  unfold out0_11 out0_12 out0_13 out0_14 out0_15 out0_16 out0_17 out0_18 out0_19 out0_20 out0_21 out0_22 out0_23 out0_24 out0_25 out0_26 runAt0
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩⟩
  iapply ((kernelRun0 c _ _ _ _ _ _ _ _ _ _ _ _ _ _ _ _ _ _ _ _ _ _ _ _ _ _ _ _ _ _ _ _ _ _ _ _ _ _ _ _ _ _ _ _ _ _ _ _ _ _ _ _ _ _ (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t)).2.2.2.2.2.2.2.2.2.2.2.2.2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexists _; iexact H11
  isplitl [H12]; · iexists _; iexact H12
  isplitl [H13]; · iexists _; iexact H13
  isplitl [H14]; · iexists _; iexact H14
  isplitl [H15]; · iexists _; iexact H15
  isplitl [H16]; · iexists _; iexact H16
  isplitl [H17]; · iexists _; iexact H17
  isplitl [H18]; · iexists _; iexact H18
  isplitl [H19]; · iexists _; iexact H19
  isplitl [H20]; · iexists _; iexact H20
  isplitl [H21]; · iexists _; iexact H21
  isplitl [H22]; · iexists _; iexact H22
  isplitl [H23]; · iexists _; iexact H23
  isplitl [H24]; · iexists _; iexact H24
  isplitl [H25]; · iexists _; iexact H25
  isplitl [H26]; · iexists _; iexact H26
  iintro ⟨H0, H1, H2, H3, H4, H5, H6, H7, H8, H9, H10, ⟨%e11, H11⟩, ⟨%e12, H12⟩, ⟨%e13, H13⟩, ⟨%e14, H14⟩, ⟨%e15, H15⟩, ⟨%e16, H16⟩, ⟨%e17, H17⟩, ⟨%e18, H18⟩, ⟨%e19, H19⟩, ⟨%e20, H20⟩, ⟨%e21, H21⟩, ⟨%e22, H22⟩, ⟨%e23, H23⟩, ⟨%e24, H24⟩, ⟨%e25, H25⟩, ⟨%e26, H26⟩⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]
  · unfold owns; iexists _; isplitr
    swap; · iexact H11
    ipureintro; exact View.read_writes_of_cover _ _ _ _ _ (cover0_11 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  isplitl [H12]
  · unfold owns; iexists _; isplitr
    swap; · iexact H12
    ipureintro; exact View.read_writes_of_cover _ _ _ _ _ (cover0_12 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  isplitl [H13]
  · unfold owns; iexists _; isplitr
    swap; · iexact H13
    ipureintro; exact View.read_writes_of_cover _ _ _ _ _ (cover0_13 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  isplitl [H14]
  · unfold owns; iexists _; isplitr
    swap; · iexact H14
    ipureintro; exact View.read_writes_of_cover _ _ _ _ _ (cover0_14 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  isplitl [H15]
  · unfold owns; iexists _; isplitr
    swap; · iexact H15
    ipureintro; exact View.read_writes_of_cover _ _ _ _ _ (cover0_15 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  isplitl [H16]
  · unfold owns; iexists _; isplitr
    swap; · iexact H16
    ipureintro; exact View.read_writes_of_cover _ _ _ _ _ (cover0_16 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  isplitl [H17]
  · unfold owns; iexists _; isplitr
    swap; · iexact H17
    ipureintro; exact View.read_writes_of_cover _ _ _ _ _ (cover0_17 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  isplitl [H18]
  · unfold owns; iexists _; isplitr
    swap; · iexact H18
    ipureintro; exact View.read_writes_of_cover _ _ _ _ _ (cover0_18 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  isplitl [H19]
  · unfold owns; iexists _; isplitr
    swap; · iexact H19
    ipureintro; exact View.read_writes_of_cover _ _ _ _ _ (cover0_19 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  isplitl [H20]
  · unfold owns; iexists _; isplitr
    swap; · iexact H20
    ipureintro; exact View.read_writes_of_cover _ _ _ _ _ (cover0_20 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  isplitl [H21]
  · unfold owns; iexists _; isplitr
    swap; · iexact H21
    ipureintro; exact View.read_writes_of_cover _ _ _ _ _ (cover0_21 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  isplitl [H22]
  · unfold owns; iexists _; isplitr
    swap; · iexact H22
    ipureintro; exact View.read_writes_of_cover _ _ _ _ _ (cover0_22 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  isplitl [H23]
  · unfold owns; iexists _; isplitr
    swap; · iexact H23
    ipureintro; exact View.read_writes_of_cover _ _ _ _ _ (cover0_23 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  isplitl [H24]
  · unfold owns; iexists _; isplitr
    swap; · iexact H24
    ipureintro; exact View.read_writes_of_cover _ _ _ _ _ (cover0_24 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  isplitl [H25]
  · unfold owns; iexists _; isplitr
    swap; · iexact H25
    ipureintro; exact View.read_writes_of_cover _ _ _ _ _ (cover0_25 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  unfold owns; iexists _; isplitr
  swap; · iexact H26
  ipureintro; exact View.read_writes_of_cover _ _ _ _ _ (cover0_26 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)

theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.K.R1.lean ====
import proofs.«107218_g19069654794669_cont_sun_m_30_13_alg».proof.Proof.Gen.Kernel.Launch
import proofs.«107218_g19069654794669_cont_sun_m_30_13_alg».proof.Proof.Gen.Kernel.Skeleton
import proofs.«107218_g19069654794669_cont_sun_m_30_13_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev stg1_0 (t : Fin cfg1.N) : Memref sig .tc .vmem S512x512 .f32 := win1_0.stage (cfg1.slots t 0)
abbrev stgWhole1_0 (t : Fin cfg1.N) : (stg1_0 t).IsWhole := hstage1_0 ((cfg1.slots t 0).cast nbuf1_0)
abbrev stg1_1 (t : Fin cfg1.N) : Memref sig .tc .vmem S1x6x512 .f32 := win1_1.stage (cfg1.slots t 1)
abbrev stgWhole1_1 (t : Fin cfg1.N) : (stg1_1 t).IsWhole := hstage1_1 ((cfg1.slots t 1).cast nbuf1_1)
abbrev stg1_2 (t : Fin cfg1.N) : Memref sig .tc .vmem S2x1x512x128 .f32 := win1_2.stage (cfg1.slots t 2)
abbrev stgWhole1_2 (t : Fin cfg1.N) : (stg1_2 t).IsWhole := hstage1_2 ((cfg1.slots t 2).cast nbuf1_2)
abbrev stg1_3 (t : Fin cfg1.N) : Memref sig .tc .vmem S6x256 .f32 := win1_3.stage (cfg1.slots t 3)
abbrev stgWhole1_3 (t : Fin cfg1.N) : (stg1_3 t).IsWhole := hstage1_3 ((cfg1.slots t 3).cast nbuf1_3)
abbrev stg1_4 (t : Fin cfg1.N) : Memref sig .tc .vmem S3x128x256 .f32 := win1_4.stage (cfg1.slots t 4)
abbrev stgWhole1_4 (t : Fin cfg1.N) : (stg1_4 t).IsWhole := hstage1_4 ((cfg1.slots t 4).cast nbuf1_4)
abbrev stg1_5 (t : Fin cfg1.N) : Memref sig .tc .vmem S1x256 .f32 := win1_5.stage (cfg1.slots t 5)
abbrev stgWhole1_5 (t : Fin cfg1.N) : (stg1_5 t).IsWhole := hstage1_5 ((cfg1.slots t 5).cast nbuf1_5)
abbrev stg1_6 (t : Fin cfg1.N) : Memref sig .tc .vmem S6x128 .f32 := win1_6.stage (cfg1.slots t 6)
abbrev stgWhole1_6 (t : Fin cfg1.N) : (stg1_6 t).IsWhole := hstage1_6 ((cfg1.slots t 6).cast nbuf1_6)
abbrev stg1_7 (t : Fin cfg1.N) : Memref sig .tc .vmem S3x128x128 .f32 := win1_7.stage (cfg1.slots t 7)
abbrev stgWhole1_7 (t : Fin cfg1.N) : (stg1_7 t).IsWhole := hstage1_7 ((cfg1.slots t 7).cast nbuf1_7)
abbrev stg1_8 (t : Fin cfg1.N) : Memref sig .tc .vmem S1x128 .f32 := win1_8.stage (cfg1.slots t 8)
abbrev stgWhole1_8 (t : Fin cfg1.N) : (stg1_8 t).IsWhole := hstage1_8 ((cfg1.slots t 8).cast nbuf1_8)
abbrev stg1_9 (t : Fin cfg1.N) : Memref sig .tc .vmem S3x128x256 .f32 := win1_9.stage (cfg1.slots t 9)
abbrev stgWhole1_9 (t : Fin cfg1.N) : (stg1_9 t).IsWhole := hstage1_9 ((cfg1.slots t 9).cast nbuf1_9)
abbrev stg1_10 (t : Fin cfg1.N) : Memref sig .tc .vmem S3x128x256 .f32 := win1_10.stage (cfg1.slots t 10)
abbrev stgWhole1_10 (t : Fin cfg1.N) : (stg1_10 t).IsWhole := hstage1_10 ((cfg1.slots t 10).cast nbuf1_10)
abbrev stg1_11 (t : Fin cfg1.N) : Memref sig .tc .vmem S1x256 .f32 := win1_11.stage (cfg1.slots t 11)
abbrev stgWhole1_11 (t : Fin cfg1.N) : (stg1_11 t).IsWhole := hstage1_11 ((cfg1.slots t 11).cast nbuf1_11)
abbrev stg1_12 (t : Fin cfg1.N) : Memref sig .tc .vmem S3x128x128 .f32 := win1_12.stage (cfg1.slots t 12)
abbrev stgWhole1_12 (t : Fin cfg1.N) : (stg1_12 t).IsWhole := hstage1_12 ((cfg1.slots t 12).cast nbuf1_12)
abbrev stg1_13 (t : Fin cfg1.N) : Memref sig .tc .vmem S3x128x128 .f32 := win1_13.stage (cfg1.slots t 13)
abbrev stgWhole1_13 (t : Fin cfg1.N) : (stg1_13 t).IsWhole := hstage1_13 ((cfg1.slots t 13).cast nbuf1_13)
abbrev stg1_14 (t : Fin cfg1.N) : Memref sig .tc .vmem S1x128 .f32 := win1_14.stage (cfg1.slots t 14)
abbrev stgWhole1_14 (t : Fin cfg1.N) : (stg1_14 t).IsWhole := hstage1_14 ((cfg1.slots t 14).cast nbuf1_14)
abbrev stg1_15 (t : Fin cfg1.N) : Memref sig .tc .vmem S128x2 .f32 := win1_15.stage (cfg1.slots t 15)
abbrev stgWhole1_15 (t : Fin cfg1.N) : (stg1_15 t).IsWhole := hstage1_15 ((cfg1.slots t 15).cast nbuf1_15)
abbrev stg1_16 (t : Fin cfg1.N) : Memref sig .tc .vmem S1x1 .f32 := win1_16.stage (cfg1.slots t 16)
abbrev stgWhole1_16 (t : Fin cfg1.N) : (stg1_16 t).IsWhole := hstage1_16 ((cfg1.slots t 16).cast nbuf1_16)
abbrev stg1_17 (t : Fin cfg1.N) : Memref sig .tc .vmem S1x2x512 .f32 := win1_17.stage (cfg1.slots t 17)
abbrev stgWhole1_17 (t : Fin cfg1.N) : (stg1_17 t).IsWhole := hstage1_17 ((cfg1.slots t 17).cast nbuf1_17)
abbrev stg1_18 (t : Fin cfg1.N) : Memref sig .tc .vmem S2x1x512x128 .f32 := win1_18.stage (cfg1.slots t 18)
abbrev stgWhole1_18 (t : Fin cfg1.N) : (stg1_18 t).IsWhole := hstage1_18 ((cfg1.slots t 18).cast nbuf1_18)

abbrev outView1_17 : View sig .tc .vmem S1x2x512 .f32 := (Memref.whole cc1_stg17_0 : Memref sig .tc .vmem S1x2x512 .f32).view
abbrev outView1_18 : View sig .tc .vmem S2x1x512x128 .f32 := (Memref.whole cc1_stg18_0 : Memref sig .tc .vmem S2x1x512x128 .f32).view

section
variable (c : Dev nD) (i : grid1.Coords) (arg1 : Memref sig .tc .vmem S512x512 .f32) (harg1 : arg1.IsWhole) (arg2 : Memref sig .tc .vmem S1x6x512 .f32) (harg2 : arg2.IsWhole) (arg3 : Memref sig .tc .vmem S2x1x512x128 .f32) (harg3 : arg3.IsWhole) (arg4 : Memref sig .tc .vmem S6x256 .f32) (harg4 : arg4.IsWhole) (arg5 : Memref sig .tc .vmem S3x128x256 .f32) (harg5 : arg5.IsWhole) (arg6 : Memref sig .tc .vmem S1x256 .f32) (harg6 : arg6.IsWhole) (arg7 : Memref sig .tc .vmem S6x128 .f32) (harg7 : arg7.IsWhole) (arg8 : Memref sig .tc .vmem S3x128x128 .f32) (harg8 : arg8.IsWhole) (arg9 : Memref sig .tc .vmem S1x128 .f32) (harg9 : arg9.IsWhole) (arg10 : Memref sig .tc .vmem S3x128x256 .f32) (harg10 : arg10.IsWhole) (arg11 : Memref sig .tc .vmem S3x128x256 .f32) (harg11 : arg11.IsWhole) (arg12 : Memref sig .tc .vmem S1x256 .f32) (harg12 : arg12.IsWhole) (arg13 : Memref sig .tc .vmem S3x128x128 .f32) (harg13 : arg13.IsWhole) (arg14 : Memref sig .tc .vmem S3x128x128 .f32) (harg14 : arg14.IsWhole) (arg15 : Memref sig .tc .vmem S1x128 .f32) (harg15 : arg15.IsWhole) (arg16 : Memref sig .tc .vmem S128x2 .f32) (harg16 : arg16.IsWhole) (arg17 : Memref sig .tc .vmem S1x1 .f32) (harg17 : arg17.IsWhole) (arg18 : Memref sig .tc .vmem S1x2x512 .f32) (harg18 : arg18.IsWhole) (arg19 : Memref sig .tc .vmem S2x1x512x128 .f32) (harg19 : arg19.IsWhole)
    (x0 : Vec F S512x512 .f32) (x1 : Vec F S1x6x512 .f32) (x2 : Vec F S2x1x512x128 .f32) (x3 : Vec F S6x256 .f32) (x4 : Vec F S3x128x256 .f32) (x5 : Vec F S1x256 .f32) (x6 : Vec F S6x128 .f32) (x7 : Vec F S3x128x128 .f32) (x8 : Vec F S1x128 .f32) (x9 : Vec F S3x128x256 .f32) (x10 : Vec F S3x128x256 .f32) (x11 : Vec F S1x256 .f32) (x12 : Vec F S3x128x128 .f32) (x13 : Vec F S3x128x128 .f32) (x14 : Vec F S1x128 .f32) (x15 : Vec F S128x2 .f32) (x16 : Vec F S1x1 .f32)

set_option maxHeartbeats 4000000 in
noncomputable def kernelRun1 :
    Σ' (L17 : List (View.Piece (Elt F) S1x2x512 .f32)), { L18 : List (View.Piece (Elt F) S2x1x512x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ (∃ d, owns (c : Thread nD τ) arg18 fullShare d) ∗ (∃ d, owns (c : Thread nD τ) arg19 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ (∃ f, arg18.view.loc (c : Thread nD τ) ↦[arg18.view.set]{fullShare} arg18.view.writes (Elt F) f L17) ∗ (∃ f, arg19.view.loc (c : Thread nD τ) ↦[arg19.view.set]{fullShare} arg19.view.writes (Elt F) f L18)) -∗ K ⟨⟩))
          ⊢ wp frame (wpE (defs₀ (F := F)) Variants.none c none) E (cc1__main_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K } := by
  refine ⟨?_, ?_, fun E K => ?run⟩
  case run =>
    simp only [cc1__main_kernel_eq_skeleton]; unfold cc1__main_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%d17, %f17, -, H17⟩, ⟨%d18, %f18, -, H18⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg15.eq_unread hf14; obtain rfl := harg16.eq_unread hf15; obtain rfl := harg17.eq_unread hf16
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]
    · iexists _; isplitr; · ipureintro; exact harg14.read_unread _
      iexact H13
    isplitl [H14]
    · iexists _; isplitr; · ipureintro; exact harg15.read_unread _
      iexact H14
    isplitl [H15]
    · iexists _; isplitr; · ipureintro; exact harg16.read_unread _
      iexact H15
    isplitl [H16]
    · iexists _; isplitr; · ipureintro; exact harg17.read_unread _
      iexact H16
    isplitl [H17]; · iexists _; iexact H17
    iexists _; iexact H18

theorem cover1_17 (y : S1x2x512.Idx) :
    ∃ pc ∈ (kernelRun1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8 x9 x10 x11 x12 x13 x14 x15 x16).1, y ∈ pc.1.set :=
  View.cover_of_tiledL _ S1x2x512.size (by sl_kernel_rfl) y

def out1_17 : Vec F S1x2x512 .f32 :=
  outView1_17.read (Elt F) (outView1_17.writes (Elt F) outView1_17.junk (kernelRun1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8 x9 x10 x11 x12 x13 x14 x15 x16).1)

theorem cover1_18 (y : S2x1x512x128.Idx) :
    ∃ pc ∈ (kernelRun1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8 x9 x10 x11 x12 x13 x14 x15 x16).2.1, y ∈ pc.1.set :=
  View.cover_of_tiledL (kernelRun1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8 x9 x10 x11 x12 x13 x14 x15 x16).2.1 S1x1x512x128.size (by sl_kernel_rfl) y

def out1_18 : Vec F S2x1x512x128 .f32 :=
  outView1_18.read (Elt F) (outView1_18.writes (Elt F) outView1_18.junk (kernelRun1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8 x9 x10 x11 x12 x13 x14 x15 x16).2.1)

end

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => iblk1 V c 8 t
    | ⟨9, _⟩ => iblk1 V c 9 t
    | ⟨10, _⟩ => iblk1 V c 10 t
    | ⟨11, _⟩ => iblk1 V c 11 t
    | ⟨12, _⟩ => iblk1 V c 12 t
    | ⟨13, _⟩ => iblk1 V c 13 t
    | ⟨14, _⟩ => iblk1 V c 14 t
    | ⟨15, _⟩ => iblk1 V c 15 t
    | ⟨16, _⟩ => iblk1 V c 16 t
    | ⟨17, _⟩ => out1_17 c (grid1.coords t) (stg1_0 t) (stgWhole1_0 t) (stg1_1 t) (stgWhole1_1 t) (stg1_2 t) (stgWhole1_2 t) (stg1_3 t) (stgWhole1_3 t) (stg1_4 t) (stgWhole1_4 t) (stg1_5 t) (stgWhole1_5 t) (stg1_6 t) (stgWhole1_6 t) (stg1_7 t) (stgWhole1_7 t) (stg1_8 t) (stgWhole1_8 t) (stg1_9 t) (stgWhole1_9 t) (stg1_10 t) (stgWhole1_10 t) (stg1_11 t) (stgWhole1_11 t) (stg1_12 t) (stgWhole1_12 t) (stg1_13 t) (stgWhole1_13 t) (stg1_14 t) (stgWhole1_14 t) (stg1_15 t) (stgWhole1_15 t) (stg1_16 t) (stgWhole1_16 t) (stg1_17 t) (stgWhole1_17 t) (stg1_18 t) (stgWhole1_18 t) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) (iblk1 V c 13 t) (iblk1 V c 14 t) (iblk1 V c 15 t) (iblk1 V c 16 t)
    | ⟨18, _⟩ => out1_18 c (grid1.coords t) (stg1_0 t) (stgWhole1_0 t) (stg1_1 t) (stgWhole1_1 t) (stg1_2 t) (stgWhole1_2 t) (stg1_3 t) (stgWhole1_3 t) (stg1_4 t) (stgWhole1_4 t) (stg1_5 t) (stgWhole1_5 t) (stg1_6 t) (stgWhole1_6 t) (stg1_7 t) (stgWhole1_7 t) (stg1_8 t) (stgWhole1_8 t) (stg1_9 t) (stgWhole1_9 t) (stg1_10 t) (stgWhole1_10 t) (stg1_11 t) (stgWhole1_11 t) (stg1_12 t) (stgWhole1_12 t) (stg1_13 t) (stgWhole1_13 t) (stg1_14 t) (stgWhole1_14 t) (stg1_15 t) (stgWhole1_15 t) (stg1_16 t) (stgWhole1_16 t) (stg1_17 t) (stgWhole1_17 t) (stg1_18 t) (stgWhole1_18 t) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) (iblk1 V c 13 t) (iblk1 V c 14 t) (iblk1 V c 15 t) (iblk1 V c 16 t)
    | ⟨_ + 19, h⟩ => absurd h (Nat.not_lt.2 (Nat.le_add_left _ _))
  Φ _ := Pipeline.ΦA spec1 c
  q _ := fullShare
  owed _ := 0

theorem after1_17 (c : Dev nD) (t : Fin cfg1.N) : (dat1 V c).after 17 t = out1_17 c (grid1.coords t) (stg1_0 t) (stgWhole1_0 t) (stg1_1 t) (stgWhole1_1 t) (stg1_2 t) (stgWhole1_2 t) (stg1_3 t) (stgWhole1_3 t) (stg1_4 t) (stgWhole1_4 t) (stg1_5 t) (stgWhole1_5 t) (stg1_6 t) (stgWhole1_6 t) (stg1_7 t) (stgWhole1_7 t) (stg1_8 t) (stgWhole1_8 t) (stg1_9 t) (stgWhole1_9 t) (stg1_10 t) (stgWhole1_10 t) (stg1_11 t) (stgWhole1_11 t) (stg1_12 t) (stgWhole1_12 t) (stg1_13 t) (stgWhole1_13 t) (stg1_14 t) (stgWhole1_14 t) (stg1_15 t) (stgWhole1_15 t) (stg1_16 t) (stgWhole1_16 t) (stg1_17 t) (stgWhole1_17 t) (stg1_18 t) (stgWhole1_18 t) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) (iblk1 V c 13 t) (iblk1 V c 14 t) (iblk1 V c 15 t) (iblk1 V c 16 t) := by dsimp only [dat1]
theorem after1_18 (c : Dev nD) (t : Fin cfg1.N) : (dat1 V c).after 18 t = out1_18 c (grid1.coords t) (stg1_0 t) (stgWhole1_0 t) (stg1_1 t) (stgWhole1_1 t) (stg1_2 t) (stgWhole1_2 t) (stg1_3 t) (stgWhole1_3 t) (stg1_4 t) (stgWhole1_4 t) (stg1_5 t) (stgWhole1_5 t) (stg1_6 t) (stgWhole1_6 t) (stg1_7 t) (stgWhole1_7 t) (stg1_8 t) (stgWhole1_8 t) (stg1_9 t) (stgWhole1_9 t) (stg1_10 t) (stgWhole1_10 t) (stg1_11 t) (stgWhole1_11 t) (stg1_12 t) (stgWhole1_12 t) (stg1_13 t) (stgWhole1_13 t) (stg1_14 t) (stgWhole1_14 t) (stg1_15 t) (stgWhole1_15 t) (stg1_16 t) (stgWhole1_16 t) (stg1_17 t) (stgWhole1_17 t) (stg1_18 t) (stgWhole1_18 t) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) (iblk1 V c 13 t) (iblk1 V c 14 t) (iblk1 V c 15 t) (iblk1 V c 16 t) := by dsimp only [dat1]

theorem before1_0 (c : Dev nD) (t : Fin cfg1.N) (d) : (dat1 V c).before 0 t d = iblk1 V c 0 t :=
  ((dat1 V c).before_in_eq_fetched 0 rfl (fun _ => rfl) (fun _ _ _ => rfl) (fun _ => rfl) t d).trans rfl
theorem before1_1 (c : Dev nD) (t : Fin cfg1.N) (d) : (dat1 V c).before 1 t d = iblk1 V c 1 t :=
  ((dat1 V c).before_in_eq_fetched 1 rfl (fun _ => rfl) (fun _ _ _ => rfl) (fun _ => rfl) t d).trans rfl
theorem before1_2 (c : Dev nD) (t : Fin cfg1.N) (d) : (dat1 V c).before 2 t d = iblk1 V c 2 t :=
  ((dat1 V c).before_in_eq_fetched 2 rfl (fun _ => rfl) (fun _ _ _ => rfl) (fun _ => rfl) t d).trans rfl
theorem before1_3 (c : Dev nD) (t : Fin cfg1.N) (d) : (dat1 V c).before 3 t d = iblk1 V c 3 t :=
  ((dat1 V c).before_in_eq_fetched 3 rfl (fun _ => rfl) (fun _ _ _ => rfl) (fun _ => rfl) t d).trans rfl
theorem before1_4 (c : Dev nD) (t : Fin cfg1.N) (d) : (dat1 V c).before 4 t d = iblk1 V c 4 t :=
  ((dat1 V c).before_in_eq_fetched 4 rfl (fun _ => rfl) (fun _ _ _ => rfl) (fun _ => rfl) t d).trans rfl
theorem before1_5 (c : Dev nD) (t : Fin cfg1.N) (d) : (dat1 V c).before 5 t d = iblk1 V c 5 t :=
  ((dat1 V c).before_in_eq_fetched 5 rfl (fun _ => rfl) (fun _ _ _ => rfl) (fun _ => rfl) t d).trans rfl
theorem before1_6 (c : Dev nD) (t : Fin cfg1.N) (d) : (dat1 V c).before 6 t d = iblk1 V c 6 t :=
  ((dat1 V c).before_in_eq_fetched 6 rfl (fun _ => rfl) (fun _ _ _ => rfl) (fun _ => rfl) t d).trans rfl
theorem before1_7 (c : Dev nD) (t : Fin cfg1.N) (d) : (dat1 V c).before 7 t d = iblk1 V c 7 t :=
  ((dat1 V c).before_in_eq_fetched 7 rfl (fun _ => rfl) (fun _ _ _ => rfl) (fun _ => rfl) t d).trans rfl
theorem before1_8 (c : Dev nD) (t : Fin cfg1.N) (d) : (dat1 V c).before 8 t d = iblk1 V c 8 t :=
  ((dat1 V c).before_in_eq_fetched 8 rfl (fun _ => rfl) (fun _ _ _ => rfl) (fun _ => rfl) t d).trans rfl
theorem before1_9 (c : Dev nD) (t : Fin cfg1.N) (d) : (dat1 V c).before 9 t d = iblk1 V c 9 t :=
  ((dat1 V c).before_in_eq_fetched 9 rfl (fun _ => rfl) (fun _ _ _ => rfl) (fun _ => rfl) t d).trans rfl
theorem before1_10 (c : Dev nD) (t : Fin cfg1.N) (d) : (dat1 V c).before 10 t d = iblk1 V c 10 t :=
  ((dat1 V c).before_in_eq_fetched 10 rfl (fun _ => rfl) (fun _ _ _ => rfl) (fun _ => rfl) t d).trans rfl
theorem before1_11 (c : Dev nD) (t : Fin cfg1.N) (d) : (dat1 V c).before 11 t d = iblk1 V c 11 t :=
  ((dat1 V c).before_in_eq_fetched 11 rfl (fun _ => rfl) (fun _ _ _ => rfl) (fun _ => rfl) t d).trans rfl
theorem before1_12 (c : Dev nD) (t : Fin cfg1.N) (d) : (dat1 V c).before 12 t d = iblk1 V c 12 t :=
  ((dat1 V c).before_in_eq_fetched 12 rfl (fun _ => rfl) (fun _ _ _ => rfl) (fun _ => rfl) t d).trans rfl
theorem before1_13 (c : Dev nD) (t : Fin cfg1.N) (d) : (dat1 V c).before 13 t d = iblk1 V c 13 t :=
  ((dat1 V c).before_in_eq_fetched 13 rfl (fun _ => rfl) (fun _ _ _ => rfl) (fun _ => rfl) t d).trans rfl
theorem before1_14 (c : Dev nD) (t : Fin cfg1.N) (d) : (dat1 V c).before 14 t d = iblk1 V c 14 t :=
  ((dat1 V c).before_in_eq_fetched 14 rfl (fun _ => rfl) (fun _ _ _ => rfl) (fun _ => rfl) t d).trans rfl
theorem before1_15 (c : Dev nD) (t : Fin cfg1.N) (d) : (dat1 V c).before 15 t d = iblk1 V c 15 t :=
  ((dat1 V c).before_in_eq_fetched 15 rfl (fun _ => rfl) (fun _ _ _ => rfl) (fun _ => rfl) t d).trans rfl
theorem before1_16 (c : Dev nD) (t : Fin cfg1.N) (d) : (dat1 V c).before 16 t d = iblk1 V c 16 t :=
  ((dat1 V c).before_in_eq_fetched 16 rfl (fun _ => rfl) (fun _ _ _ => rfl) (fun _ => rfl) t d).trans rfl

def bodyPre1 (c : Dev nD) (t : Fin cfg1.N) : sProp 𝕄 :=
  let o (w : Fin cfg1.W) : sProp 𝕄 := iprop(∃ d, owns (c : Thread nD τ) ((cfg1.win w).stage (cfg1.slots t w)) fullShare ((dat1 V c).before w t d))
  iprop((dat1 V c).Φ t.castSucc ∗ (dat1 V c).owesAt () t.castSucc
    ∗ o 0 ∗ o 1 ∗ o 2 ∗ o 3 ∗ o 4 ∗ o 5 ∗ o 6 ∗ o 7 ∗ o 8 ∗ o 9 ∗ o 10 ∗ o 11 ∗ o 12 ∗ o 13 ∗ o 14 ∗ o 15 ∗ o 16 ∗ o 17 ∗ o 18)

def bodyPost1 (c : Dev nD) (t : Fin cfg1.N) : sProp 𝕄 :=
  let o (w : Fin cfg1.W) X : sProp 𝕄 := owns (c : Thread nD τ) ((cfg1.win w).stage (cfg1.slots t w)) fullShare X
  iprop((dat1 V c).Φ t.castSucc ∗ (dat1 V c).owesAt () t.castSucc
    ∗ o 0 (iblk1 V c 0 t) ∗ o 1 (iblk1 V c 1 t) ∗ o 2 (iblk1 V c 2 t) ∗ o 3 (iblk1 V c 3 t) ∗ o 4 (iblk1 V c 4 t) ∗ o 5 (iblk1 V c 5 t) ∗ o 6 (iblk1 V c 6 t) ∗ o 7 (iblk1 V c 7 t) ∗ o 8 (iblk1 V c 8 t) ∗ o 9 (iblk1 V c 9 t) ∗ o 10 (iblk1 V c 10 t) ∗ o 11 (iblk1 V c 11 t) ∗ o 12 (iblk1 V c 12 t) ∗ o 13 (iblk1 V c 13 t) ∗ o 14 (iblk1 V c 14 t) ∗ o 15 (iblk1 V c 15 t) ∗ o 16 (iblk1 V c 16 t)
    ∗ o 17 ((dat1 V c).after 17 t) ∗ o 18 ((dat1 V c).after 18 t))

set_option maxHeartbeats 2000000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7, before1_8, before1_9, before1_10, before1_11, before1_12, before1_13, before1_14, before1_15, before1_16]
  rw [after1_17, after1_18]
  unfold out1_17 out1_18
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩⟩
  iapply ((kernelRun1 c (grid1.coords t) _ _ _ _ _ _ _ _ _ _ _ _ _ _ _ _ _ _ _ _ _ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) (iblk1 V c 13 t) (iblk1 V c 14 t) (iblk1 V c 15 t) (iblk1 V c 16 t)).2.2 Set.univ _)
  iframe H0 H1 H2 H3 H4 H5 H6 H7 H8 H9 H10 H11 H12 H13 H14 H15 H16
  isplitl [H17]; · iexists _; iexact H17
  isplitl [H18]; · iexists _; iexact H18
  iintro ⟨H0, H1, H2, H3, H4, H5, H6, H7, H8, H9, H10, H11, H12, H13, H14, H15, H16, ⟨%e17, H17⟩, ⟨%e18, H18⟩⟩
  iframe HΦ Ho H0 H1 H2 H3 H4 H5 H6 H7 H8 H9 H10 H11 H12 H13 H14 H15 H16
  isplitl [H17]
  · unfold owns; iexists _; isplitr
    swap; · iexact H17
    ipureintro; exact View.read_writes_of_cover _ _ _ _ _ (cover1_17 c _ _ _ _ _ _ _ _ _ _ _ _ _ _ _ _ _ _ _ _ _ _ _ _ _ _ _ _ _ _ _ _ _ _ _ _ _ _ _ _ _ _ _ _ _ _ _ _ _ _ _ _ _ _ _ _)
  unfold owns; iexists _; isplitr
  swap; · iexact H18
  ipureintro; exact View.read_writes_of_cover _ _ _ _ _ (cover1_18 c _ _ _ _ _ _ _ _ _ _ _ _ _ _ _ _ _ _ _ _ _ _ _ _ _ _ _ _ _ _ _ _ _ _ _ _ _ _ _ _ _ _ _ _ _ _ _ _ _ _ _ _ _ _ _ _)

theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.K.Run.lean ====
import proofs.«107218_g19069654794669_cont_sun_m_30_13_alg».proof.Proof.K.R0
import proofs.«107218_g19069654794669_cont_sun_m_30_13_alg».proof.Proof.K.R1
import proofs.«107218_g19069654794669_cont_sun_m_30_13_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev W0 : Dev nD → Valuation τ sig (Elt F) := fun c b => (s₀ m ρ).mem ((c : Dev nD), b)

abbrev W1 : Dev nD → Valuation τ sig (Elt F) := fun c => StableHlo.after hostOps0 (W0 m ρ c)

abbrev V1 : (c : Dev nD) → (b : Ref sig .tc) → Buf (Elt F) ((c : Thread nD τ).loc b) := fun c b => W1 m ρ c b

def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb

abbrev V2 : (c : Dev nD) → (b : Ref sig .tc) → Buf (Elt F) ((c : Thread nD τ).loc b) := fun c b => W2 m ρ c b

theorem hF0 (c : Dev nD) (w : Fin cfg0.W) : (dat0 (V1 m ρ) c).arrAt w cfg0.N = V2 m ρ c (Pipeline.arrRef spec0 w) :=
  (W2_arr m ρ c w).symm

theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

abbrev W3 : Dev nD → Valuation τ sig (Elt F) := fun c => StableHlo.after hostOps1 (W2 m ρ c)

abbrev V3 : (c : Dev nD) → (b : Ref sig .tc) → Buf (Elt F) ((c : Thread nD τ).loc b) := fun c b => W3 m ρ c b

def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb

abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

abbrev W5 : Dev nD → Valuation τ sig (Elt F) := fun c => StableHlo.after hostOps2 (W4 m ρ c)

theorem W1_keep (c : Dev nD) (r : Ref sig .tc) (h : r ∉ hostOps0_W) :
    W1 m ρ c (Proc.devRef .tc r) = W0 m ρ c (Proc.devRef .tc r) :=
  StableHlo.after_of_writes_sub hostOps0 _ hostOps0_writes h
theorem W3_keep (c : Dev nD) (r : Ref sig .tc) (h : r ∉ hostOps1_W) :
    W3 m ρ c (Proc.devRef .tc r) = W2 m ρ c (Proc.devRef .tc r) :=
  StableHlo.after_of_writes_sub hostOps1 _ hostOps1_writes h
theorem W5_keep (c : Dev nD) (r : Ref sig .tc) (h : r ∉ hostOps2_W) :
    W5 m ρ c (Proc.devRef .tc r) = W4 m ρ c (Proc.devRef .tc r) :=
  StableHlo.after_of_writes_sub hostOps2 _ hostOps2_writes h

theorem W5_untouched (c : Dev nD) (r : Ref sig .tc) (h0 : r ∉ hostOps0_W) (h1 : r ∉ hostOps1_W) (h2 : r ∉ hostOps2_W)
    (hr0 : ∀ w, Pipeline.arrRef spec0 w ≠ r) (hr1 : ∀ w, Pipeline.arrRef spec1 w ≠ r) :
    W5 m ρ c (Proc.devRef .tc r) = m ((c : Thread nD τ).loc r) :=
  (W5_keep m ρ c r h2).trans <| (W4_of_ne m ρ c r hr1).trans <| (W3_keep m ρ c r h1).trans <|
    (W2_of_ne m ρ c r hr0).trans <| (W1_keep m ρ c r h0).trans rfl

theorem W5_input0 (c : Dev nD) (w : Fin cfg0.W) (hin : (cfg0.win w).isOut = false)
    (h0 : Pipeline.arrRef spec0 w ∉ hostOps0_W) (h1 : Pipeline.arrRef spec0 w ∉ hostOps1_W) (h2 : Pipeline.arrRef spec0 w ∉ hostOps2_W)
    (hr1 : ∀ w', Pipeline.arrRef spec1 w' ≠ Pipeline.arrRef spec0 w) :
    W5 m ρ c (Proc.devRef .tc (Pipeline.arrRef spec0 w)) = m ((c : Thread nD τ).loc (Pipeline.arrRef spec0 w)) :=
  (W5_keep m ρ c _ h2).trans <| (W4_of_ne m ρ c _ hr1).trans <| (W3_keep m ρ c _ h1).trans <|
    ((W2_arr m ρ c w).trans (((dat0 (V1 m ρ) c).arrAt_in w hin _).trans (A_eq0 (V1 m ρ) c w))).trans <|
    (W1_keep m ρ c _ h0).trans rfl

theorem W5_main_arg0 (c : Dev nD) : W5 m ρ c (Proc.devRef .tc main_arg0) = m ((c : Thread nD τ).loc main_arg0) :=
  W5_untouched m ρ c main_arg0 (by decide) (by decide) (by decide) (by decide) (by decide)
theorem W5_main_arg1 (c : Dev nD) : W5 m ρ c (Proc.devRef .tc main_arg1) = m ((c : Thread nD τ).loc main_arg1) :=
  W5_untouched m ρ c main_arg1 (by decide) (by decide) (by decide) (by decide) (by decide)

theorem W5_main_arg2 (c : Dev nD) : W5 m ρ c (Proc.devRef .tc main_arg2) = m ((c : Thread nD τ).loc main_arg2) :=
  W5_input0 m ρ c 0 rfl (by decide) (by decide) (by decide) (by decide)
theorem W5_main_arg3 (c : Dev nD) : W5 m ρ c (Proc.devRef .tc main_arg3) = m ((c : Thread nD τ).loc main_arg3) :=
  W5_untouched m ρ c main_arg3 (by decide) (by decide) (by decide) (by decide) (by decide)
theorem W5_main_arg4 (c : Dev nD) : W5 m ρ c (Proc.devRef .tc main_arg4) = m ((c : Thread nD τ).loc main_arg4) :=
  W5_untouched m ρ c main_arg4 (by decide) (by decide) (by decide) (by decide) (by decide)
theorem W5_main_arg5 (c : Dev nD) : W5 m ρ c (Proc.devRef .tc main_arg5) = m ((c : Thread nD τ).loc main_arg5) :=
  W5_untouched m ρ c main_arg5 (by decide) (by decide) (by decide) (by decide) (by decide)
theorem W5_main_arg6 (c : Dev nD) : W5 m ρ c (Proc.devRef .tc main_arg6) = m ((c : Thread nD τ).loc main_arg6) :=
  W5_untouched m ρ c main_arg6 (by decide) (by decide) (by decide) (by decide) (by decide)
theorem W5_main_arg7 (c : Dev nD) : W5 m ρ c (Proc.devRef .tc main_arg7) = m ((c : Thread nD τ).loc main_arg7) :=
  W5_untouched m ρ c main_arg7 (by decide) (by decide) (by decide) (by decide) (by decide)
theorem W5_main_arg8 (c : Dev nD) : W5 m ρ c (Proc.devRef .tc main_arg8) = m ((c : Thread nD τ).loc main_arg8) :=
  W5_untouched m ρ c main_arg8 (by decide) (by decide) (by decide) (by decide) (by decide)
theorem W5_main_arg9 (c : Dev nD) : W5 m ρ c (Proc.devRef .tc main_arg9) = m ((c : Thread nD τ).loc main_arg9) :=
  W5_untouched m ρ c main_arg9 (by decide) (by decide) (by decide) (by decide) (by decide)
theorem W5_main_arg10 (c : Dev nD) : W5 m ρ c (Proc.devRef .tc main_arg10) = m ((c : Thread nD τ).loc main_arg10) :=
  W5_untouched m ρ c main_arg10 (by decide) (by decide) (by decide) (by decide) (by decide)

theorem W5_main_arg11 (c : Dev nD) : W5 m ρ c (Proc.devRef .tc main_arg11) = m ((c : Thread nD τ).loc main_arg11) :=
  W5_input0 m ρ c 10 rfl (by decide) (by decide) (by decide) (by decide)
theorem W5_main_arg12 (c : Dev nD) : W5 m ρ c (Proc.devRef .tc main_arg12) = m ((c : Thread nD τ).loc main_arg12) :=
  W5_untouched m ρ c main_arg12 (by decide) (by decide) (by decide) (by decide) (by decide)

abbrev adm : (p : Fin 2) → (pcfgs (F := F) p).Adm := fun p => (cfgs p).toPCfg_adm

def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none

abbrev L : GSem nD τ sig → Finset Unit := fun _ => ∅
abbrev lv : GSem nD τ sig → Unit → ℕ := fun _ _ => 0

abbrev R (c : Dev nD) : sProp 𝕄 := iprop((∃ r, prngReg c r) ∗ ∃ W, owes (c : Thread nD τ) (0 : CellTallies nD τ sig Unit) W)

abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

abbrev Tₙ (c : Dev nD) : sProp 𝕄 := iprop(StableHlo.held (c : Thread nD τ) (Pipeline.ucRefs τ sig) (W5 m ρ c) ∗ ∃ r, prngReg c r)

set_option backward.isDefEq.respectTransparency.types false in
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)) ]

theorem main_run (c : Dev nD) : main (F := F) c = Pipeline.Seg.run (segs m ρ) := by
  rewrite [main_chain c, Pipeline.Seg.run_eq_chain,
    show (segs m ρ).map Pipeline.Seg.prog = [
      StableHlo.seq hostOps0,
      Prog.lift (.customCall (Pipeline.entry 0) ()),
      StableHlo.seq hostOps1,
      Prog.lift (.customCall (Pipeline.entry 1) ()),
      StableHlo.seq hostOps2 ] from rfl]
  rfl

theorem hlast (c : Dev nD) :
    (iprop(StableHlo.held (c : Thread nD τ) (Pipeline.ucRefs τ sig) (W5 m ρ c)
        ∗ (∃ r, prngReg c r) ∗ ∃ W, owes (c : Thread nD τ) (0 : CellTallies nD τ sig Unit) W) : sProp 𝕄)
      ⊢ iprop((StableHlo.held (c : Thread nD τ) (Pipeline.ucRefs τ sig) (W5 m ρ c) ∗ ∃ r, prngReg c r)
        ∗ ∃ W, owes (c : Thread nD τ) (0 : CellTallies nD τ sig Unit) W) := by
  iintro ⟨Hh, Hp, HO⟩
  isplitl [Hh Hp]
  · isplitl [Hh]; · iexact Hh
    iexact Hp
  iexact HO

set_option backward.isDefEq.respectTransparency.types false in
theorem run_all : θ_run defs (onTc (τ := τ) (main (F := F))) ⟨m, fun _ => 0, ρ⟩ (fun r => ∀ c : Dev nD,
      ∀ b ∈ Pipeline.ucRefs τ sig, r.2.mem (((c : Thread nD τ)).1, b) = W5 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => hlast m ρ c⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun _ h => h)

theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun r h c =>
    ⟨(h c _ (mem_uc main_arg0 (by decide))).trans (W5_main_arg0 m ρ c),
     (h c _ (mem_uc main_arg1 (by decide))).trans (W5_main_arg1 m ρ c),
     (h c _ (mem_uc main_arg2 (by decide))).trans (W5_main_arg2 m ρ c),
     (h c _ (mem_uc main_arg3 (by decide))).trans (W5_main_arg3 m ρ c),
     (h c _ (mem_uc main_arg4 (by decide))).trans (W5_main_arg4 m ρ c),
     (h c _ (mem_uc main_arg5 (by decide))).trans (W5_main_arg5 m ρ c),
     (h c _ (mem_uc main_arg6 (by decide))).trans (W5_main_arg6 m ρ c),
     (h c _ (mem_uc main_arg7 (by decide))).trans (W5_main_arg7 m ρ c),
     (h c _ (mem_uc main_arg8 (by decide))).trans (W5_main_arg8 m ρ c),
     (h c _ (mem_uc main_arg9 (by decide))).trans (W5_main_arg9 m ρ c),
     (h c _ (mem_uc main_arg10 (by decide))).trans (W5_main_arg10 m ρ c),
     (h c _ (mem_uc main_arg11 (by decide))).trans (W5_main_arg11 m ρ c),
     (h c _ (mem_uc main_arg12 (by decide))).trans (W5_main_arg12 m ρ c)⟩)
    (run_all m ρ)

end Cert.Kernel.Hand

end
-- ==== Proof.KI.R0.lean ====
import proofs.«107218_g19069654794669_cont_sun_m_30_13_alg».proof.Proof.Gen.KernelIdeal.Launch
import proofs.«107218_g19069654794669_cont_sun_m_30_13_alg».proof.Proof.Gen.KernelIdeal.Skeleton
import proofs.«107218_g19069654794669_cont_sun_m_30_13_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)

theorem before0_7_of {c : Dev nD} (dat : Dat τ (Elt F) Unit ℕ (UR sig nD τ) ℕ cfg0 c) (hA : dat.A 7 = V c (Pipeline.arrRef spec0 7))
    (hafter : ∀ t, dat.after 7 t = iblk0 V c 7 t) (t : Fin cfg0.N) (d) : dat.before 7 t d = iblk0 V c 7 t :=
  (dat.before_in_eq_fetched 7 rfl (fun _ => rfl) (fun _ _ _ => rfl) (fun t => by rw [hafter]; unfold Dat.blockOf iblk0; rw [hA]; try rfl) t d).trans
    (by unfold Dat.fetched Dat.blockOf iblk0; rw [hA]; try rfl)

theorem before0_8_of {c : Dev nD} (dat : Dat τ (Elt F) Unit ℕ (UR sig nD τ) ℕ cfg0 c) (hA : dat.A 8 = V c (Pipeline.arrRef spec0 8))
    (hafter : ∀ t, dat.after 8 t = iblk0 V c 8 t) (t : Fin cfg0.N) (d) : dat.before 8 t d = iblk0 V c 8 t :=
  (dat.before_in_eq_fetched 8 rfl (fun _ => rfl) (fun _ _ _ => rfl) (fun t => by rw [hafter]; unfold Dat.blockOf iblk0; rw [hA]; try rfl) t d).trans
    (by unfold Dat.fetched Dat.blockOf iblk0; rw [hA]; try rfl)

theorem before0_9_of {c : Dev nD} (dat : Dat τ (Elt F) Unit ℕ (UR sig nD τ) ℕ cfg0 c) (hA : dat.A 9 = V c (Pipeline.arrRef spec0 9))
    (hafter : ∀ t, dat.after 9 t = iblk0 V c 9 t) (t : Fin cfg0.N) (d) : dat.before 9 t d = iblk0 V c 9 t :=
  (dat.before_in_eq_fetched 9 rfl (fun _ => rfl) (fun _ _ _ => rfl) (fun t => by rw [hafter]; unfold Dat.blockOf iblk0; rw [hA]; try rfl) t d).trans
    (by unfold Dat.fetched Dat.blockOf iblk0; rw [hA]; try rfl)

theorem before0_10_of {c : Dev nD} (dat : Dat τ (Elt F) Unit ℕ (UR sig nD τ) ℕ cfg0 c) (hA : dat.A 10 = V c (Pipeline.arrRef spec0 10))
    (hafter : ∀ t, dat.after 10 t = iblk0 V c 10 t) (t : Fin cfg0.N) (d) : dat.before 10 t d = iblk0 V c 10 t :=
  (dat.before_in_eq_fetched 10 rfl (fun _ => rfl) (fun _ _ _ => rfl) (fun t => by rw [hafter]; unfold Dat.blockOf iblk0; rw [hA]; try rfl) t d).trans
    (by unfold Dat.fetched Dat.blockOf iblk0; rw [hA]; try rfl)

abbrev VO0_11 : View sig .tc .vmem S512x512 .f32 := (Memref.whole cc0_stg11_0 : Memref sig .tc .vmem S512x512 .f32).view
abbrev VO0_12 : View sig .tc .vmem S512x64 .f32 := (Memref.whole cc0_stg12_0 : Memref sig .tc .vmem S512x64 .f32).view
abbrev VO0_13 : View sig .tc .vmem S512x64 .f32 := (Memref.whole cc0_stg13_0 : Memref sig .tc .vmem S512x64 .f32).view
abbrev VO0_14 : View sig .tc .vmem S6x256 .f32 := (Memref.whole cc0_stg14_0 : Memref sig .tc .vmem S6x256 .f32).view
abbrev VO0_15 : View sig .tc .vmem S3x128x256 .f32 := (Memref.whole cc0_stg15_0 : Memref sig .tc .vmem S3x128x256 .f32).view
abbrev VO0_16 : View sig .tc .vmem S1x256 .f32 := (Memref.whole cc0_stg16_0 : Memref sig .tc .vmem S1x256 .f32).view
abbrev VO0_17 : View sig .tc .vmem S6x128 .f32 := (Memref.whole cc0_stg17_0 : Memref sig .tc .vmem S6x128 .f32).view
abbrev VO0_18 : View sig .tc .vmem S3x128x128 .f32 := (Memref.whole cc0_stg18_0 : Memref sig .tc .vmem S3x128x128 .f32).view
abbrev VO0_19 : View sig .tc .vmem S1x128 .f32 := (Memref.whole cc0_stg19_0 : Memref sig .tc .vmem S1x128 .f32).view
abbrev VO0_20 : View sig .tc .vmem S3x128x256 .f32 := (Memref.whole cc0_stg20_0 : Memref sig .tc .vmem S3x128x256 .f32).view
abbrev VO0_21 : View sig .tc .vmem S3x128x256 .f32 := (Memref.whole cc0_stg21_0 : Memref sig .tc .vmem S3x128x256 .f32).view
abbrev VO0_22 : View sig .tc .vmem S1x256 .f32 := (Memref.whole cc0_stg22_0 : Memref sig .tc .vmem S1x256 .f32).view
abbrev VO0_23 : View sig .tc .vmem S3x128x128 .f32 := (Memref.whole cc0_stg23_0 : Memref sig .tc .vmem S3x128x128 .f32).view
abbrev VO0_24 : View sig .tc .vmem S3x128x128 .f32 := (Memref.whole cc0_stg24_0 : Memref sig .tc .vmem S3x128x128 .f32).view
abbrev VO0_25 : View sig .tc .vmem S1x128 .f32 := (Memref.whole cc0_stg25_0 : Memref sig .tc .vmem S1x128 .f32).view
abbrev VO0_26 : View sig .tc .vmem S128x2 .f32 := (Memref.whole cc0_stg26_0 : Memref sig .tc .vmem S128x2 .f32).view

section
variable (c : Dev nD) (arg0 : Memref sig .tc .vmem S512x512 .f32) (harg0 : arg0.IsWhole) (arg1 : Memref sig .tc .vmem S512x64 .f32) (harg1 : arg1.IsWhole) (arg2 : Memref sig .tc .vmem S3x65x128 .f32) (harg2 : arg2.IsWhole) (arg3 : Memref sig .tc .vmem S3x65x64 .f32) (harg3 : arg3.IsWhole) (arg4 : Memref sig .tc .vmem S3x128x128 .f32) (harg4 : arg4.IsWhole) (arg5 : Memref sig .tc .vmem S3x128x64 .f32) (harg5 : arg5.IsWhole) (arg6 : Memref sig .tc .vmem S1x128 .f32) (harg6 : arg6.IsWhole) (arg7 : Memref sig .tc .vmem S1x64 .f32) (harg7 : arg7.IsWhole) (arg8 : Memref sig .tc .vmem S1x128 .f32) (harg8 : arg8.IsWhole) (arg9 : Memref sig .tc .vmem S1x64 .f32) (harg9 : arg9.IsWhole) (arg10 : Memref sig .tc .vmem S64x1 .f32) (harg10 : arg10.IsWhole) (arg11 : Memref sig .tc .vmem S512x512 .f32) (harg11 : arg11.IsWhole) (arg12 : Memref sig .tc .vmem S512x64 .f32) (harg12 : arg12.IsWhole) (arg13 : Memref sig .tc .vmem S512x64 .f32) (harg13 : arg13.IsWhole) (arg14 : Memref sig .tc .vmem S6x256 .f32) (harg14 : arg14.IsWhole) (arg15 : Memref sig .tc .vmem S3x128x256 .f32) (harg15 : arg15.IsWhole) (arg16 : Memref sig .tc .vmem S1x256 .f32) (harg16 : arg16.IsWhole) (arg17 : Memref sig .tc .vmem S6x128 .f32) (harg17 : arg17.IsWhole) (arg18 : Memref sig .tc .vmem S3x128x128 .f32) (harg18 : arg18.IsWhole) (arg19 : Memref sig .tc .vmem S1x128 .f32) (harg19 : arg19.IsWhole) (arg20 : Memref sig .tc .vmem S3x128x256 .f32) (harg20 : arg20.IsWhole) (arg21 : Memref sig .tc .vmem S3x128x256 .f32) (harg21 : arg21.IsWhole) (arg22 : Memref sig .tc .vmem S1x256 .f32) (harg22 : arg22.IsWhole) (arg23 : Memref sig .tc .vmem S3x128x128 .f32) (harg23 : arg23.IsWhole) (arg24 : Memref sig .tc .vmem S3x128x128 .f32) (harg24 : arg24.IsWhole) (arg25 : Memref sig .tc .vmem S1x128 .f32) (harg25 : arg25.IsWhole) (arg26 : Memref sig .tc .vmem S128x2 .f32) (harg26 : arg26.IsWhole)
    (x0 : Vec F S512x512 .f32) (x1 : Vec F S512x64 .f32) (x2 : Vec F S3x65x128 .f32) (x3 : Vec F S3x65x64 .f32) (x4 : Vec F S3x128x128 .f32) (x5 : Vec F S3x128x64 .f32) (x6 : Vec F S1x128 .f32) (x7 : Vec F S1x64 .f32) (x8 : Vec F S1x128 .f32) (x9 : Vec F S1x64 .f32) (x10 : Vec F S64x1 .f32)

set_option maxHeartbeats 4000000 in
noncomputable def kernelRun0 :
    Σ' (L11 : List (View.Piece (Elt F) S512x512 .f32)) (L12 : List (View.Piece (Elt F) S512x64 .f32)) (L13 : List (View.Piece (Elt F) S512x64 .f32)) (L14 : List (View.Piece (Elt F) S6x256 .f32)) (L15 : List (View.Piece (Elt F) S3x128x256 .f32)) (L16 : List (View.Piece (Elt F) S1x256 .f32)) (L17 : List (View.Piece (Elt F) S6x128 .f32)) (L18 : List (View.Piece (Elt F) S3x128x128 .f32)) (L19 : List (View.Piece (Elt F) S1x128 .f32)) (L20 : List (View.Piece (Elt F) S3x128x256 .f32)) (L21 : List (View.Piece (Elt F) S3x128x256 .f32)) (L22 : List (View.Piece (Elt F) S1x256 .f32)) (L23 : List (View.Piece (Elt F) S3x128x128 .f32)) (L24 : List (View.Piece (Elt F) S3x128x128 .f32)) (L25 : List (View.Piece (Elt F) S1x128 .f32)), { L26 : List (View.Piece (Elt F) S128x2 .f32) //
      ∀ (E : Set ℕ) (K : PUnit → sProp 𝕄),
        iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10
            ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d)
            ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10
                ∗ (∃ f, arg11.view.loc (c : Thread nD τ) ↦[arg11.view.set]{fullShare} arg11.view.writes (Elt F) f L11) ∗ (∃ f, arg12.view.loc (c : Thread nD τ) ↦[arg12.view.set]{fullShare} arg12.view.writes (Elt F) f L12) ∗ (∃ f, arg13.view.loc (c : Thread nD τ) ↦[arg13.view.set]{fullShare} arg13.view.writes (Elt F) f L13) ∗ (∃ f, arg14.view.loc (c : Thread nD τ) ↦[arg14.view.set]{fullShare} arg14.view.writes (Elt F) f L14) ∗ (∃ f, arg15.view.loc (c : Thread nD τ) ↦[arg15.view.set]{fullShare} arg15.view.writes (Elt F) f L15) ∗ (∃ f, arg16.view.loc (c : Thread nD τ) ↦[arg16.view.set]{fullShare} arg16.view.writes (Elt F) f L16) ∗ (∃ f, arg17.view.loc (c : Thread nD τ) ↦[arg17.view.set]{fullShare} arg17.view.writes (Elt F) f L17) ∗ (∃ f, arg18.view.loc (c : Thread nD τ) ↦[arg18.view.set]{fullShare} arg18.view.writes (Elt F) f L18) ∗ (∃ f, arg19.view.loc (c : Thread nD τ) ↦[arg19.view.set]{fullShare} arg19.view.writes (Elt F) f L19) ∗ (∃ f, arg20.view.loc (c : Thread nD τ) ↦[arg20.view.set]{fullShare} arg20.view.writes (Elt F) f L20) ∗ (∃ f, arg21.view.loc (c : Thread nD τ) ↦[arg21.view.set]{fullShare} arg21.view.writes (Elt F) f L21) ∗ (∃ f, arg22.view.loc (c : Thread nD τ) ↦[arg22.view.set]{fullShare} arg22.view.writes (Elt F) f L22) ∗ (∃ f, arg23.view.loc (c : Thread nD τ) ↦[arg23.view.set]{fullShare} arg23.view.writes (Elt F) f L23) ∗ (∃ f, arg24.view.loc (c : Thread nD τ) ↦[arg24.view.set]{fullShare} arg24.view.writes (Elt F) f L24) ∗ (∃ f, arg25.view.loc (c : Thread nD τ) ↦[arg25.view.set]{fullShare} arg25.view.writes (Elt F) f L25) ∗ (∃ f, arg26.view.loc (c : Thread nD τ) ↦[arg26.view.set]{fullShare} arg26.view.writes (Elt F) f L26)) -∗ K ⟨⟩))
          ⊢ wp frame (wpE (defs₀ (F := F)) Variants.none c none) E (cc0__prep_kernel arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26) K } := by
  refine ⟨?_, ?_, ?_, ?_, ?_, ?_, ?_, ?_, ?_, ?_, ?_, ?_, ?_, ?_, ?_, ?_, fun E K => ?run⟩
  case run =>
    simp only [cc0__prep_kernel_eq_skeleton]; unfold cc0__prep_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩, ⟨%d20, %f20, -, H20⟩, ⟨%d21, %f21, -, H21⟩, ⟨%d22, %f22, -, H22⟩, ⟨%d23, %f23, -, H23⟩, ⟨%d24, %f24, -, H24⟩, ⟨%d25, %f25, -, H25⟩, ⟨%d26, %f26, -, H26⟩, Hk⟩
    obtain rfl := harg0.eq_unread hf0; obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10
    sl_exec
    sl_step
    iapply Hk
    isplitl [H0]
    · iexists _; isplitr; · ipureintro; exact harg0.read_unread _
      iexact H0
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]; · iexists _; iexact H11
    isplitl [H12]; · iexists _; iexact H12
    isplitl [H13]; · iexists _; iexact H13
    isplitl [H14]; · iexists _; iexact H14
    isplitl [H15]; · iexists _; iexact H15
    isplitl [H16]; · iexists _; iexact H16
    isplitl [H17]; · iexists _; iexact H17
    isplitl [H18]; · iexists _; iexact H18
    isplitl [H19]; · iexists _; iexact H19
    isplitl [H20]; · iexists _; iexact H20
    isplitl [H21]; · iexists _; iexact H21
    isplitl [H22]; · iexists _; iexact H22
    isplitl [H23]; · iexists _; iexact H23
    isplitl [H24]; · iexists _; iexact H24
    isplitl [H25]; · iexists _; iexact H25
    iexists _; iexact H26

theorem cover0_11 (y : S512x512.Idx) :
    ∃ pc ∈ (kernelRun0 c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 x0 x1 x2 x3 x4 x5 x6 x7 x8 x9 x10).1, y ∈ pc.1.set :=
  View.cover_of_tiledL _ S512x512.size (by sl_kernel_rfl) y

theorem cover0_12 (y : S512x64.Idx) :
    ∃ pc ∈ (kernelRun0 c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 x0 x1 x2 x3 x4 x5 x6 x7 x8 x9 x10).2.1, y ∈ pc.1.set :=
  View.cover_of_tiledL _ S512x64.size (by sl_kernel_rfl) y

theorem cover0_13 (y : S512x64.Idx) :
    ∃ pc ∈ (kernelRun0 c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 x0 x1 x2 x3 x4 x5 x6 x7 x8 x9 x10).2.2.1, y ∈ pc.1.set :=
  View.cover_of_tiledL _ S512x64.size (by sl_kernel_rfl) y

theorem cover0_14 (y : S6x256.Idx) :
    ∃ pc ∈ (kernelRun0 c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 x0 x1 x2 x3 x4 x5 x6 x7 x8 x9 x10).2.2.2.1, y ∈ pc.1.set :=
  View.cover_of_wholeMem _ (by sl_whole_mem) y

theorem cover0_15 (y : S3x128x256.Idx) :
    ∃ pc ∈ (kernelRun0 c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 x0 x1 x2 x3 x4 x5 x6 x7 x8 x9 x10).2.2.2.2.1, y ∈ pc.1.set :=
  View.cover_of_wholeMem _ (by sl_whole_mem) y

theorem cover0_16 (y : S1x256.Idx) :
    ∃ pc ∈ (kernelRun0 c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 x0 x1 x2 x3 x4 x5 x6 x7 x8 x9 x10).2.2.2.2.2.1, y ∈ pc.1.set :=
  View.cover_of_tiledL (kernelRun0 c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 x0 x1 x2 x3 x4 x5 x6 x7 x8 x9 x10).2.2.2.2.2.1 S1x64.size (by sl_kernel_rfl) y

theorem cover0_17 (y : S6x128.Idx) :
    ∃ pc ∈ (kernelRun0 c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 x0 x1 x2 x3 x4 x5 x6 x7 x8 x9 x10).2.2.2.2.2.2.1, y ∈ pc.1.set :=
  View.cover_of_wholeMem _ (by sl_whole_mem) y

theorem cover0_18 (y : S3x128x128.Idx) :
    ∃ pc ∈ (kernelRun0 c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 x0 x1 x2 x3 x4 x5 x6 x7 x8 x9 x10).2.2.2.2.2.2.2.1, y ∈ pc.1.set :=
  View.cover_of_wholeMem _ (by sl_whole_mem) y

theorem cover0_19 (y : S1x128.Idx) :
    ∃ pc ∈ (kernelRun0 c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 x0 x1 x2 x3 x4 x5 x6 x7 x8 x9 x10).2.2.2.2.2.2.2.2.1, y ∈ pc.1.set :=
  View.cover_of_tiledL (kernelRun0 c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 x0 x1 x2 x3 x4 x5 x6 x7 x8 x9 x10).2.2.2.2.2.2.2.2.1 S1x64.size (by sl_kernel_rfl) y

theorem cover0_20 (y : S3x128x256.Idx) :
    ∃ pc ∈ (kernelRun0 c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 x0 x1 x2 x3 x4 x5 x6 x7 x8 x9 x10).2.2.2.2.2.2.2.2.2.1, y ∈ pc.1.set :=
  View.cover_of_wholeMem _ (by sl_whole_mem) y

theorem cover0_21 (y : S3x128x256.Idx) :
    ∃ pc ∈ (kernelRun0 c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 x0 x1 x2 x3 x4 x5 x6 x7 x8 x9 x10).2.2.2.2.2.2.2.2.2.2.1, y ∈ pc.1.set :=
  View.cover_of_wholeMem _ (by sl_whole_mem) y

theorem cover0_22 (y : S1x256.Idx) :
    ∃ pc ∈ (kernelRun0 c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 x0 x1 x2 x3 x4 x5 x6 x7 x8 x9 x10).2.2.2.2.2.2.2.2.2.2.2.1, y ∈ pc.1.set :=
  View.cover_of_tiledL (kernelRun0 c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 x0 x1 x2 x3 x4 x5 x6 x7 x8 x9 x10).2.2.2.2.2.2.2.2.2.2.2.1 S1x64.size (by sl_kernel_rfl) y

theorem cover0_23 (y : S3x128x128.Idx) :
    ∃ pc ∈ (kernelRun0 c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 x0 x1 x2 x3 x4 x5 x6 x7 x8 x9 x10).2.2.2.2.2.2.2.2.2.2.2.2.1, y ∈ pc.1.set :=
  View.cover_of_wholeMem _ (by sl_whole_mem) y

theorem cover0_24 (y : S3x128x128.Idx) :
    ∃ pc ∈ (kernelRun0 c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 x0 x1 x2 x3 x4 x5 x6 x7 x8 x9 x10).2.2.2.2.2.2.2.2.2.2.2.2.2.1, y ∈ pc.1.set :=
  View.cover_of_wholeMem _ (by sl_whole_mem) y

theorem cover0_25 (y : S1x128.Idx) :
    ∃ pc ∈ (kernelRun0 c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 x0 x1 x2 x3 x4 x5 x6 x7 x8 x9 x10).2.2.2.2.2.2.2.2.2.2.2.2.2.2.1, y ∈ pc.1.set :=
  View.cover_of_tiledL (kernelRun0 c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 x0 x1 x2 x3 x4 x5 x6 x7 x8 x9 x10).2.2.2.2.2.2.2.2.2.2.2.2.2.2.1 S1x64.size (by sl_kernel_rfl) y

theorem cover0_26 (y : S128x2.Idx) :
    ∃ pc ∈ (kernelRun0 c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 x0 x1 x2 x3 x4 x5 x6 x7 x8 x9 x10).2.2.2.2.2.2.2.2.2.2.2.2.2.2.2.1, y ∈ pc.1.set :=
  View.cover_of_wholeMem _ (by sl_whole_mem) y

end

section
variable (c : Dev nD) (t : Fin cfg0.N) (x0 : Vec F S512x512 .f32) (x1 : Vec F S512x64 .f32) (x2 : Vec F S3x65x128 .f32) (x3 : Vec F S3x65x64 .f32) (x4 : Vec F S3x128x128 .f32) (x5 : Vec F S3x128x64 .f32) (x6 : Vec F S1x128 .f32) (x7 : Vec F S1x64 .f32) (x8 : Vec F S1x128 .f32) (x9 : Vec F S1x64 .f32) (x10 : Vec F S64x1 .f32)

abbrev runAt0 :=
  kernelRun0 (F := F) c (win0_0.stage (cfg0.slots t 0)) (hstage0_0 0) (win0_1.stage (cfg0.slots t 1)) (hstage0_1 0) (win0_2.stage (cfg0.slots t 2)) (hstage0_2 0) (win0_3.stage (cfg0.slots t 3)) (hstage0_3 0) (win0_4.stage (cfg0.slots t 4)) (hstage0_4 0) (win0_5.stage (cfg0.slots t 5)) (hstage0_5 0) (win0_6.stage (cfg0.slots t 6)) (hstage0_6 0) (win0_7.stage (cfg0.slots t 7)) (hstage0_7 0) (win0_8.stage (cfg0.slots t 8)) (hstage0_8 0) (win0_9.stage (cfg0.slots t 9)) (hstage0_9 0) (win0_10.stage (cfg0.slots t 10)) (hstage0_10 0) (win0_11.stage (cfg0.slots t 11)) (hstage0_11 0) (win0_12.stage (cfg0.slots t 12)) (hstage0_12 0) (win0_13.stage (cfg0.slots t 13)) (hstage0_13 0) (win0_14.stage (cfg0.slots t 14)) (hstage0_14 0) (win0_15.stage (cfg0.slots t 15)) (hstage0_15 0) (win0_16.stage (cfg0.slots t 16)) (hstage0_16 0) (win0_17.stage (cfg0.slots t 17)) (hstage0_17 0) (win0_18.stage (cfg0.slots t 18)) (hstage0_18 0) (win0_19.stage (cfg0.slots t 19)) (hstage0_19 0) (win0_20.stage (cfg0.slots t 20)) (hstage0_20 0) (win0_21.stage (cfg0.slots t 21)) (hstage0_21 0) (win0_22.stage (cfg0.slots t 22)) (hstage0_22 0) (win0_23.stage (cfg0.slots t 23)) (hstage0_23 0) (win0_24.stage (cfg0.slots t 24)) (hstage0_24 0) (win0_25.stage (cfg0.slots t 25)) (hstage0_25 0) (win0_26.stage (cfg0.slots t 26)) (hstage0_26 0) x0 x1 x2 x3 x4 x5 x6 x7 x8 x9 x10

def out0_11 : Vec F S512x512 .f32 :=
  VO0_11.read (Elt F) (VO0_11.writes (Elt F) VO0_11.junk (runAt0 c t x0 x1 x2 x3 x4 x5 x6 x7 x8 x9 x10).1)

def out0_12 : Vec F S512x64 .f32 :=
  VO0_12.read (Elt F) (VO0_12.writes (Elt F) VO0_12.junk (runAt0 c t x0 x1 x2 x3 x4 x5 x6 x7 x8 x9 x10).2.1)

def out0_13 : Vec F S512x64 .f32 :=
  VO0_13.read (Elt F) (VO0_13.writes (Elt F) VO0_13.junk (runAt0 c t x0 x1 x2 x3 x4 x5 x6 x7 x8 x9 x10).2.2.1)

def out0_14 : Vec F S6x256 .f32 :=
  VO0_14.read (Elt F) (VO0_14.writes (Elt F) VO0_14.junk (runAt0 c t x0 x1 x2 x3 x4 x5 x6 x7 x8 x9 x10).2.2.2.1)

def out0_15 : Vec F S3x128x256 .f32 :=
  VO0_15.read (Elt F) (VO0_15.writes (Elt F) VO0_15.junk (runAt0 c t x0 x1 x2 x3 x4 x5 x6 x7 x8 x9 x10).2.2.2.2.1)

def out0_16 : Vec F S1x256 .f32 :=
  VO0_16.read (Elt F) (VO0_16.writes (Elt F) VO0_16.junk (runAt0 c t x0 x1 x2 x3 x4 x5 x6 x7 x8 x9 x10).2.2.2.2.2.1)

def out0_17 : Vec F S6x128 .f32 :=
  VO0_17.read (Elt F) (VO0_17.writes (Elt F) VO0_17.junk (runAt0 c t x0 x1 x2 x3 x4 x5 x6 x7 x8 x9 x10).2.2.2.2.2.2.1)

def out0_18 : Vec F S3x128x128 .f32 :=
  VO0_18.read (Elt F) (VO0_18.writes (Elt F) VO0_18.junk (runAt0 c t x0 x1 x2 x3 x4 x5 x6 x7 x8 x9 x10).2.2.2.2.2.2.2.1)

def out0_19 : Vec F S1x128 .f32 :=
  VO0_19.read (Elt F) (VO0_19.writes (Elt F) VO0_19.junk (runAt0 c t x0 x1 x2 x3 x4 x5 x6 x7 x8 x9 x10).2.2.2.2.2.2.2.2.1)

def out0_20 : Vec F S3x128x256 .f32 :=
  VO0_20.read (Elt F) (VO0_20.writes (Elt F) VO0_20.junk (runAt0 c t x0 x1 x2 x3 x4 x5 x6 x7 x8 x9 x10).2.2.2.2.2.2.2.2.2.1)

def out0_21 : Vec F S3x128x256 .f32 :=
  VO0_21.read (Elt F) (VO0_21.writes (Elt F) VO0_21.junk (runAt0 c t x0 x1 x2 x3 x4 x5 x6 x7 x8 x9 x10).2.2.2.2.2.2.2.2.2.2.1)

def out0_22 : Vec F S1x256 .f32 :=
  VO0_22.read (Elt F) (VO0_22.writes (Elt F) VO0_22.junk (runAt0 c t x0 x1 x2 x3 x4 x5 x6 x7 x8 x9 x10).2.2.2.2.2.2.2.2.2.2.2.1)

def out0_23 : Vec F S3x128x128 .f32 :=
  VO0_23.read (Elt F) (VO0_23.writes (Elt F) VO0_23.junk (runAt0 c t x0 x1 x2 x3 x4 x5 x6 x7 x8 x9 x10).2.2.2.2.2.2.2.2.2.2.2.2.1)

def out0_24 : Vec F S3x128x128 .f32 :=
  VO0_24.read (Elt F) (VO0_24.writes (Elt F) VO0_24.junk (runAt0 c t x0 x1 x2 x3 x4 x5 x6 x7 x8 x9 x10).2.2.2.2.2.2.2.2.2.2.2.2.2.1)

def out0_25 : Vec F S1x128 .f32 :=
  VO0_25.read (Elt F) (VO0_25.writes (Elt F) VO0_25.junk (runAt0 c t x0 x1 x2 x3 x4 x5 x6 x7 x8 x9 x10).2.2.2.2.2.2.2.2.2.2.2.2.2.2.1)

def out0_26 : Vec F S128x2 .f32 :=
  VO0_26.read (Elt F) (VO0_26.writes (Elt F) VO0_26.junk (runAt0 c t x0 x1 x2 x3 x4 x5 x6 x7 x8 x9 x10).2.2.2.2.2.2.2.2.2.2.2.2.2.2.2.1)

end

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => iblk0 V c 8 t
    | ⟨9, _⟩ => iblk0 V c 9 t
    | ⟨10, _⟩ => iblk0 V c 10 t
    | ⟨11, _⟩ => out0_11 c t (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t)
    | ⟨12, _⟩ => out0_12 c t (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t)
    | ⟨13, _⟩ => out0_13 c t (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t)
    | ⟨14, _⟩ => out0_14 c t (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t)
    | ⟨15, _⟩ => out0_15 c t (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t)
    | ⟨16, _⟩ => out0_16 c t (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t)
    | ⟨17, _⟩ => out0_17 c t (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t)
    | ⟨18, _⟩ => out0_18 c t (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t)
    | ⟨19, _⟩ => out0_19 c t (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t)
    | ⟨20, _⟩ => out0_20 c t (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t)
    | ⟨21, _⟩ => out0_21 c t (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t)
    | ⟨22, _⟩ => out0_22 c t (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t)
    | ⟨23, _⟩ => out0_23 c t (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t)
    | ⟨24, _⟩ => out0_24 c t (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t)
    | ⟨25, _⟩ => out0_25 c t (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t)
    | ⟨26, _⟩ => out0_26 c t (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t)
    | ⟨_ + 27, h⟩ => absurd h (Nat.not_lt.2 (Nat.le_add_left _ _))
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = iblk0 V c 7 t := by dsimp only [dat0]
theorem after0_8 (c : Dev nD) (t : Fin cfg0.N) : (dat0 V c).after 8 t = iblk0 V c 8 t := by dsimp only [dat0]
theorem after0_9 (c : Dev nD) (t : Fin cfg0.N) : (dat0 V c).after 9 t = iblk0 V c 9 t := by dsimp only [dat0]
theorem after0_10 (c : Dev nD) (t : Fin cfg0.N) : (dat0 V c).after 10 t = iblk0 V c 10 t := by dsimp only [dat0]
theorem after0_11 (c : Dev nD) (t : Fin cfg0.N) : (dat0 V c).after 11 t = out0_11 c t (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) := by dsimp only [dat0]
theorem after0_12 (c : Dev nD) (t : Fin cfg0.N) : (dat0 V c).after 12 t = out0_12 c t (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) := by dsimp only [dat0]
theorem after0_13 (c : Dev nD) (t : Fin cfg0.N) : (dat0 V c).after 13 t = out0_13 c t (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) := by dsimp only [dat0]
theorem after0_14 (c : Dev nD) (t : Fin cfg0.N) : (dat0 V c).after 14 t = out0_14 c t (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) := by dsimp only [dat0]
theorem after0_15 (c : Dev nD) (t : Fin cfg0.N) : (dat0 V c).after 15 t = out0_15 c t (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) := by dsimp only [dat0]
theorem after0_16 (c : Dev nD) (t : Fin cfg0.N) : (dat0 V c).after 16 t = out0_16 c t (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) := by dsimp only [dat0]
theorem after0_17 (c : Dev nD) (t : Fin cfg0.N) : (dat0 V c).after 17 t = out0_17 c t (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) := by dsimp only [dat0]
theorem after0_18 (c : Dev nD) (t : Fin cfg0.N) : (dat0 V c).after 18 t = out0_18 c t (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) := by dsimp only [dat0]
theorem after0_19 (c : Dev nD) (t : Fin cfg0.N) : (dat0 V c).after 19 t = out0_19 c t (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) := by dsimp only [dat0]
theorem after0_20 (c : Dev nD) (t : Fin cfg0.N) : (dat0 V c).after 20 t = out0_20 c t (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) := by dsimp only [dat0]
theorem after0_21 (c : Dev nD) (t : Fin cfg0.N) : (dat0 V c).after 21 t = out0_21 c t (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) := by dsimp only [dat0]
theorem after0_22 (c : Dev nD) (t : Fin cfg0.N) : (dat0 V c).after 22 t = out0_22 c t (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) := by dsimp only [dat0]
theorem after0_23 (c : Dev nD) (t : Fin cfg0.N) : (dat0 V c).after 23 t = out0_23 c t (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) := by dsimp only [dat0]
theorem after0_24 (c : Dev nD) (t : Fin cfg0.N) : (dat0 V c).after 24 t = out0_24 c t (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) := by dsimp only [dat0]
theorem after0_25 (c : Dev nD) (t : Fin cfg0.N) : (dat0 V c).after 25 t = out0_25 c t (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) := by dsimp only [dat0]
theorem after0_26 (c : Dev nD) (t : Fin cfg0.N) : (dat0 V c).after 26 t = out0_26 c t (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d
theorem before0_7 (c : Dev nD) (t : Fin cfg0.N) (d) : (dat0 V c).before 7 t d = iblk0 V c 7 t :=
  before0_7_of V (dat0 V c) (A_eq0 V c 7) (after0_7 V c) t d
theorem before0_8 (c : Dev nD) (t : Fin cfg0.N) (d) : (dat0 V c).before 8 t d = iblk0 V c 8 t :=
  before0_8_of V (dat0 V c) (A_eq0 V c 8) (after0_8 V c) t d
theorem before0_9 (c : Dev nD) (t : Fin cfg0.N) (d) : (dat0 V c).before 9 t d = iblk0 V c 9 t :=
  before0_9_of V (dat0 V c) (A_eq0 V c 9) (after0_9 V c) t d
theorem before0_10 (c : Dev nD) (t : Fin cfg0.N) (d) : (dat0 V c).before 10 t d = iblk0 V c 10 t :=
  before0_10_of V (dat0 V c) (A_eq0 V c 10) (after0_10 V c) t d

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d))
    ∗ (∃ d, owns (c : Thread nD τ) (st0_9 t) fullShare ((dat0 V c).before 9 t d))
    ∗ (∃ d, owns (c : Thread nD τ) (st0_10 t) fullShare ((dat0 V c).before 10 t d))
    ∗ (∃ d, owns (c : Thread nD τ) (st0_11 t) fullShare ((dat0 V c).before 11 t d))
    ∗ (∃ d, owns (c : Thread nD τ) (st0_12 t) fullShare ((dat0 V c).before 12 t d))
    ∗ (∃ d, owns (c : Thread nD τ) (st0_13 t) fullShare ((dat0 V c).before 13 t d))
    ∗ (∃ d, owns (c : Thread nD τ) (st0_14 t) fullShare ((dat0 V c).before 14 t d))
    ∗ (∃ d, owns (c : Thread nD τ) (st0_15 t) fullShare ((dat0 V c).before 15 t d))
    ∗ (∃ d, owns (c : Thread nD τ) (st0_16 t) fullShare ((dat0 V c).before 16 t d))
    ∗ (∃ d, owns (c : Thread nD τ) (st0_17 t) fullShare ((dat0 V c).before 17 t d))
    ∗ (∃ d, owns (c : Thread nD τ) (st0_18 t) fullShare ((dat0 V c).before 18 t d))
    ∗ (∃ d, owns (c : Thread nD τ) (st0_19 t) fullShare ((dat0 V c).before 19 t d))
    ∗ (∃ d, owns (c : Thread nD τ) (st0_20 t) fullShare ((dat0 V c).before 20 t d))
    ∗ (∃ d, owns (c : Thread nD τ) (st0_21 t) fullShare ((dat0 V c).before 21 t d))
    ∗ (∃ d, owns (c : Thread nD τ) (st0_22 t) fullShare ((dat0 V c).before 22 t d))
    ∗ (∃ d, owns (c : Thread nD τ) (st0_23 t) fullShare ((dat0 V c).before 23 t d))
    ∗ (∃ d, owns (c : Thread nD τ) (st0_24 t) fullShare ((dat0 V c).before 24 t d))
    ∗ (∃ d, owns (c : Thread nD τ) (st0_25 t) fullShare ((dat0 V c).before 25 t d))
    ∗ (∃ d, owns (c : Thread nD τ) (st0_26 t) fullShare ((dat0 V c).before 26 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t)
    ∗ owns (c : Thread nD τ) (st0_9 t) fullShare ((dat0 V c).after 9 t)
    ∗ owns (c : Thread nD τ) (st0_10 t) fullShare ((dat0 V c).after 10 t)
    ∗ owns (c : Thread nD τ) (st0_11 t) fullShare ((dat0 V c).after 11 t)
    ∗ owns (c : Thread nD τ) (st0_12 t) fullShare ((dat0 V c).after 12 t)
    ∗ owns (c : Thread nD τ) (st0_13 t) fullShare ((dat0 V c).after 13 t)
    ∗ owns (c : Thread nD τ) (st0_14 t) fullShare ((dat0 V c).after 14 t)
    ∗ owns (c : Thread nD τ) (st0_15 t) fullShare ((dat0 V c).after 15 t)
    ∗ owns (c : Thread nD τ) (st0_16 t) fullShare ((dat0 V c).after 16 t)
    ∗ owns (c : Thread nD τ) (st0_17 t) fullShare ((dat0 V c).after 17 t)
    ∗ owns (c : Thread nD τ) (st0_18 t) fullShare ((dat0 V c).after 18 t)
    ∗ owns (c : Thread nD τ) (st0_19 t) fullShare ((dat0 V c).after 19 t)
    ∗ owns (c : Thread nD τ) (st0_20 t) fullShare ((dat0 V c).after 20 t)
    ∗ owns (c : Thread nD τ) (st0_21 t) fullShare ((dat0 V c).after 21 t)
    ∗ owns (c : Thread nD τ) (st0_22 t) fullShare ((dat0 V c).after 22 t)
    ∗ owns (c : Thread nD τ) (st0_23 t) fullShare ((dat0 V c).after 23 t)
    ∗ owns (c : Thread nD τ) (st0_24 t) fullShare ((dat0 V c).after 24 t)
    ∗ owns (c : Thread nD τ) (st0_25 t) fullShare ((dat0 V c).after 25 t)
    ∗ owns (c : Thread nD τ) (st0_26 t) fullShare ((dat0 V c).after 26 t))

set_option maxHeartbeats 1600000 in

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6, before0_7, before0_8, before0_9, before0_10]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8, after0_9, after0_10, after0_11, after0_12, after0_13, after0_14, after0_15, after0_16, after0_17, after0_18, after0_19, after0_20, after0_21, after0_22, after0_23, after0_24, after0_25, after0_26]
  unfold out0_11 out0_12 out0_13 out0_14 out0_15 out0_16 out0_17 out0_18 out0_19 out0_20 out0_21 out0_22 out0_23 out0_24 out0_25 out0_26 runAt0
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩⟩
  iapply ((kernelRun0 c _ _ _ _ _ _ _ _ _ _ _ _ _ _ _ _ _ _ _ _ _ _ _ _ _ _ _ _ _ _ _ _ _ _ _ _ _ _ _ _ _ _ _ _ _ _ _ _ _ _ _ _ _ _ (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t)).2.2.2.2.2.2.2.2.2.2.2.2.2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexists _; iexact H11
  isplitl [H12]; · iexists _; iexact H12
  isplitl [H13]; · iexists _; iexact H13
  isplitl [H14]; · iexists _; iexact H14
  isplitl [H15]; · iexists _; iexact H15
  isplitl [H16]; · iexists _; iexact H16
  isplitl [H17]; · iexists _; iexact H17
  isplitl [H18]; · iexists _; iexact H18
  isplitl [H19]; · iexists _; iexact H19
  isplitl [H20]; · iexists _; iexact H20
  isplitl [H21]; · iexists _; iexact H21
  isplitl [H22]; · iexists _; iexact H22
  isplitl [H23]; · iexists _; iexact H23
  isplitl [H24]; · iexists _; iexact H24
  isplitl [H25]; · iexists _; iexact H25
  isplitl [H26]; · iexists _; iexact H26
  iintro ⟨H0, H1, H2, H3, H4, H5, H6, H7, H8, H9, H10, ⟨%e11, H11⟩, ⟨%e12, H12⟩, ⟨%e13, H13⟩, ⟨%e14, H14⟩, ⟨%e15, H15⟩, ⟨%e16, H16⟩, ⟨%e17, H17⟩, ⟨%e18, H18⟩, ⟨%e19, H19⟩, ⟨%e20, H20⟩, ⟨%e21, H21⟩, ⟨%e22, H22⟩, ⟨%e23, H23⟩, ⟨%e24, H24⟩, ⟨%e25, H25⟩, ⟨%e26, H26⟩⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]
  · unfold owns; iexists _; isplitr
    swap; · iexact H11
    ipureintro; exact View.read_writes_of_cover _ _ _ _ _ (cover0_11 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  isplitl [H12]
  · unfold owns; iexists _; isplitr
    swap; · iexact H12
    ipureintro; exact View.read_writes_of_cover _ _ _ _ _ (cover0_12 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  isplitl [H13]
  · unfold owns; iexists _; isplitr
    swap; · iexact H13
    ipureintro; exact View.read_writes_of_cover _ _ _ _ _ (cover0_13 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  isplitl [H14]
  · unfold owns; iexists _; isplitr
    swap; · iexact H14
    ipureintro; exact View.read_writes_of_cover _ _ _ _ _ (cover0_14 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  isplitl [H15]
  · unfold owns; iexists _; isplitr
    swap; · iexact H15
    ipureintro; exact View.read_writes_of_cover _ _ _ _ _ (cover0_15 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  isplitl [H16]
  · unfold owns; iexists _; isplitr
    swap; · iexact H16
    ipureintro; exact View.read_writes_of_cover _ _ _ _ _ (cover0_16 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  isplitl [H17]
  · unfold owns; iexists _; isplitr
    swap; · iexact H17
    ipureintro; exact View.read_writes_of_cover _ _ _ _ _ (cover0_17 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  isplitl [H18]
  · unfold owns; iexists _; isplitr
    swap; · iexact H18
    ipureintro; exact View.read_writes_of_cover _ _ _ _ _ (cover0_18 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  isplitl [H19]
  · unfold owns; iexists _; isplitr
    swap; · iexact H19
    ipureintro; exact View.read_writes_of_cover _ _ _ _ _ (cover0_19 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  isplitl [H20]
  · unfold owns; iexists _; isplitr
    swap; · iexact H20
    ipureintro; exact View.read_writes_of_cover _ _ _ _ _ (cover0_20 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  isplitl [H21]
  · unfold owns; iexists _; isplitr
    swap; · iexact H21
    ipureintro; exact View.read_writes_of_cover _ _ _ _ _ (cover0_21 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  isplitl [H22]
  · unfold owns; iexists _; isplitr
    swap; · iexact H22
    ipureintro; exact View.read_writes_of_cover _ _ _ _ _ (cover0_22 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  isplitl [H23]
  · unfold owns; iexists _; isplitr
    swap; · iexact H23
    ipureintro; exact View.read_writes_of_cover _ _ _ _ _ (cover0_23 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  isplitl [H24]
  · unfold owns; iexists _; isplitr
    swap; · iexact H24
    ipureintro; exact View.read_writes_of_cover _ _ _ _ _ (cover0_24 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  isplitl [H25]
  · unfold owns; iexists _; isplitr
    swap; · iexact H25
    ipureintro; exact View.read_writes_of_cover _ _ _ _ _ (cover0_25 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  unfold owns; iexists _; isplitr
  swap; · iexact H26
  ipureintro; exact View.read_writes_of_cover _ _ _ _ _ (cover0_26 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)

theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.R1.lean ====
import proofs.«107218_g19069654794669_cont_sun_m_30_13_alg».proof.Proof.Gen.KernelIdeal.Launch
import proofs.«107218_g19069654794669_cont_sun_m_30_13_alg».proof.Proof.Gen.KernelIdeal.Skeleton
import proofs.«107218_g19069654794669_cont_sun_m_30_13_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev stg1_0 (t : Fin cfg1.N) : Memref sig .tc .vmem S512x512 .f32 := win1_0.stage (cfg1.slots t 0)
abbrev stgWhole1_0 (t : Fin cfg1.N) : (stg1_0 t).IsWhole := hstage1_0 ((cfg1.slots t 0).cast nbuf1_0)
abbrev stg1_1 (t : Fin cfg1.N) : Memref sig .tc .vmem S1x6x512 .f32 := win1_1.stage (cfg1.slots t 1)
abbrev stgWhole1_1 (t : Fin cfg1.N) : (stg1_1 t).IsWhole := hstage1_1 ((cfg1.slots t 1).cast nbuf1_1)
abbrev stg1_2 (t : Fin cfg1.N) : Memref sig .tc .vmem S2x1x512x128 .f32 := win1_2.stage (cfg1.slots t 2)
abbrev stgWhole1_2 (t : Fin cfg1.N) : (stg1_2 t).IsWhole := hstage1_2 ((cfg1.slots t 2).cast nbuf1_2)
abbrev stg1_3 (t : Fin cfg1.N) : Memref sig .tc .vmem S6x256 .f32 := win1_3.stage (cfg1.slots t 3)
abbrev stgWhole1_3 (t : Fin cfg1.N) : (stg1_3 t).IsWhole := hstage1_3 ((cfg1.slots t 3).cast nbuf1_3)
abbrev stg1_4 (t : Fin cfg1.N) : Memref sig .tc .vmem S3x128x256 .f32 := win1_4.stage (cfg1.slots t 4)
abbrev stgWhole1_4 (t : Fin cfg1.N) : (stg1_4 t).IsWhole := hstage1_4 ((cfg1.slots t 4).cast nbuf1_4)
abbrev stg1_5 (t : Fin cfg1.N) : Memref sig .tc .vmem S1x256 .f32 := win1_5.stage (cfg1.slots t 5)
abbrev stgWhole1_5 (t : Fin cfg1.N) : (stg1_5 t).IsWhole := hstage1_5 ((cfg1.slots t 5).cast nbuf1_5)
abbrev stg1_6 (t : Fin cfg1.N) : Memref sig .tc .vmem S6x128 .f32 := win1_6.stage (cfg1.slots t 6)
abbrev stgWhole1_6 (t : Fin cfg1.N) : (stg1_6 t).IsWhole := hstage1_6 ((cfg1.slots t 6).cast nbuf1_6)
abbrev stg1_7 (t : Fin cfg1.N) : Memref sig .tc .vmem S3x128x128 .f32 := win1_7.stage (cfg1.slots t 7)
abbrev stgWhole1_7 (t : Fin cfg1.N) : (stg1_7 t).IsWhole := hstage1_7 ((cfg1.slots t 7).cast nbuf1_7)
abbrev stg1_8 (t : Fin cfg1.N) : Memref sig .tc .vmem S1x128 .f32 := win1_8.stage (cfg1.slots t 8)
abbrev stgWhole1_8 (t : Fin cfg1.N) : (stg1_8 t).IsWhole := hstage1_8 ((cfg1.slots t 8).cast nbuf1_8)
abbrev stg1_9 (t : Fin cfg1.N) : Memref sig .tc .vmem S3x128x256 .f32 := win1_9.stage (cfg1.slots t 9)
abbrev stgWhole1_9 (t : Fin cfg1.N) : (stg1_9 t).IsWhole := hstage1_9 ((cfg1.slots t 9).cast nbuf1_9)
abbrev stg1_10 (t : Fin cfg1.N) : Memref sig .tc .vmem S3x128x256 .f32 := win1_10.stage (cfg1.slots t 10)
abbrev stgWhole1_10 (t : Fin cfg1.N) : (stg1_10 t).IsWhole := hstage1_10 ((cfg1.slots t 10).cast nbuf1_10)
abbrev stg1_11 (t : Fin cfg1.N) : Memref sig .tc .vmem S1x256 .f32 := win1_11.stage (cfg1.slots t 11)
abbrev stgWhole1_11 (t : Fin cfg1.N) : (stg1_11 t).IsWhole := hstage1_11 ((cfg1.slots t 11).cast nbuf1_11)
abbrev stg1_12 (t : Fin cfg1.N) : Memref sig .tc .vmem S3x128x128 .f32 := win1_12.stage (cfg1.slots t 12)
abbrev stgWhole1_12 (t : Fin cfg1.N) : (stg1_12 t).IsWhole := hstage1_12 ((cfg1.slots t 12).cast nbuf1_12)
abbrev stg1_13 (t : Fin cfg1.N) : Memref sig .tc .vmem S3x128x128 .f32 := win1_13.stage (cfg1.slots t 13)
abbrev stgWhole1_13 (t : Fin cfg1.N) : (stg1_13 t).IsWhole := hstage1_13 ((cfg1.slots t 13).cast nbuf1_13)
abbrev stg1_14 (t : Fin cfg1.N) : Memref sig .tc .vmem S1x128 .f32 := win1_14.stage (cfg1.slots t 14)
abbrev stgWhole1_14 (t : Fin cfg1.N) : (stg1_14 t).IsWhole := hstage1_14 ((cfg1.slots t 14).cast nbuf1_14)
abbrev stg1_15 (t : Fin cfg1.N) : Memref sig .tc .vmem S128x2 .f32 := win1_15.stage (cfg1.slots t 15)
abbrev stgWhole1_15 (t : Fin cfg1.N) : (stg1_15 t).IsWhole := hstage1_15 ((cfg1.slots t 15).cast nbuf1_15)
abbrev stg1_16 (t : Fin cfg1.N) : Memref sig .tc .vmem S1x1 .f32 := win1_16.stage (cfg1.slots t 16)
abbrev stgWhole1_16 (t : Fin cfg1.N) : (stg1_16 t).IsWhole := hstage1_16 ((cfg1.slots t 16).cast nbuf1_16)
abbrev stg1_17 (t : Fin cfg1.N) : Memref sig .tc .vmem S1x2x512 .f32 := win1_17.stage (cfg1.slots t 17)
abbrev stgWhole1_17 (t : Fin cfg1.N) : (stg1_17 t).IsWhole := hstage1_17 ((cfg1.slots t 17).cast nbuf1_17)
abbrev stg1_18 (t : Fin cfg1.N) : Memref sig .tc .vmem S2x1x512x128 .f32 := win1_18.stage (cfg1.slots t 18)
abbrev stgWhole1_18 (t : Fin cfg1.N) : (stg1_18 t).IsWhole := hstage1_18 ((cfg1.slots t 18).cast nbuf1_18)

abbrev outView1_17 : View sig .tc .vmem S1x2x512 .f32 := (Memref.whole cc1_stg17_0 : Memref sig .tc .vmem S1x2x512 .f32).view
abbrev outView1_18 : View sig .tc .vmem S2x1x512x128 .f32 := (Memref.whole cc1_stg18_0 : Memref sig .tc .vmem S2x1x512x128 .f32).view

section
variable (c : Dev nD) (i : grid1.Coords) (arg1 : Memref sig .tc .vmem S512x512 .f32) (harg1 : arg1.IsWhole) (arg2 : Memref sig .tc .vmem S1x6x512 .f32) (harg2 : arg2.IsWhole) (arg3 : Memref sig .tc .vmem S2x1x512x128 .f32) (harg3 : arg3.IsWhole) (arg4 : Memref sig .tc .vmem S6x256 .f32) (harg4 : arg4.IsWhole) (arg5 : Memref sig .tc .vmem S3x128x256 .f32) (harg5 : arg5.IsWhole) (arg6 : Memref sig .tc .vmem S1x256 .f32) (harg6 : arg6.IsWhole) (arg7 : Memref sig .tc .vmem S6x128 .f32) (harg7 : arg7.IsWhole) (arg8 : Memref sig .tc .vmem S3x128x128 .f32) (harg8 : arg8.IsWhole) (arg9 : Memref sig .tc .vmem S1x128 .f32) (harg9 : arg9.IsWhole) (arg10 : Memref sig .tc .vmem S3x128x256 .f32) (harg10 : arg10.IsWhole) (arg11 : Memref sig .tc .vmem S3x128x256 .f32) (harg11 : arg11.IsWhole) (arg12 : Memref sig .tc .vmem S1x256 .f32) (harg12 : arg12.IsWhole) (arg13 : Memref sig .tc .vmem S3x128x128 .f32) (harg13 : arg13.IsWhole) (arg14 : Memref sig .tc .vmem S3x128x128 .f32) (harg14 : arg14.IsWhole) (arg15 : Memref sig .tc .vmem S1x128 .f32) (harg15 : arg15.IsWhole) (arg16 : Memref sig .tc .vmem S128x2 .f32) (harg16 : arg16.IsWhole) (arg17 : Memref sig .tc .vmem S1x1 .f32) (harg17 : arg17.IsWhole) (arg18 : Memref sig .tc .vmem S1x2x512 .f32) (harg18 : arg18.IsWhole) (arg19 : Memref sig .tc .vmem S2x1x512x128 .f32) (harg19 : arg19.IsWhole)
    (x0 : Vec F S512x512 .f32) (x1 : Vec F S1x6x512 .f32) (x2 : Vec F S2x1x512x128 .f32) (x3 : Vec F S6x256 .f32) (x4 : Vec F S3x128x256 .f32) (x5 : Vec F S1x256 .f32) (x6 : Vec F S6x128 .f32) (x7 : Vec F S3x128x128 .f32) (x8 : Vec F S1x128 .f32) (x9 : Vec F S3x128x256 .f32) (x10 : Vec F S3x128x256 .f32) (x11 : Vec F S1x256 .f32) (x12 : Vec F S3x128x128 .f32) (x13 : Vec F S3x128x128 .f32) (x14 : Vec F S1x128 .f32) (x15 : Vec F S128x2 .f32) (x16 : Vec F S1x1 .f32)

set_option maxHeartbeats 4000000 in
noncomputable def kernelRun1 :
    Σ' (L17 : List (View.Piece (Elt F) S1x2x512 .f32)), { L18 : List (View.Piece (Elt F) S2x1x512x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ (∃ d, owns (c : Thread nD τ) arg18 fullShare d) ∗ (∃ d, owns (c : Thread nD τ) arg19 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ (∃ f, arg18.view.loc (c : Thread nD τ) ↦[arg18.view.set]{fullShare} arg18.view.writes (Elt F) f L17) ∗ (∃ f, arg19.view.loc (c : Thread nD τ) ↦[arg19.view.set]{fullShare} arg19.view.writes (Elt F) f L18)) -∗ K ⟨⟩))
          ⊢ wp frame (wpE (defs₀ (F := F)) Variants.none c none) E (cc1__main_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K } := by
  refine ⟨?_, ?_, fun E K => ?run⟩
  case run =>
    simp only [cc1__main_kernel_eq_skeleton]; unfold cc1__main_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%d17, %f17, -, H17⟩, ⟨%d18, %f18, -, H18⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg15.eq_unread hf14; obtain rfl := harg16.eq_unread hf15; obtain rfl := harg17.eq_unread hf16
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]
    · iexists _; isplitr; · ipureintro; exact harg14.read_unread _
      iexact H13
    isplitl [H14]
    · iexists _; isplitr; · ipureintro; exact harg15.read_unread _
      iexact H14
    isplitl [H15]
    · iexists _; isplitr; · ipureintro; exact harg16.read_unread _
      iexact H15
    isplitl [H16]
    · iexists _; isplitr; · ipureintro; exact harg17.read_unread _
      iexact H16
    isplitl [H17]; · iexists _; iexact H17
    iexists _; iexact H18

theorem cover1_17 (y : S1x2x512.Idx) :
    ∃ pc ∈ (kernelRun1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8 x9 x10 x11 x12 x13 x14 x15 x16).1, y ∈ pc.1.set :=
  View.cover_of_tiledL _ S1x2x512.size (by sl_kernel_rfl) y

def out1_17 : Vec F S1x2x512 .f32 :=
  outView1_17.read (Elt F) (outView1_17.writes (Elt F) outView1_17.junk (kernelRun1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8 x9 x10 x11 x12 x13 x14 x15 x16).1)

theorem cover1_18 (y : S2x1x512x128.Idx) :
    ∃ pc ∈ (kernelRun1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8 x9 x10 x11 x12 x13 x14 x15 x16).2.1, y ∈ pc.1.set :=
  View.cover_of_tiledL (kernelRun1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8 x9 x10 x11 x12 x13 x14 x15 x16).2.1 S1x1x512x128.size (by sl_kernel_rfl) y

def out1_18 : Vec F S2x1x512x128 .f32 :=
  outView1_18.read (Elt F) (outView1_18.writes (Elt F) outView1_18.junk (kernelRun1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8 x9 x10 x11 x12 x13 x14 x15 x16).2.1)

end

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => iblk1 V c 8 t
    | ⟨9, _⟩ => iblk1 V c 9 t
    | ⟨10, _⟩ => iblk1 V c 10 t
    | ⟨11, _⟩ => iblk1 V c 11 t
    | ⟨12, _⟩ => iblk1 V c 12 t
    | ⟨13, _⟩ => iblk1 V c 13 t
    | ⟨14, _⟩ => iblk1 V c 14 t
    | ⟨15, _⟩ => iblk1 V c 15 t
    | ⟨16, _⟩ => iblk1 V c 16 t
    | ⟨17, _⟩ => out1_17 c (grid1.coords t) (stg1_0 t) (stgWhole1_0 t) (stg1_1 t) (stgWhole1_1 t) (stg1_2 t) (stgWhole1_2 t) (stg1_3 t) (stgWhole1_3 t) (stg1_4 t) (stgWhole1_4 t) (stg1_5 t) (stgWhole1_5 t) (stg1_6 t) (stgWhole1_6 t) (stg1_7 t) (stgWhole1_7 t) (stg1_8 t) (stgWhole1_8 t) (stg1_9 t) (stgWhole1_9 t) (stg1_10 t) (stgWhole1_10 t) (stg1_11 t) (stgWhole1_11 t) (stg1_12 t) (stgWhole1_12 t) (stg1_13 t) (stgWhole1_13 t) (stg1_14 t) (stgWhole1_14 t) (stg1_15 t) (stgWhole1_15 t) (stg1_16 t) (stgWhole1_16 t) (stg1_17 t) (stgWhole1_17 t) (stg1_18 t) (stgWhole1_18 t) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) (iblk1 V c 13 t) (iblk1 V c 14 t) (iblk1 V c 15 t) (iblk1 V c 16 t)
    | ⟨18, _⟩ => out1_18 c (grid1.coords t) (stg1_0 t) (stgWhole1_0 t) (stg1_1 t) (stgWhole1_1 t) (stg1_2 t) (stgWhole1_2 t) (stg1_3 t) (stgWhole1_3 t) (stg1_4 t) (stgWhole1_4 t) (stg1_5 t) (stgWhole1_5 t) (stg1_6 t) (stgWhole1_6 t) (stg1_7 t) (stgWhole1_7 t) (stg1_8 t) (stgWhole1_8 t) (stg1_9 t) (stgWhole1_9 t) (stg1_10 t) (stgWhole1_10 t) (stg1_11 t) (stgWhole1_11 t) (stg1_12 t) (stgWhole1_12 t) (stg1_13 t) (stgWhole1_13 t) (stg1_14 t) (stgWhole1_14 t) (stg1_15 t) (stgWhole1_15 t) (stg1_16 t) (stgWhole1_16 t) (stg1_17 t) (stgWhole1_17 t) (stg1_18 t) (stgWhole1_18 t) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) (iblk1 V c 13 t) (iblk1 V c 14 t) (iblk1 V c 15 t) (iblk1 V c 16 t)
    | ⟨_ + 19, h⟩ => absurd h (Nat.not_lt.2 (Nat.le_add_left _ _))
  Φ _ := Pipeline.ΦA spec1 c
  q _ := fullShare
  owed _ := 0

theorem after1_17 (c : Dev nD) (t : Fin cfg1.N) : (dat1 V c).after 17 t = out1_17 c (grid1.coords t) (stg1_0 t) (stgWhole1_0 t) (stg1_1 t) (stgWhole1_1 t) (stg1_2 t) (stgWhole1_2 t) (stg1_3 t) (stgWhole1_3 t) (stg1_4 t) (stgWhole1_4 t) (stg1_5 t) (stgWhole1_5 t) (stg1_6 t) (stgWhole1_6 t) (stg1_7 t) (stgWhole1_7 t) (stg1_8 t) (stgWhole1_8 t) (stg1_9 t) (stgWhole1_9 t) (stg1_10 t) (stgWhole1_10 t) (stg1_11 t) (stgWhole1_11 t) (stg1_12 t) (stgWhole1_12 t) (stg1_13 t) (stgWhole1_13 t) (stg1_14 t) (stgWhole1_14 t) (stg1_15 t) (stgWhole1_15 t) (stg1_16 t) (stgWhole1_16 t) (stg1_17 t) (stgWhole1_17 t) (stg1_18 t) (stgWhole1_18 t) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) (iblk1 V c 13 t) (iblk1 V c 14 t) (iblk1 V c 15 t) (iblk1 V c 16 t) := by dsimp only [dat1]
theorem after1_18 (c : Dev nD) (t : Fin cfg1.N) : (dat1 V c).after 18 t = out1_18 c (grid1.coords t) (stg1_0 t) (stgWhole1_0 t) (stg1_1 t) (stgWhole1_1 t) (stg1_2 t) (stgWhole1_2 t) (stg1_3 t) (stgWhole1_3 t) (stg1_4 t) (stgWhole1_4 t) (stg1_5 t) (stgWhole1_5 t) (stg1_6 t) (stgWhole1_6 t) (stg1_7 t) (stgWhole1_7 t) (stg1_8 t) (stgWhole1_8 t) (stg1_9 t) (stgWhole1_9 t) (stg1_10 t) (stgWhole1_10 t) (stg1_11 t) (stgWhole1_11 t) (stg1_12 t) (stgWhole1_12 t) (stg1_13 t) (stgWhole1_13 t) (stg1_14 t) (stgWhole1_14 t) (stg1_15 t) (stgWhole1_15 t) (stg1_16 t) (stgWhole1_16 t) (stg1_17 t) (stgWhole1_17 t) (stg1_18 t) (stgWhole1_18 t) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) (iblk1 V c 13 t) (iblk1 V c 14 t) (iblk1 V c 15 t) (iblk1 V c 16 t) := by dsimp only [dat1]

theorem before1_0 (c : Dev nD) (t : Fin cfg1.N) (d) : (dat1 V c).before 0 t d = iblk1 V c 0 t :=
  ((dat1 V c).before_in_eq_fetched 0 rfl (fun _ => rfl) (fun _ _ _ => rfl) (fun _ => rfl) t d).trans rfl
theorem before1_1 (c : Dev nD) (t : Fin cfg1.N) (d) : (dat1 V c).before 1 t d = iblk1 V c 1 t :=
  ((dat1 V c).before_in_eq_fetched 1 rfl (fun _ => rfl) (fun _ _ _ => rfl) (fun _ => rfl) t d).trans rfl
theorem before1_2 (c : Dev nD) (t : Fin cfg1.N) (d) : (dat1 V c).before 2 t d = iblk1 V c 2 t :=
  ((dat1 V c).before_in_eq_fetched 2 rfl (fun _ => rfl) (fun _ _ _ => rfl) (fun _ => rfl) t d).trans rfl
theorem before1_3 (c : Dev nD) (t : Fin cfg1.N) (d) : (dat1 V c).before 3 t d = iblk1 V c 3 t :=
  ((dat1 V c).before_in_eq_fetched 3 rfl (fun _ => rfl) (fun _ _ _ => rfl) (fun _ => rfl) t d).trans rfl
theorem before1_4 (c : Dev nD) (t : Fin cfg1.N) (d) : (dat1 V c).before 4 t d = iblk1 V c 4 t :=
  ((dat1 V c).before_in_eq_fetched 4 rfl (fun _ => rfl) (fun _ _ _ => rfl) (fun _ => rfl) t d).trans rfl
theorem before1_5 (c : Dev nD) (t : Fin cfg1.N) (d) : (dat1 V c).before 5 t d = iblk1 V c 5 t :=
  ((dat1 V c).before_in_eq_fetched 5 rfl (fun _ => rfl) (fun _ _ _ => rfl) (fun _ => rfl) t d).trans rfl
theorem before1_6 (c : Dev nD) (t : Fin cfg1.N) (d) : (dat1 V c).before 6 t d = iblk1 V c 6 t :=
  ((dat1 V c).before_in_eq_fetched 6 rfl (fun _ => rfl) (fun _ _ _ => rfl) (fun _ => rfl) t d).trans rfl
theorem before1_7 (c : Dev nD) (t : Fin cfg1.N) (d) : (dat1 V c).before 7 t d = iblk1 V c 7 t :=
  ((dat1 V c).before_in_eq_fetched 7 rfl (fun _ => rfl) (fun _ _ _ => rfl) (fun _ => rfl) t d).trans rfl
theorem before1_8 (c : Dev nD) (t : Fin cfg1.N) (d) : (dat1 V c).before 8 t d = iblk1 V c 8 t :=
  ((dat1 V c).before_in_eq_fetched 8 rfl (fun _ => rfl) (fun _ _ _ => rfl) (fun _ => rfl) t d).trans rfl
theorem before1_9 (c : Dev nD) (t : Fin cfg1.N) (d) : (dat1 V c).before 9 t d = iblk1 V c 9 t :=
  ((dat1 V c).before_in_eq_fetched 9 rfl (fun _ => rfl) (fun _ _ _ => rfl) (fun _ => rfl) t d).trans rfl
theorem before1_10 (c : Dev nD) (t : Fin cfg1.N) (d) : (dat1 V c).before 10 t d = iblk1 V c 10 t :=
  ((dat1 V c).before_in_eq_fetched 10 rfl (fun _ => rfl) (fun _ _ _ => rfl) (fun _ => rfl) t d).trans rfl
theorem before1_11 (c : Dev nD) (t : Fin cfg1.N) (d) : (dat1 V c).before 11 t d = iblk1 V c 11 t :=
  ((dat1 V c).before_in_eq_fetched 11 rfl (fun _ => rfl) (fun _ _ _ => rfl) (fun _ => rfl) t d).trans rfl
theorem before1_12 (c : Dev nD) (t : Fin cfg1.N) (d) : (dat1 V c).before 12 t d = iblk1 V c 12 t :=
  ((dat1 V c).before_in_eq_fetched 12 rfl (fun _ => rfl) (fun _ _ _ => rfl) (fun _ => rfl) t d).trans rfl
theorem before1_13 (c : Dev nD) (t : Fin cfg1.N) (d) : (dat1 V c).before 13 t d = iblk1 V c 13 t :=
  ((dat1 V c).before_in_eq_fetched 13 rfl (fun _ => rfl) (fun _ _ _ => rfl) (fun _ => rfl) t d).trans rfl
theorem before1_14 (c : Dev nD) (t : Fin cfg1.N) (d) : (dat1 V c).before 14 t d = iblk1 V c 14 t :=
  ((dat1 V c).before_in_eq_fetched 14 rfl (fun _ => rfl) (fun _ _ _ => rfl) (fun _ => rfl) t d).trans rfl
theorem before1_15 (c : Dev nD) (t : Fin cfg1.N) (d) : (dat1 V c).before 15 t d = iblk1 V c 15 t :=
  ((dat1 V c).before_in_eq_fetched 15 rfl (fun _ => rfl) (fun _ _ _ => rfl) (fun _ => rfl) t d).trans rfl
theorem before1_16 (c : Dev nD) (t : Fin cfg1.N) (d) : (dat1 V c).before 16 t d = iblk1 V c 16 t :=
  ((dat1 V c).before_in_eq_fetched 16 rfl (fun _ => rfl) (fun _ _ _ => rfl) (fun _ => rfl) t d).trans rfl

def bodyPre1 (c : Dev nD) (t : Fin cfg1.N) : sProp 𝕄 :=
  let o (w : Fin cfg1.W) : sProp 𝕄 := iprop(∃ d, owns (c : Thread nD τ) ((cfg1.win w).stage (cfg1.slots t w)) fullShare ((dat1 V c).before w t d))
  iprop((dat1 V c).Φ t.castSucc ∗ (dat1 V c).owesAt () t.castSucc
    ∗ o 0 ∗ o 1 ∗ o 2 ∗ o 3 ∗ o 4 ∗ o 5 ∗ o 6 ∗ o 7 ∗ o 8 ∗ o 9 ∗ o 10 ∗ o 11 ∗ o 12 ∗ o 13 ∗ o 14 ∗ o 15 ∗ o 16 ∗ o 17 ∗ o 18)

def bodyPost1 (c : Dev nD) (t : Fin cfg1.N) : sProp 𝕄 :=
  let o (w : Fin cfg1.W) X : sProp 𝕄 := owns (c : Thread nD τ) ((cfg1.win w).stage (cfg1.slots t w)) fullShare X
  iprop((dat1 V c).Φ t.castSucc ∗ (dat1 V c).owesAt () t.castSucc
    ∗ o 0 (iblk1 V c 0 t) ∗ o 1 (iblk1 V c 1 t) ∗ o 2 (iblk1 V c 2 t) ∗ o 3 (iblk1 V c 3 t) ∗ o 4 (iblk1 V c 4 t) ∗ o 5 (iblk1 V c 5 t) ∗ o 6 (iblk1 V c 6 t) ∗ o 7 (iblk1 V c 7 t) ∗ o 8 (iblk1 V c 8 t) ∗ o 9 (iblk1 V c 9 t) ∗ o 10 (iblk1 V c 10 t) ∗ o 11 (iblk1 V c 11 t) ∗ o 12 (iblk1 V c 12 t) ∗ o 13 (iblk1 V c 13 t) ∗ o 14 (iblk1 V c 14 t) ∗ o 15 (iblk1 V c 15 t) ∗ o 16 (iblk1 V c 16 t)
    ∗ o 17 ((dat1 V c).after 17 t) ∗ o 18 ((dat1 V c).after 18 t))

set_option maxHeartbeats 2000000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7, before1_8, before1_9, before1_10, before1_11, before1_12, before1_13, before1_14, before1_15, before1_16]
  rw [after1_17, after1_18]
  unfold out1_17 out1_18
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩⟩
  iapply ((kernelRun1 c (grid1.coords t) _ _ _ _ _ _ _ _ _ _ _ _ _ _ _ _ _ _ _ _ _ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) (iblk1 V c 13 t) (iblk1 V c 14 t) (iblk1 V c 15 t) (iblk1 V c 16 t)).2.2 Set.univ _)
  iframe H0 H1 H2 H3 H4 H5 H6 H7 H8 H9 H10 H11 H12 H13 H14 H15 H16
  isplitl [H17]; · iexists _; iexact H17
  isplitl [H18]; · iexists _; iexact H18
  iintro ⟨H0, H1, H2, H3, H4, H5, H6, H7, H8, H9, H10, H11, H12, H13, H14, H15, H16, ⟨%e17, H17⟩, ⟨%e18, H18⟩⟩
  iframe HΦ Ho H0 H1 H2 H3 H4 H5 H6 H7 H8 H9 H10 H11 H12 H13 H14 H15 H16
  isplitl [H17]
  · unfold owns; iexists _; isplitr
    swap; · iexact H17
    ipureintro; exact View.read_writes_of_cover _ _ _ _ _ (cover1_17 c _ _ _ _ _ _ _ _ _ _ _ _ _ _ _ _ _ _ _ _ _ _ _ _ _ _ _ _ _ _ _ _ _ _ _ _ _ _ _ _ _ _ _ _ _ _ _ _ _ _ _ _ _ _ _ _)
  unfold owns; iexists _; isplitr
  swap; · iexact H18
  ipureintro; exact View.read_writes_of_cover _ _ _ _ _ (cover1_18 c _ _ _ _ _ _ _ _ _ _ _ _ _ _ _ _ _ _ _ _ _ _ _ _ _ _ _ _ _ _ _ _ _ _ _ _ _ _ _ _ _ _ _ _ _ _ _ _ _ _ _ _ _ _ _ _)

theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KI.Run.lean ====
import proofs.«107218_g19069654794669_cont_sun_m_30_13_alg».proof.Proof.KI.R0
import proofs.«107218_g19069654794669_cont_sun_m_30_13_alg».proof.Proof.KI.R1
import proofs.«107218_g19069654794669_cont_sun_m_30_13_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev W0 : Dev nD → Valuation τ sig (Elt F) := fun c b => (s₀ m ρ).mem ((c : Dev nD), b)

abbrev W1 : Dev nD → Valuation τ sig (Elt F) := fun c => StableHlo.after hostOps0 (W0 m ρ c)

abbrev V1 : (c : Dev nD) → (b : Ref sig .tc) → Buf (Elt F) ((c : Thread nD τ).loc b) := fun c b => W1 m ρ c b

def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb

abbrev V2 : (c : Dev nD) → (b : Ref sig .tc) → Buf (Elt F) ((c : Thread nD τ).loc b) := fun c b => W2 m ρ c b

theorem hF0 (c : Dev nD) (w : Fin cfg0.W) : (dat0 (V1 m ρ) c).arrAt w cfg0.N = V2 m ρ c (Pipeline.arrRef spec0 w) :=
  (W2_arr m ρ c w).symm

theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

abbrev W3 : Dev nD → Valuation τ sig (Elt F) := fun c => StableHlo.after hostOps1 (W2 m ρ c)

abbrev V3 : (c : Dev nD) → (b : Ref sig .tc) → Buf (Elt F) ((c : Thread nD τ).loc b) := fun c b => W3 m ρ c b

def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb

abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

abbrev W5 : Dev nD → Valuation τ sig (Elt F) := fun c => StableHlo.after hostOps2 (W4 m ρ c)

theorem W1_keep (c : Dev nD) (r : Ref sig .tc) (h : r ∉ hostOps0_W) :
    W1 m ρ c (Proc.devRef .tc r) = W0 m ρ c (Proc.devRef .tc r) :=
  StableHlo.after_of_writes_sub hostOps0 _ hostOps0_writes h
theorem W3_keep (c : Dev nD) (r : Ref sig .tc) (h : r ∉ hostOps1_W) :
    W3 m ρ c (Proc.devRef .tc r) = W2 m ρ c (Proc.devRef .tc r) :=
  StableHlo.after_of_writes_sub hostOps1 _ hostOps1_writes h
theorem W5_keep (c : Dev nD) (r : Ref sig .tc) (h : r ∉ hostOps2_W) :
    W5 m ρ c (Proc.devRef .tc r) = W4 m ρ c (Proc.devRef .tc r) :=
  StableHlo.after_of_writes_sub hostOps2 _ hostOps2_writes h

theorem W5_untouched (c : Dev nD) (r : Ref sig .tc) (h0 : r ∉ hostOps0_W) (h1 : r ∉ hostOps1_W) (h2 : r ∉ hostOps2_W)
    (hr0 : ∀ w, Pipeline.arrRef spec0 w ≠ r) (hr1 : ∀ w, Pipeline.arrRef spec1 w ≠ r) :
    W5 m ρ c (Proc.devRef .tc r) = m ((c : Thread nD τ).loc r) :=
  (W5_keep m ρ c r h2).trans <| (W4_of_ne m ρ c r hr1).trans <| (W3_keep m ρ c r h1).trans <|
    (W2_of_ne m ρ c r hr0).trans <| (W1_keep m ρ c r h0).trans rfl

theorem W5_input0 (c : Dev nD) (w : Fin cfg0.W) (hin : (cfg0.win w).isOut = false)
    (h0 : Pipeline.arrRef spec0 w ∉ hostOps0_W) (h1 : Pipeline.arrRef spec0 w ∉ hostOps1_W) (h2 : Pipeline.arrRef spec0 w ∉ hostOps2_W)
    (hr1 : ∀ w', Pipeline.arrRef spec1 w' ≠ Pipeline.arrRef spec0 w) :
    W5 m ρ c (Proc.devRef .tc (Pipeline.arrRef spec0 w)) = m ((c : Thread nD τ).loc (Pipeline.arrRef spec0 w)) :=
  (W5_keep m ρ c _ h2).trans <| (W4_of_ne m ρ c _ hr1).trans <| (W3_keep m ρ c _ h1).trans <|
    ((W2_arr m ρ c w).trans (((dat0 (V1 m ρ) c).arrAt_in w hin _).trans (A_eq0 (V1 m ρ) c w))).trans <|
    (W1_keep m ρ c _ h0).trans rfl

theorem W5_main_arg0 (c : Dev nD) : W5 m ρ c (Proc.devRef .tc main_arg0) = m ((c : Thread nD τ).loc main_arg0) :=
  W5_untouched m ρ c main_arg0 (by decide) (by decide) (by decide) (by decide) (by decide)
theorem W5_main_arg1 (c : Dev nD) : W5 m ρ c (Proc.devRef .tc main_arg1) = m ((c : Thread nD τ).loc main_arg1) :=
  W5_untouched m ρ c main_arg1 (by decide) (by decide) (by decide) (by decide) (by decide)

theorem W5_main_arg2 (c : Dev nD) : W5 m ρ c (Proc.devRef .tc main_arg2) = m ((c : Thread nD τ).loc main_arg2) :=
  W5_input0 m ρ c 0 rfl (by decide) (by decide) (by decide) (by decide)
theorem W5_main_arg3 (c : Dev nD) : W5 m ρ c (Proc.devRef .tc main_arg3) = m ((c : Thread nD τ).loc main_arg3) :=
  W5_untouched m ρ c main_arg3 (by decide) (by decide) (by decide) (by decide) (by decide)
theorem W5_main_arg4 (c : Dev nD) : W5 m ρ c (Proc.devRef .tc main_arg4) = m ((c : Thread nD τ).loc main_arg4) :=
  W5_untouched m ρ c main_arg4 (by decide) (by decide) (by decide) (by decide) (by decide)
theorem W5_main_arg5 (c : Dev nD) : W5 m ρ c (Proc.devRef .tc main_arg5) = m ((c : Thread nD τ).loc main_arg5) :=
  W5_untouched m ρ c main_arg5 (by decide) (by decide) (by decide) (by decide) (by decide)
theorem W5_main_arg6 (c : Dev nD) : W5 m ρ c (Proc.devRef .tc main_arg6) = m ((c : Thread nD τ).loc main_arg6) :=
  W5_untouched m ρ c main_arg6 (by decide) (by decide) (by decide) (by decide) (by decide)
theorem W5_main_arg7 (c : Dev nD) : W5 m ρ c (Proc.devRef .tc main_arg7) = m ((c : Thread nD τ).loc main_arg7) :=
  W5_untouched m ρ c main_arg7 (by decide) (by decide) (by decide) (by decide) (by decide)
theorem W5_main_arg8 (c : Dev nD) : W5 m ρ c (Proc.devRef .tc main_arg8) = m ((c : Thread nD τ).loc main_arg8) :=
  W5_untouched m ρ c main_arg8 (by decide) (by decide) (by decide) (by decide) (by decide)
theorem W5_main_arg9 (c : Dev nD) : W5 m ρ c (Proc.devRef .tc main_arg9) = m ((c : Thread nD τ).loc main_arg9) :=
  W5_untouched m ρ c main_arg9 (by decide) (by decide) (by decide) (by decide) (by decide)
theorem W5_main_arg10 (c : Dev nD) : W5 m ρ c (Proc.devRef .tc main_arg10) = m ((c : Thread nD τ).loc main_arg10) :=
  W5_untouched m ρ c main_arg10 (by decide) (by decide) (by decide) (by decide) (by decide)

theorem W5_main_arg11 (c : Dev nD) : W5 m ρ c (Proc.devRef .tc main_arg11) = m ((c : Thread nD τ).loc main_arg11) :=
  W5_input0 m ρ c 10 rfl (by decide) (by decide) (by decide) (by decide)
theorem W5_main_arg12 (c : Dev nD) : W5 m ρ c (Proc.devRef .tc main_arg12) = m ((c : Thread nD τ).loc main_arg12) :=
  W5_untouched m ρ c main_arg12 (by decide) (by decide) (by decide) (by decide) (by decide)

abbrev adm : (p : Fin 2) → (pcfgs (F := F) p).Adm := fun p => (cfgs p).toPCfg_adm

def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none

abbrev L : GSem nD τ sig → Finset Unit := fun _ => ∅
abbrev lv : GSem nD τ sig → Unit → ℕ := fun _ _ => 0

abbrev R (c : Dev nD) : sProp 𝕄 := iprop((∃ r, prngReg c r) ∗ ∃ W, owes (c : Thread nD τ) (0 : CellTallies nD τ sig Unit) W)

abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

abbrev Tₙ (c : Dev nD) : sProp 𝕄 := iprop(StableHlo.held (c : Thread nD τ) (Pipeline.ucRefs τ sig) (W5 m ρ c) ∗ ∃ r, prngReg c r)

set_option backward.isDefEq.respectTransparency.types false in
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)) ]

theorem main_run (c : Dev nD) : main (F := F) c = Pipeline.Seg.run (segs m ρ) := by
  rewrite [main_chain c, Pipeline.Seg.run_eq_chain,
    show (segs m ρ).map Pipeline.Seg.prog = [
      StableHlo.seq hostOps0,
      Prog.lift (.customCall (Pipeline.entry 0) ()),
      StableHlo.seq hostOps1,
      Prog.lift (.customCall (Pipeline.entry 1) ()),
      StableHlo.seq hostOps2 ] from rfl]
  rfl

theorem hlast (c : Dev nD) :
    (iprop(StableHlo.held (c : Thread nD τ) (Pipeline.ucRefs τ sig) (W5 m ρ c)
        ∗ (∃ r, prngReg c r) ∗ ∃ W, owes (c : Thread nD τ) (0 : CellTallies nD τ sig Unit) W) : sProp 𝕄)
      ⊢ iprop((StableHlo.held (c : Thread nD τ) (Pipeline.ucRefs τ sig) (W5 m ρ c) ∗ ∃ r, prngReg c r)
        ∗ ∃ W, owes (c : Thread nD τ) (0 : CellTallies nD τ sig Unit) W) := by
  iintro ⟨Hh, Hp, HO⟩
  isplitl [Hh Hp]
  · isplitl [Hh]; · iexact Hh
    iexact Hp
  iexact HO

set_option backward.isDefEq.respectTransparency.types false in
theorem run_all : θ_run defs (onTc (τ := τ) (main (F := F))) ⟨m, fun _ => 0, ρ⟩ (fun r => ∀ c : Dev nD,
      ∀ b ∈ Pipeline.ucRefs τ sig, r.2.mem (((c : Thread nD τ)).1, b) = W5 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => hlast m ρ c⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun _ h => h)

theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun r h c =>
    ⟨(h c _ (mem_uc main_arg0 (by decide))).trans (W5_main_arg0 m ρ c),
     (h c _ (mem_uc main_arg1 (by decide))).trans (W5_main_arg1 m ρ c),
     (h c _ (mem_uc main_arg2 (by decide))).trans (W5_main_arg2 m ρ c),
     (h c _ (mem_uc main_arg3 (by decide))).trans (W5_main_arg3 m ρ c),
     (h c _ (mem_uc main_arg4 (by decide))).trans (W5_main_arg4 m ρ c),
     (h c _ (mem_uc main_arg5 (by decide))).trans (W5_main_arg5 m ρ c),
     (h c _ (mem_uc main_arg6 (by decide))).trans (W5_main_arg6 m ρ c),
     (h c _ (mem_uc main_arg7 (by decide))).trans (W5_main_arg7 m ρ c),
     (h c _ (mem_uc main_arg8 (by decide))).trans (W5_main_arg8 m ρ c),
     (h c _ (mem_uc main_arg9 (by decide))).trans (W5_main_arg9 m ρ c),
     (h c _ (mem_uc main_arg10 (by decide))).trans (W5_main_arg10 m ρ c),
     (h c _ (mem_uc main_arg11 (by decide))).trans (W5_main_arg11 m ρ c),
     (h c _ (mem_uc main_arg12 (by decide))).trans (W5_main_arg12 m ρ c)⟩)
    (run_all m ρ)

end Cert.KernelIdeal.Hand

end
-- ==== Proof.Spec.lean ====
import Idealize.ShloMosaic.PureOps.Ideal
import Idealize.ShloMosaic.Lib.ValueIdx

noncomputable section

open scoped BigOperators

namespace Cert.Spec

open Idealize.ShloMosaic

abbrev w0 : EReal := Ideal.ofBits .f32 0x00000000#32
abbrev w1 : EReal := Ideal.ofBits .f32 0x3F800000#32
abbrev w2 : EReal := Ideal.ofBits .f32 0x40000000#32

structure Args where
  inp : Fin 64 → Fin 512 → EReal
  hid : Fin 2 → Fin 64 → Fin 512 → Fin 64 → EReal
  adj : Fin 512 → Fin 512 → EReal
  wru0 : Fin 65 → Fin 3 → Fin 128 → EReal
  bru0 : Fin 128 → EReal
  wc0 : Fin 65 → Fin 3 → Fin 64 → EReal
  bc0 : Fin 64 → EReal
  wru1 : Fin 128 → Fin 3 → Fin 128 → EReal
  bru1 : Fin 128 → EReal
  wc1 : Fin 128 → Fin 3 → Fin 64 → EReal
  bc1 : Fin 64 → EReal
  wp : Fin 64 → EReal
  bp : EReal

variable (A : Args)

def sym (i j : Fin 512) : EReal := max (A.adj i j) (A.adj j i)

def deg (i : Fin 512) : EReal := ∑ j : Fin 512, sym A i j

def invSqrt (d : EReal) : EReal := Scalar.select (Ideal.cmp .ogt d w0) (Ideal.div w1 (Ideal.sqrt d)) w0

def sup (i j : Fin 512) : EReal := -((invSqrt (deg A i) * sym A i j) * invSqrt (deg A j))

def diffuse (S : Fin 512 → Fin 512 → EReal) (x : Fin 512 → EReal) (n : Fin 512) : EReal := ∑ i : Fin 512, S n i * x i

def cheb (S : Fin 512 → Fin 512 → EReal) (x : Fin 512 → EReal) : Fin 3 → Fin 512 → EReal
  | ⟨0, _⟩ => x
  | ⟨1, _⟩ => diffuse S x
  | ⟨2, _⟩ => fun n => w2 * diffuse S (diffuse S x) n - x n

def gconv {Fe O : ℕ} (S : Fin 512 → Fin 512 → EReal) (W : Fin Fe → Fin 3 → Fin O → EReal) (b : Fin O → EReal)
    (X : Fin Fe → Fin 512 → EReal) (n : Fin 512) (o : Fin O) : EReal :=
  (∑ f : Fin Fe, ∑ k : Fin 3, cheb S (X f) k n * W f k o) + b o

def feat0 (h : Fin 512 → Fin 64 → EReal) (b : Fin 64) : Fin 65 → Fin 512 → EReal :=
  Fin.cases (fun n => A.inp b n) (fun u n => h n u)

def feat1 (g h : Fin 512 → Fin 64 → EReal) : Fin 128 → Fin 512 → EReal :=
  fun f n => Fin.addCases (m := 64) (n := 64) (fun u => g n u) (fun u => h n u) f

def lo (u : Fin 64) : Fin 128 := Fin.castAdd 64 u
def hi (u : Fin 64) : Fin 128 := Fin.natAdd 64 u

section Cell
variable {Fe : ℕ} (S : Fin 512 → Fin 512 → EReal) (Wru : Fin Fe → Fin 3 → Fin 128 → EReal) (bru : Fin 128 → EReal)
    (Wc : Fin Fe → Fin 3 → Fin 64 → EReal) (bc : Fin 64 → EReal)
    (ft : (Fin 512 → Fin 64 → EReal) → Fin Fe → Fin 512 → EReal) (h : Fin 512 → Fin 64 → EReal)

def gate (n : Fin 512) (o : Fin 128) : EReal := gconv S Wru bru (ft h) n o

def rgate (n : Fin 512) (u : Fin 64) : EReal := Ideal.logistic (gate S Wru bru ft h n (lo u))

def zgate (n : Fin 512) (u : Fin 64) : EReal := Ideal.logistic (gate S Wru bru ft h n (hi u))

def cand (n : Fin 512) (u : Fin 64) : EReal :=
  Ideal.tanh (gconv S Wc bc (ft fun n u => rgate S Wru bru ft h n u * h n u) n u)

def cell (n : Fin 512) (u : Fin 64) : EReal :=
  zgate S Wru bru ft h n u * h n u + (w1 - zgate S Wru bru ft h n u) * cand S Wru bru Wc bc ft h n u
end Cell

def h0 (b : Fin 64) : Fin 512 → Fin 64 → EReal :=
  cell (sup A) A.wru0 A.bru0 A.wc0 A.bc0 (fun h => feat0 A h b) (A.hid 0 b)

def h1 (b : Fin 64) : Fin 512 → Fin 64 → EReal :=
  cell (sup A) A.wru1 A.bru1 A.wc1 A.bc1 (fun h => feat1 (h0 A b) h) (A.hid 1 b)

def out (b : Fin 64) (n : Fin 512) : EReal := (∑ u : Fin 64, h1 A b n u * A.wp u) + A.bp

def hidden : Fin 2 → Fin 64 → Fin 512 → Fin 64 → EReal
  | ⟨0, _⟩ => fun b => h0 A b
  | ⟨1, _⟩ => fun b => h1 A b

open Idealize.ShloMosaic.ValueIdx

def argsOf (x0 : (⟨2, ![64, 512]⟩ : Shape).Idx → EReal) (x1 : (⟨3, ![2, 64, 32768]⟩ : Shape).Idx → EReal)
    (x2 : (⟨2, ![512, 512]⟩ : Shape).Idx → EReal) (x3 : (⟨2, ![195, 128]⟩ : Shape).Idx → EReal) (x4 : (⟨1, ![128]⟩ : Shape).Idx → EReal)
    (x5 : (⟨2, ![195, 64]⟩ : Shape).Idx → EReal) (x6 : (⟨1, ![64]⟩ : Shape).Idx → EReal)
    (x7 : (⟨2, ![384, 128]⟩ : Shape).Idx → EReal) (x8 : (⟨1, ![128]⟩ : Shape).Idx → EReal)
    (x9 : (⟨2, ![384, 64]⟩ : Shape).Idx → EReal) (x10 : (⟨1, ![64]⟩ : Shape).Idx → EReal)
    (x11 : (⟨2, ![64, 1]⟩ : Shape).Idx → EReal) (x12 : (⟨1, ![1]⟩ : Shape).Idx → EReal) : Args where
  inp b n := x0 (ix2 b n)
  hid l b n u := x1 (ix3 l b ⟨n.val * 64 + u.val, by have := n.isLt; have := u.isLt; omega⟩)
  adj i j := x2 (ix2 i j)
  wru0 f k o := x3 (ix2 ⟨f.val * 3 + k.val, by have := f.isLt; have := k.isLt; omega⟩ o)
  bru0 o := x4 (ix1 o)
  wc0 f k o := x5 (ix2 ⟨f.val * 3 + k.val, by have := f.isLt; have := k.isLt; omega⟩ o)
  bc0 o := x6 (ix1 o)
  wru1 f k o := x7 (ix2 ⟨f.val * 3 + k.val, by have := f.isLt; have := k.isLt; omega⟩ o)
  bru1 o := x8 (ix1 o)
  wc1 f k o := x9 (ix2 ⟨f.val * 3 + k.val, by have := f.isLt; have := k.isLt; omega⟩ o)
  bc1 o := x10 (ix1 o)
  wp u := x11 (ix2 u 0)
  bp := x12 (ix1 0)

def outArr : (⟨2, ![64, 512]⟩ : Shape).Idx → EReal := fun i => out A (i 0) (i 1)

def hidArr : (⟨3, ![2, 64, 32768]⟩ : Shape).Idx → EReal := fun i =>
  hidden A (i 0) (i 1) ⟨(i 2).val / 64, by have h : (i 2).val < 32768 := (i 2).isLt; omega⟩ ⟨(i 2).val % 64, Nat.mod_lt _ (by decide)⟩

end Cert.Spec

end
-- ==== Proof.Blocks.lean ====
import proofs.«107218_g19069654794669_cont_sun_m_30_13_alg».proof.Proof.Spec

noncomputable section

namespace Cert.Blocks

open Idealize.ShloMosaic Idealize.ShloMosaic.ValueIdx Cert.Spec

variable (A : Args)

abbrev Arr2 (a b : ℕ) := (⟨2, ![a, b]⟩ : Shape).Idx → EReal
abbrev Arr3 (a b c : ℕ) := (⟨3, ![a, b, c]⟩ : Shape).Idx → EReal
abbrev Arr4 (a b c d : ℕ) := (⟨4, ![a, b, c, d]⟩ : Shape).Idx → EReal

def q {n : ℕ} (d m : ℕ) (i : Fin n) (h : n ≤ d * m := by decide) : Fin m := ⟨i.val / d, Nat.div_lt_of_lt_mul (lt_of_lt_of_le i.isLt h)⟩
def r {n : ℕ} (d : ℕ) (i : Fin n) (hd : 0 < d := by decide) : Fin d := ⟨i.val % d, Nat.mod_lt _ hd⟩

def bat (p : Fin 32) (e : Fin 2) : Fin 64 := ⟨2 * p.val + e.val, by have := p.isLt; have := e.isLt; omega⟩

def gcol (g : Fin 2) (o : Fin 64) : Fin 128 := ⟨g.val * 64 + o.val, by have := g.isLt; have := o.isLt; omega⟩

def inpT : Arr2 512 64 := fun i => A.inp (i 1) (i 0)
def adjArr : Arr2 512 512 := fun i => A.adj (i 0) (i 1)
def wru0T : Arr3 3 65 128 := fun i => A.wru0 (i 1) (i 0) (i 2)
def wc0T : Arr3 3 65 64 := fun i => A.wc0 (i 1) (i 0) (i 2)
def wru1T : Arr3 3 128 128 := fun i => A.wru1 (i 1) (i 0) (i 2)
def wc1T : Arr3 3 128 64 := fun i => A.wc1 (i 1) (i 0) (i 2)
def bru0R : Arr2 1 128 := fun i => A.bru0 (i 1)
def bc0R : Arr2 1 64 := fun i => A.bc0 (i 1)
def bru1R : Arr2 1 128 := fun i => A.bru1 (i 1)
def bc1R : Arr2 1 64 := fun i => A.bc1 (i 1)
def wpArr : Arr2 64 1 := fun i => A.wp (i 0)

def supArr : Arr2 512 512 := fun i => sup A (i 0) (i 1)

def a1Arr : Arr2 512 64 := fun i => cheb (sup A) (A.inp (i 1)) 1 (i 0)
def a2Arr : Arr2 512 64 := fun i => cheb (sup A) (A.inp (i 1)) 2 (i 0)

def waRu (W : Fin 3 → Fin 128 → EReal) : Arr2 6 256 := fun i =>
  if (q 3 2 (i 0) : Fin 2) = q 64 2 (r 128 (i 1)) then W (r 3 (i 0)) (gcol (q 128 2 (i 1)) (r 64 (i 1))) else w0

def waC (W : Fin 3 → Fin 64 → EReal) : Arr2 6 128 := fun i =>
  if (q 3 2 (i 0) : Fin 2) = q 64 2 (i 1) then W (r 3 (i 0)) (r 64 (i 1)) else w0

def whRu (W : Fin 64 → Fin 3 → Fin 128 → EReal) : Arr3 3 128 256 := fun i =>
  if (q 64 2 (i 1) : Fin 2) = q 64 2 (r 128 (i 2)) then W (r 64 (i 1)) (i 0) (gcol (q 128 2 (i 2)) (r 64 (i 2))) else w0

def whC (W : Fin 64 → Fin 3 → Fin 64 → EReal) : Arr3 3 128 128 := fun i =>
  if (q 64 2 (i 1) : Fin 2) = q 64 2 (i 2) then W (r 64 (i 1)) (i 0) (r 64 (i 2)) else w0

def bRu (b : Fin 128 → EReal) : Arr2 1 256 := fun i => b (gcol (q 128 2 (i 1)) (r 64 (i 1)))
def bC (b : Fin 64 → EReal) : Arr2 1 128 := fun i => b (r 64 (i 1))

def wppArr : Arr2 128 2 := fun i => if (i 0).val / 64 = (i 1).val then A.wp (r 64 (i 0)) else w0

def waRu0 : Arr2 6 256 := waRu fun k o => A.wru0 0 k o
def whRu0 : Arr3 3 128 256 := whRu fun f k o => A.wru0 f.succ k o
def bRu0 : Arr2 1 256 := bRu A.bru0
def waC0 : Arr2 6 128 := waC fun k o => A.wc0 0 k o
def whC0 : Arr3 3 128 128 := whC fun f k o => A.wc0 f.succ k o
def bC0 : Arr2 1 128 := bC A.bc0
def wgRu1 : Arr3 3 128 256 := whRu fun f k o => A.wru1 (lo f) k o
def wkRu1 : Arr3 3 128 256 := whRu fun f k o => A.wru1 (hi f) k o
def bRu1 : Arr2 1 256 := bRu A.bru1
def wgC1 : Arr3 3 128 128 := whC fun f k o => A.wc1 (lo f) k o
def wkC1 : Arr3 3 128 128 := whC fun f k o => A.wc1 (hi f) k o
def bC1 : Arr2 1 128 := bC A.bc1

def acat : Arr3 32 6 512 := fun i => cheb (sup A) (A.inp (bat (i 0) (q 3 2 (i 1)))) (r 3 (i 1)) (i 2)

def hp : Arr4 2 32 512 128 := fun i => A.hid (i 0) (bat (i 1) (q 64 2 (i 3))) (i 2) (r 64 (i 3))
def bpArr : Arr2 1 1 := fun _ => A.bp

def hidP : Arr4 2 32 512 128 := fun i => hidden A (i 0) (bat (i 1) (q 64 2 (i 3))) (i 2) (r 64 (i 3))

def outP : Arr3 32 2 512 := fun i => out A (bat (i 0) (i 1)) (i 2)

end Cert.Blocks

end
-- ==== Proof.KI.Cover.lean ====
import proofs.«107218_g19069654794669_cont_sun_m_30_13_alg».proof.Proof.Gen.KernelIdeal.Launch
import proofs.«107218_g19069654794669_cont_sun_m_30_13_alg».proof.Proof.Gen.KernelIdeal.Points
import proofs.«107218_g19069654794669_cont_sun_m_30_13_alg».proof.Proof.Blocks
import Idealize.ShloMosaic.Lib.Pipeline.Value
import Idealize.ShloMosaic.Lib.Pipeline.FrameBody
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat)

variable {F : FTy → Type} [FloatOps F]

-- A block at index zero on every axis, with its array's sizes, reads as the array.
local macro "block_at_zero " w:term ", " t:term ", " X:term ", " h:term : tactic =>
  `(tactic| (funext y
             first
               | (show $X ((($w).blk $t).view.emb y) = $X y
                  exact congrArg $X (funext fun a => Fin.ext (Pipeline.Window.rect_emb_val_of_index_zero $w $t a ($h a) y)))
               | exact congrArg $X (funext fun a => Fin.ext (Pipeline.Window.rect_emb_val_of_index_zero $w $t a ($h a) y))))

-- Every index of the array is under such a block.
local macro "under_block_at_zero " w:term ", " v:term ", " i:term ", " h:term : tactic =>
  `(tactic| (have e : ($v).emb $i = $i := funext fun a => Fin.ext (Pipeline.Window.rect_emb_val_of_index_zero $w t0_0 a ($h a) $i)
             have hm := ($v).emb_mem_set $i
             rwa [e] at hm))

section First

theorem read_blk0_0 (t : Fin cfg0.N) (X : S512x512.Idx → Elt F .f32) : ((cfg0.win 0).blk t).view.read (Elt F) X = X := by
  block_at_zero win0_0, t, X, (fun _ => rfl)
theorem read_blk0_1 (t : Fin cfg0.N) (X : S512x64.Idx → Elt F .f32) : ((cfg0.win 1).blk t).view.read (Elt F) X = X := by
  block_at_zero win0_1, t, X, (fun _ => rfl)
theorem read_blk0_2 (t : Fin cfg0.N) (X : S3x65x128.Idx → Elt F .f32) : ((cfg0.win 2).blk t).view.read (Elt F) X = X := by
  block_at_zero win0_2, t, X, (fun _ => rfl)
theorem read_blk0_3 (t : Fin cfg0.N) (X : S3x65x64.Idx → Elt F .f32) : ((cfg0.win 3).blk t).view.read (Elt F) X = X := by
  block_at_zero win0_3, t, X, (fun _ => rfl)
theorem read_blk0_4 (t : Fin cfg0.N) (X : S3x128x128.Idx → Elt F .f32) : ((cfg0.win 4).blk t).view.read (Elt F) X = X := by
  block_at_zero win0_4, t, X, (fun _ => rfl)
theorem read_blk0_5 (t : Fin cfg0.N) (X : S3x128x64.Idx → Elt F .f32) : ((cfg0.win 5).blk t).view.read (Elt F) X = X := by
  block_at_zero win0_5, t, X, (fun _ => rfl)
theorem read_blk0_6 (t : Fin cfg0.N) (X : S1x128.Idx → Elt F .f32) : ((cfg0.win 6).blk t).view.read (Elt F) X = X := by
  block_at_zero win0_6, t, X, (fun _ => rfl)
theorem read_blk0_7 (t : Fin cfg0.N) (X : S1x64.Idx → Elt F .f32) : ((cfg0.win 7).blk t).view.read (Elt F) X = X := by
  block_at_zero win0_7, t, X, (fun _ => rfl)
theorem read_blk0_8 (t : Fin cfg0.N) (X : S1x128.Idx → Elt F .f32) : ((cfg0.win 8).blk t).view.read (Elt F) X = X := by
  block_at_zero win0_8, t, X, (fun _ => rfl)
theorem read_blk0_9 (t : Fin cfg0.N) (X : S1x64.Idx → Elt F .f32) : ((cfg0.win 9).blk t).view.read (Elt F) X = X := by
  block_at_zero win0_9, t, X, (fun _ => rfl)
theorem read_blk0_10 (t : Fin cfg0.N) (X : S64x1.Idx → Elt F .f32) : ((cfg0.win 10).blk t).view.read (Elt F) X = X := by
  block_at_zero win0_10, t, X, (fun _ => rfl)
theorem read_blk0_11 (t : Fin cfg0.N) (X : S512x512.Idx → Elt F .f32) : ((cfg0.win 11).blk t).view.read (Elt F) X = X := by
  block_at_zero win0_11, t, X, (fun _ => rfl)
theorem read_blk0_12 (t : Fin cfg0.N) (X : S512x64.Idx → Elt F .f32) : ((cfg0.win 12).blk t).view.read (Elt F) X = X := by
  block_at_zero win0_12, t, X, (fun _ => rfl)
theorem read_blk0_13 (t : Fin cfg0.N) (X : S512x64.Idx → Elt F .f32) : ((cfg0.win 13).blk t).view.read (Elt F) X = X := by
  block_at_zero win0_13, t, X, (fun _ => rfl)
theorem read_blk0_14 (t : Fin cfg0.N) (X : S6x256.Idx → Elt F .f32) : ((cfg0.win 14).blk t).view.read (Elt F) X = X := by
  block_at_zero win0_14, t, X, (fun _ => rfl)
theorem read_blk0_15 (t : Fin cfg0.N) (X : S3x128x256.Idx → Elt F .f32) : ((cfg0.win 15).blk t).view.read (Elt F) X = X := by
  block_at_zero win0_15, t, X, (fun _ => rfl)
theorem read_blk0_16 (t : Fin cfg0.N) (X : S1x256.Idx → Elt F .f32) : ((cfg0.win 16).blk t).view.read (Elt F) X = X := by
  block_at_zero win0_16, t, X, (fun _ => rfl)
theorem read_blk0_17 (t : Fin cfg0.N) (X : S6x128.Idx → Elt F .f32) : ((cfg0.win 17).blk t).view.read (Elt F) X = X := by
  block_at_zero win0_17, t, X, (fun _ => rfl)
theorem read_blk0_18 (t : Fin cfg0.N) (X : S3x128x128.Idx → Elt F .f32) : ((cfg0.win 18).blk t).view.read (Elt F) X = X := by
  block_at_zero win0_18, t, X, (fun _ => rfl)
theorem read_blk0_19 (t : Fin cfg0.N) (X : S1x128.Idx → Elt F .f32) : ((cfg0.win 19).blk t).view.read (Elt F) X = X := by
  block_at_zero win0_19, t, X, (fun _ => rfl)
theorem read_blk0_20 (t : Fin cfg0.N) (X : S3x128x256.Idx → Elt F .f32) : ((cfg0.win 20).blk t).view.read (Elt F) X = X := by
  block_at_zero win0_20, t, X, (fun _ => rfl)
theorem read_blk0_21 (t : Fin cfg0.N) (X : S3x128x256.Idx → Elt F .f32) : ((cfg0.win 21).blk t).view.read (Elt F) X = X := by
  block_at_zero win0_21, t, X, (fun _ => rfl)
theorem read_blk0_22 (t : Fin cfg0.N) (X : S1x256.Idx → Elt F .f32) : ((cfg0.win 22).blk t).view.read (Elt F) X = X := by
  block_at_zero win0_22, t, X, (fun _ => rfl)
theorem read_blk0_23 (t : Fin cfg0.N) (X : S3x128x128.Idx → Elt F .f32) : ((cfg0.win 23).blk t).view.read (Elt F) X = X := by
  block_at_zero win0_23, t, X, (fun _ => rfl)
theorem read_blk0_24 (t : Fin cfg0.N) (X : S3x128x128.Idx → Elt F .f32) : ((cfg0.win 24).blk t).view.read (Elt F) X = X := by
  block_at_zero win0_24, t, X, (fun _ => rfl)
theorem read_blk0_25 (t : Fin cfg0.N) (X : S1x128.Idx → Elt F .f32) : ((cfg0.win 25).blk t).view.read (Elt F) X = X := by
  block_at_zero win0_25, t, X, (fun _ => rfl)
theorem read_blk0_26 (t : Fin cfg0.N) (X : S128x2.Idx → Elt F .f32) : ((cfg0.win 26).blk t).view.read (Elt F) X = X := by
  block_at_zero win0_26, t, X, (fun _ => rfl)

variable {c : Dev nD} (dat : Dat τ (Elt F) Unit ℕ (UR sig nD τ) ℕ cfg0 c)

-- A block that covers the whole array determines it.
theorem arr0_of (W : Fin cfg0.W) (G : Buf (Elt F) ((cfg0.win W).arr.view.loc (c.tc : Thread nD τ)))
    (hflush : (cfg0.win W).flush t0_0 = true)
    (hunder : ∀ i : ((cfg0.win W).arr.view.loc (c.tc : Thread nD τ)).2.ty.Idx, i ∈ ((cfg0.win W).blk t0_0).view.set)
    (hG : ∀ t : Fin cfg0.N, dat.flushed W t = ((cfg0.win W).blk t).view.read (Elt F) G) :
    dat.arrAt W cfg0.N = G :=
  dat.arrAt_eq_of_cover W G (fun t _ => hG t) fun i => ⟨t0_0, hflush, hunder i⟩

theorem arr0_11 (G : S512x512.Idx → Elt F .f32) (hafter : ∀ t : Fin cfg0.N, dat.after 11 t = ((cfg0.win 11).blk t).view.read (Elt F) G) :
    dat.arrAt 11 cfg0.N = G :=
  arr0_of dat 11 G (flush0_11 t0_0) (fun (i : S512x512.Idx) => by under_block_at_zero win0_11, ((cfg0.win 11).blk t0_0).view, i, (fun _ => rfl)) hafter
theorem arr0_12 (G : S512x64.Idx → Elt F .f32) (hafter : ∀ t : Fin cfg0.N, dat.after 12 t = ((cfg0.win 12).blk t).view.read (Elt F) G) :
    dat.arrAt 12 cfg0.N = G :=
  arr0_of dat 12 G (flush0_12 t0_0) (fun (i : S512x64.Idx) => by under_block_at_zero win0_12, ((cfg0.win 12).blk t0_0).view, i, (fun _ => rfl)) hafter
theorem arr0_13 (G : S512x64.Idx → Elt F .f32) (hafter : ∀ t : Fin cfg0.N, dat.after 13 t = ((cfg0.win 13).blk t).view.read (Elt F) G) :
    dat.arrAt 13 cfg0.N = G :=
  arr0_of dat 13 G (flush0_13 t0_0) (fun (i : S512x64.Idx) => by under_block_at_zero win0_13, ((cfg0.win 13).blk t0_0).view, i, (fun _ => rfl)) hafter
theorem arr0_14 (G : S6x256.Idx → Elt F .f32) (hafter : ∀ t : Fin cfg0.N, dat.after 14 t = ((cfg0.win 14).blk t).view.read (Elt F) G) :
    dat.arrAt 14 cfg0.N = G :=
  arr0_of dat 14 G (flush0_14 t0_0) (fun (i : S6x256.Idx) => by under_block_at_zero win0_14, ((cfg0.win 14).blk t0_0).view, i, (fun _ => rfl)) hafter
theorem arr0_15 (G : S3x128x256.Idx → Elt F .f32) (hafter : ∀ t : Fin cfg0.N, dat.after 15 t = ((cfg0.win 15).blk t).view.read (Elt F) G) :
    dat.arrAt 15 cfg0.N = G :=
  arr0_of dat 15 G (flush0_15 t0_0) (fun (i : S3x128x256.Idx) => by under_block_at_zero win0_15, ((cfg0.win 15).blk t0_0).view, i, (fun _ => rfl)) hafter
theorem arr0_16 (G : S1x256.Idx → Elt F .f32) (hafter : ∀ t : Fin cfg0.N, dat.after 16 t = ((cfg0.win 16).blk t).view.read (Elt F) G) :
    dat.arrAt 16 cfg0.N = G :=
  arr0_of dat 16 G (flush0_16 t0_0) (fun (i : S1x256.Idx) => by under_block_at_zero win0_16, ((cfg0.win 16).blk t0_0).view, i, (fun _ => rfl)) hafter
theorem arr0_17 (G : S6x128.Idx → Elt F .f32) (hafter : ∀ t : Fin cfg0.N, dat.after 17 t = ((cfg0.win 17).blk t).view.read (Elt F) G) :
    dat.arrAt 17 cfg0.N = G :=
  arr0_of dat 17 G (flush0_17 t0_0) (fun (i : S6x128.Idx) => by under_block_at_zero win0_17, ((cfg0.win 17).blk t0_0).view, i, (fun _ => rfl)) hafter
theorem arr0_18 (G : S3x128x128.Idx → Elt F .f32) (hafter : ∀ t : Fin cfg0.N, dat.after 18 t = ((cfg0.win 18).blk t).view.read (Elt F) G) :
    dat.arrAt 18 cfg0.N = G :=
  arr0_of dat 18 G (flush0_18 t0_0) (fun (i : S3x128x128.Idx) => by under_block_at_zero win0_18, ((cfg0.win 18).blk t0_0).view, i, (fun _ => rfl)) hafter
theorem arr0_19 (G : S1x128.Idx → Elt F .f32) (hafter : ∀ t : Fin cfg0.N, dat.after 19 t = ((cfg0.win 19).blk t).view.read (Elt F) G) :
    dat.arrAt 19 cfg0.N = G :=
  arr0_of dat 19 G (flush0_19 t0_0) (fun (i : S1x128.Idx) => by under_block_at_zero win0_19, ((cfg0.win 19).blk t0_0).view, i, (fun _ => rfl)) hafter
theorem arr0_20 (G : S3x128x256.Idx → Elt F .f32) (hafter : ∀ t : Fin cfg0.N, dat.after 20 t = ((cfg0.win 20).blk t).view.read (Elt F) G) :
    dat.arrAt 20 cfg0.N = G :=
  arr0_of dat 20 G (flush0_20 t0_0) (fun (i : S3x128x256.Idx) => by under_block_at_zero win0_20, ((cfg0.win 20).blk t0_0).view, i, (fun _ => rfl)) hafter
theorem arr0_21 (G : S3x128x256.Idx → Elt F .f32) (hafter : ∀ t : Fin cfg0.N, dat.after 21 t = ((cfg0.win 21).blk t).view.read (Elt F) G) :
    dat.arrAt 21 cfg0.N = G :=
  arr0_of dat 21 G (flush0_21 t0_0) (fun (i : S3x128x256.Idx) => by under_block_at_zero win0_21, ((cfg0.win 21).blk t0_0).view, i, (fun _ => rfl)) hafter
theorem arr0_22 (G : S1x256.Idx → Elt F .f32) (hafter : ∀ t : Fin cfg0.N, dat.after 22 t = ((cfg0.win 22).blk t).view.read (Elt F) G) :
    dat.arrAt 22 cfg0.N = G :=
  arr0_of dat 22 G (flush0_22 t0_0) (fun (i : S1x256.Idx) => by under_block_at_zero win0_22, ((cfg0.win 22).blk t0_0).view, i, (fun _ => rfl)) hafter
theorem arr0_23 (G : S3x128x128.Idx → Elt F .f32) (hafter : ∀ t : Fin cfg0.N, dat.after 23 t = ((cfg0.win 23).blk t).view.read (Elt F) G) :
    dat.arrAt 23 cfg0.N = G :=
  arr0_of dat 23 G (flush0_23 t0_0) (fun (i : S3x128x128.Idx) => by under_block_at_zero win0_23, ((cfg0.win 23).blk t0_0).view, i, (fun _ => rfl)) hafter
theorem arr0_24 (G : S3x128x128.Idx → Elt F .f32) (hafter : ∀ t : Fin cfg0.N, dat.after 24 t = ((cfg0.win 24).blk t).view.read (Elt F) G) :
    dat.arrAt 24 cfg0.N = G :=
  arr0_of dat 24 G (flush0_24 t0_0) (fun (i : S3x128x128.Idx) => by under_block_at_zero win0_24, ((cfg0.win 24).blk t0_0).view, i, (fun _ => rfl)) hafter
theorem arr0_25 (G : S1x128.Idx → Elt F .f32) (hafter : ∀ t : Fin cfg0.N, dat.after 25 t = ((cfg0.win 25).blk t).view.read (Elt F) G) :
    dat.arrAt 25 cfg0.N = G :=
  arr0_of dat 25 G (flush0_25 t0_0) (fun (i : S1x128.Idx) => by under_block_at_zero win0_25, ((cfg0.win 25).blk t0_0).view, i, (fun _ => rfl)) hafter
theorem arr0_26 (G : S128x2.Idx → Elt F .f32) (hafter : ∀ t : Fin cfg0.N, dat.after 26 t = ((cfg0.win 26).blk t).view.read (Elt F) G) :
    dat.arrAt 26 cfg0.N = G :=
  arr0_of dat 26 G (flush0_26 t0_0) (fun (i : S128x2.Idx) => by under_block_at_zero win0_26, ((cfg0.win 26).blk t0_0).view, i, (fun _ => rfl)) hafter

end First

section Second

theorem pt_lt (t : Fin cfg1.N) : t.val < 32 := Nat.lt_of_lt_of_eq t.isLt N_1

theorem index1_1 : ∀ t : Fin cfg1.N, win1_1.index t (0 : Fin 3) = t.val ∧ win1_1.index t (1 : Fin 3) = 0 ∧ win1_1.index t (2 : Fin 3) = 0 :=
  (by decide +kernel : ∀ t : Fin grid1.N, win1_1.index t (0 : Fin 3) = t.val ∧ win1_1.index t (1 : Fin 3) = 0 ∧ win1_1.index t (2 : Fin 3) = 0)
theorem index1_2 : ∀ t : Fin cfg1.N, win1_2.index t (0 : Fin 4) = 0 ∧ win1_2.index t (1 : Fin 4) = t.val ∧ win1_2.index t (2 : Fin 4) = 0 ∧ win1_2.index t (3 : Fin 4) = 0 :=
  (by decide +kernel : ∀ t : Fin grid1.N, win1_2.index t (0 : Fin 4) = 0 ∧ win1_2.index t (1 : Fin 4) = t.val ∧ win1_2.index t (2 : Fin 4) = 0 ∧ win1_2.index t (3 : Fin 4) = 0)
theorem index1_17 : ∀ t : Fin cfg1.N, win1_17.index t (0 : Fin 3) = t.val ∧ win1_17.index t (1 : Fin 3) = 0 ∧ win1_17.index t (2 : Fin 3) = 0 :=
  (by decide +kernel : ∀ t : Fin grid1.N, win1_17.index t (0 : Fin 3) = t.val ∧ win1_17.index t (1 : Fin 3) = 0 ∧ win1_17.index t (2 : Fin 3) = 0)
theorem index1_18 : ∀ t : Fin cfg1.N, win1_18.index t (0 : Fin 4) = 0 ∧ win1_18.index t (1 : Fin 4) = t.val ∧ win1_18.index t (2 : Fin 4) = 0 ∧ win1_18.index t (3 : Fin 4) = 0 :=
  (by decide +kernel : ∀ t : Fin grid1.N, win1_18.index t (0 : Fin 4) = 0 ∧ win1_18.index t (1 : Fin 4) = t.val ∧ win1_18.index t (2 : Fin 4) = 0 ∧ win1_18.index t (3 : Fin 4) = 0)

theorem emb_blk1_1 (t : Fin cfg1.N) (a : Fin 1) (j : Fin 6) (n : Fin 512) :
    ((cfg1.win 1).blk t).view.emb (ix3 a j n) = ix3 ⟨t.val, pt_lt t⟩ j n := by
  obtain ⟨e0, e1, e2⟩ := index1_1 t
  have ha : a.val = 0 := by have := a.isLt; omega
  funext b
  apply Fin.ext
  match b with
  | ⟨0, _⟩ => show win1_1.index t (0 : Fin 3) * 1 + 1 * a.val = t.val; omega
  | ⟨1, _⟩ => show win1_1.index t (1 : Fin 3) * 6 + 1 * j.val = j.val; omega
  | ⟨2, _⟩ => show win1_1.index t (2 : Fin 3) * 512 + 1 * n.val = n.val; omega

theorem emb_blk1_2 (t : Fin cfg1.N) (l : Fin 2) (a : Fin 1) (n : Fin 512) (j : Fin 128) :
    ((cfg1.win 2).blk t).view.emb (ix4 l a n j) = ix4 l ⟨t.val, pt_lt t⟩ n j := by
  obtain ⟨e0, e1, e2, e3⟩ := index1_2 t
  have ha : a.val = 0 := by have := a.isLt; omega
  funext b
  apply Fin.ext
  match b with
  | ⟨0, _⟩ => show win1_2.index t (0 : Fin 4) * 2 + 1 * l.val = l.val; omega
  | ⟨1, _⟩ => show win1_2.index t (1 : Fin 4) * 1 + 1 * a.val = t.val; omega
  | ⟨2, _⟩ => show win1_2.index t (2 : Fin 4) * 512 + 1 * n.val = n.val; omega
  | ⟨3, _⟩ => show win1_2.index t (3 : Fin 4) * 128 + 1 * j.val = j.val; omega

theorem emb_blk1_17 (t : Fin cfg1.N) (a : Fin 1) (e : Fin 2) (n : Fin 512) :
    ((cfg1.win 17).blk t).view.emb (ix3 a e n) = ix3 ⟨t.val, pt_lt t⟩ e n := by
  obtain ⟨e0, e1, e2⟩ := index1_17 t
  have ha : a.val = 0 := by have := a.isLt; omega
  funext b
  apply Fin.ext
  match b with
  | ⟨0, _⟩ => show win1_17.index t (0 : Fin 3) * 1 + 1 * a.val = t.val; omega
  | ⟨1, _⟩ => show win1_17.index t (1 : Fin 3) * 2 + 1 * e.val = e.val; omega
  | ⟨2, _⟩ => show win1_17.index t (2 : Fin 3) * 512 + 1 * n.val = n.val; omega

theorem emb_blk1_18 (t : Fin cfg1.N) (l : Fin 2) (a : Fin 1) (n : Fin 512) (j : Fin 128) :
    ((cfg1.win 18).blk t).view.emb (ix4 l a n j) = ix4 l ⟨t.val, pt_lt t⟩ n j := by
  obtain ⟨e0, e1, e2, e3⟩ := index1_18 t
  have ha : a.val = 0 := by have := a.isLt; omega
  funext b
  apply Fin.ext
  match b with
  | ⟨0, _⟩ => show win1_18.index t (0 : Fin 4) * 2 + 1 * l.val = l.val; omega
  | ⟨1, _⟩ => show win1_18.index t (1 : Fin 4) * 1 + 1 * a.val = t.val; omega
  | ⟨2, _⟩ => show win1_18.index t (2 : Fin 4) * 512 + 1 * n.val = n.val; omega
  | ⟨3, _⟩ => show win1_18.index t (3 : Fin 4) * 128 + 1 * j.val = j.val; omega

theorem read_blk1_1 (t : Fin cfg1.N) (X : S32x6x512.Idx → Elt F .f32) (a : Fin 1) (j : Fin 6) (n : Fin 512) :
    ((cfg1.win 1).blk t).view.read (Elt F) X (ix3 a j n) = X (ix3 ⟨t.val, pt_lt t⟩ j n) := by
  show X (((cfg1.win 1).blk t).view.emb (ix3 a j n)) = _
  rw [emb_blk1_1]

theorem read_blk1_2 (t : Fin cfg1.N) (X : S2x32x512x128.Idx → Elt F .f32) (l : Fin 2) (a : Fin 1) (n : Fin 512) (j : Fin 128) :
    ((cfg1.win 2).blk t).view.read (Elt F) X (ix4 l a n j) = X (ix4 l ⟨t.val, pt_lt t⟩ n j) := by
  show X (((cfg1.win 2).blk t).view.emb (ix4 l a n j)) = _
  rw [emb_blk1_2]

theorem read_blk1_17 (t : Fin cfg1.N) (G : S32x2x512.Idx → Elt F .f32) (a : Fin 1) (e : Fin 2) (n : Fin 512) :
    ((cfg1.win 17).blk t).view.read (Elt F) G (ix3 a e n) = G (ix3 ⟨t.val, pt_lt t⟩ e n) := by
  show G (((cfg1.win 17).blk t).view.emb (ix3 a e n)) = _
  rw [emb_blk1_17]

theorem read_blk1_18 (t : Fin cfg1.N) (G : S2x32x512x128.Idx → Elt F .f32) (l : Fin 2) (a : Fin 1) (n : Fin 512) (j : Fin 128) :
    ((cfg1.win 18).blk t).view.read (Elt F) G (ix4 l a n j) = G (ix4 l ⟨t.val, pt_lt t⟩ n j) := by
  show G (((cfg1.win 18).blk t).view.emb (ix4 l a n j)) = _
  rw [emb_blk1_18]

theorem read_blk1_0 (t : Fin cfg1.N) (X : S512x512.Idx → Elt F .f32) : ((cfg1.win 0).blk t).view.read (Elt F) X = X := by
  block_at_zero win1_0, t, X, ((by decide +kernel : ∀ (t : Fin grid1.N) (a : Fin 2), win1_0.index t a = 0) t)
theorem read_blk1_3 (t : Fin cfg1.N) (X : S6x256.Idx → Elt F .f32) : ((cfg1.win 3).blk t).view.read (Elt F) X = X := by
  block_at_zero win1_3, t, X, ((by decide +kernel : ∀ (t : Fin grid1.N) (a : Fin 2), win1_3.index t a = 0) t)
theorem read_blk1_4 (t : Fin cfg1.N) (X : S3x128x256.Idx → Elt F .f32) : ((cfg1.win 4).blk t).view.read (Elt F) X = X := by
  block_at_zero win1_4, t, X, ((by decide +kernel : ∀ (t : Fin grid1.N) (a : Fin 3), win1_4.index t a = 0) t)
theorem read_blk1_5 (t : Fin cfg1.N) (X : S1x256.Idx → Elt F .f32) : ((cfg1.win 5).blk t).view.read (Elt F) X = X := by
  block_at_zero win1_5, t, X, ((by decide +kernel : ∀ (t : Fin grid1.N) (a : Fin 2), win1_5.index t a = 0) t)
theorem read_blk1_6 (t : Fin cfg1.N) (X : S6x128.Idx → Elt F .f32) : ((cfg1.win 6).blk t).view.read (Elt F) X = X := by
  block_at_zero win1_6, t, X, ((by decide +kernel : ∀ (t : Fin grid1.N) (a : Fin 2), win1_6.index t a = 0) t)
theorem read_blk1_7 (t : Fin cfg1.N) (X : S3x128x128.Idx → Elt F .f32) : ((cfg1.win 7).blk t).view.read (Elt F) X = X := by
  block_at_zero win1_7, t, X, ((by decide +kernel : ∀ (t : Fin grid1.N) (a : Fin 3), win1_7.index t a = 0) t)
theorem read_blk1_8 (t : Fin cfg1.N) (X : S1x128.Idx → Elt F .f32) : ((cfg1.win 8).blk t).view.read (Elt F) X = X := by
  block_at_zero win1_8, t, X, ((by decide +kernel : ∀ (t : Fin grid1.N) (a : Fin 2), win1_8.index t a = 0) t)
theorem read_blk1_9 (t : Fin cfg1.N) (X : S3x128x256.Idx → Elt F .f32) : ((cfg1.win 9).blk t).view.read (Elt F) X = X := by
  block_at_zero win1_9, t, X, ((by decide +kernel : ∀ (t : Fin grid1.N) (a : Fin 3), win1_9.index t a = 0) t)
theorem read_blk1_10 (t : Fin cfg1.N) (X : S3x128x256.Idx → Elt F .f32) : ((cfg1.win 10).blk t).view.read (Elt F) X = X := by
  block_at_zero win1_10, t, X, ((by decide +kernel : ∀ (t : Fin grid1.N) (a : Fin 3), win1_10.index t a = 0) t)
theorem read_blk1_11 (t : Fin cfg1.N) (X : S1x256.Idx → Elt F .f32) : ((cfg1.win 11).blk t).view.read (Elt F) X = X := by
  block_at_zero win1_11, t, X, ((by decide +kernel : ∀ (t : Fin grid1.N) (a : Fin 2), win1_11.index t a = 0) t)
theorem read_blk1_12 (t : Fin cfg1.N) (X : S3x128x128.Idx → Elt F .f32) : ((cfg1.win 12).blk t).view.read (Elt F) X = X := by
  block_at_zero win1_12, t, X, ((by decide +kernel : ∀ (t : Fin grid1.N) (a : Fin 3), win1_12.index t a = 0) t)
theorem read_blk1_13 (t : Fin cfg1.N) (X : S3x128x128.Idx → Elt F .f32) : ((cfg1.win 13).blk t).view.read (Elt F) X = X := by
  block_at_zero win1_13, t, X, ((by decide +kernel : ∀ (t : Fin grid1.N) (a : Fin 3), win1_13.index t a = 0) t)
theorem read_blk1_14 (t : Fin cfg1.N) (X : S1x128.Idx → Elt F .f32) : ((cfg1.win 14).blk t).view.read (Elt F) X = X := by
  block_at_zero win1_14, t, X, ((by decide +kernel : ∀ (t : Fin grid1.N) (a : Fin 2), win1_14.index t a = 0) t)
theorem read_blk1_15 (t : Fin cfg1.N) (X : S128x2.Idx → Elt F .f32) : ((cfg1.win 15).blk t).view.read (Elt F) X = X := by
  block_at_zero win1_15, t, X, ((by decide +kernel : ∀ (t : Fin grid1.N) (a : Fin 2), win1_15.index t a = 0) t)
theorem read_blk1_16 (t : Fin cfg1.N) (X : S1x1.Idx → Elt F .f32) : ((cfg1.win 16).blk t).view.read (Elt F) X = X := by
  block_at_zero win1_16, t, X, ((by decide +kernel : ∀ (t : Fin grid1.N) (a : Fin 2), win1_16.index t a = 0) t)

theorem slabs_cover1_17 (i : S32x2x512.Idx) :
    ∃ t : Fin cfg1.N, (cfg1.win 17).flush t = true ∧ i ∈ ((cfg1.win 17).blk t).view.set := by
  have h1 : (i 1).val < 2 := (i 1).isLt
  have h2 : (i 2).val < 512 := (i 2).isLt
  obtain ⟨t, ht⟩ : ∃ t : Fin cfg1.N, t.val = (i 0).val :=
    ⟨⟨(i 0).val, Nat.lt_of_lt_of_eq (i 0).isLt N_1.symm⟩, rfl⟩
  refine ⟨t, flush1_17 t, ?_⟩
  have e : ((cfg1.win 17).blk t).view.emb (ix3 (0 : Fin 1) (⟨(i 1).val, h1⟩ : Fin 2) (⟨(i 2).val, h2⟩ : Fin 512)) = i := by
    refine (emb_blk1_17 t _ _ _).trans (funext fun b => ?_)
    match b with
    | ⟨0, _⟩ => exact Fin.ext ht
    | ⟨1, _⟩ => rfl
    | ⟨2, _⟩ => rfl
  have h := ((cfg1.win 17).blk t).view.emb_mem_set (ix3 (0 : Fin 1) (⟨(i 1).val, h1⟩ : Fin 2) (⟨(i 2).val, h2⟩ : Fin 512))
  rwa [e] at h

theorem slabs_cover1_18 (i : S2x32x512x128.Idx) :
    ∃ t : Fin cfg1.N, (cfg1.win 18).flush t = true ∧ i ∈ ((cfg1.win 18).blk t).view.set := by
  have h0 : (i 0).val < 2 := (i 0).isLt
  have h2 : (i 2).val < 512 := (i 2).isLt
  have h3 : (i 3).val < 128 := (i 3).isLt
  obtain ⟨t, ht⟩ : ∃ t : Fin cfg1.N, t.val = (i 1).val :=
    ⟨⟨(i 1).val, Nat.lt_of_lt_of_eq (i 1).isLt N_1.symm⟩, rfl⟩
  refine ⟨t, flush1_18 t, ?_⟩
  have e : ((cfg1.win 18).blk t).view.emb (ix4 (⟨(i 0).val, h0⟩ : Fin 2) (0 : Fin 1) (⟨(i 2).val, h2⟩ : Fin 512) (⟨(i 3).val, h3⟩ : Fin 128)) = i := by
    refine (emb_blk1_18 t _ _ _ _).trans (funext fun b => ?_)
    match b with
    | ⟨0, _⟩ => rfl
    | ⟨1, _⟩ => exact Fin.ext ht
    | ⟨2, _⟩ => rfl
    | ⟨3, _⟩ => rfl
  have h := ((cfg1.win 18).blk t).view.emb_mem_set (ix4 (⟨(i 0).val, h0⟩ : Fin 2) (0 : Fin 1) (⟨(i 2).val, h2⟩ : Fin 512) (⟨(i 3).val, h3⟩ : Fin 128))
  rwa [e] at h

variable {c : Dev nD} (dat : Dat τ (Elt F) Unit ℕ (UR sig nD τ) ℕ cfg1 c)

-- The 32 slabs cover the array, so slabwise agreement with G gives G.
theorem arr1_17_of_apply (G : S32x2x512.Idx → Elt F .f32)
    (h : ∀ (t : Fin cfg1.N) (a : Fin 1) (e : Fin 2) (n : Fin 512), dat.after 17 t (ix3 a e n) = G (ix3 ⟨t.val, pt_lt t⟩ e n)) :
    dat.arrAt 17 cfg1.N = G :=
  dat.arrAt_eq_of_cover 17 G (fun t _ => show dat.after 17 t = _ from funext fun y => by
    obtain ⟨a, e, n, rfl⟩ : ∃ (a : Fin 1) (e : Fin 2) (n : Fin 512), y = ix3 a e n :=
      ⟨y (0 : Fin 3), y (1 : Fin 3), y (2 : Fin 3), eq_ix3 y⟩
    rw [h t a e n, read_blk1_17]) slabs_cover1_17

theorem arr1_18_of_apply (G : S2x32x512x128.Idx → Elt F .f32)
    (h : ∀ (t : Fin cfg1.N) (l : Fin 2) (a : Fin 1) (n : Fin 512) (j : Fin 128),
      dat.after 18 t (ix4 l a n j) = G (ix4 l ⟨t.val, pt_lt t⟩ n j)) :
    dat.arrAt 18 cfg1.N = G :=
  dat.arrAt_eq_of_cover 18 G (fun t _ => show dat.after 18 t = _ from funext fun y => by
    obtain ⟨l, a, n, j, rfl⟩ : ∃ (l : Fin 2) (a : Fin 1) (n : Fin 512) (j : Fin 128), y = ix4 l a n j :=
      ⟨y (0 : Fin 4), y (1 : Fin 4), y (2 : Fin 4), y (3 : Fin 4), eq_ix4 y⟩
    rw [h t l a n j, read_blk1_18]) slabs_cover1_18

end Second

end Cert.KernelIdeal.Hand

end
-- ==== Proof.KI.Host.lean ====
import proofs.«107218_g19069654794669_cont_sun_m_30_13_alg».proof.Proof.Gen.KernelIdeal.Regions
import proofs.«107218_g19069654794669_cont_sun_m_30_13_alg».proof.Proof.Blocks
import Idealize.ShloMosaic.Lib.ValueIdx
import Idealize.ShloMosaic.Lib.Pipeline.Value
import Idealize.ShloMosaic.Lib.ValueLayout
import Idealize.ShloMosaic.Lib.StableHlo.Run

set_option maxRecDepth 3968

noncomputable section

namespace Cert.KernelIdeal.Hand

open Cert.KernelIdeal Cert.KernelIdeal.Gen
open Idealize.ShloMosaic Idealize.ShloMosaic.ValueIdx Idealize.ShloMosaic.StableHlo

section
variable {α : Type}

-- Two arrays that agree at every tuple of coordinates are equal.
theorem ext_ix2 {a b : ℕ} {x y : (⟨2, ![a, b]⟩ : Shape).Idx → α} (h : ∀ i j, x (ix2 i j) = y (ix2 i j)) : x = y :=
  funext fun i => by rw [eq_ix2 i]; exact h _ _
theorem ext_ix3 {a b c : ℕ} {x y : (⟨3, ![a, b, c]⟩ : Shape).Idx → α} (h : ∀ i j k, x (ix3 i j k) = y (ix3 i j k)) : x = y :=
  funext fun i => by rw [eq_ix3 i]; exact h _ _ _
theorem ext_ix4 {a b c d : ℕ} {x y : (⟨4, ![a, b, c, d]⟩ : Shape).Idx → α}
    (h : ∀ i j k l, x (ix4 i j k l) = y (ix4 i j k l)) : x = y :=
  funext fun i => by rw [eq_ix4 i]; exact h _ _ _ _

-- Rows i * 3 + k split into (i, k) and k moved to the front: the reshape keeps the row-major position.
theorem split3_front_apply {r f o : ℕ} (x : (⟨2, ![r, o]⟩ : Shape).Idx → α)
    (h1 : (⟨2, ![r, o]⟩ : Shape).ShapeCasts ⟨3, ![f, 3, o]⟩)
    (h2 : (⟨3, ![f, 3, o]⟩ : Shape).Transposes [1, 0, 2] ⟨3, ![3, f, o]⟩)
    (k : Fin 3) (i : Fin f) (j : Fin o) (hr : i.val * 3 + k.val < r) :
    transpose ⟨3, ![3, f, o]⟩ [1, 0, 2] (shapeCast ⟨3, ![f, 3, o]⟩ x h1) h2 (ix3 k i j) = x (ix2 ⟨i.val * 3 + k.val, hr⟩ j) :=
  (transpose_apply _ _ _ _ (ix3 i k j) fun c => match c with | ⟨0, _⟩ => rfl | ⟨1, _⟩ => rfl | ⟨2, _⟩ => rfl).trans
    (shapeCast_apply _ _ _ _ (by rw [Shape.rowMajor_val_two, Shape.rowMajor_val_three]; rfl))

end

variable (W : Valuation τ sig (Elt Ideal))

abbrev argsAt : Cert.Spec.Args :=
  Cert.Spec.argsOf (W (Proc.devRef .tc main_arg0)) (W (Proc.devRef .tc main_arg1)) (W (Proc.devRef .tc main_arg2))
    (W (Proc.devRef .tc main_arg3)) (W (Proc.devRef .tc main_arg4)) (W (Proc.devRef .tc main_arg5))
    (W (Proc.devRef .tc main_arg6)) (W (Proc.devRef .tc main_arg7)) (W (Proc.devRef .tc main_arg8))
    (W (Proc.devRef .tc main_arg9)) (W (Proc.devRef .tc main_arg10)) (W (Proc.devRef .tc main_arg11))
    (W (Proc.devRef .tc main_arg12))

theorem host0_inpT :
    (StableHlo.after hostOps0 W (Proc.devRef .tc main_v0) : S512x64.Idx → EReal) = Cert.Blocks.inpT (argsAt W) :=
  ext_ix2 fun n b => by after_results; exact transpose_ix2_apply _ _ n b

-- [l, p, n, c] reads the argument at [l, 2 p + c / 64, n * 64 + c % 64]: the transpose exchanges element and node.
theorem host0_hp :
    (StableHlo.after hostOps0 W (Proc.devRef .tc main_v3) : S2x32x512x128.Idx → EReal) = Cert.Blocks.hp (argsAt W) :=
  ext_ix4 fun l p n c => by
    after_results
    refine (shapeCast_apply _ _ (ix4 l p n c)
      (ix5 l p n (⟨c.val / 64, by omega⟩ : Fin 2) (⟨c.val % 64, by omega⟩ : Fin 64)) ?_).trans ?_
    · rw [Shape.rowMajor_val_five, Shape.rowMajor_val_four]
      show ((((l.val * 32 + p.val) * 512 + n.val) * 2 + c.val / 64) * 64 + c.val % 64) = ((l.val * 32 + p.val) * 512 + n.val) * 128 + c.val
      omega
    refine (transpose_apply _ _ _ _
      (ix5 l p (⟨c.val / 64, by omega⟩ : Fin 2) n (⟨c.val % 64, by omega⟩ : Fin 64))
      fun a => match a with | ⟨0, _⟩ => rfl | ⟨1, _⟩ => rfl | ⟨2, _⟩ => rfl | ⟨3, _⟩ => rfl | ⟨4, _⟩ => rfl).trans ?_
    exact shapeCast_apply (t := S2x32x2x512x64) _ _ _ (ix3 l ⟨2 * p.val + c.val / 64, by omega⟩ ⟨n.val * 64 + c.val % 64, by omega⟩) (by
      rw [Shape.rowMajor_val_three, Shape.rowMajor_val_five]
      show (l.val * 64 + (2 * p.val + c.val / 64)) * 32768 + (n.val * 64 + c.val % 64)
        = (((l.val * 32 + p.val) * 2 + c.val / 64) * 512 + n.val) * 64 + c.val % 64
      omega)

theorem host0_wru0T :
    (StableHlo.after hostOps0 W (Proc.devRef .tc main_v5) : S3x65x128.Idx → EReal) = Cert.Blocks.wru0T (argsAt W) :=
  ext_ix3 fun k f o => by after_results; exact split3_front_apply _ _ _ k f o (by omega)
theorem host0_wc0T :
    (StableHlo.after hostOps0 W (Proc.devRef .tc main_v7) : S3x65x64.Idx → EReal) = Cert.Blocks.wc0T (argsAt W) :=
  ext_ix3 fun k f o => by after_results; exact split3_front_apply _ _ _ k f o (by omega)
theorem host0_wru1T :
    (StableHlo.after hostOps0 W (Proc.devRef .tc main_v9) : S3x128x128.Idx → EReal) = Cert.Blocks.wru1T (argsAt W) :=
  ext_ix3 fun k f o => by after_results; exact split3_front_apply _ _ _ k f o (by omega)
theorem host0_wc1T :
    (StableHlo.after hostOps0 W (Proc.devRef .tc main_v11) : S3x128x64.Idx → EReal) = Cert.Blocks.wc1T (argsAt W) :=
  ext_ix3 fun k f o => by after_results; exact split3_front_apply _ _ _ k f o (by omega)

theorem host0_bru0R :
    (StableHlo.after hostOps0 W (Proc.devRef .tc main_v12) : S1x128.Idx → EReal) = Cert.Blocks.bru0R (argsAt W) :=
  ext_ix2 fun z o => by after_results; exact shapeCast_a_1a_apply _ _ z o
theorem host0_bc0R :
    (StableHlo.after hostOps0 W (Proc.devRef .tc main_v13) : S1x64.Idx → EReal) = Cert.Blocks.bc0R (argsAt W) :=
  ext_ix2 fun z o => by after_results; exact shapeCast_a_1a_apply _ _ z o
theorem host0_bru1R :
    (StableHlo.after hostOps0 W (Proc.devRef .tc main_v14) : S1x128.Idx → EReal) = Cert.Blocks.bru1R (argsAt W) :=
  ext_ix2 fun z o => by after_results; exact shapeCast_a_1a_apply _ _ z o
theorem host0_bc1R :
    (StableHlo.after hostOps0 W (Proc.devRef .tc main_v15) : S1x64.Idx → EReal) = Cert.Blocks.bc1R (argsAt W) :=
  ext_ix2 fun z o => by after_results; exact shapeCast_a_1a_apply _ _ z o

theorem arg2_adjArr :
    (W (Proc.devRef .tc main_arg2) : S512x512.Idx → EReal) = Cert.Blocks.adjArr (argsAt W) :=
  ext_ix2 fun _ _ => rfl

theorem arg11_wpArr :
    (W (Proc.devRef .tc main_arg11) : S64x1.Idx → EReal) = Cert.Blocks.wpArr (argsAt W) :=
  ext_ix2 fun u z => by
    have hz : z = 0 := Fin.ext (by omega)
    subst hz
    rfl

-- A stack of three [1, 512, 64] arrays along the leading axis reads, at (k, n, b), the k-th at (0, n, b).
theorem host1_stack3_apply (X : Fin 3 → S1x512x64.Idx → EReal) (k : Fin 3) (n : Fin 512) (b : Fin 64) :
    concatenate S3x512x64 0 [⟨S1x512x64, X 0⟩, ⟨S1x512x64, X 1⟩, ⟨S1x512x64, X 2⟩]
        concatenates_S1x512x64_S1x512x64_S1x512x64_S3x512x64_d0 (ix3 k n b) = X k (ix3 (0 : Fin 1) n b) := by
  refine concatenate_apply_piece (t := S3x512x64) 0 _ _ _ k.val (by exact k.isLt) S1x512x64 (X k) ?_ rfl k.val ?_
    (ix3 (0 : Fin 1) n b) ?_ rfl
  · fin_cases k <;> rfl
  · fin_cases k <;> rfl
  · intro c hc
    match c, hc with
    | ⟨0, _⟩, hc => exact absurd rfl hc
    | ⟨1, _⟩, _ => rfl
    | ⟨2, _⟩, _ => rfl

theorem host1_lead_apply (X : S512x64.Idx → EReal) (z : Fin 1) (n : Fin 512) (b : Fin 64) :
    broadcastInDim S1x512x64 ![1, 2] bcast_S512x64_S1x512x64_1_2 X (ix3 z n b) = X (ix2 n b) :=
  broadcastInDim_apply _ _ X _ (ix2 n b) fun a => match a with | ⟨0, _⟩ => rfl | ⟨1, _⟩ => rfl

def host1_terms (k : Fin 3) : S512x64.Idx → EReal :=
  match k with
  | ⟨0, _⟩ => W (Proc.devRef .tc main_v0)
  | ⟨1, _⟩ => W (Proc.devRef .tc main_v16_1)
  | ⟨2, _⟩ => W (Proc.devRef .tc main_v16_2)

theorem host1_nary3_result {x a b y : Ref sig .tc}
    (f : ((k : Fin 3) → ((![x, a, b] : Fin 3 → Ref sig .tc) k).ty.Contents (Elt Ideal)) → y.ty.Contents (Elt Ideal)) (hxs hy)
    (V : Valuation τ sig (Elt Ideal)) :
    (StableHlo.nary (τ := τ) ![x, a, b] y f hxs hy).result V (Proc.devRef .tc y)
      = f (Fin.cons (V (Proc.devRef .tc x)) (Fin.cons (V (Proc.devRef .tc a)) (Fin.cons (V (Proc.devRef .tc b)) (fun i => i.elim0)))) := by
  rw [StableHlo.nary_result]; congr 1; funext k; fin_cases k <;> rfl

-- Row e * 3 + k of pair p at node n reads the k-th stacked array at [n, 2 p + e], as (2 p + e) * 3 + k = p * 6 + (e * 3 + k).
theorem host1_v22_apply (p : Fin 32) (e : Fin 2) (k : Fin 3) (n : Fin 512) :
    (StableHlo.after hostOps1 W (Proc.devRef .tc main_v22) : S32x6x512.Idx → EReal) (ix3 p ⟨e.val * 3 + k.val, by omega⟩ n)
      = host1_terms W k (ix2 n (Cert.Blocks.bat p e)) := by
  simp only [after_cons, after_nil]
  repeat (first
    | rw [reshape_result] | rw [unary_result] | rw [host1_nary3_result]
    | (rw [reshape_result_ne]; rotate_left; decide)
    | (rw [unary_result_ne]; rotate_left; decide))
  refine (shapeCast_apply (t := S32x6x512) _ _ _ (ix3 (Cert.Blocks.bat p e) k n) ?_).trans ?_
  · rw [Shape.rowMajor_val_three, Shape.rowMajor_val_three]
    show ((2 * p.val + e.val) * 3 + k.val) * 512 + n.val = (p.val * 6 + (e.val * 3 + k.val)) * 512 + n.val
    omega
  refine (transpose_apply _ _ _ _ (ix3 k n (Cert.Blocks.bat p e))
    fun a => match a with | ⟨0, _⟩ => rfl | ⟨1, _⟩ => rfl | ⟨2, _⟩ => rfl).trans ?_
  exact (host1_stack3_apply (fun k => broadcastInDim S1x512x64 ![1, 2] bcast_S512x64_S1x512x64_1_2 (host1_terms W k))
    k n _).trans (host1_lead_apply _ 0 n _)

theorem host1_acat (A : Cert.Spec.Args)
    (hx : (W (Proc.devRef .tc main_v0) : S512x64.Idx → EReal) = Cert.Blocks.inpT A)
    (h1 : (W (Proc.devRef .tc main_v16_1) : S512x64.Idx → EReal) = Cert.Blocks.a1Arr A)
    (h2 : (W (Proc.devRef .tc main_v16_2) : S512x64.Idx → EReal) = Cert.Blocks.a2Arr A) :
    (StableHlo.after hostOps1 W (Proc.devRef .tc main_v22) : S32x6x512.Idx → EReal) = Cert.Blocks.acat A :=
  ext_ix3 fun p j n => by
    obtain ⟨e, k, rfl⟩ : ∃ (e : Fin 2) (k : Fin 3), j = ⟨e.val * 3 + k.val, by omega⟩ :=
      ⟨⟨j.val / 3, by omega⟩, ⟨j.val % 3, by omega⟩, Fin.ext (by show j.val = j.val / 3 * 3 + j.val % 3; omega)⟩
    have hq : (Cert.Blocks.q 3 2 (⟨e.val * 3 + k.val, by omega⟩ : Fin 6) : Fin 2) = e :=
      Fin.ext (by show (e.val * 3 + k.val) / 3 = e.val; omega)
    have hr : (Cert.Blocks.r 3 (⟨e.val * 3 + k.val, by omega⟩ : Fin 6) : Fin 3) = k :=
      Fin.ext (by show (e.val * 3 + k.val) % 3 = k.val; omega)
    rw [host1_v22_apply W p e k n]
    show _ = Cert.Spec.cheb (Cert.Spec.sup A) (A.inp (Cert.Blocks.bat p (Cert.Blocks.q 3 2 (⟨e.val * 3 + k.val, _⟩ : Fin 6))))
      (Cert.Blocks.r 3 (⟨e.val * 3 + k.val, _⟩ : Fin 6)) n
    rw [hq, hr]
    match k with
    | ⟨0, _⟩ => exact congrFun hx _
    | ⟨1, _⟩ => exact congrFun h1 _
    | ⟨2, _⟩ => exact congrFun h2 _

theorem host1_bpArr (A : Cert.Spec.Args)
    (hb : (W (Proc.devRef .tc main_arg12) : S1.Idx → EReal) (ix1 0) = A.bp) :
    (StableHlo.after hostOps1 W (Proc.devRef .tc main_v23) : S1x1.Idx → EReal) = Cert.Blocks.bpArr A :=
  ext_ix2 fun z o => by
    have ho : o = 0 := Fin.ext (by omega)
    subst ho
    after_results
    exact (shapeCast_a_1a_apply _ _ z 0).trans hb

-- [b, n] reads pair b / 2, element b % 2, node n.
theorem host2_outArr (A : Cert.Spec.Args)
    (h : (W (Proc.devRef .tc main_v24_0) : S32x2x512.Idx → EReal) = Cert.Blocks.outP A) :
    (StableHlo.after hostOps2 W (Proc.devRef .tc main_v25) : S64x512.Idx → EReal) = Cert.Spec.outArr A :=
  ext_ix2 fun b n => by
    have e : Cert.Blocks.bat (⟨b.val / 2, by omega⟩ : Fin 32) (⟨b.val % 2, by omega⟩ : Fin 2) = b :=
      Fin.ext (by show 2 * (b.val / 2) + b.val % 2 = b.val; omega)
    after_results
    refine (shapeCast_apply (t := S64x512) _ _ _ (ix3 ⟨b.val / 2, by omega⟩ ⟨b.val % 2, by omega⟩ n) (by
      rw [Shape.rowMajor_val_three, Shape.rowMajor_val_two]
      show (b.val / 2 * 2 + b.val % 2) * 512 + n.val = b.val * 512 + n.val
      omega)).trans ?_
    rw [h]
    show Cert.Spec.out A (Cert.Blocks.bat (⟨b.val / 2, _⟩ : Fin 32) (⟨b.val % 2, _⟩ : Fin 2)) n = Cert.Spec.out A b n
    rw [e]

-- [l, b, m] reads the packed states at [l, b / 2, m / 64, (b % 2) * 64 + m % 64].
theorem host2_hidArr (A : Cert.Spec.Args)
    (h : (W (Proc.devRef .tc main_v24_1) : S2x32x512x128.Idx → EReal) = Cert.Blocks.hidP A) :
    (StableHlo.after hostOps2 W (Proc.devRef .tc main_v28) : S2x64x32768.Idx → EReal) = Cert.Spec.hidArr A :=
  ext_ix3 fun l b m => by
    have e1 : Cert.Blocks.bat (⟨b.val / 2, by omega⟩ : Fin 32)
        (Cert.Blocks.q 64 2 (⟨b.val % 2 * 64 + m.val % 64, by omega⟩ : Fin 128)) = b :=
      Fin.ext (by show 2 * (b.val / 2) + (b.val % 2 * 64 + m.val % 64) / 64 = b.val; omega)
    have e2 : Cert.Blocks.r 64 (⟨b.val % 2 * 64 + m.val % 64, by omega⟩ : Fin 128) = (⟨m.val % 64, Nat.mod_lt _ (by decide)⟩ : Fin 64) :=
      Fin.ext (by show (b.val % 2 * 64 + m.val % 64) % 64 = m.val % 64; omega)
    after_results
    refine (shapeCast_apply _ _ (ix3 l b m)
      (ix5 l (⟨b.val / 2, by omega⟩ : Fin 32) (⟨b.val % 2, by omega⟩ : Fin 2) (⟨m.val / 64, by omega⟩ : Fin 512) (⟨m.val % 64, by omega⟩ : Fin 64)) ?_).trans ?_
    · rw [Shape.rowMajor_val_five, Shape.rowMajor_val_three]
      show ((((l.val * 32 + b.val / 2) * 2 + b.val % 2) * 512 + m.val / 64) * 64 + m.val % 64) = (l.val * 64 + b.val) * 32768 + m.val
      omega
    refine (transpose_apply _ _ _ _
      (ix5 l (⟨b.val / 2, by omega⟩ : Fin 32) (⟨m.val / 64, by omega⟩ : Fin 512) (⟨b.val % 2, by omega⟩ : Fin 2) (⟨m.val % 64, by omega⟩ : Fin 64))
      fun c => match c with | ⟨0, _⟩ => rfl | ⟨1, _⟩ => rfl | ⟨2, _⟩ => rfl | ⟨3, _⟩ => rfl | ⟨4, _⟩ => rfl).trans ?_
    refine (shapeCast_apply (t := S2x32x512x2x64) _ _ _
      (ix4 l ⟨b.val / 2, by omega⟩ ⟨m.val / 64, by omega⟩ ⟨b.val % 2 * 64 + m.val % 64, by omega⟩) (by
      rw [Shape.rowMajor_val_four, Shape.rowMajor_val_five]
      show ((l.val * 32 + b.val / 2) * 512 + m.val / 64) * 128 + (b.val % 2 * 64 + m.val % 64)
        = (((l.val * 32 + b.val / 2) * 512 + m.val / 64) * 2 + b.val % 2) * 64 + m.val % 64
      omega)).trans ?_
    rw [h]
    show Cert.Spec.hidden A l (Cert.Blocks.bat (⟨b.val / 2, _⟩ : Fin 32) (Cert.Blocks.q 64 2 (⟨b.val % 2 * 64 + m.val % 64, _⟩ : Fin 128)))
        (⟨m.val / 64, _⟩ : Fin 512) (Cert.Blocks.r 64 (⟨b.val % 2 * 64 + m.val % 64, _⟩ : Fin 128))
      = Cert.Spec.hidden A l b (⟨m.val / 64, _⟩ : Fin 512) (⟨m.val % 64, _⟩ : Fin 64)
    rw [e1, e2]

end Cert.KernelIdeal.Hand

end
-- ==== Proof.KI.R0Pieces.lean ====
import proofs.«107218_g19069654794669_cont_sun_m_30_13_alg».proof.Proof.Gen.KernelIdeal.Skeleton
import Idealize.ShloMosaic.Lib.Pipeline.FrameBody

noncomputable section

namespace Cert.KernelIdeal.Hand

open Idealize.ShloMosaic Idealize.SL.Sem Cert.KernelIdeal Cert.KernelIdeal.Gen

variable {F : FTy → Type} [FloatOps F]

def pieces0_11 (x0 : Vec F S512x512 .f32) (x1 : Vec F S512x64 .f32) (x2 : Vec F S3x65x128 .f32) (x3 : Vec F S3x65x64 .f32) (x4 : Vec F S3x128x128 .f32) (x5 : Vec F S3x128x64 .f32) (x6 : Vec F S1x128 .f32) (x7 : Vec F S1x64 .f32) (x8 : Vec F S1x128 .f32) (x9 : Vec F S1x64 .f32) (x10 : Vec F S64x1 .f32) :
    List (View.Piece (Elt F) S512x512 .f32) :=
  [⟨Rect.unit (s := S512x512) ![0, 0] S512x512.size inb_S512x512_S512x512_0_0, (k0_pay1 (View.ld x0 (Rect.unit (s := S512x512) ![0, 0] S512x512.size inb_S512x512_S512x512_0_0)))⟩]

def pieces0_12 (x0 : Vec F S512x512 .f32) (x1 : Vec F S512x64 .f32) (x2 : Vec F S3x65x128 .f32) (x3 : Vec F S3x65x64 .f32) (x4 : Vec F S3x128x128 .f32) (x5 : Vec F S3x128x64 .f32) (x6 : Vec F S1x128 .f32) (x7 : Vec F S1x64 .f32) (x8 : Vec F S1x128 .f32) (x9 : Vec F S1x64 .f32) (x10 : Vec F S64x1 .f32) :
    List (View.Piece (Elt F) S512x64 .f32) :=
  [⟨Rect.unit (s := S512x64) ![0, 0] S512x64.size inb_S512x64_S512x64_0_0, (k0_pay3 (View.ld x0 (Rect.unit (s := S512x512) ![0, 0] S512x512.size inb_S512x512_S512x512_0_0)) (View.ld x1 (Rect.unit (s := S512x64) ![0, 0] S512x64.size inb_S512x64_S512x64_0_0)))⟩]

def pieces0_13 (x0 : Vec F S512x512 .f32) (x1 : Vec F S512x64 .f32) (x2 : Vec F S3x65x128 .f32) (x3 : Vec F S3x65x64 .f32) (x4 : Vec F S3x128x128 .f32) (x5 : Vec F S3x128x64 .f32) (x6 : Vec F S1x128 .f32) (x7 : Vec F S1x64 .f32) (x8 : Vec F S1x128 .f32) (x9 : Vec F S1x64 .f32) (x10 : Vec F S64x1 .f32) :
    List (View.Piece (Elt F) S512x64 .f32) :=
  [⟨Rect.unit (s := S512x64) ![0, 0] S512x64.size inb_S512x64_S512x64_0_0, (k0_pay4 (View.ld x0 (Rect.unit (s := S512x512) ![0, 0] S512x512.size inb_S512x512_S512x512_0_0)) (View.ld x1 (Rect.unit (s := S512x64) ![0, 0] S512x64.size inb_S512x64_S512x64_0_0)))⟩]

def pieces0_14 (x0 : Vec F S512x512 .f32) (x1 : Vec F S512x64 .f32) (x2 : Vec F S3x65x128 .f32) (x3 : Vec F S3x65x64 .f32) (x4 : Vec F S3x128x128 .f32) (x5 : Vec F S3x128x64 .f32) (x6 : Vec F S1x128 .f32) (x7 : Vec F S1x64 .f32) (x8 : Vec F S1x128 .f32) (x9 : Vec F S1x64 .f32) (x10 : Vec F S64x1 .f32) :
    List (View.Piece (Elt F) S6x256 .f32) :=
  [⟨Rect.unit (s := S6x256) ![5, 192] S1x64.size inb_S6x256_S1x64_5_192, (k0_pay84 (View.ld x2 (Rect.unit (s := S3x65x128) ![2, 0, 64] S1x1x64.size inb_S3x65x128_S1x1x64_2_0_64)))⟩,
   ⟨Rect.unit (s := S6x256) ![5, 64] S1x64.size inb_S6x256_S1x64_5_64, (k0_pay83 (View.ld x2 (Rect.unit (s := S3x65x128) ![2, 0, 0] S1x1x64.size inb_S3x65x128_S1x1x64_2_0_0)))⟩,
   ⟨Rect.unit (s := S6x256) ![2, 128] S1x64.size inb_S6x256_S1x64_2_128, (k0_pay82 (View.ld x2 (Rect.unit (s := S3x65x128) ![2, 0, 64] S1x1x64.size inb_S3x65x128_S1x1x64_2_0_64)))⟩,
   ⟨Rect.unit (s := S6x256) ![2, 0] S1x64.size inb_S6x256_S1x64_2_0, (k0_pay81 (View.ld x2 (Rect.unit (s := S3x65x128) ![2, 0, 0] S1x1x64.size inb_S3x65x128_S1x1x64_2_0_0)))⟩,
   ⟨Rect.unit (s := S6x256) ![4, 192] S1x64.size inb_S6x256_S1x64_4_192, (k0_pay51 (View.ld x2 (Rect.unit (s := S3x65x128) ![1, 0, 64] S1x1x64.size inb_S3x65x128_S1x1x64_1_0_64)))⟩,
   ⟨Rect.unit (s := S6x256) ![4, 64] S1x64.size inb_S6x256_S1x64_4_64, (k0_pay50 (View.ld x2 (Rect.unit (s := S3x65x128) ![1, 0, 0] S1x1x64.size inb_S3x65x128_S1x1x64_1_0_0)))⟩,
   ⟨Rect.unit (s := S6x256) ![1, 128] S1x64.size inb_S6x256_S1x64_1_128, (k0_pay49 (View.ld x2 (Rect.unit (s := S3x65x128) ![1, 0, 64] S1x1x64.size inb_S3x65x128_S1x1x64_1_0_64)))⟩,
   ⟨Rect.unit (s := S6x256) ![1, 0] S1x64.size inb_S6x256_S1x64_1_0, (k0_pay48 (k0_pay47 (View.ld x2 (Rect.unit (s := S3x65x128) ![1, 0, 0] S1x1x64.size inb_S3x65x128_S1x1x64_1_0_0))))⟩,
   ⟨Rect.unit (s := S6x256) ![3, 192] S1x64.size inb_S6x256_S1x64_3_192, (k0_pay16 (View.ld x2 (Rect.unit (s := S3x65x128) ![0, 0, 64] S1x1x64.size inb_S3x65x128_S1x1x64_0_0_64)))⟩,
   ⟨Rect.unit (s := S6x256) ![3, 64] S1x64.size inb_S6x256_S1x64_3_64, (k0_pay15 (View.ld x2 (Rect.unit (s := S3x65x128) ![0, 0, 0] S1x1x64.size inb_S3x65x128_S1x1x64_0_0_0)))⟩,
   ⟨Rect.unit (s := S6x256) ![0, 128] S1x64.size inb_S6x256_S1x64_0_128, (k0_pay14 (View.ld x2 (Rect.unit (s := S3x65x128) ![0, 0, 64] S1x1x64.size inb_S3x65x128_S1x1x64_0_0_64)))⟩,
   ⟨Rect.unit (s := S6x256) ![0, 0] S1x64.size inb_S6x256_S1x64_0_0, (k0_pay13 (View.ld x2 (Rect.unit (s := S3x65x128) ![0, 0, 0] S1x1x64.size inb_S3x65x128_S1x1x64_0_0_0)))⟩,
   ⟨Rect.unit (s := S6x256) ![0, 0] S6x256.size inb_S6x256_S6x256_0_0, (k0_pay5 (F := F))⟩]

def pieces0_15 (x0 : Vec F S512x512 .f32) (x1 : Vec F S512x64 .f32) (x2 : Vec F S3x65x128 .f32) (x3 : Vec F S3x65x64 .f32) (x4 : Vec F S3x128x128 .f32) (x5 : Vec F S3x128x64 .f32) (x6 : Vec F S1x128 .f32) (x7 : Vec F S1x64 .f32) (x8 : Vec F S1x128 .f32) (x9 : Vec F S1x64 .f32) (x10 : Vec F S64x1 .f32) :
    List (View.Piece (Elt F) S3x128x256 .f32) :=
  [⟨Rect.unit (s := S3x128x256) ![2, 64, 192] S1x64x64.size inb_S3x128x256_S1x64x64_2_64_192, (k0_pay92 (View.ld x2 (Rect.unit (s := S3x65x128) ![2, 1, 64] S1x64x64.size inb_S3x65x128_S1x64x64_2_1_64)))⟩,
   ⟨Rect.unit (s := S3x128x256) ![2, 64, 64] S1x64x64.size inb_S3x128x256_S1x64x64_2_64_64, (k0_pay91 (View.ld x2 (Rect.unit (s := S3x65x128) ![2, 1, 0] S1x64x64.size inb_S3x65x128_S1x64x64_2_1_0)))⟩,
   ⟨Rect.unit (s := S3x128x256) ![2, 0, 128] S1x64x64.size inb_S3x128x256_S1x64x64_2_0_128, (k0_pay90 (View.ld x2 (Rect.unit (s := S3x65x128) ![2, 1, 64] S1x64x64.size inb_S3x65x128_S1x64x64_2_1_64)))⟩,
   ⟨Rect.unit (s := S3x128x256) ![2, 0, 0] S1x64x64.size inb_S3x128x256_S1x64x64_2_0_0, (k0_pay89 (View.ld x2 (Rect.unit (s := S3x65x128) ![2, 1, 0] S1x64x64.size inb_S3x65x128_S1x64x64_2_1_0)))⟩,
   ⟨Rect.unit (s := S3x128x256) ![1, 64, 192] S1x64x64.size inb_S3x128x256_S1x64x64_1_64_192, (k0_pay59 (View.ld x2 (Rect.unit (s := S3x65x128) ![1, 1, 64] S1x64x64.size inb_S3x65x128_S1x64x64_1_1_64)))⟩,
   ⟨Rect.unit (s := S3x128x256) ![1, 64, 64] S1x64x64.size inb_S3x128x256_S1x64x64_1_64_64, (k0_pay58 (View.ld x2 (Rect.unit (s := S3x65x128) ![1, 1, 0] S1x64x64.size inb_S3x65x128_S1x64x64_1_1_0)))⟩,
   ⟨Rect.unit (s := S3x128x256) ![1, 0, 128] S1x64x64.size inb_S3x128x256_S1x64x64_1_0_128, (k0_pay57 (View.ld x2 (Rect.unit (s := S3x65x128) ![1, 1, 64] S1x64x64.size inb_S3x65x128_S1x64x64_1_1_64)))⟩,
   ⟨Rect.unit (s := S3x128x256) ![1, 0, 0] S1x64x64.size inb_S3x128x256_S1x64x64_1_0_0, (k0_pay56 (View.ld x2 (Rect.unit (s := S3x65x128) ![1, 1, 0] S1x64x64.size inb_S3x65x128_S1x64x64_1_1_0)))⟩,
   ⟨Rect.unit (s := S3x128x256) ![0, 64, 192] S1x64x64.size inb_S3x128x256_S1x64x64_0_64_192, (k0_pay25 (View.ld x2 (Rect.unit (s := S3x65x128) ![0, 1, 64] S1x64x64.size inb_S3x65x128_S1x64x64_0_1_64)))⟩,
   ⟨Rect.unit (s := S3x128x256) ![0, 64, 64] S1x64x64.size inb_S3x128x256_S1x64x64_0_64_64, (k0_pay24 (View.ld x2 (Rect.unit (s := S3x65x128) ![0, 1, 0] S1x64x64.size inb_S3x65x128_S1x64x64_0_1_0)))⟩,
   ⟨Rect.unit (s := S3x128x256) ![0, 0, 128] S1x64x64.size inb_S3x128x256_S1x64x64_0_0_128, (k0_pay23 (View.ld x2 (Rect.unit (s := S3x65x128) ![0, 1, 64] S1x64x64.size inb_S3x65x128_S1x64x64_0_1_64)))⟩,
   ⟨Rect.unit (s := S3x128x256) ![0, 0, 0] S1x64x64.size inb_S3x128x256_S1x64x64_0_0_0, (k0_pay22 (View.ld x2 (Rect.unit (s := S3x65x128) ![0, 1, 0] S1x64x64.size inb_S3x65x128_S1x64x64_0_1_0)))⟩,
   ⟨Rect.unit (s := S3x128x256) ![0, 0, 0] S3x128x256.size inb_S3x128x256_S3x128x256_0_0_0, (k0_pay7 (F := F))⟩]

def pieces0_16 (x0 : Vec F S512x512 .f32) (x1 : Vec F S512x64 .f32) (x2 : Vec F S3x65x128 .f32) (x3 : Vec F S3x65x64 .f32) (x4 : Vec F S3x128x128 .f32) (x5 : Vec F S3x128x64 .f32) (x6 : Vec F S1x128 .f32) (x7 : Vec F S1x64 .f32) (x8 : Vec F S1x128 .f32) (x9 : Vec F S1x64 .f32) (x10 : Vec F S64x1 .f32) :
    List (View.Piece (Elt F) S1x256 .f32) :=
  [⟨Rect.unit (s := S1x256) ![0, 192] S1x64.size inb_S1x256_S1x64_0_192, (k0_pay117 (View.ld x6 (Rect.unit (s := S1x128) ![0, 64] S1x64.size inb_S1x128_S1x64_0_64)))⟩,
   ⟨Rect.unit (s := S1x256) ![0, 128] S1x64.size inb_S1x256_S1x64_0_128, (k0_pay116 (View.ld x6 (Rect.unit (s := S1x128) ![0, 64] S1x64.size inb_S1x128_S1x64_0_64)))⟩,
   ⟨Rect.unit (s := S1x256) ![0, 64] S1x64.size inb_S1x256_S1x64_0_64, (k0_pay115 (View.ld x6 (Rect.unit (s := S1x128) ![0, 0] S1x64.size inb_S1x128_S1x64_0_0)))⟩,
   ⟨Rect.unit (s := S1x256) ![0, 0] S1x64.size inb_S1x256_S1x64_0_0, (k0_pay114 (View.ld x6 (Rect.unit (s := S1x128) ![0, 0] S1x64.size inb_S1x128_S1x64_0_0)))⟩]

def pieces0_17 (x0 : Vec F S512x512 .f32) (x1 : Vec F S512x64 .f32) (x2 : Vec F S3x65x128 .f32) (x3 : Vec F S3x65x64 .f32) (x4 : Vec F S3x128x128 .f32) (x5 : Vec F S3x128x64 .f32) (x6 : Vec F S1x128 .f32) (x7 : Vec F S1x64 .f32) (x8 : Vec F S1x128 .f32) (x9 : Vec F S1x64 .f32) (x10 : Vec F S64x1 .f32) :
    List (View.Piece (Elt F) S6x128 .f32) :=
  [⟨Rect.unit (s := S6x128) ![5, 64] S1x64.size inb_S6x128_S1x64_5_64, (k0_pay86 (View.ld x3 (Rect.unit (s := S3x65x64) ![2, 0, 0] S1x1x64.size inb_S3x65x64_S1x1x64_2_0_0)))⟩,
   ⟨Rect.unit (s := S6x128) ![2, 0] S1x64.size inb_S6x128_S1x64_2_0, (k0_pay85 (View.ld x3 (Rect.unit (s := S3x65x64) ![2, 0, 0] S1x1x64.size inb_S3x65x64_S1x1x64_2_0_0)))⟩,
   ⟨Rect.unit (s := S6x128) ![4, 64] S1x64.size inb_S6x128_S1x64_4_64, (k0_pay53 (View.ld x3 (Rect.unit (s := S3x65x64) ![1, 0, 0] S1x1x64.size inb_S3x65x64_S1x1x64_1_0_0)))⟩,
   ⟨Rect.unit (s := S6x128) ![1, 0] S1x64.size inb_S6x128_S1x64_1_0, (k0_pay52 (View.ld x3 (Rect.unit (s := S3x65x64) ![1, 0, 0] S1x1x64.size inb_S3x65x64_S1x1x64_1_0_0)))⟩,
   ⟨Rect.unit (s := S6x128) ![3, 64] S1x64.size inb_S6x128_S1x64_3_64, (k0_pay19 (k0_pay18 (View.ld x3 (Rect.unit (s := S3x65x64) ![0, 0, 0] S1x1x64.size inb_S3x65x64_S1x1x64_0_0_0))))⟩,
   ⟨Rect.unit (s := S6x128) ![0, 0] S1x64.size inb_S6x128_S1x64_0_0, (k0_pay17 (View.ld x3 (Rect.unit (s := S3x65x64) ![0, 0, 0] S1x1x64.size inb_S3x65x64_S1x1x64_0_0_0)))⟩,
   ⟨Rect.unit (s := S6x128) ![0, 0] S6x128.size inb_S6x128_S6x128_0_0, (k0_pay6 (F := F))⟩]

def pieces0_18 (x0 : Vec F S512x512 .f32) (x1 : Vec F S512x64 .f32) (x2 : Vec F S3x65x128 .f32) (x3 : Vec F S3x65x64 .f32) (x4 : Vec F S3x128x128 .f32) (x5 : Vec F S3x128x64 .f32) (x6 : Vec F S1x128 .f32) (x7 : Vec F S1x64 .f32) (x8 : Vec F S1x128 .f32) (x9 : Vec F S1x64 .f32) (x10 : Vec F S64x1 .f32) :
    List (View.Piece (Elt F) S3x128x128 .f32) :=
  [⟨Rect.unit (s := S3x128x128) ![2, 64, 64] S1x64x64.size inb_S3x128x128_S1x64x64_2_64_64, (k0_pay95 (View.ld x3 (Rect.unit (s := S3x65x64) ![2, 1, 0] S1x64x64.size inb_S3x65x64_S1x64x64_2_1_0)))⟩,
   ⟨Rect.unit (s := S3x128x128) ![2, 0, 0] S1x64x64.size inb_S3x128x128_S1x64x64_2_0_0, (k0_pay94 (View.ld x3 (Rect.unit (s := S3x65x64) ![2, 1, 0] S1x64x64.size inb_S3x65x64_S1x64x64_2_1_0)))⟩,
   ⟨Rect.unit (s := S3x128x128) ![1, 64, 64] S1x64x64.size inb_S3x128x128_S1x64x64_1_64_64, (k0_pay62 (View.ld x3 (Rect.unit (s := S3x65x64) ![1, 1, 0] S1x64x64.size inb_S3x65x64_S1x64x64_1_1_0)))⟩,
   ⟨Rect.unit (s := S3x128x128) ![1, 0, 0] S1x64x64.size inb_S3x128x128_S1x64x64_1_0_0, (k0_pay61 (View.ld x3 (Rect.unit (s := S3x65x64) ![1, 1, 0] S1x64x64.size inb_S3x65x64_S1x64x64_1_1_0)))⟩,
   ⟨Rect.unit (s := S3x128x128) ![0, 64, 64] S1x64x64.size inb_S3x128x128_S1x64x64_0_64_64, (k0_pay28 (View.ld x3 (Rect.unit (s := S3x65x64) ![0, 1, 0] S1x64x64.size inb_S3x65x64_S1x64x64_0_1_0)))⟩,
   ⟨Rect.unit (s := S3x128x128) ![0, 0, 0] S1x64x64.size inb_S3x128x128_S1x64x64_0_0_0, (k0_pay27 (View.ld x3 (Rect.unit (s := S3x65x64) ![0, 1, 0] S1x64x64.size inb_S3x65x64_S1x64x64_0_1_0)))⟩,
   ⟨Rect.unit (s := S3x128x128) ![0, 0, 0] S3x128x128.size inb_S3x128x128_S3x128x128_0_0_0, (k0_pay8 (F := F))⟩]

def pieces0_19 (x0 : Vec F S512x512 .f32) (x1 : Vec F S512x64 .f32) (x2 : Vec F S3x65x128 .f32) (x3 : Vec F S3x65x64 .f32) (x4 : Vec F S3x128x128 .f32) (x5 : Vec F S3x128x64 .f32) (x6 : Vec F S1x128 .f32) (x7 : Vec F S1x64 .f32) (x8 : Vec F S1x128 .f32) (x9 : Vec F S1x64 .f32) (x10 : Vec F S64x1 .f32) :
    List (View.Piece (Elt F) S1x128 .f32) :=
  [⟨Rect.unit (s := S1x128) ![0, 64] S1x64.size inb_S1x128_S1x64_0_64, (k0_pay119 (View.ld x7 (Rect.unit (s := S1x64) ![0, 0] S1x64.size inb_S1x64_S1x64_0_0)))⟩,
   ⟨Rect.unit (s := S1x128) ![0, 0] S1x64.size inb_S1x128_S1x64_0_0, (k0_pay118 (View.ld x7 (Rect.unit (s := S1x64) ![0, 0] S1x64.size inb_S1x64_S1x64_0_0)))⟩]

def pieces0_20 (x0 : Vec F S512x512 .f32) (x1 : Vec F S512x64 .f32) (x2 : Vec F S3x65x128 .f32) (x3 : Vec F S3x65x64 .f32) (x4 : Vec F S3x128x128 .f32) (x5 : Vec F S3x128x64 .f32) (x6 : Vec F S1x128 .f32) (x7 : Vec F S1x64 .f32) (x8 : Vec F S1x128 .f32) (x9 : Vec F S1x64 .f32) (x10 : Vec F S64x1 .f32) :
    List (View.Piece (Elt F) S3x128x256 .f32) :=
  [⟨Rect.unit (s := S3x128x256) ![2, 64, 192] S1x64x64.size inb_S3x128x256_S1x64x64_2_64_192, (k0_pay101 (View.ld x4 (Rect.unit (s := S3x128x128) ![2, 0, 64] S1x64x64.size inb_S3x128x128_S1x64x64_2_0_64)))⟩,
   ⟨Rect.unit (s := S3x128x256) ![2, 64, 64] S1x64x64.size inb_S3x128x256_S1x64x64_2_64_64, (k0_pay100 (k0_pay96 (View.ld x4 (Rect.unit (s := S3x128x128) ![2, 0, 0] S1x64x64.size inb_S3x128x128_S1x64x64_2_0_0))))⟩,
   ⟨Rect.unit (s := S3x128x256) ![2, 0, 128] S1x64x64.size inb_S3x128x256_S1x64x64_2_0_128, (k0_pay99 (View.ld x4 (Rect.unit (s := S3x128x128) ![2, 0, 64] S1x64x64.size inb_S3x128x128_S1x64x64_2_0_64)))⟩,
   ⟨Rect.unit (s := S3x128x256) ![2, 0, 0] S1x64x64.size inb_S3x128x256_S1x64x64_2_0_0, (k0_pay98 (k0_pay96 (View.ld x4 (Rect.unit (s := S3x128x128) ![2, 0, 0] S1x64x64.size inb_S3x128x128_S1x64x64_2_0_0))))⟩,
   ⟨Rect.unit (s := S3x128x256) ![1, 64, 192] S1x64x64.size inb_S3x128x256_S1x64x64_1_64_192, (k0_pay68 (View.ld x4 (Rect.unit (s := S3x128x128) ![1, 0, 64] S1x64x64.size inb_S3x128x128_S1x64x64_1_0_64)))⟩,
   ⟨Rect.unit (s := S3x128x256) ![1, 64, 64] S1x64x64.size inb_S3x128x256_S1x64x64_1_64_64, (k0_pay67 (View.ld x4 (Rect.unit (s := S3x128x128) ![1, 0, 0] S1x64x64.size inb_S3x128x128_S1x64x64_1_0_0)))⟩,
   ⟨Rect.unit (s := S3x128x256) ![1, 0, 128] S1x64x64.size inb_S3x128x256_S1x64x64_1_0_128, (k0_pay66 (View.ld x4 (Rect.unit (s := S3x128x128) ![1, 0, 64] S1x64x64.size inb_S3x128x128_S1x64x64_1_0_64)))⟩,
   ⟨Rect.unit (s := S3x128x256) ![1, 0, 0] S1x64x64.size inb_S3x128x256_S1x64x64_1_0_0, (k0_pay65 (View.ld x4 (Rect.unit (s := S3x128x128) ![1, 0, 0] S1x64x64.size inb_S3x128x128_S1x64x64_1_0_0)))⟩,
   ⟨Rect.unit (s := S3x128x256) ![0, 64, 192] S1x64x64.size inb_S3x128x256_S1x64x64_0_64_192, (k0_pay34 (View.ld x4 (Rect.unit (s := S3x128x128) ![0, 0, 64] S1x64x64.size inb_S3x128x128_S1x64x64_0_0_64)))⟩,
   ⟨Rect.unit (s := S3x128x256) ![0, 64, 64] S1x64x64.size inb_S3x128x256_S1x64x64_0_64_64, (k0_pay33 (View.ld x4 (Rect.unit (s := S3x128x128) ![0, 0, 0] S1x64x64.size inb_S3x128x128_S1x64x64_0_0_0)))⟩,
   ⟨Rect.unit (s := S3x128x256) ![0, 0, 128] S1x64x64.size inb_S3x128x256_S1x64x64_0_0_128, (k0_pay32 (View.ld x4 (Rect.unit (s := S3x128x128) ![0, 0, 64] S1x64x64.size inb_S3x128x128_S1x64x64_0_0_64)))⟩,
   ⟨Rect.unit (s := S3x128x256) ![0, 0, 0] S1x64x64.size inb_S3x128x256_S1x64x64_0_0_0, (k0_pay31 (View.ld x4 (Rect.unit (s := S3x128x128) ![0, 0, 0] S1x64x64.size inb_S3x128x128_S1x64x64_0_0_0)))⟩,
   ⟨Rect.unit (s := S3x128x256) ![0, 0, 0] S3x128x256.size inb_S3x128x256_S3x128x256_0_0_0, (k0_pay9 (F := F))⟩]

def pieces0_21 (x0 : Vec F S512x512 .f32) (x1 : Vec F S512x64 .f32) (x2 : Vec F S3x65x128 .f32) (x3 : Vec F S3x65x64 .f32) (x4 : Vec F S3x128x128 .f32) (x5 : Vec F S3x128x64 .f32) (x6 : Vec F S1x128 .f32) (x7 : Vec F S1x64 .f32) (x8 : Vec F S1x128 .f32) (x9 : Vec F S1x64 .f32) (x10 : Vec F S64x1 .f32) :
    List (View.Piece (Elt F) S3x128x256 .f32) :=
  [⟨Rect.unit (s := S3x128x256) ![2, 64, 192] S1x64x64.size inb_S3x128x256_S1x64x64_2_64_192, (k0_pay107 (k0_pay103 (View.ld x4 (Rect.unit (s := S3x128x128) ![2, 64, 64] S1x64x64.size inb_S3x128x128_S1x64x64_2_64_64))))⟩,
   ⟨Rect.unit (s := S3x128x256) ![2, 64, 64] S1x64x64.size inb_S3x128x256_S1x64x64_2_64_64, (k0_pay106 (k0_pay102 (View.ld x4 (Rect.unit (s := S3x128x128) ![2, 64, 0] S1x64x64.size inb_S3x128x128_S1x64x64_2_64_0))))⟩,
   ⟨Rect.unit (s := S3x128x256) ![2, 0, 128] S1x64x64.size inb_S3x128x256_S1x64x64_2_0_128, (k0_pay105 (View.ld x4 (Rect.unit (s := S3x128x128) ![2, 64, 64] S1x64x64.size inb_S3x128x128_S1x64x64_2_64_64)))⟩,
   ⟨Rect.unit (s := S3x128x256) ![2, 0, 0] S1x64x64.size inb_S3x128x256_S1x64x64_2_0_0, (k0_pay104 (View.ld x4 (Rect.unit (s := S3x128x128) ![2, 64, 0] S1x64x64.size inb_S3x128x128_S1x64x64_2_64_0)))⟩,
   ⟨Rect.unit (s := S3x128x256) ![1, 64, 192] S1x64x64.size inb_S3x128x256_S1x64x64_1_64_192, (k0_pay74 (k0_pay70 (View.ld x4 (Rect.unit (s := S3x128x128) ![1, 64, 64] S1x64x64.size inb_S3x128x128_S1x64x64_1_64_64))))⟩,
   ⟨Rect.unit (s := S3x128x256) ![1, 64, 64] S1x64x64.size inb_S3x128x256_S1x64x64_1_64_64, (k0_pay73 (k0_pay69 (View.ld x4 (Rect.unit (s := S3x128x128) ![1, 64, 0] S1x64x64.size inb_S3x128x128_S1x64x64_1_64_0))))⟩,
   ⟨Rect.unit (s := S3x128x256) ![1, 0, 128] S1x64x64.size inb_S3x128x256_S1x64x64_1_0_128, (k0_pay72 (View.ld x4 (Rect.unit (s := S3x128x128) ![1, 64, 64] S1x64x64.size inb_S3x128x128_S1x64x64_1_64_64)))⟩,
   ⟨Rect.unit (s := S3x128x256) ![1, 0, 0] S1x64x64.size inb_S3x128x256_S1x64x64_1_0_0, (k0_pay71 (View.ld x4 (Rect.unit (s := S3x128x128) ![1, 64, 0] S1x64x64.size inb_S3x128x128_S1x64x64_1_64_0)))⟩,
   ⟨Rect.unit (s := S3x128x256) ![0, 64, 192] S1x64x64.size inb_S3x128x256_S1x64x64_0_64_192, (k0_pay40 (k0_pay36 (View.ld x4 (Rect.unit (s := S3x128x128) ![0, 64, 64] S1x64x64.size inb_S3x128x128_S1x64x64_0_64_64))))⟩,
   ⟨Rect.unit (s := S3x128x256) ![0, 64, 64] S1x64x64.size inb_S3x128x256_S1x64x64_0_64_64, (k0_pay39 (k0_pay35 (View.ld x4 (Rect.unit (s := S3x128x128) ![0, 64, 0] S1x64x64.size inb_S3x128x128_S1x64x64_0_64_0))))⟩,
   ⟨Rect.unit (s := S3x128x256) ![0, 0, 128] S1x64x64.size inb_S3x128x256_S1x64x64_0_0_128, (k0_pay38 (View.ld x4 (Rect.unit (s := S3x128x128) ![0, 64, 64] S1x64x64.size inb_S3x128x128_S1x64x64_0_64_64)))⟩,
   ⟨Rect.unit (s := S3x128x256) ![0, 0, 0] S1x64x64.size inb_S3x128x256_S1x64x64_0_0_0, (k0_pay37 (View.ld x4 (Rect.unit (s := S3x128x128) ![0, 64, 0] S1x64x64.size inb_S3x128x128_S1x64x64_0_64_0)))⟩,
   ⟨Rect.unit (s := S3x128x256) ![0, 0, 0] S3x128x256.size inb_S3x128x256_S3x128x256_0_0_0, (k0_pay10 (F := F))⟩]

def pieces0_22 (x0 : Vec F S512x512 .f32) (x1 : Vec F S512x64 .f32) (x2 : Vec F S3x65x128 .f32) (x3 : Vec F S3x65x64 .f32) (x4 : Vec F S3x128x128 .f32) (x5 : Vec F S3x128x64 .f32) (x6 : Vec F S1x128 .f32) (x7 : Vec F S1x64 .f32) (x8 : Vec F S1x128 .f32) (x9 : Vec F S1x64 .f32) (x10 : Vec F S64x1 .f32) :
    List (View.Piece (Elt F) S1x256 .f32) :=
  [⟨Rect.unit (s := S1x256) ![0, 192] S1x64.size inb_S1x256_S1x64_0_192, (k0_pay123 (View.ld x8 (Rect.unit (s := S1x128) ![0, 64] S1x64.size inb_S1x128_S1x64_0_64)))⟩,
   ⟨Rect.unit (s := S1x256) ![0, 128] S1x64.size inb_S1x256_S1x64_0_128, (k0_pay122 (View.ld x8 (Rect.unit (s := S1x128) ![0, 64] S1x64.size inb_S1x128_S1x64_0_64)))⟩,
   ⟨Rect.unit (s := S1x256) ![0, 64] S1x64.size inb_S1x256_S1x64_0_64, (k0_pay121 (View.ld x8 (Rect.unit (s := S1x128) ![0, 0] S1x64.size inb_S1x128_S1x64_0_0)))⟩,
   ⟨Rect.unit (s := S1x256) ![0, 0] S1x64.size inb_S1x256_S1x64_0_0, (k0_pay120 (View.ld x8 (Rect.unit (s := S1x128) ![0, 0] S1x64.size inb_S1x128_S1x64_0_0)))⟩]

def pieces0_23 (x0 : Vec F S512x512 .f32) (x1 : Vec F S512x64 .f32) (x2 : Vec F S3x65x128 .f32) (x3 : Vec F S3x65x64 .f32) (x4 : Vec F S3x128x128 .f32) (x5 : Vec F S3x128x64 .f32) (x6 : Vec F S1x128 .f32) (x7 : Vec F S1x64 .f32) (x8 : Vec F S1x128 .f32) (x9 : Vec F S1x64 .f32) (x10 : Vec F S64x1 .f32) :
    List (View.Piece (Elt F) S3x128x128 .f32) :=
  [⟨Rect.unit (s := S3x128x128) ![2, 64, 64] S1x64x64.size inb_S3x128x128_S1x64x64_2_64_64, (k0_pay110 (View.ld x5 (Rect.unit (s := S3x128x64) ![2, 0, 0] S1x64x64.size inb_S3x128x64_S1x64x64_2_0_0)))⟩,
   ⟨Rect.unit (s := S3x128x128) ![2, 0, 0] S1x64x64.size inb_S3x128x128_S1x64x64_2_0_0, (k0_pay109 (View.ld x5 (Rect.unit (s := S3x128x64) ![2, 0, 0] S1x64x64.size inb_S3x128x64_S1x64x64_2_0_0)))⟩,
   ⟨Rect.unit (s := S3x128x128) ![1, 64, 64] S1x64x64.size inb_S3x128x128_S1x64x64_1_64_64, (k0_pay77 (View.ld x5 (Rect.unit (s := S3x128x64) ![1, 0, 0] S1x64x64.size inb_S3x128x64_S1x64x64_1_0_0)))⟩,
   ⟨Rect.unit (s := S3x128x128) ![1, 0, 0] S1x64x64.size inb_S3x128x128_S1x64x64_1_0_0, (k0_pay76 (View.ld x5 (Rect.unit (s := S3x128x64) ![1, 0, 0] S1x64x64.size inb_S3x128x64_S1x64x64_1_0_0)))⟩,
   ⟨Rect.unit (s := S3x128x128) ![0, 64, 64] S1x64x64.size inb_S3x128x128_S1x64x64_0_64_64, (k0_pay43 (View.ld x5 (Rect.unit (s := S3x128x64) ![0, 0, 0] S1x64x64.size inb_S3x128x64_S1x64x64_0_0_0)))⟩,
   ⟨Rect.unit (s := S3x128x128) ![0, 0, 0] S1x64x64.size inb_S3x128x128_S1x64x64_0_0_0, (k0_pay42 (View.ld x5 (Rect.unit (s := S3x128x64) ![0, 0, 0] S1x64x64.size inb_S3x128x64_S1x64x64_0_0_0)))⟩,
   ⟨Rect.unit (s := S3x128x128) ![0, 0, 0] S3x128x128.size inb_S3x128x128_S3x128x128_0_0_0, (k0_pay11 (F := F))⟩]

def pieces0_24 (x0 : Vec F S512x512 .f32) (x1 : Vec F S512x64 .f32) (x2 : Vec F S3x65x128 .f32) (x3 : Vec F S3x65x64 .f32) (x4 : Vec F S3x128x128 .f32) (x5 : Vec F S3x128x64 .f32) (x6 : Vec F S1x128 .f32) (x7 : Vec F S1x64 .f32) (x8 : Vec F S1x128 .f32) (x9 : Vec F S1x64 .f32) (x10 : Vec F S64x1 .f32) :
    List (View.Piece (Elt F) S3x128x128 .f32) :=
  [⟨Rect.unit (s := S3x128x128) ![2, 64, 64] S1x64x64.size inb_S3x128x128_S1x64x64_2_64_64, (k0_pay113 (View.ld x5 (Rect.unit (s := S3x128x64) ![2, 64, 0] S1x64x64.size inb_S3x128x64_S1x64x64_2_64_0)))⟩,
   ⟨Rect.unit (s := S3x128x128) ![2, 0, 0] S1x64x64.size inb_S3x128x128_S1x64x64_2_0_0, (k0_pay112 (View.ld x5 (Rect.unit (s := S3x128x64) ![2, 64, 0] S1x64x64.size inb_S3x128x64_S1x64x64_2_64_0)))⟩,
   ⟨Rect.unit (s := S3x128x128) ![1, 64, 64] S1x64x64.size inb_S3x128x128_S1x64x64_1_64_64, (k0_pay80 (View.ld x5 (Rect.unit (s := S3x128x64) ![1, 64, 0] S1x64x64.size inb_S3x128x64_S1x64x64_1_64_0)))⟩,
   ⟨Rect.unit (s := S3x128x128) ![1, 0, 0] S1x64x64.size inb_S3x128x128_S1x64x64_1_0_0, (k0_pay79 (View.ld x5 (Rect.unit (s := S3x128x64) ![1, 64, 0] S1x64x64.size inb_S3x128x64_S1x64x64_1_64_0)))⟩,
   ⟨Rect.unit (s := S3x128x128) ![0, 64, 64] S1x64x64.size inb_S3x128x128_S1x64x64_0_64_64, (k0_pay46 (View.ld x5 (Rect.unit (s := S3x128x64) ![0, 64, 0] S1x64x64.size inb_S3x128x64_S1x64x64_0_64_0)))⟩,
   ⟨Rect.unit (s := S3x128x128) ![0, 0, 0] S1x64x64.size inb_S3x128x128_S1x64x64_0_0_0, (k0_pay45 (View.ld x5 (Rect.unit (s := S3x128x64) ![0, 64, 0] S1x64x64.size inb_S3x128x64_S1x64x64_0_64_0)))⟩,
   ⟨Rect.unit (s := S3x128x128) ![0, 0, 0] S3x128x128.size inb_S3x128x128_S3x128x128_0_0_0, (k0_pay12 (F := F))⟩]

def pieces0_25 (x0 : Vec F S512x512 .f32) (x1 : Vec F S512x64 .f32) (x2 : Vec F S3x65x128 .f32) (x3 : Vec F S3x65x64 .f32) (x4 : Vec F S3x128x128 .f32) (x5 : Vec F S3x128x64 .f32) (x6 : Vec F S1x128 .f32) (x7 : Vec F S1x64 .f32) (x8 : Vec F S1x128 .f32) (x9 : Vec F S1x64 .f32) (x10 : Vec F S64x1 .f32) :
    List (View.Piece (Elt F) S1x128 .f32) :=
  [⟨Rect.unit (s := S1x128) ![0, 64] S1x64.size inb_S1x128_S1x64_0_64, (k0_pay125 (View.ld x9 (Rect.unit (s := S1x64) ![0, 0] S1x64.size inb_S1x64_S1x64_0_0)))⟩,
   ⟨Rect.unit (s := S1x128) ![0, 0] S1x64.size inb_S1x128_S1x64_0_0, (k0_pay124 (View.ld x9 (Rect.unit (s := S1x64) ![0, 0] S1x64.size inb_S1x64_S1x64_0_0)))⟩]

def pieces0_26 (x0 : Vec F S512x512 .f32) (x1 : Vec F S512x64 .f32) (x2 : Vec F S3x65x128 .f32) (x3 : Vec F S3x65x64 .f32) (x4 : Vec F S3x128x128 .f32) (x5 : Vec F S3x128x64 .f32) (x6 : Vec F S1x128 .f32) (x7 : Vec F S1x64 .f32) (x8 : Vec F S1x128 .f32) (x9 : Vec F S1x64 .f32) (x10 : Vec F S64x1 .f32) :
    List (View.Piece (Elt F) S128x2 .f32) :=
  [⟨Rect.unit (s := S128x2) ![64, 1] S64x1.size inb_S128x2_S64x1_64_1, (View.ld x10 (Rect.unit (s := S64x1) ![0, 0] S64x1.size inb_S64x1_S64x1_0_0))⟩,
   ⟨Rect.unit (s := S128x2) ![0, 0] S64x1.size inb_S128x2_S64x1_0_0, (View.ld x10 (Rect.unit (s := S64x1) ![0, 0] S64x1.size inb_S64x1_S64x1_0_0))⟩,
   ⟨Rect.unit (s := S128x2) ![0, 0] S128x2.size inb_S128x2_S128x2_0_0, (k0_pay126 (F := F))⟩]

end Cert.KernelIdeal.Hand

end
-- ==== Proof.KI.R0Canon.lean ====
import proofs.«107218_g19069654794669_cont_sun_m_30_13_alg».proof.Proof.KI.R0
import proofs.«107218_g19069654794669_cont_sun_m_30_13_alg».proof.Proof.KI.R0Pieces

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

section
variable (c : Dev nD) (arg0 : Memref sig .tc .vmem S512x512 .f32) (harg0 : arg0.IsWhole) (arg1 : Memref sig .tc .vmem S512x64 .f32) (harg1 : arg1.IsWhole) (arg2 : Memref sig .tc .vmem S3x65x128 .f32) (harg2 : arg2.IsWhole) (arg3 : Memref sig .tc .vmem S3x65x64 .f32) (harg3 : arg3.IsWhole) (arg4 : Memref sig .tc .vmem S3x128x128 .f32) (harg4 : arg4.IsWhole) (arg5 : Memref sig .tc .vmem S3x128x64 .f32) (harg5 : arg5.IsWhole) (arg6 : Memref sig .tc .vmem S1x128 .f32) (harg6 : arg6.IsWhole) (arg7 : Memref sig .tc .vmem S1x64 .f32) (harg7 : arg7.IsWhole) (arg8 : Memref sig .tc .vmem S1x128 .f32) (harg8 : arg8.IsWhole) (arg9 : Memref sig .tc .vmem S1x64 .f32) (harg9 : arg9.IsWhole) (arg10 : Memref sig .tc .vmem S64x1 .f32) (harg10 : arg10.IsWhole) (arg11 : Memref sig .tc .vmem S512x512 .f32) (harg11 : arg11.IsWhole) (arg12 : Memref sig .tc .vmem S512x64 .f32) (harg12 : arg12.IsWhole) (arg13 : Memref sig .tc .vmem S512x64 .f32) (harg13 : arg13.IsWhole) (arg14 : Memref sig .tc .vmem S6x256 .f32) (harg14 : arg14.IsWhole) (arg15 : Memref sig .tc .vmem S3x128x256 .f32) (harg15 : arg15.IsWhole) (arg16 : Memref sig .tc .vmem S1x256 .f32) (harg16 : arg16.IsWhole) (arg17 : Memref sig .tc .vmem S6x128 .f32) (harg17 : arg17.IsWhole) (arg18 : Memref sig .tc .vmem S3x128x128 .f32) (harg18 : arg18.IsWhole) (arg19 : Memref sig .tc .vmem S1x128 .f32) (harg19 : arg19.IsWhole) (arg20 : Memref sig .tc .vmem S3x128x256 .f32) (harg20 : arg20.IsWhole) (arg21 : Memref sig .tc .vmem S3x128x256 .f32) (harg21 : arg21.IsWhole) (arg22 : Memref sig .tc .vmem S1x256 .f32) (harg22 : arg22.IsWhole) (arg23 : Memref sig .tc .vmem S3x128x128 .f32) (harg23 : arg23.IsWhole) (arg24 : Memref sig .tc .vmem S3x128x128 .f32) (harg24 : arg24.IsWhole) (arg25 : Memref sig .tc .vmem S1x128 .f32) (harg25 : arg25.IsWhole) (arg26 : Memref sig .tc .vmem S128x2 .f32) (harg26 : arg26.IsWhole)
    (x0 : Vec F S512x512 .f32) (x1 : Vec F S512x64 .f32) (x2 : Vec F S3x65x128 .f32) (x3 : Vec F S3x65x64 .f32) (x4 : Vec F S3x128x128 .f32) (x5 : Vec F S3x128x64 .f32) (x6 : Vec F S1x128 .f32) (x7 : Vec F S1x64 .f32) (x8 : Vec F S1x128 .f32) (x9 : Vec F S1x64 .f32) (x10 : Vec F S64x1 .f32)

theorem run0_11_pieces :
    (kernelRun0 c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 x0 x1 x2 x3 x4 x5 x6 x7 x8 x9 x10).1 = pieces0_11 x0 x1 x2 x3 x4 x5 x6 x7 x8 x9 x10 := by
  unfold kernelRun0 pieces0_11; dsimp only; sl_unfold_words
  simp only [View.readAt_eq_ld, Memref.IsWhole.read_unread] <;> rfl

theorem run0_12_pieces :
    (kernelRun0 c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 x0 x1 x2 x3 x4 x5 x6 x7 x8 x9 x10).2.1 = pieces0_12 x0 x1 x2 x3 x4 x5 x6 x7 x8 x9 x10 := by
  unfold kernelRun0 pieces0_12; dsimp only; sl_unfold_words
  simp only [View.readAt_eq_ld, Memref.IsWhole.read_unread] <;> rfl

theorem run0_13_pieces :
    (kernelRun0 c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 x0 x1 x2 x3 x4 x5 x6 x7 x8 x9 x10).2.2.1 = pieces0_13 x0 x1 x2 x3 x4 x5 x6 x7 x8 x9 x10 := by
  unfold kernelRun0 pieces0_13; dsimp only; sl_unfold_words
  simp only [View.readAt_eq_ld, Memref.IsWhole.read_unread] <;> rfl

theorem run0_14_pieces :
    (kernelRun0 c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 x0 x1 x2 x3 x4 x5 x6 x7 x8 x9 x10).2.2.2.1 = pieces0_14 x0 x1 x2 x3 x4 x5 x6 x7 x8 x9 x10 := by
  unfold kernelRun0 pieces0_14; dsimp only; sl_unfold_words
  simp only [View.readAt_eq_ld, Memref.IsWhole.read_unread] <;> rfl

theorem run0_15_pieces :
    (kernelRun0 c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 x0 x1 x2 x3 x4 x5 x6 x7 x8 x9 x10).2.2.2.2.1 = pieces0_15 x0 x1 x2 x3 x4 x5 x6 x7 x8 x9 x10 := by
  unfold kernelRun0 pieces0_15; dsimp only; sl_unfold_words
  simp only [View.readAt_eq_ld, Memref.IsWhole.read_unread] <;> rfl

theorem run0_16_pieces :
    (kernelRun0 c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 x0 x1 x2 x3 x4 x5 x6 x7 x8 x9 x10).2.2.2.2.2.1 = pieces0_16 x0 x1 x2 x3 x4 x5 x6 x7 x8 x9 x10 := by
  unfold kernelRun0 pieces0_16; dsimp only; sl_unfold_words
  simp only [View.readAt_eq_ld, Memref.IsWhole.read_unread] <;> rfl

theorem run0_17_pieces :
    (kernelRun0 c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 x0 x1 x2 x3 x4 x5 x6 x7 x8 x9 x10).2.2.2.2.2.2.1 = pieces0_17 x0 x1 x2 x3 x4 x5 x6 x7 x8 x9 x10 := by
  unfold kernelRun0 pieces0_17; dsimp only; sl_unfold_words
  simp only [View.readAt_eq_ld, Memref.IsWhole.read_unread] <;> rfl

theorem run0_18_pieces :
    (kernelRun0 c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 x0 x1 x2 x3 x4 x5 x6 x7 x8 x9 x10).2.2.2.2.2.2.2.1 = pieces0_18 x0 x1 x2 x3 x4 x5 x6 x7 x8 x9 x10 := by
  unfold kernelRun0 pieces0_18; dsimp only; sl_unfold_words
  simp only [View.readAt_eq_ld, Memref.IsWhole.read_unread] <;> rfl

theorem run0_19_pieces :
    (kernelRun0 c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 x0 x1 x2 x3 x4 x5 x6 x7 x8 x9 x10).2.2.2.2.2.2.2.2.1 = pieces0_19 x0 x1 x2 x3 x4 x5 x6 x7 x8 x9 x10 := by
  unfold kernelRun0 pieces0_19; dsimp only; sl_unfold_words
  simp only [View.readAt_eq_ld, Memref.IsWhole.read_unread] <;> rfl

theorem run0_20_pieces :
    (kernelRun0 c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 x0 x1 x2 x3 x4 x5 x6 x7 x8 x9 x10).2.2.2.2.2.2.2.2.2.1 = pieces0_20 x0 x1 x2 x3 x4 x5 x6 x7 x8 x9 x10 := by
  unfold kernelRun0 pieces0_20; dsimp only; sl_unfold_words
  simp only [View.readAt_eq_ld, Memref.IsWhole.read_unread] <;> rfl

theorem run0_21_pieces :
    (kernelRun0 c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 x0 x1 x2 x3 x4 x5 x6 x7 x8 x9 x10).2.2.2.2.2.2.2.2.2.2.1 = pieces0_21 x0 x1 x2 x3 x4 x5 x6 x7 x8 x9 x10 := by
  unfold kernelRun0 pieces0_21; dsimp only; sl_unfold_words
  simp only [View.readAt_eq_ld, Memref.IsWhole.read_unread] <;> rfl

theorem run0_22_pieces :
    (kernelRun0 c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 x0 x1 x2 x3 x4 x5 x6 x7 x8 x9 x10).2.2.2.2.2.2.2.2.2.2.2.1 = pieces0_22 x0 x1 x2 x3 x4 x5 x6 x7 x8 x9 x10 := by
  unfold kernelRun0 pieces0_22; dsimp only; sl_unfold_words
  simp only [View.readAt_eq_ld, Memref.IsWhole.read_unread] <;> rfl

theorem run0_23_pieces :
    (kernelRun0 c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 x0 x1 x2 x3 x4 x5 x6 x7 x8 x9 x10).2.2.2.2.2.2.2.2.2.2.2.2.1 = pieces0_23 x0 x1 x2 x3 x4 x5 x6 x7 x8 x9 x10 := by
  unfold kernelRun0 pieces0_23; dsimp only; sl_unfold_words
  simp only [View.readAt_eq_ld, Memref.IsWhole.read_unread] <;> rfl

theorem run0_24_pieces :
    (kernelRun0 c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 x0 x1 x2 x3 x4 x5 x6 x7 x8 x9 x10).2.2.2.2.2.2.2.2.2.2.2.2.2.1 = pieces0_24 x0 x1 x2 x3 x4 x5 x6 x7 x8 x9 x10 := by
  unfold kernelRun0 pieces0_24; dsimp only; sl_unfold_words
  simp only [View.readAt_eq_ld, Memref.IsWhole.read_unread] <;> rfl

theorem run0_25_pieces :
    (kernelRun0 c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 x0 x1 x2 x3 x4 x5 x6 x7 x8 x9 x10).2.2.2.2.2.2.2.2.2.2.2.2.2.2.1 = pieces0_25 x0 x1 x2 x3 x4 x5 x6 x7 x8 x9 x10 := by
  unfold kernelRun0 pieces0_25; dsimp only; sl_unfold_words
  simp only [View.readAt_eq_ld, Memref.IsWhole.read_unread] <;> rfl

theorem run0_26_pieces :
    (kernelRun0 c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 x0 x1 x2 x3 x4 x5 x6 x7 x8 x9 x10).2.2.2.2.2.2.2.2.2.2.2.2.2.2.2.1 = pieces0_26 x0 x1 x2 x3 x4 x5 x6 x7 x8 x9 x10 := by
  unfold kernelRun0 pieces0_26; dsimp only; sl_unfold_words
  simp only [View.readAt_eq_ld, Memref.IsWhole.read_unread] <;> rfl

end

section
variable (c : Dev nD) (t : Fin cfg0.N) (x0 : Vec F S512x512 .f32) (x1 : Vec F S512x64 .f32) (x2 : Vec F S3x65x128 .f32) (x3 : Vec F S3x65x64 .f32) (x4 : Vec F S3x128x128 .f32) (x5 : Vec F S3x128x64 .f32) (x6 : Vec F S1x128 .f32) (x7 : Vec F S1x64 .f32) (x8 : Vec F S1x128 .f32) (x9 : Vec F S1x64 .f32) (x10 : Vec F S64x1 .f32)

theorem out0_11_canon :
    out0_11 c t x0 x1 x2 x3 x4 x5 x6 x7 x8 x9 x10 = View.canon (pieces0_11 x0 x1 x2 x3 x4 x5 x6 x7 x8 x9 x10) := by
  unfold out0_11 runAt0; rw [View.read_writes_junk_eq_canon, run0_11_pieces]

theorem out0_12_canon :
    out0_12 c t x0 x1 x2 x3 x4 x5 x6 x7 x8 x9 x10 = View.canon (pieces0_12 x0 x1 x2 x3 x4 x5 x6 x7 x8 x9 x10) := by
  unfold out0_12 runAt0; rw [View.read_writes_junk_eq_canon, run0_12_pieces]

theorem out0_13_canon :
    out0_13 c t x0 x1 x2 x3 x4 x5 x6 x7 x8 x9 x10 = View.canon (pieces0_13 x0 x1 x2 x3 x4 x5 x6 x7 x8 x9 x10) := by
  unfold out0_13 runAt0; rw [View.read_writes_junk_eq_canon, run0_13_pieces]

theorem out0_14_canon :
    out0_14 c t x0 x1 x2 x3 x4 x5 x6 x7 x8 x9 x10 = View.canon (pieces0_14 x0 x1 x2 x3 x4 x5 x6 x7 x8 x9 x10) := by
  unfold out0_14 runAt0; rw [View.read_writes_junk_eq_canon, run0_14_pieces]

theorem out0_15_canon :
    out0_15 c t x0 x1 x2 x3 x4 x5 x6 x7 x8 x9 x10 = View.canon (pieces0_15 x0 x1 x2 x3 x4 x5 x6 x7 x8 x9 x10) := by
  unfold out0_15 runAt0; rw [View.read_writes_junk_eq_canon, run0_15_pieces]

theorem out0_16_canon :
    out0_16 c t x0 x1 x2 x3 x4 x5 x6 x7 x8 x9 x10 = View.canon (pieces0_16 x0 x1 x2 x3 x4 x5 x6 x7 x8 x9 x10) := by
  unfold out0_16 runAt0; rw [View.read_writes_junk_eq_canon, run0_16_pieces]

theorem out0_17_canon :
    out0_17 c t x0 x1 x2 x3 x4 x5 x6 x7 x8 x9 x10 = View.canon (pieces0_17 x0 x1 x2 x3 x4 x5 x6 x7 x8 x9 x10) := by
  unfold out0_17 runAt0; rw [View.read_writes_junk_eq_canon, run0_17_pieces]

theorem out0_18_canon :
    out0_18 c t x0 x1 x2 x3 x4 x5 x6 x7 x8 x9 x10 = View.canon (pieces0_18 x0 x1 x2 x3 x4 x5 x6 x7 x8 x9 x10) := by
  unfold out0_18 runAt0; rw [View.read_writes_junk_eq_canon, run0_18_pieces]

theorem out0_19_canon :
    out0_19 c t x0 x1 x2 x3 x4 x5 x6 x7 x8 x9 x10 = View.canon (pieces0_19 x0 x1 x2 x3 x4 x5 x6 x7 x8 x9 x10) := by
  unfold out0_19 runAt0; rw [View.read_writes_junk_eq_canon, run0_19_pieces]

theorem out0_20_canon :
    out0_20 c t x0 x1 x2 x3 x4 x5 x6 x7 x8 x9 x10 = View.canon (pieces0_20 x0 x1 x2 x3 x4 x5 x6 x7 x8 x9 x10) := by
  unfold out0_20 runAt0; rw [View.read_writes_junk_eq_canon, run0_20_pieces]

theorem out0_21_canon :
    out0_21 c t x0 x1 x2 x3 x4 x5 x6 x7 x8 x9 x10 = View.canon (pieces0_21 x0 x1 x2 x3 x4 x5 x6 x7 x8 x9 x10) := by
  unfold out0_21 runAt0; rw [View.read_writes_junk_eq_canon, run0_21_pieces]

theorem out0_22_canon :
    out0_22 c t x0 x1 x2 x3 x4 x5 x6 x7 x8 x9 x10 = View.canon (pieces0_22 x0 x1 x2 x3 x4 x5 x6 x7 x8 x9 x10) := by
  unfold out0_22 runAt0; rw [View.read_writes_junk_eq_canon, run0_22_pieces]

theorem out0_23_canon :
    out0_23 c t x0 x1 x2 x3 x4 x5 x6 x7 x8 x9 x10 = View.canon (pieces0_23 x0 x1 x2 x3 x4 x5 x6 x7 x8 x9 x10) := by
  unfold out0_23 runAt0; rw [View.read_writes_junk_eq_canon, run0_23_pieces]

theorem out0_24_canon :
    out0_24 c t x0 x1 x2 x3 x4 x5 x6 x7 x8 x9 x10 = View.canon (pieces0_24 x0 x1 x2 x3 x4 x5 x6 x7 x8 x9 x10) := by
  unfold out0_24 runAt0; rw [View.read_writes_junk_eq_canon, run0_24_pieces]

theorem out0_25_canon :
    out0_25 c t x0 x1 x2 x3 x4 x5 x6 x7 x8 x9 x10 = View.canon (pieces0_25 x0 x1 x2 x3 x4 x5 x6 x7 x8 x9 x10) := by
  unfold out0_25 runAt0; rw [View.read_writes_junk_eq_canon, run0_25_pieces]

theorem out0_26_canon :
    out0_26 c t x0 x1 x2 x3 x4 x5 x6 x7 x8 x9 x10 = View.canon (pieces0_26 x0 x1 x2 x3 x4 x5 x6 x7 x8 x9 x10) := by
  unfold out0_26 runAt0; rw [View.read_writes_junk_eq_canon, run0_26_pieces]

end

end Cert.KernelIdeal.Hand

end
-- ==== Proof.KI.ValR0Lib.lean ====
import Idealize.ShloMosaic.Lib.Pipeline.Value
import Idealize.ShloMosaic.Lib.ValueIdx
import Idealize.ShloMosaic.Lib.ValueLayout

noncomputable section

namespace Cert.KernelIdeal.Hand

open Idealize.ShloMosaic Idealize.ShloMosaic.ValueIdx

section Canon
variable {Val : EltTy → Type} [∀ e, Nonempty (Val e)] {S : Shape} {e : EltTy}

def Agrees (G : S.Idx → Val e) : List (View.Piece Val S e) → Prop
  | [] => True
  | p :: L => (∀ x : p.1.shape.Idx, p.2 x = G (p.1.emb x)) ∧ Agrees G L

def Misses (y : S.Idx) : List (View.Piece Val S e) → Prop
  | [] => True
  | p :: L => y ∉ p.1.set ∧ Misses y L

-- The first piece of `L` that covers `y` decides and agrees with `G`; if none does, the pieces `M` below decide.
theorem canon_append_apply (G : S.Idx → Val e) (y : S.Idx) (M : List (View.Piece Val S e)) :
    ∀ L : List (View.Piece Val S e), Agrees G L → (Misses y L → View.canon M y = G y) → View.canon (L ++ M) y = G y
  | [], _, hw => hw trivial
  | p :: L, hA, hw => by
    rw [List.cons_append]
    by_cases hm : y ∈ p.1.set
    · obtain ⟨x, rfl⟩ := p.1.exists_idx_of_mem hm
      rw [show p.1.idx x = p.1.emb x from rfl, View.canon_cons_emb]
      exact hA.1 x
    · rw [View.canon_cons_of_not_mem _ _ hm]
      exact canon_append_apply G y M L hA.2 fun h => hw (And.intro hm h)

theorem canon_fill_apply (G w : S.Idx → Val e) {off : Fin S.rank → ℕ} (hoff : off = fun _ => 0)
    (inb : ∀ a, off a + S.size a ≤ S.size a) (y : S.Idx) (L : List (View.Piece Val S e)) (hA : Agrees G L)
    (hw : Misses y L → w y = G y) : View.canon (L ++ [(⟨Rect.unit off S.size inb, w⟩ : View.Piece Val S e)]) y = G y :=
  canon_append_apply G y _ L hA fun h => (congrFun (View.canon_unit_zero hoff inb w) y).trans (hw h)

theorem canon_cover_apply (G : S.Idx → Val e) (y : S.Idx) (L : List (View.Piece Val S e)) (hA : Agrees G L)
    (hn : ¬Misses y L) : View.canon L y = G y := by
  have h := canon_append_apply G y [] L hA fun h => absurd h hn
  rwa [List.append_nil] at h

end Canon

section Unit
variable {α : Type} {Val : EltTy → Type} {e : EltTy} {n0 n1 n2 o0 o1 o2 z0 z1 z2 : ℕ}
  {i2 : ∀ a, (![o0, o1] : Fin 2 → ℕ) a + (![z0, z1] : Fin 2 → ℕ) a ≤ (⟨2, ![n0, n1]⟩ : Shape).size a}
  {i3 : ∀ a, (![o0, o1, o2] : Fin 3 → ℕ) a + (![z0, z1, z2] : Fin 3 → ℕ) a ≤ (⟨3, ![n0, n1, n2]⟩ : Shape).size a}

theorem not_mem_unit2 {k : Fin n0} {c : Fin n1} (h : ix2 k c ∉ (Rect.unit (s := ⟨2, ![n0, n1]⟩) ![o0, o1] ![z0, z1] i2).set) :
    ¬(o0 ≤ k.val ∧ k.val < o0 + z0 ∧ o1 ≤ c.val ∧ c.val < o1 + z1) := fun hh =>
  h (Rect.mem_set_unit.mpr fun a => match a with
    | ⟨0, _⟩ => ⟨hh.1, hh.2.1⟩
    | ⟨1, _⟩ => ⟨hh.2.2.1, hh.2.2.2⟩)

theorem not_mem_unit3 {k : Fin n0} {j : Fin n1} {c : Fin n2}
    (h : ix3 k j c ∉ (Rect.unit (s := ⟨3, ![n0, n1, n2]⟩) ![o0, o1, o2] ![z0, z1, z2] i3).set) :
    ¬(o0 ≤ k.val ∧ k.val < o0 + z0 ∧ o1 ≤ j.val ∧ j.val < o1 + z1 ∧ o2 ≤ c.val ∧ c.val < o2 + z2) := fun hh =>
  h (Rect.mem_set_unit.mpr fun a => match a with
    | ⟨0, _⟩ => ⟨hh.1, hh.2.1⟩
    | ⟨1, _⟩ => ⟨hh.2.2.1, hh.2.2.2.1⟩
    | ⟨2, _⟩ => ⟨hh.2.2.2.2.1, hh.2.2.2.2.2⟩)

theorem emb_unit2 (a : Fin z0) (b : Fin z1) (h0 : o0 + a.val < n0) (h1 : o1 + b.val < n1) :
    (Rect.unit (s := ⟨2, ![n0, n1]⟩) ![o0, o1] ![z0, z1] i2).emb (ix2 a b) = ix2 ⟨o0 + a.val, h0⟩ ⟨o1 + b.val, h1⟩ :=
  funext fun d => Fin.ext (by
    match d with
    | ⟨0, _⟩ => show o0 + 1 * a.val = o0 + a.val; rw [Nat.one_mul]
    | ⟨1, _⟩ => show o1 + 1 * b.val = o1 + b.val; rw [Nat.one_mul])

theorem emb_unit3 (a : Fin z0) (b : Fin z1) (c : Fin z2) (h0 : o0 + a.val < n0) (h1 : o1 + b.val < n1) (h2 : o2 + c.val < n2) :
    (Rect.unit (s := ⟨3, ![n0, n1, n2]⟩) ![o0, o1, o2] ![z0, z1, z2] i3).emb (ix3 a b c)
      = ix3 ⟨o0 + a.val, h0⟩ ⟨o1 + b.val, h1⟩ ⟨o2 + c.val, h2⟩ :=
  funext fun d => Fin.ext (by
    match d with
    | ⟨0, _⟩ => show o0 + 1 * a.val = o0 + a.val; rw [Nat.one_mul]
    | ⟨1, _⟩ => show o1 + 1 * b.val = o1 + b.val; rw [Nat.one_mul]
    | ⟨2, _⟩ => show o2 + 1 * c.val = o2 + c.val; rw [Nat.one_mul])

theorem ld_unit2 (X : (⟨2, ![n0, n1]⟩ : Shape).Idx → Val e) (a : Fin z0) (b : Fin z1) (h0 : o0 + a.val < n0) (h1 : o1 + b.val < n1) :
    View.ld X (Rect.unit (s := ⟨2, ![n0, n1]⟩) ![o0, o1] ![z0, z1] i2) (ix2 a b) = X (ix2 ⟨o0 + a.val, h0⟩ ⟨o1 + b.val, h1⟩) :=
  congrArg X (emb_unit2 a b h0 h1)

theorem ld_unit3 (X : (⟨3, ![n0, n1, n2]⟩ : Shape).Idx → Val e) (a : Fin z0) (b : Fin z1) (c : Fin z2)
    (h0 : o0 + a.val < n0) (h1 : o1 + b.val < n1) (h2 : o2 + c.val < n2) :
    View.ld X (Rect.unit (s := ⟨3, ![n0, n1, n2]⟩) ![o0, o1, o2] ![z0, z1, z2] i3) (ix3 a b c)
      = X (ix3 ⟨o0 + a.val, h0⟩ ⟨o1 + b.val, h1⟩ ⟨o2 + c.val, h2⟩) :=
  congrArg X (emb_unit3 a b c h0 h1 h2)

theorem fin3_congr {a b c : ℕ} (W : Fin a → Fin b → Fin c → α) {i i' : Fin a} {j j' : Fin b} {l l' : Fin c}
    (h0 : i.val = i'.val) (h1 : j.val = j'.val) (h2 : l.val = l'.val) : W i j l = W i' j' l' := by
  rw [Fin.ext h0, Fin.ext h1, Fin.ext h2]

theorem fin2_congr {a b : ℕ} (W : Fin a → Fin b → α) {i i' : Fin a} {j j' : Fin b}
    (h0 : i.val = i'.val) (h1 : j.val = j'.val) : W i j = W i' j' := by
  rw [Fin.ext h0, Fin.ext h1]

theorem fin1_congr {a : ℕ} (W : Fin a → α) {i i' : Fin a} (h0 : i.val = i'.val) : W i = W i' := by
  rw [Fin.ext h0]

theorem row3_cast_apply (v : (⟨3, ![1, 1, 64]⟩ : Shape).Idx → α) (h1 : (⟨3, ![1, 1, 64]⟩ : Shape).ShapeCasts ⟨1, ![64]⟩)
    (h2 : (⟨1, ![64]⟩ : Shape).ShapeCasts ⟨2, ![1, 64]⟩) (o : Fin 64) :
    shapeCast ⟨2, ![1, 64]⟩ (shapeCast ⟨1, ![64]⟩ v h1) h2 (ix2 0 o) = v (ix3 0 0 o) :=
  (shapeCast_a_1a_apply _ h2 0 o).trans (shapeCast_apply v h1 (ix1 o) (ix3 0 0 o) (by
    rw [Shape.rowMajor_val_three, Shape.rowMajor_val_one]
    show (0 * 1 + 0) * 64 + o.val = o.val
    omega))

end Unit

end Cert.KernelIdeal.Hand

end
-- ==== Proof.KI.ValR0Sup.lean ====
import proofs.«107218_g19069654794669_cont_sun_m_30_13_alg».proof.Proof.KI.R0Pieces
import proofs.«107218_g19069654794669_cont_sun_m_30_13_alg».proof.Proof.KI.ValR0Lib
import proofs.«107218_g19069654794669_cont_sun_m_30_13_alg».proof.Proof.Blocks
import Idealize.ShloMosaic.PureOps.Ideal.Laws
import Idealize.ShloMosaic.Lib.ValueLayout

noncomputable section

open scoped BigOperators

namespace Cert.KernelIdeal.Hand

open Idealize.ShloMosaic Idealize.ShloMosaic.ValueIdx Idealize.SL.Sem Cert.KernelIdeal Cert.KernelIdeal.Gen Cert.Spec Cert.Blocks

section Layout
variable {α : Type}

theorem hz2 : (![0, 0] : Fin 2 → ℕ) = fun _ => 0 := funext fun a => by fin_cases a <;> rfl
theorem hz3 : (![0, 0, 0] : Fin 3 → ℕ) = fun _ => 0 := funext fun a => by fin_cases a <;> rfl

theorem bcol_apply (v : (⟨2, ![512, 1]⟩ : Shape).Idx → α) (h : (⟨2, ![512, 1]⟩ : Shape).Broadcasts ⟨2, ![512, 512]⟩) (i j : Fin 512) :
    broadcastTo ⟨2, ![512, 512]⟩ v h (ix2 i j) = v (ix2 i 0) :=
  broadcastTo_apply v h (ix2 i j) (ix2 i 0) fun a => match a with
    | ⟨0, _⟩ => rfl
    | ⟨1, _⟩ => rfl

theorem colcast_apply (v : (⟨1, ![512]⟩ : Shape).Idx → α) (h : (⟨1, ![512]⟩ : Shape).ShapeCasts ⟨2, ![512, 1]⟩) (i : Fin 512) :
    shapeCast ⟨2, ![512, 1]⟩ v h (ix2 i 0) = v (ix1 i) :=
  shapeCast_apply v h (ix2 i 0) (ix1 i) (by
    rw [Shape.rowMajor_val_one, Shape.rowMajor_val_two]
    show i.val = i.val * 1 + 0
    omega)

end Layout

theorem vsqrt_apply {s : Shape} {φ : FTy} (a : FVec Ideal s φ) (i : s.Idx) : sqrt a i = Ideal.sqrt (a i) := rfl

theorem rowsum_apply (v : FVec Ideal S512x512 .f32) (h : S512x512.Reduces [1] S512)
    (hacc : (0x00000000#32 : BitVec 32) = 0x00000000#32) (i : Fin 512) :
    multiReduction (F := Ideal) .add [1] S512 v 0x00000000#32 h (.inl rfl) hacc (ix1 i) = ∑ k : Fin 512, v (ix2 i k) :=
  (Ideal.multiReduction_add_single v 0x00000000#32 h (.inl rfl) hacc (ix1 i)).trans
    (Finset.sum_congr rfl fun k _ => congrArg v (funext fun a => Fin.ext (by
      match a with
      | ⟨0, _⟩ => rfl
      | ⟨1, _⟩ => rfl)))

theorem colsum_apply (v : FVec Ideal S512x512 .f32) (h : S512x512.Reduces [0] S512)
    (hacc : (0x00000000#32 : BitVec 32) = 0x00000000#32) (j : Fin 512) :
    multiReduction (F := Ideal) .add [0] S512 v 0x00000000#32 h (.inl rfl) hacc (ix1 j) = ∑ k : Fin 512, v (ix2 k j) :=
  (Ideal.multiReduction_add_single v 0x00000000#32 h (.inl rfl) hacc (ix1 j)).trans
    (Finset.sum_congr rfl fun k _ => congrArg v (funext fun a => Fin.ext (by
      match a with
      | ⟨0, _⟩ => rfl
      | ⟨1, _⟩ => rfl)))

theorem mm_lhs_0 (i : S512x64.Idx) (q : dot_S512x512_S512x64_S512x64_1_0_0_1_n_n.contr.Idx) :
    (dot_S512x512_S512x64_S512x64_1_0_0_1_n_n.lhsIdx i q 0).val = (i 0).val := by
  unfold DotDims.lhsIdx
  rw [dif_neg (show ¬(0 : Fin S512x512.rank) ∈ dot_S512x512_S512x64_S512x64_1_0_0_1_n_n.lhsBatch by decide), dif_pos (show (0 : Fin S512x512.rank) ∈ dot_S512x512_S512x64_S512x64_1_0_0_1_n_n.lhsNonContracting by decide)]
  rfl
theorem mm_lhs_1 (i : S512x64.Idx) (q : dot_S512x512_S512x64_S512x64_1_0_0_1_n_n.contr.Idx) :
    (dot_S512x512_S512x64_S512x64_1_0_0_1_n_n.lhsIdx i q 1).val = (q ⟨0, by decide⟩).val :=
  dot_S512x512_S512x64_S512x64_1_0_0_1_n_n.lhsIdx_val_of_single rfl i q
theorem mm_rhs_0 (i : S512x64.Idx) (q : dot_S512x512_S512x64_S512x64_1_0_0_1_n_n.contr.Idx) :
    (dot_S512x512_S512x64_S512x64_1_0_0_1_n_n.rhsIdx i q 0).val = (q ⟨0, by decide⟩).val :=
  dot_S512x512_S512x64_S512x64_1_0_0_1_n_n.rhsIdx_val_of_single rfl i q
theorem mm_rhs_1 (i : S512x64.Idx) (q : dot_S512x512_S512x64_S512x64_1_0_0_1_n_n.contr.Idx) :
    (dot_S512x512_S512x64_S512x64_1_0_0_1_n_n.rhsIdx i q 1).val = (i 1).val := by
  unfold DotDims.rhsIdx
  rw [dif_neg (show ¬(1 : Fin S512x64.rank) ∈ dot_S512x512_S512x64_S512x64_1_0_0_1_n_n.rhsBatch by decide), dif_pos (show (1 : Fin S512x64.rank) ∈ dot_S512x512_S512x64_S512x64_1_0_0_1_n_n.rhsNonContracting by decide)]
  rfl

theorem mm_apply (L : FVec Ideal S512x512 .f32) (R : FVec Ideal S512x64 .f32) (n : Fin 512) (b : Fin 64) :
    matmul dot_S512x512_S512x64_S512x64_1_0_0_1_n_n none L R (constant (F := Ideal) S512x64 .f32 0x00000000#32) (ix2 n b)
      = ∑ i : Fin 512, L (ix2 n i) * R (ix2 i b) := by
  simp only [matmul]
  rw [Ideal.matmul_constant_zero_apply, ← Equiv.sum_comp (contrEquiv1 dot_S512x512_S512x64_S512x64_1_0_0_1_n_n 512 rfl rfl).symm]
  refine Finset.sum_congr rfl fun k _ => ?_
  have hk := contrEquiv1_symm_val dot_S512x512_S512x64_S512x64_1_0_0_1_n_n 512 rfl rfl k
  have el : dot_S512x512_S512x64_S512x64_1_0_0_1_n_n.lhsIdx (ix2 n b) ((contrEquiv1 dot_S512x512_S512x64_S512x64_1_0_0_1_n_n 512 rfl rfl).symm k) = ix2 n k := funext fun a => Fin.ext (by
    match a with
    | ⟨0, _⟩ => exact mm_lhs_0 _ _
    | ⟨1, _⟩ => exact (mm_lhs_1 _ _).trans hk)
  have er : dot_S512x512_S512x64_S512x64_1_0_0_1_n_n.rhsIdx (ix2 n b) ((contrEquiv1 dot_S512x512_S512x64_S512x64_1_0_0_1_n_n 512 rfl rfl).symm k) = ix2 k b := funext fun a => Fin.ext (by
    match a with
    | ⟨0, _⟩ => exact (mm_rhs_0 _ _).trans hk
    | ⟨1, _⟩ => exact mm_rhs_1 _ _)
  rw [el, er]

variable (A : Cert.Spec.Args)

theorem sym_apply (h : S512x512.Transposes [1, 0] S512x512) (i j : Fin 512) :
    maximumf (F := Ideal) (φ := .f32) (adjArr A) (transpose S512x512 [1, 0] (adjArr A) h) (ix2 i j) = sym A i j := by
  rw [maximumf_apply, transpose_ix2_apply]
  rfl

theorem colsum_sym (j : Fin 512) : (∑ k : Fin 512, sym A k j) = deg A j :=
  Finset.sum_congr rfl fun k _ => max_comm _ _

theorem zero_sub_mul (x y : EReal) : (w0 - x) * y = -(x * y) := by
  rw [show w0 = (0 : EReal) from Ideal.ofBits_zero_f32, zero_sub, neg_mul]

theorem pay1_apply (i j : Fin 512) : k0_pay1 (F := Ideal) (adjArr A) (ix2 i j) = sup A i j := by
  have hM : ∀ p q : Fin 512, maximumf (F := Ideal) (φ := .f32) (adjArr A)
      (transpose S512x512 [1, 0] (adjArr A) transposes_S512x512_p1_0_S512x512) (ix2 p q) = sym A p q := fun p q => sym_apply A _ p q
  have hR : multiReduction (F := Ideal) .add [1] S512 (maximumf (F := Ideal) (φ := .f32) (adjArr A)
      (transpose S512x512 [1, 0] (adjArr A) transposes_S512x512_p1_0_S512x512)) 0x00000000#32 reduces_S512x512_S512 (.inl rfl) rfl (ix1 i)
        = deg A i :=
    (rowsum_apply _ _ rfl i).trans (Finset.sum_congr rfl fun k _ => hM i k)
  have hC : multiReduction (F := Ideal) .add [0] S512 (maximumf (F := Ideal) (φ := .f32) (adjArr A)
      (transpose S512x512 [1, 0] (adjArr A) transposes_S512x512_p1_0_S512x512)) 0x00000000#32 reduces_S512x512_S512_2 (.inl rfl) rfl (ix1 j)
        = deg A j :=
    ((colsum_apply _ _ rfl j).trans (Finset.sum_congr rfl fun k _ => hM k j)).trans (colsum_sym A j)
  unfold k0_pay1
  simp only [mulf_apply, subf_apply, bcol_apply, broadcastTo_1b_ab_apply, select_apply, cmpf_apply, divf_apply, vsqrt_apply,
    broadcast_apply, colcast_apply, shapeCast_a_1a_apply]
  rw [hR, hC, hM]
  exact zero_sub_mul (invSqrt (deg A i) * sym A i j) (invSqrt (deg A j))

theorem pay2_eq (v : Vec Ideal S512x64 .f32) : k0_pay2 (F := Ideal) v = v := shapeCast_self v _

theorem pay3_apply (n : Fin 512) (b : Fin 64) :
    k0_pay3 (F := Ideal) (adjArr A) (inpT A) (ix2 n b) = cheb (sup A) (A.inp b) 1 n := by
  unfold k0_pay3
  rw [mm_apply]
  show _ = ∑ i : Fin 512, sup A n i * A.inp b i
  refine Finset.sum_congr rfl fun i _ => ?_
  rw [pay1_apply, pay2_eq]
  rfl

theorem pay4_apply (n : Fin 512) (b : Fin 64) :
    k0_pay4 (F := Ideal) (adjArr A) (inpT A) (ix2 n b) = cheb (sup A) (A.inp b) 2 n := by
  unfold k0_pay4
  simp only [mulf_apply, subf_apply, broadcast_apply]
  rw [mm_apply, pay2_eq]
  show w2 * _ - A.inp b n = w2 * diffuse (sup A) (diffuse (sup A) (A.inp b)) n - A.inp b n
  refine congrArg (fun t => w2 * t - A.inp b n) (Finset.sum_congr rfl fun i _ => ?_)
  rw [pay1_apply, pay3_apply]
  rfl

section Windows
variable (x0 : Vec Ideal S512x512 .f32) (x1 : Vec Ideal S512x64 .f32) (x2 : Vec Ideal S3x65x128 .f32) (x3 : Vec Ideal S3x65x64 .f32)
  (x4 : Vec Ideal S3x128x128 .f32) (x5 : Vec Ideal S3x128x64 .f32) (x6 : Vec Ideal S1x128 .f32) (x7 : Vec Ideal S1x64 .f32)
  (x8 : Vec Ideal S1x128 .f32) (x9 : Vec Ideal S1x64 .f32) (x10 : Vec Ideal S64x1 .f32)

theorem val0_11 (h0 : x0 = adjArr A) : View.canon (pieces0_11 (F := Ideal) x0 x1 x2 x3 x4 x5 x6 x7 x8 x9 x10) = supArr A := by
  subst h0
  unfold pieces0_11
  rw [View.canon_unit_zero hz2, View.ld_unit_zero hz2]
  funext y
  obtain ⟨i, j, rfl⟩ : ∃ (i j : Fin 512), y = ix2 i j := ⟨y 0, y 1, eq_ix2 y⟩
  exact pay1_apply A i j

theorem val0_12 (h0 : x0 = adjArr A) (h1 : x1 = inpT A) :
    View.canon (pieces0_12 (F := Ideal) x0 x1 x2 x3 x4 x5 x6 x7 x8 x9 x10) = a1Arr A := by
  subst h0 h1
  unfold pieces0_12
  rw [View.canon_unit_zero hz2, View.ld_unit_zero hz2, View.ld_unit_zero hz2]
  funext y
  obtain ⟨n, b, rfl⟩ : ∃ (n : Fin 512) (b : Fin 64), y = ix2 n b := ⟨y 0, y 1, eq_ix2 y⟩
  exact pay3_apply A n b

theorem val0_13 (h0 : x0 = adjArr A) (h1 : x1 = inpT A) :
    View.canon (pieces0_13 (F := Ideal) x0 x1 x2 x3 x4 x5 x6 x7 x8 x9 x10) = a2Arr A := by
  subst h0 h1
  unfold pieces0_13
  rw [View.canon_unit_zero hz2, View.ld_unit_zero hz2, View.ld_unit_zero hz2]
  funext y
  obtain ⟨n, b, rfl⟩ : ∃ (n : Fin 512) (b : Fin 64), y = ix2 n b := ⟨y 0, y 1, eq_ix2 y⟩
  exact pay4_apply A n b

end Windows

end Cert.KernelIdeal.Hand

end
-- ==== Proof.KI.ValR0Blk.lean ====
import proofs.«107218_g19069654794669_cont_sun_m_30_13_alg».proof.Proof.KI.ValR0Sup
import Mathlib.Tactic.IntervalCases

noncomputable section

namespace Cert.KernelIdeal.Hand

open Idealize.ShloMosaic Idealize.ShloMosaic.ValueIdx Idealize.SL.Sem Cert.KernelIdeal Cert.KernelIdeal.Gen Cert.Spec Cert.Blocks

theorem canon_fill_last {Val : EltTy → Type} [∀ e, Nonempty (Val e)] {S : Shape} {e : EltTy} (G : S.Idx → Val e) (y : S.Idx)
    (L : List (View.Piece Val S e)) {off : Fin S.rank → ℕ} (hoff : off = fun _ => 0) {inb : ∀ a, off a + S.size a ≤ S.size a}
    {w : S.Idx → Val e} (hL : L.dropLast ++ [(⟨Rect.unit off S.size inb, w⟩ : View.Piece Val S e)] = L)
    (hA : Agrees G L.dropLast) (hw : Misses y L.dropLast → w y = G y) : View.canon L y = G y := by
  rw [← hL]
  exact canon_fill_apply G w hoff inb y L.dropLast hA hw

section Targets

theorem waRu_pos (W : Fin 3 → Fin 128 → EReal) (K : Fin 6) (C : Fin 256) (k' : Fin 3) (c' : Fin 128)
    (h : K.val / 3 = C.val % 128 / 64) (hk : K.val % 3 = k'.val) (hc : C.val / 128 * 64 + C.val % 64 = c'.val) :
    waRu W (ix2 K C) = W k' c' := by
  unfold waRu
  rw [if_pos (Fin.ext h)]
  exact fin2_congr W hk hc

theorem waRu_neg (W : Fin 3 → Fin 128 → EReal) (K : Fin 6) (C : Fin 256) (h : K.val / 3 ≠ C.val % 128 / 64) :
    waRu W (ix2 K C) = w0 := by
  unfold waRu
  rw [if_neg fun hh => h (congrArg Fin.val hh)]

theorem waC_pos (W : Fin 3 → Fin 64 → EReal) (K : Fin 6) (C : Fin 128) (k' : Fin 3) (c' : Fin 64)
    (h : K.val / 3 = C.val / 64) (hk : K.val % 3 = k'.val) (hc : C.val % 64 = c'.val) : waC W (ix2 K C) = W k' c' := by
  unfold waC
  rw [if_pos (Fin.ext h)]
  exact fin2_congr W hk hc

theorem waC_neg (W : Fin 3 → Fin 64 → EReal) (K : Fin 6) (C : Fin 128) (h : K.val / 3 ≠ C.val / 64) :
    waC W (ix2 K C) = w0 := by
  unfold waC
  rw [if_neg fun hh => h (congrArg Fin.val hh)]

theorem whRu_pos (W : Fin 64 → Fin 3 → Fin 128 → EReal) (K : Fin 3) (J : Fin 128) (C : Fin 256) (f' : Fin 64) (c' : Fin 128)
    (h : J.val / 64 = C.val % 128 / 64) (hf : J.val % 64 = f'.val) (hc : C.val / 128 * 64 + C.val % 64 = c'.val) :
    whRu W (ix3 K J C) = W f' K c' := by
  unfold whRu
  rw [if_pos (Fin.ext h)]
  exact fin3_congr W hf rfl hc

theorem whRu_neg (W : Fin 64 → Fin 3 → Fin 128 → EReal) (K : Fin 3) (J : Fin 128) (C : Fin 256)
    (h : J.val / 64 ≠ C.val % 128 / 64) : whRu W (ix3 K J C) = w0 := by
  unfold whRu
  rw [if_neg fun hh => h (congrArg Fin.val hh)]

theorem whC_pos (W : Fin 64 → Fin 3 → Fin 64 → EReal) (K : Fin 3) (J : Fin 128) (C : Fin 128) (f' : Fin 64) (c' : Fin 64)
    (h : J.val / 64 = C.val / 64) (hf : J.val % 64 = f'.val) (hc : C.val % 64 = c'.val) :
    whC W (ix3 K J C) = W f' K c' := by
  unfold whC
  rw [if_pos (Fin.ext h)]
  exact fin3_congr W hf rfl hc

theorem whC_neg (W : Fin 64 → Fin 3 → Fin 64 → EReal) (K : Fin 3) (J : Fin 128) (C : Fin 128) (h : J.val / 64 ≠ C.val / 64) :
    whC W (ix3 K J C) = w0 := by
  unfold whC
  rw [if_neg fun hh => h (congrArg Fin.val hh)]

theorem bRu_apply (b : Fin 128 → EReal) (C : Fin 256) (c' : Fin 128) (hc : C.val / 128 * 64 + C.val % 64 = c'.val) :
    bRu b (ix2 (0 : Fin 1) C) = b c' := fin1_congr b hc

theorem bC_apply (b : Fin 64 → EReal) (C : Fin 128) (c' : Fin 64) (hc : C.val % 64 = c'.val) :
    bC b (ix2 (0 : Fin 1) C) = b c' := fin1_congr b hc

end Targets

section Rects

def rwaRu (e g k : ℕ) (he : e < 2 := by omega) (hg : g < 2 := by omega) (hk : k < 3 := by omega) : Rect ⟨2, ![6, 256]⟩ :=
  Rect.unit ![e * 3 + k, g * 128 + e * 64] ![1, 64] fun a => by
    match a with
    | ⟨0, _⟩ => show e * 3 + k + 1 ≤ 6; omega
    | ⟨1, _⟩ => show g * 128 + e * 64 + 64 ≤ 256; omega
def rwaC (e k : ℕ) (he : e < 2 := by omega) (hk : k < 3 := by omega) : Rect ⟨2, ![6, 128]⟩ := Rect.unit ![e * 3 + k, e * 64] ![1, 64] fun a => by
    match a with
    | ⟨0, _⟩ => show e * 3 + k + 1 ≤ 6; omega
    | ⟨1, _⟩ => show e * 64 + 64 ≤ 128; omega
def rwhRu (e g k : ℕ) (he : e < 2 := by omega) (hg : g < 2 := by omega) (hk : k < 3 := by omega) : Rect ⟨3, ![3, 128, 256]⟩ :=
  Rect.unit ![k, e * 64, g * 128 + e * 64] ![1, 64, 64] fun a => by
    match a with
    | ⟨0, _⟩ => show k + 1 ≤ 3; omega
    | ⟨1, _⟩ => show e * 64 + 64 ≤ 128; omega
    | ⟨2, _⟩ => show g * 128 + e * 64 + 64 ≤ 256; omega
def rwhC (e k : ℕ) (he : e < 2 := by omega) (hk : k < 3 := by omega) : Rect ⟨3, ![3, 128, 128]⟩ := Rect.unit ![k, e * 64, e * 64] ![1, 64, 64] fun a => by
    match a with
    | ⟨0, _⟩ => show k + 1 ≤ 3; omega
    | ⟨1, _⟩ => show e * 64 + 64 ≤ 128; omega
    | ⟨2, _⟩ => show e * 64 + 64 ≤ 128; omega
def rbRu (e g : ℕ) (he : e < 2 := by omega) (hg : g < 2 := by omega) : Rect ⟨2, ![1, 256]⟩ := Rect.unit ![0, g * 128 + e * 64] ![1, 64] fun a => by
    match a with
    | ⟨0, _⟩ => show 0 + 1 ≤ 1; omega
    | ⟨1, _⟩ => show g * 128 + e * 64 + 64 ≤ 256; omega
def rbC (e : ℕ) (he : e < 2 := by omega) : Rect ⟨2, ![1, 128]⟩ := Rect.unit ![0, e * 64] ![1, 64] fun a => by
    match a with
    | ⟨0, _⟩ => show 0 + 1 ≤ 1; omega
    | ⟨1, _⟩ => show e * 64 + 64 ≤ 128; omega

end Rects

section Sources

theorem waRu_src (X : (⟨3, ![3, 65, 128]⟩ : Shape).Idx → EReal) (W : Fin 3 → Fin 128 → EReal)
    (hX : ∀ (k : Fin 3) (c : Fin 128), X (ix3 k 0 c) = W k c) (e g k : ℕ) (he : e < 2 := by omega) (hg : g < 2 := by omega) (hk : k < 3 := by omega)
    {inb' : ∀ a, (![k, 0, g * 64] : Fin 3 → ℕ) a + (![1, 1, 64] : Fin 3 → ℕ) a ≤ (⟨3, ![3, 65, 128]⟩ : Shape).size a}
    (x : (⟨2, ![1, 64]⟩ : Shape).Idx) :
    shapeCast S1x64 (shapeCast S64 (View.ld (Val := Elt Ideal) (e' := .f32) X (Rect.unit (s := ⟨3, ![3, 65, 128]⟩) ![k, 0, g * 64] ![1, 1, 64] inb'))
      shapeCasts_S1x1x64_S64) shapeCasts_S64_S1x64 x = waRu W ((rwaRu e g k he hg hk).emb x) := by
  obtain ⟨a, o, rfl⟩ : ∃ (a : Fin 1) (o : Fin 64), x = ix2 a o := ⟨x 0, x 1, eq_ix2 x⟩
  obtain rfl : a = 0 := Subsingleton.elim _ _
  have h0 : e * 3 + k + (0 : Fin 1).val < 6 := by show e * 3 + k + 0 < 6; omega
  have h1 : g * 128 + e * 64 + o.val < 256 := by omega
  rw [show (rwaRu e g k he hg hk).emb _ = _ from emb_unit2 (0 : Fin 1) o h0 h1]
  exact (((row3_cast_apply _ _ _ o).trans
    ((ld_unit3 (Val := Elt Ideal) (e := .f32) (n0 := 3) (n1 := 65) (n2 := 128) (o0 := k) (o1 := 0) (o2 := g * 64) X (0 : Fin 1) (0 : Fin 1) o
      (by show k + 0 < 3; omega) (by show 0 + 0 < 65; omega) (by omega)).trans (hX ⟨k, hk⟩ ⟨g * 64 + o.val, by omega⟩)))).trans
    (waRu_pos W _ _ _ _ (by show (e * 3 + k + 0) / 3 = (g * 128 + e * 64 + o.val) % 128 / 64; omega)
    (by show (e * 3 + k + 0) % 3 = k; omega)
    (by show (g * 128 + e * 64 + o.val) / 128 * 64 + (g * 128 + e * 64 + o.val) % 64 = g * 64 + o.val; omega)).symm

theorem waC_src (X : (⟨3, ![3, 65, 64]⟩ : Shape).Idx → EReal) (W : Fin 3 → Fin 64 → EReal)
    (hX : ∀ (k : Fin 3) (c : Fin 64), X (ix3 k 0 c) = W k c) (e k : ℕ) (he : e < 2 := by omega) (hk : k < 3 := by omega)
    {inb' : ∀ a, (![k, 0, 0] : Fin 3 → ℕ) a + (![1, 1, 64] : Fin 3 → ℕ) a ≤ (⟨3, ![3, 65, 64]⟩ : Shape).size a}
    (x : (⟨2, ![1, 64]⟩ : Shape).Idx) :
    shapeCast S1x64 (shapeCast S64 (View.ld (Val := Elt Ideal) (e' := .f32) X (Rect.unit (s := ⟨3, ![3, 65, 64]⟩) ![k, 0, 0] ![1, 1, 64] inb'))
      shapeCasts_S1x1x64_S64) shapeCasts_S64_S1x64 x = waC W ((rwaC e k he hk).emb x) := by
  obtain ⟨a, o, rfl⟩ : ∃ (a : Fin 1) (o : Fin 64), x = ix2 a o := ⟨x 0, x 1, eq_ix2 x⟩
  obtain rfl : a = 0 := Subsingleton.elim _ _
  have h0 : e * 3 + k + (0 : Fin 1).val < 6 := by show e * 3 + k + 0 < 6; omega
  have h1 : e * 64 + o.val < 128 := by omega
  rw [show (rwaC e k he hk).emb _ = _ from emb_unit2 (0 : Fin 1) o h0 h1]
  exact (((row3_cast_apply _ _ _ o).trans
    ((ld_unit3 (Val := Elt Ideal) (e := .f32) (n0 := 3) (n1 := 65) (n2 := 64) (o0 := k) (o1 := 0) (o2 := 0) X (0 : Fin 1) (0 : Fin 1) o
      (by show k + 0 < 3; omega) (by show 0 + 0 < 65; omega) (by omega)).trans (hX ⟨k, hk⟩ ⟨0 + o.val, by omega⟩)))).trans
    (waC_pos W _ _ _ _ (by show (e * 3 + k + 0) / 3 = (e * 64 + o.val) / 64; omega)
    (by show (e * 3 + k + 0) % 3 = k; omega) (by show (e * 64 + o.val) % 64 = 0 + o.val; omega)).symm

theorem whRu_src {R : ℕ} (X : (⟨3, ![3, R, 128]⟩ : Shape).Idx → EReal) (ρ : ℕ) (hρ : ρ + 64 ≤ R) (W : Fin 64 → Fin 3 → Fin 128 → EReal)
    (hX : ∀ (k : Fin 3) (f : Fin 64) (c : Fin 128), X (ix3 k ⟨ρ + f.val, by omega⟩ c) = W f k c)
    (e g k : ℕ) (he : e < 2 := by omega) (hg : g < 2 := by omega) (hk : k < 3 := by omega)
    {inb' : ∀ a, (![k, ρ, g * 64] : Fin 3 → ℕ) a + (![1, 64, 64] : Fin 3 → ℕ) a ≤ (⟨3, ![3, R, 128]⟩ : Shape).size a}
    (x : (⟨3, ![1, 64, 64]⟩ : Shape).Idx) :
    shapeCast S1x64x64 (shapeCast S64x64 (View.ld (Val := Elt Ideal) (e' := .f32) X (Rect.unit (s := ⟨3, ![3, R, 128]⟩) ![k, ρ, g * 64] ![1, 64, 64] inb'))
      shapeCasts_S1x64x64_S64x64) shapeCasts_S64x64_S1x64x64 x = whRu W ((rwhRu e g k he hg hk).emb x) := by
  obtain ⟨a, f, o, rfl⟩ : ∃ (a : Fin 1) (f o : Fin 64), x = ix3 a f o := ⟨x 0, x 1, x 2, eq_ix3 x⟩
  obtain rfl : a = 0 := Subsingleton.elim _ _
  have h0 : k + (0 : Fin 1).val < 3 := by show k + 0 < 3; omega
  have h1 : e * 64 + f.val < 128 := by omega
  have h2 : g * 128 + e * 64 + o.val < 256 := by omega
  rw [show (rwhRu e g k he hg hk).emb _ = _ from emb_unit3 (0 : Fin 1) f o h0 h1 h2]
  exact ((congrFun (shapeCast_shapeCast _ _ _) _).trans ((ld_unit3 (Val := Elt Ideal) (e := .f32) (n0 := 3) (n1 := R) (n2 := 128) (o0 := k) (o1 := ρ) (o2 := g * 64) X (0 : Fin 1) f o
      (by show k + 0 < 3; omega) (by omega) (by omega)).trans (hX ⟨k, hk⟩ f ⟨g * 64 + o.val, by omega⟩))).trans
    (whRu_pos W ⟨k + (0 : Fin 1).val, h0⟩ _ _ _ _ (by show (e * 64 + f.val) / 64 = (g * 128 + e * 64 + o.val) % 128 / 64; omega)
    (by show (e * 64 + f.val) % 64 = f.val; omega)
    (by show (g * 128 + e * 64 + o.val) / 128 * 64 + (g * 128 + e * 64 + o.val) % 64 = g * 64 + o.val; omega)).symm

theorem whC_src {R : ℕ} (X : (⟨3, ![3, R, 64]⟩ : Shape).Idx → EReal) (ρ : ℕ) (hρ : ρ + 64 ≤ R) (W : Fin 64 → Fin 3 → Fin 64 → EReal)
    (hX : ∀ (k : Fin 3) (f : Fin 64) (c : Fin 64), X (ix3 k ⟨ρ + f.val, by omega⟩ c) = W f k c)
    (e k : ℕ) (he : e < 2 := by omega) (hk : k < 3 := by omega)
    {inb' : ∀ a, (![k, ρ, 0] : Fin 3 → ℕ) a + (![1, 64, 64] : Fin 3 → ℕ) a ≤ (⟨3, ![3, R, 64]⟩ : Shape).size a}
    (x : (⟨3, ![1, 64, 64]⟩ : Shape).Idx) :
    shapeCast S1x64x64 (shapeCast S64x64 (View.ld (Val := Elt Ideal) (e' := .f32) X (Rect.unit (s := ⟨3, ![3, R, 64]⟩) ![k, ρ, 0] ![1, 64, 64] inb'))
      shapeCasts_S1x64x64_S64x64) shapeCasts_S64x64_S1x64x64 x = whC W ((rwhC e k he hk).emb x) := by
  obtain ⟨a, f, o, rfl⟩ : ∃ (a : Fin 1) (f o : Fin 64), x = ix3 a f o := ⟨x 0, x 1, x 2, eq_ix3 x⟩
  obtain rfl : a = 0 := Subsingleton.elim _ _
  have h0 : k + (0 : Fin 1).val < 3 := by show k + 0 < 3; omega
  have h1 : e * 64 + f.val < 128 := by omega
  have h2 : e * 64 + o.val < 128 := by omega
  rw [show (rwhC e k he hk).emb _ = _ from emb_unit3 (0 : Fin 1) f o h0 h1 h2]
  exact ((congrFun (shapeCast_shapeCast _ _ _) _).trans ((ld_unit3 (Val := Elt Ideal) (e := .f32) (n0 := 3) (n1 := R) (n2 := 64) (o0 := k) (o1 := ρ) (o2 := 0) X (0 : Fin 1) f o
      (by show k + 0 < 3; omega) (by omega) (by omega)).trans (hX ⟨k, hk⟩ f ⟨0 + o.val, by omega⟩))).trans
    (whC_pos W ⟨k + (0 : Fin 1).val, h0⟩ _ _ _ _ (by show (e * 64 + f.val) / 64 = (e * 64 + o.val) / 64; omega)
    (by show (e * 64 + f.val) % 64 = f.val; omega) (by show (e * 64 + o.val) % 64 = 0 + o.val; omega)).symm

theorem bRu_src (X : (⟨2, ![1, 128]⟩ : Shape).Idx → EReal) (b : Fin 128 → EReal) (hX : ∀ c : Fin 128, X (ix2 0 c) = b c)
    (e g : ℕ) (he : e < 2 := by omega) (hg : g < 2 := by omega)
    {inb' : ∀ a, (![0, g * 64] : Fin 2 → ℕ) a + (![1, 64] : Fin 2 → ℕ) a ≤ (⟨2, ![1, 128]⟩ : Shape).size a}
    (x : (⟨2, ![1, 64]⟩ : Shape).Idx) :
    shapeCast S1x64 (shapeCast S64 (View.ld (Val := Elt Ideal) (e' := .f32) X (Rect.unit (s := ⟨2, ![1, 128]⟩) ![0, g * 64] ![1, 64] inb'))
      shapeCasts_S1x64_S64) shapeCasts_S64_S1x64 x = bRu b ((rbRu e g he hg).emb x) := by
  obtain ⟨a, o, rfl⟩ : ∃ (a : Fin 1) (o : Fin 64), x = ix2 a o := ⟨x 0, x 1, eq_ix2 x⟩
  obtain rfl : a = 0 := Subsingleton.elim _ _
  have h0 : 0 + (0 : Fin 1).val < 1 := by show 0 + 0 < 1; omega
  have h1 : g * 128 + e * 64 + o.val < 256 := by omega
  rw [show (rbRu e g he hg).emb _ = _ from emb_unit2 (0 : Fin 1) o h0 h1]
  exact ((congrFun (shapeCast_shapeCast _ _ _) _).trans ((ld_unit2 (Val := Elt Ideal) (e := .f32) (n0 := 1) (n1 := 128) (o0 := 0) (o1 := g * 64) X (0 : Fin 1) o (by show 0 + 0 < 1; omega) (by omega)).trans
      (hX ⟨g * 64 + o.val, by omega⟩))).trans
    (bRu_apply b ⟨g * 128 + e * 64 + o.val, h1⟩ _
    (by show (g * 128 + e * 64 + o.val) / 128 * 64 + (g * 128 + e * 64 + o.val) % 64 = g * 64 + o.val; omega)).symm

theorem bC_src (X : (⟨2, ![1, 64]⟩ : Shape).Idx → EReal) (b : Fin 64 → EReal) (hX : ∀ c : Fin 64, X (ix2 0 c) = b c)
    (e : ℕ) (he : e < 2 := by omega)
    {inb' : ∀ a, (![0, 0] : Fin 2 → ℕ) a + (![1, 64] : Fin 2 → ℕ) a ≤ (⟨2, ![1, 64]⟩ : Shape).size a}
    (x : (⟨2, ![1, 64]⟩ : Shape).Idx) :
    shapeCast S1x64 (shapeCast S64 (View.ld (Val := Elt Ideal) (e' := .f32) X (Rect.unit (s := ⟨2, ![1, 64]⟩) ![0, 0] ![1, 64] inb'))
      shapeCasts_S1x64_S64) shapeCasts_S64_S1x64 x = bC b ((rbC e he).emb x) := by
  obtain ⟨a, o, rfl⟩ : ∃ (a : Fin 1) (o : Fin 64), x = ix2 a o := ⟨x 0, x 1, eq_ix2 x⟩
  obtain rfl : a = 0 := Subsingleton.elim _ _
  have h0 : 0 + (0 : Fin 1).val < 1 := by show 0 + 0 < 1; omega
  have h1 : e * 64 + o.val < 128 := by omega
  rw [show (rbC e he).emb _ = _ from emb_unit2 (0 : Fin 1) o h0 h1]
  exact ((congrFun (shapeCast_shapeCast _ _ _) _).trans ((ld_unit2 (Val := Elt Ideal) (e := .f32) (n0 := 1) (n1 := 64) (o0 := 0) (o1 := 0) X (0 : Fin 1) o (by show 0 + 0 < 1; omega) (by omega)).trans
      (hX ⟨0 + o.val, by omega⟩))).trans
    (bC_apply b ⟨e * 64 + o.val, h1⟩ _ (by show (e * 64 + o.val) % 64 = 0 + o.val; omega)).symm

end Sources

section Misses

theorem waRu_miss (W : Fin 3 → Fin 128 → EReal) (K : Fin 6) (C : Fin 256)
    (hm : ix2 K C ∉ (rwaRu 1 1 2).set ∧ ix2 K C ∉ (rwaRu 1 0 2).set ∧ ix2 K C ∉ (rwaRu 0 1 2).set ∧ ix2 K C ∉ (rwaRu 0 0 2).set ∧ ix2 K C ∉ (rwaRu 1 1 1).set ∧ ix2 K C ∉ (rwaRu 1 0 1).set ∧ ix2 K C ∉ (rwaRu 0 1 1).set ∧ ix2 K C ∉ (rwaRu 0 0 1).set ∧ ix2 K C ∉ (rwaRu 1 1 0).set ∧ ix2 K C ∉ (rwaRu 1 0 0).set ∧ ix2 K C ∉ (rwaRu 0 1 0).set ∧ ix2 K C ∉ (rwaRu 0 0 0).set ∧ True) :
    w0 = waRu W (ix2 K C) := by
  obtain ⟨m1, m2, m3, m4, m5, m6, m7, m8, m9, m10, m11, m12, -⟩ := hm
  replace m1 := not_mem_unit2 m1
  replace m2 := not_mem_unit2 m2
  replace m3 := not_mem_unit2 m3
  replace m4 := not_mem_unit2 m4
  replace m5 := not_mem_unit2 m5
  replace m6 := not_mem_unit2 m6
  replace m7 := not_mem_unit2 m7
  replace m8 := not_mem_unit2 m8
  replace m9 := not_mem_unit2 m9
  replace m10 := not_mem_unit2 m10
  replace m11 := not_mem_unit2 m11
  replace m12 := not_mem_unit2 m12
  have hK := K.isLt
  have hC := C.isLt
  refine (waRu_neg _ K C fun hh => ?_).symm
  interval_cases hKv : K.val <;> omega

theorem waC_miss (W : Fin 3 → Fin 64 → EReal) (K : Fin 6) (C : Fin 128)
    (hm : ix2 K C ∉ (rwaC 1 2).set ∧ ix2 K C ∉ (rwaC 0 2).set ∧ ix2 K C ∉ (rwaC 1 1).set ∧ ix2 K C ∉ (rwaC 0 1).set ∧ ix2 K C ∉ (rwaC 1 0).set ∧ ix2 K C ∉ (rwaC 0 0).set ∧ True) :
    w0 = waC W (ix2 K C) := by
  obtain ⟨m1, m2, m3, m4, m5, m6, -⟩ := hm
  replace m1 := not_mem_unit2 m1
  replace m2 := not_mem_unit2 m2
  replace m3 := not_mem_unit2 m3
  replace m4 := not_mem_unit2 m4
  replace m5 := not_mem_unit2 m5
  replace m6 := not_mem_unit2 m6
  have hK := K.isLt
  have hC := C.isLt
  refine (waC_neg _ K C fun hh => ?_).symm
  interval_cases hKv : K.val <;> omega

theorem whRu_miss (W : Fin 64 → Fin 3 → Fin 128 → EReal) (K : Fin 3) (J : Fin 128) (C : Fin 256)
    (hm : ix3 K J C ∉ (rwhRu 1 1 2).set ∧ ix3 K J C ∉ (rwhRu 1 0 2).set ∧ ix3 K J C ∉ (rwhRu 0 1 2).set ∧ ix3 K J C ∉ (rwhRu 0 0 2).set ∧ ix3 K J C ∉ (rwhRu 1 1 1).set ∧ ix3 K J C ∉ (rwhRu 1 0 1).set ∧ ix3 K J C ∉ (rwhRu 0 1 1).set ∧ ix3 K J C ∉ (rwhRu 0 0 1).set ∧ ix3 K J C ∉ (rwhRu 1 1 0).set ∧ ix3 K J C ∉ (rwhRu 1 0 0).set ∧ ix3 K J C ∉ (rwhRu 0 1 0).set ∧ ix3 K J C ∉ (rwhRu 0 0 0).set ∧ True) :
    w0 = whRu W (ix3 K J C) := by
  obtain ⟨m1, m2, m3, m4, m5, m6, m7, m8, m9, m10, m11, m12, -⟩ := hm
  replace m1 := not_mem_unit3 m1
  replace m2 := not_mem_unit3 m2
  replace m3 := not_mem_unit3 m3
  replace m4 := not_mem_unit3 m4
  replace m5 := not_mem_unit3 m5
  replace m6 := not_mem_unit3 m6
  replace m7 := not_mem_unit3 m7
  replace m8 := not_mem_unit3 m8
  replace m9 := not_mem_unit3 m9
  replace m10 := not_mem_unit3 m10
  replace m11 := not_mem_unit3 m11
  replace m12 := not_mem_unit3 m12
  have hK := K.isLt
  have hJ := J.isLt
  have hC := C.isLt
  refine (whRu_neg _ K J C fun hh => ?_).symm
  interval_cases hKv : K.val
  · clear m1 m2 m3 m4 m5 m6 m7 m8
    omega
  · clear m1 m2 m3 m4 m9 m10 m11 m12
    omega
  · clear m5 m6 m7 m8 m9 m10 m11 m12
    omega

theorem whC_miss (W : Fin 64 → Fin 3 → Fin 64 → EReal) (K : Fin 3) (J C : Fin 128)
    (hm : ix3 K J C ∉ (rwhC 1 2).set ∧ ix3 K J C ∉ (rwhC 0 2).set ∧ ix3 K J C ∉ (rwhC 1 1).set ∧ ix3 K J C ∉ (rwhC 0 1).set ∧ ix3 K J C ∉ (rwhC 1 0).set ∧ ix3 K J C ∉ (rwhC 0 0).set ∧ True) :
    w0 = whC W (ix3 K J C) := by
  obtain ⟨m1, m2, m3, m4, m5, m6, -⟩ := hm
  replace m1 := not_mem_unit3 m1
  replace m2 := not_mem_unit3 m2
  replace m3 := not_mem_unit3 m3
  replace m4 := not_mem_unit3 m4
  replace m5 := not_mem_unit3 m5
  replace m6 := not_mem_unit3 m6
  have hK := K.isLt
  have hJ := J.isLt
  have hC := C.isLt
  refine (whC_neg _ K J C fun hh => ?_).symm
  interval_cases hKv : K.val
  · clear m1 m2 m3 m4
    omega
  · clear m1 m2 m5 m6
    omega
  · clear m3 m4 m5 m6
    omega

theorem bRu_cover (C : Fin 256) : ¬(ix2 (0 : Fin 1) C ∉ (rbRu 1 1).set ∧ ix2 (0 : Fin 1) C ∉ (rbRu 0 1).set ∧ ix2 (0 : Fin 1) C ∉ (rbRu 1 0).set ∧ ix2 (0 : Fin 1) C ∉ (rbRu 0 0).set ∧ True) := by
  intro hm
  obtain ⟨m1, m2, m3, m4, -⟩ := hm
  replace m1 := not_mem_unit2 m1
  replace m2 := not_mem_unit2 m2
  replace m3 := not_mem_unit2 m3
  replace m4 := not_mem_unit2 m4
  have hC := C.isLt
  omega

theorem bC_cover (C : Fin 128) : ¬(ix2 (0 : Fin 1) C ∉ (rbC 1).set ∧ ix2 (0 : Fin 1) C ∉ (rbC 0).set ∧ True) := by
  intro hm
  obtain ⟨m1, m2, -⟩ := hm
  replace m1 := not_mem_unit2 m1
  replace m2 := not_mem_unit2 m2
  have hC := C.isLt
  omega

end Misses

section ReadOut
variable (A : Cert.Spec.Args)

def rwpp (e : ℕ) (he : e < 2 := by omega) : Rect ⟨2, ![128, 2]⟩ := Rect.unit ![e * 64, e] ![64, 1] fun a => by
    match a with
    | ⟨0, _⟩ => show e * 64 + 64 ≤ 128; omega
    | ⟨1, _⟩ => show e + 1 ≤ 2; omega

theorem wpp_piece (e : ℕ) (he : e < 2)
    {inb' : ∀ a, (![0, 0] : Fin 2 → ℕ) a + (![64, 1] : Fin 2 → ℕ) a ≤ (⟨2, ![64, 1]⟩ : Shape).size a}
    (x : (⟨2, ![64, 1]⟩ : Shape).Idx) :
    View.ld (Val := Elt Ideal) (e' := .f32) (wpArr A) (Rect.unit (s := ⟨2, ![64, 1]⟩) ![0, 0] ![64, 1] inb') x
      = wppArr A ((rwpp e he).emb x) := by
  obtain ⟨u, z, rfl⟩ : ∃ (u : Fin 64) (z : Fin 1), x = ix2 u z := ⟨x 0, x 1, eq_ix2 x⟩
  obtain rfl : z = 0 := Subsingleton.elim _ _
  have h0 : e * 64 + u.val < 128 := by omega
  have h1 : e + (0 : Fin 1).val < 2 := by show e + 0 < 2; omega
  refine (ld_unit2 (Val := Elt Ideal) (e := .f32) (n0 := 64) (n1 := 1) (o0 := 0) (o1 := 0) (wpArr A) u (0 : Fin 1) (by omega) (by show 0 + 0 < 1; omega)).trans ?_
  rw [show (rwpp e he).emb _ = _ from emb_unit2 u (0 : Fin 1) h0 h1]
  unfold wppArr
  rw [if_pos (by show (e * 64 + u.val) / 64 = e + 0; omega)]
  exact fin1_congr A.wp (by show 0 + u.val = (e * 64 + u.val) % 64; omega)

theorem wpp_miss (K : Fin 128) (C : Fin 2) (hm : ix2 K C ∉ (rwpp 1).set ∧ ix2 K C ∉ (rwpp 0).set ∧ True) :
    w0 = wppArr A (ix2 K C) := by
  obtain ⟨m1, m2, -⟩ := hm
  replace m1 := not_mem_unit2 m1
  replace m2 := not_mem_unit2 m2
  have hK := K.isLt
  have hC := C.isLt
  unfold wppArr
  rw [if_neg fun hh => ?_]
  have hv : K.val / 64 = C.val := hh
  omega

end ReadOut

end Cert.KernelIdeal.Hand

end
-- ==== Proof.KI.ValR0.lean ====
import proofs.«107218_g19069654794669_cont_sun_m_30_13_alg».proof.Proof.KI.ValR0Blk

noncomputable section

namespace Cert.KernelIdeal.Hand

open Idealize.ShloMosaic Idealize.ShloMosaic.ValueIdx Idealize.SL.Sem Cert.KernelIdeal Cert.KernelIdeal.Gen Cert.Spec Cert.Blocks

variable (A : Cert.Spec.Args)
variable (x0 : Vec Ideal S512x512 .f32) (x1 : Vec Ideal S512x64 .f32) (x2 : Vec Ideal S3x65x128 .f32) (x3 : Vec Ideal S3x65x64 .f32)
  (x4 : Vec Ideal S3x128x128 .f32) (x5 : Vec Ideal S3x128x64 .f32) (x6 : Vec Ideal S1x128 .f32) (x7 : Vec Ideal S1x64 .f32)
  (x8 : Vec Ideal S1x128 .f32) (x9 : Vec Ideal S1x64 .f32) (x10 : Vec Ideal S64x1 .f32)

theorem val0_14 (h2 : x2 = wru0T A) : View.canon (pieces0_14 (F := Ideal) x0 x1 x2 x3 x4 x5 x6 x7 x8 x9 x10) = waRu0 A := by
  subst h2
  funext y
  obtain ⟨K, C, rfl⟩ : ∃ (K : Fin 6) (C : Fin 256), y = ix2 K C := ⟨y 0, y 1, eq_ix2 y⟩
  have S := @waRu_src (wru0T A) (fun k o => A.wru0 0 k o) (fun _ _ => rfl)
  exact canon_fill_last (Val := Elt Ideal) (e := .f32) (waRu0 A) (ix2 K C) (pieces0_14 (F := Ideal) x0 x1 (wru0T A) x3 x4 x5 x6 x7 x8 x9 x10) hz2 rfl
    (And.intro (S 1 1 2) <| And.intro (S 1 0 2) <| And.intro (S 0 1 2) <| And.intro (S 0 0 2) <| And.intro (S 1 1 1) <| And.intro (S 1 0 1) <| And.intro (S 0 1 1) <| And.intro (S 0 0 1) <| And.intro (S 1 1 0) <| And.intro (S 1 0 0) <| And.intro (S 0 1 0) <| And.intro (S 0 0 0) <| trivial) (waRu_miss _ K C)

theorem val0_15 (h2 : x2 = wru0T A) : View.canon (pieces0_15 (F := Ideal) x0 x1 x2 x3 x4 x5 x6 x7 x8 x9 x10) = whRu0 A := by
  subst h2
  funext y
  obtain ⟨K, J, C, rfl⟩ : ∃ (K : Fin 3) (J : Fin 128) (C : Fin 256), y = ix3 K J C := ⟨y 0, y 1, y 2, eq_ix3 y⟩
  have S := @whRu_src _ (wru0T A) 1 (by omega) (fun f k o => A.wru0 f.succ k o) (fun k f c =>
    fin3_congr A.wru0 (by show 1 + f.val = f.val + 1; omega) rfl rfl)
  exact canon_fill_last (Val := Elt Ideal) (e := .f32) (whRu0 A) (ix3 K J C) (pieces0_15 (F := Ideal) x0 x1 (wru0T A) x3 x4 x5 x6 x7 x8 x9 x10) hz3 rfl
    (And.intro (S 1 1 2) <| And.intro (S 1 0 2) <| And.intro (S 0 1 2) <| And.intro (S 0 0 2) <| And.intro (S 1 1 1) <| And.intro (S 1 0 1) <| And.intro (S 0 1 1) <| And.intro (S 0 0 1) <| And.intro (S 1 1 0) <| And.intro (S 1 0 0) <| And.intro (S 0 1 0) <| And.intro (S 0 0 0) <| trivial) (whRu_miss _ K J C)

theorem val0_16 (h6 : x6 = bru0R A) : View.canon (pieces0_16 (F := Ideal) x0 x1 x2 x3 x4 x5 x6 x7 x8 x9 x10) = bRu0 A := by
  subst h6
  funext y
  obtain ⟨Z, C, rfl⟩ : ∃ (Z : Fin 1) (C : Fin 256), y = ix2 Z C := ⟨y 0, y 1, eq_ix2 y⟩
  obtain rfl : Z = 0 := Subsingleton.elim _ _
  have S := @bRu_src (bru0R A) A.bru0 (fun _ => rfl)
  exact canon_cover_apply (Val := Elt Ideal) (e := .f32) (bRu0 A) (ix2 0 C) _ (And.intro (S 1 1) <| And.intro (S 0 1) <| And.intro (S 1 0) <| And.intro (S 0 0) <| trivial) (bRu_cover C)

theorem val0_17 (h3 : x3 = wc0T A) : View.canon (pieces0_17 (F := Ideal) x0 x1 x2 x3 x4 x5 x6 x7 x8 x9 x10) = waC0 A := by
  subst h3
  funext y
  obtain ⟨K, C, rfl⟩ : ∃ (K : Fin 6) (C : Fin 128), y = ix2 K C := ⟨y 0, y 1, eq_ix2 y⟩
  have S := @waC_src (wc0T A) (fun k o => A.wc0 0 k o) (fun _ _ => rfl)
  exact canon_fill_last (Val := Elt Ideal) (e := .f32) (waC0 A) (ix2 K C) (pieces0_17 (F := Ideal) x0 x1 x2 (wc0T A) x4 x5 x6 x7 x8 x9 x10) hz2 rfl
    (And.intro (S 1 2) <| And.intro (S 0 2) <| And.intro (S 1 1) <| And.intro (S 0 1) <| And.intro (S 1 0) <| And.intro (S 0 0) <| trivial) (waC_miss _ K C)

theorem val0_18 (h3 : x3 = wc0T A) : View.canon (pieces0_18 (F := Ideal) x0 x1 x2 x3 x4 x5 x6 x7 x8 x9 x10) = whC0 A := by
  subst h3
  funext y
  obtain ⟨K, J, C, rfl⟩ : ∃ (K : Fin 3) (J : Fin 128) (C : Fin 128), y = ix3 K J C := ⟨y 0, y 1, y 2, eq_ix3 y⟩
  have S := @whC_src _ (wc0T A) 1 (by omega) (fun f k o => A.wc0 f.succ k o) (fun k f c =>
    fin3_congr A.wc0 (by show 1 + f.val = f.val + 1; omega) rfl rfl)
  exact canon_fill_last (Val := Elt Ideal) (e := .f32) (whC0 A) (ix3 K J C) (pieces0_18 (F := Ideal) x0 x1 x2 (wc0T A) x4 x5 x6 x7 x8 x9 x10) hz3 rfl
    (And.intro (S 1 2) <| And.intro (S 0 2) <| And.intro (S 1 1) <| And.intro (S 0 1) <| And.intro (S 1 0) <| And.intro (S 0 0) <| trivial) (whC_miss _ K J C)

theorem val0_19 (h7 : x7 = bc0R A) : View.canon (pieces0_19 (F := Ideal) x0 x1 x2 x3 x4 x5 x6 x7 x8 x9 x10) = bC0 A := by
  subst h7
  funext y
  obtain ⟨Z, C, rfl⟩ : ∃ (Z : Fin 1) (C : Fin 128), y = ix2 Z C := ⟨y 0, y 1, eq_ix2 y⟩
  obtain rfl : Z = 0 := Subsingleton.elim _ _
  have S := @bC_src (bc0R A) A.bc0 (fun _ => rfl)
  exact canon_cover_apply (Val := Elt Ideal) (e := .f32) (bC0 A) (ix2 0 C) _ (And.intro (S 1) <| And.intro (S 0) <| trivial) (bC_cover C)

theorem val0_20 (h4 : x4 = wru1T A) : View.canon (pieces0_20 (F := Ideal) x0 x1 x2 x3 x4 x5 x6 x7 x8 x9 x10) = wgRu1 A := by
  subst h4
  funext y
  obtain ⟨K, J, C, rfl⟩ : ∃ (K : Fin 3) (J : Fin 128) (C : Fin 256), y = ix3 K J C := ⟨y 0, y 1, y 2, eq_ix3 y⟩
  have S := @whRu_src _ (wru1T A) 0 (by omega) (fun f k o => A.wru1 (lo f) k o) (fun k f c =>
    fin3_congr A.wru1 (by show 0 + f.val = f.val; omega) rfl rfl)
  exact canon_fill_last (Val := Elt Ideal) (e := .f32) (wgRu1 A) (ix3 K J C) (pieces0_20 (F := Ideal) x0 x1 x2 x3 (wru1T A) x5 x6 x7 x8 x9 x10) hz3 rfl
    (And.intro (S 1 1 2) <| And.intro (S 1 0 2) <| And.intro (S 0 1 2) <| And.intro (S 0 0 2) <| And.intro (S 1 1 1) <| And.intro (S 1 0 1) <| And.intro (S 0 1 1) <| And.intro (S 0 0 1) <| And.intro (S 1 1 0) <| And.intro (S 1 0 0) <| And.intro (S 0 1 0) <| And.intro (S 0 0 0) <| trivial) (whRu_miss _ K J C)

theorem val0_21 (h4 : x4 = wru1T A) : View.canon (pieces0_21 (F := Ideal) x0 x1 x2 x3 x4 x5 x6 x7 x8 x9 x10) = wkRu1 A := by
  subst h4
  funext y
  obtain ⟨K, J, C, rfl⟩ : ∃ (K : Fin 3) (J : Fin 128) (C : Fin 256), y = ix3 K J C := ⟨y 0, y 1, y 2, eq_ix3 y⟩
  have S := @whRu_src _ (wru1T A) 64 (by omega) (fun f k o => A.wru1 (hi f) k o) (fun k f c => fin3_congr A.wru1 rfl rfl rfl)
  exact canon_fill_last (Val := Elt Ideal) (e := .f32) (wkRu1 A) (ix3 K J C) (pieces0_21 (F := Ideal) x0 x1 x2 x3 (wru1T A) x5 x6 x7 x8 x9 x10) hz3 rfl
    (And.intro (S 1 1 2) <| And.intro (S 1 0 2) <| And.intro (S 0 1 2) <| And.intro (S 0 0 2) <| And.intro (S 1 1 1) <| And.intro (S 1 0 1) <| And.intro (S 0 1 1) <| And.intro (S 0 0 1) <| And.intro (S 1 1 0) <| And.intro (S 1 0 0) <| And.intro (S 0 1 0) <| And.intro (S 0 0 0) <| trivial) (whRu_miss _ K J C)

theorem val0_22 (h8 : x8 = bru1R A) : View.canon (pieces0_22 (F := Ideal) x0 x1 x2 x3 x4 x5 x6 x7 x8 x9 x10) = bRu1 A := by
  subst h8
  funext y
  obtain ⟨Z, C, rfl⟩ : ∃ (Z : Fin 1) (C : Fin 256), y = ix2 Z C := ⟨y 0, y 1, eq_ix2 y⟩
  obtain rfl : Z = 0 := Subsingleton.elim _ _
  have S := @bRu_src (bru1R A) A.bru1 (fun _ => rfl)
  exact canon_cover_apply (Val := Elt Ideal) (e := .f32) (bRu1 A) (ix2 0 C) _ (And.intro (S 1 1) <| And.intro (S 0 1) <| And.intro (S 1 0) <| And.intro (S 0 0) <| trivial) (bRu_cover C)

theorem val0_23 (h5 : x5 = wc1T A) : View.canon (pieces0_23 (F := Ideal) x0 x1 x2 x3 x4 x5 x6 x7 x8 x9 x10) = wgC1 A := by
  subst h5
  funext y
  obtain ⟨K, J, C, rfl⟩ : ∃ (K : Fin 3) (J : Fin 128) (C : Fin 128), y = ix3 K J C := ⟨y 0, y 1, y 2, eq_ix3 y⟩
  have S := @whC_src _ (wc1T A) 0 (by omega) (fun f k o => A.wc1 (lo f) k o) (fun k f c =>
    fin3_congr A.wc1 (by show 0 + f.val = f.val; omega) rfl rfl)
  exact canon_fill_last (Val := Elt Ideal) (e := .f32) (wgC1 A) (ix3 K J C) (pieces0_23 (F := Ideal) x0 x1 x2 x3 x4 (wc1T A) x6 x7 x8 x9 x10) hz3 rfl
    (And.intro (S 1 2) <| And.intro (S 0 2) <| And.intro (S 1 1) <| And.intro (S 0 1) <| And.intro (S 1 0) <| And.intro (S 0 0) <| trivial) (whC_miss _ K J C)

theorem val0_24 (h5 : x5 = wc1T A) : View.canon (pieces0_24 (F := Ideal) x0 x1 x2 x3 x4 x5 x6 x7 x8 x9 x10) = wkC1 A := by
  subst h5
  funext y
  obtain ⟨K, J, C, rfl⟩ : ∃ (K : Fin 3) (J : Fin 128) (C : Fin 128), y = ix3 K J C := ⟨y 0, y 1, y 2, eq_ix3 y⟩
  have S := @whC_src _ (wc1T A) 64 (by omega) (fun f k o => A.wc1 (hi f) k o) (fun k f c => fin3_congr A.wc1 rfl rfl rfl)
  exact canon_fill_last (Val := Elt Ideal) (e := .f32) (wkC1 A) (ix3 K J C) (pieces0_24 (F := Ideal) x0 x1 x2 x3 x4 (wc1T A) x6 x7 x8 x9 x10) hz3 rfl
    (And.intro (S 1 2) <| And.intro (S 0 2) <| And.intro (S 1 1) <| And.intro (S 0 1) <| And.intro (S 1 0) <| And.intro (S 0 0) <| trivial) (whC_miss _ K J C)

theorem val0_25 (h9 : x9 = bc1R A) : View.canon (pieces0_25 (F := Ideal) x0 x1 x2 x3 x4 x5 x6 x7 x8 x9 x10) = bC1 A := by
  subst h9
  funext y
  obtain ⟨Z, C, rfl⟩ : ∃ (Z : Fin 1) (C : Fin 128), y = ix2 Z C := ⟨y 0, y 1, eq_ix2 y⟩
  obtain rfl : Z = 0 := Subsingleton.elim _ _
  have S := @bC_src (bc1R A) A.bc1 (fun _ => rfl)
  exact canon_cover_apply (Val := Elt Ideal) (e := .f32) (bC1 A) (ix2 0 C) _ (And.intro (S 1) <| And.intro (S 0) <| trivial) (bC_cover C)

theorem val0_26 (h10 : x10 = wpArr A) : View.canon (pieces0_26 (F := Ideal) x0 x1 x2 x3 x4 x5 x6 x7 x8 x9 x10) = wppArr A := by
  subst h10
  funext y
  obtain ⟨K, C, rfl⟩ : ∃ (K : Fin 128) (C : Fin 2), y = ix2 K C := ⟨y 0, y 1, eq_ix2 y⟩
  exact canon_fill_last (Val := Elt Ideal) (e := .f32) (wppArr A) (ix2 K C) (pieces0_26 (F := Ideal) x0 x1 x2 x3 x4 x5 x6 x7 x8 x9 (wpArr A)) hz2 rfl
    (And.intro (wpp_piece A 1 (by omega)) <| And.intro (wpp_piece A 0 (by omega)) <| trivial) (wpp_miss A K C)

end Cert.KernelIdeal.Hand

end
-- ==== Proof.KI.Glue0.lean ====
import proofs.«107218_g19069654794669_cont_sun_m_30_13_alg».proof.Proof.KI.Run
import proofs.«107218_g19069654794669_cont_sun_m_30_13_alg».proof.Proof.KI.Host
import proofs.«107218_g19069654794669_cont_sun_m_30_13_alg».proof.Proof.KI.R0Canon
import proofs.«107218_g19069654794669_cont_sun_m_30_13_alg».proof.Proof.KI.ValR0
import proofs.«107218_g19069654794669_cont_sun_m_30_13_alg».proof.Proof.KI.Cover

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable (m : (ℓ : Loc nD τ sig) → Buf (Elt Ideal) ℓ) (ρ : Dev nD → PrngReg)

def argsM (c : Dev nD) : Cert.Spec.Args :=
  Cert.Spec.argsOf (m ((c.tc : Thread nD τ).loc main_arg0)) (m ((c.tc : Thread nD τ).loc main_arg1))
    (m ((c.tc : Thread nD τ).loc main_arg2)) (m ((c.tc : Thread nD τ).loc main_arg3))
    (m ((c.tc : Thread nD τ).loc main_arg4)) (m ((c.tc : Thread nD τ).loc main_arg5))
    (m ((c.tc : Thread nD τ).loc main_arg6)) (m ((c.tc : Thread nD τ).loc main_arg7))
    (m ((c.tc : Thread nD τ).loc main_arg8)) (m ((c.tc : Thread nD τ).loc main_arg9))
    (m ((c.tc : Thread nD τ).loc main_arg10)) (m ((c.tc : Thread nD τ).loc main_arg11))
    (m ((c.tc : Thread nD τ).loc main_arg12))

variable (c : Dev nD)

section
variable (t : Fin cfg0.N)

-- Each input block of the first stage is a whole array of the arguments, laid out for it.
theorem iblk0_in0 : iblk0 (V1 m ρ) c 0 t = Cert.Blocks.adjArr (argsM m c) :=
  (read_blk0_0 t _).trans ((W1_keep m ρ c main_arg2 (by decide)).trans (arg2_adjArr (W0 m ρ c)))
theorem iblk0_in10 : iblk0 (V1 m ρ) c 10 t = Cert.Blocks.wpArr (argsM m c) :=
  (read_blk0_10 t _).trans ((W1_keep m ρ c main_arg11 (by decide)).trans (arg11_wpArr (W0 m ρ c)))
theorem iblk0_in1 : iblk0 (V1 m ρ) c 1 t = Cert.Blocks.inpT (argsM m c) :=
  (read_blk0_1 t _).trans (host0_inpT (W0 m ρ c))
theorem iblk0_in2 : iblk0 (V1 m ρ) c 2 t = Cert.Blocks.wru0T (argsM m c) :=
  (read_blk0_2 t _).trans (host0_wru0T (W0 m ρ c))
theorem iblk0_in3 : iblk0 (V1 m ρ) c 3 t = Cert.Blocks.wc0T (argsM m c) :=
  (read_blk0_3 t _).trans (host0_wc0T (W0 m ρ c))
theorem iblk0_in4 : iblk0 (V1 m ρ) c 4 t = Cert.Blocks.wru1T (argsM m c) :=
  (read_blk0_4 t _).trans (host0_wru1T (W0 m ρ c))
theorem iblk0_in5 : iblk0 (V1 m ρ) c 5 t = Cert.Blocks.wc1T (argsM m c) :=
  (read_blk0_5 t _).trans (host0_wc1T (W0 m ρ c))
theorem iblk0_in6 : iblk0 (V1 m ρ) c 6 t = Cert.Blocks.bru0R (argsM m c) :=
  (read_blk0_6 t _).trans (host0_bru0R (W0 m ρ c))
theorem iblk0_in7 : iblk0 (V1 m ρ) c 7 t = Cert.Blocks.bc0R (argsM m c) :=
  (read_blk0_7 t _).trans (host0_bc0R (W0 m ρ c))
theorem iblk0_in8 : iblk0 (V1 m ρ) c 8 t = Cert.Blocks.bru1R (argsM m c) :=
  (read_blk0_8 t _).trans (host0_bru1R (W0 m ρ c))
theorem iblk0_in9 : iblk0 (V1 m ρ) c 9 t = Cert.Blocks.bc1R (argsM m c) :=
  (read_blk0_9 t _).trans (host0_bc1R (W0 m ρ c))

end

-- Each output array of the first stage is the array of the specification.
theorem W2_v16_0 : (W2 m ρ c (Proc.devRef .tc main_v16_0) : S512x512.Idx → EReal) = Cert.Blocks.supArr (argsM m c) :=
  (W2_arr m ρ c 11).trans (arr0_11 _ _ fun t => (after0_11 _ c t).trans ((out0_11_canon c t ..).trans
    ((val0_11 _ _ _ _ _ _ _ _ _ _ _ _ (iblk0_in0 m ρ c t)).trans (read_blk0_11 (F := Ideal) t _).symm)))
theorem W2_v16_1 : (W2 m ρ c (Proc.devRef .tc main_v16_1) : S512x64.Idx → EReal) = Cert.Blocks.a1Arr (argsM m c) :=
  (W2_arr m ρ c 12).trans (arr0_12 _ _ fun t => (after0_12 _ c t).trans ((out0_12_canon c t ..).trans
    ((val0_12 _ _ _ _ _ _ _ _ _ _ _ _ (iblk0_in0 m ρ c t) (iblk0_in1 m ρ c t)).trans (read_blk0_12 (F := Ideal) t _).symm)))
theorem W2_v16_2 : (W2 m ρ c (Proc.devRef .tc main_v16_2) : S512x64.Idx → EReal) = Cert.Blocks.a2Arr (argsM m c) :=
  (W2_arr m ρ c 13).trans (arr0_13 _ _ fun t => (after0_13 _ c t).trans ((out0_13_canon c t ..).trans
    ((val0_13 _ _ _ _ _ _ _ _ _ _ _ _ (iblk0_in0 m ρ c t) (iblk0_in1 m ρ c t)).trans (read_blk0_13 (F := Ideal) t _).symm)))
theorem W2_v16_3 : (W2 m ρ c (Proc.devRef .tc main_v16_3) : S6x256.Idx → EReal) = Cert.Blocks.waRu0 (argsM m c) :=
  (W2_arr m ρ c 14).trans (arr0_14 _ _ fun t => (after0_14 _ c t).trans ((out0_14_canon c t ..).trans
    ((val0_14 _ _ _ _ _ _ _ _ _ _ _ _ (iblk0_in2 m ρ c t)).trans (read_blk0_14 (F := Ideal) t _).symm)))
theorem W2_v16_4 : (W2 m ρ c (Proc.devRef .tc main_v16_4) : S3x128x256.Idx → EReal) = Cert.Blocks.whRu0 (argsM m c) :=
  (W2_arr m ρ c 15).trans (arr0_15 _ _ fun t => (after0_15 _ c t).trans ((out0_15_canon c t ..).trans
    ((val0_15 _ _ _ _ _ _ _ _ _ _ _ _ (iblk0_in2 m ρ c t)).trans (read_blk0_15 (F := Ideal) t _).symm)))
theorem W2_v16_5 : (W2 m ρ c (Proc.devRef .tc main_v16_5) : S1x256.Idx → EReal) = Cert.Blocks.bRu0 (argsM m c) :=
  (W2_arr m ρ c 16).trans (arr0_16 _ _ fun t => (after0_16 _ c t).trans ((out0_16_canon c t ..).trans
    ((val0_16 _ _ _ _ _ _ _ _ _ _ _ _ (iblk0_in6 m ρ c t)).trans (read_blk0_16 (F := Ideal) t _).symm)))
theorem W2_v16_6 : (W2 m ρ c (Proc.devRef .tc main_v16_6) : S6x128.Idx → EReal) = Cert.Blocks.waC0 (argsM m c) :=
  (W2_arr m ρ c 17).trans (arr0_17 _ _ fun t => (after0_17 _ c t).trans ((out0_17_canon c t ..).trans
    ((val0_17 _ _ _ _ _ _ _ _ _ _ _ _ (iblk0_in3 m ρ c t)).trans (read_blk0_17 (F := Ideal) t _).symm)))
theorem W2_v16_7 : (W2 m ρ c (Proc.devRef .tc main_v16_7) : S3x128x128.Idx → EReal) = Cert.Blocks.whC0 (argsM m c) :=
  (W2_arr m ρ c 18).trans (arr0_18 _ _ fun t => (after0_18 _ c t).trans ((out0_18_canon c t ..).trans
    ((val0_18 _ _ _ _ _ _ _ _ _ _ _ _ (iblk0_in3 m ρ c t)).trans (read_blk0_18 (F := Ideal) t _).symm)))
theorem W2_v16_8 : (W2 m ρ c (Proc.devRef .tc main_v16_8) : S1x128.Idx → EReal) = Cert.Blocks.bC0 (argsM m c) :=
  (W2_arr m ρ c 19).trans (arr0_19 _ _ fun t => (after0_19 _ c t).trans ((out0_19_canon c t ..).trans
    ((val0_19 _ _ _ _ _ _ _ _ _ _ _ _ (iblk0_in7 m ρ c t)).trans (read_blk0_19 (F := Ideal) t _).symm)))
theorem W2_v16_9 : (W2 m ρ c (Proc.devRef .tc main_v16_9) : S3x128x256.Idx → EReal) = Cert.Blocks.wgRu1 (argsM m c) :=
  (W2_arr m ρ c 20).trans (arr0_20 _ _ fun t => (after0_20 _ c t).trans ((out0_20_canon c t ..).trans
    ((val0_20 _ _ _ _ _ _ _ _ _ _ _ _ (iblk0_in4 m ρ c t)).trans (read_blk0_20 (F := Ideal) t _).symm)))
theorem W2_v16_10 : (W2 m ρ c (Proc.devRef .tc main_v16_10) : S3x128x256.Idx → EReal) = Cert.Blocks.wkRu1 (argsM m c) :=
  (W2_arr m ρ c 21).trans (arr0_21 _ _ fun t => (after0_21 _ c t).trans ((out0_21_canon c t ..).trans
    ((val0_21 _ _ _ _ _ _ _ _ _ _ _ _ (iblk0_in4 m ρ c t)).trans (read_blk0_21 (F := Ideal) t _).symm)))
theorem W2_v16_11 : (W2 m ρ c (Proc.devRef .tc main_v16_11) : S1x256.Idx → EReal) = Cert.Blocks.bRu1 (argsM m c) :=
  (W2_arr m ρ c 22).trans (arr0_22 _ _ fun t => (after0_22 _ c t).trans ((out0_22_canon c t ..).trans
    ((val0_22 _ _ _ _ _ _ _ _ _ _ _ _ (iblk0_in8 m ρ c t)).trans (read_blk0_22 (F := Ideal) t _).symm)))
theorem W2_v16_12 : (W2 m ρ c (Proc.devRef .tc main_v16_12) : S3x128x128.Idx → EReal) = Cert.Blocks.wgC1 (argsM m c) :=
  (W2_arr m ρ c 23).trans (arr0_23 _ _ fun t => (after0_23 _ c t).trans ((out0_23_canon c t ..).trans
    ((val0_23 _ _ _ _ _ _ _ _ _ _ _ _ (iblk0_in5 m ρ c t)).trans (read_blk0_23 (F := Ideal) t _).symm)))
theorem W2_v16_13 : (W2 m ρ c (Proc.devRef .tc main_v16_13) : S3x128x128.Idx → EReal) = Cert.Blocks.wkC1 (argsM m c) :=
  (W2_arr m ρ c 24).trans (arr0_24 _ _ fun t => (after0_24 _ c t).trans ((out0_24_canon c t ..).trans
    ((val0_24 _ _ _ _ _ _ _ _ _ _ _ _ (iblk0_in5 m ρ c t)).trans (read_blk0_24 (F := Ideal) t _).symm)))
theorem W2_v16_14 : (W2 m ρ c (Proc.devRef .tc main_v16_14) : S1x128.Idx → EReal) = Cert.Blocks.bC1 (argsM m c) :=
  (W2_arr m ρ c 25).trans (arr0_25 _ _ fun t => (after0_25 _ c t).trans ((out0_25_canon c t ..).trans
    ((val0_25 _ _ _ _ _ _ _ _ _ _ _ _ (iblk0_in9 m ρ c t)).trans (read_blk0_25 (F := Ideal) t _).symm)))
theorem W2_v16_15 : (W2 m ρ c (Proc.devRef .tc main_v16_15) : S128x2.Idx → EReal) = Cert.Blocks.wppArr (argsM m c) :=
  (W2_arr m ρ c 26).trans (arr0_26 _ _ fun t => (after0_26 _ c t).trans ((out0_26_canon c t ..).trans
    ((val0_26 _ _ _ _ _ _ _ _ _ _ _ _ (iblk0_in10 m ρ c t)).trans (read_blk0_26 (F := Ideal) t _).symm)))

-- What the second stage is entered from that the first stage did not write: the pairs' Chebyshev rows, the read-out bias, the packed states.
theorem W3_acat : (W3 m ρ c (Proc.devRef .tc main_v22) : S32x6x512.Idx → EReal) = Cert.Blocks.acat (argsM m c) :=
  host1_acat _ _ (((W2_arr m ρ c 1).trans (((dat0 (V1 m ρ) c).arrAt_in 1 rfl _).trans (A_eq0 (V1 m ρ) c 1))).trans
    (host0_inpT (W0 m ρ c))) (W2_v16_1 m ρ c) (W2_v16_2 m ρ c)
theorem W3_bpArr : (W3 m ρ c (Proc.devRef .tc main_v23) : S1x1.Idx → EReal) = Cert.Blocks.bpArr (argsM m c) :=
  host1_bpArr _ _ (congrFun ((W2_of_ne m ρ c main_arg12 (by decide)).trans (W1_keep m ρ c main_arg12 (by decide))) (ix1 0))
theorem W3_hp : (W3 m ρ c (Proc.devRef .tc main_v3) : S2x32x512x128.Idx → EReal) = Cert.Blocks.hp (argsM m c) :=
  (W3_keep m ρ c main_v3 (by decide)).trans ((W2_of_ne m ρ c main_v3 (by decide)).trans (host0_hp (W0 m ρ c)))

end Cert.KernelIdeal.Hand

end
-- ==== Proof.KI.ValR1L0.lean ====
import proofs.«107218_g19069654794669_cont_sun_m_30_13_alg».proof.Proof.Gen.KernelIdeal.Skeleton
import proofs.«107218_g19069654794669_cont_sun_m_30_13_alg».proof.Proof.Spec
import proofs.«107218_g19069654794669_cont_sun_m_30_13_alg».proof.Proof.Blocks
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

open scoped BigOperators

namespace Cert.KI.ValR1L0

open Idealize.ShloMosaic Idealize.ShloMosaic.ValueIdx Cert.KernelIdeal Cert.KernelIdeal.Gen Cert.Spec Cert.Blocks

theorem sum_pairs {M : Type*} [AddCommMonoid M] (a b : ℕ) (F : Fin (a * b) → M) :
    ∑ j, F j = ∑ e : Fin a, ∑ f : Fin b, F ⟨e.val * b + f.val,
      Nat.lt_of_lt_of_le (Nat.add_lt_add_left f.isLt _) (by rw [← Nat.succ_mul]; exact Nat.mul_le_mul_right _ e.isLt)⟩ := by
  rw [← Equiv.sum_comp finProdFinEquiv F, Fintype.sum_prod_type]
  refine Finset.sum_congr rfl fun e _ => Finset.sum_congr rfl fun f _ => congrArg F (Fin.ext ?_)
  show f.val + b * e.val = e.val * b + f.val
  rw [Nat.mul_comm, Nat.add_comm]

theorem sum_fin128 (F : Fin 128 → EReal) : ∑ j, F j = ∑ e : Fin 2, ∑ f : Fin 64, F ⟨e.val * 64 + f.val, by omega⟩ :=
  sum_pairs 2 64 F

theorem sum_fin6 (F : Fin 6 → EReal) : ∑ j, F j = ∑ e : Fin 2, ∑ k : Fin 3, F ⟨e.val * 3 + k.val, by omega⟩ :=
  sum_pairs 2 3 F

theorem w0_eq : w0 = 0 := Ideal.ofBits_zero_f32

theorem sum_two_only (e : Fin 2) (T : Fin 2 → EReal) : (∑ e' : Fin 2, if e' = e then T e' else 0) = T e := by
  rw [Finset.sum_ite_eq' Finset.univ e, if_pos (Finset.mem_univ e)]

abbrev pk (e : Fin 2) (f : Fin 64) : Fin 128 := ⟨e.val * 64 + f.val, by omega⟩

abbrev rw6 (e : Fin 2) (k : Fin 3) : Fin 6 := ⟨e.val * 3 + k.val, by omega⟩

theorem q_pk (e : Fin 2) (f : Fin 64) : (q 64 2 (pk e f) : Fin 2) = e := Fin.ext (by show (e.val * 64 + f.val) / 64 = e.val; omega)
theorem r_pk (e : Fin 2) (f : Fin 64) : (r 64 (pk e f) : Fin 64) = f := Fin.ext (by show (e.val * 64 + f.val) % 64 = f.val; omega)
theorem q_rw6 (e : Fin 2) (k : Fin 3) : (q 3 2 (rw6 e k) : Fin 2) = e := Fin.ext (by show (e.val * 3 + k.val) / 3 = e.val; omega)
theorem r_rw6 (e : Fin 2) (k : Fin 3) : (r 3 (rw6 e k) : Fin 3) = k := Fin.ext (by show (e.val * 3 + k.val) % 3 = k.val; omega)

theorem contract128 (e : Fin 2) (X : Fin 128 → EReal) (W : Fin 64 → EReal) :
    ∑ t : Fin 128, X t * (if (q 64 2 t : Fin 2) = e then W (r 64 t) else w0) = ∑ f : Fin 64, X (pk e f) * W f := by
  rw [sum_fin128]
  have hterm : ∀ (e' : Fin 2) (f : Fin 64),
      X (pk e' f) * (if (q 64 2 (pk e' f) : Fin 2) = e then W (r 64 (pk e' f)) else w0) = if e' = e then X (pk e' f) * W f else 0 := by
    intro e' f
    rw [q_pk, r_pk]
    by_cases h : e' = e
    · rw [if_pos h, if_pos h]
    · rw [if_neg h, if_neg h, w0_eq, mul_zero]
  calc ∑ e' : Fin 2, ∑ f : Fin 64, X (pk e' f) * (if (q 64 2 (pk e' f) : Fin 2) = e then W (r 64 (pk e' f)) else w0)
      = ∑ e' : Fin 2, if e' = e then ∑ f : Fin 64, X (pk e' f) * W f else 0 :=
        Finset.sum_congr rfl fun e' _ => by
          by_cases h : e' = e
          · rw [if_pos h]; exact Finset.sum_congr rfl fun f _ => by rw [hterm, if_pos h]
          · rw [if_neg h]; exact Finset.sum_eq_zero fun f _ => by rw [hterm, if_neg h]
    _ = ∑ f : Fin 64, X (pk e f) * W f := sum_two_only e fun e' => ∑ f : Fin 64, X (pk e' f) * W f

theorem contract6 (e : Fin 2) (X : Fin 6 → EReal) (W : Fin 3 → EReal) :
    ∑ t : Fin 6, X t * (if (q 3 2 t : Fin 2) = e then W (r 3 t) else w0) = ∑ k : Fin 3, X (rw6 e k) * W k := by
  rw [sum_fin6]
  have hterm : ∀ (e' : Fin 2) (k : Fin 3),
      X (rw6 e' k) * (if (q 3 2 (rw6 e' k) : Fin 2) = e then W (r 3 (rw6 e' k)) else w0) = if e' = e then X (rw6 e' k) * W k else 0 := by
    intro e' k
    rw [q_rw6, r_rw6]
    by_cases h : e' = e
    · rw [if_pos h, if_pos h]
    · rw [if_neg h, if_neg h, w0_eq, mul_zero]
  calc ∑ e' : Fin 2, ∑ k : Fin 3, X (rw6 e' k) * (if (q 3 2 (rw6 e' k) : Fin 2) = e then W (r 3 (rw6 e' k)) else w0)
      = ∑ e' : Fin 2, if e' = e then ∑ k : Fin 3, X (rw6 e' k) * W k else 0 :=
        Finset.sum_congr rfl fun e' _ => by
          by_cases h : e' = e
          · rw [if_pos h]; exact Finset.sum_congr rfl fun k _ => by rw [hterm, if_pos h]
          · rw [if_neg h]; exact Finset.sum_eq_zero fun k _ => by rw [hterm, if_neg h]
    _ = ∑ k : Fin 3, X (rw6 e k) * W k := sum_two_only e fun e' => ∑ k : Fin 3, X (rw6 e' k) * W k

theorem matmul_ix2 {m k n : ℕ} (D : DotDims ⟨2, ![m, k]⟩ ⟨2, ![k, n]⟩ ⟨2, ![m, n]⟩) (hD : D = DotDims.plain m k n)
    (lhs : FVec Ideal ⟨2, ![m, k]⟩ .f32) (rhs : FVec Ideal ⟨2, ![k, n]⟩ .f32) (a : Fin m) (b : Fin n) :
    matmul D none lhs rhs (constant ⟨2, ![m, n]⟩ .f32 0x00000000#32) (ix2 a b)
      = ∑ t : Fin k, lhs (ix2 a t) * rhs (ix2 t b) := by
  subst hD
  simp only [matmul]
  rw [Ideal.matmul_constant_zero_apply, ← Equiv.sum_comp (contrEquiv1 (DotDims.plain m k n) k rfl rfl).symm]
  refine Finset.sum_congr rfl fun t _ => ?_
  have ht := contrEquiv1_symm_val (DotDims.plain m k n) k rfl rfl t
  have el : (DotDims.plain m k n).lhsIdx (ix2 a b) ((contrEquiv1 (DotDims.plain m k n) k rfl rfl).symm t) = ix2 a t :=
    funext fun c => Fin.ext (by
      match c with
      | ⟨0, _⟩ => rfl
      | ⟨1, _⟩ => exact ht)
  have er : (DotDims.plain m k n).rhsIdx (ix2 a b) ((contrEquiv1 (DotDims.plain m k n) k rfl rfl).symm t) = ix2 t b :=
    funext fun c => Fin.ext (by
      match c with
      | ⟨0, _⟩ => exact ht
      | ⟨1, _⟩ => rfl)
  rw [el, er]

theorem mm_SH (x : FVec Ideal S512x512 .f32) (y : FVec Ideal S512x128 .f32) (a : Fin 512) (b : Fin 128) :
    matmul dot_S512x512_S512x128_S512x128_1_0_0_1_n_n none x y (constant S512x128 .f32 0x00000000#32) (ix2 a b)
      = ∑ t : Fin 512, x (ix2 a t) * y (ix2 t b) :=
  matmul_ix2 dot_S512x512_S512x128_S512x128_1_0_0_1_n_n rfl x y a b

theorem mm_A256 (x : FVec Ideal S512x6 .f32) (y : FVec Ideal S6x256 .f32) (a : Fin 512) (b : Fin 256) :
    matmul dot_S512x6_S6x256_S512x256_1_0_0_1_n_n none x y (constant S512x256 .f32 0x00000000#32) (ix2 a b)
      = ∑ t : Fin 6, x (ix2 a t) * y (ix2 t b) :=
  matmul_ix2 dot_S512x6_S6x256_S512x256_1_0_0_1_n_n rfl x y a b

theorem mm_H256 (x : FVec Ideal S512x128 .f32) (y : FVec Ideal S128x256 .f32) (a : Fin 512) (b : Fin 256) :
    matmul dot_S512x128_S128x256_S512x256_1_0_0_1_n_n none x y (constant S512x256 .f32 0x00000000#32) (ix2 a b)
      = ∑ t : Fin 128, x (ix2 a t) * y (ix2 t b) :=
  matmul_ix2 dot_S512x128_S128x256_S512x256_1_0_0_1_n_n rfl x y a b

theorem mm_A128 (x : FVec Ideal S512x6 .f32) (y : FVec Ideal S6x128 .f32) (a : Fin 512) (b : Fin 128) :
    matmul dot_S512x6_S6x128_S512x128_1_0_0_1_n_n none x y (constant S512x128 .f32 0x00000000#32) (ix2 a b)
      = ∑ t : Fin 6, x (ix2 a t) * y (ix2 t b) :=
  matmul_ix2 dot_S512x6_S6x128_S512x128_1_0_0_1_n_n rfl x y a b

theorem mm_H128 (x : FVec Ideal S512x128 .f32) (y : FVec Ideal S128x128 .f32) (a : Fin 512) (b : Fin 128) :
    matmul dot_S512x128_S128x128_S512x128_1_0_0_1_n_n none x y (constant S512x128 .f32 0x00000000#32) (ix2 a b)
      = ∑ t : Fin 128, x (ix2 a t) * y (ix2 t b) :=
  matmul_ix2 dot_S512x128_S128x128_S512x128_1_0_0_1_n_n rfl x y a b

section Conv
variable (A : Args)

theorem gconv_split {O : ℕ} (S : Fin 512 → Fin 512 → EReal) (W : Fin 65 → Fin 3 → Fin O → EReal) (bb : Fin O → EReal)
    (x : Fin 512 → Fin 64 → EReal) (b : Fin 64) (n : Fin 512) (o : Fin O) :
    ((((bb o + ∑ k : Fin 3, cheb S (A.inp b) k n * W 0 k o)
        + ∑ f : Fin 64, x n f * W f.succ 0 o)
        + ∑ f : Fin 64, (∑ i : Fin 512, S n i * x i f) * W f.succ 1 o)
        + ∑ f : Fin 64, (w2 * (∑ i : Fin 512, S n i * ∑ i' : Fin 512, S i i' * x i' f) - x n f) * W f.succ 2 o)
      = gconv S W bb (feat0 A x b) n o := by
  unfold gconv
  rw [Fin.sum_univ_succ (fun f : Fin 65 => ∑ k : Fin 3, cheb S (feat0 A x b f) k n * W f k o)]
  have h0 : feat0 A x b 0 = A.inp b := by unfold feat0; rw [Fin.cases_zero]
  have hs : ∀ f : Fin 64, feat0 A x b f.succ = fun n => x n f := fun f => by unfold feat0; rw [Fin.cases_succ]
  have hin : ∀ f : Fin 64, ∑ k : Fin 3, cheb S (feat0 A x b f.succ) k n * W f.succ k o
      = (x n f * W f.succ 0 o + (∑ i : Fin 512, S n i * x i f) * W f.succ 1 o)
        + (w2 * (∑ i : Fin 512, S n i * ∑ i' : Fin 512, S i i' * x i' f) - x n f) * W f.succ 2 o := by
    intro f
    rw [hs, Fin.sum_univ_three]
    rfl
  rw [h0, Finset.sum_congr rfl fun f _ => hin f, Finset.sum_add_distrib, Finset.sum_add_distrib]
  abel

def convK {C : ℕ} (Sx : (⟨2, ![512, 512]⟩ : Shape).Idx → EReal) (A4 : (⟨2, ![512, 6]⟩ : Shape).Idx → EReal)
    (X : (⟨2, ![512, 128]⟩ : Shape).Idx → EReal) (bias : (⟨2, ![1, C]⟩ : Shape).Idx → EReal)
    (Wa : (⟨2, ![6, C]⟩ : Shape).Idx → EReal) (W0 W1 W2 : (⟨3, ![1, 128, C]⟩ : Shape).Idx → EReal)
    (n : Fin 512) (c : Fin C) : EReal :=
  (((bias (ix2 (0 : Fin 1) c) + ∑ t : Fin 6, A4 (ix2 n t) * Wa (ix2 t c))
      + ∑ t : Fin 128, X (ix2 n t) * W0 (ix3 (0 : Fin 1) t c))
      + ∑ t : Fin 128, (∑ i : Fin 512, Sx (ix2 n i) * X (ix2 i t)) * W1 (ix3 (0 : Fin 1) t c))
      + ∑ t : Fin 128, (w2 * (∑ i : Fin 512, Sx (ix2 n i) * ∑ i' : Fin 512, Sx (ix2 i i') * X (ix2 i' t)) - X (ix2 n t)) * W2 (ix3 (0 : Fin 1) t c)

theorem convK_value {C O : ℕ} (p : Fin 32) (e : Fin 2)
    (Sx : (⟨2, ![512, 512]⟩ : Shape).Idx → EReal) (A4 : (⟨2, ![512, 6]⟩ : Shape).Idx → EReal)
    (X : (⟨2, ![512, 128]⟩ : Shape).Idx → EReal) (bias : (⟨2, ![1, C]⟩ : Shape).Idx → EReal)
    (Wa : (⟨2, ![6, C]⟩ : Shape).Idx → EReal) (W0 W1 W2 : (⟨3, ![1, 128, C]⟩ : Shape).Idx → EReal)
    (W : Fin 65 → Fin 3 → Fin O → EReal) (bb : Fin O → EReal) (x : Fin 512 → Fin 64 → EReal) (c : Fin C) (o : Fin O)
    (hS : ∀ n i, Sx (ix2 n i) = sup A n i)
    (hA : ∀ (n : Fin 512) (t : Fin 6), A4 (ix2 n t) = cheb (sup A) (A.inp (bat p (q 3 2 t))) (r 3 t) n)
    (hX : ∀ (n : Fin 512) (f : Fin 64), X (ix2 n (pk e f)) = x n f)
    (hb : bias (ix2 (0 : Fin 1) c) = bb o)
    (hWa : ∀ t : Fin 6, Wa (ix2 t c) = if (q 3 2 t : Fin 2) = e then W 0 (r 3 t) o else w0)
    (hW0 : ∀ t : Fin 128, W0 (ix3 (0 : Fin 1) t c) = if (q 64 2 t : Fin 2) = e then W (r 64 t).succ 0 o else w0)
    (hW1 : ∀ t : Fin 128, W1 (ix3 (0 : Fin 1) t c) = if (q 64 2 t : Fin 2) = e then W (r 64 t).succ 1 o else w0)
    (hW2 : ∀ t : Fin 128, W2 (ix3 (0 : Fin 1) t c) = if (q 64 2 t : Fin 2) = e then W (r 64 t).succ 2 o else w0)
    (n : Fin 512) :
    convK Sx A4 X bias Wa W0 W1 W2 n c = gconv (sup A) W bb (feat0 A x (bat p e)) n o := by
  have t2 : ∑ t : Fin 6, A4 (ix2 n t) * Wa (ix2 t c) = ∑ k : Fin 3, cheb (sup A) (A.inp (bat p e)) k n * W 0 k o :=
    calc ∑ t : Fin 6, A4 (ix2 n t) * Wa (ix2 t c)
        = ∑ t : Fin 6, A4 (ix2 n t) * (if (q 3 2 t : Fin 2) = e then W 0 (r 3 t) o else w0) :=
          Finset.sum_congr rfl fun t _ => by rw [hWa t]
      _ = ∑ k : Fin 3, A4 (ix2 n (rw6 e k)) * W 0 k o := contract6 e (fun t => A4 (ix2 n t)) (fun k => W 0 k o)
      _ = ∑ k : Fin 3, cheb (sup A) (A.inp (bat p e)) k n * W 0 k o :=
          Finset.sum_congr rfl fun k _ => by rw [hA, q_rw6, r_rw6]
  have t3 : ∑ t : Fin 128, X (ix2 n t) * W0 (ix3 (0 : Fin 1) t c) = ∑ f : Fin 64, x n f * W f.succ 0 o :=
    calc ∑ t : Fin 128, X (ix2 n t) * W0 (ix3 (0 : Fin 1) t c)
        = ∑ t : Fin 128, X (ix2 n t) * (if (q 64 2 t : Fin 2) = e then W (r 64 t).succ 0 o else w0) :=
          Finset.sum_congr rfl fun t _ => by rw [hW0 t]
      _ = ∑ f : Fin 64, X (ix2 n (pk e f)) * W f.succ 0 o := contract128 e (fun t => X (ix2 n t)) (fun f => W f.succ 0 o)
      _ = ∑ f : Fin 64, x n f * W f.succ 0 o := Finset.sum_congr rfl fun f _ => by rw [hX]
  have t4 : ∑ t : Fin 128, (∑ i : Fin 512, Sx (ix2 n i) * X (ix2 i t)) * W1 (ix3 (0 : Fin 1) t c)
      = ∑ f : Fin 64, (∑ i : Fin 512, sup A n i * x i f) * W f.succ 1 o :=
    calc ∑ t : Fin 128, (∑ i : Fin 512, Sx (ix2 n i) * X (ix2 i t)) * W1 (ix3 (0 : Fin 1) t c)
        = ∑ t : Fin 128, (∑ i : Fin 512, Sx (ix2 n i) * X (ix2 i t)) * (if (q 64 2 t : Fin 2) = e then W (r 64 t).succ 1 o else w0) :=
          Finset.sum_congr rfl fun t _ => by rw [hW1 t]
      _ = ∑ f : Fin 64, (∑ i : Fin 512, Sx (ix2 n i) * X (ix2 i (pk e f))) * W f.succ 1 o :=
          contract128 e (fun t => ∑ i : Fin 512, Sx (ix2 n i) * X (ix2 i t)) (fun f => W f.succ 1 o)
      _ = ∑ f : Fin 64, (∑ i : Fin 512, sup A n i * x i f) * W f.succ 1 o :=
          Finset.sum_congr rfl fun f _ => by simp only [hS, hX]
  have t5 : ∑ t : Fin 128, (w2 * (∑ i : Fin 512, Sx (ix2 n i) * ∑ i' : Fin 512, Sx (ix2 i i') * X (ix2 i' t)) - X (ix2 n t)) * W2 (ix3 (0 : Fin 1) t c)
      = ∑ f : Fin 64, (w2 * (∑ i : Fin 512, sup A n i * ∑ i' : Fin 512, sup A i i' * x i' f) - x n f) * W f.succ 2 o :=
    calc ∑ t : Fin 128, (w2 * (∑ i : Fin 512, Sx (ix2 n i) * ∑ i' : Fin 512, Sx (ix2 i i') * X (ix2 i' t)) - X (ix2 n t)) * W2 (ix3 (0 : Fin 1) t c)
        = ∑ t : Fin 128, (w2 * (∑ i : Fin 512, Sx (ix2 n i) * ∑ i' : Fin 512, Sx (ix2 i i') * X (ix2 i' t)) - X (ix2 n t))
            * (if (q 64 2 t : Fin 2) = e then W (r 64 t).succ 2 o else w0) :=
          Finset.sum_congr rfl fun t _ => by rw [hW2 t]
      _ = ∑ f : Fin 64, (w2 * (∑ i : Fin 512, Sx (ix2 n i) * ∑ i' : Fin 512, Sx (ix2 i i') * X (ix2 i' (pk e f))) - X (ix2 n (pk e f))) * W f.succ 2 o :=
          contract128 e (fun t => w2 * (∑ i : Fin 512, Sx (ix2 n i) * ∑ i' : Fin 512, Sx (ix2 i i') * X (ix2 i' t)) - X (ix2 n t))
            (fun f => W f.succ 2 o)
      _ = ∑ f : Fin 64, (w2 * (∑ i : Fin 512, sup A n i * ∑ i' : Fin 512, sup A i i' * x i' f) - x n f) * W f.succ 2 o :=
          Finset.sum_congr rfl fun f _ => by simp only [hS, hX]
  refine Eq.trans ?_ (gconv_split A (sup A) W bb x (bat p e) n o)
  unfold convK
  rw [hb, t2, t3, t4, t5]

end Conv

theorem logistic_apply {s : Shape} (a : FVec Ideal s .f32) (i : s.Idx) : logistic a i = Ideal.logistic (a i) := rfl

theorem tanh_apply {s : Shape} (a : FVec Ideal s .f32) (i : s.Idx) : tanh a i = Ideal.tanh (a i) := rfl

theorem cast_11ab_ab {a b : ℕ} (x : (⟨4, ![1, 1, a, b]⟩ : Shape).Idx → EReal)
    (h : (⟨4, ![1, 1, a, b]⟩ : Shape).ShapeCasts ⟨2, ![a, b]⟩) (i : Fin a) (j : Fin b) :
    shapeCast ⟨2, ![a, b]⟩ x h (ix2 i j) = x (ix4 (0 : Fin 1) (0 : Fin 1) i j) :=
  shapeCast_apply x h _ _ (by
    rw [Shape.rowMajor_val_four, Shape.rowMajor_val_two]
    show ((0 * 1 + 0) * a + i.val) * b + j.val = i.val * b + j.val
    simp only [Nat.zero_mul, Nat.zero_add])

theorem pay2_eq (v0 : Vec Ideal S512x512 .f32) : k1_pay2 v0 = v0 := shapeCast_self v0 _

theorem pay3_apply (v2 : Vec Ideal S1x6x512 .f32) (n : Fin 512) (t : Fin 6) :
    k1_pay3 v2 (ix2 n t) = v2 (ix3 (0 : Fin 1) t n) :=
  (transpose_ix2_apply _ _ n t).trans (shapeCast_1ab_ab_apply v2 _ t n)

theorem pay4_apply (v5 : Vec Ideal S1x1x512x128 .f32) (n : Fin 512) (j : Fin 128) :
    k1_pay4 v5 (ix2 n j) = v5 (ix4 (0 : Fin 1) (0 : Fin 1) n j) :=
  cast_11ab_ab v5 _ n j

theorem pay5_apply (v0 : Vec Ideal S512x512 .f32) (v5 : Vec Ideal S1x1x512x128 .f32) (n : Fin 512) (j : Fin 128) :
    k1_pay5 v0 v5 (ix2 n j) = ∑ i : Fin 512, v0 (ix2 n i) * k1_pay4 v5 (ix2 i j) := by
  unfold k1_pay5
  simp only [mm_SH, pay2_eq]

theorem pay6_apply (v0 : Vec Ideal S512x512 .f32) (v2 : Vec Ideal S1x6x512 .f32) (v5 : Vec Ideal S1x1x512x128 .f32)
    (v7 : Vec Ideal S1x256 .f32) (v9 : Vec Ideal S6x256 .f32) (v14 v19 : Vec Ideal S1x128x256 .f32) (n : Fin 512) (c : Fin 256) :
    k1_pay6 v0 v2 v5 v7 v9 v14 v19 (ix2 n c)
      = ((v7 (ix2 (0 : Fin 1) c) + ∑ t : Fin 6, k1_pay3 v2 (ix2 n t) * v9 (ix2 t c))
          + ∑ t : Fin 128, k1_pay4 v5 (ix2 n t) * v14 (ix3 (0 : Fin 1) t c))
          + ∑ t : Fin 128, (∑ i : Fin 512, v0 (ix2 n i) * k1_pay4 v5 (ix2 i t)) * v19 (ix3 (0 : Fin 1) t c) := by
  unfold k1_pay6
  simp only [addf_apply, mm_A256, mm_H256, broadcastTo_1b_ab_apply, shapeCast_self, shapeCast_1ab_ab_apply, pay5_apply]

theorem pay7_apply (v0 : Vec Ideal S512x512 .f32) (v5 : Vec Ideal S1x1x512x128 .f32) (v27 : Vec Ideal S1x128x256 .f32)
    (n : Fin 512) (c : Fin 256) :
    k1_pay7 v0 v5 v27 (ix2 n c)
      = ∑ t : Fin 128, (w2 * (∑ i : Fin 512, v0 (ix2 n i) * ∑ i' : Fin 512, v0 (ix2 i i') * k1_pay4 v5 (ix2 i' t)) - k1_pay4 v5 (ix2 n t))
          * v27 (ix3 (0 : Fin 1) t c) := by
  unfold k1_pay7
  simp only [mm_H256, mm_SH, subf_apply, mulf_apply, broadcast_apply, shapeCast_1ab_ab_apply, pay2_eq, pay5_apply]
  rfl

theorem gatePre_apply (v0 : Vec Ideal S512x512 .f32) (v2 : Vec Ideal S1x6x512 .f32) (v5 : Vec Ideal S1x1x512x128 .f32)
    (v7 : Vec Ideal S1x256 .f32) (v9 : Vec Ideal S6x256 .f32) (v14 v19 v27 : Vec Ideal S1x128x256 .f32) (n : Fin 512) (c : Fin 256) :
    addf (k1_pay6 v0 v2 v5 v7 v9 v14 v19) (k1_pay7 v0 v5 v27) (ix2 n c)
      = convK v0 (k1_pay3 v2) (k1_pay4 v5) v7 v9 v14 v19 v27 n c := by
  rw [addf_apply, pay6_apply, pay7_apply]
  rfl

def resetState (v6 : FVec Ideal S512x128 .f32) (G : FVec Ideal S512x256 .f32) : FVec Ideal S512x128 .f32 :=
  mulf (extractStridedSlice S512x128 ![0, 0] (logistic G) slices_S512x256_o0_0_S512x128) v6

def updGate (G : FVec Ideal S512x256 .f32) : FVec Ideal S512x128 .f32 :=
  extractStridedSlice S512x128 ![0, 128] (logistic G) slices_S512x256_o0_128_S512x128

theorem resetState_apply (v6 : FVec Ideal S512x128 .f32) (G : FVec Ideal S512x256 .f32) (m : Fin 512) (j : Fin 128) :
    resetState v6 G (ix2 m j) = Ideal.logistic (G (ix2 m ⟨0 + j.val, by omega⟩)) * v6 (ix2 m j) := by
  unfold resetState
  rw [mulf_apply]
  exact congrArg (· * v6 (ix2 m j)) (slice2_axis1_eq 0 (logistic G) slices_S512x256_o0_0_S512x128 m j)

theorem updGate_apply (G : FVec Ideal S512x256 .f32) (m : Fin 512) (j : Fin 128) :
    updGate G (ix2 m j) = Ideal.logistic (G (ix2 m ⟨128 + j.val, by omega⟩)) :=
  slice2_axis1_eq 128 (logistic G) slices_S512x256_o0_128_S512x128 m j

theorem pay8_apply (v1 : FVec Ideal S512x512 .f32) (v4 : FVec Ideal S512x6 .f32) (v6 : FVec Ideal S512x128 .f32)
    (v22 v29 : FVec Ideal S512x256 .f32) (v35 : Vec Ideal S1x128 .f32) (v37 : Vec Ideal S6x128 .f32)
    (v42 v47 v55 : Vec Ideal S1x128x128 .f32) (n : Fin 512) (j : Fin 128) :
    k1_pay8 v1 v4 v6 v22 v29 v35 v37 v42 v47 v55 (ix2 n j)
      = updGate (addf v22 v29) (ix2 n j) * v6 (ix2 n j)
        + (w1 - updGate (addf v22 v29) (ix2 n j))
          * Ideal.tanh (convK v1 v4 (resetState v6 (addf v22 v29)) v35 v37 v42 v47 v55 n j) := by
  unfold k1_pay8 updGate resetState convK
  simp only [addf_apply, mulf_apply, subf_apply, tanh_apply, broadcast_apply, mm_A128, mm_H128, mm_SH,
    broadcastTo_1b_ab_apply, shapeCast_self, shapeCast_1ab_ab_apply]
  rfl

section Value
variable (A : Args)

theorem supArr_apply (n i : Fin 512) : supArr A (ix2 n i) = sup A n i := rfl
theorem acat_apply (p : Fin 32) (t : Fin 6) (n : Fin 512) :
    acat A (ix3 p t n) = cheb (sup A) (A.inp (bat p (q 3 2 t))) (r 3 t) n := rfl
theorem hp_apply (l : Fin 2) (p : Fin 32) (n : Fin 512) (j : Fin 128) :
    hp A (ix4 l p n j) = A.hid l (bat p (q 64 2 j)) n (r 64 j) := rfl
theorem bRu0_apply (c : Fin 256) : bRu0 A (ix2 (0 : Fin 1) c) = A.bru0 (gcol (q 128 2 c) (r 64 c)) := rfl
theorem waRu0_apply (t : Fin 6) (c : Fin 256) :
    waRu0 A (ix2 t c) = if (q 3 2 t : Fin 2) = q 64 2 (r 128 c) then A.wru0 0 (r 3 t) (gcol (q 128 2 c) (r 64 c)) else w0 := rfl
theorem whRu0_apply (k : Fin 3) (t : Fin 128) (c : Fin 256) :
    whRu0 A (ix3 k t c)
      = if (q 64 2 t : Fin 2) = q 64 2 (r 128 c) then A.wru0 (r 64 t).succ k (gcol (q 128 2 c) (r 64 c)) else w0 := rfl
theorem bC0_apply (c : Fin 128) : bC0 A (ix2 (0 : Fin 1) c) = A.bc0 (r 64 c) := rfl
theorem waC0_apply (t : Fin 6) (c : Fin 128) :
    waC0 A (ix2 t c) = if (q 3 2 t : Fin 2) = q 64 2 c then A.wc0 0 (r 3 t) (r 64 c) else w0 := rfl
theorem whC0_apply (k : Fin 3) (t : Fin 128) (c : Fin 128) :
    whC0 A (ix3 k t c) = if (q 64 2 t : Fin 2) = q 64 2 c then A.wc0 (r 64 t).succ k (r 64 c) else w0 := rfl

theorem col_e {c : Fin 256} {g e : Fin 2} {o : Fin 64} (hc : c.val = g.val * 128 + e.val * 64 + o.val) :
    (q 64 2 (r 128 c) : Fin 2) = e :=
  Fin.ext (by have := g.isLt; have := e.isLt; have := o.isLt; show c.val % 128 / 64 = e.val; omega)
theorem col_g {c : Fin 256} {g e : Fin 2} {o : Fin 64} (hc : c.val = g.val * 128 + e.val * 64 + o.val) :
    (q 128 2 c : Fin 2) = g :=
  Fin.ext (by have := g.isLt; have := e.isLt; have := o.isLt; show c.val / 128 = g.val; omega)
theorem col_o {c : Fin 256} {g e : Fin 2} {o : Fin 64} (hc : c.val = g.val * 128 + e.val * 64 + o.val) :
    (r 64 c : Fin 64) = o :=
  Fin.ext (by have := g.isLt; have := e.isLt; have := o.isLt; show c.val % 64 = o.val; omega)

theorem gcol_zero (u : Fin 64) : gcol 0 u = lo u := Fin.ext (by show 0 * 64 + u.val = u.val; omega)

theorem gcol_one (u : Fin 64) : gcol 1 u = hi u := Fin.ext (by show 1 * 64 + u.val = 64 + u.val; omega)

theorem layer0_core (p : Fin 32)
    (v0 : Vec Ideal S512x512 .f32) (v2 : Vec Ideal S1x6x512 .f32) (v5 : Vec Ideal S1x1x512x128 .f32)
    (v7 : Vec Ideal S1x256 .f32) (v9 : Vec Ideal S6x256 .f32) (v14 v19 v27 : Vec Ideal S1x128x256 .f32)
    (v35 : Vec Ideal S1x128 .f32) (v37 : Vec Ideal S6x128 .f32) (v42 v47 v55 : Vec Ideal S1x128x128 .f32)
    (h0' : ∀ (n i : Fin 512), v0 (ix2 n i) = sup A n i)
    (h2 : ∀ (t : Fin 6) (n : Fin 512), v2 (ix3 (0 : Fin 1) t n) = acat A (ix3 p t n))
    (h5 : ∀ (n : Fin 512) (j : Fin 128), v5 (ix4 (0 : Fin 1) (0 : Fin 1) n j) = hp A (ix4 (0 : Fin 2) p n j))
    (h7 : ∀ c : Fin 256, v7 (ix2 (0 : Fin 1) c) = bRu0 A (ix2 (0 : Fin 1) c))
    (h9 : ∀ (t : Fin 6) (c : Fin 256), v9 (ix2 t c) = waRu0 A (ix2 t c))
    (h14 : ∀ (t : Fin 128) (c : Fin 256), v14 (ix3 (0 : Fin 1) t c) = whRu0 A (ix3 (0 : Fin 3) t c))
    (h19 : ∀ (t : Fin 128) (c : Fin 256), v19 (ix3 (0 : Fin 1) t c) = whRu0 A (ix3 (1 : Fin 3) t c))
    (h27 : ∀ (t : Fin 128) (c : Fin 256), v27 (ix3 (0 : Fin 1) t c) = whRu0 A (ix3 (2 : Fin 3) t c))
    (h35 : ∀ c : Fin 128, v35 (ix2 (0 : Fin 1) c) = bC0 A (ix2 (0 : Fin 1) c))
    (h37 : ∀ (t : Fin 6) (c : Fin 128), v37 (ix2 t c) = waC0 A (ix2 t c))
    (h42 : ∀ (t : Fin 128) (c : Fin 128), v42 (ix3 (0 : Fin 1) t c) = whC0 A (ix3 (0 : Fin 3) t c))
    (h47 : ∀ (t : Fin 128) (c : Fin 128), v47 (ix3 (0 : Fin 1) t c) = whC0 A (ix3 (1 : Fin 3) t c))
    (h55 : ∀ (t : Fin 128) (c : Fin 128), v55 (ix3 (0 : Fin 1) t c) = whC0 A (ix3 (2 : Fin 3) t c))
    (n : Fin 512) (e : Fin 2) (u : Fin 64) :
    k1_pay8 (k1_pay2 v0) (k1_pay3 v2) (k1_pay4 v5) (k1_pay6 v0 v2 v5 v7 v9 v14 v19) (k1_pay7 v0 v5 v27) v35 v37 v42 v47 v55
        (ix2 n (pk e u))
      = h0 A (bat p e) n u := by

  have hH : ∀ (m : Fin 512) (f : Fin 64), k1_pay4 v5 (ix2 m (pk e f)) = A.hid 0 (bat p e) m f := fun m f => by
    rw [pay4_apply, h5, hp_apply, q_pk, r_pk]
  have hA4 : ∀ (m : Fin 512) (t : Fin 6), k1_pay3 v2 (ix2 m t) = cheb (sup A) (A.inp (bat p (q 3 2 t))) (r 3 t) m :=
    fun m t => by rw [pay3_apply, h2, acat_apply]

  have hG : ∀ (m : Fin 512) (g : Fin 2) (o : Fin 64) (c : Fin 256), c.val = g.val * 128 + e.val * 64 + o.val →
      addf (k1_pay6 v0 v2 v5 v7 v9 v14 v19) (k1_pay7 v0 v5 v27) (ix2 m c)
        = gate (sup A) A.wru0 A.bru0 (fun h => feat0 A h (bat p e)) (A.hid 0 (bat p e)) m (gcol g o) := by
    intro m g o c hc
    rw [gatePre_apply]
    exact convK_value A p e v0 (k1_pay3 v2) (k1_pay4 v5) v7 v9 v14 v19 v27 A.wru0 A.bru0 (A.hid 0 (bat p e)) c (gcol g o)
      h0' hA4 hH
      (by rw [h7, bRu0_apply, col_g hc, col_o hc])
      (fun t => by rw [h9, waRu0_apply, col_e hc, col_g hc, col_o hc])
      (fun t => by rw [h14, whRu0_apply, col_e hc, col_g hc, col_o hc])
      (fun t => by rw [h19, whRu0_apply, col_e hc, col_g hc, col_o hc])
      (fun t => by rw [h27, whRu0_apply, col_e hc, col_g hc, col_o hc])
      m

  have hR : ∀ (m : Fin 512) (f : Fin 64),
      resetState (k1_pay4 v5) (addf (k1_pay6 v0 v2 v5 v7 v9 v14 v19) (k1_pay7 v0 v5 v27)) (ix2 m (pk e f))
        = rgate (sup A) A.wru0 A.bru0 (fun h => feat0 A h (bat p e)) (A.hid 0 (bat p e)) m f * A.hid 0 (bat p e) m f :=
    fun m f => by
      rw [resetState_apply, hG m 0 f _ (by show 0 + (e.val * 64 + f.val) = 0 * 128 + e.val * 64 + f.val; omega), gcol_zero, hH]
      rfl

  have hZ : updGate (addf (k1_pay6 v0 v2 v5 v7 v9 v14 v19) (k1_pay7 v0 v5 v27)) (ix2 n (pk e u))
      = zgate (sup A) A.wru0 A.bru0 (fun h => feat0 A h (bat p e)) (A.hid 0 (bat p e)) n u := by
    rw [updGate_apply, hG n 1 u _ (by show 128 + (e.val * 64 + u.val) = 1 * 128 + e.val * 64 + u.val; omega), gcol_one]
    rfl

  have hC : convK (k1_pay2 v0) (k1_pay3 v2)
        (resetState (k1_pay4 v5) (addf (k1_pay6 v0 v2 v5 v7 v9 v14 v19) (k1_pay7 v0 v5 v27))) v35 v37 v42 v47 v55 n (pk e u)
      = gconv (sup A) A.wc0 A.bc0
          (feat0 A (fun m f => rgate (sup A) A.wru0 A.bru0 (fun h => feat0 A h (bat p e)) (A.hid 0 (bat p e)) m f
            * A.hid 0 (bat p e) m f) (bat p e)) n u :=
    convK_value A p e (k1_pay2 v0) (k1_pay3 v2) _ v35 v37 v42 v47 v55 A.wc0 A.bc0 _ (pk e u) u
      (fun m i => by rw [pay2_eq, h0']) hA4 hR
      (by rw [h35, bC0_apply, r_pk])
      (fun t => by rw [h37, waC0_apply, q_pk, r_pk])
      (fun t => by rw [h42, whC0_apply, q_pk, r_pk])
      (fun t => by rw [h47, whC0_apply, q_pk, r_pk])
      (fun t => by rw [h55, whC0_apply, q_pk, r_pk])
      n
  rw [pay8_apply, hZ, hC, hH]
  rfl

theorem zero2 : (![0, 0] : Fin 2 → Nat) = fun _ => 0 := funext fun a => by
  match a with
  | ⟨0, _⟩ => rfl
  | ⟨1, _⟩ => rfl
theorem zero3 : (![0, 0, 0] : Fin 3 → Nat) = fun _ => 0 := funext fun a => by
  match a with
  | ⟨0, _⟩ => rfl
  | ⟨1, _⟩ => rfl
  | ⟨2, _⟩ => rfl

theorem ld_state0 (hb : Vec Ideal S2x1x512x128 .f32) (inb) (n : Fin 512) (j : Fin 128) :
    (View.ld hb (Rect.unit (s := S2x1x512x128) ![0, 0, 0, 0] S1x1x512x128.size inb) : Vec Ideal S1x1x512x128 .f32)
        (ix4 (0 : Fin 1) (0 : Fin 1) n j)
      = hb (ix4 (0 : Fin 2) (0 : Fin 1) n j) := by
  show hb ((Rect.unit (s := S2x1x512x128) ![0, 0, 0, 0] S1x1x512x128.size inb).idx (ix4 (0 : Fin 1) (0 : Fin 1) n j)) = _
  refine congrArg hb (funext fun a => Fin.ext ?_)
  match a with
  | ⟨0, _⟩ => rfl
  | ⟨1, _⟩ => rfl
  | ⟨2, _⟩ => show 0 + 1 * n.val = n.val; omega
  | ⟨3, _⟩ => show 0 + 1 * j.val = j.val; omega

theorem ld_slab256 (W : Vec Ideal S3x128x256 .f32) (o : ℕ) (k : Fin 3) (hk : k.val = o) (inb) (t : Fin 128) (c : Fin 256) :
    (View.ld W (Rect.unit (s := S3x128x256) ![o, 0, 0] S1x128x256.size inb) : Vec Ideal S1x128x256 .f32) (ix3 (0 : Fin 1) t c)
      = W (ix3 k t c) := by
  show W ((Rect.unit (s := S3x128x256) ![o, 0, 0] S1x128x256.size inb).idx (ix3 (0 : Fin 1) t c)) = _
  refine congrArg W (funext fun a => Fin.ext ?_)
  match a with
  | ⟨0, _⟩ => show o + 1 * 0 = k.val; omega
  | ⟨1, _⟩ => show 0 + 1 * t.val = t.val; omega
  | ⟨2, _⟩ => show 0 + 1 * c.val = c.val; omega

theorem ld_slab128 (W : Vec Ideal S3x128x128 .f32) (o : ℕ) (k : Fin 3) (hk : k.val = o) (inb) (t : Fin 128) (c : Fin 128) :
    (View.ld W (Rect.unit (s := S3x128x128) ![o, 0, 0] S1x128x128.size inb) : Vec Ideal S1x128x128 .f32) (ix3 (0 : Fin 1) t c)
      = W (ix3 k t c) := by
  show W ((Rect.unit (s := S3x128x128) ![o, 0, 0] S1x128x128.size inb).idx (ix3 (0 : Fin 1) t c)) = _
  refine congrArg W (funext fun a => Fin.ext ?_)
  match a with
  | ⟨0, _⟩ => show o + 1 * 0 = k.val; omega
  | ⟨1, _⟩ => show 0 + 1 * t.val = t.val; omega
  | ⟨2, _⟩ => show 0 + 1 * c.val = c.val; omega

end Value

def newState0 (S : Vec Ideal S512x512 .f32) (ac : Vec Ideal S1x6x512 .f32) (hb : Vec Ideal S2x1x512x128 .f32)
    (waRu : Vec Ideal S6x256 .f32) (whRu : Vec Ideal S3x128x256 .f32) (bRu : Vec Ideal S1x256 .f32)
    (waC : Vec Ideal S6x128 .f32) (whC : Vec Ideal S3x128x128 .f32) (bC : Vec Ideal S1x128 .f32) : FVec Ideal S512x128 .f32 :=
  let v0 : Vec Ideal S512x512 .f32 := View.ld S (Rect.unit (s := S512x512) ![0, 0] S512x512.size inb_S512x512_S512x512_0_0)
  let v2 : Vec Ideal S1x6x512 .f32 := View.ld ac (Rect.unit (s := S1x6x512) ![0, 0, 0] S1x6x512.size inb_S1x6x512_S1x6x512_0_0_0)
  let v5 : Vec Ideal S1x1x512x128 .f32 :=
    View.ld hb (Rect.unit (s := S2x1x512x128) ![0, 0, 0, 0] S1x1x512x128.size inb_S2x1x512x128_S1x1x512x128_0_0_0_0)
  let v7 : Vec Ideal S1x256 .f32 := View.ld bRu (Rect.unit (s := S1x256) ![0, 0] S1x256.size inb_S1x256_S1x256_0_0)
  let v9 : Vec Ideal S6x256 .f32 := View.ld waRu (Rect.unit (s := S6x256) ![0, 0] S6x256.size inb_S6x256_S6x256_0_0)
  let v14 : Vec Ideal S1x128x256 .f32 :=
    View.ld whRu (Rect.unit (s := S3x128x256) ![0, 0, 0] S1x128x256.size inb_S3x128x256_S1x128x256_0_0_0)
  let v19 : Vec Ideal S1x128x256 .f32 :=
    View.ld whRu (Rect.unit (s := S3x128x256) ![1, 0, 0] S1x128x256.size inb_S3x128x256_S1x128x256_1_0_0)
  let v27 : Vec Ideal S1x128x256 .f32 :=
    View.ld whRu (Rect.unit (s := S3x128x256) ![2, 0, 0] S1x128x256.size inb_S3x128x256_S1x128x256_2_0_0)
  let v35 : Vec Ideal S1x128 .f32 := View.ld bC (Rect.unit (s := S1x128) ![0, 0] S1x128.size inb_S1x128_S1x128_0_0)
  let v37 : Vec Ideal S6x128 .f32 := View.ld waC (Rect.unit (s := S6x128) ![0, 0] S6x128.size inb_S6x128_S6x128_0_0)
  let v42 : Vec Ideal S1x128x128 .f32 :=
    View.ld whC (Rect.unit (s := S3x128x128) ![0, 0, 0] S1x128x128.size inb_S3x128x128_S1x128x128_0_0_0)
  let v47 : Vec Ideal S1x128x128 .f32 :=
    View.ld whC (Rect.unit (s := S3x128x128) ![1, 0, 0] S1x128x128.size inb_S3x128x128_S1x128x128_1_0_0)
  let v55 : Vec Ideal S1x128x128 .f32 :=
    View.ld whC (Rect.unit (s := S3x128x128) ![2, 0, 0] S1x128x128.size inb_S3x128x128_S1x128x128_2_0_0)
  k1_pay8 (k1_pay2 v0) (k1_pay3 v2) (k1_pay4 v5) (k1_pay6 v0 v2 v5 v7 v9 v14 v19) (k1_pay7 v0 v5 v27) v35 v37 v42 v47 v55

theorem layer0_value (A : Args) (p : Fin 32) (ac : Vec Ideal S1x6x512 .f32) (hb : Vec Ideal S2x1x512x128 .f32)
    (hac : ∀ (t : Fin 6) (n : Fin 512), ac (ix3 (0 : Fin 1) t n) = acat A (ix3 p t n))
    (hhb : ∀ (l : Fin 2) (n : Fin 512) (j : Fin 128), hb (ix4 l (0 : Fin 1) n j) = hp A (ix4 l p n j))
    (n : Fin 512) (e : Fin 2) (u : Fin 64) :
    newState0 (supArr A) ac hb (waRu0 A) (whRu0 A) (bRu0 A) (waC0 A) (whC0 A) (bC0 A) (ix2 n ⟨e.val * 64 + u.val, by omega⟩)
      = h0 A (bat p e) n u := by
  unfold newState0
  exact layer0_core A p _ _ _ _ _ _ _ _ _ _ _ _ _
    (fun n i => by rw [View.ld_unit_zero zero2]; rfl)
    (fun t n => by rw [View.ld_unit_zero zero3, hac])
    (fun n j => by rw [ld_state0, hhb])
    (fun c => by rw [View.ld_unit_zero zero2])
    (fun t c => by rw [View.ld_unit_zero zero2])
    (fun t c => ld_slab256 (whRu0 A) 0 0 rfl _ t c)
    (fun t c => ld_slab256 (whRu0 A) 1 1 rfl _ t c)
    (fun t c => ld_slab256 (whRu0 A) 2 2 rfl _ t c)
    (fun c => by rw [View.ld_unit_zero zero2])
    (fun t c => by rw [View.ld_unit_zero zero2])
    (fun t c => ld_slab128 (whC0 A) 0 0 rfl _ t c)
    (fun t c => ld_slab128 (whC0 A) 1 1 rfl _ t c)
    (fun t c => ld_slab128 (whC0 A) 2 2 rfl _ t c)
    n e u

end Cert.KI.ValR1L0

end
-- ==== Proof.KI.ValR1L1.lean ====
import proofs.«107218_g19069654794669_cont_sun_m_30_13_alg».proof.Proof.Gen.KernelIdeal.Skeleton
import proofs.«107218_g19069654794669_cont_sun_m_30_13_alg».proof.Proof.Spec
import proofs.«107218_g19069654794669_cont_sun_m_30_13_alg».proof.Proof.Blocks
import proofs.«107218_g19069654794669_cont_sun_m_30_13_alg».proof.Proof.KI.ValR1L0
import Idealize.ShloMosaic.Lib.ValueIdx
import Idealize.ShloMosaic.Lib.ValueLayout
import Idealize.ShloMosaic.Lib.Pipeline.Value
import Idealize.ShloMosaic.Lib.Pipeline.FrameBody
import Idealize.ShloMosaic.PureOps.Ideal.Laws
import Mathlib.Algebra.BigOperators.Fin
import Mathlib.Tactic.Abel

noncomputable section

namespace Cert.KI.L1

open Cert.KernelIdeal Cert.KernelIdeal.Gen
open Idealize.ShloMosaic Idealize.ShloMosaic.ValueIdx
open scoped BigOperators

abbrev pc := @ValR1L0.pk

def gc (g e : Fin 2) (o : Fin 64) : Fin 256 := ⟨g.val * 128 + e.val * 64 + o.val, by omega⟩

theorem q_r_gc (g e : Fin 2) (o : Fin 64) : (Blocks.q 64 2 (Blocks.r 128 (gc g e o)) : Fin 2) = e :=
  Fin.ext (by show (g.val * 128 + e.val * 64 + o.val) % 128 / 64 = e.val; omega)
theorem q_gc (g e : Fin 2) (o : Fin 64) : (Blocks.q 128 2 (gc g e o) : Fin 2) = g :=
  Fin.ext (by show (g.val * 128 + e.val * 64 + o.val) / 128 = g.val; omega)
theorem r_gc (g e : Fin 2) (o : Fin 64) : Blocks.r 64 (gc g e o) = o :=
  Fin.ext (by show (g.val * 128 + e.val * 64 + o.val) % 64 = o.val; omega)
theorem sum_halves (F : Fin 128 → EReal) : ∑ f : Fin 128, F f = ∑ u : Fin 64, F (Spec.lo u) + ∑ u : Fin 64, F (Spec.hi u) :=
  Fin.sum_univ_add (a := 64) (b := 64) F

theorem whRu_slab (W : Fin 64 → Fin 3 → Fin 128 → EReal) (k : Fin 3) (j : Fin 128) (g e : Fin 2) (o : Fin 64) :
    Blocks.whRu W (ix3 k j (gc g e o))
      = if (Blocks.q 64 2 j : Fin 2) = e then W (Blocks.r 64 j) k (Blocks.gcol g o) else Spec.w0 := by
  have h : Blocks.whRu W (ix3 k j (gc g e o))
      = if (Blocks.q 64 2 j : Fin 2) = Blocks.q 64 2 (Blocks.r 128 (gc g e o))
        then W (Blocks.r 64 j) k (Blocks.gcol (Blocks.q 128 2 (gc g e o)) (Blocks.r 64 (gc g e o))) else Spec.w0 := rfl
  rw [h, q_r_gc, q_gc, r_gc]

theorem whC_slab (W : Fin 64 → Fin 3 → Fin 64 → EReal) (k : Fin 3) (j : Fin 128) (e : Fin 2) (o : Fin 64) :
    Blocks.whC W (ix3 k j (pc e o)) = if (Blocks.q 64 2 j : Fin 2) = e then W (Blocks.r 64 j) k o else Spec.w0 := by
  have h : Blocks.whC W (ix3 k j (pc e o))
      = if (Blocks.q 64 2 j : Fin 2) = Blocks.q 64 2 (pc e o) then W (Blocks.r 64 j) k (Blocks.r 64 (pc e o)) else Spec.w0 := rfl
  rw [h, ValR1L0.q_pk, ValR1L0.r_pk]

theorem bRu_gc (b : Fin 128 → EReal) (g e : Fin 2) (o : Fin 64) : Blocks.bRu b (ix2 0 (gc g e o)) = b (Blocks.gcol g o) := by
  have h : Blocks.bRu b (ix2 0 (gc g e o)) = b (Blocks.gcol (Blocks.q 128 2 (gc g e o)) (Blocks.r 64 (gc g e o))) := rfl
  rw [h, q_gc, r_gc]

theorem bC_pc (b : Fin 64 → EReal) (e : Fin 2) (o : Fin 64) : Blocks.bC b (ix2 0 (pc e o)) = b o := by
  have h : Blocks.bC b (ix2 0 (pc e o)) = b (Blocks.r 64 (pc e o)) := rfl
  rw [h, ValR1L0.r_pk]

theorem hp_pc (A : Spec.Args) (l : Fin 2) (p : Fin 32) (n : Fin 512) (e : Fin 2) (u : Fin 64) :
    Blocks.hp A (ix4 l p n (pc e u)) = A.hid l (Blocks.bat p e) n u := by
  have h : Blocks.hp A (ix4 l p n (pc e u)) = A.hid l (Blocks.bat p (Blocks.q 64 2 (pc e u))) n (Blocks.r 64 (pc e u)) := rfl
  rw [h, ValR1L0.q_pk, ValR1L0.r_pk]

theorem wpp_at (A : Spec.Args) (j : Fin 128) (e : Fin 2) :
    Blocks.wppArr A (ix2 j e) = if (Blocks.q 64 2 j : Fin 2) = e then A.wp (Blocks.r 64 j) else Spec.w0 := by
  have h : Blocks.wppArr A (ix2 j e) = if j.val / 64 = e.val then A.wp (Blocks.r 64 j) else Spec.w0 := rfl
  rw [h]
  exact if_congr (Fin.ext_iff (a := (Blocks.q 64 2 j : Fin 2)) (b := e)).symm rfl rfl

theorem ld_slab256 (W : Vec Ideal S3x128x256 .f32) (off : Fin 3 → ℕ) (inb : ∀ a, off a + S1x128x256.size a ≤ S3x128x256.size a)
    (k : Fin 3) (h0 : off 0 = k.val) (h1 : off 1 = 0) (h2 : off 2 = 0) (j : Fin 128) (c : Fin 256) :
    View.ld W (Rect.unit (s := S3x128x256) off S1x128x256.size inb) (ix3 0 j c) = W (ix3 k j c) := by
  show W _ = W _
  congr 1; funext a; apply Fin.ext
  match a with
  | ⟨0, _⟩ => show off 0 + 1 * 0 = k.val; omega
  | ⟨1, _⟩ => show off 1 + 1 * j.val = j.val; omega
  | ⟨2, _⟩ => show off 2 + 1 * c.val = c.val; omega

theorem ld_slab128 (W : Vec Ideal S3x128x128 .f32) (off : Fin 3 → ℕ) (inb : ∀ a, off a + S1x128x128.size a ≤ S3x128x128.size a)
    (k : Fin 3) (h0 : off 0 = k.val) (h1 : off 1 = 0) (h2 : off 2 = 0) (j : Fin 128) (c : Fin 128) :
    View.ld W (Rect.unit (s := S3x128x128) off S1x128x128.size inb) (ix3 0 j c) = W (ix3 k j c) := by
  show W _ = W _
  congr 1; funext a; apply Fin.ext
  match a with
  | ⟨0, _⟩ => show off 0 + 1 * 0 = k.val; omega
  | ⟨1, _⟩ => show off 1 + 1 * j.val = j.val; omega
  | ⟨2, _⟩ => show off 2 + 1 * c.val = c.val; omega

theorem ld_state1 (hb : Vec Ideal S2x1x512x128 .f32) (n : Fin 512) (j : Fin 128) :
    View.ld hb (Rect.unit (s := S2x1x512x128) ![1, 0, 0, 0] S1x1x512x128.size inb_S2x1x512x128_S1x1x512x128_1_0_0_0) (ix4 0 0 n j)
      = hb (ix4 1 0 n j) := by
  show hb _ = hb _
  congr 1; funext a; apply Fin.ext
  match a with
  | ⟨0, _⟩ => rfl
  | ⟨1, _⟩ => rfl
  | ⟨2, _⟩ => show 0 + 1 * n.val = n.val; omega
  | ⟨3, _⟩ => show 0 + 1 * j.val = j.val; omega

theorem matmulPr_apply (X : FVec Ideal S512x128 .f32) (W : FVec Ideal S128x2 .f32) (n : Fin 512) (c : Fin 2) :
    matmul dot_S512x128_S128x2_S512x2_1_0_0_1_n_n none X W (constant (F := Ideal) S512x2 .f32 0x00000000#32) (ix2 n c)
      = ∑ k : Fin 128, X (ix2 n k) * W (ix2 k c) :=
  ValR1L0.matmul_ix2 dot_S512x128_S128x2_S512x2_1_0_0_1_n_n rfl X W n c

def mmS (Sv : FVec Ideal S512x512 .f32) (X : FVec Ideal S512x128 .f32) : FVec Ideal S512x128 .f32 :=
  matmul dot_S512x512_S512x128_S512x128_1_0_0_1_n_n none Sv X (constant S512x128 .f32 0x00000000#32)

def ch2 (Sv : FVec Ideal S512x512 .f32) (Y X : FVec Ideal S512x128 .f32) : FVec Ideal S512x128 .f32 :=
  subf (mulf (broadcast S512x128 (Scalar.ofBits (F := Ideal) .f32 0x40000000#32)) (mmS Sv Y)) X

def mmRu (X : FVec Ideal S512x128 .f32) (W : Vec Ideal S1x128x256 .f32) : FVec Ideal S512x256 .f32 :=
  matmul dot_S512x128_S128x256_S512x256_1_0_0_1_n_n none X
    (shapeCast S128x256 W shapeCasts_S1x128x256_S128x256 : FVec Ideal S128x256 .f32) (constant S512x256 .f32 0x00000000#32)

def mmCc (X : FVec Ideal S512x128 .f32) (W : Vec Ideal S1x128x128 .f32) : FVec Ideal S512x128 .f32 :=
  matmul dot_S512x128_S128x128_S512x128_1_0_0_1_n_n none X
    (shapeCast S128x128 W shapeCasts_S1x128x128_S128x128 : FVec Ideal S128x128 .f32) (constant S512x128 .f32 0x00000000#32)

def Packs (X : FVec Ideal S512x128 .f32) (x : Fin 2 → Fin 512 → Fin 64 → EReal) : Prop :=
  ∀ (n : Fin 512) (e : Fin 2) (u : Fin 64), X (ix2 n (pc e u)) = x e n u

def PacksG (Y : FVec Ideal S512x256 .f32) (y : Fin 2 → Fin 2 → Fin 512 → Fin 64 → EReal) : Prop :=
  ∀ (n : Fin 512) (g e : Fin 2) (o : Fin 64), Y (ix2 n (gc g e o)) = y g e n o

def SlabG (W : Vec Ideal S1x128x256 .f32) (w : Fin 64 → Fin 128 → EReal) : Prop :=
  ∀ (j : Fin 128) (g e : Fin 2) (o : Fin 64),
    W (ix3 0 j (gc g e o)) = if (Blocks.q 64 2 j : Fin 2) = e then w (Blocks.r 64 j) (Blocks.gcol g o) else Spec.w0

def SlabC (W : Vec Ideal S1x128x128 .f32) (w : Fin 64 → Fin 64 → EReal) : Prop :=
  ∀ (j : Fin 128) (e : Fin 2) (o : Fin 64),
    W (ix3 0 j (pc e o)) = if (Blocks.q 64 2 j : Fin 2) = e then w (Blocks.r 64 j) o else Spec.w0

variable {Sv : FVec Ideal S512x512 .f32} {s : Fin 512 → Fin 512 → EReal}

theorem packs_mmS {X : FVec Ideal S512x128 .f32} {x : Fin 2 → Fin 512 → Fin 64 → EReal}
    (hS : ∀ n i, Sv (ix2 n i) = s n i) (hX : Packs X x) :
    Packs (mmS Sv X) fun e n u => Spec.diffuse s (fun i => x e i u) n := by
  intro n e u
  unfold mmS
  rw [ValR1L0.mm_SH]
  show _ = ∑ i : Fin 512, s n i * x e i u
  exact Finset.sum_congr rfl fun i _ => by rw [hS, hX]

theorem packs_ch2 {Y X : FVec Ideal S512x128 .f32} {y x : Fin 2 → Fin 512 → Fin 64 → EReal}
    (hS : ∀ n i, Sv (ix2 n i) = s n i) (hY : Packs Y y) (hX : Packs X x) :
    Packs (ch2 Sv Y X) fun e n u => Spec.w2 * Spec.diffuse s (fun i => y e i u) n - x e n u := by
  intro n e u
  show Spec.w2 * mmS Sv Y (ix2 n (pc e u)) - X (ix2 n (pc e u)) = _
  rw [packs_mmS hS hY n e u, hX n e u]

theorem packsG_mmRu {X : FVec Ideal S512x128 .f32} {x : Fin 2 → Fin 512 → Fin 64 → EReal} (hX : Packs X x)
    {W : Vec Ideal S1x128x256 .f32} {w : Fin 64 → Fin 128 → EReal} (hW : SlabG W w) :
    PacksG (mmRu X W) fun g e n o => ∑ f : Fin 64, x e n f * w f (Blocks.gcol g o) := by
  intro n g e o
  unfold mmRu
  rw [ValR1L0.mm_H256]
  have h1 : ∀ k : Fin 128, (shapeCast S128x256 W shapeCasts_S1x128x256_S128x256 : FVec Ideal S128x256 .f32) (ix2 k (gc g e o))
      = if (Blocks.q 64 2 k : Fin 2) = e then w (Blocks.r 64 k) (Blocks.gcol g o) else Spec.w0 := fun k =>
    (shapeCast_1ab_ab_apply W _ k _).trans (hW k g e o)
  simp only [h1]
  refine (ValR1L0.contract128 e (fun j => X (ix2 n j)) (fun f => w f (Blocks.gcol g o))).trans ?_
  exact Finset.sum_congr rfl fun f _ => by rw [hX]

theorem packs_mmCc {X : FVec Ideal S512x128 .f32} {x : Fin 2 → Fin 512 → Fin 64 → EReal} (hX : Packs X x)
    {W : Vec Ideal S1x128x128 .f32} {w : Fin 64 → Fin 64 → EReal} (hW : SlabC W w) :
    Packs (mmCc X W) fun e n o => ∑ f : Fin 64, x e n f * w f o := by
  intro n e o
  unfold mmCc
  rw [ValR1L0.mm_H128]
  have h1 : ∀ k : Fin 128, (shapeCast S128x128 W shapeCasts_S1x128x128_S128x128 : FVec Ideal S128x128 .f32) (ix2 k (pc e o))
      = if (Blocks.q 64 2 k : Fin 2) = e then w (Blocks.r 64 k) o else Spec.w0 := fun k =>
    (shapeCast_1ab_ab_apply W _ k _).trans (hW k e o)
  simp only [h1]
  refine (ValR1L0.contract128 e (fun j => X (ix2 n j)) (fun f => w f o)).trans ?_
  exact Finset.sum_congr rfl fun f _ => by rw [hX]

theorem pay10_apply (v68 : Vec Ideal S1x1x512x128 .f32) (n : Fin 512) (j : Fin 128) :
    k1_pay10 v68 (ix2 n j) = v68 (ix4 0 0 n j) := by
  unfold k1_pay10
  exact shapeCast_apply v68 _ (ix2 n j) (ix4 0 0 n j) (by
    rw [Shape.rowMajor_val_four, Shape.rowMajor_val_two]
    show ((0 * 1 + 0) * 512 + n.val) * 128 + j.val = n.val * 128 + j.val
    omega)

theorem pay11_eq (v1 : FVec Ideal S512x512 .f32) (v64 : FVec Ideal S512x128 .f32) : k1_pay11 v1 v64 = mmS v1 v64 := rfl
theorem pay12_eq (v1 : FVec Ideal S512x512 .f32) (v68 : Vec Ideal S1x1x512x128 .f32) :
    k1_pay12 v1 v68 = mmS v1 (k1_pay10 v68) := rfl
theorem pay14_eq (v1 : FVec Ideal S512x512 .f32) (v64 : FVec Ideal S512x128 .f32) :
    k1_pay14 v1 v64 = ch2 v1 (mmS v1 v64) v64 := rfl

theorem bias256_apply (v70 : Vec Ideal S1x256 .f32) (n : Fin 512) (c : Fin 256) :
    (broadcastTo S512x256 (shapeCast S1x256 v70 shapeCasts_S1x256_S1x256 : FVec Ideal S1x256 .f32) broadcasts_S1x256_S512x256
      : FVec Ideal S512x256 .f32) (ix2 n c) = v70 (ix2 0 c) := by
  rw [broadcastTo_1b_ab_apply, shapeCast_self]

theorem bias128_apply (v111 : Vec Ideal S1x128 .f32) (n : Fin 512) (c : Fin 128) :
    (broadcastTo S512x128 (shapeCast S1x128 v111 shapeCasts_S1x128_S1x128 : FVec Ideal S1x128 .f32) broadcasts_S1x128_S512x128
      : FVec Ideal S512x128 .f32) (ix2 n c) = v111 (ix2 0 c) := by
  rw [broadcastTo_1b_ab_apply, shapeCast_self]

theorem bias2_apply (v155 : Vec Ideal S1x1 .f32) (n : Fin 512) (e : Fin 2) :
    (broadcastTo S512x2 (shapeCast S1x1 v155 shapeCasts_S1x1_S1x1 : FVec Ideal S1x1 .f32) broadcasts_S1x1_S512x2
      : FVec Ideal S512x2 .f32) (ix2 n e) = v155 (ix2 0 0) := by
  rw [shapeCast_self]
  refine broadcastTo_apply v155 broadcasts_S1x1_S512x2 (ix2 n e) (ix2 0 0) fun ax => ?_
  match ax with
  | ⟨0, _⟩ => rfl
  | ⟨1, _⟩ => rfl

theorem pay13_eq (v1 : FVec Ideal S512x512 .f32) (v64 : FVec Ideal S512x128 .f32) (v68 : Vec Ideal S1x1x512x128 .f32)
    (v70 : Vec Ideal S1x256 .f32) (v72 v77 v82 v87 : Vec Ideal S1x128x256 .f32) :
    k1_pay13 v1 v64 v68 v70 v72 v77 v82 v87
      = addf (addf (addf
          (addf (broadcastTo S512x256 (shapeCast S1x256 v70 shapeCasts_S1x256_S1x256 : FVec Ideal S1x256 .f32) broadcasts_S1x256_S512x256)
            (mmRu v64 v72))
          (mmRu (k1_pay10 v68) v77)) (mmRu (mmS v1 v64) v82)) (mmRu (mmS v1 (k1_pay10 v68)) v87) := rfl

theorem packsG_pay13 {v1 : FVec Ideal S512x512 .f32} {v64 : FVec Ideal S512x128 .f32} {v68 : Vec Ideal S1x1x512x128 .f32}
    {v70 : Vec Ideal S1x256 .f32} {v72 v77 v82 v87 : Vec Ideal S1x128x256 .f32}
    {x k : Fin 2 → Fin 512 → Fin 64 → EReal} {b : Fin 128 → EReal} {wl0 wh0 wl1 wh1 : Fin 64 → Fin 128 → EReal}
    (hS : ∀ n i, v1 (ix2 n i) = s n i) (hG : Packs v64 x) (hK : Packs (k1_pay10 v68) k)
    (hb : ∀ (g e : Fin 2) (o : Fin 64), v70 (ix2 0 (gc g e o)) = b (Blocks.gcol g o))
    (h72 : SlabG v72 wl0) (h77 : SlabG v77 wh0) (h82 : SlabG v82 wl1) (h87 : SlabG v87 wh1) :
    PacksG (k1_pay13 v1 v64 v68 v70 v72 v77 v82 v87) fun g e n o =>
      (((b (Blocks.gcol g o) + ∑ f : Fin 64, x e n f * wl0 f (Blocks.gcol g o))
          + ∑ f : Fin 64, k e n f * wh0 f (Blocks.gcol g o))
        + ∑ f : Fin 64, Spec.diffuse s (fun i => x e i f) n * wl1 f (Blocks.gcol g o))
        + ∑ f : Fin 64, Spec.diffuse s (fun i => k e i f) n * wh1 f (Blocks.gcol g o) := by
  intro n g e o
  rw [pay13_eq]
  simp only [addf_apply]
  rw [bias256_apply, hb, packsG_mmRu hG h72 n g e o, packsG_mmRu hK h77 n g e o,
    packsG_mmRu (packs_mmS hS hG) h82 n g e o, packsG_mmRu (packs_mmS hS hK) h87 n g e o]

theorem pay15_eq (v1 : FVec Ideal S512x512 .f32) (v69 v86 : FVec Ideal S512x128 .f32) (v90 : FVec Ideal S512x256 .f32)
    (v94 : FVec Ideal S512x128 .f32) (v95 v103 : Vec Ideal S1x128x256 .f32) :
    k1_pay15 v1 v69 v86 v90 v94 v95 v103 = logistic (addf (addf v90 (mmRu v94 v95)) (mmRu (ch2 v1 v86 v69) v103)) := rfl

theorem packsG_pay15 {v1 : FVec Ideal S512x512 .f32} {v69 v86 : FVec Ideal S512x128 .f32} {v90 : FVec Ideal S512x256 .f32}
    {v94 : FVec Ideal S512x128 .f32} {v95 v103 : Vec Ideal S1x128x256 .f32}
    {k k1 x2 : Fin 2 → Fin 512 → Fin 64 → EReal} {y : Fin 2 → Fin 2 → Fin 512 → Fin 64 → EReal} {wl2 wh2 : Fin 64 → Fin 128 → EReal}
    (hS : ∀ n i, v1 (ix2 n i) = s n i) (h69 : Packs v69 k) (h86 : Packs v86 k1) (h90 : PacksG v90 y) (h94 : Packs v94 x2)
    (h95 : SlabG v95 wl2) (h103 : SlabG v103 wh2) :
    PacksG (k1_pay15 v1 v69 v86 v90 v94 v95 v103) fun g e n o =>
      Ideal.logistic ((y g e n o + ∑ f : Fin 64, x2 e n f * wl2 f (Blocks.gcol g o))
        + ∑ f : Fin 64, (Spec.w2 * Spec.diffuse s (fun i => k1 e i f) n - k e n f) * wh2 f (Blocks.gcol g o)) := by
  intro n g e o
  rw [pay15_eq]
  show Ideal.logistic ((v90 _ + mmRu v94 v95 _) + mmRu (ch2 v1 v86 v69) v103 _) = _
  rw [h90 n g e o, packsG_mmRu h94 h95 n g e o, packsG_mmRu (packs_ch2 hS h86 h69) h103 n g e o]

theorem pay16_apply (v1 : FVec Ideal S512x512 .f32) (v69 v86 : FVec Ideal S512x128 .f32) (v90 : FVec Ideal S512x256 .f32)
    (v94 : FVec Ideal S512x128 .f32) (v95 v103 : Vec Ideal S1x128x256 .f32) (n : Fin 512) (e : Fin 2) (u : Fin 64) :
    k1_pay16 v1 v69 v86 v90 v94 v95 v103 (ix2 n (pc e u)) = k1_pay15 v1 v69 v86 v90 v94 v95 v103 (ix2 n (gc 1 e u)) := by
  unfold k1_pay16
  exact slice2_axis1_apply 128 _ _ n (pc e u) (gc 1 e u)
    (by show 1 * 128 + e.val * 64 + u.val = 128 + (e.val * 64 + u.val); omega)

theorem pay17_apply (v1 : FVec Ideal S512x512 .f32) (v69 v86 : FVec Ideal S512x128 .f32) (v90 : FVec Ideal S512x256 .f32)
    (v94 : FVec Ideal S512x128 .f32) (v95 v103 : Vec Ideal S1x128x256 .f32) (n : Fin 512) (e : Fin 2) (u : Fin 64) :
    k1_pay17 v1 v69 v86 v90 v94 v95 v103 (ix2 n (pc e u))
      = k1_pay15 v1 v69 v86 v90 v94 v95 v103 (ix2 n (gc 0 e u)) * v69 (ix2 n (pc e u)) := by
  unfold k1_pay17
  show extractStridedSlice S512x128 ![0, 0] (k1_pay15 v1 v69 v86 v90 v94 v95 v103) slices_S512x256_o0_0_S512x128 (ix2 n (pc e u)) * _ = _
  rw [slice2_axis1_apply 0 _ _ n (pc e u) (gc 0 e u)
    (by show 0 * 128 + e.val * 64 + u.val = 0 + (e.val * 64 + u.val); omega)]

theorem packs_pay16 {v1 : FVec Ideal S512x512 .f32} {v69 v86 : FVec Ideal S512x128 .f32} {v90 : FVec Ideal S512x256 .f32}
    {v94 : FVec Ideal S512x128 .f32} {v95 v103 : Vec Ideal S1x128x256 .f32} {y : Fin 2 → Fin 2 → Fin 512 → Fin 64 → EReal}
    (h : PacksG (k1_pay15 v1 v69 v86 v90 v94 v95 v103) y) :
    Packs (k1_pay16 v1 v69 v86 v90 v94 v95 v103) fun e n u => y 1 e n u := fun n e u => by
  rw [pay16_apply, h n 1 e u]

theorem packs_pay17 {v1 : FVec Ideal S512x512 .f32} {v69 v86 : FVec Ideal S512x128 .f32} {v90 : FVec Ideal S512x256 .f32}
    {v94 : FVec Ideal S512x128 .f32} {v95 v103 : Vec Ideal S1x128x256 .f32} {y : Fin 2 → Fin 2 → Fin 512 → Fin 64 → EReal}
    (h : PacksG (k1_pay15 v1 v69 v86 v90 v94 v95 v103) y)
    {k : Fin 2 → Fin 512 → Fin 64 → EReal} (h69 : Packs v69 k) :
    Packs (k1_pay17 v1 v69 v86 v90 v94 v95 v103) fun e n u => y 0 e n u * k e n u := fun n e u => by
  rw [pay17_apply, h n 0 e u, h69 n e u]

theorem pay18_eq (v1 : FVec Ideal S512x512 .f32) (v64 v69 v81 v86 : FVec Ideal S512x128 .f32) (v90 : FVec Ideal S512x256 .f32)
    (v94 : FVec Ideal S512x128 .f32) (v95 v103 : Vec Ideal S1x128x256 .f32) (v111 : Vec Ideal S1x128 .f32)
    (v113 v118 v122 v126 : Vec Ideal S1x128x128 .f32) :
    k1_pay18 v1 v64 v69 v81 v86 v90 v94 v95 v103 v111 v113 v118 v122 v126
      = addf (addf (addf
          (addf (broadcastTo S512x128 (shapeCast S1x128 v111 shapeCasts_S1x128_S1x128 : FVec Ideal S1x128 .f32) broadcasts_S1x128_S512x128)
            (mmCc v64 v113))
          (mmCc v81 v118)) (mmCc v94 v122)) (mmCc (k1_pay17 v1 v69 v86 v90 v94 v95 v103) v126) := rfl

theorem packs_pay18 {v1 : FVec Ideal S512x512 .f32} {v64 v69 v81 v86 : FVec Ideal S512x128 .f32} {v90 : FVec Ideal S512x256 .f32}
    {v94 : FVec Ideal S512x128 .f32} {v95 v103 : Vec Ideal S1x128x256 .f32} {v111 : Vec Ideal S1x128 .f32}
    {v113 v118 v122 v126 : Vec Ideal S1x128x128 .f32}
    {x x1 x2 rh : Fin 2 → Fin 512 → Fin 64 → EReal} {b : Fin 64 → EReal} {cl0 cl1 cl2 ch0 : Fin 64 → Fin 64 → EReal}
    (h64 : Packs v64 x) (h81 : Packs v81 x1) (h94 : Packs v94 x2) (h110 : Packs (k1_pay17 v1 v69 v86 v90 v94 v95 v103) rh)
    (hb : ∀ (e : Fin 2) (o : Fin 64), v111 (ix2 0 (pc e o)) = b o)
    (h113 : SlabC v113 cl0) (h118 : SlabC v118 cl1) (h122 : SlabC v122 cl2) (h126 : SlabC v126 ch0) :
    Packs (k1_pay18 v1 v64 v69 v81 v86 v90 v94 v95 v103 v111 v113 v118 v122 v126) fun e n o =>
      (((b o + ∑ f : Fin 64, x e n f * cl0 f o) + ∑ f : Fin 64, x1 e n f * cl1 f o) + ∑ f : Fin 64, x2 e n f * cl2 f o)
        + ∑ f : Fin 64, rh e n f * ch0 f o := by
  intro n e o
  rw [pay18_eq]
  simp only [addf_apply]
  rw [bias128_apply, hb, packs_mmCc h64 h113 n e o, packs_mmCc h81 h118 n e o, packs_mmCc h94 h122 n e o,
    packs_mmCc h110 h126 n e o]

theorem pay19_eq (v1 : FVec Ideal S512x512 .f32) (v69 v109 v110 v129 : FVec Ideal S512x128 .f32) (v131 v139 : Vec Ideal S1x128x128 .f32) :
    k1_pay19 v1 v69 v109 v110 v129 v131 v139
      = addf (mulf v109 v69) (mulf (subf (broadcast S512x128 (Scalar.ofBits (F := Ideal) .f32 0x3F800000#32)) v109)
          (tanh (addf (addf v129 (mmCc (mmS v1 v110) v131)) (mmCc (ch2 v1 (mmS v1 v110) v110) v139)))) := rfl

theorem packs_pay19 {v1 : FVec Ideal S512x512 .f32} {v69 v109 v110 v129 : FVec Ideal S512x128 .f32} {v131 v139 : Vec Ideal S1x128x128 .f32}
    {k z rh c : Fin 2 → Fin 512 → Fin 64 → EReal} {ch1 ch2' : Fin 64 → Fin 64 → EReal}
    (hS : ∀ n i, v1 (ix2 n i) = s n i) (h69 : Packs v69 k) (h109 : Packs v109 z) (h110 : Packs v110 rh) (h129 : Packs v129 c)
    (h131 : SlabC v131 ch1) (h139 : SlabC v139 ch2') :
    Packs (k1_pay19 v1 v69 v109 v110 v129 v131 v139) fun e n u =>
      z e n u * k e n u + (Spec.w1 - z e n u) * Ideal.tanh
        ((c e n u + ∑ f : Fin 64, Spec.diffuse s (fun i => rh e i f) n * ch1 f u)
          + ∑ f : Fin 64, (Spec.w2 * Spec.diffuse s (fun i => Spec.diffuse s (fun i' => rh e i' f) i) n - rh e n f) * ch2' f u) := by
  intro n e u
  rw [pay19_eq]
  show v109 _ * v69 _ + (Spec.w1 - v109 _) * Ideal.tanh ((v129 _ + mmCc (mmS v1 v110) v131 _) + mmCc (ch2 v1 (mmS v1 v110) v110) v139 _) = _
  rw [h109 n e u, h69 n e u, h129 n e u, packs_mmCc (packs_mmS hS h110) h131 n e u,
    packs_mmCc (packs_ch2 hS (packs_mmS hS h110) h110) h139 n e u]

theorem gconv_feat1 {O : ℕ} (s : Fin 512 → Fin 512 → EReal) (W : Fin 128 → Fin 3 → Fin O → EReal) (b : Fin O → EReal)
    (x h : Fin 512 → Fin 64 → EReal) (n : Fin 512) (o : Fin O) :
    Spec.gconv s W b (Spec.feat1 x h) n o
      = (∑ u : Fin 64, (x n u * W (Spec.lo u) 0 o + Spec.diffuse s (fun i => x i u) n * W (Spec.lo u) 1 o
            + (Spec.w2 * Spec.diffuse s (Spec.diffuse s fun i => x i u) n - x n u) * W (Spec.lo u) 2 o)
          + ∑ u : Fin 64, (h n u * W (Spec.hi u) 0 o + Spec.diffuse s (fun i => h i u) n * W (Spec.hi u) 1 o
            + (Spec.w2 * Spec.diffuse s (Spec.diffuse s fun i => h i u) n - h n u) * W (Spec.hi u) 2 o)) + b o := by
  unfold Spec.gconv
  rw [sum_halves]
  have hl : ∀ u : Fin 64, Spec.feat1 x h (Spec.lo u) = fun n => x n u := fun u => funext fun n => Fin.addCases_left _
  have hr : ∀ u : Fin 64, Spec.feat1 x h (Spec.hi u) = fun n => h n u := fun u => funext fun n => Fin.addCases_right _
  simp only [hl, hr, Fin.sum_univ_three]
  rfl

theorem gate_order (b : EReal) (a0 c0 a1 c1 a2 c2 : Fin 64 → EReal) :
    (((((b + ∑ u, a0 u) + ∑ u, c0 u) + ∑ u, a1 u) + ∑ u, c1 u) + ∑ u, a2 u) + ∑ u, c2 u
      = (∑ u, (a0 u + a1 u + a2 u) + ∑ u, (c0 u + c1 u + c2 u)) + b := by
  simp only [Finset.sum_add_distrib]
  abel

theorem cand_order (b : EReal) (a0 a1 a2 c0 c1 c2 : Fin 64 → EReal) :
    (((((b + ∑ u, a0 u) + ∑ u, a1 u) + ∑ u, a2 u) + ∑ u, c0 u) + ∑ u, c1 u) + ∑ u, c2 u
      = (∑ u, (a0 u + a1 u + a2 u) + ∑ u, (c0 u + c1 u + c2 u)) + b := by
  simp only [Finset.sum_add_distrib]
  abel

theorem gate_terms {O : ℕ} (s : Fin 512 → Fin 512 → EReal) (W : Fin 128 → Fin 3 → Fin O → EReal) (b : Fin O → EReal)
    (x k : Fin 512 → Fin 64 → EReal) (n : Fin 512) (o : Fin O) :
    (((((b o + ∑ f : Fin 64, x n f * W (Spec.lo f) 0 o) + ∑ f : Fin 64, k n f * W (Spec.hi f) 0 o)
          + ∑ f : Fin 64, Spec.diffuse s (fun i => x i f) n * W (Spec.lo f) 1 o)
          + ∑ f : Fin 64, Spec.diffuse s (fun i => k i f) n * W (Spec.hi f) 1 o)
        + ∑ f : Fin 64, (Spec.w2 * Spec.diffuse s (fun i => Spec.diffuse s (fun i' => x i' f) i) n - x n f) * W (Spec.lo f) 2 o)
        + ∑ f : Fin 64, (Spec.w2 * Spec.diffuse s (fun i => Spec.diffuse s (fun i' => k i' f) i) n - k n f) * W (Spec.hi f) 2 o
      = Spec.gconv s W b (Spec.feat1 x k) n o := by
  rw [gconv_feat1]
  exact gate_order _ _ _ _ _ _ _

theorem cand_terms {O : ℕ} (s : Fin 512 → Fin 512 → EReal) (W : Fin 128 → Fin 3 → Fin O → EReal) (b : Fin O → EReal)
    (x rh : Fin 512 → Fin 64 → EReal) (n : Fin 512) (o : Fin O) :
    (((((b o + ∑ f : Fin 64, x n f * W (Spec.lo f) 0 o)
          + ∑ f : Fin 64, Spec.diffuse s (fun i => x i f) n * W (Spec.lo f) 1 o)
          + ∑ f : Fin 64, (Spec.w2 * Spec.diffuse s (fun i => Spec.diffuse s (fun i' => x i' f) i) n - x n f) * W (Spec.lo f) 2 o)
          + ∑ f : Fin 64, rh n f * W (Spec.hi f) 0 o)
        + ∑ f : Fin 64, Spec.diffuse s (fun i => rh i f) n * W (Spec.hi f) 1 o)
        + ∑ f : Fin 64, (Spec.w2 * Spec.diffuse s (fun i => Spec.diffuse s (fun i' => rh i' f) i) n - rh n f) * W (Spec.hi f) 2 o
      = Spec.gconv s W b (Spec.feat1 x rh) n o := by
  rw [gconv_feat1]
  exact cand_order _ _ _ _ _ _ _

theorem PacksG.congr {Y : FVec Ideal S512x256 .f32} {y y' : Fin 2 → Fin 2 → Fin 512 → Fin 64 → EReal} (h : PacksG Y y)
    (he : ∀ g e n o, y g e n o = y' g e n o) : PacksG Y y' := fun n g e o => (h n g e o).trans (he g e n o)

theorem slabG_of (W : Vec Ideal S3x128x256 .f32) (Wf : Fin 64 → Fin 3 → Fin 128 → EReal) (hW : ∀ i, W i = Blocks.whRu Wf i)
    (off : Fin 3 → ℕ) (inb : ∀ a, off a + S1x128x256.size a ≤ S3x128x256.size a) (k : Fin 3)
    (h0 : off 0 = k.val) (h1 : off 1 = 0) (h2 : off 2 = 0) :
    SlabG (View.ld W (Rect.unit (s := S3x128x256) off S1x128x256.size inb)) fun f o' => Wf f k o' := fun j g e o => by
  rw [ld_slab256 W off inb k h0 h1 h2, hW]
  exact whRu_slab Wf k j g e o

theorem slabC_of (W : Vec Ideal S3x128x128 .f32) (Wf : Fin 64 → Fin 3 → Fin 64 → EReal) (hW : ∀ i, W i = Blocks.whC Wf i)
    (off : Fin 3 → ℕ) (inb : ∀ a, off a + S1x128x128.size a ≤ S3x128x128.size a) (k : Fin 3)
    (h0 : off 0 = k.val) (h1 : off 1 = 0) (h2 : off 2 = 0) :
    SlabC (View.ld W (Rect.unit (s := S3x128x128) off S1x128x128.size inb)) fun f o' => Wf f k o' := fun j e o => by
  rw [ld_slab128 W off inb k h0 h1 h2, hW]
  exact whC_slab Wf k j e o

def newState1 {F : FTy → Type} [FloatOps F] (S : Vec F S512x512 .f32) (hb : Vec F S2x1x512x128 .f32)
    (wgRu wkRu : Vec F S3x128x256 .f32) (bRu : Vec F S1x256 .f32)
    (wgC wkC : Vec F S3x128x128 .f32) (bC : Vec F S1x128 .f32)
    (g : FVec F S512x128 .f32) : FVec F S512x128 .f32 :=
  let S' := k1_pay2 S
  let h1 : Vec F S1x1x512x128 .f32 := (View.ld hb (Rect.unit (s := S2x1x512x128) ![1, 0, 0, 0] S1x1x512x128.size inb_S2x1x512x128_S1x1x512x128_1_0_0_0))
  let K := k1_pay10 h1
  let K1 := k1_pay12 S' h1
  let P := k1_pay13 S' g h1 (View.ld bRu (Rect.unit (s := S1x256) ![0, 0] S1x256.size inb_S1x256_S1x256_0_0)) (View.ld wgRu (Rect.unit (s := S3x128x256) ![0, 0, 0] S1x128x256.size inb_S3x128x256_S1x128x256_0_0_0)) (View.ld wkRu (Rect.unit (s := S3x128x256) ![0, 0, 0] S1x128x256.size inb_S3x128x256_S1x128x256_0_0_0)) (View.ld wgRu (Rect.unit (s := S3x128x256) ![1, 0, 0] S1x128x256.size inb_S3x128x256_S1x128x256_1_0_0)) (View.ld wkRu (Rect.unit (s := S3x128x256) ![1, 0, 0] S1x128x256.size inb_S3x128x256_S1x128x256_1_0_0))
  let G2 := k1_pay14 S' g
  let a : Vec F S1x128x256 .f32 := (View.ld wgRu (Rect.unit (s := S3x128x256) ![2, 0, 0] S1x128x256.size inb_S3x128x256_S1x128x256_2_0_0))
  let b : Vec F S1x128x256 .f32 := (View.ld wkRu (Rect.unit (s := S3x128x256) ![2, 0, 0] S1x128x256.size inb_S3x128x256_S1x128x256_2_0_0))
  k1_pay19 S' K (k1_pay16 S' K K1 P G2 a b) (k1_pay17 S' K K1 P G2 a b)
    (k1_pay18 S' g K (k1_pay11 S' g) K1 P G2 a b (View.ld bC (Rect.unit (s := S1x128) ![0, 0] S1x128.size inb_S1x128_S1x128_0_0)) (View.ld wgC (Rect.unit (s := S3x128x128) ![0, 0, 0] S1x128x128.size inb_S3x128x128_S1x128x128_0_0_0)) (View.ld wgC (Rect.unit (s := S3x128x128) ![1, 0, 0] S1x128x128.size inb_S3x128x128_S1x128x128_1_0_0)) (View.ld wgC (Rect.unit (s := S3x128x128) ![2, 0, 0] S1x128x128.size inb_S3x128x128_S1x128x128_2_0_0)) (View.ld wkC (Rect.unit (s := S3x128x128) ![0, 0, 0] S1x128x128.size inb_S3x128x128_S1x128x128_0_0_0)))
    (View.ld wkC (Rect.unit (s := S3x128x128) ![1, 0, 0] S1x128x128.size inb_S3x128x128_S1x128x128_1_0_0)) (View.ld wkC (Rect.unit (s := S3x128x128) ![2, 0, 0] S1x128x128.size inb_S3x128x128_S1x128x128_2_0_0))

def readout1 {F : FTy → Type} [FloatOps F] (S : Vec F S512x512 .f32) (hb : Vec F S2x1x512x128 .f32)
    (wgRu wkRu : Vec F S3x128x256 .f32) (bRu : Vec F S1x256 .f32)
    (wgC wkC : Vec F S3x128x128 .f32) (bC : Vec F S1x128 .f32)
    (wpp : Vec F S128x2 .f32) (bp : Vec F S1x1 .f32) (g : FVec F S512x128 .f32) : FVec F S2x512 .f32 :=
  transpose S2x512 [1, 0] (addf (matmul dot_S512x128_S128x2_S512x2_1_0_0_1_n_n none (newState1 S hb wgRu wkRu bRu wgC wkC bC g)
      (shapeCast S128x2 (View.ld wpp (Rect.unit (s := S128x2) ![0, 0] S128x2.size inb_S128x2_S128x2_0_0)) shapeCasts_S128x2_S128x2 : FVec F S128x2 .f32) (constant S512x2 .f32 0x00000000#32))
      (broadcastTo S512x2 (shapeCast S1x1 (View.ld bp (Rect.unit (s := S1x1) ![0, 0] S1x1.size inb_S1x1_S1x1_0_0)) shapeCasts_S1x1_S1x1 : FVec F S1x1 .f32) broadcasts_S1x1_S512x2))
    transposes_S512x2_p1_0_S2x512

theorem layer1_value (A : Spec.Args) (p : Fin 32) (S : Vec Ideal S512x512 .f32) (hb : Vec Ideal S2x1x512x128 .f32)
    (wgRu wkRu : Vec Ideal S3x128x256 .f32) (bRu : Vec Ideal S1x256 .f32)
    (wgC wkC : Vec Ideal S3x128x128 .f32) (bC : Vec Ideal S1x128 .f32)
    (g : FVec Ideal S512x128 .f32)
    (hS : ∀ i, S i = Blocks.supArr A i)
    (hhb : ∀ (n : Fin 512) (j : Fin 128), hb (ix4 1 0 n j) = Blocks.hp A (ix4 1 p n j))
    (hwgRu : ∀ i, wgRu i = Blocks.wgRu1 A i) (hwkRu : ∀ i, wkRu i = Blocks.wkRu1 A i) (hbRu : ∀ i, bRu i = Blocks.bRu1 A i)
    (hwgC : ∀ i, wgC i = Blocks.wgC1 A i) (hwkC : ∀ i, wkC i = Blocks.wkC1 A i) (hbC : ∀ i, bC i = Blocks.bC1 A i)
    (hg : ∀ (n : Fin 512) (e : Fin 2) (u : Fin 64), g (ix2 n ⟨e.val * 64 + u.val, by omega⟩) = Spec.h0 A (Blocks.bat p e) n u)
    (n : Fin 512) (e : Fin 2) (u : Fin 64) :
    newState1 S hb wgRu wkRu bRu wgC wkC bC g (ix2 n ⟨e.val * 64 + u.val, by omega⟩) = Spec.h1 A (Blocks.bat p e) n u := by
  show newState1 S hb wgRu wkRu bRu wgC wkC bC g (ix2 n (pc e u)) = _

  have hS' : ∀ n i, k1_pay2 S (ix2 n i) = Spec.sup A n i := fun n i =>
    (congrFun (ValR1L0.pay2_eq S) (ix2 n i)).trans ((hS (ix2 n i)).trans rfl)
  have hG : Packs g fun e n u => Spec.h0 A (Blocks.bat p e) n u := hg
  have hK : Packs (k1_pay10 (View.ld hb (Rect.unit (s := S2x1x512x128) ![1, 0, 0, 0] S1x1x512x128.size inb_S2x1x512x128_S1x1x512x128_1_0_0_0))) fun e n u => A.hid 1 (Blocks.bat p e) n u := fun n e u => by
    rw [pay10_apply, ld_state1, hhb, hp_pc]
  have hb70 : ∀ (g e : Fin 2) (o : Fin 64), (View.ld bRu (Rect.unit (s := S1x256) ![0, 0] S1x256.size inb_S1x256_S1x256_0_0)) (ix2 0 (gc g e o)) = A.bru1 (Blocks.gcol g o) := fun g e o => by
    rw [View.ld_unit_zero (S := S1x256) ValR1L0.zero2, hbRu]; exact bRu_gc _ g e o
  have hb111 : ∀ (e : Fin 2) (o : Fin 64), (View.ld bC (Rect.unit (s := S1x128) ![0, 0] S1x128.size inb_S1x128_S1x128_0_0)) (ix2 0 (pc e o)) = A.bc1 o := fun e o => by
    rw [View.ld_unit_zero (S := S1x128) ValR1L0.zero2, hbC]; exact bC_pc _ e o
  have sg0 := slabG_of wgRu _ hwgRu ![0, 0, 0] inb_S3x128x256_S1x128x256_0_0_0 0 rfl rfl rfl
  have sg1 := slabG_of wgRu _ hwgRu ![1, 0, 0] inb_S3x128x256_S1x128x256_1_0_0 1 rfl rfl rfl
  have sg2 := slabG_of wgRu _ hwgRu ![2, 0, 0] inb_S3x128x256_S1x128x256_2_0_0 2 rfl rfl rfl
  have sk0 := slabG_of wkRu _ hwkRu ![0, 0, 0] inb_S3x128x256_S1x128x256_0_0_0 0 rfl rfl rfl
  have sk1 := slabG_of wkRu _ hwkRu ![1, 0, 0] inb_S3x128x256_S1x128x256_1_0_0 1 rfl rfl rfl
  have sk2 := slabG_of wkRu _ hwkRu ![2, 0, 0] inb_S3x128x256_S1x128x256_2_0_0 2 rfl rfl rfl
  have cg0 := slabC_of wgC _ hwgC ![0, 0, 0] inb_S3x128x128_S1x128x128_0_0_0 0 rfl rfl rfl
  have cg1 := slabC_of wgC _ hwgC ![1, 0, 0] inb_S3x128x128_S1x128x128_1_0_0 1 rfl rfl rfl
  have cg2 := slabC_of wgC _ hwgC ![2, 0, 0] inb_S3x128x128_S1x128x128_2_0_0 2 rfl rfl rfl
  have ck0 := slabC_of wkC _ hwkC ![0, 0, 0] inb_S3x128x128_S1x128x128_0_0_0 0 rfl rfl rfl
  have ck1 := slabC_of wkC _ hwkC ![1, 0, 0] inb_S3x128x128_S1x128x128_1_0_0 1 rfl rfl rfl
  have ck2 := slabC_of wkC _ hwkC ![2, 0, 0] inb_S3x128x128_S1x128x128_2_0_0 2 rfl rfl rfl

  have hG1 : Packs (k1_pay11 (k1_pay2 S) g) _ := packs_mmS hS' hG
  have hK1 : Packs (k1_pay12 (k1_pay2 S) (View.ld hb (Rect.unit (s := S2x1x512x128) ![1, 0, 0, 0] S1x1x512x128.size inb_S2x1x512x128_S1x1x512x128_1_0_0_0))) _ := packs_mmS hS' hK
  have hG2 : Packs (k1_pay14 (k1_pay2 S) g) _ := packs_ch2 hS' hG1 hG

  have h90 := packsG_pay13 hS' hG hK hb70 sg0 sk0 sg1 sk1
  have h107 := (packsG_pay15 hS' hK hK1 h90 hG2 sg2 sk2).congr
    (y' := fun g e n o => Ideal.logistic (Spec.gate (Spec.sup A) A.wru1 A.bru1 (fun h => Spec.feat1 (Spec.h0 A (Blocks.bat p e)) h) (A.hid 1 (Blocks.bat p e)) n (Blocks.gcol g o)))
    (fun g e n o => congrArg Ideal.logistic
      (gate_terms (Spec.sup A) A.wru1 A.bru1 (Spec.h0 A (Blocks.bat p e)) (A.hid 1 (Blocks.bat p e)) n (Blocks.gcol g o)))
  have h109 : Packs _ fun e n u => Spec.zgate (Spec.sup A) A.wru1 A.bru1 (fun h => Spec.feat1 (Spec.h0 A (Blocks.bat p e)) h) (A.hid 1 (Blocks.bat p e)) n u :=
    fun n e u => (packs_pay16 h107 n e u).trans (by
      show Ideal.logistic (Spec.gate _ _ _ _ _ n (Blocks.gcol 1 u)) = Ideal.logistic (Spec.gate _ _ _ _ _ n (Spec.hi u))
      rw [ValR1L0.gcol_one])
  have h110 : Packs _ fun e n u => Spec.rgate (Spec.sup A) A.wru1 A.bru1 (fun h => Spec.feat1 (Spec.h0 A (Blocks.bat p e)) h) (A.hid 1 (Blocks.bat p e)) n u * A.hid 1 (Blocks.bat p e) n u :=
    fun n e u => (packs_pay17 h107 hK n e u).trans (by
      show Ideal.logistic (Spec.gate _ _ _ _ _ n (Blocks.gcol 0 u)) * _ = Ideal.logistic (Spec.gate _ _ _ _ _ n (Spec.lo u)) * _
      rw [ValR1L0.gcol_zero])
  have h129 := packs_pay18 hG hG1 hG2 h110 hb111 cg0 cg1 cg2 ck0
  have h148 := packs_pay19 hS' hK h109 h110 h129 ck1 ck2
  refine (h148 n e u).trans ?_
  exact congrArg (fun t => Spec.zgate (Spec.sup A) A.wru1 A.bru1 (fun h => Spec.feat1 (Spec.h0 A (Blocks.bat p e)) h) (A.hid 1 (Blocks.bat p e)) n u * A.hid 1 (Blocks.bat p e) n u
      + (Spec.w1 - Spec.zgate (Spec.sup A) A.wru1 A.bru1 (fun h => Spec.feat1 (Spec.h0 A (Blocks.bat p e)) h) (A.hid 1 (Blocks.bat p e)) n u) * Ideal.tanh t)
    (cand_terms (Spec.sup A) A.wc1 A.bc1 (Spec.h0 A (Blocks.bat p e))
      (fun n u => Spec.rgate (Spec.sup A) A.wru1 A.bru1 (fun h => Spec.feat1 (Spec.h0 A (Blocks.bat p e)) h) (A.hid 1 (Blocks.bat p e)) n u * A.hid 1 (Blocks.bat p e) n u) n u)

theorem readout_value (A : Spec.Args) (p : Fin 32) (S : Vec Ideal S512x512 .f32) (hb : Vec Ideal S2x1x512x128 .f32)
    (wgRu wkRu : Vec Ideal S3x128x256 .f32) (bRu : Vec Ideal S1x256 .f32)
    (wgC wkC : Vec Ideal S3x128x128 .f32) (bC : Vec Ideal S1x128 .f32)
    (wpp : Vec Ideal S128x2 .f32) (bp : Vec Ideal S1x1 .f32) (g : FVec Ideal S512x128 .f32)
    (hS : ∀ i, S i = Blocks.supArr A i)
    (hhb : ∀ (n : Fin 512) (j : Fin 128), hb (ix4 1 0 n j) = Blocks.hp A (ix4 1 p n j))
    (hwgRu : ∀ i, wgRu i = Blocks.wgRu1 A i) (hwkRu : ∀ i, wkRu i = Blocks.wkRu1 A i) (hbRu : ∀ i, bRu i = Blocks.bRu1 A i)
    (hwgC : ∀ i, wgC i = Blocks.wgC1 A i) (hwkC : ∀ i, wkC i = Blocks.wkC1 A i) (hbC : ∀ i, bC i = Blocks.bC1 A i)
    (hg : ∀ (n : Fin 512) (e : Fin 2) (u : Fin 64), g (ix2 n ⟨e.val * 64 + u.val, by omega⟩) = Spec.h0 A (Blocks.bat p e) n u)
    (hwpp : ∀ i, wpp i = Blocks.wppArr A i) (hbp : ∀ i, bp i = Blocks.bpArr A i)
    (e : Fin 2) (n : Fin 512) :
    readout1 S hb wgRu wkRu bRu wgC wkC bC wpp bp g (ix2 e n) = Spec.out A (Blocks.bat p e) n := by
  have hN : Packs (newState1 S hb wgRu wkRu bRu wgC wkC bC g) fun e n u => Spec.h1 A (Blocks.bat p e) n u := fun n e u =>
    layer1_value A p S hb wgRu wkRu bRu wgC wkC bC g hS hhb hwgRu hwkRu hbRu hwgC hwkC hbC hg n e u
  unfold readout1
  generalize newState1 S hb wgRu wkRu bRu wgC wkC bC g = N at hN ⊢
  rw [transpose_ix2_apply]
  simp only [addf_apply]
  rw [matmulPr_apply]
  have h1 : ∀ j : Fin 128, (shapeCast S128x2 (View.ld wpp (Rect.unit (s := S128x2) ![0, 0] S128x2.size inb_S128x2_S128x2_0_0)) shapeCasts_S128x2_S128x2 : FVec Ideal S128x2 .f32) (ix2 j e)
      = if (Blocks.q 64 2 j : Fin 2) = e then A.wp (Blocks.r 64 j) else Spec.w0 := fun j =>
    (congrFun (shapeCast_self (s := S128x2) (View.ld wpp (Rect.unit (s := S128x2) ![0, 0] S128x2.size inb_S128x2_S128x2_0_0)) shapeCasts_S128x2_S128x2) (ix2 j e)).trans
      ((congrFun (View.ld_unit_zero (S := S128x2) ValR1L0.zero2 inb_S128x2_S128x2_0_0 wpp) (ix2 j e)).trans
        ((hwpp (ix2 j e)).trans (wpp_at A j e)))
  have h2 : (broadcastTo S512x2 (shapeCast S1x1 (View.ld bp (Rect.unit (s := S1x1) ![0, 0] S1x1.size inb_S1x1_S1x1_0_0)) shapeCasts_S1x1_S1x1 : FVec Ideal S1x1 .f32) broadcasts_S1x1_S512x2
      : FVec Ideal S512x2 .f32) (ix2 n e) = A.bp := by
    exact (bias2_apply (View.ld bp (Rect.unit (s := S1x1) ![0, 0] S1x1.size inb_S1x1_S1x1_0_0)) n e).trans
      ((congrFun (View.ld_unit_zero (S := S1x1) ValR1L0.zero2 inb_S1x1_S1x1_0_0 bp) (ix2 0 0)).trans ((hbp (ix2 0 0)).trans rfl))
  simp only [h1]
  rw [h2, ValR1L0.contract128 e (fun j => N (ix2 n j)) (fun f => A.wp f)]
  show (∑ f : Fin 64, N (ix2 n (pc e f)) * A.wp f) + A.bp = (∑ u : Fin 64, Spec.h1 A (Blocks.bat p e) n u * A.wp u) + A.bp
  exact congrArg (· + A.bp) (Finset.sum_congr rfl fun f _ => by rw [hN n e f])

end Cert.KI.L1

end
-- ==== Proof.KI.ValR1.lean ====
import proofs.«107218_g19069654794669_cont_sun_m_30_13_alg».proof.Proof.Gen.KernelIdeal.Skeleton
import proofs.«107218_g19069654794669_cont_sun_m_30_13_alg».proof.Proof.Spec
import proofs.«107218_g19069654794669_cont_sun_m_30_13_alg».proof.Proof.Blocks
import proofs.«107218_g19069654794669_cont_sun_m_30_13_alg».proof.Proof.KI.ValR1L1
import proofs.«107218_g19069654794669_cont_sun_m_30_13_alg».proof.Proof.KI.ValR1L0
import Idealize.ShloMosaic.Lib.ValueIdx
import Idealize.ShloMosaic.Lib.ValueLayout
import Idealize.ShloMosaic.Lib.Pipeline.Value
import Idealize.ShloMosaic.Lib.Pipeline.FrameBody
import Idealize.ShloMosaic.PureOps.Ideal.Laws

noncomputable section

namespace Cert.KI.R1V

open Cert.KernelIdeal Cert.KernelIdeal.Gen
open Idealize.ShloMosaic Idealize.ShloMosaic.ValueIdx
open Cert.KI

section Pieces
variable {F : FTy → Type} [FloatOps F] (x0 : Vec F S512x512 .f32) (x1 : Vec F S1x6x512 .f32) (x2 : Vec F S2x1x512x128 .f32)
    (x3 : Vec F S6x256 .f32) (x4 : Vec F S3x128x256 .f32) (x5 : Vec F S1x256 .f32) (x6 : Vec F S6x128 .f32)
    (x7 : Vec F S3x128x128 .f32) (x8 : Vec F S1x128 .f32) (x9 x10 : Vec F S3x128x256 .f32) (x11 : Vec F S1x256 .f32)
    (x12 x13 : Vec F S3x128x128 .f32) (x14 : Vec F S1x128 .f32)

def g0 : FVec F S512x128 .f32 :=
  let v0 : Vec F S512x512 .f32 := (View.ld x0 (Rect.unit (s := S512x512) ![0, 0] S512x512.size inb_S512x512_S512x512_0_0))
  let v2 : Vec F S1x6x512 .f32 := (View.ld x1 (Rect.unit (s := S1x6x512) ![0, 0, 0] S1x6x512.size inb_S1x6x512_S1x6x512_0_0_0))
  let v5 : Vec F S1x1x512x128 .f32 := (View.ld x2 (Rect.unit (s := S2x1x512x128) ![0, 0, 0, 0] S1x1x512x128.size inb_S2x1x512x128_S1x1x512x128_0_0_0_0))
  k1_pay8 (k1_pay2 v0) (k1_pay3 v2) (k1_pay4 v5)
    (k1_pay6 v0 v2 v5 (View.ld x5 (Rect.unit (s := S1x256) ![0, 0] S1x256.size inb_S1x256_S1x256_0_0)) (View.ld x3 (Rect.unit (s := S6x256) ![0, 0] S6x256.size inb_S6x256_S6x256_0_0)) (View.ld x4 (Rect.unit (s := S3x128x256) ![0, 0, 0] S1x128x256.size inb_S3x128x256_S1x128x256_0_0_0)) (View.ld x4 (Rect.unit (s := S3x128x256) ![1, 0, 0] S1x128x256.size inb_S3x128x256_S1x128x256_1_0_0)))
    (k1_pay7 v0 v5 (View.ld x4 (Rect.unit (s := S3x128x256) ![2, 0, 0] S1x128x256.size inb_S3x128x256_S1x128x256_2_0_0))) (View.ld x8 (Rect.unit (s := S1x128) ![0, 0] S1x128.size inb_S1x128_S1x128_0_0)) (View.ld x6 (Rect.unit (s := S6x128) ![0, 0] S6x128.size inb_S6x128_S6x128_0_0))
    (View.ld x7 (Rect.unit (s := S3x128x128) ![0, 0, 0] S1x128x128.size inb_S3x128x128_S1x128x128_0_0_0)) (View.ld x7 (Rect.unit (s := S3x128x128) ![1, 0, 0] S1x128x128.size inb_S3x128x128_S1x128x128_1_0_0)) (View.ld x7 (Rect.unit (s := S3x128x128) ![2, 0, 0] S1x128x128.size inb_S3x128x128_S1x128x128_2_0_0))

def ro (x15 : Vec F S128x2 .f32) (x16 : Vec F S1x1 .f32) : FVec F S2x512 .f32 :=
  L1.readout1 (View.ld x0 (Rect.unit (s := S512x512) ![0, 0] S512x512.size inb_S512x512_S512x512_0_0)) x2 x9 x10 x11 x12 x13 x14 x15 x16 (g0 x0 x1 x2 x3 x4 x5 x6 x7 x8)

def pieces1_17 (x15 : Vec F S128x2 .f32) (x16 : Vec F S1x1 .f32) : List (View.Piece (Elt F) S1x2x512 .f32) :=
  [⟨Rect.unit (s := S1x2x512) ![0, 0, 0] S1x2x512.size inb_S1x2x512_S1x2x512_0_0_0, k1_pay1 (ro x0 x1 x2 x3 x4 x5 x6 x7 x8 x9 x10 x11 x12 x13 x14 x15 x16)⟩]

def pieces1_18 (x15 : Vec F S128x2 .f32) (x16 : Vec F S1x1 .f32) : List (View.Piece (Elt F) S2x1x512x128 .f32) :=
  [⟨Rect.unit (s := S2x1x512x128) ![1, 0, 0, 0] S1x1x512x128.size inb_S2x1x512x128_S1x1x512x128_1_0_0_0,
      k1_pay9 (L1.newState1 (View.ld x0 (Rect.unit (s := S512x512) ![0, 0] S512x512.size inb_S512x512_S512x512_0_0)) x2 x9 x10 x11 x12 x13 x14 (g0 x0 x1 x2 x3 x4 x5 x6 x7 x8))⟩,
   ⟨Rect.unit (s := S2x1x512x128) ![0, 0, 0, 0] S1x1x512x128.size inb_S2x1x512x128_S1x1x512x128_0_0_0_0,
      k1_pay9 (g0 x0 x1 x2 x3 x4 x5 x6 x7 x8)⟩]

end Pieces

theorem emb_half (off : Fin 4 → ℕ) (inb : ∀ a, off a + S1x1x512x128.size a ≤ S2x1x512x128.size a) (l : Fin 2)
    (h0 : off 0 = l.val) (h1 : off 1 = 0) (h2 : off 2 = 0) (h3 : off 3 = 0) (a : Fin 1) (n : Fin 512) (j : Fin 128) :
    (Rect.unit (s := S2x1x512x128) off S1x1x512x128.size inb).emb (ix4 (0 : Fin 1) a n j) = ix4 l a n j := by
  funext ax; apply Fin.ext
  match ax with
  | ⟨0, _⟩ => show off 0 + 1 * 0 = l.val; omega
  | ⟨1, _⟩ => show off 1 + 1 * a.val = a.val; omega
  | ⟨2, _⟩ => show off 2 + 1 * n.val = n.val; omega
  | ⟨3, _⟩ => show off 3 + 1 * j.val = j.val; omega

theorem cast_ab_11ab {α : Type} (X : S512x128.Idx → α) (h : S512x128.ShapeCasts S1x1x512x128) (u a : Fin 1) (n : Fin 512) (j : Fin 128) :
    shapeCast S1x1x512x128 X h (ix4 u a n j) = X (ix2 n j) :=
  shapeCast_apply X h _ _ (by
    have hu : u.val = 0 := by omega
    have ha : a.val = 0 := by omega
    rw [Shape.rowMajor_val_two, Shape.rowMajor_val_four]
    show n.val * 128 + j.val = ((u.val * 1 + a.val) * 512 + n.val) * 128 + j.val
    omega)

-- a packed column `j` is unit `j % 64` of batch element `j / 64`
theorem at_col {α : Type} (X : S512x128.Idx → α) (y : Fin 2 → Fin 64 → α) (n : Fin 512)
    (h : ∀ (e : Fin 2) (u : Fin 64), X (ix2 n ⟨e.val * 64 + u.val, by omega⟩) = y e u) (j : Fin 128) :
    X (ix2 n j) = y (Blocks.q 64 2 j) (Blocks.r 64 j) :=
  (congrArg (fun c => X (ix2 n c)) (Fin.ext (by show j.val = j.val / 64 * 64 + j.val % 64; omega) :
    j = ⟨(Blocks.q 64 2 j : Fin 2).val * 64 + (Blocks.r 64 j).val, by
      have := (Blocks.q 64 2 j : Fin 2).isLt; have := (Blocks.r 64 j).isLt; omega⟩)).trans (h _ _)

theorem not_mem_half1 (a : Fin 1) (n : Fin 512) (j : Fin 128) : ix4 (0 : Fin 2) a n j ∉ (Rect.unit (s := S2x1x512x128) ![1, 0, 0, 0] S1x1x512x128.size inb_S2x1x512x128_S1x1x512x128_1_0_0_0).set := by
  intro hm
  have h1 : (1 : ℕ) ≤ 0 := ((Rect.mem_set_unit.mp hm) 0).1
  omega

-- an entry of the earlier of two pieces that the later does not hold reads the earlier payload
theorem canon_two_earlier {Val : EltTy → Type} [∀ e, Nonempty (Val e)] {s : Shape} {e : EltTy} (r1 r0 : Rect s)
    (w1 : r1.shape.Idx → Val e) (w0 : r0.shape.Idx → Val e) (x : r0.shape.Idx) (h : r0.emb x ∉ r1.set) :
    View.canon [(⟨r1, w1⟩ : View.Piece Val s e), ⟨r0, w0⟩] (r0.emb x) = w0 x := by
  rw [View.canon_cons_of_not_mem (⟨r1, w1⟩ : View.Piece Val s e) [⟨r0, w0⟩] h]
  exact View.canon_cons_emb r0 w0 [] x

section AtBlocks
variable (A : Spec.Args) (p : Fin 32) (x1 : Vec Ideal S1x6x512 .f32) (x2 : Vec Ideal S2x1x512x128 .f32)
    (hac : ∀ (t : Fin 6) (n : Fin 512), x1 (ix3 (0 : Fin 1) t n) = Blocks.acat A (ix3 p t n))
    (hhb : ∀ (l : Fin 2) (n : Fin 512) (j : Fin 128), x2 (ix4 l (0 : Fin 1) n j) = Blocks.hp A (ix4 l p n j))
include hac hhb

-- half `0` lies outside the later piece, so the earlier piece's payload is read
theorem out18_half0 (a : Fin 1) (n : Fin 512) (j : Fin 128) :
    View.canon (pieces1_18 (F := Ideal) (Blocks.supArr A) x1 x2 (Blocks.waRu0 A) (Blocks.whRu0 A) (Blocks.bRu0 A) (Blocks.waC0 A) (Blocks.whC0 A) (Blocks.bC0 A)
      (Blocks.wgRu1 A) (Blocks.wkRu1 A) (Blocks.bRu1 A) (Blocks.wgC1 A) (Blocks.wkC1 A) (Blocks.bC1 A) (Blocks.wppArr A) (Blocks.bpArr A)) (ix4 0 a n j) = Blocks.hidP A (ix4 0 p n j) := by
  unfold pieces1_18
  have hi := emb_half ![0, 0, 0, 0] inb_S2x1x512x128_S1x1x512x128_0_0_0_0 0 rfl rfl rfl rfl a n j
  rw [← hi]
  refine (canon_two_earlier (Val := Elt Ideal) (e := .f32) (Rect.unit (s := S2x1x512x128) ![1, 0, 0, 0] S1x1x512x128.size inb_S2x1x512x128_S1x1x512x128_1_0_0_0)
    (Rect.unit (s := S2x1x512x128) ![0, 0, 0, 0] S1x1x512x128.size inb_S2x1x512x128_S1x1x512x128_0_0_0_0) _ _ (ix4 (0 : Fin 1) a n j) (by rw [hi]; exact not_mem_half1 a n j)).trans ?_
  exact (cast_ab_11ab _ _ 0 a n j).trans
    (at_col _ (fun e u => Spec.h0 A (Blocks.bat p e) n u) n (ValR1L0.layer0_value A p x1 x2 hac hhb n) j)

theorem out18_half1 (a : Fin 1) (n : Fin 512) (j : Fin 128) :
    View.canon (pieces1_18 (F := Ideal) (Blocks.supArr A) x1 x2 (Blocks.waRu0 A) (Blocks.whRu0 A) (Blocks.bRu0 A) (Blocks.waC0 A) (Blocks.whC0 A) (Blocks.bC0 A)
      (Blocks.wgRu1 A) (Blocks.wkRu1 A) (Blocks.bRu1 A) (Blocks.wgC1 A) (Blocks.wkC1 A) (Blocks.bC1 A) (Blocks.wppArr A) (Blocks.bpArr A)) (ix4 1 a n j) = Blocks.hidP A (ix4 1 p n j) := by
  unfold pieces1_18
  rw [← emb_half ![1, 0, 0, 0] inb_S2x1x512x128_S1x1x512x128_1_0_0_0 1 rfl rfl rfl rfl a n j]
  refine (View.canon_cons_emb (Rect.unit (s := S2x1x512x128) ![1, 0, 0, 0] S1x1x512x128.size inb_S2x1x512x128_S1x1x512x128_1_0_0_0) _ _ (ix4 (0 : Fin 1) a n j)).trans ?_
  exact (cast_ab_11ab _ _ 0 a n j).trans (at_col _ (fun e u => Spec.h1 A (Blocks.bat p e) n u) n
      (L1.layer1_value A p _ x2 _ _ _ _ _ _ _ (fun i => by rw [View.ld_unit_zero ValR1L0.zero2]) (hhb 1) (fun _ => rfl) (fun _ => rfl) (fun _ => rfl) (fun _ => rfl) (fun _ => rfl) (fun _ => rfl)
        (ValR1L0.layer0_value A p x1 x2 hac hhb) n) j)

theorem out18_blocks (l : Fin 2) (a : Fin 1) (n : Fin 512) (j : Fin 128) :
    View.canon (pieces1_18 (F := Ideal) (Blocks.supArr A) x1 x2 (Blocks.waRu0 A) (Blocks.whRu0 A) (Blocks.bRu0 A) (Blocks.waC0 A) (Blocks.whC0 A) (Blocks.bC0 A)
      (Blocks.wgRu1 A) (Blocks.wkRu1 A) (Blocks.bRu1 A) (Blocks.wgC1 A) (Blocks.wkC1 A) (Blocks.bC1 A) (Blocks.wppArr A) (Blocks.bpArr A)) (ix4 l a n j) = Blocks.hidP A (ix4 l p n j) :=
  match l with
  | ⟨0, _⟩ => out18_half0 A p x1 x2 hac hhb a n j
  | ⟨1, _⟩ => out18_half1 A p x1 x2 hac hhb a n j

theorem out17_blocks (a : Fin 1) (e : Fin 2) (n : Fin 512) :
    View.canon (pieces1_17 (F := Ideal) (Blocks.supArr A) x1 x2 (Blocks.waRu0 A) (Blocks.whRu0 A) (Blocks.bRu0 A) (Blocks.waC0 A) (Blocks.whC0 A) (Blocks.bC0 A)
      (Blocks.wgRu1 A) (Blocks.wkRu1 A) (Blocks.bRu1 A) (Blocks.wgC1 A) (Blocks.wkC1 A) (Blocks.bC1 A) (Blocks.wppArr A) (Blocks.bpArr A)) (ix3 a e n) = Blocks.outP A (ix3 p e n) := by
  unfold pieces1_17
  rw [View.canon_unit_zero ValR1L0.zero3]
  exact (shapeCast_ab_1ab_apply _ shapeCasts_S2x512_S1x2x512 a e n).trans
    (L1.readout_value A p _ x2 _ _ _ _ _ _ _ _ _ (fun i => by rw [View.ld_unit_zero ValR1L0.zero2]) (hhb 1) (fun _ => rfl) (fun _ => rfl) (fun _ => rfl) (fun _ => rfl) (fun _ => rfl) (fun _ => rfl)
      (ValR1L0.layer0_value A p x1 x2 hac hhb) (fun _ => rfl) (fun _ => rfl) e n)

end AtBlocks

end Cert.KI.R1V

end
-- ==== Proof.KI.R1Canon.lean ====
import proofs.«107218_g19069654794669_cont_sun_m_30_13_alg».proof.Proof.KI.R1
import proofs.«107218_g19069654794669_cont_sun_m_30_13_alg».proof.Proof.KI.ValR1

set_option maxRecDepth 16384

noncomputable section

namespace Cert.KernelIdeal.Hand

open Cert.KernelIdeal Cert.KernelIdeal.Gen
open Idealize.ShloMosaic Idealize.ShloMosaic.TcCoe

variable {F : FTy → Type} [FloatOps F]

variable (c : Dev nD) (i : grid1.Coords) (arg1 : Memref sig .tc .vmem S512x512 .f32) (harg1 : arg1.IsWhole) (arg2 : Memref sig .tc .vmem S1x6x512 .f32) (harg2 : arg2.IsWhole) (arg3 : Memref sig .tc .vmem S2x1x512x128 .f32) (harg3 : arg3.IsWhole) (arg4 : Memref sig .tc .vmem S6x256 .f32) (harg4 : arg4.IsWhole) (arg5 : Memref sig .tc .vmem S3x128x256 .f32) (harg5 : arg5.IsWhole) (arg6 : Memref sig .tc .vmem S1x256 .f32) (harg6 : arg6.IsWhole) (arg7 : Memref sig .tc .vmem S6x128 .f32) (harg7 : arg7.IsWhole) (arg8 : Memref sig .tc .vmem S3x128x128 .f32) (harg8 : arg8.IsWhole) (arg9 : Memref sig .tc .vmem S1x128 .f32) (harg9 : arg9.IsWhole) (arg10 : Memref sig .tc .vmem S3x128x256 .f32) (harg10 : arg10.IsWhole) (arg11 : Memref sig .tc .vmem S3x128x256 .f32) (harg11 : arg11.IsWhole) (arg12 : Memref sig .tc .vmem S1x256 .f32) (harg12 : arg12.IsWhole) (arg13 : Memref sig .tc .vmem S3x128x128 .f32) (harg13 : arg13.IsWhole) (arg14 : Memref sig .tc .vmem S3x128x128 .f32) (harg14 : arg14.IsWhole) (arg15 : Memref sig .tc .vmem S1x128 .f32) (harg15 : arg15.IsWhole) (arg16 : Memref sig .tc .vmem S128x2 .f32) (harg16 : arg16.IsWhole) (arg17 : Memref sig .tc .vmem S1x1 .f32) (harg17 : arg17.IsWhole) (arg18 : Memref sig .tc .vmem S1x2x512 .f32) (harg18 : arg18.IsWhole) (arg19 : Memref sig .tc .vmem S2x1x512x128 .f32) (harg19 : arg19.IsWhole)
    (x0 : Vec F S512x512 .f32) (x1 : Vec F S1x6x512 .f32) (x2 : Vec F S2x1x512x128 .f32) (x3 : Vec F S6x256 .f32) (x4 : Vec F S3x128x256 .f32) (x5 : Vec F S1x256 .f32) (x6 : Vec F S6x128 .f32) (x7 : Vec F S3x128x128 .f32) (x8 : Vec F S1x128 .f32) (x9 : Vec F S3x128x256 .f32) (x10 : Vec F S3x128x256 .f32) (x11 : Vec F S1x256 .f32) (x12 : Vec F S3x128x128 .f32) (x13 : Vec F S3x128x128 .f32) (x14 : Vec F S1x128 .f32) (x15 : Vec F S128x2 .f32) (x16 : Vec F S1x1 .f32)

-- The payloads the body's run stores are, term for term, the value side's piece lists.
set_option maxHeartbeats 1000000 in
theorem out1_17_pieces : out1_17 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8 x9 x10 x11 x12 x13 x14 x15 x16 = View.canon (Cert.KI.R1V.pieces1_17 x0 x1 x2 x3 x4 x5 x6 x7 x8 x9 x10 x11 x12 x13 x14 x15 x16) := by
  unfold out1_17
  rw [View.read_writes_junk_eq_canon]
  unfold kernelRun1
  dsimp only
  sl_unfold_words
  simp only [View.readAt_eq_ld, Memref.IsWhole.read_unread]
  unfold Cert.KI.R1V.pieces1_17 Cert.KI.R1V.ro Cert.KI.R1V.g0
  all_goals rfl

set_option maxHeartbeats 1000000 in
theorem out1_18_pieces : out1_18 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8 x9 x10 x11 x12 x13 x14 x15 x16 = View.canon (Cert.KI.R1V.pieces1_18 x0 x1 x2 x3 x4 x5 x6 x7 x8 x9 x10 x11 x12 x13 x14 x15 x16) := by
  unfold out1_18
  rw [View.read_writes_junk_eq_canon]
  unfold kernelRun1
  dsimp only
  sl_unfold_words
  simp only [View.readAt_eq_ld, Memref.IsWhole.read_unread]
  unfold Cert.KI.R1V.pieces1_18 Cert.KI.R1V.g0
  all_goals rfl

end Cert.KernelIdeal.Hand

end
-- ==== Proof.KI.Value.lean ====
import proofs.«107218_g19069654794669_cont_sun_m_30_13_alg».proof.Proof.KI.Run
import proofs.«107218_g19069654794669_cont_sun_m_30_13_alg».proof.Proof.KI.Cover
import proofs.«107218_g19069654794669_cont_sun_m_30_13_alg».proof.Proof.KI.Host
import proofs.«107218_g19069654794669_cont_sun_m_30_13_alg».proof.Proof.KI.Glue0
import proofs.«107218_g19069654794669_cont_sun_m_30_13_alg».proof.Proof.KI.ValR1
import proofs.«107218_g19069654794669_cont_sun_m_30_13_alg».proof.Proof.KI.R1Canon
import proofs.«107218_g19069654794669_cont_sun_m_30_13_alg».proof.Proof.Blocks
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat)

variable (m : (ℓ : Loc nD τ sig) → Buf (Elt Ideal) ℓ) (ρ : Dev nD → PrngReg)

section Region1
variable (c : Dev nD) (t : Fin cfg1.N)

-- A whole-array block is the array the first stage wrote.
theorem blk1_0 : iblk1 (V3 m ρ) c 0 t = Cert.Blocks.supArr (argsM m c) :=
  (read_blk1_0 t _).trans ((W3_keep m ρ c main_v16_0 (by decide)).trans (W2_v16_0 m ρ c))
theorem blk1_3 : iblk1 (V3 m ρ) c 3 t = Cert.Blocks.waRu0 (argsM m c) :=
  (read_blk1_3 t _).trans ((W3_keep m ρ c main_v16_3 (by decide)).trans (W2_v16_3 m ρ c))
theorem blk1_4 : iblk1 (V3 m ρ) c 4 t = Cert.Blocks.whRu0 (argsM m c) :=
  (read_blk1_4 t _).trans ((W3_keep m ρ c main_v16_4 (by decide)).trans (W2_v16_4 m ρ c))
theorem blk1_5 : iblk1 (V3 m ρ) c 5 t = Cert.Blocks.bRu0 (argsM m c) :=
  (read_blk1_5 t _).trans ((W3_keep m ρ c main_v16_5 (by decide)).trans (W2_v16_5 m ρ c))
theorem blk1_6 : iblk1 (V3 m ρ) c 6 t = Cert.Blocks.waC0 (argsM m c) :=
  (read_blk1_6 t _).trans ((W3_keep m ρ c main_v16_6 (by decide)).trans (W2_v16_6 m ρ c))
theorem blk1_7 : iblk1 (V3 m ρ) c 7 t = Cert.Blocks.whC0 (argsM m c) :=
  (read_blk1_7 t _).trans ((W3_keep m ρ c main_v16_7 (by decide)).trans (W2_v16_7 m ρ c))
theorem blk1_8 : iblk1 (V3 m ρ) c 8 t = Cert.Blocks.bC0 (argsM m c) :=
  (read_blk1_8 t _).trans ((W3_keep m ρ c main_v16_8 (by decide)).trans (W2_v16_8 m ρ c))
theorem blk1_9 : iblk1 (V3 m ρ) c 9 t = Cert.Blocks.wgRu1 (argsM m c) :=
  (read_blk1_9 t _).trans ((W3_keep m ρ c main_v16_9 (by decide)).trans (W2_v16_9 m ρ c))
theorem blk1_10 : iblk1 (V3 m ρ) c 10 t = Cert.Blocks.wkRu1 (argsM m c) :=
  (read_blk1_10 t _).trans ((W3_keep m ρ c main_v16_10 (by decide)).trans (W2_v16_10 m ρ c))
theorem blk1_11 : iblk1 (V3 m ρ) c 11 t = Cert.Blocks.bRu1 (argsM m c) :=
  (read_blk1_11 t _).trans ((W3_keep m ρ c main_v16_11 (by decide)).trans (W2_v16_11 m ρ c))
theorem blk1_12 : iblk1 (V3 m ρ) c 12 t = Cert.Blocks.wgC1 (argsM m c) :=
  (read_blk1_12 t _).trans ((W3_keep m ρ c main_v16_12 (by decide)).trans (W2_v16_12 m ρ c))
theorem blk1_13 : iblk1 (V3 m ρ) c 13 t = Cert.Blocks.wkC1 (argsM m c) :=
  (read_blk1_13 t _).trans ((W3_keep m ρ c main_v16_13 (by decide)).trans (W2_v16_13 m ρ c))
theorem blk1_14 : iblk1 (V3 m ρ) c 14 t = Cert.Blocks.bC1 (argsM m c) :=
  (read_blk1_14 t _).trans ((W3_keep m ρ c main_v16_14 (by decide)).trans (W2_v16_14 m ρ c))
theorem blk1_15 : iblk1 (V3 m ρ) c 15 t = Cert.Blocks.wppArr (argsM m c) :=
  (read_blk1_15 t _).trans ((W3_keep m ρ c main_v16_15 (by decide)).trans (W2_v16_15 m ρ c))
theorem blk1_16 : iblk1 (V3 m ρ) c 16 t = Cert.Blocks.bpArr (argsM m c) :=
  (read_blk1_16 t _).trans (W3_bpArr m ρ c)
theorem blk1_1 (a : Fin 1) (j : Fin 6) (n : Fin 512) :
    iblk1 (V3 m ρ) c 1 t (ix3 a j n) = Cert.Blocks.acat (argsM m c) (ix3 ⟨t.val, pt_lt t⟩ j n) :=
  (read_blk1_1 t _ a j n).trans (congrFun (W3_acat m ρ c) _)
theorem blk1_2 (l : Fin 2) (a : Fin 1) (n : Fin 512) (j : Fin 128) :
    iblk1 (V3 m ρ) c 2 t (ix4 l a n j) = Cert.Blocks.hp (argsM m c) (ix4 l ⟨t.val, pt_lt t⟩ n j) :=
  (read_blk1_2 t _ l a n j).trans (congrFun (W3_hp m ρ c) _)

-- At point t the two results are the pair's slabs of the packed read-outs and of the packed new states.
theorem after1_apply :
    (∀ (a : Fin 1) (e : Fin 2) (n : Fin 512),
      (dat1 (V3 m ρ) c).after 17 t (ix3 a e n) = Cert.Blocks.outP (argsM m c) (ix3 ⟨t.val, pt_lt t⟩ e n))
    ∧ ∀ (l : Fin 2) (a : Fin 1) (n : Fin 512) (j : Fin 128),
      (dat1 (V3 m ρ) c).after 18 t (ix4 l a n j) = Cert.Blocks.hidP (argsM m c) (ix4 l ⟨t.val, pt_lt t⟩ n j) := by
  rw [after1_17, after1_18, out1_17_pieces, out1_18_pieces, blk1_0 m ρ c t, blk1_3 m ρ c t, blk1_4 m ρ c t, blk1_5 m ρ c t, blk1_6 m ρ c t, blk1_7 m ρ c t, blk1_8 m ρ c t, blk1_9 m ρ c t, blk1_10 m ρ c t, blk1_11 m ρ c t, blk1_12 m ρ c t, blk1_13 m ρ c t, blk1_14 m ρ c t, blk1_15 m ρ c t, blk1_16 m ρ c t]
  exact ⟨Cert.KI.R1V.out17_blocks _ ⟨t.val, pt_lt t⟩ _ _ (blk1_1 m ρ c t 0) (fun l => blk1_2 m ρ c t l 0),
    Cert.KI.R1V.out18_blocks _ ⟨t.val, pt_lt t⟩ _ _ (blk1_1 m ρ c t 0) (fun l => blk1_2 m ρ c t l 0)⟩

end Region1

-- The slabs of the 32 points cover the two packed arrays, and the last stretch unpacks the pairs.
theorem W5_out (c : Dev nD) :
    (W5 m ρ c (Proc.devRef .tc main_v25) : S64x512.Idx → EReal) = Cert.Spec.outArr (argsM m c) :=
  host2_outArr _ _ ((W4_arr m ρ c 17).trans (arr1_17_of_apply _ _ fun t => (after1_apply m ρ c t).1))
theorem W5_hid (c : Dev nD) :
    (W5 m ρ c (Proc.devRef .tc main_v28) : S2x64x32768.Idx → EReal) = Cert.Spec.hidArr (argsM m c) :=
  host2_hidArr _ _ ((W4_arr m ρ c 18).trans (arr1_18_of_apply _ _ fun t => (after1_apply m ρ c t).2))

theorem kernel_value : θ_run defs (onTc (τ := τ) (main (F := Ideal))) ⟨m, fun _ => 0, ρ⟩ (fun r => ∀ c : Dev nD,
      r.2.mem ((c.tc : Thread nD τ).loc main_v25) = Cert.Spec.outArr (argsM m c)
      ∧ r.2.mem ((c.tc : Thread nD τ).loc main_v28) = Cert.Spec.hidArr (argsM m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ) :=
  (θ_run defs _ _).mono (fun r h c =>
    ⟨(h c _ (mem_uc main_v25 (by decide))).trans (W5_out m ρ c),
     (h c _ (mem_uc main_v28 (by decide))).trans (W5_hid m ρ c),
     (h c _ (mem_uc main_arg0 (by decide))).trans (W5_main_arg0 m ρ c),
     (h c _ (mem_uc main_arg1 (by decide))).trans (W5_main_arg1 m ρ c),
     (h c _ (mem_uc main_arg2 (by decide))).trans (W5_main_arg2 m ρ c),
     (h c _ (mem_uc main_arg3 (by decide))).trans (W5_main_arg3 m ρ c),
     (h c _ (mem_uc main_arg4 (by decide))).trans (W5_main_arg4 m ρ c),
     (h c _ (mem_uc main_arg5 (by decide))).trans (W5_main_arg5 m ρ c),
     (h c _ (mem_uc main_arg6 (by decide))).trans (W5_main_arg6 m ρ c),
     (h c _ (mem_uc main_arg7 (by decide))).trans (W5_main_arg7 m ρ c),
     (h c _ (mem_uc main_arg8 (by decide))).trans (W5_main_arg8 m ρ c),
     (h c _ (mem_uc main_arg9 (by decide))).trans (W5_main_arg9 m ρ c),
     (h c _ (mem_uc main_arg10 (by decide))).trans (W5_main_arg10 m ρ c),
     (h c _ (mem_uc main_arg11 (by decide))).trans (W5_main_arg11 m ρ c),
     (h c _ (mem_uc main_arg12 (by decide))).trans (W5_main_arg12 m ρ c)⟩)
    (run_all m ρ)

end Cert.KernelIdeal.Hand

end
-- ==== Proof.RefSup.lean ====
import proofs.«107218_g19069654794669_cont_sun_m_30_13_alg».proof.Proof.RefRead
import proofs.«107218_g19069654794669_cont_sun_m_30_13_alg».proof.Proof.Spec
import Idealize.ShloMosaic.Lib.ValueIdx
import Idealize.ShloMosaic.PureOps.Ideal.Laws

noncomputable section

open scoped BigOperators

namespace Cert.RefSpec

open Cert.ReferenceIdeal Cert.ReferenceIdeal.Read Idealize.ShloMosaic Idealize.ShloMosaic.ValueIdx

-- an index is determined by its coordinates
theorem ix1_ext {n0 : ℕ} {j : (⟨1, ![n0]⟩ : Shape).Idx} {a : Fin n0} (h0 : (j 0).val = a.val) : j = ix1 a :=
  funext fun d => Fin.ext (by match d with | ⟨0, _⟩ => exact h0)

theorem ix2_ext {n0 n1 : ℕ} {j : (⟨2, ![n0, n1]⟩ : Shape).Idx} {a : Fin n0} {b : Fin n1}
    (h0 : (j 0).val = a.val) (h1 : (j 1).val = b.val) : j = ix2 a b :=
  funext fun d => Fin.ext (by match d with | ⟨0, _⟩ => exact h0 | ⟨1, _⟩ => exact h1)

theorem ix3_ext {n0 n1 n2 : ℕ} {j : (⟨3, ![n0, n1, n2]⟩ : Shape).Idx} {a : Fin n0} {b : Fin n1} {c : Fin n2}
    (h0 : (j 0).val = a.val) (h1 : (j 1).val = b.val) (h2 : (j 2).val = c.val) : j = ix3 a b c :=
  funext fun d => Fin.ext (by match d with | ⟨0, _⟩ => exact h0 | ⟨1, _⟩ => exact h1 | ⟨2, _⟩ => exact h2)

theorem ix4_ext {n0 n1 n2 n3 : ℕ} {j : (⟨4, ![n0, n1, n2, n3]⟩ : Shape).Idx} {a : Fin n0} {b : Fin n1} {c : Fin n2} {d : Fin n3}
    (h0 : (j 0).val = a.val) (h1 : (j 1).val = b.val) (h2 : (j 2).val = c.val) (h3 : (j 3).val = d.val) : j = ix4 a b c d :=
  funext fun e => Fin.ext (by match e with | ⟨0, _⟩ => exact h0 | ⟨1, _⟩ => exact h1 | ⟨2, _⟩ => exact h2 | ⟨3, _⟩ => exact h3)

theorem one_word : Ideal.ofBits .f32 0x3F800000#32 = 1 := by
  simp [Ideal.ofBits, Ideal.ieee, -EReal.coe_mul]; norm_num

-- adding and removing a real number leaves the opposite of what was subtracted, also at the two infinities
theorem sub_sub_real (r : ℝ) (y : EReal) : ((r : EReal) - y) - (r : EReal) = -y := by
  induction y using EReal.rec with
  | bot => rw [EReal.coe_sub_bot, EReal.top_sub_coe, EReal.neg_bot]
  | coe y => rw [← EReal.coe_sub, ← EReal.coe_sub, ← EReal.coe_neg]; congr 1; ring
  | top => rw [EReal.sub_top, EReal.bot_sub, EReal.neg_top]

-- 1.0 * (e - y) - e = -y for a real e
theorem eye_sub (r : ℝ) (y : EReal) :
    Ideal.ofBits .f32 0x3F800000#32 * ((r : EReal) - y) - (r : EReal) = -y := by
  rw [one_word, one_mul, sub_sub_real]

def eyeBit (i j : Fin 512) : BitVec 1 :=
  IntOp.cmpi .eq (IntOp.addi (BitVec.ofNat 32 i.val) 0#32) (BitVec.ofNat 32 j.val)

theorem ref_eye14 (i j : Fin 512) :
    val_main_v14 (F := Ideal) (ix2 i j) = (((eyeBit i j).toNat : ℝ) : EReal) := by
  rw [val_main_v14_apply, val_main_v13_apply, val_main_v12_apply, val_main_v9_apply, val_main_v10_apply,
    val_main_v11_apply, val_main_c_apply]
  rfl

theorem ref_eye29 (i j : Fin 512) :
    val_main_v29 (F := Ideal) (ix2 i j) = (((eyeBit i j).toNat : ℝ) : EReal) := by
  rw [val_main_v29_apply, val_main_v28_apply, val_main_v27_apply, val_main_v24_apply, val_main_v25_apply,
    val_main_v26_apply, val_main_c_4_apply]
  rfl

variable (x2 : (⟨S512x512, .f32⟩ : BufTy).Contents (Elt Ideal)) (A : Cert.Spec.Args)
  (hA : ∀ i j : Fin 512, A.adj i j = x2 (ix2 i j))

include hA

theorem ref_sym (i j : Fin 512) : val_main_v1 (F := Ideal) x2 (ix2 i j) = Cert.Spec.sym A i j := by
  rw [val_main_v1_apply, val_main_v0_apply, show idx_main_v0 (ix2 i j) = ix2 j i from ix2_ext rfl rfl, Ideal.maximumf_def,
    ← hA, ← hA]
  rfl

theorem ref_deg (k : Fin 512) : val_main_v2 (F := Ideal) x2 (ix1 k) = Cert.Spec.deg A k := by
  rw [val_main_v2_apply, val_main_cst_apply, Ideal.ofBits_def, Ideal.ofBits_zero_f32, zero_add]
  unfold Cert.Spec.deg
  exact Finset.sum_congr rfl fun l _ => by
    rw [show idx_main_v2 (ix1 k) l = ix2 k l from ix2_ext rfl rfl, ref_sym x2 A hA]

theorem ref_d (k : Fin 512) :
    val_main_v8 (F := Ideal) x2 (ix1 k) = Cert.Spec.invSqrt (Cert.Spec.deg A k) := by
  rw [val_main_v8_apply, val_main_v4_apply, val_main_v7_apply, val_main_v5_apply, val_main_v6_apply,
    val_main_v3_apply, val_main_call0_v1_apply, val_main_call0_v0_apply, val_main_cst_0_apply,
    val_main_cst_1_apply, val_main_cst_2_apply, ref_deg x2 A hA]
  rfl

theorem ref_sup (i j : Fin 512) : val_main_v30 (F := Ideal) x2 (ix2 i j) = Cert.Spec.sup A i j := by
  rw [val_main_v30_apply, val_main_v23_apply, val_main_v22_apply, val_main_cst_3_apply, val_main_v21_apply,
    val_main_v20_apply, val_main_v17_apply, val_main_v16_apply, val_main_v15_apply, val_main_v19_apply,
    val_main_v18_apply, show idx_main_v15 (idx_main_v16 (ix2 i j)) = ix1 i from ix1_ext rfl,
    show idx_main_v18 (idx_main_v19 (ix2 i j)) = ix1 j from ix1_ext rfl, ref_d x2 A hA i, ref_d x2 A hA j,
    ref_sym x2 A hA, ref_eye14, ref_eye29]
  simp only [Ideal.subf_def, Ideal.mulf_def, Ideal.ofBits_def]
  unfold Cert.Spec.sup
  exact eye_sub _ _

end Cert.RefSpec

end
-- ==== Proof.RefL0.lean ====
import proofs.«107218_g19069654794669_cont_sun_m_30_13_alg».proof.Proof.Spec
import proofs.«107218_g19069654794669_cont_sun_m_30_13_alg».proof.Proof.RefRead
import proofs.«107218_g19069654794669_cont_sun_m_30_13_alg».proof.Proof.RefSup
import Idealize.ShloMosaic.Lib.ValueIdx
import Idealize.ShloMosaic.Lib.Pipeline.Value
import Idealize.ShloMosaic.PureOps.Ideal.Laws
import Mathlib.Logic.Equiv.Fin.Basic

noncomputable section

open scoped BigOperators

namespace Cert.RefSpec.L0

open Cert.ReferenceIdeal Cert.ReferenceIdeal.Read Cert.ReferenceIdeal.Gen Idealize.ShloMosaic Idealize.ShloMosaic.ValueIdx

theorem logistic_spelt (x : EReal) :
    Ideal.div (Ideal.ofBits .f32 0x3F800000#32) (Ideal.ofBits .f32 0x3F800000#32 + Ideal.exp (-x)) = Ideal.logistic x := by
  rw [one_word]; rfl

-- rows f * 3 + k are the pairs (f, k)
theorem sum_fin_mul3 {M : Type*} [AddCommMonoid M] (Fe : ℕ) (g : Fin (Fe * 3) → M) :
    ∑ j, g j = ∑ f : Fin Fe, ∑ k : Fin 3, g ⟨f.val * 3 + k.val, by have := f.isLt; have := k.isLt; omega⟩ := by
  rw [← Equiv.sum_comp (finProdFinEquiv (m := Fe) (n := 3)) g, Fintype.sum_prod_type]
  refine Finset.sum_congr rfl fun f _ => Finset.sum_congr rfl fun k _ => ?_
  refine congrArg g (Fin.ext ?_)
  show k.val + 3 * f.val = f.val * 3 + k.val
  omega

theorem cat_feat {α : Type} (y1 : (⟨3, ![64, 512, 1]⟩ : Shape).Idx → α) (y2 : (⟨3, ![64, 512, 64]⟩ : Shape).Idx → α)
    (h : Shape.Concatenates [(⟨3, ![64, 512, 1]⟩ : Shape), ⟨3, ![64, 512, 64]⟩] ⟨3, ![64, 512, 65]⟩ 2)
    (b : Fin 64) (n : Fin 512) (f : Fin 65) :
    concatenate (⟨3, ![64, 512, 65]⟩ : Shape) 2 [⟨⟨3, ![64, 512, 1]⟩, y1⟩, ⟨⟨3, ![64, 512, 64]⟩, y2⟩] h (ix3 b n f)
      = (Fin.cases (y1 (ix3 b n 0)) (fun u => y2 (ix3 b n u)) f : α) := by
  refine Fin.cases ?_ (fun u => ?_) f
  · rw [Fin.cases_zero]
    exact concatenate_pair_apply_left 2 y1 y2 h (ix3 b n 0) rfl (ix3 b n 0) (fun a => by
      match a with
      | ⟨0, _⟩ => rfl
      | ⟨1, _⟩ => rfl
      | ⟨2, _⟩ => rfl)
  · rw [Fin.cases_succ]
    exact concatenate_pair_apply_right 2 y1 y2 h (ix3 b n u.succ) rfl rfl (ix3 b n u) (fun a ha => by
      match a, ha with
      | ⟨0, _⟩, _ => rfl
      | ⟨1, _⟩, _ => rfl
      | ⟨2, _⟩, ha => exact absurd rfl ha)
      (by show u.val + 1 = (Fin.succ u).val; rw [Fin.val_succ])

def pick3 {β : Type} (a b c : β) : Fin 3 → β
  | ⟨0, _⟩ => a
  | ⟨1, _⟩ => b
  | ⟨2, _⟩ => c

-- three arrays stacked on a new leading axis: the leading coordinate chooses the array
theorem cat_cheb {α : Type} {C : ℕ} (y0 y1 y2 : (⟨3, ![1, 512, C]⟩ : Shape).Idx → α)
    (h : Shape.Concatenates [(⟨3, ![1, 512, C]⟩ : Shape), ⟨3, ![1, 512, C]⟩, ⟨3, ![1, 512, C]⟩] ⟨3, ![3, 512, C]⟩ 0)
    (k : Fin 3) (n : Fin 512) (c : Fin C) :
    concatenate (⟨3, ![3, 512, C]⟩ : Shape) 0
        [⟨⟨3, ![1, 512, C]⟩, y0⟩, ⟨⟨3, ![1, 512, C]⟩, y1⟩, ⟨⟨3, ![1, 512, C]⟩, y2⟩] h (ix3 k n c)
      = pick3 (y0 (ix3 0 n c)) (y1 (ix3 0 n c)) (y2 (ix3 0 n c)) k := by
  have H : ∀ (k : Fin 3) (a : Fin 3), a ≠ 0 → (ix3 (0 : Fin 1) n c a).val = (ix3 k n c a).val := fun k a ha => by
    match a, ha with
    | ⟨0, _⟩, ha => exact absurd rfl ha
    | ⟨1, _⟩, _ => rfl
    | ⟨2, _⟩, _ => rfl
  match k with
  | ⟨0, hk⟩ => exact concatenate_apply_piece (t := ⟨3, ![3, 512, C]⟩) 0 [⟨_, y0⟩, ⟨_, y1⟩, ⟨_, y2⟩] h _ 0 hk _ y0 rfl rfl 0 rfl (ix3 0 n c) (H _) rfl
  | ⟨1, hk⟩ => exact concatenate_apply_piece (t := ⟨3, ![3, 512, C]⟩) 0 [⟨_, y0⟩, ⟨_, y1⟩, ⟨_, y2⟩] h _ 1 hk _ y1 rfl rfl 1 rfl (ix3 0 n c) (H _) rfl
  | ⟨2, hk⟩ => exact concatenate_apply_piece (t := ⟨3, ![3, 512, C]⟩) 0 [⟨_, y0⟩, ⟨_, y1⟩, ⟨_, y2⟩] h _ 2 hk _ y2 rfl rfl 2 rfl (ix3 0 n c) (H _) rfl

theorem feat0_apply (A : Cert.Spec.Args) (h : Fin 512 → Fin 64 → EReal) (b : Fin 64) (f : Fin 65) (n : Fin 512) :
    Cert.Spec.feat0 A h b f n = (Fin.cases (A.inp b n) (fun u => h n u) f : EReal) := by
  unfold Cert.Spec.feat0
  refine Fin.cases ?_ (fun u => ?_) f
  · simp only [Fin.cases_zero]
  · simp only [Fin.cases_succ]

theorem cases_congr {β : Type} (a a' : β) (g g' : Fin 64 → β) (ha : a = a') (hg : ∀ u, g u = g' u) (f : Fin 65) :
    (Fin.cases a g f : β) = Fin.cases a' g' f := by
  subst ha; rw [show g = g' from funext hg]

abbrev fb (f : Fin 65) (b : Fin 64) : Fin 4160 := ⟨f.val * 64 + b.val, by omega⟩
abbrev bn (b : Fin 64) (n : Fin 512) : Fin 32768 := ⟨b.val * 512 + n.val, by omega⟩
abbrev fk (f : Fin 65) (k : Fin 3) : Fin 195 := ⟨f.val * 3 + k.val, by omega⟩
abbrev nu (n : Fin 512) (u : Fin 64) : Fin 32768 := ⟨n.val * 64 + u.val, by omega⟩
abbrev ng (n : Fin 512) (o : Fin 128) : Fin 65536 := ⟨n.val * 128 + o.val, by omega⟩

variable {x0 : (⟨S64x512, .f32⟩ : BufTy).Contents (Elt Ideal)} {x1 : (⟨S2x64x32768, .f32⟩ : BufTy).Contents (Elt Ideal)}
  {x2 : (⟨S512x512, .f32⟩ : BufTy).Contents (Elt Ideal)} {x3 : (⟨S195x128, .f32⟩ : BufTy).Contents (Elt Ideal)}
  {x4 : (⟨S128, .f32⟩ : BufTy).Contents (Elt Ideal)} {x5 : (⟨S195x64, .f32⟩ : BufTy).Contents (Elt Ideal)}
  {x6 : (⟨S64, .f32⟩ : BufTy).Contents (Elt Ideal)} {x7 : (⟨S384x128, .f32⟩ : BufTy).Contents (Elt Ideal)}
  {x8 : (⟨S128, .f32⟩ : BufTy).Contents (Elt Ideal)} {x9 : (⟨S384x64, .f32⟩ : BufTy).Contents (Elt Ideal)}
  {x10 : (⟨S64, .f32⟩ : BufTy).Contents (Elt Ideal)} {x11 : (⟨S64x1, .f32⟩ : BufTy).Contents (Elt Ideal)}
  {x12 : (⟨S1, .f32⟩ : BufTy).Contents (Elt Ideal)}

theorem v32_read (b : Fin 64) (m : Fin 32768) :
    val_main_v32 (F := Ideal) x1 (ix2 b m) = x1 (ix3 0 b m) := by
  rw [val_main_v32_apply, val_main_v31_apply]
  exact congrArg x1 (ix3_ext rfl (by show (b.val * 32768 + m.val) / 32768 % 64 = b.val; omega)
    (by show (b.val * 32768 + m.val) % 32768 = m.val; omega))

-- the feature arrays of a convolution: the scalar input, then the 64 units of a state array Z
theorem feat_read {Y1 : S64x512x1.Idx → EReal} {Y2 : S64x512x64.Idx → EReal} {Z : S64x32768.Idx → EReal}
    (h1 : ∀ i, Y1 i = x0 (idx_main_v33 i)) (h2 : ∀ i, Y2 i = Z (idx_main_v34 i)) (b : Fin 64) (n : Fin 512) (f : Fin 65) :
    concatenate S64x512x65 2 [⟨S64x512x1, Y1⟩, ⟨S64x512x64, Y2⟩] concatenates_S64x512x1_S64x512x64_S64x512x65_d2 (ix3 b n f)
      = (Fin.cases (x0 (ix2 b n)) (fun u => Z (ix2 b (nu n u))) f : EReal) := by
  refine (cat_feat _ _ _ b n f).trans (cases_congr _ _ _ _ ?_ (fun u => ?_) f)
  · rw [h1]
    exact congrArg x0 (ix2_ext (by show ((b.val * 512 + n.val) * 1 + 0) / 512 = b.val; omega)
      (by show ((b.val * 512 + n.val) * 1 + 0) % 512 = n.val; omega))
  · rw [h2]
    exact congrArg Z (ix2_ext (by show ((b.val * 512 + n.val) * 64 + u.val) / 32768 = b.val; omega)
      (by show ((b.val * 512 + n.val) * 64 + u.val) % 32768 = n.val * 64 + u.val; omega))

-- one convolution, read off the equations of its stages: the chain at row b * 512 + n is the specification's convolution
theorem chain {O : ℕ} {S : Fin 512 → Fin 512 → EReal} {X : Fin 64 → Fin 65 → Fin 512 → EReal}
    {Y : S64x512x65.Idx → EReal} {V37 V38 V39 V42 : S512x4160.Idx → EReal} {V43 V44 V45 : S1x512x4160.Idx → EReal}
    {V46 : S3x512x4160.Idx → EReal} {V49 : S32768x195.Idx → EReal} {V53 : (⟨2, ![32768, O]⟩ : Shape).Idx → EReal}
    {W : (⟨2, ![195, O]⟩ : Shape).Idx → EReal} {B : (⟨1, ![O]⟩ : Shape).Idx → EReal}
    (hS : ∀ i j : Fin 512, val_main_v30 (F := Ideal) x2 (ix2 i j) = S i j)
    (hY : ∀ (b : Fin 64) (n : Fin 512) (f : Fin 65), Y (ix3 b n f) = X b f n)
    (h37 : ∀ i, V37 i = Y (idx_main_v36 (idx_main_v37 i)))
    (h38 : ∀ i, V38 i = ∑ k : Fin 512, val_main_v30 (F := Ideal) x2 (lidx_main_v38 i k) * V37 (ridx_main_v38 i k))
    (h39 : ∀ i, V39 i = ∑ k : Fin 512, val_main_v30 (F := Ideal) x2 (lidx_main_v38 i k) * V38 (ridx_main_v38 i k))
    (h42 : ∀ i, V42 i = Cert.Spec.w2 * V39 i - V37 i)
    (h43 : ∀ i, V43 i = V37 (idx_main_v43 i)) (h44 : ∀ i, V44 i = V38 (idx_main_v43 i)) (h45 : ∀ i, V45 i = V42 (idx_main_v43 i))
    (h46 : V46 = concatenate S3x512x4160 0 [⟨S1x512x4160, V43⟩, ⟨S1x512x4160, V44⟩, ⟨S1x512x4160, V45⟩]
      concatenates_S1x512x4160_S1x512x4160_S1x512x4160_S3x512x4160_d0)
    (h49 : ∀ i, V49 i = V46 (idx_main_v47 (idx_main_v48 (idx_main_v49 i))))
    (h53 : ∀ (r : Fin 32768) (o : Fin O), V53 (ix2 r o) = (∑ j : Fin 195, V49 (ix2 r j) * W (ix2 j o)) + B (ix1 o))
    (b : Fin 64) (n : Fin 512) (o : Fin O) :
    V53 (ix2 (bn b n) o) = Cert.Spec.gconv S (fun f k o => W (ix2 (fk f k) o)) (fun o => B (ix1 o)) (X b) n o := by
  have e43 : ∀ (n : Fin 512) (c : Fin 4160), idx_main_v43 (ix3 0 n c) = ix2 n c := fun n c => ix2_ext rfl rfl
  have el : ∀ (n : Fin 512) (c : Fin 4160) (i : Fin 512), lidx_main_v38 (ix2 n c) i = ix2 n i := fun n c i => ix2_ext rfl rfl
  have er : ∀ (n : Fin 512) (c : Fin 4160) (i : Fin 512), ridx_main_v38 (ix2 n c) i = ix2 i c := fun n c i => ix2_ext rfl rfl
  have t0 : ∀ (b : Fin 64) (n : Fin 512) (f : Fin 65), V37 (ix2 n (fb f b)) = X b f n := fun b n f => by
    rw [h37, ← hY]
    exact congrArg Y (ix3_ext (by show (n.val * 4160 + (f.val * 64 + b.val)) % 64 = b.val; omega)
      (by show (n.val * 4160 + (f.val * 64 + b.val)) / 4160 = n.val; omega)
      (by show (n.val * 4160 + (f.val * 64 + b.val)) / 64 % 65 = f.val; omega))
  have t1 : ∀ (b : Fin 64) (n : Fin 512) (f : Fin 65), V38 (ix2 n (fb f b)) = Cert.Spec.diffuse S (X b f) n := fun b n f => by
    rw [h38]
    exact Finset.sum_congr rfl fun i _ => by rw [el, er, hS, t0]
  have t2 : ∀ (b : Fin 64) (n : Fin 512) (f : Fin 65),
      V42 (ix2 n (fb f b)) = Cert.Spec.w2 * Cert.Spec.diffuse S (Cert.Spec.diffuse S (X b f)) n - X b f n := fun b n f => by
    rw [h42, t0, h39]
    exact congrArg (Cert.Spec.w2 * · - X b f n) (Finset.sum_congr rfl fun i _ => by rw [el, er, hS, t1])
  have tc : ∀ (b : Fin 64) (n : Fin 512) (f : Fin 65) (k : Fin 3),
      V46 (ix3 k n (fb f b)) = Cert.Spec.cheb S (X b f) k n := fun b n f k => by
    rw [h46]
    refine (cat_cheb _ _ _ _ k n (fb f b)).trans ?_
    match k with
    | ⟨0, _⟩ => exact (h43 _).trans ((congrArg V37 (e43 n _)).trans (t0 b n f))
    | ⟨1, _⟩ => exact (h44 _).trans ((congrArg V38 (e43 n _)).trans (t1 b n f))
    | ⟨2, _⟩ => exact (h45 _).trans ((congrArg V42 (e43 n _)).trans (t2 b n f))
  have t3 : ∀ (b : Fin 64) (n : Fin 512) (f : Fin 65) (k : Fin 3),
      V49 (ix2 (bn b n) (fk f k)) = Cert.Spec.cheb S (X b f) k n := fun b n f k => by
    have e49 : idx_main_v49 (ix2 (bn b n) (fk f k)) = ix4 b n f k :=
      ix4_ext (by show ((b.val * 512 + n.val) * 195 + (f.val * 3 + k.val)) / 99840 = b.val; omega)
        (by show ((b.val * 512 + n.val) * 195 + (f.val * 3 + k.val)) / 195 % 512 = n.val; omega)
        (by show ((b.val * 512 + n.val) * 195 + (f.val * 3 + k.val)) / 3 % 65 = f.val; omega)
        (by show ((b.val * 512 + n.val) * 195 + (f.val * 3 + k.val)) % 3 = k.val; omega)
    have e48 : idx_main_v48 (ix4 b n f k) = ix4 k n f b := ix4_ext rfl rfl rfl rfl
    have e47 : idx_main_v47 (ix4 k n f b) = ix3 k n (fb f b) :=
      ix3_ext (by show (((k.val * 512 + n.val) * 65 + f.val) * 64 + b.val) / 2129920 = k.val; omega)
        (by show (((k.val * 512 + n.val) * 65 + f.val) * 64 + b.val) / 4160 % 512 = n.val; omega)
        (by show (((k.val * 512 + n.val) * 65 + f.val) * 64 + b.val) % 4160 = f.val * 64 + b.val; omega)
    rw [h49, e49, e48, e47, tc]
  rw [h53, sum_fin_mul3 65]
  exact congrArg (· + B (ix1 o)) (Finset.sum_congr rfl fun f _ => Finset.sum_congr rfl fun k _ => by rw [t3])

theorem v53_read {S : Fin 512 → Fin 512 → EReal} {X : Fin 64 → Fin 65 → Fin 512 → EReal}
    (hS : ∀ i j : Fin 512, val_main_v30 (F := Ideal) x2 (ix2 i j) = S i j)
    (hY : ∀ (b : Fin 64) (n : Fin 512) (f : Fin 65), val_main_v35 (F := Ideal) x0 x1 (ix3 b n f) = X b f n)
    (b : Fin 64) (n : Fin 512) (o : Fin 128) :
    val_main_v53 (F := Ideal) x0 x1 x2 x3 x4 (ix2 (bn b n) o)
      = Cert.Spec.gconv S (fun f k o => x3 (ix2 (fk f k) o)) (fun o => x4 (ix1 o)) (X b) n o :=
  chain (V46 := val_main_v46 (F := Ideal) x0 x1 x2) (V49 := val_main_v49 (F := Ideal) x0 x1 x2) hS hY
    (fun i => by rw [val_main_v37_apply, val_main_v36_apply]) (val_main_v38_apply x0 x1 x2) (val_main_v39_apply x0 x1 x2)
    (fun i => by rw [val_main_v42_apply, val_main_v41_apply, val_main_v40_apply, val_main_cst_5_apply]; rfl)
    (val_main_v43_apply x0 x1) (val_main_v44_apply x0 x1 x2) (val_main_v45_apply x0 x1 x2) rfl
    (fun i => by rw [val_main_v49_apply, val_main_v48_apply, val_main_v47_apply])
    (fun r o => by
      rw [val_main_v53_apply, val_main_v50_apply, val_main_v52_apply, val_main_v51_apply, Ideal.addf_def]
      exact congrArg₂ (fun s t : EReal => s + t) (Finset.sum_congr rfl fun j _ => by
        rw [show lidx_main_v50 (ix2 r o) j = ix2 r j from ix2_ext rfl rfl,
          show ridx_main_v50 (ix2 r o) j = ix2 j o from ix2_ext rfl rfl]) (congrArg x4 (ix1_ext rfl))) b n o

theorem v87_read {S : Fin 512 → Fin 512 → EReal} {X : Fin 64 → Fin 65 → Fin 512 → EReal}
    (hS : ∀ i j : Fin 512, val_main_v30 (F := Ideal) x2 (ix2 i j) = S i j)
    (hY : ∀ (b : Fin 64) (n : Fin 512) (f : Fin 65), val_main_v69 (F := Ideal) x0 x1 x2 x3 x4 (ix3 b n f) = X b f n)
    (b : Fin 64) (n : Fin 512) (o : Fin 64) :
    val_main_v87 (F := Ideal) x0 x1 x2 x3 x4 x5 x6 (ix2 (bn b n) o)
      = Cert.Spec.gconv S (fun f k o => x5 (ix2 (fk f k) o)) (fun o => x6 (ix1 o)) (X b) n o :=
  chain (V46 := val_main_v80 (F := Ideal) x0 x1 x2 x3 x4) (V49 := val_main_v83 (F := Ideal) x0 x1 x2 x3 x4) hS hY
    (fun i => by rw [val_main_v71_apply, val_main_v70_apply]) (val_main_v72_apply x0 x1 x2 x3 x4) (val_main_v73_apply x0 x1 x2 x3 x4)
    (fun i => by rw [val_main_v76_apply, val_main_v75_apply, val_main_v74_apply, val_main_cst_8_apply]; rfl)
    (val_main_v77_apply x0 x1 x2 x3 x4) (val_main_v78_apply x0 x1 x2 x3 x4) (val_main_v79_apply x0 x1 x2 x3 x4) rfl
    (fun i => by rw [val_main_v83_apply, val_main_v82_apply, val_main_v81_apply])
    (fun r o => by
      rw [val_main_v87_apply, val_main_v84_apply, val_main_v86_apply, val_main_v85_apply, Ideal.addf_def]
      exact congrArg₂ (fun s t : EReal => s + t) (Finset.sum_congr rfl fun j _ => by
        rw [show lidx_main_v84 (ix2 r o) j = ix2 r j from ix2_ext rfl rfl,
          show ridx_main_v84 (ix2 r o) j = ix2 j o from ix2_ext rfl rfl]) (congrArg x6 (ix1_ext rfl))) b n o

theorem e63 (b : Fin 64) (n : Fin 512) (u : Fin 64) : idx_main_v63 (ix2 b (nu n u)) = ix3 b n u :=
  ix3_ext (by show (b.val * 32768 + (n.val * 64 + u.val)) / 32768 = b.val; omega)
    (by show (b.val * 32768 + (n.val * 64 + u.val)) / 64 % 512 = n.val; omega)
    (by show (b.val * 32768 + (n.val * 64 + u.val)) % 64 = u.val; omega)

section Gates

variable {G : Fin 64 → Fin 512 → Fin 128 → EReal}
  (hG : ∀ (b : Fin 64) (n : Fin 512) (o : Fin 128), val_main_v53 (F := Ideal) x0 x1 x2 x3 x4 (ix2 (bn b n) o) = G b n o)
include hG

theorem v61_read (b : Fin 64) (n : Fin 512) (o : Fin 128) :
    val_main_v61 (F := Ideal) x0 x1 x2 x3 x4 (ix3 b n o) = Ideal.logistic (G b n o) := by
  have e61 : idx_main_v61 (ix3 b n o) = ix2 b (ng n o) :=
    ix2_ext (by show ((b.val * 512 + n.val) * 128 + o.val) / 65536 = b.val; omega)
      (by show ((b.val * 512 + n.val) * 128 + o.val) % 65536 = n.val * 128 + o.val; omega)
  have e54 : idx_main_v54 (ix2 b (ng n o)) = ix2 (bn b n) o :=
    ix2_ext (by show (b.val * 65536 + (n.val * 128 + o.val)) / 128 = b.val * 512 + n.val; omega)
      (by show (b.val * 65536 + (n.val * 128 + o.val)) % 128 = o.val; omega)
  rw [val_main_v61_apply, e61, val_main_v60_apply, val_main_v59_apply, val_main_cst_7_apply, val_main_v58_apply,
    val_main_v57_apply, val_main_cst_6_apply, val_main_v56_apply, val_main_v55_apply, val_main_v54_apply, e54, hG]
  exact logistic_spelt (G b n o)

theorem v63_read (b : Fin 64) (n : Fin 512) (u : Fin 64) :
    val_main_v63 (F := Ideal) x0 x1 x2 x3 x4 (ix2 b (nu n u)) = Ideal.logistic (G b n (Cert.Spec.lo u)) := by
  rw [val_main_v63_apply, e63, val_main_v62_apply, show idx_main_v62 (ix3 b n u) = ix3 b n (Cert.Spec.lo u) from ix3_ext rfl rfl rfl,
    v61_read hG]

theorem v65_read (b : Fin 64) (n : Fin 512) (u : Fin 64) :
    val_main_v65 (F := Ideal) x0 x1 x2 x3 x4 (ix2 b (nu n u)) = Ideal.logistic (G b n (Cert.Spec.hi u)) := by
  rw [val_main_v65_apply, show idx_main_v65 (ix2 b (nu n u)) = ix3 b n u from e63 b n u, val_main_v64_apply,
    show idx_main_v64 (ix3 b n u) = ix3 b n (Cert.Spec.hi u) from ix3_ext rfl rfl rfl, v61_read hG]

theorem v66_read (b : Fin 64) (n : Fin 512) (u : Fin 64) :
    val_main_v66 (F := Ideal) x0 x1 x2 x3 x4 (ix2 b (nu n u))
      = Ideal.logistic (G b n (Cert.Spec.lo u)) * x1 (ix3 0 b (nu n u)) := by
  rw [val_main_v66_apply, v63_read hG, v32_read]
  rfl

theorem v94_read {C : Fin 64 → Fin 512 → Fin 64 → EReal}
    (hC : ∀ (b : Fin 64) (n : Fin 512) (u : Fin 64),
      val_main_v87 (F := Ideal) x0 x1 x2 x3 x4 x5 x6 (ix2 (bn b n) u) = C b n u)
    (b : Fin 64) (n : Fin 512) (u : Fin 64) :
    val_main_v94 (F := Ideal) x0 x1 x2 x3 x4 x5 x6 (ix2 b (nu n u))
      = Ideal.logistic (G b n (Cert.Spec.hi u)) * x1 (ix3 0 b (nu n u))
        + (Cert.Spec.w1 - Ideal.logistic (G b n (Cert.Spec.hi u))) * Ideal.tanh (C b n u) := by
  have e88 : idx_main_v88 (ix2 b (nu n u)) = ix2 (bn b n) u :=
    ix2_ext (by show (b.val * 32768 + (n.val * 64 + u.val)) / 64 = b.val * 512 + n.val; omega)
      (by show (b.val * 32768 + (n.val * 64 + u.val)) % 64 = u.val; omega)
  rw [val_main_v94_apply, val_main_v93_apply, val_main_v92_apply, val_main_v91_apply, val_main_cst_9_apply,
    val_main_v90_apply, val_main_v89_apply, val_main_v88_apply, e88, hC, v65_read hG, v32_read]
  rfl

end Gates

variable (x0 x1 x2 x3 x4 x5 x6 x7 x8 x9 x10 x11 x12) in
theorem _root_.Cert.RefSpec.ref_h0
    (hsup : ∀ i j : Fin 512, val_main_v30 (F := Ideal) x2 (ix2 i j) = Cert.Spec.sup (Cert.Spec.argsOf x0 x1 x2 x3 x4 x5 x6 x7 x8 x9 x10 x11 x12) i j)
    (b : Fin 64) (n : Fin 512) (u : Fin 64) :
    val_main_v94 (F := Ideal) x0 x1 x2 x3 x4 x5 x6 (ix2 b ⟨n.val * 64 + u.val, by omega⟩)
      = Cert.Spec.h0 (Cert.Spec.argsOf x0 x1 x2 x3 x4 x5 x6 x7 x8 x9 x10 x11 x12) b n u := by
  generalize hA : Cert.Spec.argsOf x0 x1 x2 x3 x4 x5 x6 x7 x8 x9 x10 x11 x12 = A at hsup ⊢
  have inp_eq : ∀ (b : Fin 64) (n : Fin 512), x0 (ix2 b n) = A.inp b n := fun b n => by rw [← hA]; rfl
  have hid_eq : ∀ (b : Fin 64) (n : Fin 512) (u : Fin 64), x1 (ix3 0 b (nu n u)) = A.hid 0 b n u :=
    fun b n u => by rw [← hA]; rfl
  have wru_eq : (fun (f : Fin 65) (k : Fin 3) (o : Fin 128) => x3 (ix2 (fk f k) o)) = A.wru0 := by rw [← hA]; rfl
  have bru_eq : (fun o : Fin 128 => x4 (ix1 o)) = A.bru0 := by rw [← hA]; rfl
  have wc_eq : (fun (f : Fin 65) (k : Fin 3) (o : Fin 64) => x5 (ix2 (fk f k) o)) = A.wc0 := by rw [← hA]; rfl
  have bc_eq : (fun o : Fin 64 => x6 (ix1 o)) = A.bc0 := by rw [← hA]; rfl
  have hY1 : ∀ (b : Fin 64) (n : Fin 512) (f : Fin 65),
      val_main_v35 (F := Ideal) x0 x1 (ix3 b n f) = Cert.Spec.feat0 A (A.hid 0 b) b f n := fun b n f => by
    rw [feat0_apply]
    exact (feat_read (val_main_v33_apply x0) (val_main_v34_apply x1) b n f).trans
      (cases_congr _ _ _ _ (inp_eq b n) (fun u => (v32_read b _).trans (hid_eq b n u)) f)
  have hG : ∀ (b : Fin 64) (n : Fin 512) (o : Fin 128),
      val_main_v53 (F := Ideal) x0 x1 x2 x3 x4 (ix2 (bn b n) o)
        = Cert.Spec.gate (Cert.Spec.sup A) A.wru0 A.bru0 (fun h => Cert.Spec.feat0 A h b) (A.hid 0 b) n o := fun b n o => by
    rw [v53_read hsup hY1, wru_eq, bru_eq]
    rfl
  have hY2 : ∀ (b : Fin 64) (n : Fin 512) (f : Fin 65),
      val_main_v69 (F := Ideal) x0 x1 x2 x3 x4 (ix3 b n f)
        = Cert.Spec.feat0 A (fun n u => Cert.Spec.rgate (Cert.Spec.sup A) A.wru0 A.bru0
            (fun h => Cert.Spec.feat0 A h b) (A.hid 0 b) n u * A.hid 0 b n u) b f n := fun b n f => by
    rw [feat0_apply]
    refine (feat_read (val_main_v67_apply x0) (val_main_v68_apply x0 x1 x2 x3 x4) b n f).trans
      (cases_congr _ _ _ _ (inp_eq b n) (fun u => ?_) f)
    rw [v66_read hG, hid_eq]
    rfl
  have hC : ∀ (b : Fin 64) (n : Fin 512) (u : Fin 64),
      val_main_v87 (F := Ideal) x0 x1 x2 x3 x4 x5 x6 (ix2 (bn b n) u)
        = Cert.Spec.gconv (Cert.Spec.sup A) A.wc0 A.bc0
            (Cert.Spec.feat0 A (fun n u => Cert.Spec.rgate (Cert.Spec.sup A) A.wru0 A.bru0
              (fun h => Cert.Spec.feat0 A h b) (A.hid 0 b) n u * A.hid 0 b n u) b) n u := fun b n u => by
    rw [v87_read hsup hY2, wc_eq, bc_eq]
  show val_main_v94 (F := Ideal) x0 x1 x2 x3 x4 x5 x6 (ix2 b (nu n u)) = _
  rw [v94_read hG hC, hid_eq]
  rfl

end Cert.RefSpec.L0

end
-- ==== Proof.RefL1.lean ====
import proofs.«107218_g19069654794669_cont_sun_m_30_13_alg».proof.Proof.Spec
import proofs.«107218_g19069654794669_cont_sun_m_30_13_alg».proof.Proof.RefRead
import proofs.«107218_g19069654794669_cont_sun_m_30_13_alg».proof.Proof.RefL0
import Idealize.ShloMosaic.Lib.Pipeline.Value
import Idealize.ShloMosaic.Lib.ValueIdx
import Idealize.ShloMosaic.PureOps.Ideal.Laws

noncomputable section

open scoped BigOperators

namespace Cert.RefSpec

open Cert.ReferenceIdeal Cert.ReferenceIdeal.Read Cert.ReferenceIdeal.Gen Idealize.ShloMosaic Idealize.ShloMosaic.ValueIdx

namespace L1

theorem feat1_of_halves (g h : Fin 512 → Fin 64 → EReal) (C : Fin 128 → Fin 512 → EReal)
    (hl : ∀ (f : Fin 128) (u : Fin 64), f.val = u.val → ∀ n, C f n = g n u)
    (hr : ∀ (f : Fin 128) (u : Fin 64), f.val = 64 + u.val → ∀ n, C f n = h n u) :
    C = Spec.feat1 g h := by
  funext f n
  unfold Spec.feat1
  by_cases hf : f.val < 64
  · obtain ⟨u, rfl⟩ : ∃ u : Fin 64, f = Fin.castAdd 64 u := ⟨⟨f.val, hf⟩, Fin.ext rfl⟩
    rw [Fin.addCases_left]
    exact hl _ u rfl n
  · obtain ⟨u, rfl⟩ : ∃ u : Fin 64, f = Fin.natAdd 64 u :=
      ⟨⟨f.val - 64, by omega⟩, Fin.ext (by show f.val = 64 + (f.val - 64); omega)⟩
    rw [Fin.addCases_right]
    exact hr _ u rfl n

theorem cat2_left (a c : S64x512x64.Idx → EReal) (b : Fin 64) (n : Fin 512) (f : Fin 128) (u : Fin 64) (hf : f.val = u.val) :
    concatenate S64x512x128 2 [⟨S64x512x64, a⟩, ⟨S64x512x64, c⟩] concatenates_S64x512x64_S64x512x64_S64x512x128_d2 (ix3 b n f)
      = a (ix3 b n u) :=
  concatenate_pair_apply_left (t := S64x512x128) (s₁ := S64x512x64) (s₂ := S64x512x64) (2 : Fin 3) a c
    concatenates_S64x512x64_S64x512x64_S64x512x128_d2 (ix3 b n f) rfl (ix3 b n u) (fun d => by
      match d with
      | ⟨0, _⟩ => rfl
      | ⟨1, _⟩ => rfl
      | ⟨2, _⟩ => exact hf.symm)

theorem cat2_right (a c : S64x512x64.Idx → EReal) (b : Fin 64) (n : Fin 512) (f : Fin 128) (u : Fin 64) (hf : f.val = 64 + u.val) :
    concatenate S64x512x128 2 [⟨S64x512x64, a⟩, ⟨S64x512x64, c⟩] concatenates_S64x512x64_S64x512x64_S64x512x128_d2 (ix3 b n f)
      = c (ix3 b n u) :=
  concatenate_pair_apply_right (t := S64x512x128) (s₁ := S64x512x64) (s₂ := S64x512x64) (2 : Fin 3) a c
    concatenates_S64x512x64_S64x512x64_S64x512x128_d2 (ix3 b n f) rfl rfl (ix3 b n u) (fun d hd => by
      match d with
      | ⟨0, _⟩ => rfl
      | ⟨1, _⟩ => rfl
      | ⟨2, _⟩ => exact absurd rfl hd) (by show u.val + 64 = f.val; omega)

abbrev rowBN (b : Fin 64) (n : Fin 512) : Fin 32768 := ⟨b.val * 512 + n.val, by omega⟩

abbrev colNU (n : Fin 512) (u : Fin 64) : Fin 32768 := ⟨n.val * 64 + u.val, by omega⟩

abbrev colNO (n : Fin 512) (o : Fin 128) : Fin 65536 := ⟨n.val * 128 + o.val, by omega⟩

abbrev colFB (f : Fin 128) (b : Fin 64) : Fin 8192 := ⟨f.val * 64 + b.val, by omega⟩

abbrev colFK (f : Fin 128) (k : Fin 3) : Fin 384 := ⟨f.val * 3 + k.val, by omega⟩

abbrev gate1 (A : Spec.Args) (b : Fin 64) : Fin 512 → Fin 128 → EReal :=
  Spec.gate (Spec.sup A) A.wru1 A.bru1 (fun h => Spec.feat1 (Spec.h0 A b) h) (A.hid 1 b)

abbrev rgate1 (A : Spec.Args) (b : Fin 64) : Fin 512 → Fin 64 → EReal :=
  Spec.rgate (Spec.sup A) A.wru1 A.bru1 (fun h => Spec.feat1 (Spec.h0 A b) h) (A.hid 1 b)

abbrev zgate1 (A : Spec.Args) (b : Fin 64) : Fin 512 → Fin 64 → EReal :=
  Spec.zgate (Spec.sup A) A.wru1 A.bru1 (fun h => Spec.feat1 (Spec.h0 A b) h) (A.hid 1 b)

end L1

open L1

open L0 (logistic_spelt sum_fin_mul3 cat_cheb)

section Chain

variable {x2 : (⟨S512x512, .f32⟩ : BufTy).Contents (Elt Ideal)}

-- one convolution over the 128 features, read off the equations of its stages
theorem chain1 {O : ℕ} {S : Fin 512 → Fin 512 → EReal} {X : Fin 64 → Fin 128 → Fin 512 → EReal}
    {Y : S64x512x128.Idx → EReal} {A0 A1 A2 A3 : S512x8192.Idx → EReal} {C0 C1 C2 : S1x512x8192.Idx → EReal}
    {Cc : S3x512x8192.Idx → EReal} {Rw : S32768x384.Idx → EReal} {Rs : (⟨2, ![32768, O]⟩ : Shape).Idx → EReal}
    {W : (⟨2, ![384, O]⟩ : Shape).Idx → EReal} {B : (⟨1, ![O]⟩ : Shape).Idx → EReal}
    (hS : ∀ i j : Fin 512, val_main_v30 (F := Ideal) x2 (ix2 i j) = S i j)
    (hY : ∀ (b : Fin 64) (n : Fin 512) (f : Fin 128), Y (ix3 b n f) = X b f n)
    (h101 : ∀ i, A0 i = Y (idx_main_v100 (idx_main_v101 i)))
    (h102 : ∀ i, A1 i = ∑ k : Fin 512, val_main_v30 (F := Ideal) x2 (lidx_main_v102 i k) * A0 (ridx_main_v102 i k))
    (h103 : ∀ i, A2 i = ∑ k : Fin 512, val_main_v30 (F := Ideal) x2 (lidx_main_v102 i k) * A1 (ridx_main_v102 i k))
    (h106 : ∀ i, A3 i = Cert.Spec.w2 * A2 i - A0 i)
    (h107 : ∀ i, C0 i = A0 (idx_main_v107 i)) (h108 : ∀ i, C1 i = A1 (idx_main_v107 i))
    (h109 : ∀ i, C2 i = A3 (idx_main_v107 i))
    (h110 : Cc = concatenate S3x512x8192 0 [⟨S1x512x8192, C0⟩, ⟨S1x512x8192, C1⟩, ⟨S1x512x8192, C2⟩]
      concatenates_S1x512x8192_S1x512x8192_S1x512x8192_S3x512x8192_d0)
    (h113 : ∀ i, Rw i = Cc (idx_main_v111 (idx_main_v112 (idx_main_v113 i))))
    (h117 : ∀ (r : Fin 32768) (o : Fin O), Rs (ix2 r o) = (∑ j : Fin 384, Rw (ix2 r j) * W (ix2 j o)) + B (ix1 o))
    (b : Fin 64) (n : Fin 512) (o : Fin O) :
    Rs (ix2 (rowBN b n) o) = Cert.Spec.gconv S (fun f k o => W (ix2 (colFK f k) o)) (fun o => B (ix1 o)) (X b) n o := by
  have e107 : ∀ (n : Fin 512) (c : Fin 8192), idx_main_v107 (ix3 0 n c) = ix2 n c := fun n c => ix2_ext rfl rfl
  have el : ∀ (n : Fin 512) (c : Fin 8192) (i : Fin 512), lidx_main_v102 (ix2 n c) i = ix2 n i := fun n c i => ix2_ext rfl rfl
  have er : ∀ (n : Fin 512) (c : Fin 8192) (i : Fin 512), ridx_main_v102 (ix2 n c) i = ix2 i c := fun n c i => ix2_ext rfl rfl
  have t0 : ∀ (b : Fin 64) (n : Fin 512) (f : Fin 128), A0 (ix2 n (colFB f b)) = X b f n := fun b n f => by
    rw [h101, ← hY]
    exact congrArg Y (ix3_ext (by show (n.val * 8192 + (f.val * 64 + b.val)) % 64 = b.val; omega)
      (by show (n.val * 8192 + (f.val * 64 + b.val)) / 8192 = n.val; omega)
      (by show (n.val * 8192 + (f.val * 64 + b.val)) / 64 % 128 = f.val; omega))
  have t1 : ∀ (b : Fin 64) (n : Fin 512) (f : Fin 128), A1 (ix2 n (colFB f b)) = Cert.Spec.diffuse S (X b f) n := fun b n f => by
    rw [h102]
    exact Finset.sum_congr rfl fun i _ => by rw [el, er, hS, t0]
  have t2 : ∀ (b : Fin 64) (n : Fin 512) (f : Fin 128),
      A3 (ix2 n (colFB f b)) = Cert.Spec.w2 * Cert.Spec.diffuse S (Cert.Spec.diffuse S (X b f)) n - X b f n := fun b n f => by
    rw [h106, t0, h103]
    exact congrArg (Cert.Spec.w2 * · - X b f n) (Finset.sum_congr rfl fun i _ => by rw [el, er, hS, t1])
  have tc : ∀ (b : Fin 64) (n : Fin 512) (f : Fin 128) (k : Fin 3),
      Cc (ix3 k n (colFB f b)) = Cert.Spec.cheb S (X b f) k n := fun b n f k => by
    rw [h110]
    refine (cat_cheb _ _ _ _ k n (colFB f b)).trans ?_
    match k with
    | ⟨0, _⟩ => exact (h107 _).trans ((congrArg A0 (e107 n _)).trans (t0 b n f))
    | ⟨1, _⟩ => exact (h108 _).trans ((congrArg A1 (e107 n _)).trans (t1 b n f))
    | ⟨2, _⟩ => exact (h109 _).trans ((congrArg A3 (e107 n _)).trans (t2 b n f))
  have t3 : ∀ (b : Fin 64) (n : Fin 512) (f : Fin 128) (k : Fin 3),
      Rw (ix2 (rowBN b n) (colFK f k)) = Cert.Spec.cheb S (X b f) k n := fun b n f k => by
    have e113 : idx_main_v113 (ix2 (rowBN b n) (colFK f k)) = ix4 b n f k :=
      ix4_ext (by show ((b.val * 512 + n.val) * 384 + (f.val * 3 + k.val)) / 196608 = b.val; omega)
        (by show ((b.val * 512 + n.val) * 384 + (f.val * 3 + k.val)) / 384 % 512 = n.val; omega)
        (by show ((b.val * 512 + n.val) * 384 + (f.val * 3 + k.val)) / 3 % 128 = f.val; omega)
        (by show ((b.val * 512 + n.val) * 384 + (f.val * 3 + k.val)) % 3 = k.val; omega)
    have e112 : idx_main_v112 (ix4 b n f k) = ix4 k n f b := ix4_ext rfl rfl rfl rfl
    have e111 : idx_main_v111 (ix4 k n f b) = ix3 k n (colFB f b) :=
      ix3_ext (by show (((k.val * 512 + n.val) * 128 + f.val) * 64 + b.val) / 4194304 = k.val; omega)
        (by show (((k.val * 512 + n.val) * 128 + f.val) * 64 + b.val) / 8192 % 512 = n.val; omega)
        (by show (((k.val * 512 + n.val) * 128 + f.val) * 64 + b.val) % 8192 = f.val * 64 + b.val; omega)
    rw [h113, e113, e112, e111, tc]
  rw [h117, sum_fin_mul3 128]
  exact congrArg (· + B (ix1 o)) (Finset.sum_congr rfl fun f _ => Finset.sum_congr rfl fun k _ => by rw [t3])

end Chain

section Reading

variable {x0 : (⟨S64x512, .f32⟩ : BufTy).Contents (Elt Ideal)} {x1 : (⟨S2x64x32768, .f32⟩ : BufTy).Contents (Elt Ideal)}
  {x2 : (⟨S512x512, .f32⟩ : BufTy).Contents (Elt Ideal)} {x3 : (⟨S195x128, .f32⟩ : BufTy).Contents (Elt Ideal)}
  {x4 : (⟨S128, .f32⟩ : BufTy).Contents (Elt Ideal)} {x5 : (⟨S195x64, .f32⟩ : BufTy).Contents (Elt Ideal)}
  {x6 : (⟨S64, .f32⟩ : BufTy).Contents (Elt Ideal)} {x7 : (⟨S384x128, .f32⟩ : BufTy).Contents (Elt Ideal)}
  {x8 : (⟨S128, .f32⟩ : BufTy).Contents (Elt Ideal)} {x9 : (⟨S384x64, .f32⟩ : BufTy).Contents (Elt Ideal)}
  {x10 : (⟨S64, .f32⟩ : BufTy).Contents (Elt Ideal)} {x11 : (⟨S64x1, .f32⟩ : BufTy).Contents (Elt Ideal)}
  {x12 : (⟨S1, .f32⟩ : BufTy).Contents (Elt Ideal)}

local notation "𝔸" => Cert.Spec.argsOf x0 x1 x2 x3 x4 x5 x6 x7 x8 x9 x10 x11 x12
local notation "V94" => val_main_v94 (F := Ideal) x0 x1 x2 x3 x4 x5 x6
local notation "V96" => val_main_v96 (F := Ideal) x1
local notation "V97" => val_main_v97 (F := Ideal) x0 x1 x2 x3 x4 x5 x6
local notation "V98" => val_main_v98 (F := Ideal) x1
local notation "V99" => val_main_v99 (F := Ideal) x0 x1 x2 x3 x4 x5 x6
local notation "V110" => val_main_v110 (F := Ideal) x0 x1 x2 x3 x4 x5 x6
local notation "V113" => val_main_v113 (F := Ideal) x0 x1 x2 x3 x4 x5 x6
local notation "V117" => val_main_v117 (F := Ideal) x0 x1 x2 x3 x4 x5 x6 x7 x8
local notation "V118" => val_main_v118 (F := Ideal) x0 x1 x2 x3 x4 x5 x6 x7 x8
local notation "V124" => val_main_v124 (F := Ideal) x0 x1 x2 x3 x4 x5 x6 x7 x8
local notation "V125" => val_main_v125 (F := Ideal) x0 x1 x2 x3 x4 x5 x6 x7 x8
local notation "V127" => val_main_v127 (F := Ideal) x0 x1 x2 x3 x4 x5 x6 x7 x8
local notation "V129" => val_main_v129 (F := Ideal) x0 x1 x2 x3 x4 x5 x6 x7 x8
local notation "V130" => val_main_v130 (F := Ideal) x0 x1 x2 x3 x4 x5 x6 x7 x8
local notation "V131" => val_main_v131 (F := Ideal) x0 x1 x2 x3 x4 x5 x6
local notation "V132" => val_main_v132 (F := Ideal) x0 x1 x2 x3 x4 x5 x6 x7 x8
local notation "V133" => val_main_v133 (F := Ideal) x0 x1 x2 x3 x4 x5 x6 x7 x8
local notation "V144" => val_main_v144 (F := Ideal) x0 x1 x2 x3 x4 x5 x6 x7 x8
local notation "V147" => val_main_v147 (F := Ideal) x0 x1 x2 x3 x4 x5 x6 x7 x8
local notation "V151" => val_main_v151 (F := Ideal) x0 x1 x2 x3 x4 x5 x6 x7 x8 x9 x10
local notation "V158" => val_main_v158 (F := Ideal) x0 x1 x2 x3 x4 x5 x6 x7 x8 x9 x10
local notation "𝕊" => Cert.Spec.sup 𝔸

variable (hsup : ∀ i j : Fin 512, val_main_v30 (F := Ideal) x2 (ix2 i j) = Cert.Spec.sup (Cert.Spec.argsOf x0 x1 x2 x3 x4 x5 x6 x7 x8 x9 x10 x11 x12) i j)
variable (hh0 : ∀ (b : Fin 64) (n : Fin 512) (u : Fin 64),
  val_main_v94 (F := Ideal) x0 x1 x2 x3 x4 x5 x6 (ix2 b ⟨n.val * 64 + u.val, by omega⟩) = Cert.Spec.h0 (Cert.Spec.argsOf x0 x1 x2 x3 x4 x5 x6 x7 x8 x9 x10 x11 x12) b n u)

theorem v96_at (b : Fin 64) (c : Fin 32768) : V96 (ix2 b c) = x1 (ix3 (1 : Fin 2) b c) := by
  rewrite [val_main_v96_apply, val_main_v95_apply]
  refine congrArg x1 (funext fun a => Fin.ext ?_)
  match a with
  | ⟨0, _⟩ => rfl
  | ⟨1, _⟩ => show (b.val * 32768 + c.val) / 32768 % 64 = b.val; omega
  | ⟨2, _⟩ => show (b.val * 32768 + c.val) % 32768 = c.val; omega

theorem hid_at (b : Fin 64) (n : Fin 512) (u : Fin 64) : V96 (ix2 b (colNU n u)) = (𝔸).hid 1 b n u :=
  v96_at b (colNU n u)

theorem v97_at (b : Fin 64) (n : Fin 512) (u : Fin 64) : V97 (ix3 b n u) = V94 (ix2 b (colNU n u)) := by
  rewrite [val_main_v97_apply]
  refine congrArg V94 (funext fun a => Fin.ext ?_)
  match a with
  | ⟨0, _⟩ => show ((b.val * 512 + n.val) * 64 + u.val) / 32768 = b.val; omega
  | ⟨1, _⟩ => show ((b.val * 512 + n.val) * 64 + u.val) % 32768 = n.val * 64 + u.val; omega

theorem v98_at (b : Fin 64) (n : Fin 512) (u : Fin 64) : V98 (ix3 b n u) = V96 (ix2 b (colNU n u)) := by
  rewrite [val_main_v98_apply]
  refine congrArg V96 (funext fun a => Fin.ext ?_)
  match a with
  | ⟨0, _⟩ => show ((b.val * 512 + n.val) * 64 + u.val) / 32768 = b.val; omega
  | ⟨1, _⟩ => show ((b.val * 512 + n.val) * 64 + u.val) % 32768 = n.val * 64 + u.val; omega

include hh0 in
theorem v99_lo (b : Fin 64) (n : Fin 512) (f : Fin 128) (u : Fin 64) (hf : f.val = u.val) :
    V99 (ix3 b n f) = Cert.Spec.h0 𝔸 b n u := by
  unfold val_main_v99
  exact (cat2_left _ _ b n f u hf).trans ((v97_at b n u).trans (hh0 b n u))

theorem v99_hi (b : Fin 64) (n : Fin 512) (f : Fin 128) (u : Fin 64) (hf : f.val = 64 + u.val) :
    V99 (ix3 b n f) = (𝔸).hid 1 b n u := by
  unfold val_main_v99
  exact (cat2_right _ _ b n f u hf).trans ((v98_at b n u).trans (hid_at b n u))

include hh0 in

theorem featA (b : Fin 64) :
    (fun (f : Fin 128) (m : Fin 512) => V99 (ix3 b m f)) = Cert.Spec.feat1 (Cert.Spec.h0 𝔸 b) ((𝔸).hid 1 b) :=
  feat1_of_halves _ _ _ (fun f u hf m => v99_lo hh0 b m f u hf) (fun f u hf m => v99_hi b m f u hf)

include hsup hh0 in
theorem gate_at (b : Fin 64) (n : Fin 512) (o : Fin 128) : V117 (ix2 (rowBN b n) o) = gate1 𝔸 b n o := by
  show _ = Cert.Spec.gconv 𝕊 (𝔸).wru1 (𝔸).bru1 (Cert.Spec.feat1 (Cert.Spec.h0 𝔸 b) ((𝔸).hid 1 b)) n o
  rewrite [← featA hh0 b]
  exact chain1 (Y := V99) (Cc := V110) (Rw := V113) (W := x7) (B := x8) (X := fun b f m => V99 (ix3 b m f)) hsup (fun _ _ _ => rfl)
    (fun i => by rw [val_main_v101_apply, val_main_v100_apply]) (val_main_v102_apply x0 x1 x2 x3 x4 x5 x6) (val_main_v103_apply x0 x1 x2 x3 x4 x5 x6)
    (fun i => by rw [val_main_v106_apply, val_main_v105_apply, val_main_v104_apply, val_main_cst_10_apply]; rfl)
    (val_main_v107_apply x0 x1 x2 x3 x4 x5 x6) (val_main_v108_apply x0 x1 x2 x3 x4 x5 x6) (val_main_v109_apply x0 x1 x2 x3 x4 x5 x6) rfl
    (fun i => by rw [val_main_v113_apply, val_main_v112_apply, val_main_v111_apply])
    (fun r o => by
      rw [val_main_v117_apply, val_main_v116_apply, val_main_v115_apply, val_main_v114_apply, Ideal.addf_def]
      exact congrArg₂ (fun s t : EReal => s + t) (Finset.sum_congr rfl fun j _ => by
        rw [show lidx_main_v114 (ix2 r o) j = ix2 r j from ix2_ext rfl rfl,
          show ridx_main_v114 (ix2 r o) j = ix2 j o from ix2_ext rfl rfl]) (congrArg x8 (ix1_ext rfl))) b n o

theorem v118_at (b : Fin 64) (n : Fin 512) (o : Fin 128) : V118 (ix2 b (colNO n o)) = V117 (ix2 (rowBN b n) o) := by
  rewrite [val_main_v118_apply]
  refine congrArg V117 (funext fun a => Fin.ext ?_)
  match a with
  | ⟨0, _⟩ => show (b.val * 65536 + (n.val * 128 + o.val)) / 128 = b.val * 512 + n.val; omega
  | ⟨1, _⟩ => show (b.val * 65536 + (n.val * 128 + o.val)) % 128 = o.val; omega

theorem v124_at (i : S64x65536.Idx) : V124 i = Ideal.logistic (V118 i) := by
  rewrite [val_main_v124_apply, val_main_v123_apply, val_main_cst_12_apply, val_main_v122_apply, val_main_v121_apply,
    val_main_cst_11_apply, val_main_v120_apply, val_main_v119_apply]
  exact logistic_spelt _

theorem v125_at (b : Fin 64) (n : Fin 512) (o : Fin 128) : V125 (ix3 b n o) = V124 (ix2 b (colNO n o)) := by
  rewrite [val_main_v125_apply]
  refine congrArg V124 (funext fun a => Fin.ext ?_)
  match a with
  | ⟨0, _⟩ => show ((b.val * 512 + n.val) * 128 + o.val) / 65536 = b.val; omega
  | ⟨1, _⟩ => show ((b.val * 512 + n.val) * 128 + o.val) % 65536 = n.val * 128 + o.val; omega

include hsup hh0 in

theorem v125_gate (b : Fin 64) (n : Fin 512) (o : Fin 128) : V125 (ix3 b n o) = Ideal.logistic (gate1 𝔸 b n o) := by
  rw [v125_at, v124_at, v118_at, gate_at hsup hh0]

include hsup hh0 in

theorem r_at (b : Fin 64) (n : Fin 512) (u : Fin 64) : V127 (ix2 b (colNU n u)) = rgate1 𝔸 b n u := by
  rewrite [val_main_v127_apply, val_main_v126_apply]
  have e : idx_main_v126 (idx_main_v127 (ix2 b (colNU n u))) = ix3 b n (Cert.Spec.lo u) := funext fun a => Fin.ext (by
    match a with
    | ⟨0, _⟩ => show (b.val * 32768 + (n.val * 64 + u.val)) / 32768 = b.val; omega
    | ⟨1, _⟩ => show (b.val * 32768 + (n.val * 64 + u.val)) / 64 % 512 = n.val; omega
    | ⟨2, _⟩ => show (b.val * 32768 + (n.val * 64 + u.val)) % 64 = u.val; omega)
  rewrite [e, v125_gate hsup hh0]
  rfl

include hsup hh0 in

theorem z_at (b : Fin 64) (n : Fin 512) (u : Fin 64) : V129 (ix2 b (colNU n u)) = zgate1 𝔸 b n u := by
  rewrite [val_main_v129_apply, val_main_v128_apply]
  have e : idx_main_v128 (idx_main_v129 (ix2 b (colNU n u))) = ix3 b n (Cert.Spec.hi u) := funext fun a => Fin.ext (by
    match a with
    | ⟨0, _⟩ => show (b.val * 32768 + (n.val * 64 + u.val)) / 32768 = b.val; omega
    | ⟨1, _⟩ => show (b.val * 32768 + (n.val * 64 + u.val)) / 64 % 512 = n.val; omega
    | ⟨2, _⟩ => show 64 + (b.val * 32768 + (n.val * 64 + u.val)) % 64 = 64 + u.val; omega)
  rewrite [e, v125_gate hsup hh0]
  rfl

include hsup hh0 in
theorem v130_at (b : Fin 64) (n : Fin 512) (u : Fin 64) : V130 (ix2 b (colNU n u)) = rgate1 𝔸 b n u * (𝔸).hid 1 b n u := by
  rewrite [val_main_v130_apply, r_at hsup hh0, v96_at, Ideal.mulf_def]
  rfl

theorem v131_at (b : Fin 64) (n : Fin 512) (u : Fin 64) : V131 (ix3 b n u) = V94 (ix2 b (colNU n u)) := by
  rewrite [val_main_v131_apply]
  refine congrArg V94 (funext fun a => Fin.ext ?_)
  match a with
  | ⟨0, _⟩ => show ((b.val * 512 + n.val) * 64 + u.val) / 32768 = b.val; omega
  | ⟨1, _⟩ => show ((b.val * 512 + n.val) * 64 + u.val) % 32768 = n.val * 64 + u.val; omega

theorem v132_at (b : Fin 64) (n : Fin 512) (u : Fin 64) : V132 (ix3 b n u) = V130 (ix2 b (colNU n u)) := by
  rewrite [val_main_v132_apply]
  refine congrArg V130 (funext fun a => Fin.ext ?_)
  match a with
  | ⟨0, _⟩ => show ((b.val * 512 + n.val) * 64 + u.val) / 32768 = b.val; omega
  | ⟨1, _⟩ => show ((b.val * 512 + n.val) * 64 + u.val) % 32768 = n.val * 64 + u.val; omega

include hh0 in
theorem v133_lo (b : Fin 64) (n : Fin 512) (f : Fin 128) (u : Fin 64) (hf : f.val = u.val) :
    V133 (ix3 b n f) = Cert.Spec.h0 𝔸 b n u := by
  unfold val_main_v133
  exact (cat2_left _ _ b n f u hf).trans ((v131_at b n u).trans (hh0 b n u))

include hsup hh0 in
theorem v133_hi (b : Fin 64) (n : Fin 512) (f : Fin 128) (u : Fin 64) (hf : f.val = 64 + u.val) :
    V133 (ix3 b n f) = rgate1 𝔸 b n u * (𝔸).hid 1 b n u := by
  unfold val_main_v133
  exact (cat2_right _ _ b n f u hf).trans ((v132_at b n u).trans (v130_at hsup hh0 b n u))

include hsup hh0 in

theorem featB (b : Fin 64) :
    (fun (f : Fin 128) (m : Fin 512) => V133 (ix3 b m f))
      = Cert.Spec.feat1 (Cert.Spec.h0 𝔸 b) (fun m u => rgate1 𝔸 b m u * (𝔸).hid 1 b m u) :=
  feat1_of_halves _ _ _ (fun f u hf m => v133_lo hh0 b m f u hf) (fun f u hf m => v133_hi hsup hh0 b m f u hf)

include hsup hh0 in
theorem cand_at (b : Fin 64) (n : Fin 512) (u : Fin 64) :
    V151 (ix2 (rowBN b n) u)
      = Cert.Spec.gconv 𝕊 (𝔸).wc1 (𝔸).bc1 (Cert.Spec.feat1 (Cert.Spec.h0 𝔸 b) (fun m v => rgate1 𝔸 b m v * (𝔸).hid 1 b m v)) n u := by
  rewrite [← featB hsup hh0 b]
  exact chain1 (Y := V133) (Cc := V144) (Rw := V147) (W := x9) (B := x10) (X := fun b f m => V133 (ix3 b m f)) hsup (fun _ _ _ => rfl)
    (fun i => by rw [val_main_v135_apply, val_main_v134_apply]) (val_main_v136_apply x0 x1 x2 x3 x4 x5 x6 x7 x8) (val_main_v137_apply x0 x1 x2 x3 x4 x5 x6 x7 x8)
    (fun i => by rw [val_main_v140_apply, val_main_v139_apply, val_main_v138_apply, val_main_cst_13_apply]; rfl)
    (val_main_v141_apply x0 x1 x2 x3 x4 x5 x6 x7 x8) (val_main_v142_apply x0 x1 x2 x3 x4 x5 x6 x7 x8) (val_main_v143_apply x0 x1 x2 x3 x4 x5 x6 x7 x8) rfl
    (fun i => by rw [val_main_v147_apply, val_main_v146_apply, val_main_v145_apply])
    (fun r o => by
      rw [val_main_v151_apply, val_main_v150_apply, val_main_v149_apply, val_main_v148_apply, Ideal.addf_def]
      exact congrArg₂ (fun s t : EReal => s + t) (Finset.sum_congr rfl fun j _ => by
        rw [show lidx_main_v148 (ix2 r o) j = ix2 r j from ix2_ext rfl rfl,
          show ridx_main_v148 (ix2 r o) j = ix2 j o from ix2_ext rfl rfl]) (congrArg x10 (ix1_ext rfl))) b n u

include hsup hh0 in
theorem h1_at (b : Fin 64) (n : Fin 512) (u : Fin 64) : V158 (ix2 b (colNU n u)) = Cert.Spec.h1 𝔸 b n u := by
  have e : idx_main_v152 (ix2 b (colNU n u)) = ix2 (rowBN b n) u := funext fun a => Fin.ext (by
    match a with
    | ⟨0, _⟩ => show (b.val * 32768 + (n.val * 64 + u.val)) / 64 = b.val * 512 + n.val; omega
    | ⟨1, _⟩ => show (b.val * 32768 + (n.val * 64 + u.val)) % 64 = u.val; omega)
  rewrite [val_main_v158_apply, val_main_v157_apply, val_main_v156_apply, val_main_v155_apply, val_main_cst_14_apply,
    val_main_v154_apply, val_main_v153_apply, val_main_v152_apply, e, z_at hsup hh0, v96_at, cand_at hsup hh0]
  unfold Cert.Spec.h1 Cert.Spec.cell Cert.Spec.cand
  rfl

end Reading

section Statements

variable {x0 : (⟨S64x512, .f32⟩ : BufTy).Contents (Elt Ideal)} {x1 : (⟨S2x64x32768, .f32⟩ : BufTy).Contents (Elt Ideal)}
  {x2 : (⟨S512x512, .f32⟩ : BufTy).Contents (Elt Ideal)} {x3 : (⟨S195x128, .f32⟩ : BufTy).Contents (Elt Ideal)}
  {x4 : (⟨S128, .f32⟩ : BufTy).Contents (Elt Ideal)} {x5 : (⟨S195x64, .f32⟩ : BufTy).Contents (Elt Ideal)}
  {x6 : (⟨S64, .f32⟩ : BufTy).Contents (Elt Ideal)} {x7 : (⟨S384x128, .f32⟩ : BufTy).Contents (Elt Ideal)}
  {x8 : (⟨S128, .f32⟩ : BufTy).Contents (Elt Ideal)} {x9 : (⟨S384x64, .f32⟩ : BufTy).Contents (Elt Ideal)}
  {x10 : (⟨S64, .f32⟩ : BufTy).Contents (Elt Ideal)} {x11 : (⟨S64x1, .f32⟩ : BufTy).Contents (Elt Ideal)}
  {x12 : (⟨S1, .f32⟩ : BufTy).Contents (Elt Ideal)}

local notation "𝔸" => Cert.Spec.argsOf x0 x1 x2 x3 x4 x5 x6 x7 x8 x9 x10 x11 x12

theorem ref_h1
    (hsup : ∀ i j : Fin 512, val_main_v30 (F := Ideal) x2 (ix2 i j) = Cert.Spec.sup 𝔸 i j)
    (hh0 : ∀ (b : Fin 64) (n : Fin 512) (u : Fin 64),
      val_main_v94 (F := Ideal) x0 x1 x2 x3 x4 x5 x6 (ix2 b ⟨n.val * 64 + u.val, by omega⟩) = Cert.Spec.h0 𝔸 b n u)
    (b : Fin 64) (n : Fin 512) (u : Fin 64) :
    val_main_v158 (F := Ideal) x0 x1 x2 x3 x4 x5 x6 x7 x8 x9 x10 (ix2 b ⟨n.val * 64 + u.val, by omega⟩) = Cert.Spec.h1 𝔸 b n u :=
  h1_at hsup hh0 b n u

end Statements

end Cert.RefSpec

end
-- ==== Proof.RefOut.lean ====
import proofs.«107218_g19069654794669_cont_sun_m_30_13_alg».proof.Proof.RefRead
import proofs.«107218_g19069654794669_cont_sun_m_30_13_alg».proof.Proof.Spec
import proofs.«107218_g19069654794669_cont_sun_m_30_13_alg».proof.Proof.RefSup
import Idealize.ShloMosaic.Lib.ValueIdx
import Idealize.ShloMosaic.Lib.Pipeline.Value
import Idealize.ShloMosaic.PureOps.Ideal.Laws

noncomputable section

open scoped BigOperators

namespace Cert.RefSpec

open Cert.ReferenceIdeal Cert.ReferenceIdeal.Read Idealize.ShloMosaic Idealize.ShloMosaic.ValueIdx

-- a flat column is the pair of its quotient and remainder by 64
theorem flat_split (g : Fin 32768 → EReal) (G : Fin 512 → Fin 64 → EReal)
    (h : ∀ (n : Fin 512) (u : Fin 64), g ⟨n.val * 64 + u.val, by omega⟩ = G n u) (c : Fin 32768) :
    g c = G ⟨c.val / 64, by omega⟩ ⟨c.val % 64, Nat.mod_lt _ (by decide)⟩ :=
  (congrArg g (Fin.ext (by show c.val = c.val / 64 * 64 + c.val % 64; omega))).trans (h _ _)

theorem hid_left {α : Type} (y1 y2 : S1x64x32768.Idx → α)
    (h : Shape.Concatenates [S1x64x32768, S1x64x32768] S2x64x32768 0) (b : Fin 64) (c : Fin 32768) :
    concatenate S2x64x32768 0 [⟨S1x64x32768, y1⟩, ⟨S1x64x32768, y2⟩] h (ix3 (0 : Fin 2) b c) = y1 (ix3 (0 : Fin 1) b c) :=
  concatenate_pair_apply_left _ y1 y2 h _ rfl _
    (fun a => by match a with | ⟨0, _⟩ => rfl | ⟨1, _⟩ => rfl | ⟨2, _⟩ => rfl)

theorem hid_right {α : Type} (y1 y2 : S1x64x32768.Idx → α)
    (h : Shape.Concatenates [S1x64x32768, S1x64x32768] S2x64x32768 0) (b : Fin 64) (c : Fin 32768) :
    concatenate S2x64x32768 0 [⟨S1x64x32768, y1⟩, ⟨S1x64x32768, y2⟩] h (ix3 (1 : Fin 2) b c) = y2 (ix3 (0 : Fin 1) b c) :=
  concatenate_pair_apply_right _ y1 y2 h _ rfl rfl _
    (fun a ha => by
      match a, ha with
      | ⟨0, _⟩, ha => exact absurd rfl ha
      | ⟨1, _⟩, _ => rfl
      | ⟨2, _⟩, _ => rfl)
    rfl

variable (x0 : (⟨S64x512, .f32⟩ : BufTy).Contents (Elt Ideal)) (x1 : (⟨S2x64x32768, .f32⟩ : BufTy).Contents (Elt Ideal))
  (x2 : (⟨S512x512, .f32⟩ : BufTy).Contents (Elt Ideal)) (x3 : (⟨S195x128, .f32⟩ : BufTy).Contents (Elt Ideal))
  (x4 : (⟨S128, .f32⟩ : BufTy).Contents (Elt Ideal)) (x5 : (⟨S195x64, .f32⟩ : BufTy).Contents (Elt Ideal))
  (x6 : (⟨S64, .f32⟩ : BufTy).Contents (Elt Ideal)) (x7 : (⟨S384x128, .f32⟩ : BufTy).Contents (Elt Ideal))
  (x8 : (⟨S128, .f32⟩ : BufTy).Contents (Elt Ideal)) (x9 : (⟨S384x64, .f32⟩ : BufTy).Contents (Elt Ideal))
  (x10 : (⟨S64, .f32⟩ : BufTy).Contents (Elt Ideal)) (x11 : (⟨S64x1, .f32⟩ : BufTy).Contents (Elt Ideal))
  (x12 : (⟨S1, .f32⟩ : BufTy).Contents (Elt Ideal))
  (hh0 : ∀ (b : Fin 64) (n : Fin 512) (u : Fin 64),
    val_main_v94 (F := Ideal) x0 x1 x2 x3 x4 x5 x6 (ix2 b ⟨n.val * 64 + u.val, by omega⟩) = Cert.Spec.h0 (Cert.Spec.argsOf x0 x1 x2 x3 x4 x5 x6 x7 x8 x9 x10 x11 x12) b n u)
  (hh1 : ∀ (b : Fin 64) (n : Fin 512) (u : Fin 64),
    val_main_v158 (F := Ideal) x0 x1 x2 x3 x4 x5 x6 x7 x8 x9 x10 (ix2 b ⟨n.val * 64 + u.val, by omega⟩) = Cert.Spec.h1 (Cert.Spec.argsOf x0 x1 x2 x3 x4 x5 x6 x7 x8 x9 x10 x11 x12) b n u)

include hh1 in
theorem ref_out :
    val_main_v164 (F := Ideal) x0 x1 x2 x3 x4 x5 x6 x7 x8 x9 x10 x11 x12 = Cert.Spec.outArr (Cert.Spec.argsOf x0 x1 x2 x3 x4 x5 x6 x7 x8 x9 x10 x11 x12) := by
  funext idx
  obtain ⟨b, n, rfl⟩ : ∃ (b : Fin 64) (n : Fin 512), idx = ix2 b n := ⟨idx 0, idx 1, eq_ix2 idx⟩
  show _ = Cert.Spec.out _ b n
  rw [val_main_v164_apply, show idx_main_v164 (ix2 b n) = ix2 (⟨b.val * 512 + n.val, by omega⟩ : Fin 32768) (0 : Fin 1) from
      ix2_ext (by show (b.val * 512 + n.val) / 1 = b.val * 512 + n.val; omega) rfl,
    val_main_v163_apply, val_main_v160_apply, val_main_v162_apply, val_main_v161_apply, Ideal.addf_def]
  unfold Cert.Spec.out
  have el : ∀ (r : Fin 32768) (u : Fin 64), lidx_main_v160 (ix2 r (0 : Fin 1)) u = ix2 r u := fun _ _ => ix2_ext rfl rfl
  have er : ∀ (r : Fin 32768) (u : Fin 64), ridx_main_v160 (ix2 r (0 : Fin 1)) u = ix2 u (0 : Fin 1) := fun _ _ => ix2_ext rfl rfl
  have es : ∀ u : Fin 64, idx_main_v159 (ix2 (⟨b.val * 512 + n.val, by omega⟩ : Fin 32768) u)
      = ix2 b (⟨n.val * 64 + u.val, by omega⟩ : Fin 32768) := fun u =>
    ix2_ext (by show ((b.val * 512 + n.val) * 64 + u.val) / 32768 = b.val; omega)
      (by show ((b.val * 512 + n.val) * 64 + u.val) % 32768 = n.val * 64 + u.val; omega)
  refine congrArg₂ (fun s t : EReal => s + t) (Finset.sum_congr rfl fun u _ => ?_) (congrArg x12 (ix1_ext rfl))
  rw [el, er, val_main_v159_apply, es, hh1 b n u]
  rfl

include hh0 hh1 in
theorem ref_hid :
    val_main_v167 (F := Ideal) x0 x1 x2 x3 x4 x5 x6 x7 x8 x9 x10 = Cert.Spec.hidArr (Cert.Spec.argsOf x0 x1 x2 x3 x4 x5 x6 x7 x8 x9 x10 x11 x12) := by
  funext idx
  obtain ⟨l, b, c, rfl⟩ : ∃ (l : Fin 2) (b : Fin 64) (c : Fin 32768), idx = ix3 l b c :=
    ⟨idx 0, idx 1, idx 2, eq_ix3 idx⟩
  unfold val_main_v167
  match l with
  | ⟨0, _⟩ =>
    refine (hid_left _ _ _ b c).trans ?_
    rw [val_main_v165_apply, show idx_main_v165 (ix3 (0 : Fin 1) b c) = ix2 b c from ix2_ext rfl rfl]
    exact flat_split (fun t => val_main_v94 (F := Ideal) x0 x1 x2 x3 x4 x5 x6 (ix2 b t)) _ (hh0 b) c
  | ⟨1, _⟩ =>
    refine (hid_right _ _ _ b c).trans ?_
    rw [val_main_v166_apply, show idx_main_v166 (ix3 (0 : Fin 1) b c) = ix2 b c from ix2_ext rfl rfl]
    exact flat_split (fun t => val_main_v158 (F := Ideal) x0 x1 x2 x3 x4 x5 x6 x7 x8 x9 x10 (ix2 b t)) _ (hh1 b) c

end Cert.RefSpec

end
-- ==== Proof.RefValue.lean ====
import proofs.«107218_g19069654794669_cont_sun_m_30_13_alg».proof.Proof.RefSup
import proofs.«107218_g19069654794669_cont_sun_m_30_13_alg».proof.Proof.RefL0
import proofs.«107218_g19069654794669_cont_sun_m_30_13_alg».proof.Proof.RefL1
import proofs.«107218_g19069654794669_cont_sun_m_30_13_alg».proof.Proof.RefOut

noncomputable section

open scoped BigOperators

namespace Cert.RefSpec

open Cert.ReferenceIdeal Cert.ReferenceIdeal.Gen Cert.ReferenceIdeal.Read Idealize.ShloMosaic Idealize.ShloMosaic.TcCoe
  Idealize.SL.Sem Idealize.ShloMosaic.StableHlo Idealize.ShloMosaic.ValueIdx

-- the support is the specification's, so layer 0's state is, so layer 1's is, so the read-out and the stack are
theorem stages {x0 : (⟨S64x512, .f32⟩ : BufTy).Contents (Elt Ideal)} {x1 : (⟨S2x64x32768, .f32⟩ : BufTy).Contents (Elt Ideal)}
  {x2 : (⟨S512x512, .f32⟩ : BufTy).Contents (Elt Ideal)} {x3 : (⟨S195x128, .f32⟩ : BufTy).Contents (Elt Ideal)}
  {x4 : (⟨S128, .f32⟩ : BufTy).Contents (Elt Ideal)} {x5 : (⟨S195x64, .f32⟩ : BufTy).Contents (Elt Ideal)}
  {x6 : (⟨S64, .f32⟩ : BufTy).Contents (Elt Ideal)} {x7 : (⟨S384x128, .f32⟩ : BufTy).Contents (Elt Ideal)}
  {x8 : (⟨S128, .f32⟩ : BufTy).Contents (Elt Ideal)} {x9 : (⟨S384x64, .f32⟩ : BufTy).Contents (Elt Ideal)}
  {x10 : (⟨S64, .f32⟩ : BufTy).Contents (Elt Ideal)} {x11 : (⟨S64x1, .f32⟩ : BufTy).Contents (Elt Ideal)}
  {x12 : (⟨S1, .f32⟩ : BufTy).Contents (Elt Ideal)} :
    val_main_v164 (F := Ideal) x0 x1 x2 x3 x4 x5 x6 x7 x8 x9 x10 x11 x12 = Cert.Spec.outArr (Cert.Spec.argsOf x0 x1 x2 x3 x4 x5 x6 x7 x8 x9 x10 x11 x12)
      ∧ val_main_v167 (F := Ideal) x0 x1 x2 x3 x4 x5 x6 x7 x8 x9 x10 = Cert.Spec.hidArr (Cert.Spec.argsOf x0 x1 x2 x3 x4 x5 x6 x7 x8 x9 x10 x11 x12) :=
  have hs := ref_sup x2 (Cert.Spec.argsOf x0 x1 x2 x3 x4 x5 x6 x7 x8 x9 x10 x11 x12) fun _ _ => rfl
  have h0 := ref_h0 x0 x1 x2 x3 x4 x5 x6 x7 x8 x9 x10 x11 x12 hs
  have h1 := ref_h1 hs h0
  ⟨ref_out x0 x1 x2 x3 x4 x5 x6 x7 x8 x9 x10 x11 x12 h1, ref_hid x0 x1 x2 x3 x4 x5 x6 x7 x8 x9 x10 x11 x12 h0 h1⟩

theorem ref_value_of_run (m : (ℓ : Loc nD τ sig) → Buf (Elt Ideal) ℓ) (ρ : Dev nD → PrngReg)
    (hrun : θ_run defs (onTc (τ := τ) (main (F := Ideal))) ⟨m, fun _ => 0, ρ⟩ (fun r => ∀ c : Dev nD,
      r.2.mem ((c.tc : Thread nD τ).loc main_v164) = val_main_v164 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12))
      ∧ r.2.mem ((c.tc : Thread nD τ).loc main_v167) = val_main_v167 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12))) :
    θ_run defs (onTc (τ := τ) (main (F := Ideal))) ⟨m, fun _ => 0, ρ⟩ (fun r => ∀ c : Dev nD,
      r.2.mem ((c.tc : Thread nD τ).loc main_v164) = Cert.Spec.outArr (Cert.Spec.argsOf (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)))
      ∧ r.2.mem ((c.tc : Thread nD τ).loc main_v167) = Cert.Spec.hidArr (Cert.Spec.argsOf (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun _ hr c => ⟨(hr c).1.trans stages.1, (hr c).2.1.trans stages.2, (hr c).2.2⟩) hrun

end Cert.RefSpec

end
-- ==== Proof.RefRunInv.lean ====
import proofs.«107218_g19069654794669_cont_sun_m_30_13_alg».proof.Proof.RefRead
import Idealize.ShloMosaic.Lib.StableHlo.Run

noncomputable section

namespace Cert.RefSpec.RunH

open Cert.ReferenceIdeal Cert.ReferenceIdeal.Gen Cert.ReferenceIdeal.Read Idealize.ShloMosaic Idealize.ShloMosaic.TcCoe Idealize.SL.Sem Idealize.ShloMosaic.StableHlo

variable {F : FTy → Type} [FloatOps F]

theorem nary3_result {τ : Topo} {sig : RefSig} {Val : EltTy → Type} {x a b y : Ref sig .tc}
    (f : ((k : Fin 3) → ((![x, a, b] : Fin 3 → Ref sig .tc) k).ty.Contents Val) → y.ty.Contents Val) (hxs hy)
    (G : Valuation τ sig Val) :
    (nary (τ := τ) ![x, a, b] y f hxs hy).result G (Proc.devRef .tc y)
      = f (Fin.cons (G (Proc.devRef .tc x)) (Fin.cons (G (Proc.devRef .tc a)) (Fin.cons (G (Proc.devRef .tc b)) (fun i => i.elim0)))) := by
  rw [nary_result]; congr 1; funext k; fin_cases k <;> rfl

macro "stage_results" : tactic =>
  `(tactic| (simp only [after_cons, after_nil]
             repeat (first
               | rw [nullary_result] | rw [unary_result] | rw [binary_result] | rw [ternary_result]
               | rw [reshape_result] | rw [nary3_result]
               | (rw [nullary_result_ne]; rotate_left; decide)
               | (rw [unary_result_ne]; rotate_left; decide)
               | (rw [binary_result_ne]; rotate_left; decide)
               | (rw [ternary_result_ne]; rotate_left; decide)
               | (rw [reshape_result_ne]; rotate_left; decide)
               | (rw [nary_result_ne]; rotate_left; decide))))

variable (x0 : (⟨S64x512, .f32⟩ : BufTy).Contents (Elt F)) (x1 : (⟨S2x64x32768, .f32⟩ : BufTy).Contents (Elt F)) (x2 : (⟨S512x512, .f32⟩ : BufTy).Contents (Elt F)) (x3 : (⟨S195x128, .f32⟩ : BufTy).Contents (Elt F)) (x4 : (⟨S128, .f32⟩ : BufTy).Contents (Elt F)) (x5 : (⟨S195x64, .f32⟩ : BufTy).Contents (Elt F)) (x6 : (⟨S64, .f32⟩ : BufTy).Contents (Elt F)) (x7 : (⟨S384x128, .f32⟩ : BufTy).Contents (Elt F)) (x8 : (⟨S128, .f32⟩ : BufTy).Contents (Elt F)) (x9 : (⟨S384x64, .f32⟩ : BufTy).Contents (Elt F)) (x10 : (⟨S64, .f32⟩ : BufTy).Contents (Elt F)) (x11 : (⟨S64x1, .f32⟩ : BufTy).Contents (Elt F)) (x12 : (⟨S1, .f32⟩ : BufTy).Contents (Elt F)) (W : Valuation τ sig (Elt F))

structure Inv_0 : Prop where
  b_arg0 : W (Proc.devRef .tc main_arg0) = x0
  b_arg1 : W (Proc.devRef .tc main_arg1) = x1
  b_arg2 : W (Proc.devRef .tc main_arg2) = x2
  b_arg3 : W (Proc.devRef .tc main_arg3) = x3
  b_arg4 : W (Proc.devRef .tc main_arg4) = x4
  b_arg5 : W (Proc.devRef .tc main_arg5) = x5
  b_arg6 : W (Proc.devRef .tc main_arg6) = x6
  b_arg7 : W (Proc.devRef .tc main_arg7) = x7
  b_arg8 : W (Proc.devRef .tc main_arg8) = x8
  b_arg9 : W (Proc.devRef .tc main_arg9) = x9
  b_arg10 : W (Proc.devRef .tc main_arg10) = x10
  b_arg11 : W (Proc.devRef .tc main_arg11) = x11
  b_arg12 : W (Proc.devRef .tc main_arg12) = x12

structure Inv_1 : Prop extends Inv_0 x0 x1 x2 x3 x4 x5 x6 x7 x8 x9 x10 x11 x12 W where
  b_v1 : W (Proc.devRef .tc main_v1) = val_main_v1 (F := F) x2
  b_v4 : W (Proc.devRef .tc main_v4) = val_main_v4 (F := F) x2
  b_v5 : W (Proc.devRef .tc main_v5) = val_main_v5 (F := F) x2
  b_v6 : W (Proc.devRef .tc main_v6) = val_main_v6 (F := F)

structure Inv_2 : Prop extends Inv_0 x0 x1 x2 x3 x4 x5 x6 x7 x8 x9 x10 x11 x12 W where
  b_v1 : W (Proc.devRef .tc main_v1) = val_main_v1 (F := F) x2
  b_v8 : W (Proc.devRef .tc main_v8) = val_main_v8 (F := F) x2
  b_v10 : W (Proc.devRef .tc main_v10) = val_main_v10 (F := F)
  b_v12 : W (Proc.devRef .tc main_v12) = val_main_v12 (F := F)

structure Inv_3 : Prop extends Inv_0 x0 x1 x2 x3 x4 x5 x6 x7 x8 x9 x10 x11 x12 W where
  b_v21 : W (Proc.devRef .tc main_v21) = val_main_v21 (F := F) x2
  b_cst_3 : W (Proc.devRef .tc main_cst_3) = val_main_cst_3 (F := F)

structure Inv_4 : Prop extends Inv_0 x0 x1 x2 x3 x4 x5 x6 x7 x8 x9 x10 x11 x12 W where
  b_v30 : W (Proc.devRef .tc main_v30) = val_main_v30 (F := F) x2

structure Inv_5 : Prop extends Inv_0 x0 x1 x2 x3 x4 x5 x6 x7 x8 x9 x10 x11 x12 W where
  b_v30 : W (Proc.devRef .tc main_v30) = val_main_v30 (F := F) x2
  b_v32 : W (Proc.devRef .tc main_v32) = val_main_v32 (F := F) x1
  b_v37 : W (Proc.devRef .tc main_v37) = val_main_v37 (F := F) x0 x1
  b_v38 : W (Proc.devRef .tc main_v38) = val_main_v38 (F := F) x0 x1 x2
  b_v39 : W (Proc.devRef .tc main_v39) = val_main_v39 (F := F) x0 x1 x2
  b_cst_5 : W (Proc.devRef .tc main_cst_5) = val_main_cst_5 (F := F)

structure Inv_6 : Prop extends Inv_0 x0 x1 x2 x3 x4 x5 x6 x7 x8 x9 x10 x11 x12 W where
  b_v30 : W (Proc.devRef .tc main_v30) = val_main_v30 (F := F) x2
  b_v32 : W (Proc.devRef .tc main_v32) = val_main_v32 (F := F) x1
  b_v43 : W (Proc.devRef .tc main_v43) = val_main_v43 (F := F) x0 x1
  b_v44 : W (Proc.devRef .tc main_v44) = val_main_v44 (F := F) x0 x1 x2
  b_v45 : W (Proc.devRef .tc main_v45) = val_main_v45 (F := F) x0 x1 x2

structure Inv_7 : Prop extends Inv_0 x0 x1 x2 x3 x4 x5 x6 x7 x8 x9 x10 x11 x12 W where
  b_v30 : W (Proc.devRef .tc main_v30) = val_main_v30 (F := F) x2
  b_v32 : W (Proc.devRef .tc main_v32) = val_main_v32 (F := F) x1
  b_v55 : W (Proc.devRef .tc main_v55) = val_main_v55 (F := F) x0 x1 x2 x3 x4

structure Inv_8 : Prop extends Inv_0 x0 x1 x2 x3 x4 x5 x6 x7 x8 x9 x10 x11 x12 W where
  b_v30 : W (Proc.devRef .tc main_v30) = val_main_v30 (F := F) x2
  b_v32 : W (Proc.devRef .tc main_v32) = val_main_v32 (F := F) x1
  b_v61 : W (Proc.devRef .tc main_v61) = val_main_v61 (F := F) x0 x1 x2 x3 x4
  b_v63 : W (Proc.devRef .tc main_v63) = val_main_v63 (F := F) x0 x1 x2 x3 x4

structure Inv_9 : Prop extends Inv_0 x0 x1 x2 x3 x4 x5 x6 x7 x8 x9 x10 x11 x12 W where
  b_v30 : W (Proc.devRef .tc main_v30) = val_main_v30 (F := F) x2
  b_v32 : W (Proc.devRef .tc main_v32) = val_main_v32 (F := F) x1
  b_v65 : W (Proc.devRef .tc main_v65) = val_main_v65 (F := F) x0 x1 x2 x3 x4
  b_v71 : W (Proc.devRef .tc main_v71) = val_main_v71 (F := F) x0 x1 x2 x3 x4
  b_v72 : W (Proc.devRef .tc main_v72) = val_main_v72 (F := F) x0 x1 x2 x3 x4
  b_v73 : W (Proc.devRef .tc main_v73) = val_main_v73 (F := F) x0 x1 x2 x3 x4

structure Inv_10 : Prop extends Inv_0 x0 x1 x2 x3 x4 x5 x6 x7 x8 x9 x10 x11 x12 W where
  b_v30 : W (Proc.devRef .tc main_v30) = val_main_v30 (F := F) x2
  b_v32 : W (Proc.devRef .tc main_v32) = val_main_v32 (F := F) x1
  b_v65 : W (Proc.devRef .tc main_v65) = val_main_v65 (F := F) x0 x1 x2 x3 x4
  b_v77 : W (Proc.devRef .tc main_v77) = val_main_v77 (F := F) x0 x1 x2 x3 x4
  b_v78 : W (Proc.devRef .tc main_v78) = val_main_v78 (F := F) x0 x1 x2 x3 x4
  b_v79 : W (Proc.devRef .tc main_v79) = val_main_v79 (F := F) x0 x1 x2 x3 x4

structure Inv_11 : Prop extends Inv_0 x0 x1 x2 x3 x4 x5 x6 x7 x8 x9 x10 x11 x12 W where
  b_v30 : W (Proc.devRef .tc main_v30) = val_main_v30 (F := F) x2
  b_v32 : W (Proc.devRef .tc main_v32) = val_main_v32 (F := F) x1
  b_v65 : W (Proc.devRef .tc main_v65) = val_main_v65 (F := F) x0 x1 x2 x3 x4
  b_v89 : W (Proc.devRef .tc main_v89) = val_main_v89 (F := F) x0 x1 x2 x3 x4 x5 x6

structure Inv_12 : Prop extends Inv_0 x0 x1 x2 x3 x4 x5 x6 x7 x8 x9 x10 x11 x12 W where
  b_v30 : W (Proc.devRef .tc main_v30) = val_main_v30 (F := F) x2
  b_v94 : W (Proc.devRef .tc main_v94) = val_main_v94 (F := F) x0 x1 x2 x3 x4 x5 x6
  b_v96 : W (Proc.devRef .tc main_v96) = val_main_v96 (F := F) x1
  b_v97 : W (Proc.devRef .tc main_v97) = val_main_v97 (F := F) x0 x1 x2 x3 x4 x5 x6
  b_v98 : W (Proc.devRef .tc main_v98) = val_main_v98 (F := F) x1

structure Inv_13 : Prop extends Inv_0 x0 x1 x2 x3 x4 x5 x6 x7 x8 x9 x10 x11 x12 W where
  b_v30 : W (Proc.devRef .tc main_v30) = val_main_v30 (F := F) x2
  b_v94 : W (Proc.devRef .tc main_v94) = val_main_v94 (F := F) x0 x1 x2 x3 x4 x5 x6
  b_v96 : W (Proc.devRef .tc main_v96) = val_main_v96 (F := F) x1
  b_v102 : W (Proc.devRef .tc main_v102) = val_main_v102 (F := F) x0 x1 x2 x3 x4 x5 x6
  b_v106 : W (Proc.devRef .tc main_v106) = val_main_v106 (F := F) x0 x1 x2 x3 x4 x5 x6
  b_v107 : W (Proc.devRef .tc main_v107) = val_main_v107 (F := F) x0 x1 x2 x3 x4 x5 x6

structure Inv_14 : Prop extends Inv_0 x0 x1 x2 x3 x4 x5 x6 x7 x8 x9 x10 x11 x12 W where
  b_v30 : W (Proc.devRef .tc main_v30) = val_main_v30 (F := F) x2
  b_v94 : W (Proc.devRef .tc main_v94) = val_main_v94 (F := F) x0 x1 x2 x3 x4 x5 x6
  b_v96 : W (Proc.devRef .tc main_v96) = val_main_v96 (F := F) x1
  b_v107 : W (Proc.devRef .tc main_v107) = val_main_v107 (F := F) x0 x1 x2 x3 x4 x5 x6
  b_v108 : W (Proc.devRef .tc main_v108) = val_main_v108 (F := F) x0 x1 x2 x3 x4 x5 x6
  b_v109 : W (Proc.devRef .tc main_v109) = val_main_v109 (F := F) x0 x1 x2 x3 x4 x5 x6

structure Inv_15 : Prop extends Inv_0 x0 x1 x2 x3 x4 x5 x6 x7 x8 x9 x10 x11 x12 W where
  b_v30 : W (Proc.devRef .tc main_v30) = val_main_v30 (F := F) x2
  b_v94 : W (Proc.devRef .tc main_v94) = val_main_v94 (F := F) x0 x1 x2 x3 x4 x5 x6
  b_v96 : W (Proc.devRef .tc main_v96) = val_main_v96 (F := F) x1
  b_v119 : W (Proc.devRef .tc main_v119) = val_main_v119 (F := F) x0 x1 x2 x3 x4 x5 x6 x7 x8

structure Inv_16 : Prop extends Inv_0 x0 x1 x2 x3 x4 x5 x6 x7 x8 x9 x10 x11 x12 W where
  b_v30 : W (Proc.devRef .tc main_v30) = val_main_v30 (F := F) x2
  b_v94 : W (Proc.devRef .tc main_v94) = val_main_v94 (F := F) x0 x1 x2 x3 x4 x5 x6
  b_v96 : W (Proc.devRef .tc main_v96) = val_main_v96 (F := F) x1
  b_v125 : W (Proc.devRef .tc main_v125) = val_main_v125 (F := F) x0 x1 x2 x3 x4 x5 x6 x7 x8
  b_v127 : W (Proc.devRef .tc main_v127) = val_main_v127 (F := F) x0 x1 x2 x3 x4 x5 x6 x7 x8

structure Inv_17 : Prop extends Inv_0 x0 x1 x2 x3 x4 x5 x6 x7 x8 x9 x10 x11 x12 W where
  b_v94 : W (Proc.devRef .tc main_v94) = val_main_v94 (F := F) x0 x1 x2 x3 x4 x5 x6
  b_v96 : W (Proc.devRef .tc main_v96) = val_main_v96 (F := F) x1
  b_v129 : W (Proc.devRef .tc main_v129) = val_main_v129 (F := F) x0 x1 x2 x3 x4 x5 x6 x7 x8
  b_v135 : W (Proc.devRef .tc main_v135) = val_main_v135 (F := F) x0 x1 x2 x3 x4 x5 x6 x7 x8
  b_v136 : W (Proc.devRef .tc main_v136) = val_main_v136 (F := F) x0 x1 x2 x3 x4 x5 x6 x7 x8
  b_v137 : W (Proc.devRef .tc main_v137) = val_main_v137 (F := F) x0 x1 x2 x3 x4 x5 x6 x7 x8

structure Inv_18 : Prop extends Inv_0 x0 x1 x2 x3 x4 x5 x6 x7 x8 x9 x10 x11 x12 W where
  b_v94 : W (Proc.devRef .tc main_v94) = val_main_v94 (F := F) x0 x1 x2 x3 x4 x5 x6
  b_v96 : W (Proc.devRef .tc main_v96) = val_main_v96 (F := F) x1
  b_v129 : W (Proc.devRef .tc main_v129) = val_main_v129 (F := F) x0 x1 x2 x3 x4 x5 x6 x7 x8
  b_v141 : W (Proc.devRef .tc main_v141) = val_main_v141 (F := F) x0 x1 x2 x3 x4 x5 x6 x7 x8
  b_v142 : W (Proc.devRef .tc main_v142) = val_main_v142 (F := F) x0 x1 x2 x3 x4 x5 x6 x7 x8
  b_v143 : W (Proc.devRef .tc main_v143) = val_main_v143 (F := F) x0 x1 x2 x3 x4 x5 x6 x7 x8

structure Inv_19 : Prop extends Inv_0 x0 x1 x2 x3 x4 x5 x6 x7 x8 x9 x10 x11 x12 W where
  b_v94 : W (Proc.devRef .tc main_v94) = val_main_v94 (F := F) x0 x1 x2 x3 x4 x5 x6
  b_v96 : W (Proc.devRef .tc main_v96) = val_main_v96 (F := F) x1
  b_v129 : W (Proc.devRef .tc main_v129) = val_main_v129 (F := F) x0 x1 x2 x3 x4 x5 x6 x7 x8
  b_v153 : W (Proc.devRef .tc main_v153) = val_main_v153 (F := F) x0 x1 x2 x3 x4 x5 x6 x7 x8 x9 x10

structure Inv_20 : Prop extends Inv_0 x0 x1 x2 x3 x4 x5 x6 x7 x8 x9 x10 x11 x12 W where
  b_v94 : W (Proc.devRef .tc main_v94) = val_main_v94 (F := F) x0 x1 x2 x3 x4 x5 x6
  b_v158 : W (Proc.devRef .tc main_v158) = val_main_v158 (F := F) x0 x1 x2 x3 x4 x5 x6 x7 x8 x9 x10
  b_v160 : W (Proc.devRef .tc main_v160) = val_main_v160 (F := F) x0 x1 x2 x3 x4 x5 x6 x7 x8 x9 x10 x11
  b_v162 : W (Proc.devRef .tc main_v162) = val_main_v162 (F := F) x12

structure Inv_21 : Prop extends Inv_0 x0 x1 x2 x3 x4 x5 x6 x7 x8 x9 x10 x11 x12 W where
  b_v164 : W (Proc.devRef .tc main_v164) = val_main_v164 (F := F) x0 x1 x2 x3 x4 x5 x6 x7 x8 x9 x10 x11 x12
  b_v167 : W (Proc.devRef .tc main_v167) = val_main_v167 (F := F) x0 x1 x2 x3 x4 x5 x6 x7 x8 x9 x10

variable {x0 x1 x2 x3 x4 x5 x6 x7 x8 x9 x10 x11 x12 W}

/-- Contents that agree with `W` at the argument buffers hold the arguments when `W` does. -/
theorem Inv_0.carry {W' : Valuation τ sig (Elt F)} (h : Inv_0 x0 x1 x2 x3 x4 x5 x6 x7 x8 x9 x10 x11 x12 W)
    (e : Inv_0 (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) (W (Proc.devRef .tc main_arg8)) (W (Proc.devRef .tc main_arg9)) (W (Proc.devRef .tc main_arg10)) (W (Proc.devRef .tc main_arg11)) (W (Proc.devRef .tc main_arg12)) W') : Inv_0 x0 x1 x2 x3 x4 x5 x6 x7 x8 x9 x10 x11 x12 W' :=
  ⟨e.b_arg0.trans h.b_arg0, e.b_arg1.trans h.b_arg1, e.b_arg2.trans h.b_arg2, e.b_arg3.trans h.b_arg3, e.b_arg4.trans h.b_arg4, e.b_arg5.trans h.b_arg5, e.b_arg6.trans h.b_arg6, e.b_arg7.trans h.b_arg7, e.b_arg8.trans h.b_arg8, e.b_arg9.trans h.b_arg9, e.b_arg10.trans h.b_arg10, e.b_arg11.trans h.b_arg11, e.b_arg12.trans h.b_arg12⟩

end Cert.RefSpec.RunH

end
-- ==== Proof.RefRunS1.lean ====
import proofs.«107218_g19069654794669_cont_sun_m_30_13_alg».proof.Proof.RefRunInv

noncomputable section

namespace Cert.RefSpec.RunH

open Cert.ReferenceIdeal Cert.ReferenceIdeal.Gen Cert.ReferenceIdeal.Read Idealize.ShloMosaic Idealize.ShloMosaic.TcCoe Idealize.SL.Sem Idealize.ShloMosaic.StableHlo

variable {F : FTy → Type} [FloatOps F] {x0 : (⟨S64x512, .f32⟩ : BufTy).Contents (Elt F)} {x1 : (⟨S2x64x32768, .f32⟩ : BufTy).Contents (Elt F)} {x2 : (⟨S512x512, .f32⟩ : BufTy).Contents (Elt F)} {x3 : (⟨S195x128, .f32⟩ : BufTy).Contents (Elt F)} {x4 : (⟨S128, .f32⟩ : BufTy).Contents (Elt F)} {x5 : (⟨S195x64, .f32⟩ : BufTy).Contents (Elt F)} {x6 : (⟨S64, .f32⟩ : BufTy).Contents (Elt F)} {x7 : (⟨S384x128, .f32⟩ : BufTy).Contents (Elt F)} {x8 : (⟨S128, .f32⟩ : BufTy).Contents (Elt F)} {x9 : (⟨S384x64, .f32⟩ : BufTy).Contents (Elt F)} {x10 : (⟨S64, .f32⟩ : BufTy).Contents (Elt F)} {x11 : (⟨S64x1, .f32⟩ : BufTy).Contents (Elt F)} {x12 : (⟨S1, .f32⟩ : BufTy).Contents (Elt F)} {W : Valuation τ sig (Elt F)}

def ops_1 : List (HloOp τ sig (Elt F)) :=
  [ unary main_arg2 main_v0 (transpose S512x512 [1, 0] · transposes_S512x512_S512x512_1_0),
    binary main_arg2 main_v0 main_v1 maximumf,
    nullary main_cst (constant S_ .f32 0x00000000#32),
    binary main_v1 main_cst main_v2 (fun x v => Host.reduceAdd x v reducesTo_S512x512_S512_d1 h_S_),
    nullary main_cst_0 (constant S_ .f32 0x00000000#32),
    unary main_cst_0 main_v3 (broadcastInDim S512 ![] bcast_S_S512),
    binary main_v2 main_v3 main_v4 (cmpf .ogt),
    unary main_v2 main_v5 Host.sqrt,
    nullary main_cst_1 (constant S_ .f32 0x3F800000#32),
    unary main_cst_1 main_v6 (broadcastInDim S512 ![] bcast_S_S512) ]

set_option maxHeartbeats 8000000 in
theorem step_1 (h : Inv_0 x0 x1 x2 x3 x4 x5 x6 x7 x8 x9 x10 x11 x12 W) : Inv_1 x0 x1 x2 x3 x4 x5 x6 x7 x8 x9 x10 x11 x12 (after (ops_1 (F := F)) W) where
  toInv_0 := h.carry (by constructor <;> (unfold ops_1; stage_results))
  b_v1 := by
    unfold ops_1; stage_results
    rw [h.b_arg2]
    rfl
  b_v4 := by
    unfold ops_1; stage_results
    rw [h.b_arg2]
    rfl
  b_v5 := by
    unfold ops_1; stage_results
    rw [h.b_arg2]
    rfl
  b_v6 := by
    unfold ops_1; stage_results
    rfl

def ops_2 : List (HloOp τ sig (Elt F)) :=
  [ binary main_v6 main_v5 main_v7 Host.divf,
    nullary main_cst_2 (constant S_ .f32 0x00000000#32),
    TRef.unary (TRef.of (T := ⟨S_, .f32⟩) main_cst_2) (TRef.of (T := ⟨S_, .f32⟩) main_call0_v0) id,
    TRef.unary (TRef.of (T := ⟨S_, .f32⟩) main_call0_v0) (TRef.of (T := ⟨S512, .f32⟩) main_call0_v1) (broadcastInDim S512 ![] bcast_S_S512),
    TRef.ternary (TRef.of (T := ⟨S512, .i1⟩) main_v4) (TRef.of (T := ⟨S512, .f32⟩) main_v7) (TRef.of (T := ⟨S512, .f32⟩) main_call0_v1) (TRef.of (T := ⟨S512, .f32⟩) main_v8) select,
    nullary main_v9 (iotaInDim S512x512 32 0),
    nullary main_v10 (iotaInDim S512x512 32 1),
    nullary main_c (constantI S_ 32 0#32),
    unary main_c main_v11 (broadcastInDim S512x512 ![] bcast_S_S512x512),
    binary main_v9 main_v11 main_v12 addi ]

set_option maxHeartbeats 8000000 in
theorem step_2 (h : Inv_1 x0 x1 x2 x3 x4 x5 x6 x7 x8 x9 x10 x11 x12 W) : Inv_2 x0 x1 x2 x3 x4 x5 x6 x7 x8 x9 x10 x11 x12 (after (ops_2 (F := F)) W) where
  toInv_0 := h.toInv_0.carry (by constructor <;> (unfold ops_2; stage_results))
  b_v1 := by unfold ops_2; stage_results; exact h.b_v1
  b_v8 := by
    unfold ops_2; stage_results
    rw [h.b_v4, h.b_v6, h.b_v5]
    rfl
  b_v10 := by
    unfold ops_2; stage_results
    rfl
  b_v12 := by
    unfold ops_2; stage_results
    rfl

def ops_3 : List (HloOp τ sig (Elt F)) :=
  [ binary main_v12 main_v10 main_v13 (cmpi .eq),
    unary main_v13 main_v14 (uitofp .f32),
    unary main_v8 main_v15 (broadcastInDim S512x1 ![0] bcast_S512_S512x1_0),
    unary main_v15 main_v16 (broadcastInDim S512x512 ![0, 1] bcast_S512x1_S512x512_0_1),
    binary main_v16 main_v1 main_v17 mulf,
    unary main_v8 main_v18 (broadcastInDim S1x512 ![1] bcast_S512_S1x512_1),
    unary main_v18 main_v19 (broadcastInDim S512x512 ![0, 1] bcast_S1x512_S512x512_0_1),
    binary main_v17 main_v19 main_v20 mulf,
    binary main_v14 main_v20 main_v21 subf,
    nullary main_cst_3 (constant S_ .f32 0x3F800000#32) ]

set_option maxHeartbeats 8000000 in
theorem step_3 (h : Inv_2 x0 x1 x2 x3 x4 x5 x6 x7 x8 x9 x10 x11 x12 W) : Inv_3 x0 x1 x2 x3 x4 x5 x6 x7 x8 x9 x10 x11 x12 (after (ops_3 (F := F)) W) where
  toInv_0 := h.toInv_0.carry (by constructor <;> (unfold ops_3; stage_results))
  b_v21 := by
    unfold ops_3; stage_results
    rw [h.b_v12, h.b_v10, h.b_v8, h.b_v1]
    rfl
  b_cst_3 := by
    unfold ops_3; stage_results
    rfl

def ops_4 : List (HloOp τ sig (Elt F)) :=
  [ unary main_cst_3 main_v22 (broadcastInDim S512x512 ![] bcast_S_S512x512),
    binary main_v22 main_v21 main_v23 mulf,
    nullary main_v24 (iotaInDim S512x512 32 0),
    nullary main_v25 (iotaInDim S512x512 32 1),
    nullary main_c_4 (constantI S_ 32 0#32),
    unary main_c_4 main_v26 (broadcastInDim S512x512 ![] bcast_S_S512x512),
    binary main_v24 main_v26 main_v27 addi,
    binary main_v27 main_v25 main_v28 (cmpi .eq),
    unary main_v28 main_v29 (uitofp .f32),
    binary main_v23 main_v29 main_v30 subf ]

set_option maxHeartbeats 8000000 in
theorem step_4 (h : Inv_3 x0 x1 x2 x3 x4 x5 x6 x7 x8 x9 x10 x11 x12 W) : Inv_4 x0 x1 x2 x3 x4 x5 x6 x7 x8 x9 x10 x11 x12 (after (ops_4 (F := F)) W) where
  toInv_0 := h.toInv_0.carry (by constructor <;> (unfold ops_4; stage_results))
  b_v30 := by
    unfold ops_4; stage_results
    rw [h.b_cst_3, h.b_v21]
    rfl

def ops_5 : List (HloOp τ sig (Elt F)) :=
  [ unary main_arg1 main_v31 (extractStridedSlice S1x64x32768 ![0, 0, 0] · slices_S2x64x32768_S1x64x32768_0_0_0),
    reshape main_v31 main_v32 rfl shapeCasts_S1x64x32768_S64x32768,
    reshape main_arg0 main_v33 rfl shapeCasts_S64x512_S64x512x1,
    reshape main_v32 main_v34 rfl shapeCasts_S64x32768_S64x512x64,
    binary main_v33 main_v34 main_v35 (fun a b => concatenate S64x512x65 2 [⟨S64x512x1, a⟩, ⟨S64x512x64, b⟩] concatenates_S64x512x1_S64x512x64_S64x512x65_d2),
    unary main_v35 main_v36 (transpose S512x65x64 [1, 2, 0] · transposes_S64x512x65_S512x65x64_1_2_0),
    reshape main_v36 main_v37 rfl shapeCasts_S512x65x64_S512x4160,
    binary main_v30 main_v37 main_v38 (fun l r => Host.dotGeneral dot_S512x512_S512x4160_S512x4160_1_0_0_1_n_n none l r),
    binary main_v30 main_v38 main_v39 (fun l r => Host.dotGeneral dot_S512x512_S512x4160_S512x4160_1_0_0_1_n_n none l r),
    nullary main_cst_5 (constant S_ .f32 0x40000000#32) ]

set_option maxHeartbeats 8000000 in
theorem step_5 (h : Inv_4 x0 x1 x2 x3 x4 x5 x6 x7 x8 x9 x10 x11 x12 W) : Inv_5 x0 x1 x2 x3 x4 x5 x6 x7 x8 x9 x10 x11 x12 (after (ops_5 (F := F)) W) where
  toInv_0 := h.toInv_0.carry (by constructor <;> (unfold ops_5; stage_results))
  b_v30 := by unfold ops_5; stage_results; exact h.b_v30
  b_v32 := by
    unfold ops_5; stage_results
    rw [h.b_arg1]
    rfl
  b_v37 := by
    unfold ops_5; stage_results
    rw [h.b_arg0, h.b_arg1]
    rfl
  b_v38 := by
    unfold ops_5; stage_results
    rw [h.b_v30, h.b_arg0, h.b_arg1]
    rfl
  b_v39 := by
    unfold ops_5; stage_results
    rw [h.b_v30, h.b_arg0, h.b_arg1]
    rfl
  b_cst_5 := by
    unfold ops_5; stage_results
    rfl

def ops_6 : List (HloOp τ sig (Elt F)) :=
  [ unary main_cst_5 main_v40 (broadcastInDim S512x4160 ![] bcast_S_S512x4160),
    binary main_v40 main_v39 main_v41 mulf,
    binary main_v41 main_v37 main_v42 subf,
    unary main_v37 main_v43 (broadcastInDim S1x512x4160 ![1, 2] bcast_S512x4160_S1x512x4160_1_2),
    unary main_v38 main_v44 (broadcastInDim S1x512x4160 ![1, 2] bcast_S512x4160_S1x512x4160_1_2),
    unary main_v42 main_v45 (broadcastInDim S1x512x4160 ![1, 2] bcast_S512x4160_S1x512x4160_1_2) ]

set_option maxHeartbeats 8000000 in
theorem step_6 (h : Inv_5 x0 x1 x2 x3 x4 x5 x6 x7 x8 x9 x10 x11 x12 W) : Inv_6 x0 x1 x2 x3 x4 x5 x6 x7 x8 x9 x10 x11 x12 (after (ops_6 (F := F)) W) where
  toInv_0 := h.toInv_0.carry (by constructor <;> (unfold ops_6; stage_results))
  b_v30 := by unfold ops_6; stage_results; exact h.b_v30
  b_v32 := by unfold ops_6; stage_results; exact h.b_v32
  b_v43 := by
    unfold ops_6; stage_results
    rw [h.b_v37]
    rfl
  b_v44 := by
    unfold ops_6; stage_results
    rw [h.b_v38]
    rfl
  b_v45 := by
    unfold ops_6; stage_results
    rw [h.b_cst_5, h.b_v39, h.b_v37]
    rfl

def ops_7 : List (HloOp τ sig (Elt F)) :=
  [ nary ![main_v43, main_v44, main_v45] main_v46 (fun u => concatenate S3x512x4160 0 [⟨S1x512x4160, u 0⟩, ⟨S1x512x4160, u 1⟩, ⟨S1x512x4160, u 2⟩] concatenates_S1x512x4160_S1x512x4160_S1x512x4160_S3x512x4160_d0),
    reshape main_v46 main_v47 rfl shapeCasts_S3x512x4160_S3x512x65x64,
    unary main_v47 main_v48 (transpose S64x512x65x3 [3, 1, 2, 0] · transposes_S3x512x65x64_S64x512x65x3_3_1_2_0),
    reshape main_v48 main_v49 rfl shapeCasts_S64x512x65x3_S32768x195,
    binary main_v49 main_arg3 main_v50 (fun l r => Host.dotGeneral dot_S32768x195_S195x128_S32768x128_1_0_0_1_n_n none l r),
    unary main_arg4 main_v51 (broadcastInDim S1x128 ![1] bcast_S128_S1x128_1),
    unary main_v51 main_v52 (broadcastInDim S32768x128 ![0, 1] bcast_S1x128_S32768x128_0_1),
    binary main_v50 main_v52 main_v53 addf,
    reshape main_v53 main_v54 rfl shapeCasts_S32768x128_S64x65536,
    unary main_v54 main_v55 Host.negf ]

set_option maxHeartbeats 8000000 in
theorem step_7 (h : Inv_6 x0 x1 x2 x3 x4 x5 x6 x7 x8 x9 x10 x11 x12 W) : Inv_7 x0 x1 x2 x3 x4 x5 x6 x7 x8 x9 x10 x11 x12 (after (ops_7 (F := F)) W) where
  toInv_0 := h.toInv_0.carry (by constructor <;> (unfold ops_7; stage_results))
  b_v30 := by unfold ops_7; stage_results; exact h.b_v30
  b_v32 := by unfold ops_7; stage_results; exact h.b_v32
  b_v55 := by
    unfold ops_7; stage_results
    rw [h.b_v43, h.b_v44, h.b_v45, h.b_arg3, h.b_arg4]
    rfl

end Cert.RefSpec.RunH

end
-- ==== Proof.RefRunS2.lean ====
import proofs.«107218_g19069654794669_cont_sun_m_30_13_alg».proof.Proof.RefRunInv

noncomputable section

namespace Cert.RefSpec.RunH

open Cert.ReferenceIdeal Cert.ReferenceIdeal.Gen Cert.ReferenceIdeal.Read Idealize.ShloMosaic Idealize.ShloMosaic.TcCoe Idealize.SL.Sem Idealize.ShloMosaic.StableHlo

variable {F : FTy → Type} [FloatOps F] {x0 : (⟨S64x512, .f32⟩ : BufTy).Contents (Elt F)} {x1 : (⟨S2x64x32768, .f32⟩ : BufTy).Contents (Elt F)} {x2 : (⟨S512x512, .f32⟩ : BufTy).Contents (Elt F)} {x3 : (⟨S195x128, .f32⟩ : BufTy).Contents (Elt F)} {x4 : (⟨S128, .f32⟩ : BufTy).Contents (Elt F)} {x5 : (⟨S195x64, .f32⟩ : BufTy).Contents (Elt F)} {x6 : (⟨S64, .f32⟩ : BufTy).Contents (Elt F)} {x7 : (⟨S384x128, .f32⟩ : BufTy).Contents (Elt F)} {x8 : (⟨S128, .f32⟩ : BufTy).Contents (Elt F)} {x9 : (⟨S384x64, .f32⟩ : BufTy).Contents (Elt F)} {x10 : (⟨S64, .f32⟩ : BufTy).Contents (Elt F)} {x11 : (⟨S64x1, .f32⟩ : BufTy).Contents (Elt F)} {x12 : (⟨S1, .f32⟩ : BufTy).Contents (Elt F)} {W : Valuation τ sig (Elt F)}

def ops_8 : List (HloOp τ sig (Elt F)) :=
  [ unary main_v55 main_v56 Host.exp,
    nullary main_cst_6 (constant S_ .f32 0x3F800000#32),
    unary main_cst_6 main_v57 (broadcastInDim S64x65536 ![] bcast_S_S64x65536),
    binary main_v57 main_v56 main_v58 addf,
    nullary main_cst_7 (constant S_ .f32 0x3F800000#32),
    unary main_cst_7 main_v59 (broadcastInDim S64x65536 ![] bcast_S_S64x65536),
    binary main_v59 main_v58 main_v60 Host.divf,
    reshape main_v60 main_v61 rfl shapeCasts_S64x65536_S64x512x128,
    unary main_v61 main_v62 (extractStridedSlice S64x512x64 ![0, 0, 0] · slices_S64x512x128_S64x512x64_0_0_0),
    reshape main_v62 main_v63 rfl shapeCasts_S64x512x64_S64x32768 ]

set_option maxHeartbeats 8000000 in
theorem step_8 (h : Inv_7 x0 x1 x2 x3 x4 x5 x6 x7 x8 x9 x10 x11 x12 W) : Inv_8 x0 x1 x2 x3 x4 x5 x6 x7 x8 x9 x10 x11 x12 (after (ops_8 (F := F)) W) where
  toInv_0 := h.toInv_0.carry (by constructor <;> (unfold ops_8; stage_results))
  b_v30 := by unfold ops_8; stage_results; exact h.b_v30
  b_v32 := by unfold ops_8; stage_results; exact h.b_v32
  b_v61 := by
    unfold ops_8; stage_results
    rw [h.b_v55]
    rfl
  b_v63 := by
    unfold ops_8; stage_results
    rw [h.b_v55]
    rfl

def ops_9 : List (HloOp τ sig (Elt F)) :=
  [ unary main_v61 main_v64 (extractStridedSlice S64x512x64 ![0, 0, 64] · slices_S64x512x128_S64x512x64_0_0_64),
    reshape main_v64 main_v65 rfl shapeCasts_S64x512x64_S64x32768,
    binary main_v63 main_v32 main_v66 mulf,
    reshape main_arg0 main_v67 rfl shapeCasts_S64x512_S64x512x1,
    reshape main_v66 main_v68 rfl shapeCasts_S64x32768_S64x512x64,
    binary main_v67 main_v68 main_v69 (fun a b => concatenate S64x512x65 2 [⟨S64x512x1, a⟩, ⟨S64x512x64, b⟩] concatenates_S64x512x1_S64x512x64_S64x512x65_d2),
    unary main_v69 main_v70 (transpose S512x65x64 [1, 2, 0] · transposes_S64x512x65_S512x65x64_1_2_0),
    reshape main_v70 main_v71 rfl shapeCasts_S512x65x64_S512x4160,
    binary main_v30 main_v71 main_v72 (fun l r => Host.dotGeneral dot_S512x512_S512x4160_S512x4160_1_0_0_1_n_n none l r),
    binary main_v30 main_v72 main_v73 (fun l r => Host.dotGeneral dot_S512x512_S512x4160_S512x4160_1_0_0_1_n_n none l r) ]

set_option maxHeartbeats 8000000 in
theorem step_9 (h : Inv_8 x0 x1 x2 x3 x4 x5 x6 x7 x8 x9 x10 x11 x12 W) : Inv_9 x0 x1 x2 x3 x4 x5 x6 x7 x8 x9 x10 x11 x12 (after (ops_9 (F := F)) W) where
  toInv_0 := h.toInv_0.carry (by constructor <;> (unfold ops_9; stage_results))
  b_v30 := by unfold ops_9; stage_results; exact h.b_v30
  b_v32 := by unfold ops_9; stage_results; exact h.b_v32
  b_v65 := by
    unfold ops_9; stage_results
    rw [h.b_v61]
    rfl
  b_v71 := by
    unfold ops_9; stage_results
    rw [h.b_arg0, h.b_v63, h.b_v32]
    rfl
  b_v72 := by
    unfold ops_9; stage_results
    rw [h.b_v30, h.b_arg0, h.b_v63, h.b_v32]
    rfl
  b_v73 := by
    unfold ops_9; stage_results
    rw [h.b_v30, h.b_arg0, h.b_v63, h.b_v32]
    rfl

def ops_10 : List (HloOp τ sig (Elt F)) :=
  [ nullary main_cst_8 (constant S_ .f32 0x40000000#32),
    unary main_cst_8 main_v74 (broadcastInDim S512x4160 ![] bcast_S_S512x4160),
    binary main_v74 main_v73 main_v75 mulf,
    binary main_v75 main_v71 main_v76 subf,
    unary main_v71 main_v77 (broadcastInDim S1x512x4160 ![1, 2] bcast_S512x4160_S1x512x4160_1_2),
    unary main_v72 main_v78 (broadcastInDim S1x512x4160 ![1, 2] bcast_S512x4160_S1x512x4160_1_2),
    unary main_v76 main_v79 (broadcastInDim S1x512x4160 ![1, 2] bcast_S512x4160_S1x512x4160_1_2) ]

set_option maxHeartbeats 8000000 in
theorem step_10 (h : Inv_9 x0 x1 x2 x3 x4 x5 x6 x7 x8 x9 x10 x11 x12 W) : Inv_10 x0 x1 x2 x3 x4 x5 x6 x7 x8 x9 x10 x11 x12 (after (ops_10 (F := F)) W) where
  toInv_0 := h.toInv_0.carry (by constructor <;> (unfold ops_10; stage_results))
  b_v30 := by unfold ops_10; stage_results; exact h.b_v30
  b_v32 := by unfold ops_10; stage_results; exact h.b_v32
  b_v65 := by unfold ops_10; stage_results; exact h.b_v65
  b_v77 := by
    unfold ops_10; stage_results
    rw [h.b_v71]
    rfl
  b_v78 := by
    unfold ops_10; stage_results
    rw [h.b_v72]
    rfl
  b_v79 := by
    unfold ops_10; stage_results
    rw [h.b_v73, h.b_v71]
    rfl

def ops_11 : List (HloOp τ sig (Elt F)) :=
  [ nary ![main_v77, main_v78, main_v79] main_v80 (fun u => concatenate S3x512x4160 0 [⟨S1x512x4160, u 0⟩, ⟨S1x512x4160, u 1⟩, ⟨S1x512x4160, u 2⟩] concatenates_S1x512x4160_S1x512x4160_S1x512x4160_S3x512x4160_d0),
    reshape main_v80 main_v81 rfl shapeCasts_S3x512x4160_S3x512x65x64,
    unary main_v81 main_v82 (transpose S64x512x65x3 [3, 1, 2, 0] · transposes_S3x512x65x64_S64x512x65x3_3_1_2_0),
    reshape main_v82 main_v83 rfl shapeCasts_S64x512x65x3_S32768x195,
    binary main_v83 main_arg5 main_v84 (fun l r => Host.dotGeneral dot_S32768x195_S195x64_S32768x64_1_0_0_1_n_n none l r),
    unary main_arg6 main_v85 (broadcastInDim S1x64 ![1] bcast_S64_S1x64_1),
    unary main_v85 main_v86 (broadcastInDim S32768x64 ![0, 1] bcast_S1x64_S32768x64_0_1),
    binary main_v84 main_v86 main_v87 addf,
    reshape main_v87 main_v88 rfl shapeCasts_S32768x64_S64x32768,
    unary main_v88 main_v89 Host.tanh ]

set_option maxHeartbeats 8000000 in
theorem step_11 (h : Inv_10 x0 x1 x2 x3 x4 x5 x6 x7 x8 x9 x10 x11 x12 W) : Inv_11 x0 x1 x2 x3 x4 x5 x6 x7 x8 x9 x10 x11 x12 (after (ops_11 (F := F)) W) where
  toInv_0 := h.toInv_0.carry (by constructor <;> (unfold ops_11; stage_results))
  b_v30 := by unfold ops_11; stage_results; exact h.b_v30
  b_v32 := by unfold ops_11; stage_results; exact h.b_v32
  b_v65 := by unfold ops_11; stage_results; exact h.b_v65
  b_v89 := by
    unfold ops_11; stage_results
    rw [h.b_v77, h.b_v78, h.b_v79, h.b_arg5, h.b_arg6]
    rfl

def ops_12 : List (HloOp τ sig (Elt F)) :=
  [ binary main_v65 main_v32 main_v90 mulf,
    nullary main_cst_9 (constant S_ .f32 0x3F800000#32),
    unary main_cst_9 main_v91 (broadcastInDim S64x32768 ![] bcast_S_S64x32768),
    binary main_v91 main_v65 main_v92 subf,
    binary main_v92 main_v89 main_v93 mulf,
    binary main_v90 main_v93 main_v94 addf,
    unary main_arg1 main_v95 (extractStridedSlice S1x64x32768 ![1, 0, 0] · slices_S2x64x32768_S1x64x32768_1_0_0),
    reshape main_v95 main_v96 rfl shapeCasts_S1x64x32768_S64x32768,
    reshape main_v94 main_v97 rfl shapeCasts_S64x32768_S64x512x64,
    reshape main_v96 main_v98 rfl shapeCasts_S64x32768_S64x512x64 ]

set_option maxHeartbeats 8000000 in
theorem step_12 (h : Inv_11 x0 x1 x2 x3 x4 x5 x6 x7 x8 x9 x10 x11 x12 W) : Inv_12 x0 x1 x2 x3 x4 x5 x6 x7 x8 x9 x10 x11 x12 (after (ops_12 (F := F)) W) where
  toInv_0 := h.toInv_0.carry (by constructor <;> (unfold ops_12; stage_results))
  b_v30 := by unfold ops_12; stage_results; exact h.b_v30
  b_v94 := by
    unfold ops_12; stage_results
    rw [h.b_v65, h.b_v32, h.b_v89]
    rfl
  b_v96 := by
    unfold ops_12; stage_results
    rw [h.b_arg1]
    rfl
  b_v97 := by
    unfold ops_12; stage_results
    rw [h.b_v65, h.b_v32, h.b_v89]
    rfl
  b_v98 := by
    unfold ops_12; stage_results
    rw [h.b_arg1]
    rfl

def ops_13 : List (HloOp τ sig (Elt F)) :=
  [ binary main_v97 main_v98 main_v99 (fun a b => concatenate S64x512x128 2 [⟨S64x512x64, a⟩, ⟨S64x512x64, b⟩] concatenates_S64x512x64_S64x512x64_S64x512x128_d2),
    unary main_v99 main_v100 (transpose S512x128x64 [1, 2, 0] · transposes_S64x512x128_S512x128x64_1_2_0),
    reshape main_v100 main_v101 rfl shapeCasts_S512x128x64_S512x8192,
    binary main_v30 main_v101 main_v102 (fun l r => Host.dotGeneral dot_S512x512_S512x8192_S512x8192_1_0_0_1_n_n none l r),
    binary main_v30 main_v102 main_v103 (fun l r => Host.dotGeneral dot_S512x512_S512x8192_S512x8192_1_0_0_1_n_n none l r),
    nullary main_cst_10 (constant S_ .f32 0x40000000#32),
    unary main_cst_10 main_v104 (broadcastInDim S512x8192 ![] bcast_S_S512x8192),
    binary main_v104 main_v103 main_v105 mulf,
    binary main_v105 main_v101 main_v106 subf,
    unary main_v101 main_v107 (broadcastInDim S1x512x8192 ![1, 2] bcast_S512x8192_S1x512x8192_1_2) ]

set_option maxHeartbeats 8000000 in
theorem step_13 (h : Inv_12 x0 x1 x2 x3 x4 x5 x6 x7 x8 x9 x10 x11 x12 W) : Inv_13 x0 x1 x2 x3 x4 x5 x6 x7 x8 x9 x10 x11 x12 (after (ops_13 (F := F)) W) where
  toInv_0 := h.toInv_0.carry (by constructor <;> (unfold ops_13; stage_results))
  b_v30 := by unfold ops_13; stage_results; exact h.b_v30
  b_v94 := by unfold ops_13; stage_results; exact h.b_v94
  b_v96 := by unfold ops_13; stage_results; exact h.b_v96
  b_v102 := by
    unfold ops_13; stage_results
    rw [h.b_v30, h.b_v97, h.b_v98]
    rfl
  b_v106 := by
    unfold ops_13; stage_results
    rw [h.b_v30, h.b_v97, h.b_v98]
    rfl
  b_v107 := by
    unfold ops_13; stage_results
    rw [h.b_v97, h.b_v98]
    rfl

def ops_14 : List (HloOp τ sig (Elt F)) :=
  [ unary main_v102 main_v108 (broadcastInDim S1x512x8192 ![1, 2] bcast_S512x8192_S1x512x8192_1_2),
    unary main_v106 main_v109 (broadcastInDim S1x512x8192 ![1, 2] bcast_S512x8192_S1x512x8192_1_2) ]

set_option maxHeartbeats 8000000 in
theorem step_14 (h : Inv_13 x0 x1 x2 x3 x4 x5 x6 x7 x8 x9 x10 x11 x12 W) : Inv_14 x0 x1 x2 x3 x4 x5 x6 x7 x8 x9 x10 x11 x12 (after (ops_14 (F := F)) W) where
  toInv_0 := h.toInv_0.carry (by constructor <;> (unfold ops_14; stage_results))
  b_v30 := by unfold ops_14; stage_results; exact h.b_v30
  b_v94 := by unfold ops_14; stage_results; exact h.b_v94
  b_v96 := by unfold ops_14; stage_results; exact h.b_v96
  b_v107 := by unfold ops_14; stage_results; exact h.b_v107
  b_v108 := by
    unfold ops_14; stage_results
    rw [h.b_v102]
    rfl
  b_v109 := by
    unfold ops_14; stage_results
    rw [h.b_v106]
    rfl

end Cert.RefSpec.RunH

end
-- ==== Proof.RefRunS3.lean ====
import proofs.«107218_g19069654794669_cont_sun_m_30_13_alg».proof.Proof.RefRunInv

noncomputable section

namespace Cert.RefSpec.RunH

open Cert.ReferenceIdeal Cert.ReferenceIdeal.Gen Cert.ReferenceIdeal.Read Idealize.ShloMosaic Idealize.ShloMosaic.TcCoe Idealize.SL.Sem Idealize.ShloMosaic.StableHlo

variable {F : FTy → Type} [FloatOps F] {x0 : (⟨S64x512, .f32⟩ : BufTy).Contents (Elt F)} {x1 : (⟨S2x64x32768, .f32⟩ : BufTy).Contents (Elt F)} {x2 : (⟨S512x512, .f32⟩ : BufTy).Contents (Elt F)} {x3 : (⟨S195x128, .f32⟩ : BufTy).Contents (Elt F)} {x4 : (⟨S128, .f32⟩ : BufTy).Contents (Elt F)} {x5 : (⟨S195x64, .f32⟩ : BufTy).Contents (Elt F)} {x6 : (⟨S64, .f32⟩ : BufTy).Contents (Elt F)} {x7 : (⟨S384x128, .f32⟩ : BufTy).Contents (Elt F)} {x8 : (⟨S128, .f32⟩ : BufTy).Contents (Elt F)} {x9 : (⟨S384x64, .f32⟩ : BufTy).Contents (Elt F)} {x10 : (⟨S64, .f32⟩ : BufTy).Contents (Elt F)} {x11 : (⟨S64x1, .f32⟩ : BufTy).Contents (Elt F)} {x12 : (⟨S1, .f32⟩ : BufTy).Contents (Elt F)} {W : Valuation τ sig (Elt F)}

def ops_15 : List (HloOp τ sig (Elt F)) :=
  [ nary ![main_v107, main_v108, main_v109] main_v110 (fun u => concatenate S3x512x8192 0 [⟨S1x512x8192, u 0⟩, ⟨S1x512x8192, u 1⟩, ⟨S1x512x8192, u 2⟩] concatenates_S1x512x8192_S1x512x8192_S1x512x8192_S3x512x8192_d0),
    reshape main_v110 main_v111 rfl shapeCasts_S3x512x8192_S3x512x128x64,
    unary main_v111 main_v112 (transpose S64x512x128x3 [3, 1, 2, 0] · transposes_S3x512x128x64_S64x512x128x3_3_1_2_0),
    reshape main_v112 main_v113 rfl shapeCasts_S64x512x128x3_S32768x384,
    binary main_v113 main_arg7 main_v114 (fun l r => Host.dotGeneral dot_S32768x384_S384x128_S32768x128_1_0_0_1_n_n none l r),
    unary main_arg8 main_v115 (broadcastInDim S1x128 ![1] bcast_S128_S1x128_1),
    unary main_v115 main_v116 (broadcastInDim S32768x128 ![0, 1] bcast_S1x128_S32768x128_0_1),
    binary main_v114 main_v116 main_v117 addf,
    reshape main_v117 main_v118 rfl shapeCasts_S32768x128_S64x65536,
    unary main_v118 main_v119 Host.negf ]

set_option maxHeartbeats 8000000 in
theorem step_15 (h : Inv_14 x0 x1 x2 x3 x4 x5 x6 x7 x8 x9 x10 x11 x12 W) : Inv_15 x0 x1 x2 x3 x4 x5 x6 x7 x8 x9 x10 x11 x12 (after (ops_15 (F := F)) W) where
  toInv_0 := h.toInv_0.carry (by constructor <;> (unfold ops_15; stage_results))
  b_v30 := by unfold ops_15; stage_results; exact h.b_v30
  b_v94 := by unfold ops_15; stage_results; exact h.b_v94
  b_v96 := by unfold ops_15; stage_results; exact h.b_v96
  b_v119 := by
    unfold ops_15; stage_results
    rw [h.b_v107, h.b_v108, h.b_v109, h.b_arg7, h.b_arg8]
    rfl

def ops_16 : List (HloOp τ sig (Elt F)) :=
  [ unary main_v119 main_v120 Host.exp,
    nullary main_cst_11 (constant S_ .f32 0x3F800000#32),
    unary main_cst_11 main_v121 (broadcastInDim S64x65536 ![] bcast_S_S64x65536),
    binary main_v121 main_v120 main_v122 addf,
    nullary main_cst_12 (constant S_ .f32 0x3F800000#32),
    unary main_cst_12 main_v123 (broadcastInDim S64x65536 ![] bcast_S_S64x65536),
    binary main_v123 main_v122 main_v124 Host.divf,
    reshape main_v124 main_v125 rfl shapeCasts_S64x65536_S64x512x128,
    unary main_v125 main_v126 (extractStridedSlice S64x512x64 ![0, 0, 0] · slices_S64x512x128_S64x512x64_0_0_0),
    reshape main_v126 main_v127 rfl shapeCasts_S64x512x64_S64x32768 ]

set_option maxHeartbeats 8000000 in
theorem step_16 (h : Inv_15 x0 x1 x2 x3 x4 x5 x6 x7 x8 x9 x10 x11 x12 W) : Inv_16 x0 x1 x2 x3 x4 x5 x6 x7 x8 x9 x10 x11 x12 (after (ops_16 (F := F)) W) where
  toInv_0 := h.toInv_0.carry (by constructor <;> (unfold ops_16; stage_results))
  b_v30 := by unfold ops_16; stage_results; exact h.b_v30
  b_v94 := by unfold ops_16; stage_results; exact h.b_v94
  b_v96 := by unfold ops_16; stage_results; exact h.b_v96
  b_v125 := by
    unfold ops_16; stage_results
    rw [h.b_v119]
    rfl
  b_v127 := by
    unfold ops_16; stage_results
    rw [h.b_v119]
    rfl

def ops_17 : List (HloOp τ sig (Elt F)) :=
  [ unary main_v125 main_v128 (extractStridedSlice S64x512x64 ![0, 0, 64] · slices_S64x512x128_S64x512x64_0_0_64),
    reshape main_v128 main_v129 rfl shapeCasts_S64x512x64_S64x32768,
    binary main_v127 main_v96 main_v130 mulf,
    reshape main_v94 main_v131 rfl shapeCasts_S64x32768_S64x512x64,
    reshape main_v130 main_v132 rfl shapeCasts_S64x32768_S64x512x64,
    binary main_v131 main_v132 main_v133 (fun a b => concatenate S64x512x128 2 [⟨S64x512x64, a⟩, ⟨S64x512x64, b⟩] concatenates_S64x512x64_S64x512x64_S64x512x128_d2),
    unary main_v133 main_v134 (transpose S512x128x64 [1, 2, 0] · transposes_S64x512x128_S512x128x64_1_2_0),
    reshape main_v134 main_v135 rfl shapeCasts_S512x128x64_S512x8192,
    binary main_v30 main_v135 main_v136 (fun l r => Host.dotGeneral dot_S512x512_S512x8192_S512x8192_1_0_0_1_n_n none l r),
    binary main_v30 main_v136 main_v137 (fun l r => Host.dotGeneral dot_S512x512_S512x8192_S512x8192_1_0_0_1_n_n none l r) ]

set_option maxHeartbeats 8000000 in
theorem step_17 (h : Inv_16 x0 x1 x2 x3 x4 x5 x6 x7 x8 x9 x10 x11 x12 W) : Inv_17 x0 x1 x2 x3 x4 x5 x6 x7 x8 x9 x10 x11 x12 (after (ops_17 (F := F)) W) where
  toInv_0 := h.toInv_0.carry (by constructor <;> (unfold ops_17; stage_results))
  b_v94 := by unfold ops_17; stage_results; exact h.b_v94
  b_v96 := by unfold ops_17; stage_results; exact h.b_v96
  b_v129 := by
    unfold ops_17; stage_results
    rw [h.b_v125]
    rfl
  b_v135 := by
    unfold ops_17; stage_results
    rw [h.b_v94, h.b_v127, h.b_v96]
    rfl
  b_v136 := by
    unfold ops_17; stage_results
    rw [h.b_v30, h.b_v94, h.b_v127, h.b_v96]
    rfl
  b_v137 := by
    unfold ops_17; stage_results
    rw [h.b_v30, h.b_v94, h.b_v127, h.b_v96]
    rfl

def ops_18 : List (HloOp τ sig (Elt F)) :=
  [ nullary main_cst_13 (constant S_ .f32 0x40000000#32),
    unary main_cst_13 main_v138 (broadcastInDim S512x8192 ![] bcast_S_S512x8192),
    binary main_v138 main_v137 main_v139 mulf,
    binary main_v139 main_v135 main_v140 subf,
    unary main_v135 main_v141 (broadcastInDim S1x512x8192 ![1, 2] bcast_S512x8192_S1x512x8192_1_2),
    unary main_v136 main_v142 (broadcastInDim S1x512x8192 ![1, 2] bcast_S512x8192_S1x512x8192_1_2),
    unary main_v140 main_v143 (broadcastInDim S1x512x8192 ![1, 2] bcast_S512x8192_S1x512x8192_1_2) ]

set_option maxHeartbeats 8000000 in
theorem step_18 (h : Inv_17 x0 x1 x2 x3 x4 x5 x6 x7 x8 x9 x10 x11 x12 W) : Inv_18 x0 x1 x2 x3 x4 x5 x6 x7 x8 x9 x10 x11 x12 (after (ops_18 (F := F)) W) where
  toInv_0 := h.toInv_0.carry (by constructor <;> (unfold ops_18; stage_results))
  b_v94 := by unfold ops_18; stage_results; exact h.b_v94
  b_v96 := by unfold ops_18; stage_results; exact h.b_v96
  b_v129 := by unfold ops_18; stage_results; exact h.b_v129
  b_v141 := by
    unfold ops_18; stage_results
    rw [h.b_v135]
    rfl
  b_v142 := by
    unfold ops_18; stage_results
    rw [h.b_v136]
    rfl
  b_v143 := by
    unfold ops_18; stage_results
    rw [h.b_v137, h.b_v135]
    rfl

def ops_19 : List (HloOp τ sig (Elt F)) :=
  [ nary ![main_v141, main_v142, main_v143] main_v144 (fun u => concatenate S3x512x8192 0 [⟨S1x512x8192, u 0⟩, ⟨S1x512x8192, u 1⟩, ⟨S1x512x8192, u 2⟩] concatenates_S1x512x8192_S1x512x8192_S1x512x8192_S3x512x8192_d0),
    reshape main_v144 main_v145 rfl shapeCasts_S3x512x8192_S3x512x128x64,
    unary main_v145 main_v146 (transpose S64x512x128x3 [3, 1, 2, 0] · transposes_S3x512x128x64_S64x512x128x3_3_1_2_0),
    reshape main_v146 main_v147 rfl shapeCasts_S64x512x128x3_S32768x384,
    binary main_v147 main_arg9 main_v148 (fun l r => Host.dotGeneral dot_S32768x384_S384x64_S32768x64_1_0_0_1_n_n none l r),
    unary main_arg10 main_v149 (broadcastInDim S1x64 ![1] bcast_S64_S1x64_1),
    unary main_v149 main_v150 (broadcastInDim S32768x64 ![0, 1] bcast_S1x64_S32768x64_0_1),
    binary main_v148 main_v150 main_v151 addf,
    reshape main_v151 main_v152 rfl shapeCasts_S32768x64_S64x32768,
    unary main_v152 main_v153 Host.tanh ]

set_option maxHeartbeats 8000000 in
theorem step_19 (h : Inv_18 x0 x1 x2 x3 x4 x5 x6 x7 x8 x9 x10 x11 x12 W) : Inv_19 x0 x1 x2 x3 x4 x5 x6 x7 x8 x9 x10 x11 x12 (after (ops_19 (F := F)) W) where
  toInv_0 := h.toInv_0.carry (by constructor <;> (unfold ops_19; stage_results))
  b_v94 := by unfold ops_19; stage_results; exact h.b_v94
  b_v96 := by unfold ops_19; stage_results; exact h.b_v96
  b_v129 := by unfold ops_19; stage_results; exact h.b_v129
  b_v153 := by
    unfold ops_19; stage_results
    rw [h.b_v141, h.b_v142, h.b_v143, h.b_arg9, h.b_arg10]
    rfl

def ops_20 : List (HloOp τ sig (Elt F)) :=
  [ binary main_v129 main_v96 main_v154 mulf,
    nullary main_cst_14 (constant S_ .f32 0x3F800000#32),
    unary main_cst_14 main_v155 (broadcastInDim S64x32768 ![] bcast_S_S64x32768),
    binary main_v155 main_v129 main_v156 subf,
    binary main_v156 main_v153 main_v157 mulf,
    binary main_v154 main_v157 main_v158 addf,
    reshape main_v158 main_v159 rfl shapeCasts_S64x32768_S32768x64,
    binary main_v159 main_arg11 main_v160 (fun l r => Host.dotGeneral dot_S32768x64_S64x1_S32768x1_1_0_0_1_n_n none l r),
    unary main_arg12 main_v161 (broadcastInDim S1x1 ![1] bcast_S1_S1x1_1),
    unary main_v161 main_v162 (broadcastInDim S32768x1 ![0, 1] bcast_S1x1_S32768x1_0_1) ]

set_option maxHeartbeats 8000000 in
theorem step_20 (h : Inv_19 x0 x1 x2 x3 x4 x5 x6 x7 x8 x9 x10 x11 x12 W) : Inv_20 x0 x1 x2 x3 x4 x5 x6 x7 x8 x9 x10 x11 x12 (after (ops_20 (F := F)) W) where
  toInv_0 := h.toInv_0.carry (by constructor <;> (unfold ops_20; stage_results))
  b_v94 := by unfold ops_20; stage_results; exact h.b_v94
  b_v158 := by
    unfold ops_20; stage_results
    rw [h.b_v129, h.b_v96, h.b_v153]
    rfl
  b_v160 := by
    unfold ops_20; stage_results
    rw [h.b_v129, h.b_v96, h.b_v153, h.b_arg11]
    rfl
  b_v162 := by
    unfold ops_20; stage_results
    rw [h.b_arg12]
    rfl

def ops_21 : List (HloOp τ sig (Elt F)) :=
  [ binary main_v160 main_v162 main_v163 addf,
    reshape main_v163 main_v164 rfl shapeCasts_S32768x1_S64x512,
    unary main_v94 main_v165 (broadcastInDim S1x64x32768 ![1, 2] bcast_S64x32768_S1x64x32768_1_2),
    unary main_v158 main_v166 (broadcastInDim S1x64x32768 ![1, 2] bcast_S64x32768_S1x64x32768_1_2),
    binary main_v165 main_v166 main_v167 (fun a b => concatenate S2x64x32768 0 [⟨S1x64x32768, a⟩, ⟨S1x64x32768, b⟩] concatenates_S1x64x32768_S1x64x32768_S2x64x32768_d0) ]

set_option maxHeartbeats 8000000 in
theorem step_21 (h : Inv_20 x0 x1 x2 x3 x4 x5 x6 x7 x8 x9 x10 x11 x12 W) : Inv_21 x0 x1 x2 x3 x4 x5 x6 x7 x8 x9 x10 x11 x12 (after (ops_21 (F := F)) W) where
  toInv_0 := h.toInv_0.carry (by constructor <;> (unfold ops_21; stage_results))
  b_v164 := by
    unfold ops_21; stage_results
    rw [h.b_v160, h.b_v162]
    rfl
  b_v167 := by
    unfold ops_21; stage_results
    rw [h.b_v94, h.b_v158]
    rfl

end Cert.RefSpec.RunH

end
-- ==== Proof.RefRunH.lean ====
import proofs.«107218_g19069654794669_cont_sun_m_30_13_alg».proof.Proof.RefRunS1
import proofs.«107218_g19069654794669_cont_sun_m_30_13_alg».proof.Proof.RefRunS2
import proofs.«107218_g19069654794669_cont_sun_m_30_13_alg».proof.Proof.RefRunS3

noncomputable section

namespace Cert.RefSpec.RunH

open Cert.ReferenceIdeal Cert.ReferenceIdeal.Gen Cert.ReferenceIdeal.Read Idealize.ShloMosaic Idealize.ShloMosaic.TcCoe Idealize.SL.Sem Idealize.ShloMosaic.StableHlo

variable {F : FTy → Type} [FloatOps F] {x0 : (⟨S64x512, .f32⟩ : BufTy).Contents (Elt F)} {x1 : (⟨S2x64x32768, .f32⟩ : BufTy).Contents (Elt F)} {x2 : (⟨S512x512, .f32⟩ : BufTy).Contents (Elt F)} {x3 : (⟨S195x128, .f32⟩ : BufTy).Contents (Elt F)} {x4 : (⟨S128, .f32⟩ : BufTy).Contents (Elt F)} {x5 : (⟨S195x64, .f32⟩ : BufTy).Contents (Elt F)} {x6 : (⟨S64, .f32⟩ : BufTy).Contents (Elt F)} {x7 : (⟨S384x128, .f32⟩ : BufTy).Contents (Elt F)} {x8 : (⟨S128, .f32⟩ : BufTy).Contents (Elt F)} {x9 : (⟨S384x64, .f32⟩ : BufTy).Contents (Elt F)} {x10 : (⟨S64, .f32⟩ : BufTy).Contents (Elt F)} {x11 : (⟨S64x1, .f32⟩ : BufTy).Contents (Elt F)} {x12 : (⟨S1, .f32⟩ : BufTy).Contents (Elt F)}

def ops : List (HloOp τ sig (Elt F)) := ops_1 ++ (ops_2 ++ (ops_3 ++ (ops_4 ++ (ops_5 ++ (ops_6 ++ (ops_7 ++ (ops_8 ++ (ops_9 ++ (ops_10 ++ (ops_11 ++ (ops_12 ++ (ops_13 ++ (ops_14 ++ (ops_15 ++ (ops_16 ++ (ops_17 ++ (ops_18 ++ (ops_19 ++ (ops_20 ++ (ops_21))))))))))))))))))))

set_option maxRecDepth 8192 in
set_option maxHeartbeats 16000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide

theorem ops_ok : (ops : List (HloOp τ sig (Elt F))).Forall fun op => op.bufs ⊆ tcRefs τ sig ∧ op.fresh = ∅ := by
  simp only [ops, List.forall_append]
  exact ⟨by unfold ops_1; exact ⟨⟨unary_bufs_sub .., rfl⟩, ⟨binary_bufs_sub .., rfl⟩, ⟨nullary_bufs_sub .., rfl⟩, ⟨binary_bufs_sub .., rfl⟩, ⟨nullary_bufs_sub .., rfl⟩, ⟨unary_bufs_sub .., rfl⟩, ⟨binary_bufs_sub .., rfl⟩, ⟨unary_bufs_sub .., rfl⟩, ⟨nullary_bufs_sub .., rfl⟩, ⟨unary_bufs_sub .., rfl⟩⟩,
    by unfold ops_2; exact ⟨⟨binary_bufs_sub .., rfl⟩, ⟨nullary_bufs_sub .., rfl⟩, ⟨unary_bufs_sub .., rfl⟩, ⟨unary_bufs_sub .., rfl⟩, ⟨ternary_bufs_sub .., rfl⟩, ⟨nullary_bufs_sub .., rfl⟩, ⟨nullary_bufs_sub .., rfl⟩, ⟨nullary_bufs_sub .., rfl⟩, ⟨unary_bufs_sub .., rfl⟩, ⟨binary_bufs_sub .., rfl⟩⟩,
    by unfold ops_3; exact ⟨⟨binary_bufs_sub .., rfl⟩, ⟨unary_bufs_sub .., rfl⟩, ⟨unary_bufs_sub .., rfl⟩, ⟨unary_bufs_sub .., rfl⟩, ⟨binary_bufs_sub .., rfl⟩, ⟨unary_bufs_sub .., rfl⟩, ⟨unary_bufs_sub .., rfl⟩, ⟨binary_bufs_sub .., rfl⟩, ⟨binary_bufs_sub .., rfl⟩, ⟨nullary_bufs_sub .., rfl⟩⟩,
    by unfold ops_4; exact ⟨⟨unary_bufs_sub .., rfl⟩, ⟨binary_bufs_sub .., rfl⟩, ⟨nullary_bufs_sub .., rfl⟩, ⟨nullary_bufs_sub .., rfl⟩, ⟨nullary_bufs_sub .., rfl⟩, ⟨unary_bufs_sub .., rfl⟩, ⟨binary_bufs_sub .., rfl⟩, ⟨binary_bufs_sub .., rfl⟩, ⟨unary_bufs_sub .., rfl⟩, ⟨binary_bufs_sub .., rfl⟩⟩,
    by unfold ops_5; exact ⟨⟨unary_bufs_sub .., rfl⟩, ⟨reshape_bufs_sub .., rfl⟩, ⟨reshape_bufs_sub .., rfl⟩, ⟨reshape_bufs_sub .., rfl⟩, ⟨binary_bufs_sub .., rfl⟩, ⟨unary_bufs_sub .., rfl⟩, ⟨reshape_bufs_sub .., rfl⟩, ⟨binary_bufs_sub .., rfl⟩, ⟨binary_bufs_sub .., rfl⟩, ⟨nullary_bufs_sub .., rfl⟩⟩,
    by unfold ops_6; exact ⟨⟨unary_bufs_sub .., rfl⟩, ⟨binary_bufs_sub .., rfl⟩, ⟨binary_bufs_sub .., rfl⟩, ⟨unary_bufs_sub .., rfl⟩, ⟨unary_bufs_sub .., rfl⟩, ⟨unary_bufs_sub .., rfl⟩⟩,
    by unfold ops_7; exact ⟨⟨nary_bufs_sub .., rfl⟩, ⟨reshape_bufs_sub .., rfl⟩, ⟨unary_bufs_sub .., rfl⟩, ⟨reshape_bufs_sub .., rfl⟩, ⟨binary_bufs_sub .., rfl⟩, ⟨unary_bufs_sub .., rfl⟩, ⟨unary_bufs_sub .., rfl⟩, ⟨binary_bufs_sub .., rfl⟩, ⟨reshape_bufs_sub .., rfl⟩, ⟨unary_bufs_sub .., rfl⟩⟩,
    by unfold ops_8; exact ⟨⟨unary_bufs_sub .., rfl⟩, ⟨nullary_bufs_sub .., rfl⟩, ⟨unary_bufs_sub .., rfl⟩, ⟨binary_bufs_sub .., rfl⟩, ⟨nullary_bufs_sub .., rfl⟩, ⟨unary_bufs_sub .., rfl⟩, ⟨binary_bufs_sub .., rfl⟩, ⟨reshape_bufs_sub .., rfl⟩, ⟨unary_bufs_sub .., rfl⟩, ⟨reshape_bufs_sub .., rfl⟩⟩,
    by unfold ops_9; exact ⟨⟨unary_bufs_sub .., rfl⟩, ⟨reshape_bufs_sub .., rfl⟩, ⟨binary_bufs_sub .., rfl⟩, ⟨reshape_bufs_sub .., rfl⟩, ⟨reshape_bufs_sub .., rfl⟩, ⟨binary_bufs_sub .., rfl⟩, ⟨unary_bufs_sub .., rfl⟩, ⟨reshape_bufs_sub .., rfl⟩, ⟨binary_bufs_sub .., rfl⟩, ⟨binary_bufs_sub .., rfl⟩⟩,
    by unfold ops_10; exact ⟨⟨nullary_bufs_sub .., rfl⟩, ⟨unary_bufs_sub .., rfl⟩, ⟨binary_bufs_sub .., rfl⟩, ⟨binary_bufs_sub .., rfl⟩, ⟨unary_bufs_sub .., rfl⟩, ⟨unary_bufs_sub .., rfl⟩, ⟨unary_bufs_sub .., rfl⟩⟩,
    by unfold ops_11; exact ⟨⟨nary_bufs_sub .., rfl⟩, ⟨reshape_bufs_sub .., rfl⟩, ⟨unary_bufs_sub .., rfl⟩, ⟨reshape_bufs_sub .., rfl⟩, ⟨binary_bufs_sub .., rfl⟩, ⟨unary_bufs_sub .., rfl⟩, ⟨unary_bufs_sub .., rfl⟩, ⟨binary_bufs_sub .., rfl⟩, ⟨reshape_bufs_sub .., rfl⟩, ⟨unary_bufs_sub .., rfl⟩⟩,
    by unfold ops_12; exact ⟨⟨binary_bufs_sub .., rfl⟩, ⟨nullary_bufs_sub .., rfl⟩, ⟨unary_bufs_sub .., rfl⟩, ⟨binary_bufs_sub .., rfl⟩, ⟨binary_bufs_sub .., rfl⟩, ⟨binary_bufs_sub .., rfl⟩, ⟨unary_bufs_sub .., rfl⟩, ⟨reshape_bufs_sub .., rfl⟩, ⟨reshape_bufs_sub .., rfl⟩, ⟨reshape_bufs_sub .., rfl⟩⟩,
    by unfold ops_13; exact ⟨⟨binary_bufs_sub .., rfl⟩, ⟨unary_bufs_sub .., rfl⟩, ⟨reshape_bufs_sub .., rfl⟩, ⟨binary_bufs_sub .., rfl⟩, ⟨binary_bufs_sub .., rfl⟩, ⟨nullary_bufs_sub .., rfl⟩, ⟨unary_bufs_sub .., rfl⟩, ⟨binary_bufs_sub .., rfl⟩, ⟨binary_bufs_sub .., rfl⟩, ⟨unary_bufs_sub .., rfl⟩⟩,
    by unfold ops_14; exact ⟨⟨unary_bufs_sub .., rfl⟩, ⟨unary_bufs_sub .., rfl⟩⟩,
    by unfold ops_15; exact ⟨⟨nary_bufs_sub .., rfl⟩, ⟨reshape_bufs_sub .., rfl⟩, ⟨unary_bufs_sub .., rfl⟩, ⟨reshape_bufs_sub .., rfl⟩, ⟨binary_bufs_sub .., rfl⟩, ⟨unary_bufs_sub .., rfl⟩, ⟨unary_bufs_sub .., rfl⟩, ⟨binary_bufs_sub .., rfl⟩, ⟨reshape_bufs_sub .., rfl⟩, ⟨unary_bufs_sub .., rfl⟩⟩,
    by unfold ops_16; exact ⟨⟨unary_bufs_sub .., rfl⟩, ⟨nullary_bufs_sub .., rfl⟩, ⟨unary_bufs_sub .., rfl⟩, ⟨binary_bufs_sub .., rfl⟩, ⟨nullary_bufs_sub .., rfl⟩, ⟨unary_bufs_sub .., rfl⟩, ⟨binary_bufs_sub .., rfl⟩, ⟨reshape_bufs_sub .., rfl⟩, ⟨unary_bufs_sub .., rfl⟩, ⟨reshape_bufs_sub .., rfl⟩⟩,
    by unfold ops_17; exact ⟨⟨unary_bufs_sub .., rfl⟩, ⟨reshape_bufs_sub .., rfl⟩, ⟨binary_bufs_sub .., rfl⟩, ⟨reshape_bufs_sub .., rfl⟩, ⟨reshape_bufs_sub .., rfl⟩, ⟨binary_bufs_sub .., rfl⟩, ⟨unary_bufs_sub .., rfl⟩, ⟨reshape_bufs_sub .., rfl⟩, ⟨binary_bufs_sub .., rfl⟩, ⟨binary_bufs_sub .., rfl⟩⟩,
    by unfold ops_18; exact ⟨⟨nullary_bufs_sub .., rfl⟩, ⟨unary_bufs_sub .., rfl⟩, ⟨binary_bufs_sub .., rfl⟩, ⟨binary_bufs_sub .., rfl⟩, ⟨unary_bufs_sub .., rfl⟩, ⟨unary_bufs_sub .., rfl⟩, ⟨unary_bufs_sub .., rfl⟩⟩,
    by unfold ops_19; exact ⟨⟨nary_bufs_sub .., rfl⟩, ⟨reshape_bufs_sub .., rfl⟩, ⟨unary_bufs_sub .., rfl⟩, ⟨reshape_bufs_sub .., rfl⟩, ⟨binary_bufs_sub .., rfl⟩, ⟨unary_bufs_sub .., rfl⟩, ⟨unary_bufs_sub .., rfl⟩, ⟨binary_bufs_sub .., rfl⟩, ⟨reshape_bufs_sub .., rfl⟩, ⟨unary_bufs_sub .., rfl⟩⟩,
    by unfold ops_20; exact ⟨⟨binary_bufs_sub .., rfl⟩, ⟨nullary_bufs_sub .., rfl⟩, ⟨unary_bufs_sub .., rfl⟩, ⟨binary_bufs_sub .., rfl⟩, ⟨binary_bufs_sub .., rfl⟩, ⟨binary_bufs_sub .., rfl⟩, ⟨reshape_bufs_sub .., rfl⟩, ⟨binary_bufs_sub .., rfl⟩, ⟨unary_bufs_sub .., rfl⟩, ⟨unary_bufs_sub .., rfl⟩⟩,
    by unfold ops_21; exact ⟨⟨binary_bufs_sub .., rfl⟩, ⟨reshape_bufs_sub .., rfl⟩, ⟨unary_bufs_sub .., rfl⟩, ⟨unary_bufs_sub .., rfl⟩, ⟨binary_bufs_sub .., rfl⟩⟩⟩

theorem after_ops {V : Valuation τ sig (Elt F)}
    (h : Inv_0 x0 x1 x2 x3 x4 x5 x6 x7 x8 x9 x10 x11 x12 V) : Inv_21 x0 x1 x2 x3 x4 x5 x6 x7 x8 x9 x10 x11 x12 (after (ops (F := F)) V) := by
  unfold ops
  simp only [after_append]
  exact step_21 (step_20 (step_19 (step_18 (step_17 (step_16 (step_15 (step_14 (step_13 (step_12 (step_11 (step_10 (step_9 (step_8 (step_7 (step_6 (step_5 (step_4 (step_3 (step_2 (step_1 (h)))))))))))))))))))))

theorem run_all (m : (ℓ : Loc nD τ sig) → Buf (Elt F) ℓ) (ρ : Dev nD → PrngReg) :
    θ_run defs (onTc (τ := τ) (main (F := F))) ⟨m, fun _ => 0, ρ⟩ fun r =>
      ∀ (d : Dev nD) (b : Ref sig .tc), r.2.mem ((d.tc : Thread nD τ).loc b) = after (ops (F := F)) (launchContents m d) (Proc.devRef .tc b) :=
  run_seq scopedRefs_eq scopedSems_eq defs main (fun _ => ops) main_eq (fun _ => ops_ok.imp fun _ h => h.1) m ρ (fun _ op h => (List.forall_iff_forall_mem.mp ops_ok op h).2)

theorem run_stages (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v164) = val_main_v164 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12))
      ∧ r.2.mem ((c.tc : Thread nD τ).loc main_v167) = val_main_v167 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12) :=
  (θ_run defs _ _).mono (fun _ h c =>
    have I := after_ops (F := F) (V := launchContents m c)
      ⟨rfl, rfl, rfl, rfl, rfl, rfl, rfl, rfl, rfl, rfl, rfl, rfl, rfl⟩
    ⟨(h c main_v164).trans I.b_v164, (h c main_v167).trans I.b_v167,
      (h c main_arg0).trans I.b_arg0,
      (h c main_arg1).trans I.b_arg1,
      (h c main_arg2).trans I.b_arg2,
      (h c main_arg3).trans I.b_arg3,
      (h c main_arg4).trans I.b_arg4,
      (h c main_arg5).trans I.b_arg5,
      (h c main_arg6).trans I.b_arg6,
      (h c main_arg7).trans I.b_arg7,
      (h c main_arg8).trans I.b_arg8,
      (h c main_arg9).trans I.b_arg9,
      (h c main_arg10).trans I.b_arg10,
      (h c main_arg11).trans I.b_arg11,
      (h c main_arg12).trans I.b_arg12⟩)
    (run_all m ρ)

end Cert.RefSpec.RunH

end
-- ==== Proof.Alg.lean ====
import proofs.«107218_g19069654794669_cont_sun_m_30_13_alg».proof.Defs
import proofs.«107218_g19069654794669_cont_sun_m_30_13_alg».proof.Proof.Spec
import proofs.«107218_g19069654794669_cont_sun_m_30_13_alg».proof.Proof.Gen.KernelIdeal
import proofs.«107218_g19069654794669_cont_sun_m_30_13_alg».proof.Proof.Gen.ReferenceIdeal
import proofs.«107218_g19069654794669_cont_sun_m_30_13_alg».proof.Proof.Gen.Pre_finite_inputs

noncomputable section

namespace Cert.Proof.Alg

open Idealize.ShloMosaic Idealize.SL.Sem

def KA (m : (ℓ : Loc KernelIdeal.nD KernelIdeal.τ KernelIdeal.sig) → Buf (Elt Ideal) ℓ) (c : Dev KernelIdeal.nD) : Spec.Args :=
  Spec.argsOf (m (c.tc.loc KernelIdeal.main_arg0)) (m (c.tc.loc KernelIdeal.main_arg1)) (m (c.tc.loc KernelIdeal.main_arg2)) (m (c.tc.loc KernelIdeal.main_arg3)) (m (c.tc.loc KernelIdeal.main_arg4))
    (m (c.tc.loc KernelIdeal.main_arg5)) (m (c.tc.loc KernelIdeal.main_arg6)) (m (c.tc.loc KernelIdeal.main_arg7)) (m (c.tc.loc KernelIdeal.main_arg8))
    (m (c.tc.loc KernelIdeal.main_arg9)) (m (c.tc.loc KernelIdeal.main_arg10)) (m (c.tc.loc KernelIdeal.main_arg11)) (m (c.tc.loc KernelIdeal.main_arg12))

def RA (m : (ℓ : Loc ReferenceIdeal.nD ReferenceIdeal.τ ReferenceIdeal.sig) → Buf (Elt Ideal) ℓ) (c : Dev ReferenceIdeal.nD) : Spec.Args :=
  Spec.argsOf (m (c.tc.loc ReferenceIdeal.main_arg0)) (m (c.tc.loc ReferenceIdeal.main_arg1)) (m (c.tc.loc ReferenceIdeal.main_arg2)) (m (c.tc.loc ReferenceIdeal.main_arg3)) (m (c.tc.loc ReferenceIdeal.main_arg4))
    (m (c.tc.loc ReferenceIdeal.main_arg5)) (m (c.tc.loc ReferenceIdeal.main_arg6)) (m (c.tc.loc ReferenceIdeal.main_arg7)) (m (c.tc.loc ReferenceIdeal.main_arg8))
    (m (c.tc.loc ReferenceIdeal.main_arg9)) (m (c.tc.loc ReferenceIdeal.main_arg10)) (m (c.tc.loc ReferenceIdeal.main_arg11)) (m (c.tc.loc ReferenceIdeal.main_arg12))

variable
  (hk : ∀ (m : (ℓ : Loc KernelIdeal.nD KernelIdeal.τ KernelIdeal.sig) → Buf (Elt Ideal) ℓ) (g : Dev KernelIdeal.nD → PrngReg),
    θ_run (KernelIdeal.defs (F := Ideal)) (onTc (τ := KernelIdeal.τ) (KernelIdeal.main (F := Ideal))) ⟨m, fun _ => 0, g⟩ fun r => ∀ c : Dev KernelIdeal.nD,
      r.2.mem (c.tc.loc KernelIdeal.main_v25) = Spec.outArr (KA m c) ∧ r.2.mem (c.tc.loc KernelIdeal.main_v28) = Spec.hidArr (KA m c)
      ∧ r.2.mem (c.tc.loc KernelIdeal.main_arg0) = m (c.tc.loc KernelIdeal.main_arg0)
      ∧ r.2.mem (c.tc.loc KernelIdeal.main_arg1) = m (c.tc.loc KernelIdeal.main_arg1)
      ∧ r.2.mem (c.tc.loc KernelIdeal.main_arg2) = m (c.tc.loc KernelIdeal.main_arg2)
      ∧ r.2.mem (c.tc.loc KernelIdeal.main_arg3) = m (c.tc.loc KernelIdeal.main_arg3)
      ∧ r.2.mem (c.tc.loc KernelIdeal.main_arg4) = m (c.tc.loc KernelIdeal.main_arg4)
      ∧ r.2.mem (c.tc.loc KernelIdeal.main_arg5) = m (c.tc.loc KernelIdeal.main_arg5)
      ∧ r.2.mem (c.tc.loc KernelIdeal.main_arg6) = m (c.tc.loc KernelIdeal.main_arg6)
      ∧ r.2.mem (c.tc.loc KernelIdeal.main_arg7) = m (c.tc.loc KernelIdeal.main_arg7)
      ∧ r.2.mem (c.tc.loc KernelIdeal.main_arg8) = m (c.tc.loc KernelIdeal.main_arg8)
      ∧ r.2.mem (c.tc.loc KernelIdeal.main_arg9) = m (c.tc.loc KernelIdeal.main_arg9)
      ∧ r.2.mem (c.tc.loc KernelIdeal.main_arg10) = m (c.tc.loc KernelIdeal.main_arg10)
      ∧ r.2.mem (c.tc.loc KernelIdeal.main_arg11) = m (c.tc.loc KernelIdeal.main_arg11)
      ∧ r.2.mem (c.tc.loc KernelIdeal.main_arg12) = m (c.tc.loc KernelIdeal.main_arg12))
  (hr : ∀ (m : (ℓ : Loc ReferenceIdeal.nD ReferenceIdeal.τ ReferenceIdeal.sig) → Buf (Elt Ideal) ℓ) (g : Dev ReferenceIdeal.nD → PrngReg),
    θ_run (ReferenceIdeal.defs (F := Ideal)) (onTc (τ := ReferenceIdeal.τ) (ReferenceIdeal.main (F := Ideal))) ⟨m, fun _ => 0, g⟩ fun r => ∀ c : Dev ReferenceIdeal.nD,
      r.2.mem (c.tc.loc ReferenceIdeal.main_v164) = Spec.outArr (RA m c) ∧ r.2.mem (c.tc.loc ReferenceIdeal.main_v167) = Spec.hidArr (RA m c)
      ∧ r.2.mem (c.tc.loc ReferenceIdeal.main_arg0) = m (c.tc.loc ReferenceIdeal.main_arg0)
      ∧ r.2.mem (c.tc.loc ReferenceIdeal.main_arg1) = m (c.tc.loc ReferenceIdeal.main_arg1)
      ∧ r.2.mem (c.tc.loc ReferenceIdeal.main_arg2) = m (c.tc.loc ReferenceIdeal.main_arg2)
      ∧ r.2.mem (c.tc.loc ReferenceIdeal.main_arg3) = m (c.tc.loc ReferenceIdeal.main_arg3)
      ∧ r.2.mem (c.tc.loc ReferenceIdeal.main_arg4) = m (c.tc.loc ReferenceIdeal.main_arg4)
      ∧ r.2.mem (c.tc.loc ReferenceIdeal.main_arg5) = m (c.tc.loc ReferenceIdeal.main_arg5)
      ∧ r.2.mem (c.tc.loc ReferenceIdeal.main_arg6) = m (c.tc.loc ReferenceIdeal.main_arg6)
      ∧ r.2.mem (c.tc.loc ReferenceIdeal.main_arg7) = m (c.tc.loc ReferenceIdeal.main_arg7)
      ∧ r.2.mem (c.tc.loc ReferenceIdeal.main_arg8) = m (c.tc.loc ReferenceIdeal.main_arg8)
      ∧ r.2.mem (c.tc.loc ReferenceIdeal.main_arg9) = m (c.tc.loc ReferenceIdeal.main_arg9)
      ∧ r.2.mem (c.tc.loc ReferenceIdeal.main_arg10) = m (c.tc.loc ReferenceIdeal.main_arg10)
      ∧ r.2.mem (c.tc.loc ReferenceIdeal.main_arg11) = m (c.tc.loc ReferenceIdeal.main_arg11)
      ∧ r.2.mem (c.tc.loc ReferenceIdeal.main_arg12) = m (c.tc.loc ReferenceIdeal.main_arg12))

include hr

theorem frame_ReferenceIdeal_of :
    frame_ReferenceIdeal (hReferenceIdeal := ReferenceIdeal.Gen.facts) (hPre_finite_inputs := Pre_finite_inputs.Gen.facts) :=
  fun m g _ => (θ_run _ _ _).mono (fun _ h c => (h c).2.2) (hr m g)

include hk

-- Memories that agree on the arguments give both programs the same specification arguments.
theorem algebraic_of : algebraic_KernelIdeal_ReferenceIdeal (hKernelIdeal := KernelIdeal.Gen.facts)
    (hReferenceIdeal := ReferenceIdeal.Gen.facts) (hPre_finite_inputs := Pre_finite_inputs.Gen.facts) := by
  intro m g m' g' _ hagree
  have hRA : ∀ c, RA m' c = KA m c := fun c => by
    obtain ⟨h0, h1, h2, h3, h4, h5, h6, h7, h8, h9, h10, h11, h12⟩ := hagree c
    unfold RA KA
    rw [h0, h1, h2, h3, h4, h5, h6, h7, h8, h9, h10, h11, h12]
  refine ⟨fun c => Spec.outArr (KA m c), fun c => Spec.hidArr (KA m c), hk m g, (θ_run _ _ _).mono (fun r h c => ?_) (hr m' g')⟩
  have h' := h c
  rw [hRA c] at h'
  exact h'

end Cert.Proof.Alg

end
-- ==== Proof.lean ====
import proofs.«107218_g19069654794669_cont_sun_m_30_13_alg».proof.Defs
import proofs.«107218_g19069654794669_cont_sun_m_30_13_alg».proof.Proof.K.Run
import proofs.«107218_g19069654794669_cont_sun_m_30_13_alg».proof.Proof.KI.Value
import proofs.«107218_g19069654794669_cont_sun_m_30_13_alg».proof.Proof.RefValue
import proofs.«107218_g19069654794669_cont_sun_m_30_13_alg».proof.Proof.RefRunH
import proofs.«107218_g19069654794669_cont_sun_m_30_13_alg».proof.Proof.Alg
import Idealize.ShloMosaic.Adequacy
import Idealize.ShloMosaic.Init

noncomputable section

namespace Cert.Proof

open Idealize.ShloMosaic Idealize.SL.Sem

theorem claim : Cert.Claim :=
  have reference_value := fun m g => Cert.RefSpec.ref_value_of_run m g (Cert.RefSpec.RunH.run_stages (F := Ideal) m g)
  ⟨Cert.Kernel.Gen.facts, Cert.KernelIdeal.Gen.facts, Cert.ReferenceIdeal.Gen.facts, Cert.Pre_finite_inputs.Gen.facts,
  fun m g _ => Cert.Kernel.Hand.frame m g,
  fun m g _ => Cert.KernelIdeal.Hand.frame m g,
  Cert.Proof.Alg.frame_ReferenceIdeal_of reference_value,
  trivial,
  Cert.Proof.Alg.algebraic_of (fun m g => Cert.KernelIdeal.Hand.kernel_value m g) reference_value⟩

end Cert.Proof

end
